-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v114)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v114) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v276) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131008x256 : Shape := ⟨2, ![131008, 256]⟩
abbrev S65472x2 : Shape := ⟨2, ![65472, 2]⟩
abbrev S512x256 : Shape := ⟨2, ![512, 256]⟩
abbrev S512 : Shape := ⟨1, ![512]⟩
abbrev S512x1536 : Shape := ⟨2, ![512, 1536]⟩
abbrev S_ : Shape := ⟨0, ![]⟩
abbrev S64x2 : Shape := ⟨2, ![64, 2]⟩
abbrev S128x2 : Shape := ⟨2, ![128, 2]⟩
abbrev S256x2 : Shape := ⟨2, ![256, 2]⟩
abbrev S512x2 : Shape := ⟨2, ![512, 2]⟩
abbrev S1024x2 : Shape := ⟨2, ![1024, 2]⟩
abbrev S2048x2 : Shape := ⟨2, ![2048, 2]⟩
abbrev S4096x2 : Shape := ⟨2, ![4096, 2]⟩
abbrev S8192x2 : Shape := ⟨2, ![8192, 2]⟩
abbrev S16384x2 : Shape := ⟨2, ![16384, 2]⟩
abbrev S32768x2 : Shape := ⟨2, ![32768, 2]⟩

class Facts : Prop where
  bcast_S_S131008x256 : S_.BroadcastsInDim S131008x256 (![] : Fin 0 → Fin S131008x256.rank)
  reducesTo_S131008x256_S_d0_1 : S131008x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_
  bcast_S_S512x1536 : S_.BroadcastsInDim S512x1536 (![] : Fin 0 → Fin S512x1536.rank)
  reducesTo_S512x1536_S_d0_1 : S512x1536.ReducesTo [0, 1] S_
  slices_S65472x2_S64x2_0_0 : S65472x2.Slices ![0, 0] S64x2
  bcast_S_S64x2 : S_.BroadcastsInDim S64x2 (![] : Fin 0 → Fin S64x2.rank)
  reducesTo_S64x2_S_d0_1 : S64x2.ReducesTo [0, 1] S_
  slices_S65472x2_S128x2_64_0 : S65472x2.Slices ![64, 0] S128x2
  bcast_S_S128x2 : S_.BroadcastsInDim S128x2 (![] : Fin 0 → Fin S128x2.rank)
  reducesTo_S128x2_S_d0_1 : S128x2.ReducesTo [0, 1] S_
  slices_S65472x2_S256x2_192_0 : S65472x2.Slices ![192, 0] S256x2
  bcast_S_S256x2 : S_.BroadcastsInDim S256x2 (![] : Fin 0 → Fin S256x2.rank)
  reducesTo_S256x2_S_d0_1 : S256x2.ReducesTo [0, 1] S_
  slices_S65472x2_S512x2_448_0 : S65472x2.Slices ![448, 0] S512x2
  bcast_S_S512x2 : S_.BroadcastsInDim S512x2 (![] : Fin 0 → Fin S512x2.rank)
  reducesTo_S512x2_S_d0_1 : S512x2.ReducesTo [0, 1] S_
  slices_S65472x2_S1024x2_960_0 : S65472x2.Slices ![960, 0] S1024x2
  bcast_S_S1024x2 : S_.BroadcastsInDim S1024x2 (![] : Fin 0 → Fin S1024x2.rank)
  reducesTo_S1024x2_S_d0_1 : S1024x2.ReducesTo [0, 1] S_
  slices_S65472x2_S2048x2_1984_0 : S65472x2.Slices ![1984, 0] S2048x2
  bcast_S_S2048x2 : S_.BroadcastsInDim S2048x2 (![] : Fin 0 → Fin S2048x2.rank)
  reducesTo_S2048x2_S_d0_1 : S2048x2.ReducesTo [0, 1] S_
  slices_S65472x2_S4096x2_4032_0 : S65472x2.Slices ![4032, 0] S4096x2
  bcast_S_S4096x2 : S_.BroadcastsInDim S4096x2 (![] : Fin 0 → Fin S4096x2.rank)
  reducesTo_S4096x2_S_d0_1 : S4096x2.ReducesTo [0, 1] S_
  slices_S65472x2_S8192x2_8128_0 : S65472x2.Slices ![8128, 0] S8192x2
  bcast_S_S8192x2 : S_.BroadcastsInDim S8192x2 (![] : Fin 0 → Fin S8192x2.rank)
  reducesTo_S8192x2_S_d0_1 : S8192x2.ReducesTo [0, 1] S_
  slices_S65472x2_S16384x2_16320_0 : S65472x2.Slices ![16320, 0] S16384x2
  bcast_S_S16384x2 : S_.BroadcastsInDim S16384x2 (![] : Fin 0 → Fin S16384x2.rank)
  reducesTo_S16384x2_S_d0_1 : S16384x2.ReducesTo [0, 1] S_
  slices_S65472x2_S32768x2_32704_0 : S65472x2.Slices ![32704, 0] S32768x2
  bcast_S_S32768x2 : S_.BroadcastsInDim S32768x2 (![] : Fin 0 → Fin S32768x2.rank)
  reducesTo_S32768x2_S_d0_1 : S32768x2.ReducesTo [0, 1] S_

variable [Facts]

def fn_part6 {F : FTy → Type} [FloatOps F] (main_arg1 : IVec S65472x2 32) (main_v104 : IVec S_ 1) (main_v105 : IVec S32768x2 32) (main_c_35 : IVec S_ 32) : IVec S_ 1 :=
  let main_v106 : IVec S32768x2 32 := broadcastInDim S32768x2 ![] bcast_S_S32768x2 main_c_35
  let main_v107 : IVec S32768x2 1 := cmpi .sge main_v105 main_v106
  let main_v108 : IVec S32768x2 32 := (extractStridedSlice S32768x2 ![32704, 0] · slices_S65472x2_S32768x2_32704_0) main_arg1
  let main_c_36 : IVec S_ 32 := constantI S_ 32 65535#32
  let main_v109 : IVec S32768x2 32 := broadcastInDim S32768x2 ![] bcast_S_S32768x2 main_c_36
  let main_v110 : IVec S32768x2 1 := cmpi .sle main_v108 main_v109
  let main_v111 : IVec S32768x2 1 := andi main_v107 main_v110
  let main_c_37 : IVec S_ 1 := constantI S_ 1 1#1
  let main_v112 : IVec S_ 1 := (fun x v => Host.reduce IntOp.andi x v reducesTo_S32768x2_S_d0_1 h_S_) main_v111 main_c_37
  let main_v113 : IVec S_ 1 := andi main_v104 main_v112
  main_v113

def fn_part5 {F : FTy → Type} [FloatOps F] (main_arg1 : IVec S65472x2 32) (main_v86 : IVec S_ 1) (main_v87 : IVec S8192x2 32) (main_c_29 : IVec S_ 32) : IVec S_ 1 :=
  let main_v88 : IVec S8192x2 32 := broadcastInDim S8192x2 ![] bcast_S_S8192x2 main_c_29
  let main_v89 : IVec S8192x2 1 := cmpi .sge main_v87 main_v88
  let main_v90 : IVec S8192x2 32 := (extractStridedSlice S8192x2 ![8128, 0] · slices_S65472x2_S8192x2_8128_0) main_arg1
  let main_c_30 : IVec S_ 32 := constantI S_ 32 16383#32
  let main_v91 : IVec S8192x2 32 := broadcastInDim S8192x2 ![] bcast_S_S8192x2 main_c_30
  let main_v92 : IVec S8192x2 1 := cmpi .sle main_v90 main_v91
  let main_v93 : IVec S8192x2 1 := andi main_v89 main_v92
  let main_c_31 : IVec S_ 1 := constantI S_ 1 1#1
  let main_v94 : IVec S_ 1 := (fun x v => Host.reduce IntOp.andi x v reducesTo_S8192x2_S_d0_1 h_S_) main_v93 main_c_31
  let main_v95 : IVec S_ 1 := andi main_v86 main_v94
  let main_v96 : IVec S16384x2 32 := (extractStridedSlice S16384x2 ![16320, 0] · slices_S65472x2_S16384x2_16320_0) main_arg1
  let main_c_32 : IVec S_ 32 := constantI S_ 32 0#32
  let main_v97 : IVec S16384x2 32 := broadcastInDim S16384x2 ![] bcast_S_S16384x2 main_c_32
  let main_v98 : IVec S16384x2 1 := cmpi .sge main_v96 main_v97
  let main_v99 : IVec S16384x2 32 := (extractStridedSlice S16384x2 ![16320, 0] · slices_S65472x2_S16384x2_16320_0) main_arg1
  let main_c_33 : IVec S_ 32 := constantI S_ 32 32767#32
  let main_v100 : IVec S16384x2 32 := broadcastInDim S16384x2 ![] bcast_S_S16384x2 main_c_33
  let main_v101 : IVec S16384x2 1 := cmpi .sle main_v99 main_v100
  let main_v102 : IVec S16384x2 1 := andi main_v98 main_v101
  let main_c_34 : IVec S_ 1 := constantI S_ 1 1#1
  let main_v103 : IVec S_ 1 := (fun x v => Host.reduce IntOp.andi x v reducesTo_S16384x2_S_d0_1 h_S_) main_v102 main_c_34
  let main_v104 : IVec S_ 1 := andi main_v95 main_v103
  let main_v105 : IVec S32768x2 32 := (extractStridedSlice S32768x2 ![32704, 0] · slices_S65472x2_S32768x2_32704_0) main_arg1
  let main_c_35 : IVec S_ 32 := constantI S_ 32 0#32
  fn_part6 (F := F) main_arg1 main_v104 main_v105 main_c_35

def fn_part4 {F : FTy → Type} [FloatOps F] (main_arg1 : IVec S65472x2 32) (main_v68 : IVec S_ 1) (main_v69 : IVec S2048x2 32) (main_c_23 : IVec S_ 32) : IVec S_ 1 :=
  let main_v70 : IVec S2048x2 32 := broadcastInDim S2048x2 ![] bcast_S_S2048x2 main_c_23
  let main_v71 : IVec S2048x2 1 := cmpi .sge main_v69 main_v70
  let main_v72 : IVec S2048x2 32 := (extractStridedSlice S2048x2 ![1984, 0] · slices_S65472x2_S2048x2_1984_0) main_arg1
  let main_c_24 : IVec S_ 32 := constantI S_ 32 4095#32
  let main_v73 : IVec S2048x2 32 := broadcastInDim S2048x2 ![] bcast_S_S2048x2 main_c_24
  let main_v74 : IVec S2048x2 1 := cmpi .sle main_v72 main_v73
  let main_v75 : IVec S2048x2 1 := andi main_v71 main_v74
  let main_c_25 : IVec S_ 1 := constantI S_ 1 1#1
  let main_v76 : IVec S_ 1 := (fun x v => Host.reduce IntOp.andi x v reducesTo_S2048x2_S_d0_1 h_S_) main_v75 main_c_25
  let main_v77 : IVec S_ 1 := andi main_v68 main_v76
  let main_v78 : IVec S4096x2 32 := (extractStridedSlice S4096x2 ![4032, 0] · slices_S65472x2_S4096x2_4032_0) main_arg1
  let main_c_26 : IVec S_ 32 := constantI S_ 32 0#32
  let main_v79 : IVec S4096x2 32 := broadcastInDim S4096x2 ![] bcast_S_S4096x2 main_c_26
  let main_v80 : IVec S4096x2 1 := cmpi .sge main_v78 main_v79
  let main_v81 : IVec S4096x2 32 := (extractStridedSlice S4096x2 ![4032, 0] · slices_S65472x2_S4096x2_4032_0) main_arg1
  let main_c_27 : IVec S_ 32 := constantI S_ 32 8191#32
  let main_v82 : IVec S4096x2 32 := broadcastInDim S4096x2 ![] bcast_S_S4096x2 main_c_27
  let main_v83 : IVec S4096x2 1 := cmpi .sle main_v81 main_v82
  let main_v84 : IVec S4096x2 1 := andi main_v80 main_v83
  let main_c_28 : IVec S_ 1 := constantI S_ 1 1#1
  let main_v85 : IVec S_ 1 := (fun x v => Host.reduce IntOp.andi x v reducesTo_S4096x2_S_d0_1 h_S_) main_v84 main_c_28
  let main_v86 : IVec S_ 1 := andi main_v77 main_v85
  let main_v87 : IVec S8192x2 32 := (extractStridedSlice S8192x2 ![8128, 0] · slices_S65472x2_S8192x2_8128_0) main_arg1
  let main_c_29 : IVec S_ 32 := constantI S_ 32 0#32
  fn_part5 (F := F) main_arg1 main_v86 main_v87 main_c_29

def fn_part3 {F : FTy → Type} [FloatOps F] (main_arg1 : IVec S65472x2 32) (main_v50 : IVec S_ 1) (main_v51 : IVec S512x2 32) (main_c_17 : IVec S_ 32) : IVec S_ 1 :=
  let main_v52 : IVec S512x2 32 := broadcastInDim S512x2 ![] bcast_S_S512x2 main_c_17
  let main_v53 : IVec S512x2 1 := cmpi .sge main_v51 main_v52
  let main_v54 : IVec S512x2 32 := (extractStridedSlice S512x2 ![448, 0] · slices_S65472x2_S512x2_448_0) main_arg1
  let main_c_18 : IVec S_ 32 := constantI S_ 32 1023#32
  let main_v55 : IVec S512x2 32 := broadcastInDim S512x2 ![] bcast_S_S512x2 main_c_18
  let main_v56 : IVec S512x2 1 := cmpi .sle main_v54 main_v55
  let main_v57 : IVec S512x2 1 := andi main_v53 main_v56
  let main_c_19 : IVec S_ 1 := constantI S_ 1 1#1
  let main_v58 : IVec S_ 1 := (fun x v => Host.reduce IntOp.andi x v reducesTo_S512x2_S_d0_1 h_S_) main_v57 main_c_19
  let main_v59 : IVec S_ 1 := andi main_v50 main_v58
  let main_v60 : IVec S1024x2 32 := (extractStridedSlice S1024x2 ![960, 0] · slices_S65472x2_S1024x2_960_0) main_arg1
  let main_c_20 : IVec S_ 32 := constantI S_ 32 0#32
  let main_v61 : IVec S1024x2 32 := broadcastInDim S1024x2 ![] bcast_S_S1024x2 main_c_20
  let main_v62 : IVec S1024x2 1 := cmpi .sge main_v60 main_v61
  let main_v63 : IVec S1024x2 32 := (extractStridedSlice S1024x2 ![960, 0] · slices_S65472x2_S1024x2_960_0) main_arg1
  let main_c_21 : IVec S_ 32 := constantI S_ 32 2047#32
  let main_v64 : IVec S1024x2 32 := broadcastInDim S1024x2 ![] bcast_S_S1024x2 main_c_21
  let main_v65 : IVec S1024x2 1 := cmpi .sle main_v63 main_v64
  let main_v66 : IVec S1024x2 1 := andi main_v62 main_v65
  let main_c_22 : IVec S_ 1 := constantI S_ 1 1#1
  let main_v67 : IVec S_ 1 := (fun x v => Host.reduce IntOp.andi x v reducesTo_S1024x2_S_d0_1 h_S_) main_v66 main_c_22
  let main_v68 : IVec S_ 1 := andi main_v59 main_v67
  let main_v69 : IVec S2048x2 32 := (extractStridedSlice S2048x2 ![1984, 0] · slices_S65472x2_S2048x2_1984_0) main_arg1
  let main_c_23 : IVec S_ 32 := constantI S_ 32 0#32
  fn_part4 (F := F) main_arg1 main_v68 main_v69 main_c_23

def fn_part2 {F : FTy → Type} [FloatOps F] (main_arg1 : IVec S65472x2 32) (main_v32 : IVec S_ 1) (main_v33 : IVec S128x2 32) (main_c_11 : IVec S_ 32) : IVec S_ 1 :=
  let main_v34 : IVec S128x2 32 := broadcastInDim S128x2 ![] bcast_S_S128x2 main_c_11
  let main_v35 : IVec S128x2 1 := cmpi .sge main_v33 main_v34
  let main_v36 : IVec S128x2 32 := (extractStridedSlice S128x2 ![64, 0] · slices_S65472x2_S128x2_64_0) main_arg1
  let main_c_12 : IVec S_ 32 := constantI S_ 32 255#32
  let main_v37 : IVec S128x2 32 := broadcastInDim S128x2 ![] bcast_S_S128x2 main_c_12
  let main_v38 : IVec S128x2 1 := cmpi .sle main_v36 main_v37
  let main_v39 : IVec S128x2 1 := andi main_v35 main_v38
  let main_c_13 : IVec S_ 1 := constantI S_ 1 1#1
  let main_v40 : IVec S_ 1 := (fun x v => Host.reduce IntOp.andi x v reducesTo_S128x2_S_d0_1 h_S_) main_v39 main_c_13
  let main_v41 : IVec S_ 1 := andi main_v32 main_v40
  let main_v42 : IVec S256x2 32 := (extractStridedSlice S256x2 ![192, 0] · slices_S65472x2_S256x2_192_0) main_arg1
  let main_c_14 : IVec S_ 32 := constantI S_ 32 0#32
  let main_v43 : IVec S256x2 32 := broadcastInDim S256x2 ![] bcast_S_S256x2 main_c_14
  let main_v44 : IVec S256x2 1 := cmpi .sge main_v42 main_v43
  let main_v45 : IVec S256x2 32 := (extractStridedSlice S256x2 ![192, 0] · slices_S65472x2_S256x2_192_0) main_arg1
  let main_c_15 : IVec S_ 32 := constantI S_ 32 511#32
  let main_v46 : IVec S256x2 32 := broadcastInDim S256x2 ![] bcast_S_S256x2 main_c_15
  let main_v47 : IVec S256x2 1 := cmpi .sle main_v45 main_v46
  let main_v48 : IVec S256x2 1 := andi main_v44 main_v47
  let main_c_16 : IVec S_ 1 := constantI S_ 1 1#1
  let main_v49 : IVec S_ 1 := (fun x v => Host.reduce IntOp.andi x v reducesTo_S256x2_S_d0_1 h_S_) main_v48 main_c_16
  let main_v50 : IVec S_ 1 := andi main_v41 main_v49
  let main_v51 : IVec S512x2 32 := (extractStridedSlice S512x2 ![448, 0] · slices_S65472x2_S512x2_448_0) main_arg1
  let main_c_17 : IVec S_ 32 := constantI S_ 32 0#32
  fn_part3 (F := F) main_arg1 main_v50 main_v51 main_c_17

def fn_part1 {F : FTy → Type} [FloatOps F] (main_arg1 : IVec S65472x2 32) (main_arg5 : FVec F S512 .f32) (main_v13 : IVec S_ 1) (main_v16 : IVec S512x1536 1) : IVec S_ 1 :=
  let main_c_5 : IVec S_ 1 := constantI S_ 1 1#1
  let main_v17 : IVec S_ 1 := (fun x v => Host.reduce IntOp.andi x v reducesTo_S512x1536_S_d0_1 h_S_) main_v16 main_c_5
  let main_v18 : IVec S_ 1 := andi main_v13 main_v17
  let main_v19 : FVec F S512 .f32 := Host.absf main_arg5
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : IVec S64x2 32 := (extractStridedSlice S64x2 ![0, 0] · slices_S65472x2_S64x2_0_0) main_arg1
  let main_c_8 : IVec S_ 32 := constantI S_ 32 0#32
  let main_v25 : IVec S64x2 32 := broadcastInDim S64x2 ![] bcast_S_S64x2 main_c_8
  let main_v26 : IVec S64x2 1 := cmpi .sge main_v24 main_v25
  let main_v27 : IVec S64x2 32 := (extractStridedSlice S64x2 ![0, 0] · slices_S65472x2_S64x2_0_0) main_arg1
  let main_c_9 : IVec S_ 32 := constantI S_ 32 127#32
  let main_v28 : IVec S64x2 32 := broadcastInDim S64x2 ![] bcast_S_S64x2 main_c_9
  let main_v29 : IVec S64x2 1 := cmpi .sle main_v27 main_v28
  let main_v30 : IVec S64x2 1 := andi main_v26 main_v29
  let main_c_10 : IVec S_ 1 := constantI S_ 1 1#1
  let main_v31 : IVec S_ 1 := (fun x v => Host.reduce IntOp.andi x v reducesTo_S64x2_S_d0_1 h_S_) main_v30 main_c_10
  let main_v32 : IVec S_ 1 := andi main_v23 main_v31
  let main_v33 : IVec S128x2 32 := (extractStridedSlice S128x2 ![64, 0] · slices_S65472x2_S128x2_64_0) main_arg1
  let main_c_11 : IVec S_ 32 := constantI S_ 32 0#32
  fn_part2 (F := F) main_arg1 main_v32 main_v33 main_c_11

def fn {F : FTy → Type} [FloatOps F] (main_arg0 : FVec F S131008x256 .f32) (main_arg1 : IVec S65472x2 32) (main_arg2 : FVec F S512x256 .f32) (main_arg3 : FVec F S512 .f32) (main_arg4 : FVec F S512x1536 .f32) (main_arg5 : FVec F S512 .f32) : IVec S_ 1 :=
  let main_v0 : FVec F S131008x256 .f32 := Host.absf main_arg0
  let main_cst : FVec F S_ .f32 := constant S_ .f32 0x7F800000#32
  let main_v1 : FVec F S131008x256 .f32 := broadcastInDim S131008x256 ![] bcast_S_S131008x256 main_cst
  let main_v2 : IVec S131008x256 1 := cmpf .olt main_v0 main_v1
  let main_c : IVec S_ 1 := constantI S_ 1 1#1
  let main_v3 : IVec S_ 1 := (fun x v => Host.reduce IntOp.andi x v reducesTo_S131008x256_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg3
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x1536 .f32 := Host.absf main_arg4
  let main_cst_4 : FVec F S_ .f32 := constant S_ .f32 0x7F800000#32
  let main_v15 : FVec F S512x1536 .f32 := broadcastInDim S512x1536 ![] bcast_S_S512x1536 main_cst_4
  let main_v16 : IVec S512x1536 1 := cmpf .olt main_v14 main_v15
  fn_part1 (F := F) main_arg1 main_arg5 main_v13 main_v16
-- ==== Kernel.lean ====
abbrev S131008x256 : Shape := ⟨2, ![131008, 256]⟩
abbrev S65472x2 : Shape := ⟨2, ![65472, 2]⟩
abbrev S512x256 : Shape := ⟨2, ![512, 256]⟩
abbrev S512 : Shape := ⟨1, ![512]⟩
abbrev S512x1536 : Shape := ⟨2, ![512, 1536]⟩
abbrev S_ : Shape := ⟨0, ![]⟩
abbrev S131072x256 : Shape := ⟨2, ![131072, 256]⟩
abbrev S1x512 : Shape := ⟨2, ![1, 512]⟩
abbrev S131072x512 : Shape := ⟨2, ![131072, 512]⟩
abbrev S2048x256 : Shape := ⟨2, ![2048, 256]⟩
abbrev S2048x512 : Shape := ⟨2, ![2048, 512]⟩
abbrev S256x512 : Shape := ⟨2, ![256, 512]⟩
abbrev S131008x512 : Shape := ⟨2, ![131008, 512]⟩
abbrev S65536x512 : Shape := ⟨2, ![65536, 512]⟩
abbrev S32768x2 : Shape := ⟨2, ![32768, 2]⟩
abbrev S32768x1 : Shape := ⟨2, ![32768, 1]⟩
abbrev S32768 : Shape := ⟨1, ![32768]⟩
abbrev S1 : Shape := ⟨1, ![1]⟩
abbrev S1x1 : Shape := ⟨2, ![1, 1]⟩
abbrev S32768x512 : Shape := ⟨2, ![32768, 512]⟩
abbrev S32768x1536 : Shape := ⟨2, ![32768, 1536]⟩
abbrev S1024x1536 : Shape := ⟨2, ![1024, 1536]⟩
abbrev S1024x512 : Shape := ⟨2, ![1024, 512]⟩
abbrev S1536x512 : Shape := ⟨2, ![1536, 512]⟩
abbrev S16384x2 : Shape := ⟨2, ![16384, 2]⟩
abbrev S16384x1 : Shape := ⟨2, ![16384, 1]⟩
abbrev S16384 : Shape := ⟨1, ![16384]⟩
abbrev S16384x512 : Shape := ⟨2, ![16384, 512]⟩
abbrev S16384x1536 : Shape := ⟨2, ![16384, 1536]⟩
abbrev S8192x2 : Shape := ⟨2, ![8192, 2]⟩
abbrev S8192x1 : Shape := ⟨2, ![8192, 1]⟩
abbrev S8192 : Shape := ⟨1, ![8192]⟩
abbrev S8192x512 : Shape := ⟨2, ![8192, 512]⟩
abbrev S8192x1536 : Shape := ⟨2, ![8192, 1536]⟩
abbrev S4096x2 : Shape := ⟨2, ![4096, 2]⟩
abbrev S4096x1 : Shape := ⟨2, ![4096, 1]⟩
abbrev S4096 : Shape := ⟨1, ![4096]⟩
abbrev S4096x512 : Shape := ⟨2, ![4096, 512]⟩
abbrev S4096x1536 : Shape := ⟨2, ![4096, 1536]⟩
abbrev S2048x2 : Shape := ⟨2, ![2048, 2]⟩
abbrev S2048x1 : Shape := ⟨2, ![2048, 1]⟩
abbrev S2048 : Shape := ⟨1, ![2048]⟩
abbrev S2048x1536 : Shape := ⟨2, ![2048, 1536]⟩
abbrev S1024x2 : Shape := ⟨2, ![1024, 2]⟩
abbrev S1024x1 : Shape := ⟨2, ![1024, 1]⟩
abbrev S1024 : Shape := ⟨1, ![1024]⟩
abbrev S512x2 : Shape := ⟨2, ![512, 2]⟩
abbrev S512x1 : Shape := ⟨2, ![512, 1]⟩
abbrev S512x512 : Shape := ⟨2, ![512, 512]⟩
abbrev S256x2 : Shape := ⟨2, ![256, 2]⟩
abbrev S256x1 : Shape := ⟨2, ![256, 1]⟩
abbrev S256 : Shape := ⟨1, ![256]⟩
abbrev S256x1536 : Shape := ⟨2, ![256, 1536]⟩
abbrev S128x2 : Shape := ⟨2, ![128, 2]⟩
abbrev S128x1 : Shape := ⟨2, ![128, 1]⟩
abbrev S128 : Shape := ⟨1, ![128]⟩
abbrev S128x512 : Shape := ⟨2, ![128, 512]⟩
abbrev S128x1536 : Shape := ⟨2, ![128, 1536]⟩
abbrev S64x2 : Shape := ⟨2, ![64, 2]⟩
abbrev S64x1 : Shape := ⟨2, ![64, 1]⟩
abbrev S64 : Shape := ⟨1, ![64]⟩
abbrev S64x512 : Shape := ⟨2, ![64, 512]⟩
abbrev S64x1536 : Shape := ⟨2, ![64, 1536]⟩

abbrev nBuf : Space → Nat
  | .hbm => 563
  | .vmem => 56
  | .smem => 0
  | _ => 0

abbrev hbmTy0_0 (i : Nat) : BufTy := match i % 128 with
  | 0 => ⟨S131008x256, .f32⟩
  | 1 => ⟨S65472x2, .i32⟩
  | 2 => ⟨S512x256, .f32⟩
  | 3 => ⟨S512, .f32⟩
  | 4 => ⟨S512x1536, .f32⟩
  | 5 => ⟨S512, .f32⟩
  | 6 => ⟨S_, .i32⟩
  | 7 => ⟨S_, .f32⟩
  | 8 => ⟨S131072x256, .f32⟩
  | 9 => ⟨S1x512, .f32⟩
  | 10 => ⟨S131072x512, .f32⟩
  | 11 => ⟨S131008x512, .f32⟩
  | 12 => ⟨S65536x512, .f32⟩
  | 13 => ⟨S32768x2, .i32⟩
  | 14 => ⟨S32768x1, .i32⟩
  | 15 => ⟨S32768, .i32⟩
  | 16 => ⟨S_, .i32⟩
  | 17 => ⟨S32768, .i32⟩
  | 18 => ⟨S32768, .i1⟩
  | 19 => ⟨S_, .i32⟩
  | 20 => ⟨S32768, .i32⟩
  | 21 => ⟨S32768, .i32⟩
  | 22 => ⟨S32768, .i32⟩
  | 23 => ⟨S32768x1, .i32⟩
  | 24 => ⟨S1, .i32⟩
  | 25 => ⟨S_, .i32⟩
  | 26 => ⟨S32768x1, .i32⟩
  | 27 => ⟨S32768x1, .i1⟩
  | 28 => ⟨S1x1, .i32⟩
  | 29 => ⟨S32768x1, .i32⟩
  | 30 => ⟨S32768x1, .i1⟩
  | 31 => ⟨S32768x1, .i1⟩
  | 32 => ⟨S_, .i1⟩
  | 33 => ⟨S32768, .i1⟩
  | 34 => ⟨S32768x512, .f32⟩
  | 35 => ⟨S32768x512, .i1⟩
  | 36 => ⟨S_, .f32⟩
  | 37 => ⟨S32768x512, .f32⟩
  | 38 => ⟨S32768x512, .f32⟩
  | 39 => ⟨S32768x1, .i32⟩
  | 40 => ⟨S32768, .i32⟩
  | 41 => ⟨S_, .i32⟩
  | 42 => ⟨S32768, .i32⟩
  | 43 => ⟨S32768, .i1⟩
  | 44 => ⟨S_, .i32⟩
  | 45 => ⟨S32768, .i32⟩
  | 46 => ⟨S32768, .i32⟩
  | 47 => ⟨S32768, .i32⟩
  | 48 => ⟨S32768x1, .i32⟩
  | 49 => ⟨S1, .i32⟩
  | 50 => ⟨S_, .i32⟩
  | 51 => ⟨S32768x1, .i32⟩
  | 52 => ⟨S32768x1, .i1⟩
  | 53 => ⟨S1x1, .i32⟩
  | 54 => ⟨S32768x1, .i32⟩
  | 55 => ⟨S32768x1, .i1⟩
  | 56 => ⟨S32768x1, .i1⟩
  | 57 => ⟨S_, .i1⟩
  | 58 => ⟨S32768, .i1⟩
  | 59 => ⟨S32768x512, .f32⟩
  | 60 => ⟨S32768x512, .i1⟩
  | 61 => ⟨S_, .f32⟩
  | 62 => ⟨S32768x512, .f32⟩
  | 63 => ⟨S32768x512, .f32⟩
  | 64 => ⟨S32768x512, .f32⟩
  | 65 => ⟨S32768x1536, .f32⟩
  | 66 => ⟨S1x512, .f32⟩
  | 67 => ⟨S32768x512, .f32⟩
  | 68 => ⟨S16384x2, .i32⟩
  | 69 => ⟨S16384x1, .i32⟩
  | 70 => ⟨S16384, .i32⟩
  | 71 => ⟨S_, .i32⟩
  | 72 => ⟨S16384, .i32⟩
  | 73 => ⟨S16384, .i1⟩
  | 74 => ⟨S_, .i32⟩
  | 75 => ⟨S16384, .i32⟩
  | 76 => ⟨S16384, .i32⟩
  | 77 => ⟨S16384, .i32⟩
  | 78 => ⟨S16384x1, .i32⟩
  | 79 => ⟨S1, .i32⟩
  | 80 => ⟨S_, .i32⟩
  | 81 => ⟨S16384x1, .i32⟩
  | 82 => ⟨S16384x1, .i1⟩
  | 83 => ⟨S1x1, .i32⟩
  | 84 => ⟨S16384x1, .i32⟩
  | 85 => ⟨S16384x1, .i1⟩
  | 86 => ⟨S16384x1, .i1⟩
  | 87 => ⟨S_, .i1⟩
  | 88 => ⟨S16384, .i1⟩
  | 89 => ⟨S16384x512, .f32⟩
  | 90 => ⟨S16384x512, .i1⟩
  | 91 => ⟨S_, .f32⟩
  | 92 => ⟨S16384x512, .f32⟩
  | 93 => ⟨S16384x512, .f32⟩
  | 94 => ⟨S16384x1, .i32⟩
  | 95 => ⟨S16384, .i32⟩
  | 96 => ⟨S_, .i32⟩
  | 97 => ⟨S16384, .i32⟩
  | 98 => ⟨S16384, .i1⟩
  | 99 => ⟨S_, .i32⟩
  | 100 => ⟨S16384, .i32⟩
  | 101 => ⟨S16384, .i32⟩
  | 102 => ⟨S16384, .i32⟩
  | 103 => ⟨S16384x1, .i32⟩
  | 104 => ⟨S1, .i32⟩
  | 105 => ⟨S_, .i32⟩
  | 106 => ⟨S16384x1, .i32⟩
  | 107 => ⟨S16384x1, .i1⟩
  | 108 => ⟨S1x1, .i32⟩
  | 109 => ⟨S16384x1, .i32⟩
  | 110 => ⟨S16384x1, .i1⟩
  | 111 => ⟨S16384x1, .i1⟩
  | 112 => ⟨S_, .i1⟩
  | 113 => ⟨S16384, .i1⟩
  | 114 => ⟨S16384x512, .f32⟩
  | 115 => ⟨S16384x512, .i1⟩
  | 116 => ⟨S_, .f32⟩
  | 117 => ⟨S16384x512, .f32⟩
  | 118 => ⟨S16384x512, .f32⟩
  | 119 => ⟨S16384x512, .f32⟩
  | 120 => ⟨S16384x1536, .f32⟩
  | 121 => ⟨S1x512, .f32⟩
  | 122 => ⟨S16384x512, .f32⟩
  | 123 => ⟨S8192x2, .i32⟩
  | 124 => ⟨S8192x1, .i32⟩
  | 125 => ⟨S8192, .i32⟩
  | 126 => ⟨S_, .i32⟩
  | 127 => ⟨S8192, .i32⟩
  | _ => ⟨S131008x256, .f32⟩

abbrev hbmTy0_1 (i : Nat) : BufTy := match i % 128 with
  | 0 => ⟨S8192, .i1⟩
  | 1 => ⟨S_, .i32⟩
  | 2 => ⟨S8192, .i32⟩
  | 3 => ⟨S8192, .i32⟩
  | 4 => ⟨S8192, .i32⟩
  | 5 => ⟨S8192x1, .i32⟩
  | 6 => ⟨S1, .i32⟩
  | 7 => ⟨S_, .i32⟩
  | 8 => ⟨S8192x1, .i32⟩
  | 9 => ⟨S8192x1, .i1⟩
  | 10 => ⟨S1x1, .i32⟩
  | 11 => ⟨S8192x1, .i32⟩
  | 12 => ⟨S8192x1, .i1⟩
  | 13 => ⟨S8192x1, .i1⟩
  | 14 => ⟨S_, .i1⟩
  | 15 => ⟨S8192, .i1⟩
  | 16 => ⟨S8192x512, .f32⟩
  | 17 => ⟨S8192x512, .i1⟩
  | 18 => ⟨S_, .f32⟩
  | 19 => ⟨S8192x512, .f32⟩
  | 20 => ⟨S8192x512, .f32⟩
  | 21 => ⟨S8192x1, .i32⟩
  | 22 => ⟨S8192, .i32⟩
  | 23 => ⟨S_, .i32⟩
  | 24 => ⟨S8192, .i32⟩
  | 25 => ⟨S8192, .i1⟩
  | 26 => ⟨S_, .i32⟩
  | 27 => ⟨S8192, .i32⟩
  | 28 => ⟨S8192, .i32⟩
  | 29 => ⟨S8192, .i32⟩
  | 30 => ⟨S8192x1, .i32⟩
  | 31 => ⟨S1, .i32⟩
  | 32 => ⟨S_, .i32⟩
  | 33 => ⟨S8192x1, .i32⟩
  | 34 => ⟨S8192x1, .i1⟩
  | 35 => ⟨S1x1, .i32⟩
  | 36 => ⟨S8192x1, .i32⟩
  | 37 => ⟨S8192x1, .i1⟩
  | 38 => ⟨S8192x1, .i1⟩
  | 39 => ⟨S_, .i1⟩
  | 40 => ⟨S8192, .i1⟩
  | 41 => ⟨S8192x512, .f32⟩
  | 42 => ⟨S8192x512, .i1⟩
  | 43 => ⟨S_, .f32⟩
  | 44 => ⟨S8192x512, .f32⟩
  | 45 => ⟨S8192x512, .f32⟩
  | 46 => ⟨S8192x512, .f32⟩
  | 47 => ⟨S8192x1536, .f32⟩
  | 48 => ⟨S1x512, .f32⟩
  | 49 => ⟨S8192x512, .f32⟩
  | 50 => ⟨S4096x2, .i32⟩
  | 51 => ⟨S4096x1, .i32⟩
  | 52 => ⟨S4096, .i32⟩
  | 53 => ⟨S_, .i32⟩
  | 54 => ⟨S4096, .i32⟩
  | 55 => ⟨S4096, .i1⟩
  | 56 => ⟨S_, .i32⟩
  | 57 => ⟨S4096, .i32⟩
  | 58 => ⟨S4096, .i32⟩
  | 59 => ⟨S4096, .i32⟩
  | 60 => ⟨S4096x1, .i32⟩
  | 61 => ⟨S1, .i32⟩
  | 62 => ⟨S_, .i32⟩
  | 63 => ⟨S4096x1, .i32⟩
  | 64 => ⟨S4096x1, .i1⟩
  | 65 => ⟨S1x1, .i32⟩
  | 66 => ⟨S4096x1, .i32⟩
  | 67 => ⟨S4096x1, .i1⟩
  | 68 => ⟨S4096x1, .i1⟩
  | 69 => ⟨S_, .i1⟩
  | 70 => ⟨S4096, .i1⟩
  | 71 => ⟨S4096x512, .f32⟩
  | 72 => ⟨S4096x512, .i1⟩
  | 73 => ⟨S_, .f32⟩
  | 74 => ⟨S4096x512, .f32⟩
  | 75 => ⟨S4096x512, .f32⟩
  | 76 => ⟨S4096x1, .i32⟩
  | 77 => ⟨S4096, .i32⟩
  | 78 => ⟨S_, .i32⟩
  | 79 => ⟨S4096, .i32⟩
  | 80 => ⟨S4096, .i1⟩
  | 81 => ⟨S_, .i32⟩
  | 82 => ⟨S4096, .i32⟩
  | 83 => ⟨S4096, .i32⟩
  | 84 => ⟨S4096, .i32⟩
  | 85 => ⟨S4096x1, .i32⟩
  | 86 => ⟨S1, .i32⟩
  | 87 => ⟨S_, .i32⟩
  | 88 => ⟨S4096x1, .i32⟩
  | 89 => ⟨S4096x1, .i1⟩
  | 90 => ⟨S1x1, .i32⟩
  | 91 => ⟨S4096x1, .i32⟩
  | 92 => ⟨S4096x1, .i1⟩
  | 93 => ⟨S4096x1, .i1⟩
  | 94 => ⟨S_, .i1⟩
  | 95 => ⟨S4096, .i1⟩
  | 96 => ⟨S4096x512, .f32⟩
  | 97 => ⟨S4096x512, .i1⟩
  | 98 => ⟨S_, .f32⟩
  | 99 => ⟨S4096x512, .f32⟩
  | 100 => ⟨S4096x512, .f32⟩
  | 101 => ⟨S4096x512, .f32⟩
  | 102 => ⟨S4096x1536, .f32⟩
  | 103 => ⟨S1x512, .f32⟩
  | 104 => ⟨S4096x512, .f32⟩
  | 105 => ⟨S2048x2, .i32⟩
  | 106 => ⟨S2048x1, .i32⟩
  | 107 => ⟨S2048, .i32⟩
  | 108 => ⟨S_, .i32⟩
  | 109 => ⟨S2048, .i32⟩
  | 110 => ⟨S2048, .i1⟩
  | 111 => ⟨S_, .i32⟩
  | 112 => ⟨S2048, .i32⟩
  | 113 => ⟨S2048, .i32⟩
  | 114 => ⟨S2048, .i32⟩
  | 115 => ⟨S2048x1, .i32⟩
  | 116 => ⟨S1, .i32⟩
  | 117 => ⟨S_, .i32⟩
  | 118 => ⟨S2048x1, .i32⟩
  | 119 => ⟨S2048x1, .i1⟩
  | 120 => ⟨S1x1, .i32⟩
  | 121 => ⟨S2048x1, .i32⟩
  | 122 => ⟨S2048x1, .i1⟩
  | 123 => ⟨S2048x1, .i1⟩
  | 124 => ⟨S_, .i1⟩
  | 125 => ⟨S2048, .i1⟩
  | 126 => ⟨S2048x512, .f32⟩
  | 127 => ⟨S2048x512, .i1⟩
  | _ => ⟨S131008x256, .f32⟩

abbrev hbmTy0_2 (i : Nat) : BufTy := match i % 128 with
  | 0 => ⟨S_, .f32⟩
  | 1 => ⟨S2048x512, .f32⟩
  | 2 => ⟨S2048x512, .f32⟩
  | 3 => ⟨S2048x1, .i32⟩
  | 4 => ⟨S2048, .i32⟩
  | 5 => ⟨S_, .i32⟩
  | 6 => ⟨S2048, .i32⟩
  | 7 => ⟨S2048, .i1⟩
  | 8 => ⟨S_, .i32⟩
  | 9 => ⟨S2048, .i32⟩
  | 10 => ⟨S2048, .i32⟩
  | 11 => ⟨S2048, .i32⟩
  | 12 => ⟨S2048x1, .i32⟩
  | 13 => ⟨S1, .i32⟩
  | 14 => ⟨S_, .i32⟩
  | 15 => ⟨S2048x1, .i32⟩
  | 16 => ⟨S2048x1, .i1⟩
  | 17 => ⟨S1x1, .i32⟩
  | 18 => ⟨S2048x1, .i32⟩
  | 19 => ⟨S2048x1, .i1⟩
  | 20 => ⟨S2048x1, .i1⟩
  | 21 => ⟨S_, .i1⟩
  | 22 => ⟨S2048, .i1⟩
  | 23 => ⟨S2048x512, .f32⟩
  | 24 => ⟨S2048x512, .i1⟩
  | 25 => ⟨S_, .f32⟩
  | 26 => ⟨S2048x512, .f32⟩
  | 27 => ⟨S2048x512, .f32⟩
  | 28 => ⟨S2048x512, .f32⟩
  | 29 => ⟨S2048x1536, .f32⟩
  | 30 => ⟨S1x512, .f32⟩
  | 31 => ⟨S2048x512, .f32⟩
  | 32 => ⟨S1024x2, .i32⟩
  | 33 => ⟨S1024x1, .i32⟩
  | 34 => ⟨S1024, .i32⟩
  | 35 => ⟨S_, .i32⟩
  | 36 => ⟨S1024, .i32⟩
  | 37 => ⟨S1024, .i1⟩
  | 38 => ⟨S_, .i32⟩
  | 39 => ⟨S1024, .i32⟩
  | 40 => ⟨S1024, .i32⟩
  | 41 => ⟨S1024, .i32⟩
  | 42 => ⟨S1024x1, .i32⟩
  | 43 => ⟨S1, .i32⟩
  | 44 => ⟨S_, .i32⟩
  | 45 => ⟨S1024x1, .i32⟩
  | 46 => ⟨S1024x1, .i1⟩
  | 47 => ⟨S1x1, .i32⟩
  | 48 => ⟨S1024x1, .i32⟩
  | 49 => ⟨S1024x1, .i1⟩
  | 50 => ⟨S1024x1, .i1⟩
  | 51 => ⟨S_, .i1⟩
  | 52 => ⟨S1024, .i1⟩
  | 53 => ⟨S1024x512, .f32⟩
  | 54 => ⟨S1024x512, .i1⟩
  | 55 => ⟨S_, .f32⟩
  | 56 => ⟨S1024x512, .f32⟩
  | 57 => ⟨S1024x512, .f32⟩
  | 58 => ⟨S1024x1, .i32⟩
  | 59 => ⟨S1024, .i32⟩
  | 60 => ⟨S_, .i32⟩
  | 61 => ⟨S1024, .i32⟩
  | 62 => ⟨S1024, .i1⟩
  | 63 => ⟨S_, .i32⟩
  | 64 => ⟨S1024, .i32⟩
  | 65 => ⟨S1024, .i32⟩
  | 66 => ⟨S1024, .i32⟩
  | 67 => ⟨S1024x1, .i32⟩
  | 68 => ⟨S1, .i32⟩
  | 69 => ⟨S_, .i32⟩
  | 70 => ⟨S1024x1, .i32⟩
  | 71 => ⟨S1024x1, .i1⟩
  | 72 => ⟨S1x1, .i32⟩
  | 73 => ⟨S1024x1, .i32⟩
  | 74 => ⟨S1024x1, .i1⟩
  | 75 => ⟨S1024x1, .i1⟩
  | 76 => ⟨S_, .i1⟩
  | 77 => ⟨S1024, .i1⟩
  | 78 => ⟨S1024x512, .f32⟩
  | 79 => ⟨S1024x512, .i1⟩
  | 80 => ⟨S_, .f32⟩
  | 81 => ⟨S1024x512, .f32⟩
  | 82 => ⟨S1024x512, .f32⟩
  | 83 => ⟨S1024x512, .f32⟩
  | 84 => ⟨S1024x1536, .f32⟩
  | 85 => ⟨S1x512, .f32⟩
  | 86 => ⟨S1024x512, .f32⟩
  | 87 => ⟨S512x2, .i32⟩
  | 88 => ⟨S512x1, .i32⟩
  | 89 => ⟨S512, .i32⟩
  | 90 => ⟨S_, .i32⟩
  | 91 => ⟨S512, .i32⟩
  | 92 => ⟨S512, .i1⟩
  | 93 => ⟨S_, .i32⟩
  | 94 => ⟨S512, .i32⟩
  | 95 => ⟨S512, .i32⟩
  | 96 => ⟨S512, .i32⟩
  | 97 => ⟨S512x1, .i32⟩
  | 98 => ⟨S1, .i32⟩
  | 99 => ⟨S_, .i32⟩
  | 100 => ⟨S512x1, .i32⟩
  | 101 => ⟨S512x1, .i1⟩
  | 102 => ⟨S1x1, .i32⟩
  | 103 => ⟨S512x1, .i32⟩
  | 104 => ⟨S512x1, .i1⟩
  | 105 => ⟨S512x1, .i1⟩
  | 106 => ⟨S_, .i1⟩
  | 107 => ⟨S512, .i1⟩
  | 108 => ⟨S512x512, .f32⟩
  | 109 => ⟨S512x512, .i1⟩
  | 110 => ⟨S_, .f32⟩
  | 111 => ⟨S512x512, .f32⟩
  | 112 => ⟨S512x512, .f32⟩
  | 113 => ⟨S512x1, .i32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S1, .i32⟩
  | 124 => ⟨S_, .i32⟩
  | 125 => ⟨S512x1, .i32⟩
  | 126 => ⟨S512x1, .i1⟩
  | 127 => ⟨S1x1, .i32⟩
  | _ => ⟨S131008x256, .f32⟩

abbrev hbmTy0_3 (i : Nat) : BufTy := match i % 128 with
  | 0 => ⟨S512x1, .i32⟩
  | 1 => ⟨S512x1, .i1⟩
  | 2 => ⟨S512x1, .i1⟩
  | 3 => ⟨S_, .i1⟩
  | 4 => ⟨S512, .i1⟩
  | 5 => ⟨S512x512, .f32⟩
  | 6 => ⟨S512x512, .i1⟩
  | 7 => ⟨S_, .f32⟩
  | 8 => ⟨S512x512, .f32⟩
  | 9 => ⟨S512x512, .f32⟩
  | 10 => ⟨S512x512, .f32⟩
  | 11 => ⟨S512x1536, .f32⟩
  | 12 => ⟨S1x512, .f32⟩
  | 13 => ⟨S512x512, .f32⟩
  | 14 => ⟨S256x2, .i32⟩
  | 15 => ⟨S256x1, .i32⟩
  | 16 => ⟨S256, .i32⟩
  | 17 => ⟨S_, .i32⟩
  | 18 => ⟨S256, .i32⟩
  | 19 => ⟨S256, .i1⟩
  | 20 => ⟨S_, .i32⟩
  | 21 => ⟨S256, .i32⟩
  | 22 => ⟨S256, .i32⟩
  | 23 => ⟨S256, .i32⟩
  | 24 => ⟨S256x1, .i32⟩
  | 25 => ⟨S1, .i32⟩
  | 26 => ⟨S_, .i32⟩
  | 27 => ⟨S256x1, .i32⟩
  | 28 => ⟨S256x1, .i1⟩
  | 29 => ⟨S1x1, .i32⟩
  | 30 => ⟨S256x1, .i32⟩
  | 31 => ⟨S256x1, .i1⟩
  | 32 => ⟨S256x1, .i1⟩
  | 33 => ⟨S_, .i1⟩
  | 34 => ⟨S256, .i1⟩
  | 35 => ⟨S256x512, .f32⟩
  | 36 => ⟨S256x512, .i1⟩
  | 37 => ⟨S_, .f32⟩
  | 38 => ⟨S256x512, .f32⟩
  | 39 => ⟨S256x512, .f32⟩
  | 40 => ⟨S256x1, .i32⟩
  | 41 => ⟨S256, .i32⟩
  | 42 => ⟨S_, .i32⟩
  | 43 => ⟨S256, .i32⟩
  | 44 => ⟨S256, .i1⟩
  | 45 => ⟨S_, .i32⟩
  | 46 => ⟨S256, .i32⟩
  | 47 => ⟨S256, .i32⟩
  | 48 => ⟨S256, .i32⟩
  | 49 => ⟨S256x1, .i32⟩
  | 50 => ⟨S1, .i32⟩
  | 51 => ⟨S_, .i32⟩
  | 52 => ⟨S256x1, .i32⟩
  | 53 => ⟨S256x1, .i1⟩
  | 54 => ⟨S1x1, .i32⟩
  | 55 => ⟨S256x1, .i32⟩
  | 56 => ⟨S256x1, .i1⟩
  | 57 => ⟨S256x1, .i1⟩
  | 58 => ⟨S_, .i1⟩
  | 59 => ⟨S256, .i1⟩
  | 60 => ⟨S256x512, .f32⟩
  | 61 => ⟨S256x512, .i1⟩
  | 62 => ⟨S_, .f32⟩
  | 63 => ⟨S256x512, .f32⟩
  | 64 => ⟨S256x512, .f32⟩
  | 65 => ⟨S256x512, .f32⟩
  | 66 => ⟨S256x1536, .f32⟩
  | 67 => ⟨S1x512, .f32⟩
  | 68 => ⟨S256x512, .f32⟩
  | 69 => ⟨S128x2, .i32⟩
  | 70 => ⟨S128x1, .i32⟩
  | 71 => ⟨S128, .i32⟩
  | 72 => ⟨S_, .i32⟩
  | 73 => ⟨S128, .i32⟩
  | 74 => ⟨S128, .i1⟩
  | 75 => ⟨S_, .i32⟩
  | 76 => ⟨S128, .i32⟩
  | 77 => ⟨S128, .i32⟩
  | 78 => ⟨S128, .i32⟩
  | 79 => ⟨S128x1, .i32⟩
  | 80 => ⟨S1, .i32⟩
  | 81 => ⟨S_, .i32⟩
  | 82 => ⟨S128x1, .i32⟩
  | 83 => ⟨S128x1, .i1⟩
  | 84 => ⟨S1x1, .i32⟩
  | 85 => ⟨S128x1, .i32⟩
  | 86 => ⟨S128x1, .i1⟩
  | 87 => ⟨S128x1, .i1⟩
  | 88 => ⟨S_, .i1⟩
  | 89 => ⟨S128, .i1⟩
  | 90 => ⟨S128x512, .f32⟩
  | 91 => ⟨S128x512, .i1⟩
  | 92 => ⟨S_, .f32⟩
  | 93 => ⟨S128x512, .f32⟩
  | 94 => ⟨S128x512, .f32⟩
  | 95 => ⟨S128x1, .i32⟩
  | 96 => ⟨S128, .i32⟩
  | 97 => ⟨S_, .i32⟩
  | 98 => ⟨S128, .i32⟩
  | 99 => ⟨S128, .i1⟩
  | 100 => ⟨S_, .i32⟩
  | 101 => ⟨S128, .i32⟩
  | 102 => ⟨S128, .i32⟩
  | 103 => ⟨S128, .i32⟩
  | 104 => ⟨S128x1, .i32⟩
  | 105 => ⟨S1, .i32⟩
  | 106 => ⟨S_, .i32⟩
  | 107 => ⟨S128x1, .i32⟩
  | 108 => ⟨S128x1, .i1⟩
  | 109 => ⟨S1x1, .i32⟩
  | 110 => ⟨S128x1, .i32⟩
  | 111 => ⟨S128x1, .i1⟩
  | 112 => ⟨S128x1, .i1⟩
  | 113 => ⟨S_, .i1⟩
  | 114 => ⟨S128, .i1⟩
  | 115 => ⟨S128x512, .f32⟩
  | 116 => ⟨S128x512, .i1⟩
  | 117 => ⟨S_, .f32⟩
  | 118 => ⟨S128x512, .f32⟩
  | 119 => ⟨S128x512, .f32⟩
  | 120 => ⟨S128x512, .f32⟩
  | 121 => ⟨S128x1536, .f32⟩
  | 122 => ⟨S1x512, .f32⟩
  | 123 => ⟨S128x512, .f32⟩
  | 124 => ⟨S64x2, .i32⟩
  | 125 => ⟨S64x1, .i32⟩
  | 126 => ⟨S64, .i32⟩
  | 127 => ⟨S_, .i32⟩
  | _ => ⟨S131008x256, .f32⟩

abbrev hbmTy0_4 (i : Nat) : BufTy := match i % 128 with
  | 0 => ⟨S64, .i32⟩
  | 1 => ⟨S64, .i1⟩
  | 2 => ⟨S_, .i32⟩
  | 3 => ⟨S64, .i32⟩
  | 4 => ⟨S64, .i32⟩
  | 5 => ⟨S64, .i32⟩
  | 6 => ⟨S64x1, .i32⟩
  | 7 => ⟨S1, .i32⟩
  | 8 => ⟨S_, .i32⟩
  | 9 => ⟨S64x1, .i32⟩
  | 10 => ⟨S64x1, .i1⟩
  | 11 => ⟨S1x1, .i32⟩
  | 12 => ⟨S64x1, .i32⟩
  | 13 => ⟨S64x1, .i1⟩
  | 14 => ⟨S64x1, .i1⟩
  | 15 => ⟨S_, .i1⟩
  | 16 => ⟨S64, .i1⟩
  | 17 => ⟨S64x512, .f32⟩
  | 18 => ⟨S64x512, .i1⟩
  | 19 => ⟨S_, .f32⟩
  | 20 => ⟨S64x512, .f32⟩
  | 21 => ⟨S64x512, .f32⟩
  | 22 => ⟨S64x1, .i32⟩
  | 23 => ⟨S64, .i32⟩
  | 24 => ⟨S_, .i32⟩
  | 25 => ⟨S64, .i32⟩
  | 26 => ⟨S64, .i1⟩
  | 27 => ⟨S_, .i32⟩
  | 28 => ⟨S64, .i32⟩
  | 29 => ⟨S64, .i32⟩
  | 30 => ⟨S64, .i32⟩
  | 31 => ⟨S64x1, .i32⟩
  | 32 => ⟨S1, .i32⟩
  | 33 => ⟨S_, .i32⟩
  | 34 => ⟨S64x1, .i32⟩
  | 35 => ⟨S64x1, .i1⟩
  | 36 => ⟨S1x1, .i32⟩
  | 37 => ⟨S64x1, .i32⟩
  | 38 => ⟨S64x1, .i1⟩
  | 39 => ⟨S64x1, .i1⟩
  | 40 => ⟨S_, .i1⟩
  | 41 => ⟨S64, .i1⟩
  | 42 => ⟨S64x512, .f32⟩
  | 43 => ⟨S64x512, .i1⟩
  | 44 => ⟨S_, .f32⟩
  | 45 => ⟨S64x512, .f32⟩
  | 46 => ⟨S64x512, .f32⟩
  | 47 => ⟨S64x512, .f32⟩
  | 48 => ⟨S64x1536, .f32⟩
  | 49 => ⟨S1x512, .f32⟩
  | 50 => ⟨S64x512, .f32⟩
  | _ => ⟨S131008x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S131008x256, .f32⟩

abbrev bufTy : (tb : Table) → Fin (tcTables nBuf tb) → BufTy
  | .hbm, ⟨i, _⟩ => hbmTy i
  | .local _ .vmem, ⟨0, _⟩ => ⟨S2048x256, .f32⟩
  | .local _ .vmem, ⟨1, _⟩ => ⟨S2048x256, .f32⟩
  | .local _ .vmem, ⟨2, _⟩ => ⟨S512x256, .f32⟩
  | .local _ .vmem, ⟨3, _⟩ => ⟨S1x512, .f32⟩
  | .local _ .vmem, ⟨4, _⟩ => ⟨S2048x512, .f32⟩
  | .local _ .vmem, ⟨5, _⟩ => ⟨S2048x512, .f32⟩
  | .local _ .vmem, ⟨6, _⟩ => ⟨S1024x1536, .f32⟩
  | .local _ .vmem, ⟨7, _⟩ => ⟨S1024x1536, .f32⟩
  | .local _ .vmem, ⟨8, _⟩ => ⟨S512x1536, .f32⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | .local _ .vmem, ⟨12, _⟩ => ⟨S1024x1536, .f32⟩
  | .local _ .vmem, ⟨13, _⟩ => ⟨S1024x1536, .f32⟩
  | .local _ .vmem, ⟨14, _⟩ => ⟨S512x1536, .f32⟩
  | .local _ .vmem, ⟨15, _⟩ => ⟨S1x512, .f32⟩
  | .local _ .vmem, ⟨16, _⟩ => ⟨S1024x512, .f32⟩
  | .local _ .vmem, ⟨17, _⟩ => ⟨S1024x512, .f32⟩
  | .local _ .vmem, ⟨18, _⟩ => ⟨S1024x1536, .f32⟩
  | .local _ .vmem, ⟨19, _⟩ => ⟨S1024x1536, .f32⟩
  | .local _ .vmem, ⟨20, _⟩ => ⟨S512x1536, .f32⟩
  | .local _ .vmem, ⟨21, _⟩ => ⟨S1x512, .f32⟩
  | .local _ .vmem, ⟨22, _⟩ => ⟨S1024x512, .f32⟩
  | .local _ .vmem, ⟨23, _⟩ => ⟨S1024x512, .f32⟩
  | .local _ .vmem, ⟨24, _⟩ => ⟨S1024x1536, .f32⟩
  | .local _ .vmem, ⟨25, _⟩ => ⟨S1024x1536, .f32⟩
  | .local _ .vmem, ⟨26, _⟩ => ⟨S512x1536, .f32⟩
  | .local _ .vmem, ⟨27, _⟩ => ⟨S1x512, .f32⟩
  | .local _ .vmem, ⟨28, _⟩ => ⟨S1024x512, .f32⟩
  | .local _ .vmem, ⟨29, _⟩ => ⟨S1024x512, .f32⟩
  | .local _ .vmem, ⟨30, _⟩ => ⟨S1024x1536, .f32⟩
  | .local _ .vmem, ⟨31, _⟩ => ⟨S1024x1536, .f32⟩
  | .local _ .vmem, ⟨32, _⟩ => ⟨S512x1536, .f32⟩
  | .local _ .vmem, ⟨33, _⟩ => ⟨S1x512, .f32⟩
  | .local _ .vmem, ⟨34, _⟩ => ⟨S1024x512, .f32⟩
  | .local _ .vmem, ⟨35, _⟩ => ⟨S1024x512, .f32⟩
  | .local _ .vmem, ⟨36, _⟩ => ⟨S1024x1536, .f32⟩
  | .local _ .vmem, ⟨37, _⟩ => ⟨S512x1536, .f32⟩
  | .local _ .vmem, ⟨38, _⟩ => ⟨S1x512, .f32⟩
  | .local _ .vmem, ⟨39, _⟩ => ⟨S1024x512, .f32⟩
  | .local _ .vmem, ⟨40, _⟩ => ⟨S512x1536, .f32⟩
  | .local _ .vmem, ⟨41, _⟩ => ⟨S512x1536, .f32⟩
  | .local _ .vmem, ⟨42, _⟩ => ⟨S1x512, .f32⟩
  | .local _ .vmem, ⟨43, _⟩ => ⟨S512x512, .f32⟩
  | .local _ .vmem, ⟨44, _⟩ => ⟨S256x1536, .f32⟩
  | .local _ .vmem, ⟨45, _⟩ => ⟨S512x1536, .f32⟩
  | .local _ .vmem, ⟨46, _⟩ => ⟨S1x512, .f32⟩
  | .local _ .vmem, ⟨47, _⟩ => ⟨S256x512, .f32⟩
  | .local _ .vmem, ⟨48, _⟩ => ⟨S128x1536, .f32⟩
  | .local _ .vmem, ⟨49, _⟩ => ⟨S512x1536, .f32⟩
  | .local _ .vmem, ⟨50, _⟩ => ⟨S1x512, .f32⟩
  | .local _ .vmem, ⟨51, _⟩ => ⟨S128x512, .f32⟩
  | .local _ .vmem, ⟨52, _⟩ => ⟨S64x1536, .f32⟩
  | .local _ .vmem, ⟨53, _⟩ => ⟨S512x1536, .f32⟩
  | .local _ .vmem, ⟨54, _⟩ => ⟨S1x512, .f32⟩
  | .local _ .vmem, ⟨55, _⟩ => ⟨S64x512, .f32⟩
  | _, _ => ⟨S131008x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | _, _ => false

abbrev semScoped : Fin 0 → Bool
  | ⟨_, h⟩ => absurd h (Nat.not_lt_zero _)

abbrev dmaSemScoped : Fin 56 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | _ => false

abbrev sig : RefSig :=
  ofTc nBuf bufTy 0 56 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_call0_v0 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_call1_c : Ref sig .tc := ⟨.hbm, 16, rfl⟩
abbrev main_call1_v0 : Ref sig .tc := ⟨.hbm, 17, rfl⟩
abbrev main_call1_v1 : Ref sig .tc := ⟨.hbm, 18, rfl⟩
abbrev main_call1_c_0 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_call1_v5 : Ref sig .tc := ⟨.hbm, 23, rfl⟩
abbrev main_call1_c_1 : Ref sig .tc := ⟨.hbm, 24, rfl⟩
abbrev main_call1_c_2 : Ref sig .tc := ⟨.hbm, 25, rfl⟩
abbrev main_call1_v6 : Ref sig .tc := ⟨.hbm, 26, rfl⟩
abbrev main_call1_v7 : Ref sig .tc := ⟨.hbm, 27, rfl⟩
abbrev main_call1_v8 : Ref sig .tc := ⟨.hbm, 28, rfl⟩
abbrev main_call1_v9 : Ref sig .tc := ⟨.hbm, 29, rfl⟩
abbrev main_call1_v10 : Ref sig .tc := ⟨.hbm, 30, rfl⟩
abbrev main_call1_v11 : Ref sig .tc := ⟨.hbm, 31, rfl⟩
abbrev main_call1_c_3 : Ref sig .tc := ⟨.hbm, 32, rfl⟩
abbrev main_call1_v12 : Ref sig .tc := ⟨.hbm, 33, rfl⟩
abbrev main_call1_v13 : Ref sig .tc := ⟨.hbm, 34, rfl⟩
abbrev main_call1_v14 : Ref sig .tc := ⟨.hbm, 35, rfl⟩
abbrev main_call1_cst : Ref sig .tc := ⟨.hbm, 36, rfl⟩
abbrev main_call1_v15 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_call2_c : Ref sig .tc := ⟨.hbm, 41, rfl⟩
abbrev main_call2_v0 : Ref sig .tc := ⟨.hbm, 42, rfl⟩
abbrev main_call2_v1 : Ref sig .tc := ⟨.hbm, 43, rfl⟩
abbrev main_call2_c_0 : Ref sig .tc := ⟨.hbm, 44, rfl⟩
abbrev main_call2_v2 : Ref sig .tc := ⟨.hbm, 45, rfl⟩
abbrev main_call2_v3 : Ref sig .tc := ⟨.hbm, 46, rfl⟩
abbrev main_call2_v4 : Ref sig .tc := ⟨.hbm, 47, rfl⟩
abbrev main_call2_v5 : Ref sig .tc := ⟨.hbm, 48, rfl⟩
abbrev main_call2_c_1 : Ref sig .tc := ⟨.hbm, 49, rfl⟩
abbrev main_call2_c_2 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_v9 : Ref sig .tc := ⟨.hbm, 54, rfl⟩
abbrev main_call2_v10 : Ref sig .tc := ⟨.hbm, 55, rfl⟩
abbrev main_call2_v11 : Ref sig .tc := ⟨.hbm, 56, rfl⟩
abbrev main_call2_c_3 : Ref sig .tc := ⟨.hbm, 57, rfl⟩
abbrev main_call2_v12 : Ref sig .tc := ⟨.hbm, 58, rfl⟩
abbrev main_call2_v13 : Ref sig .tc := ⟨.hbm, 59, rfl⟩
abbrev main_call2_v14 : Ref sig .tc := ⟨.hbm, 60, rfl⟩
abbrev main_call2_cst : Ref sig .tc := ⟨.hbm, 61, rfl⟩
abbrev main_call2_v15 : Ref sig .tc := ⟨.hbm, 62, rfl⟩
abbrev main_v11 : Ref sig .tc := ⟨.hbm, 63, rfl⟩
abbrev main_v12 : Ref sig .tc := ⟨.hbm, 64, rfl⟩
abbrev main_v13 : Ref sig .tc := ⟨.hbm, 65, rfl⟩
abbrev main_v14 : Ref sig .tc := ⟨.hbm, 66, rfl⟩
abbrev main_v15 : Ref sig .tc := ⟨.hbm, 67, rfl⟩
abbrev main_v16 : Ref sig .tc := ⟨.hbm, 68, rfl⟩
abbrev main_v17 : Ref sig .tc := ⟨.hbm, 69, rfl⟩
abbrev main_v18 : Ref sig .tc := ⟨.hbm, 70, rfl⟩
abbrev main_call3_c : Ref sig .tc := ⟨.hbm, 71, rfl⟩
abbrev main_call3_v0 : Ref sig .tc := ⟨.hbm, 72, rfl⟩
abbrev main_call3_v1 : Ref sig .tc := ⟨.hbm, 73, rfl⟩
abbrev main_call3_c_0 : Ref sig .tc := ⟨.hbm, 74, rfl⟩
abbrev main_call3_v2 : Ref sig .tc := ⟨.hbm, 75, rfl⟩
abbrev main_call3_v3 : Ref sig .tc := ⟨.hbm, 76, rfl⟩
abbrev main_call3_v4 : Ref sig .tc := ⟨.hbm, 77, rfl⟩
abbrev main_call3_v5 : Ref sig .tc := ⟨.hbm, 78, rfl⟩
abbrev main_call3_c_1 : Ref sig .tc := ⟨.hbm, 79, rfl⟩
abbrev main_call3_c_2 : Ref sig .tc := ⟨.hbm, 80, rfl⟩
abbrev main_call3_v6 : Ref sig .tc := ⟨.hbm, 81, rfl⟩
abbrev main_call3_v7 : Ref sig .tc := ⟨.hbm, 82, rfl⟩
abbrev main_call3_v8 : Ref sig .tc := ⟨.hbm, 83, rfl⟩
abbrev main_call3_v9 : Ref sig .tc := ⟨.hbm, 84, rfl⟩
abbrev main_call3_v10 : Ref sig .tc := ⟨.hbm, 85, rfl⟩
abbrev main_call3_v11 : Ref sig .tc := ⟨.hbm, 86, rfl⟩
abbrev main_call3_c_3 : Ref sig .tc := ⟨.hbm, 87, rfl⟩
abbrev main_call3_v12 : Ref sig .tc := ⟨.hbm, 88, rfl⟩
abbrev main_call3_v13 : Ref sig .tc := ⟨.hbm, 89, rfl⟩
abbrev main_call3_v14 : Ref sig .tc := ⟨.hbm, 90, rfl⟩
abbrev main_call3_cst : Ref sig .tc := ⟨.hbm, 91, rfl⟩
abbrev main_call3_v15 : Ref sig .tc := ⟨.hbm, 92, rfl⟩
abbrev main_v19 : Ref sig .tc := ⟨.hbm, 93, rfl⟩
abbrev main_v20 : Ref sig .tc := ⟨.hbm, 94, rfl⟩
abbrev main_v21 : Ref sig .tc := ⟨.hbm, 95, rfl⟩
abbrev main_call4_c : Ref sig .tc := ⟨.hbm, 96, rfl⟩
abbrev main_call4_v0 : Ref sig .tc := ⟨.hbm, 97, rfl⟩
abbrev main_call4_v1 : Ref sig .tc := ⟨.hbm, 98, rfl⟩
abbrev main_call4_c_0 : Ref sig .tc := ⟨.hbm, 99, rfl⟩
abbrev main_call4_v2 : Ref sig .tc := ⟨.hbm, 100, rfl⟩
abbrev main_call4_v3 : Ref sig .tc := ⟨.hbm, 101, rfl⟩
abbrev main_call4_v4 : Ref sig .tc := ⟨.hbm, 102, rfl⟩
abbrev main_call4_v5 : Ref sig .tc := ⟨.hbm, 103, rfl⟩
abbrev main_call4_c_1 : Ref sig .tc := ⟨.hbm, 104, rfl⟩
abbrev main_call4_c_2 : Ref sig .tc := ⟨.hbm, 105, rfl⟩
abbrev main_call4_v6 : Ref sig .tc := ⟨.hbm, 106, rfl⟩
abbrev main_call4_v7 : Ref sig .tc := ⟨.hbm, 107, rfl⟩
abbrev main_call4_v8 : Ref sig .tc := ⟨.hbm, 108, rfl⟩
abbrev main_call4_v9 : Ref sig .tc := ⟨.hbm, 109, rfl⟩
abbrev main_call4_v10 : Ref sig .tc := ⟨.hbm, 110, rfl⟩
abbrev main_call4_v11 : Ref sig .tc := ⟨.hbm, 111, rfl⟩
abbrev main_call4_c_3 : Ref sig .tc := ⟨.hbm, 112, rfl⟩
abbrev main_call4_v12 : Ref sig .tc := ⟨.hbm, 113, rfl⟩
abbrev main_call4_v13 : Ref sig .tc := ⟨.hbm, 114, rfl⟩
abbrev main_call4_v14 : Ref sig .tc := ⟨.hbm, 115, rfl⟩
abbrev main_call4_cst : Ref sig .tc := ⟨.hbm, 116, rfl⟩
abbrev main_call4_v15 : Ref sig .tc := ⟨.hbm, 117, rfl⟩
abbrev main_v22 : Ref sig .tc := ⟨.hbm, 118, rfl⟩
abbrev main_v23 : Ref sig .tc := ⟨.hbm, 119, rfl⟩
abbrev main_v24 : Ref sig .tc := ⟨.hbm, 120, rfl⟩
abbrev main_v25 : Ref sig .tc := ⟨.hbm, 121, rfl⟩
abbrev main_v26 : Ref sig .tc := ⟨.hbm, 122, rfl⟩
abbrev main_v27 : Ref sig .tc := ⟨.hbm, 123, rfl⟩
abbrev main_v28 : Ref sig .tc := ⟨.hbm, 124, rfl⟩
abbrev main_v29 : Ref sig .tc := ⟨.hbm, 125, rfl⟩
abbrev main_call5_c : Ref sig .tc := ⟨.hbm, 126, rfl⟩
abbrev main_call5_v0 : Ref sig .tc := ⟨.hbm, 127, rfl⟩
abbrev main_call5_v1 : Ref sig .tc := ⟨.hbm, 128, rfl⟩
abbrev main_call5_c_0 : Ref sig .tc := ⟨.hbm, 129, rfl⟩
abbrev main_call5_v2 : Ref sig .tc := ⟨.hbm, 130, rfl⟩
abbrev main_call5_v3 : Ref sig .tc := ⟨.hbm, 131, rfl⟩
abbrev main_call5_v4 : Ref sig .tc := ⟨.hbm, 132, rfl⟩
abbrev main_call5_v5 : Ref sig .tc := ⟨.hbm, 133, rfl⟩
abbrev main_call5_c_1 : Ref sig .tc := ⟨.hbm, 134, rfl⟩
abbrev main_call5_c_2 : Ref sig .tc := ⟨.hbm, 135, rfl⟩
abbrev main_call5_v6 : Ref sig .tc := ⟨.hbm, 136, rfl⟩
abbrev main_call5_v7 : Ref sig .tc := ⟨.hbm, 137, rfl⟩
abbrev main_call5_v8 : Ref sig .tc := ⟨.hbm, 138, rfl⟩
abbrev main_call5_v9 : Ref sig .tc := ⟨.hbm, 139, rfl⟩
abbrev main_call5_v10 : Ref sig .tc := ⟨.hbm, 140, rfl⟩
abbrev main_call5_v11 : Ref sig .tc := ⟨.hbm, 141, rfl⟩
abbrev main_call5_c_3 : Ref sig .tc := ⟨.hbm, 142, rfl⟩
abbrev main_call5_v12 : Ref sig .tc := ⟨.hbm, 143, rfl⟩
abbrev main_call5_v13 : Ref sig .tc := ⟨.hbm, 144, rfl⟩
abbrev main_call5_v14 : Ref sig .tc := ⟨.hbm, 145, rfl⟩
abbrev main_call5_cst : Ref sig .tc := ⟨.hbm, 146, rfl⟩
abbrev main_call5_v15 : Ref sig .tc := ⟨.hbm, 147, rfl⟩
abbrev main_v30 : Ref sig .tc := ⟨.hbm, 148, rfl⟩
abbrev main_v31 : Ref sig .tc := ⟨.hbm, 149, rfl⟩
abbrev main_v32 : Ref sig .tc := ⟨.hbm, 150, rfl⟩
abbrev main_call6_c : Ref sig .tc := ⟨.hbm, 151, rfl⟩
abbrev main_call6_v0 : Ref sig .tc := ⟨.hbm, 152, rfl⟩
abbrev main_call6_v1 : Ref sig .tc := ⟨.hbm, 153, rfl⟩
abbrev main_call6_c_0 : Ref sig .tc := ⟨.hbm, 154, rfl⟩
abbrev main_call6_v2 : Ref sig .tc := ⟨.hbm, 155, rfl⟩
abbrev main_call6_v3 : Ref sig .tc := ⟨.hbm, 156, rfl⟩
abbrev main_call6_v4 : Ref sig .tc := ⟨.hbm, 157, rfl⟩
abbrev main_call6_v5 : Ref sig .tc := ⟨.hbm, 158, rfl⟩
abbrev main_call6_c_1 : Ref sig .tc := ⟨.hbm, 159, rfl⟩
abbrev main_call6_c_2 : Ref sig .tc := ⟨.hbm, 160, rfl⟩
abbrev main_call6_v6 : Ref sig .tc := ⟨.hbm, 161, rfl⟩
abbrev main_call6_v7 : Ref sig .tc := ⟨.hbm, 162, rfl⟩
abbrev main_call6_v8 : Ref sig .tc := ⟨.hbm, 163, rfl⟩
abbrev main_call6_v9 : Ref sig .tc := ⟨.hbm, 164, rfl⟩
abbrev main_call6_v10 : Ref sig .tc := ⟨.hbm, 165, rfl⟩
abbrev main_call6_v11 : Ref sig .tc := ⟨.hbm, 166, rfl⟩
abbrev main_call6_c_3 : Ref sig .tc := ⟨.hbm, 167, rfl⟩
abbrev main_call6_v12 : Ref sig .tc := ⟨.hbm, 168, rfl⟩
abbrev main_call6_v13 : Ref sig .tc := ⟨.hbm, 169, rfl⟩
abbrev main_call6_v14 : Ref sig .tc := ⟨.hbm, 170, rfl⟩
abbrev main_call6_cst : Ref sig .tc := ⟨.hbm, 171, rfl⟩
abbrev main_call6_v15 : Ref sig .tc := ⟨.hbm, 172, rfl⟩
abbrev main_v33 : Ref sig .tc := ⟨.hbm, 173, rfl⟩
abbrev main_v34 : Ref sig .tc := ⟨.hbm, 174, rfl⟩
abbrev main_v35 : Ref sig .tc := ⟨.hbm, 175, rfl⟩
abbrev main_v36 : Ref sig .tc := ⟨.hbm, 176, rfl⟩
abbrev main_v37 : Ref sig .tc := ⟨.hbm, 177, rfl⟩
abbrev main_v38 : Ref sig .tc := ⟨.hbm, 178, rfl⟩
abbrev main_v39 : Ref sig .tc := ⟨.hbm, 179, rfl⟩
abbrev main_v40 : Ref sig .tc := ⟨.hbm, 180, rfl⟩
abbrev main_call7_c : Ref sig .tc := ⟨.hbm, 181, rfl⟩
abbrev main_call7_v0 : Ref sig .tc := ⟨.hbm, 182, rfl⟩
abbrev main_call7_v1 : Ref sig .tc := ⟨.hbm, 183, rfl⟩
abbrev main_call7_c_0 : Ref sig .tc := ⟨.hbm, 184, rfl⟩
abbrev main_call7_v2 : Ref sig .tc := ⟨.hbm, 185, rfl⟩
abbrev main_call7_v3 : Ref sig .tc := ⟨.hbm, 186, rfl⟩
abbrev main_call7_v4 : Ref sig .tc := ⟨.hbm, 187, rfl⟩
abbrev main_call7_v5 : Ref sig .tc := ⟨.hbm, 188, rfl⟩
abbrev main_call7_c_1 : Ref sig .tc := ⟨.hbm, 189, rfl⟩
abbrev main_call7_c_2 : Ref sig .tc := ⟨.hbm, 190, rfl⟩
abbrev main_call7_v6 : Ref sig .tc := ⟨.hbm, 191, rfl⟩
abbrev main_call7_v7 : Ref sig .tc := ⟨.hbm, 192, rfl⟩
abbrev main_call7_v8 : Ref sig .tc := ⟨.hbm, 193, rfl⟩
abbrev main_call7_v9 : Ref sig .tc := ⟨.hbm, 194, rfl⟩
abbrev main_call7_v10 : Ref sig .tc := ⟨.hbm, 195, rfl⟩
abbrev main_call7_v11 : Ref sig .tc := ⟨.hbm, 196, rfl⟩
abbrev main_call7_c_3 : Ref sig .tc := ⟨.hbm, 197, rfl⟩
abbrev main_call7_v12 : Ref sig .tc := ⟨.hbm, 198, rfl⟩
abbrev main_call7_v13 : Ref sig .tc := ⟨.hbm, 199, rfl⟩
abbrev main_call7_v14 : Ref sig .tc := ⟨.hbm, 200, rfl⟩
abbrev main_call7_cst : Ref sig .tc := ⟨.hbm, 201, rfl⟩
abbrev main_call7_v15 : Ref sig .tc := ⟨.hbm, 202, rfl⟩
abbrev main_v41 : Ref sig .tc := ⟨.hbm, 203, rfl⟩
abbrev main_v42 : Ref sig .tc := ⟨.hbm, 204, rfl⟩
abbrev main_v43 : Ref sig .tc := ⟨.hbm, 205, rfl⟩
abbrev main_call8_c : Ref sig .tc := ⟨.hbm, 206, rfl⟩
abbrev main_call8_v0 : Ref sig .tc := ⟨.hbm, 207, rfl⟩
abbrev main_call8_v1 : Ref sig .tc := ⟨.hbm, 208, rfl⟩
abbrev main_call8_c_0 : Ref sig .tc := ⟨.hbm, 209, rfl⟩
abbrev main_call8_v2 : Ref sig .tc := ⟨.hbm, 210, rfl⟩
abbrev main_call8_v3 : Ref sig .tc := ⟨.hbm, 211, rfl⟩
abbrev main_call8_v4 : Ref sig .tc := ⟨.hbm, 212, rfl⟩
abbrev main_call8_v5 : Ref sig .tc := ⟨.hbm, 213, rfl⟩
abbrev main_call8_c_1 : Ref sig .tc := ⟨.hbm, 214, rfl⟩
abbrev main_call8_c_2 : Ref sig .tc := ⟨.hbm, 215, rfl⟩
abbrev main_call8_v6 : Ref sig .tc := ⟨.hbm, 216, rfl⟩
abbrev main_call8_v7 : Ref sig .tc := ⟨.hbm, 217, rfl⟩
abbrev main_call8_v8 : Ref sig .tc := ⟨.hbm, 218, rfl⟩
abbrev main_call8_v9 : Ref sig .tc := ⟨.hbm, 219, rfl⟩
abbrev main_call8_v10 : Ref sig .tc := ⟨.hbm, 220, rfl⟩
abbrev main_call8_v11 : Ref sig .tc := ⟨.hbm, 221, rfl⟩
abbrev main_call8_c_3 : Ref sig .tc := ⟨.hbm, 222, rfl⟩
abbrev main_call8_v12 : Ref sig .tc := ⟨.hbm, 223, rfl⟩
abbrev main_call8_v13 : Ref sig .tc := ⟨.hbm, 224, rfl⟩
abbrev main_call8_v14 : Ref sig .tc := ⟨.hbm, 225, rfl⟩
abbrev main_call8_cst : Ref sig .tc := ⟨.hbm, 226, rfl⟩
abbrev main_call8_v15 : Ref sig .tc := ⟨.hbm, 227, rfl⟩
abbrev main_v44 : Ref sig .tc := ⟨.hbm, 228, rfl⟩
abbrev main_v45 : Ref sig .tc := ⟨.hbm, 229, rfl⟩
abbrev main_v46 : Ref sig .tc := ⟨.hbm, 230, rfl⟩
abbrev main_v47 : Ref sig .tc := ⟨.hbm, 231, rfl⟩
abbrev main_v48 : Ref sig .tc := ⟨.hbm, 232, rfl⟩
abbrev main_v49 : Ref sig .tc := ⟨.hbm, 233, rfl⟩
abbrev main_v50 : Ref sig .tc := ⟨.hbm, 234, rfl⟩
abbrev main_v51 : Ref sig .tc := ⟨.hbm, 235, rfl⟩
abbrev main_call9_c : Ref sig .tc := ⟨.hbm, 236, rfl⟩
abbrev main_call9_v0 : Ref sig .tc := ⟨.hbm, 237, rfl⟩
abbrev main_call9_v1 : Ref sig .tc := ⟨.hbm, 238, rfl⟩
abbrev main_call9_c_0 : Ref sig .tc := ⟨.hbm, 239, rfl⟩
abbrev main_call9_v2 : Ref sig .tc := ⟨.hbm, 240, rfl⟩
abbrev main_call9_v3 : Ref sig .tc := ⟨.hbm, 241, rfl⟩
abbrev main_call9_v4 : Ref sig .tc := ⟨.hbm, 242, rfl⟩
abbrev main_call9_v5 : Ref sig .tc := ⟨.hbm, 243, rfl⟩
abbrev main_call9_c_1 : Ref sig .tc := ⟨.hbm, 244, rfl⟩
abbrev main_call9_c_2 : Ref sig .tc := ⟨.hbm, 245, rfl⟩
abbrev main_call9_v6 : Ref sig .tc := ⟨.hbm, 246, rfl⟩
abbrev main_call9_v7 : Ref sig .tc := ⟨.hbm, 247, rfl⟩
abbrev main_call9_v8 : Ref sig .tc := ⟨.hbm, 248, rfl⟩
abbrev main_call9_v9 : Ref sig .tc := ⟨.hbm, 249, rfl⟩
abbrev main_call9_v10 : Ref sig .tc := ⟨.hbm, 250, rfl⟩
abbrev main_call9_v11 : Ref sig .tc := ⟨.hbm, 251, rfl⟩
abbrev main_call9_c_3 : Ref sig .tc := ⟨.hbm, 252, rfl⟩
abbrev main_call9_v12 : Ref sig .tc := ⟨.hbm, 253, rfl⟩
abbrev main_call9_v13 : Ref sig .tc := ⟨.hbm, 254, rfl⟩
abbrev main_call9_v14 : Ref sig .tc := ⟨.hbm, 255, rfl⟩
abbrev main_call9_cst : Ref sig .tc := ⟨.hbm, 256, rfl⟩
abbrev main_call9_v15 : Ref sig .tc := ⟨.hbm, 257, rfl⟩
abbrev main_v52 : Ref sig .tc := ⟨.hbm, 258, rfl⟩
abbrev main_v53 : Ref sig .tc := ⟨.hbm, 259, rfl⟩
abbrev main_v54 : Ref sig .tc := ⟨.hbm, 260, rfl⟩
abbrev main_call10_c : Ref sig .tc := ⟨.hbm, 261, rfl⟩
abbrev main_call10_v0 : Ref sig .tc := ⟨.hbm, 262, rfl⟩
abbrev main_call10_v1 : Ref sig .tc := ⟨.hbm, 263, rfl⟩
abbrev main_call10_c_0 : Ref sig .tc := ⟨.hbm, 264, rfl⟩
abbrev main_call10_v2 : Ref sig .tc := ⟨.hbm, 265, rfl⟩
abbrev main_call10_v3 : Ref sig .tc := ⟨.hbm, 266, rfl⟩
abbrev main_call10_v4 : Ref sig .tc := ⟨.hbm, 267, rfl⟩
abbrev main_call10_v5 : Ref sig .tc := ⟨.hbm, 268, rfl⟩
abbrev main_call10_c_1 : Ref sig .tc := ⟨.hbm, 269, rfl⟩
abbrev main_call10_c_2 : Ref sig .tc := ⟨.hbm, 270, rfl⟩
abbrev main_call10_v6 : Ref sig .tc := ⟨.hbm, 271, rfl⟩
abbrev main_call10_v7 : Ref sig .tc := ⟨.hbm, 272, rfl⟩
abbrev main_call10_v8 : Ref sig .tc := ⟨.hbm, 273, rfl⟩
abbrev main_call10_v9 : Ref sig .tc := ⟨.hbm, 274, rfl⟩
abbrev main_call10_v10 : Ref sig .tc := ⟨.hbm, 275, rfl⟩
abbrev main_call10_v11 : Ref sig .tc := ⟨.hbm, 276, rfl⟩
abbrev main_call10_c_3 : Ref sig .tc := ⟨.hbm, 277, rfl⟩
abbrev main_call10_v12 : Ref sig .tc := ⟨.hbm, 278, rfl⟩
abbrev main_call10_v13 : Ref sig .tc := ⟨.hbm, 279, rfl⟩
abbrev main_call10_v14 : Ref sig .tc := ⟨.hbm, 280, rfl⟩
abbrev main_call10_cst : Ref sig .tc := ⟨.hbm, 281, rfl⟩
abbrev main_call10_v15 : Ref sig .tc := ⟨.hbm, 282, rfl⟩
abbrev main_v55 : Ref sig .tc := ⟨.hbm, 283, rfl⟩
abbrev main_v56 : Ref sig .tc := ⟨.hbm, 284, rfl⟩
abbrev main_v57 : Ref sig .tc := ⟨.hbm, 285, rfl⟩
abbrev main_v58 : Ref sig .tc := ⟨.hbm, 286, rfl⟩
abbrev main_v59 : Ref sig .tc := ⟨.hbm, 287, rfl⟩
abbrev main_v60 : Ref sig .tc := ⟨.hbm, 288, rfl⟩
abbrev main_v61 : Ref sig .tc := ⟨.hbm, 289, rfl⟩
abbrev main_v62 : Ref sig .tc := ⟨.hbm, 290, rfl⟩
abbrev main_call11_c : Ref sig .tc := ⟨.hbm, 291, rfl⟩
abbrev main_call11_v0 : Ref sig .tc := ⟨.hbm, 292, rfl⟩
abbrev main_call11_v1 : Ref sig .tc := ⟨.hbm, 293, rfl⟩
abbrev main_call11_c_0 : Ref sig .tc := ⟨.hbm, 294, rfl⟩
abbrev main_call11_v2 : Ref sig .tc := ⟨.hbm, 295, rfl⟩
abbrev main_call11_v3 : Ref sig .tc := ⟨.hbm, 296, rfl⟩
abbrev main_call11_v4 : Ref sig .tc := ⟨.hbm, 297, rfl⟩
abbrev main_call11_v5 : Ref sig .tc := ⟨.hbm, 298, rfl⟩
abbrev main_call11_c_1 : Ref sig .tc := ⟨.hbm, 299, rfl⟩
abbrev main_call11_c_2 : Ref sig .tc := ⟨.hbm, 300, rfl⟩
abbrev main_call11_v6 : Ref sig .tc := ⟨.hbm, 301, rfl⟩
abbrev main_call11_v7 : Ref sig .tc := ⟨.hbm, 302, rfl⟩
abbrev main_call11_v8 : Ref sig .tc := ⟨.hbm, 303, rfl⟩
abbrev main_call11_v9 : Ref sig .tc := ⟨.hbm, 304, rfl⟩
abbrev main_call11_v10 : Ref sig .tc := ⟨.hbm, 305, rfl⟩
abbrev main_call11_v11 : Ref sig .tc := ⟨.hbm, 306, rfl⟩
abbrev main_call11_c_3 : Ref sig .tc := ⟨.hbm, 307, rfl⟩
abbrev main_call11_v12 : Ref sig .tc := ⟨.hbm, 308, rfl⟩
abbrev main_call11_v13 : Ref sig .tc := ⟨.hbm, 309, rfl⟩
abbrev main_call11_v14 : Ref sig .tc := ⟨.hbm, 310, rfl⟩
abbrev main_call11_cst : Ref sig .tc := ⟨.hbm, 311, rfl⟩
abbrev main_call11_v15 : Ref sig .tc := ⟨.hbm, 312, rfl⟩
abbrev main_v63 : Ref sig .tc := ⟨.hbm, 313, rfl⟩
abbrev main_v64 : Ref sig .tc := ⟨.hbm, 314, rfl⟩
abbrev main_v65 : Ref sig .tc := ⟨.hbm, 315, rfl⟩
abbrev main_call12_c : Ref sig .tc := ⟨.hbm, 316, rfl⟩
abbrev main_call12_v0 : Ref sig .tc := ⟨.hbm, 317, rfl⟩
abbrev main_call12_v1 : Ref sig .tc := ⟨.hbm, 318, rfl⟩
abbrev main_call12_c_0 : Ref sig .tc := ⟨.hbm, 319, rfl⟩
abbrev main_call12_v2 : Ref sig .tc := ⟨.hbm, 320, rfl⟩
abbrev main_call12_v3 : Ref sig .tc := ⟨.hbm, 321, rfl⟩
abbrev main_call12_v4 : Ref sig .tc := ⟨.hbm, 322, rfl⟩
abbrev main_call12_v5 : Ref sig .tc := ⟨.hbm, 323, rfl⟩
abbrev main_call12_c_1 : Ref sig .tc := ⟨.hbm, 324, rfl⟩
abbrev main_call12_c_2 : Ref sig .tc := ⟨.hbm, 325, rfl⟩
abbrev main_call12_v6 : Ref sig .tc := ⟨.hbm, 326, rfl⟩
abbrev main_call12_v7 : Ref sig .tc := ⟨.hbm, 327, rfl⟩
abbrev main_call12_v8 : Ref sig .tc := ⟨.hbm, 328, rfl⟩
abbrev main_call12_v9 : Ref sig .tc := ⟨.hbm, 329, rfl⟩
abbrev main_call12_v10 : Ref sig .tc := ⟨.hbm, 330, rfl⟩
abbrev main_call12_v11 : Ref sig .tc := ⟨.hbm, 331, rfl⟩
abbrev main_call12_c_3 : Ref sig .tc := ⟨.hbm, 332, rfl⟩
abbrev main_call12_v12 : Ref sig .tc := ⟨.hbm, 333, rfl⟩
abbrev main_call12_v13 : Ref sig .tc := ⟨.hbm, 334, rfl⟩
abbrev main_call12_v14 : Ref sig .tc := ⟨.hbm, 335, rfl⟩
abbrev main_call12_cst : Ref sig .tc := ⟨.hbm, 336, rfl⟩
abbrev main_call12_v15 : Ref sig .tc := ⟨.hbm, 337, rfl⟩
abbrev main_v66 : Ref sig .tc := ⟨.hbm, 338, rfl⟩
abbrev main_v67 : Ref sig .tc := ⟨.hbm, 339, rfl⟩
abbrev main_v68 : Ref sig .tc := ⟨.hbm, 340, rfl⟩
abbrev main_v69 : Ref sig .tc := ⟨.hbm, 341, rfl⟩
abbrev main_v70 : Ref sig .tc := ⟨.hbm, 342, rfl⟩
abbrev main_v71 : Ref sig .tc := ⟨.hbm, 343, rfl⟩
abbrev main_v72 : Ref sig .tc := ⟨.hbm, 344, rfl⟩
abbrev main_v73 : Ref sig .tc := ⟨.hbm, 345, rfl⟩
abbrev main_call13_c : Ref sig .tc := ⟨.hbm, 346, rfl⟩
abbrev main_call13_v0 : Ref sig .tc := ⟨.hbm, 347, rfl⟩
abbrev main_call13_v1 : Ref sig .tc := ⟨.hbm, 348, rfl⟩
abbrev main_call13_c_0 : Ref sig .tc := ⟨.hbm, 349, rfl⟩
abbrev main_call13_v2 : Ref sig .tc := ⟨.hbm, 350, rfl⟩
abbrev main_call13_v3 : Ref sig .tc := ⟨.hbm, 351, rfl⟩
abbrev main_call13_v4 : Ref sig .tc := ⟨.hbm, 352, rfl⟩
abbrev main_call13_v5 : Ref sig .tc := ⟨.hbm, 353, rfl⟩
abbrev main_call13_c_1 : Ref sig .tc := ⟨.hbm, 354, rfl⟩
abbrev main_call13_c_2 : Ref sig .tc := ⟨.hbm, 355, rfl⟩
abbrev main_call13_v6 : Ref sig .tc := ⟨.hbm, 356, rfl⟩
abbrev main_call13_v7 : Ref sig .tc := ⟨.hbm, 357, rfl⟩
abbrev main_call13_v8 : Ref sig .tc := ⟨.hbm, 358, rfl⟩
abbrev main_call13_v9 : Ref sig .tc := ⟨.hbm, 359, rfl⟩
abbrev main_call13_v10 : Ref sig .tc := ⟨.hbm, 360, rfl⟩
abbrev main_call13_v11 : Ref sig .tc := ⟨.hbm, 361, rfl⟩
abbrev main_call13_c_3 : Ref sig .tc := ⟨.hbm, 362, rfl⟩
abbrev main_call13_v12 : Ref sig .tc := ⟨.hbm, 363, rfl⟩
abbrev main_call13_v13 : Ref sig .tc := ⟨.hbm, 364, rfl⟩
abbrev main_call13_v14 : Ref sig .tc := ⟨.hbm, 365, rfl⟩
abbrev main_call13_cst : Ref sig .tc := ⟨.hbm, 366, rfl⟩
abbrev main_call13_v15 : Ref sig .tc := ⟨.hbm, 367, rfl⟩
abbrev main_v74 : Ref sig .tc := ⟨.hbm, 368, rfl⟩
abbrev main_v75 : Ref sig .tc := ⟨.hbm, 369, rfl⟩
abbrev main_v76 : Ref sig .tc := ⟨.hbm, 370, rfl⟩
abbrev main_call14_c : Ref sig .tc := ⟨.hbm, 371, rfl⟩
abbrev main_call14_v0 : Ref sig .tc := ⟨.hbm, 372, rfl⟩
abbrev main_call14_v1 : Ref sig .tc := ⟨.hbm, 373, rfl⟩
abbrev main_call14_c_0 : Ref sig .tc := ⟨.hbm, 374, rfl⟩
abbrev main_call14_v2 : Ref sig .tc := ⟨.hbm, 375, rfl⟩
abbrev main_call14_v3 : Ref sig .tc := ⟨.hbm, 376, rfl⟩
abbrev main_call14_v4 : Ref sig .tc := ⟨.hbm, 377, rfl⟩
abbrev main_call14_v5 : Ref sig .tc := ⟨.hbm, 378, rfl⟩
abbrev main_call14_c_1 : Ref sig .tc := ⟨.hbm, 379, rfl⟩
abbrev main_call14_c_2 : Ref sig .tc := ⟨.hbm, 380, rfl⟩
abbrev main_call14_v6 : Ref sig .tc := ⟨.hbm, 381, rfl⟩
abbrev main_call14_v7 : Ref sig .tc := ⟨.hbm, 382, rfl⟩
abbrev main_call14_v8 : Ref sig .tc := ⟨.hbm, 383, rfl⟩
abbrev main_call14_v9 : Ref sig .tc := ⟨.hbm, 384, rfl⟩
abbrev main_call14_v10 : Ref sig .tc := ⟨.hbm, 385, rfl⟩
abbrev main_call14_v11 : Ref sig .tc := ⟨.hbm, 386, rfl⟩
abbrev main_call14_c_3 : Ref sig .tc := ⟨.hbm, 387, rfl⟩
abbrev main_call14_v12 : Ref sig .tc := ⟨.hbm, 388, rfl⟩
abbrev main_call14_v13 : Ref sig .tc := ⟨.hbm, 389, rfl⟩
abbrev main_call14_v14 : Ref sig .tc := ⟨.hbm, 390, rfl⟩
abbrev main_call14_cst : Ref sig .tc := ⟨.hbm, 391, rfl⟩
abbrev main_call14_v15 : Ref sig .tc := ⟨.hbm, 392, rfl⟩
abbrev main_v77 : Ref sig .tc := ⟨.hbm, 393, rfl⟩
abbrev main_v78 : Ref sig .tc := ⟨.hbm, 394, rfl⟩
abbrev main_v79 : Ref sig .tc := ⟨.hbm, 395, rfl⟩
abbrev main_v80 : Ref sig .tc := ⟨.hbm, 396, rfl⟩
abbrev main_v81 : Ref sig .tc := ⟨.hbm, 397, rfl⟩
abbrev main_v82 : Ref sig .tc := ⟨.hbm, 398, rfl⟩
abbrev main_v83 : Ref sig .tc := ⟨.hbm, 399, rfl⟩
abbrev main_v84 : Ref sig .tc := ⟨.hbm, 400, rfl⟩
abbrev main_call15_c : Ref sig .tc := ⟨.hbm, 401, rfl⟩
abbrev main_call15_v0 : Ref sig .tc := ⟨.hbm, 402, rfl⟩
abbrev main_call15_v1 : Ref sig .tc := ⟨.hbm, 403, rfl⟩
abbrev main_call15_c_0 : Ref sig .tc := ⟨.hbm, 404, rfl⟩
abbrev main_call15_v2 : Ref sig .tc := ⟨.hbm, 405, rfl⟩
abbrev main_call15_v3 : Ref sig .tc := ⟨.hbm, 406, rfl⟩
abbrev main_call15_v4 : Ref sig .tc := ⟨.hbm, 407, rfl⟩
abbrev main_call15_v5 : Ref sig .tc := ⟨.hbm, 408, rfl⟩
abbrev main_call15_c_1 : Ref sig .tc := ⟨.hbm, 409, rfl⟩
abbrev main_call15_c_2 : Ref sig .tc := ⟨.hbm, 410, rfl⟩
abbrev main_call15_v6 : Ref sig .tc := ⟨.hbm, 411, rfl⟩
abbrev main_call15_v7 : Ref sig .tc := ⟨.hbm, 412, rfl⟩
abbrev main_call15_v8 : Ref sig .tc := ⟨.hbm, 413, rfl⟩
abbrev main_call15_v9 : Ref sig .tc := ⟨.hbm, 414, rfl⟩
abbrev main_call15_v10 : Ref sig .tc := ⟨.hbm, 415, rfl⟩
abbrev main_call15_v11 : Ref sig .tc := ⟨.hbm, 416, rfl⟩
abbrev main_call15_c_3 : Ref sig .tc := ⟨.hbm, 417, rfl⟩
abbrev main_call15_v12 : Ref sig .tc := ⟨.hbm, 418, rfl⟩
abbrev main_call15_v13 : Ref sig .tc := ⟨.hbm, 419, rfl⟩
abbrev main_call15_v14 : Ref sig .tc := ⟨.hbm, 420, rfl⟩
abbrev main_call15_cst : Ref sig .tc := ⟨.hbm, 421, rfl⟩
abbrev main_call15_v15 : Ref sig .tc := ⟨.hbm, 422, rfl⟩
abbrev main_v85 : Ref sig .tc := ⟨.hbm, 423, rfl⟩
abbrev main_v86 : Ref sig .tc := ⟨.hbm, 424, rfl⟩
abbrev main_v87 : Ref sig .tc := ⟨.hbm, 425, rfl⟩
abbrev main_call16_c : Ref sig .tc := ⟨.hbm, 426, rfl⟩
abbrev main_call16_v0 : Ref sig .tc := ⟨.hbm, 427, rfl⟩
abbrev main_call16_v1 : Ref sig .tc := ⟨.hbm, 428, rfl⟩
abbrev main_call16_c_0 : Ref sig .tc := ⟨.hbm, 429, rfl⟩
abbrev main_call16_v2 : Ref sig .tc := ⟨.hbm, 430, rfl⟩
abbrev main_call16_v3 : Ref sig .tc := ⟨.hbm, 431, rfl⟩
abbrev main_call16_v4 : Ref sig .tc := ⟨.hbm, 432, rfl⟩
abbrev main_call16_v5 : Ref sig .tc := ⟨.hbm, 433, rfl⟩
abbrev main_call16_c_1 : Ref sig .tc := ⟨.hbm, 434, rfl⟩
abbrev main_call16_c_2 : Ref sig .tc := ⟨.hbm, 435, rfl⟩
abbrev main_call16_v6 : Ref sig .tc := ⟨.hbm, 436, rfl⟩
abbrev main_call16_v7 : Ref sig .tc := ⟨.hbm, 437, rfl⟩
abbrev main_call16_v8 : Ref sig .tc := ⟨.hbm, 438, rfl⟩
abbrev main_call16_v9 : Ref sig .tc := ⟨.hbm, 439, rfl⟩
abbrev main_call16_v10 : Ref sig .tc := ⟨.hbm, 440, rfl⟩
abbrev main_call16_v11 : Ref sig .tc := ⟨.hbm, 441, rfl⟩
abbrev main_call16_c_3 : Ref sig .tc := ⟨.hbm, 442, rfl⟩
abbrev main_call16_v12 : Ref sig .tc := ⟨.hbm, 443, rfl⟩
abbrev main_call16_v13 : Ref sig .tc := ⟨.hbm, 444, rfl⟩
abbrev main_call16_v14 : Ref sig .tc := ⟨.hbm, 445, rfl⟩
abbrev main_call16_cst : Ref sig .tc := ⟨.hbm, 446, rfl⟩
abbrev main_call16_v15 : Ref sig .tc := ⟨.hbm, 447, rfl⟩
abbrev main_v88 : Ref sig .tc := ⟨.hbm, 448, rfl⟩
abbrev main_v89 : Ref sig .tc := ⟨.hbm, 449, rfl⟩
abbrev main_v90 : Ref sig .tc := ⟨.hbm, 450, rfl⟩
abbrev main_v91 : Ref sig .tc := ⟨.hbm, 451, rfl⟩
abbrev main_v92 : Ref sig .tc := ⟨.hbm, 452, rfl⟩
abbrev main_v93 : Ref sig .tc := ⟨.hbm, 453, rfl⟩
abbrev main_v94 : Ref sig .tc := ⟨.hbm, 454, rfl⟩
abbrev main_v95 : Ref sig .tc := ⟨.hbm, 455, rfl⟩
abbrev main_call17_c : Ref sig .tc := ⟨.hbm, 456, rfl⟩
abbrev main_call17_v0 : Ref sig .tc := ⟨.hbm, 457, rfl⟩
abbrev main_call17_v1 : Ref sig .tc := ⟨.hbm, 458, rfl⟩
abbrev main_call17_c_0 : Ref sig .tc := ⟨.hbm, 459, rfl⟩
abbrev main_call17_v2 : Ref sig .tc := ⟨.hbm, 460, rfl⟩
abbrev main_call17_v3 : Ref sig .tc := ⟨.hbm, 461, rfl⟩
abbrev main_call17_v4 : Ref sig .tc := ⟨.hbm, 462, rfl⟩
abbrev main_call17_v5 : Ref sig .tc := ⟨.hbm, 463, rfl⟩
abbrev main_call17_c_1 : Ref sig .tc := ⟨.hbm, 464, rfl⟩
abbrev main_call17_c_2 : Ref sig .tc := ⟨.hbm, 465, rfl⟩
abbrev main_call17_v6 : Ref sig .tc := ⟨.hbm, 466, rfl⟩
abbrev main_call17_v7 : Ref sig .tc := ⟨.hbm, 467, rfl⟩
abbrev main_call17_v8 : Ref sig .tc := ⟨.hbm, 468, rfl⟩
abbrev main_call17_v9 : Ref sig .tc := ⟨.hbm, 469, rfl⟩
abbrev main_call17_v10 : Ref sig .tc := ⟨.hbm, 470, rfl⟩
abbrev main_call17_v11 : Ref sig .tc := ⟨.hbm, 471, rfl⟩
abbrev main_call17_c_3 : Ref sig .tc := ⟨.hbm, 472, rfl⟩
abbrev main_call17_v12 : Ref sig .tc := ⟨.hbm, 473, rfl⟩
abbrev main_call17_v13 : Ref sig .tc := ⟨.hbm, 474, rfl⟩
abbrev main_call17_v14 : Ref sig .tc := ⟨.hbm, 475, rfl⟩
abbrev main_call17_cst : Ref sig .tc := ⟨.hbm, 476, rfl⟩
abbrev main_call17_v15 : Ref sig .tc := ⟨.hbm, 477, rfl⟩
abbrev main_v96 : Ref sig .tc := ⟨.hbm, 478, rfl⟩
abbrev main_v97 : Ref sig .tc := ⟨.hbm, 479, rfl⟩
abbrev main_v98 : Ref sig .tc := ⟨.hbm, 480, rfl⟩
abbrev main_call18_c : Ref sig .tc := ⟨.hbm, 481, rfl⟩
abbrev main_call18_v0 : Ref sig .tc := ⟨.hbm, 482, rfl⟩
abbrev main_call18_v1 : Ref sig .tc := ⟨.hbm, 483, rfl⟩
abbrev main_call18_c_0 : Ref sig .tc := ⟨.hbm, 484, rfl⟩
abbrev main_call18_v2 : Ref sig .tc := ⟨.hbm, 485, rfl⟩
abbrev main_call18_v3 : Ref sig .tc := ⟨.hbm, 486, rfl⟩
abbrev main_call18_v4 : Ref sig .tc := ⟨.hbm, 487, rfl⟩
abbrev main_call18_v5 : Ref sig .tc := ⟨.hbm, 488, rfl⟩
abbrev main_call18_c_1 : Ref sig .tc := ⟨.hbm, 489, rfl⟩
abbrev main_call18_c_2 : Ref sig .tc := ⟨.hbm, 490, rfl⟩
abbrev main_call18_v6 : Ref sig .tc := ⟨.hbm, 491, rfl⟩
abbrev main_call18_v7 : Ref sig .tc := ⟨.hbm, 492, rfl⟩
abbrev main_call18_v8 : Ref sig .tc := ⟨.hbm, 493, rfl⟩
abbrev main_call18_v9 : Ref sig .tc := ⟨.hbm, 494, rfl⟩
abbrev main_call18_v10 : Ref sig .tc := ⟨.hbm, 495, rfl⟩
abbrev main_call18_v11 : Ref sig .tc := ⟨.hbm, 496, rfl⟩
abbrev main_call18_c_3 : Ref sig .tc := ⟨.hbm, 497, rfl⟩
abbrev main_call18_v12 : Ref sig .tc := ⟨.hbm, 498, rfl⟩
abbrev main_call18_v13 : Ref sig .tc := ⟨.hbm, 499, rfl⟩
abbrev main_call18_v14 : Ref sig .tc := ⟨.hbm, 500, rfl⟩
abbrev main_call18_cst : Ref sig .tc := ⟨.hbm, 501, rfl⟩
abbrev main_call18_v15 : Ref sig .tc := ⟨.hbm, 502, rfl⟩
abbrev main_v99 : Ref sig .tc := ⟨.hbm, 503, rfl⟩
abbrev main_v100 : Ref sig .tc := ⟨.hbm, 504, rfl⟩
abbrev main_v101 : Ref sig .tc := ⟨.hbm, 505, rfl⟩
abbrev main_v102 : Ref sig .tc := ⟨.hbm, 506, rfl⟩
abbrev main_v103 : Ref sig .tc := ⟨.hbm, 507, rfl⟩
abbrev main_v104 : Ref sig .tc := ⟨.hbm, 508, rfl⟩
abbrev main_v105 : Ref sig .tc := ⟨.hbm, 509, rfl⟩
abbrev main_v106 : Ref sig .tc := ⟨.hbm, 510, rfl⟩
abbrev main_call19_c : Ref sig .tc := ⟨.hbm, 511, rfl⟩
abbrev main_call19_v0 : Ref sig .tc := ⟨.hbm, 512, rfl⟩
abbrev main_call19_v1 : Ref sig .tc := ⟨.hbm, 513, rfl⟩
abbrev main_call19_c_0 : Ref sig .tc := ⟨.hbm, 514, rfl⟩
abbrev main_call19_v2 : Ref sig .tc := ⟨.hbm, 515, rfl⟩
abbrev main_call19_v3 : Ref sig .tc := ⟨.hbm, 516, rfl⟩
abbrev main_call19_v4 : Ref sig .tc := ⟨.hbm, 517, rfl⟩
abbrev main_call19_v5 : Ref sig .tc := ⟨.hbm, 518, rfl⟩
abbrev main_call19_c_1 : Ref sig .tc := ⟨.hbm, 519, rfl⟩
abbrev main_call19_c_2 : Ref sig .tc := ⟨.hbm, 520, rfl⟩
abbrev main_call19_v6 : Ref sig .tc := ⟨.hbm, 521, rfl⟩
abbrev main_call19_v7 : Ref sig .tc := ⟨.hbm, 522, rfl⟩
abbrev main_call19_v8 : Ref sig .tc := ⟨.hbm, 523, rfl⟩
abbrev main_call19_v9 : Ref sig .tc := ⟨.hbm, 524, rfl⟩
abbrev main_call19_v10 : Ref sig .tc := ⟨.hbm, 525, rfl⟩
abbrev main_call19_v11 : Ref sig .tc := ⟨.hbm, 526, rfl⟩
abbrev main_call19_c_3 : Ref sig .tc := ⟨.hbm, 527, rfl⟩
abbrev main_call19_v12 : Ref sig .tc := ⟨.hbm, 528, rfl⟩
abbrev main_call19_v13 : Ref sig .tc := ⟨.hbm, 529, rfl⟩
abbrev main_call19_v14 : Ref sig .tc := ⟨.hbm, 530, rfl⟩
abbrev main_call19_cst : Ref sig .tc := ⟨.hbm, 531, rfl⟩
abbrev main_call19_v15 : Ref sig .tc := ⟨.hbm, 532, rfl⟩
abbrev main_v107 : Ref sig .tc := ⟨.hbm, 533, rfl⟩
abbrev main_v108 : Ref sig .tc := ⟨.hbm, 534, rfl⟩
abbrev main_v109 : Ref sig .tc := ⟨.hbm, 535, rfl⟩
abbrev main_call20_c : Ref sig .tc := ⟨.hbm, 536, rfl⟩
abbrev main_call20_v0 : Ref sig .tc := ⟨.hbm, 537, rfl⟩
abbrev main_call20_v1 : Ref sig .tc := ⟨.hbm, 538, rfl⟩
abbrev main_call20_c_0 : Ref sig .tc := ⟨.hbm, 539, rfl⟩
abbrev main_call20_v2 : Ref sig .tc := ⟨.hbm, 540, rfl⟩
abbrev main_call20_v3 : Ref sig .tc := ⟨.hbm, 541, rfl⟩
abbrev main_call20_v4 : Ref sig .tc := ⟨.hbm, 542, rfl⟩
abbrev main_call20_v5 : Ref sig .tc := ⟨.hbm, 543, rfl⟩
abbrev main_call20_c_1 : Ref sig .tc := ⟨.hbm, 544, rfl⟩
abbrev main_call20_c_2 : Ref sig .tc := ⟨.hbm, 545, rfl⟩
abbrev main_call20_v6 : Ref sig .tc := ⟨.hbm, 546, rfl⟩
abbrev main_call20_v7 : Ref sig .tc := ⟨.hbm, 547, rfl⟩
abbrev main_call20_v8 : Ref sig .tc := ⟨.hbm, 548, rfl⟩
abbrev main_call20_v9 : Ref sig .tc := ⟨.hbm, 549, rfl⟩
abbrev main_call20_v10 : Ref sig .tc := ⟨.hbm, 550, rfl⟩
abbrev main_call20_v11 : Ref sig .tc := ⟨.hbm, 551, rfl⟩
abbrev main_call20_c_3 : Ref sig .tc := ⟨.hbm, 552, rfl⟩
abbrev main_call20_v12 : Ref sig .tc := ⟨.hbm, 553, rfl⟩
abbrev main_call20_v13 : Ref sig .tc := ⟨.hbm, 554, rfl⟩
abbrev main_call20_v14 : Ref sig .tc := ⟨.hbm, 555, rfl⟩
abbrev main_call20_cst : Ref sig .tc := ⟨.hbm, 556, rfl⟩
abbrev main_call20_v15 : Ref sig .tc := ⟨.hbm, 557, rfl⟩
abbrev main_v110 : Ref sig .tc := ⟨.hbm, 558, rfl⟩
abbrev main_v111 : Ref sig .tc := ⟨.hbm, 559, rfl⟩
abbrev main_v112 : Ref sig .tc := ⟨.hbm, 560, rfl⟩
abbrev main_v113 : Ref sig .tc := ⟨.hbm, 561, rfl⟩
abbrev main_v114 : Ref sig .tc := ⟨.hbm, 562, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_stg3_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg2_0 : Ref sig .tc := ⟨.vmem, 33, rfl⟩
abbrev cc5_stg3_0 : Ref sig .tc := ⟨.vmem, 34, rfl⟩
abbrev cc5_stg3_1 : Ref sig .tc := ⟨.vmem, 35, rfl⟩
abbrev cc6_stg0_0 : Ref sig .tc := ⟨.vmem, 36, rfl⟩
abbrev cc6_stg1_0 : Ref sig .tc := ⟨.vmem, 37, rfl⟩
abbrev cc6_stg2_0 : Ref sig .tc := ⟨.vmem, 38, rfl⟩
abbrev cc6_stg3_0 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg2_0 : Ref sig .tc := ⟨.vmem, 42, rfl⟩
abbrev cc7_stg3_0 : Ref sig .tc := ⟨.vmem, 43, rfl⟩
abbrev cc8_stg0_0 : Ref sig .tc := ⟨.vmem, 44, rfl⟩
abbrev cc8_stg1_0 : Ref sig .tc := ⟨.vmem, 45, rfl⟩
abbrev cc8_stg2_0 : Ref sig .tc := ⟨.vmem, 46, rfl⟩
abbrev cc8_stg3_0 : Ref sig .tc := ⟨.vmem, 47, rfl⟩
abbrev cc9_stg0_0 : Ref sig .tc := ⟨.vmem, 48, rfl⟩
abbrev cc9_stg1_0 : Ref sig .tc := ⟨.vmem, 49, rfl⟩
abbrev cc9_stg2_0 : Ref sig .tc := ⟨.vmem, 50, rfl⟩
abbrev cc9_stg3_0 : Ref sig .tc := ⟨.vmem, 51, rfl⟩
abbrev cc10_stg0_0 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg3_0 : Ref sig .tc := ⟨.vmem, 55, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem2_0 : DmaSem sig := 27
abbrev cc4_sem3_0 : DmaSem sig := 28
abbrev cc4_sem3_1 : DmaSem sig := 29
abbrev cc5_sem0_0 : DmaSem sig := 30
abbrev cc5_sem0_1 : DmaSem sig := 31
abbrev cc5_sem1_0 : DmaSem sig := 32
abbrev cc5_sem2_0 : DmaSem sig := 33
abbrev cc5_sem3_0 : DmaSem sig := 34
abbrev cc5_sem3_1 : DmaSem sig := 35
abbrev cc6_sem0_0 : DmaSem sig := 36
abbrev cc6_sem1_0 : DmaSem sig := 37
abbrev cc6_sem2_0 : DmaSem sig := 38
abbrev cc6_sem3_0 : DmaSem sig := 39
abbrev cc7_sem0_0 : DmaSem sig := 40
abbrev cc7_sem1_0 : DmaSem sig := 41
abbrev cc7_sem2_0 : DmaSem sig := 42
abbrev cc7_sem3_0 : DmaSem sig := 43
abbrev cc8_sem0_0 : DmaSem sig := 44
abbrev cc8_sem1_0 : DmaSem sig := 45
abbrev cc8_sem2_0 : DmaSem sig := 46
abbrev cc8_sem3_0 : DmaSem sig := 47
abbrev cc9_sem0_0 : DmaSem sig := 48
abbrev cc9_sem1_0 : DmaSem sig := 49
abbrev cc9_sem2_0 : DmaSem sig := 50
abbrev cc9_sem3_0 : DmaSem sig := 51
abbrev cc10_sem0_0 : DmaSem sig := 52
abbrev cc10_sem1_0 : DmaSem sig := 53
abbrev cc10_sem2_0 : DmaSem sig := 54
abbrev cc10_sem3_0 : DmaSem sig := 55

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S1024x1536 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x1536 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1024x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x1536 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S512x1536 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S1024x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S1024x1536 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S512x1536 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x512 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![4], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x1536 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S512x1536 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x512 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S1024x512 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![2], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S1024x1536 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S512x1536 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x512 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S1024x512 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 1 → Memref sig .tc .vmem S1024x1536 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true]

abbrev stage6_1 : Fin 1 → Memref sig .tc .vmem S512x1536 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x512 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1024x512 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 1 → Memref sig .tc .vmem S512x1536 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true]

abbrev stage7_1 : Fin 1 → Memref sig .tc .vmem S512x1536 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x512 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x512 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![true]

abbrev grid8 : Pipeline.Grid := ⟨1, ![1], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 1 → Memref sig .tc .vmem S256x1536 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true]

abbrev stage8_1 : Fin 1 → Memref sig .tc .vmem S512x1536 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 1 → Memref sig .tc .vmem S1x512 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S256x512 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![true]

abbrev grid9 : Pipeline.Grid := ⟨1, ![1], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 1 → Memref sig .tc .vmem S128x1536 .f32 := fun | 0 => Memref.whole cc9_stg0_0 | ⟨_ + 1, h⟩ => absurd h (Nat.not_lt.2 (Nat.le_add_left _ _))
abbrev sem9_0 : Fin 1 → DmaSem sig := fun | 0 => cc9_sem0_0 | ⟨_ + 1, h⟩ => absurd h (Nat.not_lt.2 (Nat.le_add_left _ _))
abbrev reads9_0 : Fin grid9.rank → Bool := ![true]

abbrev stage9_1 : Fin 1 → Memref sig .tc .vmem S512x1536 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x512 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x512 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![true]

abbrev grid10 : Pipeline.Grid := ⟨1, ![1], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 1 → Memref sig .tc .vmem S64x1536 .f32 := fun | 0 => Memref.whole cc10_stg0_0 | ⟨_ + 1, h⟩ => absurd h (Nat.not_lt.2 (Nat.le_add_left _ _))
abbrev sem10_0 : Fin 1 → DmaSem sig := fun | 0 => cc10_sem0_0 | ⟨_ + 1, h⟩ => absurd h (Nat.not_lt.2 (Nat.le_add_left _ _))
abbrev reads10_0 : Fin grid10.rank → Bool := ![true]

abbrev stage10_1 : Fin 1 → Memref sig .tc .vmem S512x1536 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x512 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 1 → Memref sig .tc .vmem S64x512 .f32 := fun | 0 => Memref.whole cc10_stg3_0 | ⟨_ + 1, h⟩ => absurd h (Nat.not_lt.2 (Nat.le_add_left _ _))
abbrev sem10_3 : Fin 1 → DmaSem sig := fun | 0 => cc10_sem3_0 | ⟨_ + 1, h⟩ => absurd h (Nat.not_lt.2 (Nat.le_add_left _ _))
abbrev reads10_3 : Fin grid10.rank → Bool := ![true]

class Facts₀ : Prop where
  pads_S131008x256_S131072x256_0640_000 : S131008x256.Pads (![0, 0] : Fin 2 → Nat) ![64, 0] ![0, 0] S131072x256
  h_S_ : 0 < S_.numel
  shapeCasts_S512_S1x512 : S512.ShapeCasts S1x512
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  transposes_S512x256_p1_0_S256x512 : S512x256.Transposes [1, 0] S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  inb_S2048x512_S2048x512_0_0 : ∀ a, (![0, 0] : Fin 2 → Nat) a + S2048x512.size a ≤ S2048x512.size a
  h_S2048x512 : 0 < S2048x512.numel
  slices_S131072x512_S131008x512_0_0 : S131072x512.Slices ![0, 0] S131008x512
  slices_S131008x512_S65536x512_65472_0 : S131008x512.Slices ![65472, 0] S65536x512
  slices_S65472x2_S32768x2_32704_0 : S65472x2.Slices ![32704, 0] S32768x2
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  bcast_S_S32768x1 : S_.BroadcastsInDim S32768x1 (![] : Fin 0 → Fin S32768x1.rank)
  bcast_S1_S1x1_1 : S1.BroadcastsInDim S1x1 (![1] : Fin 1 → Fin S1x1.rank)
  bcast_S1x1_S32768x1_0_1 : S1x1.BroadcastsInDim S32768x1 (![0, 1] : Fin 2 → Fin S32768x1.rank)
  reducesTo_S32768x1_S32768_d1 : S32768x1.ReducesTo [1] S32768
  bcast_S32768_S32768x512_0 : S32768.BroadcastsInDim S32768x512 (![0] : Fin 1 → Fin S32768x512.rank)
  bcast_S_S32768x512 : S_.BroadcastsInDim S32768x512 (![] : Fin 0 → Fin S32768x512.rank)
  slices_S32768x2_S32768x1_0_1 : S32768x2.Slices ![0, 1] S32768x1
  slices_S131008x512_S32768x512_32704_0 : S131008x512.Slices ![32704, 0] S32768x512
  concatenates_S32768x512_S32768x512_S32768x512_S32768x1536_d1 : Shape.Concatenates [S32768x512, S32768x512, S32768x512] S32768x1536 1
  inb_S1024x1536_S1024x1536_0_0 : ∀ a, (![0, 0] : Fin 2 → Nat) a + S1024x1536.size a ≤ S1024x1536.size a
  h_S1024x1536 : 0 < S1024x1536.numel
  shapeCasts_S1024x1536_S1024x1536 : S1024x1536.ShapeCasts S1024x1536
  inb_S512x1536_S512x1536_0_0 : ∀ a, (![0, 0] : Fin 2 → Nat) a + S512x1536.size a ≤ S512x1536.size a
  h_S512x1536 : 0 < S512x1536.numel
  transposes_S512x1536_p1_0_S1536x512 : S512x1536.Transposes [1, 0] S1536x512
  broadcasts_S1x512_S1024x512 : S1x512.Broadcasts S1024x512
  inb_S1024x512_S1024x512_0_0 : ∀ a, (![0, 0] : Fin 2 → Nat) a + S1024x512.size a ≤ S1024x512.size a
  h_S1024x512 : 0 < S1024x512.numel
  slices_S65472x2_S16384x2_16320_0 : S65472x2.Slices ![16320, 0] S16384x2
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S1x1_S16384x1_0_1 : S1x1.BroadcastsInDim S16384x1 (![0, 1] : Fin 2 → Fin S16384x1.rank)
  reducesTo_S16384x1_S16384_d1 : S16384x1.ReducesTo [1] S16384
  bcast_S16384_S16384x512_0 : S16384.BroadcastsInDim S16384x512 (![0] : Fin 1 → Fin S16384x512.rank)
  bcast_S_S16384x512 : S_.BroadcastsInDim S16384x512 (![] : Fin 0 → Fin S16384x512.rank)
  slices_S16384x2_S16384x1_0_1 : S16384x2.Slices ![0, 1] S16384x1
  slices_S131008x512_S16384x512_16320_0 : S131008x512.Slices ![16320, 0] S16384x512
  concatenates_S16384x512_S16384x512_S16384x512_S16384x1536_d1 : Shape.Concatenates [S16384x512, S16384x512, S16384x512] S16384x1536 1
  slices_S65472x2_S8192x2_8128_0 : S65472x2.Slices ![8128, 0] S8192x2
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S1x1_S8192x1_0_1 : S1x1.BroadcastsInDim S8192x1 (![0, 1] : Fin 2 → Fin S8192x1.rank)
  reducesTo_S8192x1_S8192_d1 : S8192x1.ReducesTo [1] S8192
  bcast_S8192_S8192x512_0 : S8192.BroadcastsInDim S8192x512 (![0] : Fin 1 → Fin S8192x512.rank)
  bcast_S_S8192x512 : S_.BroadcastsInDim S8192x512 (![] : Fin 0 → Fin S8192x512.rank)
  slices_S8192x2_S8192x1_0_1 : S8192x2.Slices ![0, 1] S8192x1
  slices_S131008x512_S8192x512_8128_0 : S131008x512.Slices ![8128, 0] S8192x512
  concatenates_S8192x512_S8192x512_S8192x512_S8192x1536_d1 : Shape.Concatenates [S8192x512, S8192x512, S8192x512] S8192x1536 1
  slices_S65472x2_S4096x2_4032_0 : S65472x2.Slices ![4032, 0] S4096x2
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S1x1_S4096x1_0_1 : S1x1.BroadcastsInDim S4096x1 (![0, 1] : Fin 2 → Fin S4096x1.rank)
  reducesTo_S4096x1_S4096_d1 : S4096x1.ReducesTo [1] S4096
  bcast_S4096_S4096x512_0 : S4096.BroadcastsInDim S4096x512 (![0] : Fin 1 → Fin S4096x512.rank)
  bcast_S_S4096x512 : S_.BroadcastsInDim S4096x512 (![] : Fin 0 → Fin S4096x512.rank)
  slices_S4096x2_S4096x1_0_1 : S4096x2.Slices ![0, 1] S4096x1
  slices_S131008x512_S4096x512_4032_0 : S131008x512.Slices ![4032, 0] S4096x512
  concatenates_S4096x512_S4096x512_S4096x512_S4096x1536_d1 : Shape.Concatenates [S4096x512, S4096x512, S4096x512] S4096x1536 1
  slices_S65472x2_S2048x2_1984_0 : S65472x2.Slices ![1984, 0] S2048x2
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S1x1_S2048x1_0_1 : S1x1.BroadcastsInDim S2048x1 (![0, 1] : Fin 2 → Fin S2048x1.rank)
  reducesTo_S2048x1_S2048_d1 : S2048x1.ReducesTo [1] S2048
  bcast_S2048_S2048x512_0 : S2048.BroadcastsInDim S2048x512 (![0] : Fin 1 → Fin S2048x512.rank)
  bcast_S_S2048x512 : S_.BroadcastsInDim S2048x512 (![] : Fin 0 → Fin S2048x512.rank)
  slices_S2048x2_S2048x1_0_1 : S2048x2.Slices ![0, 1] S2048x1
  slices_S131008x512_S2048x512_1984_0 : S131008x512.Slices ![1984, 0] S2048x512
  concatenates_S2048x512_S2048x512_S2048x512_S2048x1536_d1 : Shape.Concatenates [S2048x512, S2048x512, S2048x512] S2048x1536 1
  slices_S65472x2_S1024x2_960_0 : S65472x2.Slices ![960, 0] S1024x2
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  bcast_S_S1024x1 : S_.BroadcastsInDim S1024x1 (![] : Fin 0 → Fin S1024x1.rank)
  bcast_S1x1_S1024x1_0_1 : S1x1.BroadcastsInDim S1024x1 (![0, 1] : Fin 2 → Fin S1024x1.rank)
  reducesTo_S1024x1_S1024_d1 : S1024x1.ReducesTo [1] S1024
  bcast_S1024_S1024x512_0 : S1024.BroadcastsInDim S1024x512 (![0] : Fin 1 → Fin S1024x512.rank)
  bcast_S_S1024x512 : S_.BroadcastsInDim S1024x512 (![] : Fin 0 → Fin S1024x512.rank)
  slices_S1024x2_S1024x1_0_1 : S1024x2.Slices ![0, 1] S1024x1
  slices_S131008x512_S1024x512_960_0 : S131008x512.Slices ![960, 0] S1024x512
  concatenates_S1024x512_S1024x512_S1024x512_S1024x1536_d1 : Shape.Concatenates [S1024x512, S1024x512, S1024x512] S1024x1536 1
  slices_S65472x2_S512x2_448_0 : S65472x2.Slices ![448, 0] S512x2
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1x1_S512x1_0_1 : S1x1.BroadcastsInDim S512x1 (![0, 1] : Fin 2 → Fin S512x1.rank)
  reducesTo_S512x1_S512_d1 : S512x1.ReducesTo [1] S512
  bcast_S512_S512x512_0 : S512.BroadcastsInDim S512x512 (![0] : Fin 1 → Fin S512x512.rank)
  bcast_S_S512x512 : S_.BroadcastsInDim S512x512 (![] : Fin 0 → Fin S512x512.rank)
  slices_S512x2_S512x1_0_1 : S512x2.Slices ![0, 1] S512x1
  slices_S131008x512_S512x512_448_0 : S131008x512.Slices ![448, 0] S512x512
  concatenates_S512x512_S512x512_S512x512_S512x1536_d1 : Shape.Concatenates [S512x512, S512x512, S512x512] S512x1536 1
  shapeCasts_S512x1536_S512x1536 : S512x1536.ShapeCasts S512x1536
  broadcasts_S1x512_S512x512 : S1x512.Broadcasts S512x512
  inb_S512x512_S512x512_0_0 : ∀ a, (![0, 0] : Fin 2 → Nat) a + S512x512.size a ≤ S512x512.size a
  h_S512x512 : 0 < S512x512.numel
  slices_S65472x2_S256x2_192_0 : S65472x2.Slices ![192, 0] S256x2
  slices_S256x2_S256x1_0_0 : S256x2.Slices ![0, 0] S256x1
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  bcast_S_S256x1 : S_.BroadcastsInDim S256x1 (![] : Fin 0 → Fin S256x1.rank)
  bcast_S1x1_S256x1_0_1 : S1x1.BroadcastsInDim S256x1 (![0, 1] : Fin 2 → Fin S256x1.rank)
  reducesTo_S256x1_S256_d1 : S256x1.ReducesTo [1] S256
  bcast_S256_S256x512_0 : S256.BroadcastsInDim S256x512 (![0] : Fin 1 → Fin S256x512.rank)
  bcast_S_S256x512 : S_.BroadcastsInDim S256x512 (![] : Fin 0 → Fin S256x512.rank)
  slices_S256x2_S256x1_0_1 : S256x2.Slices ![0, 1] S256x1
  slices_S131008x512_S256x512_192_0 : S131008x512.Slices ![192, 0] S256x512
  concatenates_S256x512_S256x512_S256x512_S256x1536_d1 : Shape.Concatenates [S256x512, S256x512, S256x512] S256x1536 1
  inb_S256x1536_S256x1536_0_0 : ∀ a, (![0, 0] : Fin 2 → Nat) a + S256x1536.size a ≤ S256x1536.size a
  h_S256x1536 : 0 < S256x1536.numel
  shapeCasts_S256x1536_S256x1536 : S256x1536.ShapeCasts S256x1536
  broadcasts_S1x512_S256x512 : S1x512.Broadcasts S256x512
  inb_S256x512_S256x512_0_0 : ∀ a, (![0, 0] : Fin 2 → Nat) a + S256x512.size a ≤ S256x512.size a
  h_S256x512 : 0 < S256x512.numel
  slices_S65472x2_S128x2_64_0 : S65472x2.Slices ![64, 0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  bcast_S_S128x1 : S_.BroadcastsInDim S128x1 (![] : Fin 0 → Fin S128x1.rank)
  bcast_S1x1_S128x1_0_1 : S1x1.BroadcastsInDim S128x1 (![0, 1] : Fin 2 → Fin S128x1.rank)
  reducesTo_S128x1_S128_d1 : S128x1.ReducesTo [1] S128
  bcast_S128_S128x512_0 : S128.BroadcastsInDim S128x512 (![0] : Fin 1 → Fin S128x512.rank)
  bcast_S_S128x512 : S_.BroadcastsInDim S128x512 (![] : Fin 0 → Fin S128x512.rank)
  slices_S128x2_S128x1_0_1 : S128x2.Slices ![0, 1] S128x1
  slices_S131008x512_S128x512_64_0 : S131008x512.Slices ![64, 0] S128x512
  concatenates_S128x512_S128x512_S128x512_S128x1536_d1 : Shape.Concatenates [S128x512, S128x512, S128x512] S128x1536 1
  inb_S128x1536_S128x1536_0_0 : ∀ a, (![0, 0] : Fin 2 → Nat) a + S128x1536.size a ≤ S128x1536.size a
  h_S128x1536 : 0 < S128x1536.numel
  shapeCasts_S128x1536_S128x1536 : S128x1536.ShapeCasts S128x1536
  broadcasts_S1x512_S128x512 : S1x512.Broadcasts S128x512
  inb_S128x512_S128x512_0_0 : ∀ a, (![0, 0] : Fin 2 → Nat) a + S128x512.size a ≤ S128x512.size a
  h_S128x512 : 0 < S128x512.numel
  slices_S65472x2_S64x2_0_0 : S65472x2.Slices ![0, 0] S64x2
  slices_S64x2_S64x1_0_0 : S64x2.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  bcast_S_S64x1 : S_.BroadcastsInDim S64x1 (![] : Fin 0 → Fin S64x1.rank)
  bcast_S1x1_S64x1_0_1 : S1x1.BroadcastsInDim S64x1 (![0, 1] : Fin 2 → Fin S64x1.rank)
  reducesTo_S64x1_S64_d1 : S64x1.ReducesTo [1] S64
  bcast_S64_S64x512_0 : S64.BroadcastsInDim S64x512 (![0] : Fin 1 → Fin S64x512.rank)
  bcast_S_S64x512 : S_.BroadcastsInDim S64x512 (![] : Fin 0 → Fin S64x512.rank)
  slices_S64x2_S64x1_0_1 : S64x2.Slices ![0, 1] S64x1
  slices_S131008x512_S64x512_0_0 : S131008x512.Slices ![0, 0] S64x512
  concatenates_S64x512_S64x512_S64x512_S64x1536_d1 : Shape.Concatenates [S64x512, S64x512, S64x512] S64x1536 1
  inb_S64x1536_S64x1536_0_0 : ∀ a, (![0, 0] : Fin 2 → Nat) a + S64x1536.size a ≤ S64x1536.size a
  h_S64x1536 : 0 < S64x1536.numel
  shapeCasts_S64x1536_S64x1536 : S64x1536.ShapeCasts S64x1536
  broadcasts_S1x512_S64x512 : S1x512.Broadcasts S64x512
  inb_S64x512_S64x512_0_0 : ∀ a, (![0, 0] : Fin 2 → Nat) a + S64x512.size a ≤ S64x512.size a
  h_S64x512 : 0 < S64x512.numel
  dot_S2048x256_S256x512_S2048x512_1_0_0_1_n_n_wf : DotDims.WF S2048x256 S256x512 S2048x512 [1] [0] [0] [1] [] []
  gather_S65536x512_S32768x1_S32768x512_1_0_n_n_0_1_1512_wf : GatherDims.WF S65536x512 S32768x1 S32768x512 [1] [0] [] [0] [] 1 ![1, 512]
  dot_S1024x1536_S1536x512_S1024x512_1_0_0_1_n_n_wf : DotDims.WF S1024x1536 S1536x512 S1024x512 [1] [0] [0] [1] [] []
  gather_S32768x512_S16384x1_S16384x512_1_0_n_n_0_1_1512_wf : GatherDims.WF S32768x512 S16384x1 S16384x512 [1] [0] [] [0] [] 1 ![1, 512]
  gather_S16384x512_S8192x1_S8192x512_1_0_n_n_0_1_1512_wf : GatherDims.WF S16384x512 S8192x1 S8192x512 [1] [0] [] [0] [] 1 ![1, 512]
  gather_S8192x512_S4096x1_S4096x512_1_0_n_n_0_1_1512_wf : GatherDims.WF S8192x512 S4096x1 S4096x512 [1] [0] [] [0] [] 1 ![1, 512]
  gather_S4096x512_S2048x1_S2048x512_1_0_n_n_0_1_1512_wf : GatherDims.WF S4096x512 S2048x1 S2048x512 [1] [0] [] [0] [] 1 ![1, 512]
  gather_S2048x512_S1024x1_S1024x512_1_0_n_n_0_1_1512_wf : GatherDims.WF S2048x512 S1024x1 S1024x512 [1] [0] [] [0] [] 1 ![1, 512]
  gather_S1024x512_S512x1_S512x512_1_0_n_n_0_1_1512_wf : GatherDims.WF S1024x512 S512x1 S512x512 [1] [0] [] [0] [] 1 ![1, 512]
  dot_S512x1536_S1536x512_S512x512_1_0_0_1_n_n_wf : DotDims.WF S512x1536 S1536x512 S512x512 [1] [0] [0] [1] [] []
  gather_S512x512_S256x1_S256x512_1_0_n_n_0_1_1512_wf : GatherDims.WF S512x512 S256x1 S256x512 [1] [0] [] [0] [] 1 ![1, 512]
  dot_S256x1536_S1536x512_S256x512_1_0_0_1_n_n_wf : DotDims.WF S256x1536 S1536x512 S256x512 [1] [0] [0] [1] [] []
  gather_S256x512_S128x1_S128x512_1_0_n_n_0_1_1512_wf : GatherDims.WF S256x512 S128x1 S128x512 [1] [0] [] [0] [] 1 ![1, 512]
  dot_S128x1536_S1536x512_S128x512_1_0_0_1_n_n_wf : DotDims.WF S128x1536 S1536x512 S128x512 [1] [0] [0] [1] [] []
  gather_S128x512_S64x1_S64x512_1_0_n_n_0_1_1512_wf : GatherDims.WF S128x512 S64x1 S64x512 [1] [0] [] [0] [] 1 ![1, 512]
  dot_S64x1536_S1536x512_S64x512_1_0_0_1_n_n_wf : DotDims.WF S64x1536 S1536x512 S64x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S131072x256.size a
  hwx0_0 : ∀ i : grid0.Coords, EltTy.bits .f32 = 32 ∨ (Rect.block (s := S131072x256) S2048x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x512.size a ≤ S131072x512.size a
  hwx0_3 : ∀ i : grid0.Coords, EltTy.bits .f32 = 32 ∨ (Rect.block (s := S131072x512) S2048x512.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1536.size a ≤ S32768x1536.size a
  hwx1_0 : ∀ i : grid1.Coords, EltTy.bits .f32 = 32 ∨ (Rect.block (s := S32768x1536) S1024x1536.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S512x1536.size a ≤ S512x1536.size a
  hwx1_1 : ∀ i : grid1.Coords, EltTy.bits .f32 = 32 ∨ (Rect.block (s := S512x1536) S512x1536.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x512.size a ≤ S32768x512.size a
  hwx1_3 : ∀ i : grid1.Coords, EltTy.bits .f32 = 32 ∨ (Rect.block (s := S32768x512) S1024x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1536.size a ≤ S16384x1536.size a
  hwx2_0 : ∀ i : grid2.Coords, EltTy.bits .f32 = 32 ∨ (Rect.block (s := S16384x1536) S1024x1536.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x1536.size a ≤ S512x1536.size a
  hwx2_1 : ∀ i : grid2.Coords, EltTy.bits .f32 = 32 ∨ (Rect.block (s := S512x1536) S512x1536.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x512.size a ≤ S16384x512.size a
  hwx2_3 : ∀ i : grid2.Coords, EltTy.bits .f32 = 32 ∨ (Rect.block (s := S16384x512) S1024x512.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1536.size a ≤ S8192x1536.size a
  hwx3_0 : ∀ i : grid3.Coords, EltTy.bits .f32 = 32 ∨ (Rect.block (s := S8192x1536) S1024x1536.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S512x1536.size a ≤ S512x1536.size a
  hwx3_1 : ∀ i : grid3.Coords, EltTy.bits .f32 = 32 ∨ (Rect.block (s := S512x1536) S512x1536.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x512.size a ≤ S1x512.size a
  hwx3_2 : ∀ i : grid3.Coords, EltTy.bits .f32 = 32 ∨ (Rect.block (s := S1x512) S1x512.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S1024x512.size a ≤ S8192x512.size a
  hwx3_3 : ∀ i : grid3.Coords, EltTy.bits .f32 = 32 ∨ (Rect.block (s := S8192x512) S1024x512.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x1536.size a ≤ S4096x1536.size a
  hwx4_0 : ∀ i : grid4.Coords, EltTy.bits .f32 = 32 ∨ (Rect.block (s := S4096x1536) S1024x1536.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S512x1536.size a ≤ S512x1536.size a
  hwx4_1 : ∀ i : grid4.Coords, EltTy.bits .f32 = 32 ∨ (Rect.block (s := S512x1536) S512x1536.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x512.size a ≤ S1x512.size a
  hwx4_2 : ∀ i : grid4.Coords, EltTy.bits .f32 = 32 ∨ (Rect.block (s := S1x512) S1x512.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S1024x512.size a ≤ S4096x512.size a
  hwx4_3 : ∀ i : grid4.Coords, EltTy.bits .f32 = 32 ∨ (Rect.block (s := S4096x512) S1024x512.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S1024x1536.size a ≤ S2048x1536.size a
  hwx5_0 : ∀ i : grid5.Coords, EltTy.bits .f32 = 32 ∨ (Rect.block (s := S2048x1536) S1024x1536.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S512x1536.size a ≤ S512x1536.size a
  hwx5_1 : ∀ i : grid5.Coords, EltTy.bits .f32 = 32 ∨ (Rect.block (s := S512x1536) S512x1536.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x512.size a ≤ S1x512.size a
  hwx5_2 : ∀ i : grid5.Coords, EltTy.bits .f32 = 32 ∨ (Rect.block (s := S1x512) S1x512.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S1024x512.size a ≤ S2048x512.size a
  hwx5_3 : ∀ i : grid5.Coords, EltTy.bits .f32 = 32 ∨ (Rect.block (s := S2048x512) S1024x512.size (cc5_transform_3 i) (hinb5_3 i)).WholeWords (EltTy.packing .f32)
  hrank6 : 0 < grid6.rank
  hstage6_0 : ∀ j, (stage6_0 j).IsWhole
  nbuf6_0 : grid6.bufCount reads6_0 false = 1
  hreads6_0 : ∀ i i' : grid6.Coords, (∀ a, reads6_0 a = true → i a = i' a) → cc6_transform_0 i = cc6_transform_0 i'
  hinb6_0 : ∀ (i : grid6.Coords) a, (cc6_transform_0 i a + 1) * S1024x1536.size a ≤ S1024x1536.size a
  hwx6_0 : ∀ i : grid6.Coords, EltTy.bits .f32 = 32 ∨ (Rect.block (s := S1024x1536) S1024x1536.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x1536.size a ≤ S512x1536.size a
  hwx6_1 : ∀ i : grid6.Coords, EltTy.bits .f32 = 32 ∨ (Rect.block (s := S512x1536) S512x1536.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x512.size a ≤ S1x512.size a
  hwx6_2 : ∀ i : grid6.Coords, EltTy.bits .f32 = 32 ∨ (Rect.block (s := S1x512) S1x512.size (cc6_transform_2 i) (hinb6_2 i)).WholeWords (EltTy.packing .f32)
  hstage6_3 : ∀ j, (stage6_3 j).IsWhole
  nbuf6_3 : grid6.bufCount reads6_3 false = 1
  hreads6_3 : ∀ i i' : grid6.Coords, (∀ a, reads6_3 a = true → i a = i' a) → cc6_transform_3 i = cc6_transform_3 i'
  hinb6_3 : ∀ (i : grid6.Coords) a, (cc6_transform_3 i a + 1) * S1024x512.size a ≤ S1024x512.size a
  hwx6_3 : ∀ i : grid6.Coords, EltTy.bits .f32 = 32 ∨ (Rect.block (s := S1024x512) S1024x512.size (cc6_transform_3 i) (hinb6_3 i)).WholeWords (EltTy.packing .f32)
  hrank7 : 0 < grid7.rank
  hstage7_0 : ∀ j, (stage7_0 j).IsWhole
  nbuf7_0 : grid7.bufCount reads7_0 false = 1
  hreads7_0 : ∀ i i' : grid7.Coords, (∀ a, reads7_0 a = true → i a = i' a) → cc7_transform_0 i = cc7_transform_0 i'
  hinb7_0 : ∀ (i : grid7.Coords) a, (cc7_transform_0 i a + 1) * S512x1536.size a ≤ S512x1536.size a
  hwx7_0 : ∀ i : grid7.Coords, EltTy.bits .f32 = 32 ∨ (Rect.block (s := S512x1536) S512x1536.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S512x1536.size a ≤ S512x1536.size a
  hwx7_1 : ∀ i : grid7.Coords, EltTy.bits .f32 = 32 ∨ (Rect.block (s := S512x1536) S512x1536.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x512.size a ≤ S1x512.size a
  hwx7_2 : ∀ i : grid7.Coords, EltTy.bits .f32 = 32 ∨ (Rect.block (s := S1x512) S1x512.size (cc7_transform_2 i) (hinb7_2 i)).WholeWords (EltTy.packing .f32)
  hstage7_3 : ∀ j, (stage7_3 j).IsWhole
  nbuf7_3 : grid7.bufCount reads7_3 false = 1
  hreads7_3 : ∀ i i' : grid7.Coords, (∀ a, reads7_3 a = true → i a = i' a) → cc7_transform_3 i = cc7_transform_3 i'
  hinb7_3 : ∀ (i : grid7.Coords) a, (cc7_transform_3 i a + 1) * S512x512.size a ≤ S512x512.size a
  hwx7_3 : ∀ i : grid7.Coords, EltTy.bits .f32 = 32 ∨ (Rect.block (s := S512x512) S512x512.size (cc7_transform_3 i) (hinb7_3 i)).WholeWords (EltTy.packing .f32)
  hrank8 : 0 < grid8.rank
  hstage8_0 : ∀ j, (stage8_0 j).IsWhole
  nbuf8_0 : grid8.bufCount reads8_0 false = 1
  hreads8_0 : ∀ i i' : grid8.Coords, (∀ a, reads8_0 a = true → i a = i' a) → cc8_transform_0 i = cc8_transform_0 i'
  hinb8_0 : ∀ (i : grid8.Coords) a, (cc8_transform_0 i a + 1) * S256x1536.size a ≤ S256x1536.size a
  hwx8_0 : ∀ i : grid8.Coords, EltTy.bits .f32 = 32 ∨ (Rect.block (s := S256x1536) S256x1536.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S512x1536.size a ≤ S512x1536.size a
  hwx8_1 : ∀ i : grid8.Coords, EltTy.bits .f32 = 32 ∨ (Rect.block (s := S512x1536) S512x1536.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S1x512.size a ≤ S1x512.size a
  hwx8_2 : ∀ i : grid8.Coords, EltTy.bits .f32 = 32 ∨ (Rect.block (s := S1x512) S1x512.size (cc8_transform_2 i) (hinb8_2 i)).WholeWords (EltTy.packing .f32)
  hstage8_3 : ∀ j, (stage8_3 j).IsWhole
  nbuf8_3 : grid8.bufCount reads8_3 false = 1
  hreads8_3 : ∀ i i' : grid8.Coords, (∀ a, reads8_3 a = true → i a = i' a) → cc8_transform_3 i = cc8_transform_3 i'
  hinb8_3 : ∀ (i : grid8.Coords) a, (cc8_transform_3 i a + 1) * S256x512.size a ≤ S256x512.size a
  hwx8_3 : ∀ i : grid8.Coords, EltTy.bits .f32 = 32 ∨ (Rect.block (s := S256x512) S256x512.size (cc8_transform_3 i) (hinb8_3 i)).WholeWords (EltTy.packing .f32)
  hrank9 : 0 < grid9.rank
  hstage9_0 : ∀ j, (stage9_0 j).IsWhole
  nbuf9_0 : grid9.bufCount reads9_0 false = 1
  hreads9_0 : ∀ i i' : grid9.Coords, (∀ a, reads9_0 a = true → i a = i' a) → cc9_transform_0 i = cc9_transform_0 i'
  hinb9_0 : ∀ (i : grid9.Coords) a, (cc9_transform_0 i a + 1) * S128x1536.size a ≤ S128x1536.size a
  hwx9_0 : ∀ i : grid9.Coords, EltTy.bits .f32 = 32 ∨ (Rect.block (s := S128x1536) S128x1536.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S512x1536.size a ≤ S512x1536.size a
  hwx9_1 : ∀ i : grid9.Coords, EltTy.bits .f32 = 32 ∨ (Rect.block (s := S512x1536) S512x1536.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x512.size a ≤ S1x512.size a
  hwx9_2 : ∀ i : grid9.Coords, EltTy.bits .f32 = 32 ∨ (Rect.block (s := S1x512) S1x512.size (cc9_transform_2 i) (hinb9_2 i)).WholeWords (EltTy.packing .f32)
  hstage9_3 : ∀ j, (stage9_3 j).IsWhole
  nbuf9_3 : grid9.bufCount reads9_3 false = 1
  hreads9_3 : ∀ i i' : grid9.Coords, (∀ a, reads9_3 a = true → i a = i' a) → cc9_transform_3 i = cc9_transform_3 i'
  hinb9_3 : ∀ (i : grid9.Coords) a, (cc9_transform_3 i a + 1) * S128x512.size a ≤ S128x512.size a
  hwx9_3 : ∀ i : grid9.Coords, EltTy.bits .f32 = 32 ∨ (Rect.block (s := S128x512) S128x512.size (cc9_transform_3 i) (hinb9_3 i)).WholeWords (EltTy.packing .f32)
  hrank10 : 0 < grid10.rank
  hstage10_0 : ∀ j, (stage10_0 j).IsWhole
  nbuf10_0 : grid10.bufCount reads10_0 false = 1
  hreads10_0 : ∀ i i' : grid10.Coords, (∀ a, reads10_0 a = true → i a = i' a) → cc10_transform_0 i = cc10_transform_0 i'
  hinb10_0 : ∀ (i : grid10.Coords) a, (cc10_transform_0 i a + 1) * S64x1536.size a ≤ S64x1536.size a
  hwx10_0 : ∀ i : grid10.Coords, EltTy.bits .f32 = 32 ∨ (Rect.block (s := S64x1536) S64x1536.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S512x1536.size a ≤ S512x1536.size a
  hwx10_1 : ∀ i : grid10.Coords, EltTy.bits .f32 = 32 ∨ (Rect.block (s := S512x1536) S512x1536.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x512.size a ≤ S1x512.size a
  hwx10_2 : ∀ i : grid10.Coords, EltTy.bits .f32 = 32 ∨ (Rect.block (s := S1x512) S1x512.size (cc10_transform_2 i) (hinb10_2 i)).WholeWords (EltTy.packing .f32)
  hstage10_3 : ∀ j, (stage10_3 j).IsWhole
  nbuf10_3 : grid10.bufCount reads10_3 false = 1
  hreads10_3 : ∀ i i' : grid10.Coords, (∀ a, reads10_3 a = true → i a = i' a) → cc10_transform_3 i = cc10_transform_3 i'
  hinb10_3 : ∀ (i : grid10.Coords) a, (cc10_transform_3 i a + 1) * S64x512.size a ≤ S64x512.size a
  hwx10_3 : ∀ i : grid10.Coords, EltTy.bits .f32 = 32 ∨ (Rect.block (s := S64x512) S64x512.size (cc10_transform_3 i) (hinb10_3 i)).WholeWords (EltTy.packing .f32)

variable [Facts₀]

def dot_S2048x256_S256x512_S2048x512_1_0_0_1_n_n : DotDims S2048x256 S256x512 S2048x512 where
  lhsContracting := [1]
  rhsContracting := [0]
  lhsNonContracting := [0]
  rhsNonContracting := [1]
  lhsBatch := []
  rhsBatch := []
  wf := dot_S2048x256_S256x512_S2048x512_1_0_0_1_n_n_wf
def gather_S65536x512_S32768x1_S32768x512_1_0_n_n_0_1_1512 : GatherDims S65536x512 S32768x1 S32768x512 where
  offsetDims := [1]
  collapsedSliceDims := [0]
  operandBatchingDims := []
  startIndicesBatchingDims := []
  startIndexMap := [0]
  indexVectorDim := 1
  sliceSizes := ![1, 512]
  wf := gather_S65536x512_S32768x1_S32768x512_1_0_n_n_0_1_1512_wf
def dot_S1024x1536_S1536x512_S1024x512_1_0_0_1_n_n : DotDims S1024x1536 S1536x512 S1024x512 where
  lhsContracting := [1]
  rhsContracting := [0]
  lhsNonContracting := [0]
  rhsNonContracting := [1]
  lhsBatch := []
  rhsBatch := []
  wf := dot_S1024x1536_S1536x512_S1024x512_1_0_0_1_n_n_wf
def gather_S32768x512_S16384x1_S16384x512_1_0_n_n_0_1_1512 : GatherDims S32768x512 S16384x1 S16384x512 where
  offsetDims := [1]
  collapsedSliceDims := [0]
  operandBatchingDims := []
  startIndicesBatchingDims := []
  startIndexMap := [0]
  indexVectorDim := 1
  sliceSizes := ![1, 512]
  wf := gather_S32768x512_S16384x1_S16384x512_1_0_n_n_0_1_1512_wf
def gather_S16384x512_S8192x1_S8192x512_1_0_n_n_0_1_1512 : GatherDims S16384x512 S8192x1 S8192x512 where
  offsetDims := [1]
  collapsedSliceDims := [0]
  operandBatchingDims := []
  startIndicesBatchingDims := []
  startIndexMap := [0]
  indexVectorDim := 1
  sliceSizes := ![1, 512]
  wf := gather_S16384x512_S8192x1_S8192x512_1_0_n_n_0_1_1512_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def gather_S4096x512_S2048x1_S2048x512_1_0_n_n_0_1_1512 : GatherDims S4096x512 S2048x1 S2048x512 where
  offsetDims := [1]
  collapsedSliceDims := [0]
  operandBatchingDims := []
  startIndicesBatchingDims := []
  startIndexMap := [0]
  indexVectorDim := 1
  sliceSizes := ![1, 512]
  wf := gather_S4096x512_S2048x1_S2048x512_1_0_n_n_0_1_1512_wf
def gather_S2048x512_S1024x1_S1024x512_1_0_n_n_0_1_1512 : GatherDims S2048x512 S1024x1 S1024x512 where
  offsetDims := [1]
  collapsedSliceDims := [0]
  operandBatchingDims := []
  startIndicesBatchingDims := []
  startIndexMap := [0]
  indexVectorDim := 1
  sliceSizes := ![1, 512]
  wf := gather_S2048x512_S1024x1_S1024x512_1_0_n_n_0_1_1512_wf
def gather_S1024x512_S512x1_S512x512_1_0_n_n_0_1_1512 : GatherDims S1024x512 S512x1 S512x512 where
  offsetDims := [1]
  collapsedSliceDims := [0]
  operandBatchingDims := []
  startIndicesBatchingDims := []
  startIndexMap := [0]
  indexVectorDim := 1
  sliceSizes := ![1, 512]
  wf := gather_S1024x512_S512x1_S512x512_1_0_n_n_0_1_1512_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf
def dot_S256x1536_S1536x512_S256x512_1_0_0_1_n_n : DotDims S256x1536 S1536x512 S256x512 where
  lhsContracting := [1]
  rhsContracting := [0]
  lhsNonContracting := [0]
  rhsNonContracting := [1]
  lhsBatch := []
  rhsBatch := []
  wf := dot_S256x1536_S1536x512_S256x512_1_0_0_1_n_n_wf
def gather_S256x512_S128x1_S128x512_1_0_n_n_0_1_1512 : GatherDims S256x512 S128x1 S128x512 where
  offsetDims := [1]
  collapsedSliceDims := [0]
  operandBatchingDims := []
  startIndicesBatchingDims := []
  startIndexMap := [0]
  indexVectorDim := 1
  sliceSizes := ![1, 512]
  wf := gather_S256x512_S128x1_S128x512_1_0_n_n_0_1_1512_wf
def dot_S128x1536_S1536x512_S128x512_1_0_0_1_n_n : DotDims S128x1536 S1536x512 S128x512 where
  lhsContracting := [1]
  rhsContracting := [0]
  lhsNonContracting := [0]
  rhsNonContracting := [1]
  lhsBatch := []
  rhsBatch := []
  wf := dot_S128x1536_S1536x512_S128x512_1_0_0_1_n_n_wf
def gather_S128x512_S64x1_S64x512_1_0_n_n_0_1_1512 : GatherDims S128x512 S64x1 S64x512 where
  offsetDims := [1]
  collapsedSliceDims := [0]
  operandBatchingDims := []
  startIndicesBatchingDims := []
  startIndexMap := [0]
  indexVectorDim := 1
  sliceSizes := ![1, 512]
  wf := gather_S128x512_S64x1_S64x512_1_0_n_n_0_1_1512_wf
def dot_S64x1536_S1536x512_S64x512_1_0_0_1_n_n : DotDims S64x1536 S1536x512 S64x512 where
  lhsContracting := [1]
  rhsContracting := [0]
  lhsNonContracting := [0]
  rhsNonContracting := [1]
  lhsBatch := []
  rhsBatch := []
  wf := dot_S64x1536_S1536x512_S64x512_1_0_0_1_n_n_wf

abbrev win0_0 : Pipeline.Window sig grid0 :=
  Pipeline.Window.ofSpec (Memref.whole main_v0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2048x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v13) S1024x1536.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S512x1536.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v14) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S1024x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v24) S1024x1536.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S512x1536.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v25) S1x512.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v26) S1024x512.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v35) S1024x1536.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S512x1536.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v36) S1x512.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v37) S1024x512.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v46) S1024x1536.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg4) S512x1536.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v47) S1x512.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v48) S1024x512.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v57) S1024x1536.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg4) S512x1536.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v58) S1x512.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v59) S1024x512.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v68) S1024x1536.size cc6_transform_0 reads6_0 false false 1 stage6_0 sem6_0
    hrank6 hreads6_0 hinb6_0 nbuf6_0 (Memref.isWhole_whole _) hwx6_0 hstage6_0

abbrev win6_1 : Pipeline.Window sig grid6 :=
  Pipeline.Window.ofSpec (Memref.whole main_arg4) S512x1536.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v69) S1x512.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v70) S1024x512.size cc6_transform_3 reads6_3 true false 1 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v79) S512x1536.size cc7_transform_0 reads7_0 false false 1 stage7_0 sem7_0
    hrank7 hreads7_0 hinb7_0 nbuf7_0 (Memref.isWhole_whole _) hwx7_0 hstage7_0

abbrev win7_1 : Pipeline.Window sig grid7 :=
  Pipeline.Window.ofSpec (Memref.whole main_arg4) S512x1536.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v80) S1x512.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v81) S512x512.size cc7_transform_3 reads7_3 true false 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v90) S256x1536.size cc8_transform_0 reads8_0 false false 1 stage8_0 sem8_0
    hrank8 hreads8_0 hinb8_0 nbuf8_0 (Memref.isWhole_whole _) hwx8_0 hstage8_0

abbrev win8_1 : Pipeline.Window sig grid8 :=
  Pipeline.Window.ofSpec (Memref.whole main_arg4) S512x1536.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v91) S1x512.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v92) S256x512.size cc8_transform_3 reads8_3 true false 1 stage8_3 sem8_3
    hrank8 hreads8_3 hinb8_3 nbuf8_3 (Memref.isWhole_whole _) hwx8_3 hstage8_3

abbrev win8 : Fin 4 → Pipeline.Window sig grid8 := fun | 0 => win8_0 | 1 => win8_1 | 2 => win8_2 | 3 => win8_3 | ⟨_ + 4, h⟩ => absurd h (Nat.not_lt.2 (Nat.le_add_left _ _))
abbrev spec8 : Fin 4 → Pipeline.WinSpec sig grid8.rank := fun w => (win8 w).toWinSpec

abbrev win9_0 : Pipeline.Window sig grid9 :=
  Pipeline.Window.ofSpec (Memref.whole main_v101) S128x1536.size cc9_transform_0 reads9_0 false false 1 stage9_0 sem9_0
    hrank9 hreads9_0 hinb9_0 nbuf9_0 (Memref.isWhole_whole _) hwx9_0 hstage9_0

abbrev win9_1 : Pipeline.Window sig grid9 :=
  Pipeline.Window.ofSpec (Memref.whole main_arg4) S512x1536.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v102) S1x512.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v103) S128x512.size cc9_transform_3 reads9_3 true false 1 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v112) S64x1536.size cc10_transform_0 reads10_0 false false 1 stage10_0 sem10_0
    hrank10 hreads10_0 hinb10_0 nbuf10_0 (Memref.isWhole_whole _) hwx10_0 hstage10_0

abbrev win10_1 : Pipeline.Window sig grid10 :=
  Pipeline.Window.ofSpec (Memref.whole main_arg4) S512x1536.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v113) S1x512.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v114) S64x512.size cc10_transform_3 reads10_3 true false 1 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

class Facts : Prop extends Facts₀ where

variable [Facts]
-- ==== ReferenceIdeal.lean ====
abbrev S131008x256 : Shape := ⟨2, ![131008, 256]⟩
abbrev S65472x2 : Shape := ⟨2, ![65472, 2]⟩
abbrev S512x256 : Shape := ⟨2, ![512, 256]⟩
abbrev S512 : Shape := ⟨1, ![512]⟩
abbrev S512x1536 : Shape := ⟨2, ![512, 1536]⟩
abbrev S256x512 : Shape := ⟨2, ![256, 512]⟩
abbrev S131008x512 : Shape := ⟨2, ![131008, 512]⟩
abbrev S1x512 : Shape := ⟨2, ![1, 512]⟩
abbrev S_ : Shape := ⟨0, ![]⟩
abbrev S65536x512 : Shape := ⟨2, ![65536, 512]⟩
abbrev S32768x2 : Shape := ⟨2, ![32768, 2]⟩
abbrev S32768x1 : Shape := ⟨2, ![32768, 1]⟩
abbrev S32768 : Shape := ⟨1, ![32768]⟩
abbrev S32768x512 : Shape := ⟨2, ![32768, 512]⟩
abbrev S32768x1536 : Shape := ⟨2, ![32768, 1536]⟩
abbrev S1536x512 : Shape := ⟨2, ![1536, 512]⟩
abbrev S16384x2 : Shape := ⟨2, ![16384, 2]⟩
abbrev S16384x1 : Shape := ⟨2, ![16384, 1]⟩
abbrev S16384 : Shape := ⟨1, ![16384]⟩
abbrev S16384x512 : Shape := ⟨2, ![16384, 512]⟩
abbrev S16384x1536 : Shape := ⟨2, ![16384, 1536]⟩
abbrev S8192x2 : Shape := ⟨2, ![8192, 2]⟩
abbrev S8192x1 : Shape := ⟨2, ![8192, 1]⟩
abbrev S8192 : Shape := ⟨1, ![8192]⟩
abbrev S8192x512 : Shape := ⟨2, ![8192, 512]⟩
abbrev S8192x1536 : Shape := ⟨2, ![8192, 1536]⟩
abbrev S4096x2 : Shape := ⟨2, ![4096, 2]⟩
abbrev S4096x1 : Shape := ⟨2, ![4096, 1]⟩
abbrev S4096 : Shape := ⟨1, ![4096]⟩
abbrev S4096x512 : Shape := ⟨2, ![4096, 512]⟩
abbrev S4096x1536 : Shape := ⟨2, ![4096, 1536]⟩
abbrev S2048x2 : Shape := ⟨2, ![2048, 2]⟩
abbrev S2048x1 : Shape := ⟨2, ![2048, 1]⟩
abbrev S2048 : Shape := ⟨1, ![2048]⟩
abbrev S2048x512 : Shape := ⟨2, ![2048, 512]⟩
abbrev S2048x1536 : Shape := ⟨2, ![2048, 1536]⟩
abbrev S1024x2 : Shape := ⟨2, ![1024, 2]⟩
abbrev S1024x1 : Shape := ⟨2, ![1024, 1]⟩
abbrev S1024 : Shape := ⟨1, ![1024]⟩
abbrev S1024x512 : Shape := ⟨2, ![1024, 512]⟩
abbrev S1024x1536 : Shape := ⟨2, ![1024, 1536]⟩
abbrev S512x2 : Shape := ⟨2, ![512, 2]⟩
abbrev S512x1 : Shape := ⟨2, ![512, 1]⟩
abbrev S512x512 : Shape := ⟨2, ![512, 512]⟩
abbrev S256x2 : Shape := ⟨2, ![256, 2]⟩
abbrev S256x1 : Shape := ⟨2, ![256, 1]⟩
abbrev S256 : Shape := ⟨1, ![256]⟩
abbrev S256x1536 : Shape := ⟨2, ![256, 1536]⟩
abbrev S128x2 : Shape := ⟨2, ![128, 2]⟩
abbrev S128x1 : Shape := ⟨2, ![128, 1]⟩
abbrev S128 : Shape := ⟨1, ![128]⟩
abbrev S128x512 : Shape := ⟨2, ![128, 512]⟩
abbrev S128x1536 : Shape := ⟨2, ![128, 1536]⟩
abbrev S64x2 : Shape := ⟨2, ![64, 2]⟩
abbrev S64x1 : Shape := ⟨2, ![64, 1]⟩
abbrev S64 : Shape := ⟨1, ![64]⟩
abbrev S64x512 : Shape := ⟨2, ![64, 512]⟩
abbrev S64x1536 : Shape := ⟨2, ![64, 1536]⟩

abbrev nBuf : Space → Nat
  | .hbm => 345
  | .vmem => 0
  | .smem => 0
  | _ => 0

abbrev hbmTy0_0 (i : Nat) : BufTy := match i % 128 with
  | 0 => ⟨S131008x256, .f32⟩
  | 1 => ⟨S65472x2, .i32⟩
  | 2 => ⟨S512x256, .f32⟩
  | 3 => ⟨S512, .f32⟩
  | 4 => ⟨S512x1536, .f32⟩
  | 5 => ⟨S512, .f32⟩
  | 6 => ⟨S256x512, .f32⟩
  | 7 => ⟨S131008x512, .f32⟩
  | 8 => ⟨S1x512, .f32⟩
  | 9 => ⟨S131008x512, .f32⟩
  | 10 => ⟨S131008x512, .f32⟩
  | 11 => ⟨S_, .f32⟩
  | 12 => ⟨S131008x512, .f32⟩
  | 13 => ⟨S131008x512, .f32⟩
  | 14 => ⟨S65536x512, .f32⟩
  | 15 => ⟨S32768x2, .i32⟩
  | 16 => ⟨S32768x1, .i32⟩
  | 17 => ⟨S32768, .i32⟩
  | 18 => ⟨S_, .i32⟩
  | 19 => ⟨S32768, .i32⟩
  | 20 => ⟨S32768, .i1⟩
  | 21 => ⟨S_, .i32⟩
  | 22 => ⟨S32768, .i32⟩
  | 23 => ⟨S32768, .i32⟩
  | 24 => ⟨S32768, .i32⟩
  | 25 => ⟨S32768x1, .i32⟩
  | 26 => ⟨S32768x512, .f32⟩
  | 27 => ⟨S32768x1, .i32⟩
  | 28 => ⟨S32768, .i32⟩
  | 29 => ⟨S_, .i32⟩
  | 30 => ⟨S32768, .i32⟩
  | 31 => ⟨S32768, .i1⟩
  | 32 => ⟨S_, .i32⟩
  | 33 => ⟨S32768, .i32⟩
  | 34 => ⟨S32768, .i32⟩
  | 35 => ⟨S32768, .i32⟩
  | 36 => ⟨S32768x1, .i32⟩
  | 37 => ⟨S32768x512, .f32⟩
  | 38 => ⟨S32768x512, .f32⟩
  | 39 => ⟨S32768x1536, .f32⟩
  | 40 => ⟨S1536x512, .f32⟩
  | 41 => ⟨S32768x512, .f32⟩
  | 42 => ⟨S1x512, .f32⟩
  | 43 => ⟨S32768x512, .f32⟩
  | 44 => ⟨S32768x512, .f32⟩
  | 45 => ⟨S_, .f32⟩
  | 46 => ⟨S32768x512, .f32⟩
  | 47 => ⟨S32768x512, .f32⟩
  | 48 => ⟨S16384x2, .i32⟩
  | 49 => ⟨S16384x1, .i32⟩
  | 50 => ⟨S16384, .i32⟩
  | 51 => ⟨S_, .i32⟩
  | 52 => ⟨S16384, .i32⟩
  | 53 => ⟨S16384, .i1⟩
  | 54 => ⟨S_, .i32⟩
  | 55 => ⟨S16384, .i32⟩
  | 56 => ⟨S16384, .i32⟩
  | 57 => ⟨S16384, .i32⟩
  | 58 => ⟨S16384x1, .i32⟩
  | 59 => ⟨S16384x512, .f32⟩
  | 60 => ⟨S16384x1, .i32⟩
  | 61 => ⟨S16384, .i32⟩
  | 62 => ⟨S_, .i32⟩
  | 63 => ⟨S16384, .i32⟩
  | 64 => ⟨S16384, .i1⟩
  | 65 => ⟨S_, .i32⟩
  | 66 => ⟨S16384, .i32⟩
  | 67 => ⟨S16384, .i32⟩
  | 68 => ⟨S16384, .i32⟩
  | 69 => ⟨S16384x1, .i32⟩
  | 70 => ⟨S16384x512, .f32⟩
  | 71 => ⟨S16384x512, .f32⟩
  | 72 => ⟨S16384x1536, .f32⟩
  | 73 => ⟨S1536x512, .f32⟩
  | 74 => ⟨S16384x512, .f32⟩
  | 75 => ⟨S1x512, .f32⟩
  | 76 => ⟨S16384x512, .f32⟩
  | 77 => ⟨S16384x512, .f32⟩
  | 78 => ⟨S_, .f32⟩
  | 79 => ⟨S16384x512, .f32⟩
  | 80 => ⟨S16384x512, .f32⟩
  | 81 => ⟨S8192x2, .i32⟩
  | 82 => ⟨S8192x1, .i32⟩
  | 83 => ⟨S8192, .i32⟩
  | 84 => ⟨S_, .i32⟩
  | 85 => ⟨S8192, .i32⟩
  | 86 => ⟨S8192, .i1⟩
  | 87 => ⟨S_, .i32⟩
  | 88 => ⟨S8192, .i32⟩
  | 89 => ⟨S8192, .i32⟩
  | 90 => ⟨S8192, .i32⟩
  | 91 => ⟨S8192x1, .i32⟩
  | 92 => ⟨S8192x512, .f32⟩
  | 93 => ⟨S8192x1, .i32⟩
  | 94 => ⟨S8192, .i32⟩
  | 95 => ⟨S_, .i32⟩
  | 96 => ⟨S8192, .i32⟩
  | 97 => ⟨S8192, .i1⟩
  | 98 => ⟨S_, .i32⟩
  | 99 => ⟨S8192, .i32⟩
  | 100 => ⟨S8192, .i32⟩
  | 101 => ⟨S8192, .i32⟩
  | 102 => ⟨S8192x1, .i32⟩
  | 103 => ⟨S8192x512, .f32⟩
  | 104 => ⟨S8192x512, .f32⟩
  | 105 => ⟨S8192x1536, .f32⟩
  | 106 => ⟨S1536x512, .f32⟩
  | 107 => ⟨S8192x512, .f32⟩
  | 108 => ⟨S1x512, .f32⟩
  | 109 => ⟨S8192x512, .f32⟩
  | 110 => ⟨S8192x512, .f32⟩
  | 111 => ⟨S_, .f32⟩
  | 112 => ⟨S8192x512, .f32⟩
  | 113 => ⟨S8192x512, .f32⟩
  | 114 => ⟨S4096x2, .i32⟩
  | 115 => ⟨S4096x1, .i32⟩
  | 116 => ⟨S4096, .i32⟩
  | 117 => ⟨S_, .i32⟩
  | 118 => ⟨S4096, .i32⟩
  | 119 => ⟨S4096, .i1⟩
  | 120 => ⟨S_, .i32⟩
  | 121 => ⟨S4096, .i32⟩
  | 122 => ⟨S4096, .i32⟩
  | 123 => ⟨S4096, .i32⟩
  | 124 => ⟨S4096x1, .i32⟩
  | 125 => ⟨S4096x512, .f32⟩
  | 126 => ⟨S4096x1, .i32⟩
  | 127 => ⟨S4096, .i32⟩
  | _ => ⟨S131008x256, .f32⟩

abbrev hbmTy0_1 (i : Nat) : BufTy := match i % 128 with
  | 0 => ⟨S_, .i32⟩
  | 1 => ⟨S4096, .i32⟩
  | 2 => ⟨S4096, .i1⟩
  | 3 => ⟨S_, .i32⟩
  | 4 => ⟨S4096, .i32⟩
  | 5 => ⟨S4096, .i32⟩
  | 6 => ⟨S4096, .i32⟩
  | 7 => ⟨S4096x1, .i32⟩
  | 8 => ⟨S4096x512, .f32⟩
  | 9 => ⟨S4096x512, .f32⟩
  | 10 => ⟨S4096x1536, .f32⟩
  | 11 => ⟨S1536x512, .f32⟩
  | 12 => ⟨S4096x512, .f32⟩
  | 13 => ⟨S1x512, .f32⟩
  | 14 => ⟨S4096x512, .f32⟩
  | 15 => ⟨S4096x512, .f32⟩
  | 16 => ⟨S_, .f32⟩
  | 17 => ⟨S4096x512, .f32⟩
  | 18 => ⟨S4096x512, .f32⟩
  | 19 => ⟨S2048x2, .i32⟩
  | 20 => ⟨S2048x1, .i32⟩
  | 21 => ⟨S2048, .i32⟩
  | 22 => ⟨S_, .i32⟩
  | 23 => ⟨S2048, .i32⟩
  | 24 => ⟨S2048, .i1⟩
  | 25 => ⟨S_, .i32⟩
  | 26 => ⟨S2048, .i32⟩
  | 27 => ⟨S2048, .i32⟩
  | 28 => ⟨S2048, .i32⟩
  | 29 => ⟨S2048x1, .i32⟩
  | 30 => ⟨S2048x512, .f32⟩
  | 31 => ⟨S2048x1, .i32⟩
  | 32 => ⟨S2048, .i32⟩
  | 33 => ⟨S_, .i32⟩
  | 34 => ⟨S2048, .i32⟩
  | 35 => ⟨S2048, .i1⟩
  | 36 => ⟨S_, .i32⟩
  | 37 => ⟨S2048, .i32⟩
  | 38 => ⟨S2048, .i32⟩
  | 39 => ⟨S2048, .i32⟩
  | 40 => ⟨S2048x1, .i32⟩
  | 41 => ⟨S2048x512, .f32⟩
  | 42 => ⟨S2048x512, .f32⟩
  | 43 => ⟨S2048x1536, .f32⟩
  | 44 => ⟨S1536x512, .f32⟩
  | 45 => ⟨S2048x512, .f32⟩
  | 46 => ⟨S1x512, .f32⟩
  | 47 => ⟨S2048x512, .f32⟩
  | 48 => ⟨S2048x512, .f32⟩
  | 49 => ⟨S_, .f32⟩
  | 50 => ⟨S2048x512, .f32⟩
  | 51 => ⟨S2048x512, .f32⟩
  | 52 => ⟨S1024x2, .i32⟩
  | 53 => ⟨S1024x1, .i32⟩
  | 54 => ⟨S1024, .i32⟩
  | 55 => ⟨S_, .i32⟩
  | 56 => ⟨S1024, .i32⟩
  | 57 => ⟨S1024, .i1⟩
  | 58 => ⟨S_, .i32⟩
  | 59 => ⟨S1024, .i32⟩
  | 60 => ⟨S1024, .i32⟩
  | 61 => ⟨S1024, .i32⟩
  | 62 => ⟨S1024x1, .i32⟩
  | 63 => ⟨S1024x512, .f32⟩
  | 64 => ⟨S1024x1, .i32⟩
  | 65 => ⟨S1024, .i32⟩
  | 66 => ⟨S_, .i32⟩
  | 67 => ⟨S1024, .i32⟩
  | 68 => ⟨S1024, .i1⟩
  | 69 => ⟨S_, .i32⟩
  | 70 => ⟨S1024, .i32⟩
  | 71 => ⟨S1024, .i32⟩
  | 72 => ⟨S1024, .i32⟩
  | 73 => ⟨S1024x1, .i32⟩
  | 74 => ⟨S1024x512, .f32⟩
  | 75 => ⟨S1024x512, .f32⟩
  | 76 => ⟨S1024x1536, .f32⟩
  | 77 => ⟨S1536x512, .f32⟩
  | 78 => ⟨S1024x512, .f32⟩
  | 79 => ⟨S1x512, .f32⟩
  | 80 => ⟨S1024x512, .f32⟩
  | 81 => ⟨S1024x512, .f32⟩
  | 82 => ⟨S_, .f32⟩
  | 83 => ⟨S1024x512, .f32⟩
  | 84 => ⟨S1024x512, .f32⟩
  | 85 => ⟨S512x2, .i32⟩
  | 86 => ⟨S512x1, .i32⟩
  | 87 => ⟨S512, .i32⟩
  | 88 => ⟨S_, .i32⟩
  | 89 => ⟨S512, .i32⟩
  | 90 => ⟨S512, .i1⟩
  | 91 => ⟨S_, .i32⟩
  | 92 => ⟨S512, .i32⟩
  | 93 => ⟨S512, .i32⟩
  | 94 => ⟨S512, .i32⟩
  | 95 => ⟨S512x1, .i32⟩
  | 96 => ⟨S512x512, .f32⟩
  | 97 => ⟨S512x1, .i32⟩
  | 98 => ⟨S512, .i32⟩
  | 99 => ⟨S_, .i32⟩
  | 100 => ⟨S512, .i32⟩
  | 101 => ⟨S512, .i1⟩
  | 102 => ⟨S_, .i32⟩
  | 103 => ⟨S512, .i32⟩
  | 104 => ⟨S512, .i32⟩
  | 105 => ⟨S512, .i32⟩
  | 106 => ⟨S512x1, .i32⟩
  | 107 => ⟨S512x512, .f32⟩
  | 108 => ⟨S512x512, .f32⟩
  | 109 => ⟨S512x1536, .f32⟩
  | 110 => ⟨S1536x512, .f32⟩
  | 111 => ⟨S512x512, .f32⟩
  | 112 => ⟨S1x512, .f32⟩
  | 113 => ⟨S512x512, .f32⟩
  | 114 => ⟨S512x512, .f32⟩
  | 115 => ⟨S_, .f32⟩
  | 116 => ⟨S512x512, .f32⟩
  | 117 => ⟨S512x512, .f32⟩
  | 118 => ⟨S256x2, .i32⟩
  | 119 => ⟨S256x1, .i32⟩
  | 120 => ⟨S256, .i32⟩
  | 121 => ⟨S_, .i32⟩
  | 122 => ⟨S256, .i32⟩
  | 123 => ⟨S256, .i1⟩
  | 124 => ⟨S_, .i32⟩
  | 125 => ⟨S256, .i32⟩
  | 126 => ⟨S256, .i32⟩
  | 127 => ⟨S256, .i32⟩
  | _ => ⟨S131008x256, .f32⟩

abbrev hbmTy0_2 (i : Nat) : BufTy := match i % 128 with
  | 0 => ⟨S256x1, .i32⟩
  | 1 => ⟨S256x512, .f32⟩
  | 2 => ⟨S256x1, .i32⟩
  | 3 => ⟨S256, .i32⟩
  | 4 => ⟨S_, .i32⟩
  | 5 => ⟨S256, .i32⟩
  | 6 => ⟨S256, .i1⟩
  | 7 => ⟨S_, .i32⟩
  | 8 => ⟨S256, .i32⟩
  | 9 => ⟨S256, .i32⟩
  | 10 => ⟨S256, .i32⟩
  | 11 => ⟨S256x1, .i32⟩
  | 12 => ⟨S256x512, .f32⟩
  | 13 => ⟨S256x512, .f32⟩
  | 14 => ⟨S256x1536, .f32⟩
  | 15 => ⟨S1536x512, .f32⟩
  | 16 => ⟨S256x512, .f32⟩
  | 17 => ⟨S1x512, .f32⟩
  | 18 => ⟨S256x512, .f32⟩
  | 19 => ⟨S256x512, .f32⟩
  | 20 => ⟨S_, .f32⟩
  | 21 => ⟨S256x512, .f32⟩
  | 22 => ⟨S256x512, .f32⟩
  | 23 => ⟨S128x2, .i32⟩
  | 24 => ⟨S128x1, .i32⟩
  | 25 => ⟨S128, .i32⟩
  | 26 => ⟨S_, .i32⟩
  | 27 => ⟨S128, .i32⟩
  | 28 => ⟨S128, .i1⟩
  | 29 => ⟨S_, .i32⟩
  | 30 => ⟨S128, .i32⟩
  | 31 => ⟨S128, .i32⟩
  | 32 => ⟨S128, .i32⟩
  | 33 => ⟨S128x1, .i32⟩
  | 34 => ⟨S128x512, .f32⟩
  | 35 => ⟨S128x1, .i32⟩
  | 36 => ⟨S128, .i32⟩
  | 37 => ⟨S_, .i32⟩
  | 38 => ⟨S128, .i32⟩
  | 39 => ⟨S128, .i1⟩
  | 40 => ⟨S_, .i32⟩
  | 41 => ⟨S128, .i32⟩
  | 42 => ⟨S128, .i32⟩
  | 43 => ⟨S128, .i32⟩
  | 44 => ⟨S128x1, .i32⟩
  | 45 => ⟨S128x512, .f32⟩
  | 46 => ⟨S128x512, .f32⟩
  | 47 => ⟨S128x1536, .f32⟩
  | 48 => ⟨S1536x512, .f32⟩
  | 49 => ⟨S128x512, .f32⟩
  | 50 => ⟨S1x512, .f32⟩
  | 51 => ⟨S128x512, .f32⟩
  | 52 => ⟨S128x512, .f32⟩
  | 53 => ⟨S_, .f32⟩
  | 54 => ⟨S128x512, .f32⟩
  | 55 => ⟨S128x512, .f32⟩
  | 56 => ⟨S64x2, .i32⟩
  | 57 => ⟨S64x1, .i32⟩
  | 58 => ⟨S64, .i32⟩
  | 59 => ⟨S_, .i32⟩
  | 60 => ⟨S64, .i32⟩
  | 61 => ⟨S64, .i1⟩
  | 62 => ⟨S_, .i32⟩
  | 63 => ⟨S64, .i32⟩
  | 64 => ⟨S64, .i32⟩
  | 65 => ⟨S64, .i32⟩
  | 66 => ⟨S64x1, .i32⟩
  | 67 => ⟨S64x512, .f32⟩
  | 68 => ⟨S64x1, .i32⟩
  | 69 => ⟨S64, .i32⟩
  | 70 => ⟨S_, .i32⟩
  | 71 => ⟨S64, .i32⟩
  | 72 => ⟨S64, .i1⟩
  | 73 => ⟨S_, .i32⟩
  | 74 => ⟨S64, .i32⟩
  | 75 => ⟨S64, .i32⟩
  | 76 => ⟨S64, .i32⟩
  | 77 => ⟨S64x1, .i32⟩
  | 78 => ⟨S64x512, .f32⟩
  | 79 => ⟨S64x512, .f32⟩
  | 80 => ⟨S64x1536, .f32⟩
  | 81 => ⟨S1536x512, .f32⟩
  | 82 => ⟨S64x512, .f32⟩
  | 83 => ⟨S1x512, .f32⟩
  | 84 => ⟨S64x512, .f32⟩
  | 85 => ⟨S64x512, .f32⟩
  | 86 => ⟨S_, .f32⟩
  | 87 => ⟨S64x512, .f32⟩
  | 88 => ⟨S64x512, .f32⟩
  | _ => ⟨S131008x256, .f32⟩

abbrev hbmTy (i : Nat) : BufTy := match i / 128 with
  | 0 => hbmTy0_0 i
  | 1 => hbmTy0_1 i
  | 2 => hbmTy0_2 i
  | _ => ⟨S131008x256, .f32⟩

abbrev bufTy : (tb : Table) → Fin (tcTables nBuf tb) → BufTy
  | .hbm, ⟨i, _⟩ => hbmTy i
  | _, _ => ⟨S131008x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_cst : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_c_0 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_c_1 : Ref sig .tc := ⟨.hbm, 29, rfl⟩
abbrev main_v19 : Ref sig .tc := ⟨.hbm, 30, rfl⟩
abbrev main_v20 : Ref sig .tc := ⟨.hbm, 31, rfl⟩
abbrev main_c_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call1_cst : Ref sig .tc := ⟨.hbm, 45, rfl⟩
abbrev main_call1_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_3 : Ref sig .tc := ⟨.hbm, 51, rfl⟩
abbrev main_v37 : Ref sig .tc := ⟨.hbm, 52, rfl⟩
abbrev main_v38 : Ref sig .tc := ⟨.hbm, 53, rfl⟩
abbrev main_c_4 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_c_5 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_call2_cst : Ref sig .tc := ⟨.hbm, 78, rfl⟩
abbrev main_call2_v0 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_c_7 : Ref sig .tc := ⟨.hbm, 84, rfl⟩
abbrev main_v64 : Ref sig .tc := ⟨.hbm, 85, rfl⟩
abbrev main_v65 : Ref sig .tc := ⟨.hbm, 86, rfl⟩
abbrev main_c_8 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_c_9 : Ref sig .tc := ⟨.hbm, 95, rfl⟩
abbrev main_v73 : Ref sig .tc := ⟨.hbm, 96, rfl⟩
abbrev main_v74 : Ref sig .tc := ⟨.hbm, 97, rfl⟩
abbrev main_c_10 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_call3_cst : Ref sig .tc := ⟨.hbm, 111, rfl⟩
abbrev main_call3_v0 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_c_11 : Ref sig .tc := ⟨.hbm, 117, rfl⟩
abbrev main_v91 : Ref sig .tc := ⟨.hbm, 118, rfl⟩
abbrev main_v92 : Ref sig .tc := ⟨.hbm, 119, rfl⟩
abbrev main_c_12 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_c_13 : Ref sig .tc := ⟨.hbm, 128, rfl⟩
abbrev main_v100 : Ref sig .tc := ⟨.hbm, 129, rfl⟩
abbrev main_v101 : Ref sig .tc := ⟨.hbm, 130, rfl⟩
abbrev main_c_14 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_v112 : Ref sig .tc := ⟨.hbm, 142, rfl⟩
abbrev main_v113 : Ref sig .tc := ⟨.hbm, 143, rfl⟩
abbrev main_call4_cst : Ref sig .tc := ⟨.hbm, 144, rfl⟩
abbrev main_call4_v0 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_c_15 : Ref sig .tc := ⟨.hbm, 150, rfl⟩
abbrev main_v118 : Ref sig .tc := ⟨.hbm, 151, rfl⟩
abbrev main_v119 : Ref sig .tc := ⟨.hbm, 152, rfl⟩
abbrev main_c_16 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_c_17 : Ref sig .tc := ⟨.hbm, 161, rfl⟩
abbrev main_v127 : Ref sig .tc := ⟨.hbm, 162, rfl⟩
abbrev main_v128 : Ref sig .tc := ⟨.hbm, 163, rfl⟩
abbrev main_c_18 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_v140 : Ref sig .tc := ⟨.hbm, 176, rfl⟩
abbrev main_call5_cst : Ref sig .tc := ⟨.hbm, 177, rfl⟩
abbrev main_call5_v0 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_c_19 : Ref sig .tc := ⟨.hbm, 183, rfl⟩
abbrev main_v145 : Ref sig .tc := ⟨.hbm, 184, rfl⟩
abbrev main_v146 : Ref sig .tc := ⟨.hbm, 185, rfl⟩
abbrev main_c_20 : Ref sig .tc := ⟨.hbm, 186, rfl⟩
abbrev main_v147 : Ref sig .tc := ⟨.hbm, 187, rfl⟩
abbrev main_v148 : Ref sig .tc := ⟨.hbm, 188, rfl⟩
abbrev main_v149 : Ref sig .tc := ⟨.hbm, 189, rfl⟩
abbrev main_v150 : Ref sig .tc := ⟨.hbm, 190, rfl⟩
abbrev main_v151 : Ref sig .tc := ⟨.hbm, 191, rfl⟩
abbrev main_v152 : Ref sig .tc := ⟨.hbm, 192, rfl⟩
abbrev main_v153 : Ref sig .tc := ⟨.hbm, 193, rfl⟩
abbrev main_c_21 : Ref sig .tc := ⟨.hbm, 194, rfl⟩
abbrev main_v154 : Ref sig .tc := ⟨.hbm, 195, rfl⟩
abbrev main_v155 : Ref sig .tc := ⟨.hbm, 196, rfl⟩
abbrev main_c_22 : Ref sig .tc := ⟨.hbm, 197, rfl⟩
abbrev main_v156 : Ref sig .tc := ⟨.hbm, 198, rfl⟩
abbrev main_v157 : Ref sig .tc := ⟨.hbm, 199, rfl⟩
abbrev main_v158 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_v163 : Ref sig .tc := ⟨.hbm, 205, rfl⟩
abbrev main_v164 : Ref sig .tc := ⟨.hbm, 206, rfl⟩
abbrev main_v165 : Ref sig .tc := ⟨.hbm, 207, rfl⟩
abbrev main_v166 : Ref sig .tc := ⟨.hbm, 208, rfl⟩
abbrev main_v167 : Ref sig .tc := ⟨.hbm, 209, rfl⟩
abbrev main_call6_cst : Ref sig .tc := ⟨.hbm, 210, rfl⟩
abbrev main_call6_v0 : Ref sig .tc := ⟨.hbm, 211, rfl⟩
abbrev main_v168 : Ref sig .tc := ⟨.hbm, 212, rfl⟩
abbrev main_v169 : Ref sig .tc := ⟨.hbm, 213, rfl⟩
abbrev main_v170 : Ref sig .tc := ⟨.hbm, 214, rfl⟩
abbrev main_v171 : Ref sig .tc := ⟨.hbm, 215, rfl⟩
abbrev main_c_23 : Ref sig .tc := ⟨.hbm, 216, rfl⟩
abbrev main_v172 : Ref sig .tc := ⟨.hbm, 217, rfl⟩
abbrev main_v173 : Ref sig .tc := ⟨.hbm, 218, rfl⟩
abbrev main_c_24 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_v179 : Ref sig .tc := ⟨.hbm, 225, rfl⟩
abbrev main_v180 : Ref sig .tc := ⟨.hbm, 226, rfl⟩
abbrev main_c_25 : Ref sig .tc := ⟨.hbm, 227, rfl⟩
abbrev main_v181 : Ref sig .tc := ⟨.hbm, 228, rfl⟩
abbrev main_v182 : Ref sig .tc := ⟨.hbm, 229, rfl⟩
abbrev main_c_26 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_v188 : Ref sig .tc := ⟨.hbm, 236, rfl⟩
abbrev main_v189 : Ref sig .tc := ⟨.hbm, 237, rfl⟩
abbrev main_v190 : Ref sig .tc := ⟨.hbm, 238, rfl⟩
abbrev main_v191 : Ref sig .tc := ⟨.hbm, 239, rfl⟩
abbrev main_v192 : Ref sig .tc := ⟨.hbm, 240, rfl⟩
abbrev main_v193 : Ref sig .tc := ⟨.hbm, 241, rfl⟩
abbrev main_v194 : Ref sig .tc := ⟨.hbm, 242, rfl⟩
abbrev main_call7_cst : Ref sig .tc := ⟨.hbm, 243, rfl⟩
abbrev main_call7_v0 : Ref sig .tc := ⟨.hbm, 244, rfl⟩
abbrev main_v195 : Ref sig .tc := ⟨.hbm, 245, rfl⟩
abbrev main_v196 : Ref sig .tc := ⟨.hbm, 246, rfl⟩
abbrev main_v197 : Ref sig .tc := ⟨.hbm, 247, rfl⟩
abbrev main_v198 : Ref sig .tc := ⟨.hbm, 248, rfl⟩
abbrev main_c_27 : Ref sig .tc := ⟨.hbm, 249, rfl⟩
abbrev main_v199 : Ref sig .tc := ⟨.hbm, 250, rfl⟩
abbrev main_v200 : Ref sig .tc := ⟨.hbm, 251, rfl⟩
abbrev main_c_28 : Ref sig .tc := ⟨.hbm, 252, rfl⟩
abbrev main_v201 : Ref sig .tc := ⟨.hbm, 253, rfl⟩
abbrev main_v202 : Ref sig .tc := ⟨.hbm, 254, rfl⟩
abbrev main_v203 : Ref sig .tc := ⟨.hbm, 255, rfl⟩
abbrev main_v204 : Ref sig .tc := ⟨.hbm, 256, rfl⟩
abbrev main_v205 : Ref sig .tc := ⟨.hbm, 257, rfl⟩
abbrev main_v206 : Ref sig .tc := ⟨.hbm, 258, rfl⟩
abbrev main_v207 : Ref sig .tc := ⟨.hbm, 259, rfl⟩
abbrev main_c_29 : Ref sig .tc := ⟨.hbm, 260, rfl⟩
abbrev main_v208 : Ref sig .tc := ⟨.hbm, 261, rfl⟩
abbrev main_v209 : Ref sig .tc := ⟨.hbm, 262, rfl⟩
abbrev main_c_30 : Ref sig .tc := ⟨.hbm, 263, rfl⟩
abbrev main_v210 : Ref sig .tc := ⟨.hbm, 264, rfl⟩
abbrev main_v211 : Ref sig .tc := ⟨.hbm, 265, rfl⟩
abbrev main_v212 : Ref sig .tc := ⟨.hbm, 266, rfl⟩
abbrev main_v213 : Ref sig .tc := ⟨.hbm, 267, rfl⟩
abbrev main_v214 : Ref sig .tc := ⟨.hbm, 268, rfl⟩
abbrev main_v215 : Ref sig .tc := ⟨.hbm, 269, rfl⟩
abbrev main_v216 : Ref sig .tc := ⟨.hbm, 270, rfl⟩
abbrev main_v217 : Ref sig .tc := ⟨.hbm, 271, rfl⟩
abbrev main_v218 : Ref sig .tc := ⟨.hbm, 272, rfl⟩
abbrev main_v219 : Ref sig .tc := ⟨.hbm, 273, rfl⟩
abbrev main_v220 : Ref sig .tc := ⟨.hbm, 274, rfl⟩
abbrev main_v221 : Ref sig .tc := ⟨.hbm, 275, rfl⟩
abbrev main_call8_cst : Ref sig .tc := ⟨.hbm, 276, rfl⟩
abbrev main_call8_v0 : Ref sig .tc := ⟨.hbm, 277, rfl⟩
abbrev main_v222 : Ref sig .tc := ⟨.hbm, 278, rfl⟩
abbrev main_v223 : Ref sig .tc := ⟨.hbm, 279, rfl⟩
abbrev main_v224 : Ref sig .tc := ⟨.hbm, 280, rfl⟩
abbrev main_v225 : Ref sig .tc := ⟨.hbm, 281, rfl⟩
abbrev main_c_31 : Ref sig .tc := ⟨.hbm, 282, rfl⟩
abbrev main_v226 : Ref sig .tc := ⟨.hbm, 283, rfl⟩
abbrev main_v227 : Ref sig .tc := ⟨.hbm, 284, rfl⟩
abbrev main_c_32 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩
abbrev main_c_33 : Ref sig .tc := ⟨.hbm, 293, rfl⟩
abbrev main_v235 : Ref sig .tc := ⟨.hbm, 294, rfl⟩
abbrev main_v236 : Ref sig .tc := ⟨.hbm, 295, rfl⟩
abbrev main_c_34 : Ref sig .tc := ⟨.hbm, 296, rfl⟩
abbrev main_v237 : Ref sig .tc := ⟨.hbm, 297, rfl⟩
abbrev main_v238 : Ref sig .tc := ⟨.hbm, 298, rfl⟩
abbrev main_v239 : Ref sig .tc := ⟨.hbm, 299, rfl⟩
abbrev main_v240 : Ref sig .tc := ⟨.hbm, 300, rfl⟩
abbrev main_v241 : Ref sig .tc := ⟨.hbm, 301, rfl⟩
abbrev main_v242 : Ref sig .tc := ⟨.hbm, 302, rfl⟩
abbrev main_v243 : Ref sig .tc := ⟨.hbm, 303, rfl⟩
abbrev main_v244 : Ref sig .tc := ⟨.hbm, 304, rfl⟩
abbrev main_v245 : Ref sig .tc := ⟨.hbm, 305, rfl⟩
abbrev main_v246 : Ref sig .tc := ⟨.hbm, 306, rfl⟩
abbrev main_v247 : Ref sig .tc := ⟨.hbm, 307, rfl⟩
abbrev main_v248 : Ref sig .tc := ⟨.hbm, 308, rfl⟩
abbrev main_call9_cst : Ref sig .tc := ⟨.hbm, 309, rfl⟩
abbrev main_call9_v0 : Ref sig .tc := ⟨.hbm, 310, rfl⟩
abbrev main_v249 : Ref sig .tc := ⟨.hbm, 311, rfl⟩
abbrev main_v250 : Ref sig .tc := ⟨.hbm, 312, rfl⟩
abbrev main_v251 : Ref sig .tc := ⟨.hbm, 313, rfl⟩
abbrev main_v252 : Ref sig .tc := ⟨.hbm, 314, rfl⟩
abbrev main_c_35 : Ref sig .tc := ⟨.hbm, 315, rfl⟩
abbrev main_v253 : Ref sig .tc := ⟨.hbm, 316, rfl⟩
abbrev main_v254 : Ref sig .tc := ⟨.hbm, 317, rfl⟩
abbrev main_c_36 : Ref sig .tc := ⟨.hbm, 318, rfl⟩
abbrev main_v255 : Ref sig .tc := ⟨.hbm, 319, rfl⟩
abbrev main_v256 : Ref sig .tc := ⟨.hbm, 320, rfl⟩
abbrev main_v257 : Ref sig .tc := ⟨.hbm, 321, rfl⟩
abbrev main_v258 : Ref sig .tc := ⟨.hbm, 322, rfl⟩
abbrev main_v259 : Ref sig .tc := ⟨.hbm, 323, rfl⟩
abbrev main_v260 : Ref sig .tc := ⟨.hbm, 324, rfl⟩
abbrev main_v261 : Ref sig .tc := ⟨.hbm, 325, rfl⟩
abbrev main_c_37 : Ref sig .tc := ⟨.hbm, 326, rfl⟩
abbrev main_v262 : Ref sig .tc := ⟨.hbm, 327, rfl⟩
abbrev main_v263 : Ref sig .tc := ⟨.hbm, 328, rfl⟩
abbrev main_c_38 : Ref sig .tc := ⟨.hbm, 329, rfl⟩
abbrev main_v264 : Ref sig .tc := ⟨.hbm, 330, rfl⟩
abbrev main_v265 : Ref sig .tc := ⟨.hbm, 331, rfl⟩
abbrev main_v266 : Ref sig .tc := ⟨.hbm, 332, rfl⟩
abbrev main_v267 : Ref sig .tc := ⟨.hbm, 333, rfl⟩
abbrev main_v268 : Ref sig .tc := ⟨.hbm, 334, rfl⟩
abbrev main_v269 : Ref sig .tc := ⟨.hbm, 335, rfl⟩
abbrev main_v270 : Ref sig .tc := ⟨.hbm, 336, rfl⟩
abbrev main_v271 : Ref sig .tc := ⟨.hbm, 337, rfl⟩
abbrev main_v272 : Ref sig .tc := ⟨.hbm, 338, rfl⟩
abbrev main_v273 : Ref sig .tc := ⟨.hbm, 339, rfl⟩
abbrev main_v274 : Ref sig .tc := ⟨.hbm, 340, rfl⟩
abbrev main_v275 : Ref sig .tc := ⟨.hbm, 341, rfl⟩
abbrev main_call10_cst : Ref sig .tc := ⟨.hbm, 342, rfl⟩
abbrev main_call10_v0 : Ref sig .tc := ⟨.hbm, 343, rfl⟩
abbrev main_v276 : Ref sig .tc := ⟨.hbm, 344, rfl⟩

abbrev nD : Nat := 1
abbrev τ : Topo := Topo.v7x

variable {F : FTy → Type} [FloatOps F]

class Facts₀ : Prop where
  transposes_S512x256_S256x512_1_0 : S512x256.Transposes [1, 0] S256x512
  bcast_S512_S1x512_1 : S512.BroadcastsInDim S1x512 (![1] : Fin 1 → Fin S1x512.rank)
  bcast_S1x512_S131008x512_0_1 : S1x512.BroadcastsInDim S131008x512 (![0, 1] : Fin 2 → Fin S131008x512.rank)
  bcast_S_S131008x512 : S_.BroadcastsInDim S131008x512 (![] : Fin 0 → Fin S131008x512.rank)
  slices_S131008x512_S65536x512_65472_0 : S131008x512.Slices ![65472, 0] S65536x512
  slices_S65472x2_S32768x2_32704_0 : S65472x2.Slices ![32704, 0] S32768x2
  slices_S32768x2_S32768x1_0_0 : S32768x2.Slices ![0, 0] S32768x1
  shapeCasts_S32768x1_S32768 : S32768x1.ShapeCasts S32768
  bcast_S_S32768 : S_.BroadcastsInDim S32768 (![] : Fin 0 → Fin S32768.rank)
  bcast_S32768_S32768x1_0 : S32768.BroadcastsInDim S32768x1 (![0] : Fin 1 → Fin S32768x1.rank)
  slices_S32768x2_S32768x1_0_1 : S32768x2.Slices ![0, 1] S32768x1
  slices_S131008x512_S32768x512_32704_0 : S131008x512.Slices ![32704, 0] S32768x512
  concatenates_S32768x512_S32768x512_S32768x512_S32768x1536_d1 : Shape.Concatenates [S32768x512, S32768x512, S32768x512] S32768x1536 1
  transposes_S512x1536_S1536x512_1_0 : S512x1536.Transposes [1, 0] S1536x512
  bcast_S1x512_S32768x512_0_1 : S1x512.BroadcastsInDim S32768x512 (![0, 1] : Fin 2 → Fin S32768x512.rank)
  bcast_S_S32768x512 : S_.BroadcastsInDim S32768x512 (![] : Fin 0 → Fin S32768x512.rank)
  slices_S65472x2_S16384x2_16320_0 : S65472x2.Slices ![16320, 0] S16384x2
  slices_S16384x2_S16384x1_0_0 : S16384x2.Slices ![0, 0] S16384x1
  shapeCasts_S16384x1_S16384 : S16384x1.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S16384x2_S16384x1_0_1 : S16384x2.Slices ![0, 1] S16384x1
  slices_S131008x512_S16384x512_16320_0 : S131008x512.Slices ![16320, 0] S16384x512
  concatenates_S16384x512_S16384x512_S16384x512_S16384x1536_d1 : Shape.Concatenates [S16384x512, S16384x512, S16384x512] S16384x1536 1
  bcast_S1x512_S16384x512_0_1 : S1x512.BroadcastsInDim S16384x512 (![0, 1] : Fin 2 → Fin S16384x512.rank)
  bcast_S_S16384x512 : S_.BroadcastsInDim S16384x512 (![] : Fin 0 → Fin S16384x512.rank)
  slices_S65472x2_S8192x2_8128_0 : S65472x2.Slices ![8128, 0] S8192x2
  slices_S8192x2_S8192x1_0_0 : S8192x2.Slices ![0, 0] S8192x1
  shapeCasts_S8192x1_S8192 : S8192x1.ShapeCasts S8192
  bcast_S_S8192 : S_.BroadcastsInDim S8192 (![] : Fin 0 → Fin S8192.rank)
  bcast_S8192_S8192x1_0 : S8192.BroadcastsInDim S8192x1 (![0] : Fin 1 → Fin S8192x1.rank)
  slices_S8192x2_S8192x1_0_1 : S8192x2.Slices ![0, 1] S8192x1
  slices_S131008x512_S8192x512_8128_0 : S131008x512.Slices ![8128, 0] S8192x512
  concatenates_S8192x512_S8192x512_S8192x512_S8192x1536_d1 : Shape.Concatenates [S8192x512, S8192x512, S8192x512] S8192x1536 1
  bcast_S1x512_S8192x512_0_1 : S1x512.BroadcastsInDim S8192x512 (![0, 1] : Fin 2 → Fin S8192x512.rank)
  bcast_S_S8192x512 : S_.BroadcastsInDim S8192x512 (![] : Fin 0 → Fin S8192x512.rank)
  slices_S65472x2_S4096x2_4032_0 : S65472x2.Slices ![4032, 0] S4096x2
  slices_S4096x2_S4096x1_0_0 : S4096x2.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x2_S4096x1_0_1 : S4096x2.Slices ![0, 1] S4096x1
  slices_S131008x512_S4096x512_4032_0 : S131008x512.Slices ![4032, 0] S4096x512
  concatenates_S4096x512_S4096x512_S4096x512_S4096x1536_d1 : Shape.Concatenates [S4096x512, S4096x512, S4096x512] S4096x1536 1
  bcast_S1x512_S4096x512_0_1 : S1x512.BroadcastsInDim S4096x512 (![0, 1] : Fin 2 → Fin S4096x512.rank)
  bcast_S_S4096x512 : S_.BroadcastsInDim S4096x512 (![] : Fin 0 → Fin S4096x512.rank)
  slices_S65472x2_S2048x2_1984_0 : S65472x2.Slices ![1984, 0] S2048x2
  slices_S2048x2_S2048x1_0_0 : S2048x2.Slices ![0, 0] S2048x1
  shapeCasts_S2048x1_S2048 : S2048x1.ShapeCasts S2048
  bcast_S_S2048 : S_.BroadcastsInDim S2048 (![] : Fin 0 → Fin S2048.rank)
  bcast_S2048_S2048x1_0 : S2048.BroadcastsInDim S2048x1 (![0] : Fin 1 → Fin S2048x1.rank)
  slices_S2048x2_S2048x1_0_1 : S2048x2.Slices ![0, 1] S2048x1
  slices_S131008x512_S2048x512_1984_0 : S131008x512.Slices ![1984, 0] S2048x512
  concatenates_S2048x512_S2048x512_S2048x512_S2048x1536_d1 : Shape.Concatenates [S2048x512, S2048x512, S2048x512] S2048x1536 1
  bcast_S1x512_S2048x512_0_1 : S1x512.BroadcastsInDim S2048x512 (![0, 1] : Fin 2 → Fin S2048x512.rank)
  bcast_S_S2048x512 : S_.BroadcastsInDim S2048x512 (![] : Fin 0 → Fin S2048x512.rank)
  slices_S65472x2_S1024x2_960_0 : S65472x2.Slices ![960, 0] S1024x2
  slices_S1024x2_S1024x1_0_0 : S1024x2.Slices ![0, 0] S1024x1
  shapeCasts_S1024x1_S1024 : S1024x1.ShapeCasts S1024
  bcast_S_S1024 : S_.BroadcastsInDim S1024 (![] : Fin 0 → Fin S1024.rank)
  bcast_S1024_S1024x1_0 : S1024.BroadcastsInDim S1024x1 (![0] : Fin 1 → Fin S1024x1.rank)
  slices_S1024x2_S1024x1_0_1 : S1024x2.Slices ![0, 1] S1024x1
  slices_S131008x512_S1024x512_960_0 : S131008x512.Slices ![960, 0] S1024x512
  concatenates_S1024x512_S1024x512_S1024x512_S1024x1536_d1 : Shape.Concatenates [S1024x512, S1024x512, S1024x512] S1024x1536 1
  bcast_S1x512_S1024x512_0_1 : S1x512.BroadcastsInDim S1024x512 (![0, 1] : Fin 2 → Fin S1024x512.rank)
  bcast_S_S1024x512 : S_.BroadcastsInDim S1024x512 (![] : Fin 0 → Fin S1024x512.rank)
  slices_S65472x2_S512x2_448_0 : S65472x2.Slices ![448, 0] S512x2
  slices_S512x2_S512x1_0_0 : S512x2.Slices ![0, 0] S512x1
  shapeCasts_S512x1_S512 : S512x1.ShapeCasts S512
  bcast_S_S512 : S_.BroadcastsInDim S512 (![] : Fin 0 → Fin S512.rank)
  bcast_S512_S512x1_0 : S512.BroadcastsInDim S512x1 (![0] : Fin 1 → Fin S512x1.rank)
  slices_S512x2_S512x1_0_1 : S512x2.Slices ![0, 1] S512x1
  slices_S131008x512_S512x512_448_0 : S131008x512.Slices ![448, 0] S512x512
  concatenates_S512x512_S512x512_S512x512_S512x1536_d1 : Shape.Concatenates [S512x512, S512x512, S512x512] S512x1536 1
  bcast_S1x512_S512x512_0_1 : S1x512.BroadcastsInDim S512x512 (![0, 1] : Fin 2 → Fin S512x512.rank)
  bcast_S_S512x512 : S_.BroadcastsInDim S512x512 (![] : Fin 0 → Fin S512x512.rank)
  slices_S65472x2_S256x2_192_0 : S65472x2.Slices ![192, 0] S256x2
  slices_S256x2_S256x1_0_0 : S256x2.Slices ![0, 0] S256x1
  shapeCasts_S256x1_S256 : S256x1.ShapeCasts S256
  bcast_S_S256 : S_.BroadcastsInDim S256 (![] : Fin 0 → Fin S256.rank)
  bcast_S256_S256x1_0 : S256.BroadcastsInDim S256x1 (![0] : Fin 1 → Fin S256x1.rank)
  slices_S256x2_S256x1_0_1 : S256x2.Slices ![0, 1] S256x1
  slices_S131008x512_S256x512_192_0 : S131008x512.Slices ![192, 0] S256x512
  concatenates_S256x512_S256x512_S256x512_S256x1536_d1 : Shape.Concatenates [S256x512, S256x512, S256x512] S256x1536 1
  bcast_S1x512_S256x512_0_1 : S1x512.BroadcastsInDim S256x512 (![0, 1] : Fin 2 → Fin S256x512.rank)
  bcast_S_S256x512 : S_.BroadcastsInDim S256x512 (![] : Fin 0 → Fin S256x512.rank)
  slices_S65472x2_S128x2_64_0 : S65472x2.Slices ![64, 0] S128x2
  slices_S128x2_S128x1_0_0 : S128x2.Slices ![0, 0] S128x1
  shapeCasts_S128x1_S128 : S128x1.ShapeCasts S128
  bcast_S_S128 : S_.BroadcastsInDim S128 (![] : Fin 0 → Fin S128.rank)
  bcast_S128_S128x1_0 : S128.BroadcastsInDim S128x1 (![0] : Fin 1 → Fin S128x1.rank)
  slices_S128x2_S128x1_0_1 : S128x2.Slices ![0, 1] S128x1
  slices_S131008x512_S128x512_64_0 : S131008x512.Slices ![64, 0] S128x512
  concatenates_S128x512_S128x512_S128x512_S128x1536_d1 : Shape.Concatenates [S128x512, S128x512, S128x512] S128x1536 1
  bcast_S1x512_S128x512_0_1 : S1x512.BroadcastsInDim S128x512 (![0, 1] : Fin 2 → Fin S128x512.rank)
  bcast_S_S128x512 : S_.BroadcastsInDim S128x512 (![] : Fin 0 → Fin S128x512.rank)
  slices_S65472x2_S64x2_0_0 : S65472x2.Slices ![0, 0] S64x2
  slices_S64x2_S64x1_0_0 : S64x2.Slices ![0, 0] S64x1
  shapeCasts_S64x1_S64 : S64x1.ShapeCasts S64
  bcast_S_S64 : S_.BroadcastsInDim S64 (![] : Fin 0 → Fin S64.rank)
  bcast_S64_S64x1_0 : S64.BroadcastsInDim S64x1 (![0] : Fin 1 → Fin S64x1.rank)
  slices_S64x2_S64x1_0_1 : S64x2.Slices ![0, 1] S64x1
  slices_S131008x512_S64x512_0_0 : S131008x512.Slices ![0, 0] S64x512
  concatenates_S64x512_S64x512_S64x512_S64x1536_d1 : Shape.Concatenates [S64x512, S64x512, S64x512] S64x1536 1
  bcast_S1x512_S64x512_0_1 : S1x512.BroadcastsInDim S64x512 (![0, 1] : Fin 2 → Fin S64x512.rank)
  bcast_S_S64x512 : S_.BroadcastsInDim S64x512 (![] : Fin 0 → Fin S64x512.rank)
  dot_S131008x256_S256x512_S131008x512_1_0_0_1_n_n_wf : DotDims.WF S131008x256 S256x512 S131008x512 [1] [0] [0] [1] [] []
  gather_S65536x512_S32768x1_S32768x512_1_0_n_n_0_1_1512_wf : GatherDims.WF S65536x512 S32768x1 S32768x512 [1] [0] [] [0] [] 1 ![1, 512]
  dot_S32768x1536_S1536x512_S32768x512_1_0_0_1_n_n_wf : DotDims.WF S32768x1536 S1536x512 S32768x512 [1] [0] [0] [1] [] []
  gather_S32768x512_S16384x1_S16384x512_1_0_n_n_0_1_1512_wf : GatherDims.WF S32768x512 S16384x1 S16384x512 [1] [0] [] [0] [] 1 ![1, 512]
  dot_S16384x1536_S1536x512_S16384x512_1_0_0_1_n_n_wf : DotDims.WF S16384x1536 S1536x512 S16384x512 [1] [0] [0] [1] [] []
  gather_S16384x512_S8192x1_S8192x512_1_0_n_n_0_1_1512_wf : GatherDims.WF S16384x512 S8192x1 S8192x512 [1] [0] [] [0] [] 1 ![1, 512]
  dot_S8192x1536_S1536x512_S8192x512_1_0_0_1_n_n_wf : DotDims.WF S8192x1536 S1536x512 S8192x512 [1] [0] [0] [1] [] []
  gather_S8192x512_S4096x1_S4096x512_1_0_n_n_0_1_1512_wf : GatherDims.WF S8192x512 S4096x1 S4096x512 [1] [0] [] [0] [] 1 ![1, 512]
  dot_S4096x1536_S1536x512_S4096x512_1_0_0_1_n_n_wf : DotDims.WF S4096x1536 S1536x512 S4096x512 [1] [0] [0] [1] [] []
  gather_S4096x512_S2048x1_S2048x512_1_0_n_n_0_1_1512_wf : GatherDims.WF S4096x512 S2048x1 S2048x512 [1] [0] [] [0] [] 1 ![1, 512]
  dot_S2048x1536_S1536x512_S2048x512_1_0_0_1_n_n_wf : DotDims.WF S2048x1536 S1536x512 S2048x512 [1] [0] [0] [1] [] []
  gather_S2048x512_S1024x1_S1024x512_1_0_n_n_0_1_1512_wf : GatherDims.WF S2048x512 S1024x1 S1024x512 [1] [0] [] [0] [] 1 ![1, 512]
  dot_S1024x1536_S1536x512_S1024x512_1_0_0_1_n_n_wf : DotDims.WF S1024x1536 S1536x512 S1024x512 [1] [0] [0] [1] [] []
  gather_S1024x512_S512x1_S512x512_1_0_n_n_0_1_1512_wf : GatherDims.WF S1024x512 S512x1 S512x512 [1] [0] [] [0] [] 1 ![1, 512]
  dot_S512x1536_S1536x512_S512x512_1_0_0_1_n_n_wf : DotDims.WF S512x1536 S1536x512 S512x512 [1] [0] [0] [1] [] []
  gather_S512x512_S256x1_S256x512_1_0_n_n_0_1_1512_wf : GatherDims.WF S512x512 S256x1 S256x512 [1] [0] [] [0] [] 1 ![1, 512]
  dot_S256x1536_S1536x512_S256x512_1_0_0_1_n_n_wf : DotDims.WF S256x1536 S1536x512 S256x512 [1] [0] [0] [1] [] []
  gather_S256x512_S128x1_S128x512_1_0_n_n_0_1_1512_wf : GatherDims.WF S256x512 S128x1 S128x512 [1] [0] [] [0] [] 1 ![1, 512]
  dot_S128x1536_S1536x512_S128x512_1_0_0_1_n_n_wf : DotDims.WF S128x1536 S1536x512 S128x512 [1] [0] [0] [1] [] []
  gather_S128x512_S64x1_S64x512_1_0_n_n_0_1_1512_wf : GatherDims.WF S128x512 S64x1 S64x512 [1] [0] [] [0] [] 1 ![1, 512]
  dot_S64x1536_S1536x512_S64x512_1_0_0_1_n_n_wf : DotDims.WF S64x1536 S1536x512 S64x512 [1] [0] [0] [1] [] []

variable [Facts₀]

def dot_S131008x256_S256x512_S131008x512_1_0_0_1_n_n : DotDims S131008x256 S256x512 S131008x512 where
  lhsContracting := [1]
  rhsContracting := [0]
  lhsNonContracting := [0]
  rhsNonContracting := [1]
  lhsBatch := []
  rhsBatch := []
  wf := dot_S131008x256_S256x512_S131008x512_1_0_0_1_n_n_wf
def gather_S65536x512_S32768x1_S32768x512_1_0_n_n_0_1_1512 : GatherDims S65536x512 S32768x1 S32768x512 where
  offsetDims := [1]
  collapsedSliceDims := [0]
  operandBatchingDims := []
  startIndicesBatchingDims := []
  startIndexMap := [0]
  indexVectorDim := 1
  sliceSizes := ![1, 512]
  wf := gather_S65536x512_S32768x1_S32768x512_1_0_n_n_0_1_1512_wf
def dot_S32768x1536_S1536x512_S32768x512_1_0_0_1_n_n : DotDims S32768x1536 S1536x512 S32768x512 where
  lhsContracting := [1]
  rhsContracting := [0]
  lhsNonContracting := [0]
  rhsNonContracting := [1]
  lhsBatch := []
  rhsBatch := []
  wf := dot_S32768x1536_S1536x512_S32768x512_1_0_0_1_n_n_wf
def gather_S32768x512_S16384x1_S16384x512_1_0_n_n_0_1_1512 : GatherDims S32768x512 S16384x1 S16384x512 where
  offsetDims := [1]
  collapsedSliceDims := [0]
  operandBatchingDims := []
  startIndicesBatchingDims := []
  startIndexMap := [0]
  indexVectorDim := 1
  sliceSizes := ![1, 512]
  wf := gather_S32768x512_S16384x1_S16384x512_1_0_n_n_0_1_1512_wf
def dot_S16384x1536_S1536x512_S16384x512_1_0_0_1_n_n : DotDims S16384x1536 S1536x512 S16384x512 where
  lhsContracting := [1]
  rhsContracting := [0]
  lhsNonContracting := [0]
  rhsNonContracting := [1]
  lhsBatch := []
  rhsBatch := []
  wf := dot_S16384x1536_S1536x512_S16384x512_1_0_0_1_n_n_wf
def gather_S16384x512_S8192x1_S8192x512_1_0_n_n_0_1_1512 : GatherDims S16384x512 S8192x1 S8192x512 where
  offsetDims := [1]
  collapsedSliceDims := [0]
  operandBatchingDims := []
  startIndicesBatchingDims := []
  startIndexMap := [0]
  indexVectorDim := 1
  sliceSizes := ![1, 512]
  wf := gather_S16384x512_S8192x1_S8192x512_1_0_n_n_0_1_1512_wf
def dot_S8192x1536_S1536x512_S8192x512_1_0_0_1_n_n : DotDims S8192x1536 S1536x512 S8192x512 where
  lhsContracting := [1]
  rhsContracting := [0]
  lhsNonContracting := [0]
  rhsNonContracting := [1]
  lhsBatch := []
  rhsBatch := []
  wf := dot_S8192x1536_S1536x512_S8192x512_1_0_0_1_n_n_wf
def gather_S8192x512_S4096x1_S4096x512_1_0_n_n_0_1_1512 : GatherDims S8192x512 S4096x1 S4096x512 where
  offsetDims := [1]
  collapsedSliceDims := [0]
  operandBatchingDims := []
  startIndicesBatchingDims := []
  startIndexMap := [0]
  indexVectorDim := 1
  sliceSizes := ![1, 512]
  wf := gather_S8192x512_S4096x1_S4096x512_1_0_n_n_0_1_1512_wf
def dot_S4096x1536_S1536x512_S4096x512_1_0_0_1_n_n : DotDims S4096x1536 S1536x512 S4096x512 where
  lhsContracting := [1]
  rhsContracting := [0]
  lhsNonContracting := [0]
  rhsNonContracting := [1]
  lhsBatch := []
  rhsBatch := []
  wf := dot_S4096x1536_S1536x512_S4096x512_1_0_0_1_n_n_wf
def gather_S4096x512_S2048x1_S2048x512_1_0_n_n_0_1_1512 : GatherDims S4096x512 S2048x1 S2048x512 where
  offsetDims := [1]
  collapsedSliceDims := [0]
  operandBatchingDims := []
  startIndicesBatchingDims := []
  startIndexMap := [0]
  indexVectorDim := 1
  sliceSizes := ![1, 512]
  wf := gather_S4096x512_S2048x1_S2048x512_1_0_n_n_0_1_1512_wf
def dot_S2048x1536_S1536x512_S2048x512_1_0_0_1_n_n : DotDims S2048x1536 S1536x512 S2048x512 where
  lhsContracting := [1]
  rhsContracting := [0]
  lhsNonContracting := [0]
  rhsNonContracting := [1]
  lhsBatch := []
  rhsBatch := []
  wf := dot_S2048x1536_S1536x512_S2048x512_1_0_0_1_n_n_wf
def gather_S2048x512_S1024x1_S1024x512_1_0_n_n_0_1_1512 : GatherDims S2048x512 S1024x1 S1024x512 where
  offsetDims := [1]
  collapsedSliceDims := [0]
  operandBatchingDims := []
  startIndicesBatchingDims := []
  startIndexMap := [0]
  indexVectorDim := 1
  sliceSizes := ![1, 512]
  wf := gather_S2048x512_S1024x1_S1024x512_1_0_n_n_0_1_1512_wf
def dot_S1024x1536_S1536x512_S1024x512_1_0_0_1_n_n : DotDims S1024x1536 S1536x512 S1024x512 where
  lhsContracting := [1]
  rhsContracting := [0]
  lhsNonContracting := [0]
  rhsNonContracting := [1]
  lhsBatch := []
  rhsBatch := []
  wf := dot_S1024x1536_S1536x512_S1024x512_1_0_0_1_n_n_wf
def gather_S1024x512_S512x1_S512x512_1_0_n_n_0_1_1512 : GatherDims S1024x512 S512x1 S512x512 where
  offsetDims := [1]
  collapsedSliceDims := [0]
  operandBatchingDims := []
  startIndicesBatchingDims := []
  startIndexMap := [0]
  indexVectorDim := 1
  sliceSizes := ![1, 512]
  wf := gather_S1024x512_S512x1_S512x512_1_0_n_n_0_1_1512_wf
def dot_S512x1536_S1536x512_S512x512_1_0_0_1_n_n : DotDims S512x1536 S1536x512 S512x512 where
  lhsContracting := [1]
  rhsContracting := [0]
  lhsNonContracting := [0]
  rhsNonContracting := [1]
  lhsBatch := []
  rhsBatch := []
  wf := dot_S512x1536_S1536x512_S512x512_1_0_0_1_n_n_wf
def gather_S512x512_S256x1_S256x512_1_0_n_n_0_1_1512 : GatherDims S512x512 S256x1 S256x512 where
  offsetDims := [1]
  collapsedSliceDims := [0]
  operandBatchingDims := []
  startIndicesBatchingDims := []
  startIndexMap := [0]
  indexVectorDim := 1
  sliceSizes := ![1, 512]
  wf := gather_S512x512_S256x1_S256x512_1_0_n_n_0_1_1512_wf
def dot_S256x1536_S1536x512_S256x512_1_0_0_1_n_n : DotDims S256x1536 S1536x512 S256x512 where
  lhsContracting := [1]
  rhsContracting := [0]
  lhsNonContracting := [0]
  rhsNonContracting := [1]
  lhsBatch := []
  rhsBatch := []
  wf := dot_S256x1536_S1536x512_S256x512_1_0_0_1_n_n_wf
def gather_S256x512_S128x1_S128x512_1_0_n_n_0_1_1512 : GatherDims S256x512 S128x1 S128x512 where
  offsetDims := [1]
  collapsedSliceDims := [0]
  operandBatchingDims := []
  startIndicesBatchingDims := []
  startIndexMap := [0]
  indexVectorDim := 1
  sliceSizes := ![1, 512]
  wf := gather_S256x512_S128x1_S128x512_1_0_n_n_0_1_1512_wf
def dot_S128x1536_S1536x512_S128x512_1_0_0_1_n_n : DotDims S128x1536 S1536x512 S128x512 where
  lhsContracting := [1]
  rhsContracting := [0]
  lhsNonContracting := [0]
  rhsNonContracting := [1]
  lhsBatch := []
  rhsBatch := []
  wf := dot_S128x1536_S1536x512_S128x512_1_0_0_1_n_n_wf
def gather_S128x512_S64x1_S64x512_1_0_n_n_0_1_1512 : GatherDims S128x512 S64x1 S64x512 where
  offsetDims := [1]
  collapsedSliceDims := [0]
  operandBatchingDims := []
  startIndicesBatchingDims := []
  startIndexMap := [0]
  indexVectorDim := 1
  sliceSizes := ![1, 512]
  wf := gather_S128x512_S64x1_S64x512_1_0_n_n_0_1_1512_wf
def dot_S64x1536_S1536x512_S64x512_1_0_0_1_n_n : DotDims S64x1536 S1536x512 S64x512 where
  lhsContracting := [1]
  rhsContracting := [0]
  lhsNonContracting := [0]
  rhsNonContracting := [1]
  lhsBatch := []
  rhsBatch := []
  wf := dot_S64x1536_S1536x512_S64x512_1_0_0_1_n_n_wf

class Facts : Prop extends Facts₀ where

variable [Facts]
-- ==== Proof.RegionsKernel.lean ====
import proofs.«407834_j69114613728754_1_alg».proof.Proof.Gen.Kernel.Launch
import Idealize.ShloMosaic.Lib.Pipeline.Frame
import Idealize.ShloMosaic.Lib.Pipeline.Regions

set_option maxRecDepth 2988

noncomputable section

namespace Cert.Kernel.GenP

open Cert.Kernel.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := Function.update (V3 m c) main_v2 (outs 4 main_v2 c)

abbrev V5 (c : Dev nD) : Valuation τ sig (Elt F) := StableHlo.after hostOps1 (V4 m outs c)

abbrev V6 (c : Dev nD) : Valuation τ sig (Elt F) := StableHlo.after hostOps1_1 (V5 m outs c)

abbrev V7 (c : Dev nD) : Valuation τ sig (Elt F) := StableHlo.after hostOps1_2 (V6 m outs c)

abbrev V8 (c : Dev nD) : Valuation τ sig (Elt F) := StableHlo.after hostOps1_3 (V7 m outs c)

abbrev V9 (c : Dev nD) : Valuation τ sig (Elt F) := StableHlo.after hostOps1_4 (V8 m outs c)

abbrev V10 (c : Dev nD) : Valuation τ sig (Elt F) := Function.update (V9 m outs c) main_v15 (outs 10 main_v15 c)

abbrev V11 (c : Dev nD) : Valuation τ sig (Elt F) := StableHlo.after hostOps2 (V10 m outs c)

abbrev V12 (c : Dev nD) : Valuation τ sig (Elt F) := StableHlo.after hostOps2_1 (V11 m outs c)

abbrev V13 (c : Dev nD) : Valuation τ sig (Elt F) := StableHlo.after hostOps2_2 (V12 m outs c)

abbrev V14 (c : Dev nD) : Valuation τ sig (Elt F) := StableHlo.after hostOps2_3 (V13 m outs c)

abbrev V15 (c : Dev nD) : Valuation τ sig (Elt F) := StableHlo.after hostOps2_4 (V14 m outs c)

abbrev V16 (c : Dev nD) : Valuation τ sig (Elt F) := Function.update (V15 m outs c) main_v26 (outs 16 main_v26 c)

abbrev V17 (c : Dev nD) : Valuation τ sig (Elt F) := StableHlo.after hostOps3 (V16 m outs c)

abbrev V18 (c : Dev nD) : Valuation τ sig (Elt F) := StableHlo.after hostOps3_1 (V17 m outs c)

abbrev V19 (c : Dev nD) : Valuation τ sig (Elt F) := StableHlo.after hostOps3_2 (V18 m outs c)

abbrev V20 (c : Dev nD) : Valuation τ sig (Elt F) := StableHlo.after hostOps3_3 (V19 m outs c)

abbrev V21 (c : Dev nD) : Valuation τ sig (Elt F) := StableHlo.after hostOps3_4 (V20 m outs c)

abbrev V22 (c : Dev nD) : Valuation τ sig (Elt F) := Function.update (V21 m outs c) main_v37 (outs 22 main_v37 c)

abbrev V23 (c : Dev nD) : Valuation τ sig (Elt F) := StableHlo.after hostOps4 (V22 m outs c)

abbrev V24 (c : Dev nD) : Valuation τ sig (Elt F) := StableHlo.after hostOps4_1 (V23 m outs c)

abbrev V25 (c : Dev nD) : Valuation τ sig (Elt F) := StableHlo.after hostOps4_2 (V24 m outs c)

abbrev V26 (c : Dev nD) : Valuation τ sig (Elt F) := StableHlo.after hostOps4_3 (V25 m outs c)

abbrev V27 (c : Dev nD) : Valuation τ sig (Elt F) := StableHlo.after hostOps4_4 (V26 m outs c)

abbrev V28 (c : Dev nD) : Valuation τ sig (Elt F) := Function.update (V27 m outs c) main_v48 (outs 28 main_v48 c)

abbrev V29 (c : Dev nD) : Valuation τ sig (Elt F) := StableHlo.after hostOps5 (V28 m outs c)

abbrev V30 (c : Dev nD) : Valuation τ sig (Elt F) := StableHlo.after hostOps5_1 (V29 m outs c)

abbrev V31 (c : Dev nD) : Valuation τ sig (Elt F) := StableHlo.after hostOps5_2 (V30 m outs c)

abbrev V32 (c : Dev nD) : Valuation τ sig (Elt F) := StableHlo.after hostOps5_3 (V31 m outs c)

abbrev V33 (c : Dev nD) : Valuation τ sig (Elt F) := StableHlo.after hostOps5_4 (V32 m outs c)

abbrev V34 (c : Dev nD) : Valuation τ sig (Elt F) := Function.update (V33 m outs c) main_v59 (outs 34 main_v59 c)

abbrev V35 (c : Dev nD) : Valuation τ sig (Elt F) := StableHlo.after hostOps6 (V34 m outs c)

abbrev V36 (c : Dev nD) : Valuation τ sig (Elt F) := StableHlo.after hostOps6_1 (V35 m outs c)

abbrev V37 (c : Dev nD) : Valuation τ sig (Elt F) := StableHlo.after hostOps6_2 (V36 m outs c)

abbrev V38 (c : Dev nD) : Valuation τ sig (Elt F) := StableHlo.after hostOps6_3 (V37 m outs c)

abbrev V39 (c : Dev nD) : Valuation τ sig (Elt F) := StableHlo.after hostOps6_4 (V38 m outs c)

abbrev V40 (c : Dev nD) : Valuation τ sig (Elt F) := Function.update (V39 m outs c) main_v70 (outs 40 main_v70 c)

abbrev V41 (c : Dev nD) : Valuation τ sig (Elt F) := StableHlo.after hostOps7 (V40 m outs c)

abbrev V42 (c : Dev nD) : Valuation τ sig (Elt F) := StableHlo.after hostOps7_1 (V41 m outs c)

abbrev V43 (c : Dev nD) : Valuation τ sig (Elt F) := StableHlo.after hostOps7_2 (V42 m outs c)

abbrev V44 (c : Dev nD) : Valuation τ sig (Elt F) := StableHlo.after hostOps7_3 (V43 m outs c)

abbrev V45 (c : Dev nD) : Valuation τ sig (Elt F) := StableHlo.after hostOps7_4 (V44 m outs c)

abbrev V46 (c : Dev nD) : Valuation τ sig (Elt F) := Function.update (V45 m outs c) main_v81 (outs 46 main_v81 c)

abbrev V47 (c : Dev nD) : Valuation τ sig (Elt F) := StableHlo.after hostOps8 (V46 m outs c)

abbrev V48 (c : Dev nD) : Valuation τ sig (Elt F) := StableHlo.after hostOps8_1 (V47 m outs c)

abbrev V49 (c : Dev nD) : Valuation τ sig (Elt F) := StableHlo.after hostOps8_2 (V48 m outs c)

abbrev V50 (c : Dev nD) : Valuation τ sig (Elt F) := StableHlo.after hostOps8_3 (V49 m outs c)

abbrev V51 (c : Dev nD) : Valuation τ sig (Elt F) := StableHlo.after hostOps8_4 (V50 m outs c)

abbrev V52 (c : Dev nD) : Valuation τ sig (Elt F) := Function.update (V51 m outs c) main_v92 (outs 52 main_v92 c)

abbrev V53 (c : Dev nD) : Valuation τ sig (Elt F) := StableHlo.after hostOps9 (V52 m outs c)

abbrev V54 (c : Dev nD) : Valuation τ sig (Elt F) := StableHlo.after hostOps9_1 (V53 m outs c)

abbrev V55 (c : Dev nD) : Valuation τ sig (Elt F) := StableHlo.after hostOps9_2 (V54 m outs c)

abbrev V56 (c : Dev nD) : Valuation τ sig (Elt F) := StableHlo.after hostOps9_3 (V55 m outs c)

abbrev V57 (c : Dev nD) : Valuation τ sig (Elt F) := StableHlo.after hostOps9_4 (V56 m outs c)

abbrev V58 (c : Dev nD) : Valuation τ sig (Elt F) := Function.update (V57 m outs c) main_v103 (outs 58 main_v103 c)

abbrev V59 (c : Dev nD) : Valuation τ sig (Elt F) := StableHlo.after hostOps10 (V58 m outs c)

abbrev V60 (c : Dev nD) : Valuation τ sig (Elt F) := StableHlo.after hostOps10_1 (V59 m outs c)

abbrev V61 (c : Dev nD) : Valuation τ sig (Elt F) := StableHlo.after hostOps10_2 (V60 m outs c)

abbrev V62 (c : Dev nD) : Valuation τ sig (Elt F) := StableHlo.after hostOps10_3 (V61 m outs c)

abbrev V63 (c : Dev nD) : Valuation τ sig (Elt F) := StableHlo.after hostOps10_4 (V62 m outs c)

abbrev V64 (c : Dev nD) : Valuation τ sig (Elt F) := Function.update (V63 m outs c) main_v114 (outs 64 main_v114 c)

theorem hostOps0_fresh : (hostOps0 : List (HloOp τ sig (Elt F))).Forall fun op => op.fresh = ∅ := by
  simp only [List.Forall]; repeat' constructor

abbrev hostOps0_W : List (Ref sig .tc) := [main_c]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_2_fresh : (hostOps0_2 : List (HloOp τ sig (Elt F))).Forall fun op => op.fresh = ∅ := by
  simp only [List.Forall]; repeat' constructor

abbrev hostOps0_2_W : List (Ref sig .tc) := [main_v1]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor

abbrev hostOps1_W : List (Ref sig .tc) := [main_v3, main_v4, main_v5, main_v6, main_v7]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_1_fresh : (hostOps1_1 : List (HloOp τ sig (Elt F))).Forall fun op => op.fresh = ∅ := by
  simp only [List.Forall]; repeat' constructor

abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_2_fresh : (hostOps1_2 : List (HloOp τ sig (Elt F))).Forall fun op => op.fresh = ∅ := by
  simp only [List.Forall]; repeat' constructor

abbrev hostOps1_2_W : List (Ref sig .tc) := [main_v9, main_v10]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_3_fresh : (hostOps1_3 : List (HloOp τ sig (Elt F))).Forall fun op => op.fresh = ∅ := by
  simp only [List.Forall]; repeat' constructor

abbrev hostOps1_3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v11]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_4_fresh : (hostOps1_4 : List (HloOp τ sig (Elt F))).Forall fun op => op.fresh = ∅ := by
  simp only [List.Forall]; repeat' constructor

abbrev hostOps1_4_W : List (Ref sig .tc) := [main_v12, main_v13, main_v14]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor

abbrev hostOps2_W : List (Ref sig .tc) := [main_v16, main_v17, main_v18]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_1_fresh : (hostOps2_1 : List (HloOp τ sig (Elt F))).Forall fun op => op.fresh = ∅ := by
  simp only [List.Forall]; repeat' constructor

abbrev hostOps2_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v19]
theorem hostOps2_1_writes : (hostOps2_1 : List (HloOp τ sig (Elt F))).Forall fun op => op.writes ⊆ (hostOps2_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_2_fresh : (hostOps2_2 : List (HloOp τ sig (Elt F))).Forall fun op => op.fresh = ∅ := by
  simp only [List.Forall]; repeat' constructor

abbrev hostOps2_2_W : List (Ref sig .tc) := [main_v20, main_v21]
theorem hostOps2_2_writes : (hostOps2_2 : List (HloOp τ sig (Elt F))).Forall fun op => op.writes ⊆ (hostOps2_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_3_fresh : (hostOps2_3 : List (HloOp τ sig (Elt F))).Forall fun op => op.fresh = ∅ := by
  simp only [List.Forall]; repeat' constructor

abbrev hostOps2_3_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]
theorem hostOps2_3_writes : (hostOps2_3 : List (HloOp τ sig (Elt F))).Forall fun op => op.writes ⊆ (hostOps2_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_4_fresh : (hostOps2_4 : List (HloOp τ sig (Elt F))).Forall fun op => op.fresh = ∅ := by
  simp only [List.Forall]; repeat' constructor

abbrev hostOps2_4_W : List (Ref sig .tc) := [main_v23, main_v24, main_v25]
theorem hostOps2_4_writes : (hostOps2_4 : List (HloOp τ sig (Elt F))).Forall fun op => op.writes ⊆ (hostOps2_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_fresh : (hostOps3 : List (HloOp τ sig (Elt F))).Forall fun op => op.fresh = ∅ := by
  simp only [List.Forall]; repeat' constructor

abbrev hostOps3_W : List (Ref sig .tc) := [main_v27, main_v28, main_v29]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_1_fresh : (hostOps3_1 : List (HloOp τ sig (Elt F))).Forall fun op => op.fresh = ∅ := by
  simp only [List.Forall]; repeat' constructor

abbrev hostOps3_1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v30]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_2_fresh : (hostOps3_2 : List (HloOp τ sig (Elt F))).Forall fun op => op.fresh = ∅ := by
  simp only [List.Forall]; repeat' constructor

abbrev hostOps3_2_W : List (Ref sig .tc) := [main_v31, main_v32]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_3_fresh : (hostOps3_3 : List (HloOp τ sig (Elt F))).Forall fun op => op.fresh = ∅ := by
  simp only [List.Forall]; repeat' constructor

abbrev hostOps3_3_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v33]
theorem hostOps3_3_writes : (hostOps3_3 : List (HloOp τ sig (Elt F))).Forall fun op => op.writes ⊆ (hostOps3_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_4_fresh : (hostOps3_4 : List (HloOp τ sig (Elt F))).Forall fun op => op.fresh = ∅ := by
  simp only [List.Forall]; repeat' constructor

abbrev hostOps3_4_W : List (Ref sig .tc) := [main_v34, main_v35, main_v36]
theorem hostOps3_4_writes : (hostOps3_4 : List (HloOp τ sig (Elt F))).Forall fun op => op.writes ⊆ (hostOps3_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_fresh : (hostOps4 : List (HloOp τ sig (Elt F))).Forall fun op => op.fresh = ∅ := by
  simp only [List.Forall]; repeat' constructor

abbrev hostOps4_W : List (Ref sig .tc) := [main_v38, main_v39, main_v40]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_1_fresh : (hostOps4_1 : List (HloOp τ sig (Elt F))).Forall fun op => op.fresh = ∅ := by
  simp only [List.Forall]; repeat' constructor

abbrev hostOps4_1_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v41]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_2_fresh : (hostOps4_2 : List (HloOp τ sig (Elt F))).Forall fun op => op.fresh = ∅ := by
  simp only [List.Forall]; repeat' constructor

abbrev hostOps4_2_W : List (Ref sig .tc) := [main_v42, main_v43]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_3_fresh : (hostOps4_3 : List (HloOp τ sig (Elt F))).Forall fun op => op.fresh = ∅ := by
  simp only [List.Forall]; repeat' constructor

abbrev hostOps4_3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v44]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_4_fresh : (hostOps4_4 : List (HloOp τ sig (Elt F))).Forall fun op => op.fresh = ∅ := by
  simp only [List.Forall]; repeat' constructor

abbrev hostOps4_4_W : List (Ref sig .tc) := [main_v45, main_v46, main_v47]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_fresh : (hostOps5 : List (HloOp τ sig (Elt F))).Forall fun op => op.fresh = ∅ := by
  simp only [List.Forall]; repeat' constructor

abbrev hostOps5_W : List (Ref sig .tc) := [main_v49, main_v50, main_v51]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_1_fresh : (hostOps5_1 : List (HloOp τ sig (Elt F))).Forall fun op => op.fresh = ∅ := by
  simp only [List.Forall]; repeat' constructor

abbrev hostOps5_1_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v52]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_2_fresh : (hostOps5_2 : List (HloOp τ sig (Elt F))).Forall fun op => op.fresh = ∅ := by
  simp only [List.Forall]; repeat' constructor

abbrev hostOps5_2_W : List (Ref sig .tc) := [main_v53, main_v54]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_3_fresh : (hostOps5_3 : List (HloOp τ sig (Elt F))).Forall fun op => op.fresh = ∅ := by
  simp only [List.Forall]; repeat' constructor

abbrev hostOps5_3_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v55]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_4_fresh : (hostOps5_4 : List (HloOp τ sig (Elt F))).Forall fun op => op.fresh = ∅ := by
  simp only [List.Forall]; repeat' constructor

abbrev hostOps5_4_W : List (Ref sig .tc) := [main_v56, main_v57, main_v58]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_fresh : (hostOps6 : List (HloOp τ sig (Elt F))).Forall fun op => op.fresh = ∅ := by
  simp only [List.Forall]; repeat' constructor

abbrev hostOps6_W : List (Ref sig .tc) := [main_v60, main_v61, main_v62]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_1_fresh : (hostOps6_1 : List (HloOp τ sig (Elt F))).Forall fun op => op.fresh = ∅ := by
  simp only [List.Forall]; repeat' constructor

abbrev hostOps6_1_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v63]
theorem hostOps6_1_writes : (hostOps6_1 : List (HloOp τ sig (Elt F))).Forall fun op => op.writes ⊆ (hostOps6_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_2_fresh : (hostOps6_2 : List (HloOp τ sig (Elt F))).Forall fun op => op.fresh = ∅ := by
  simp only [List.Forall]; repeat' constructor

abbrev hostOps6_2_W : List (Ref sig .tc) := [main_v64, main_v65]
theorem hostOps6_2_writes : (hostOps6_2 : List (HloOp τ sig (Elt F))).Forall fun op => op.writes ⊆ (hostOps6_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_3_fresh : (hostOps6_3 : List (HloOp τ sig (Elt F))).Forall fun op => op.fresh = ∅ := by
  simp only [List.Forall]; repeat' constructor

abbrev hostOps6_3_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v66]
theorem hostOps6_3_writes : (hostOps6_3 : List (HloOp τ sig (Elt F))).Forall fun op => op.writes ⊆ (hostOps6_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_4_fresh : (hostOps6_4 : List (HloOp τ sig (Elt F))).Forall fun op => op.fresh = ∅ := by
  simp only [List.Forall]; repeat' constructor

abbrev hostOps6_4_W : List (Ref sig .tc) := [main_v67, main_v68, main_v69]
theorem hostOps6_4_writes : (hostOps6_4 : List (HloOp τ sig (Elt F))).Forall fun op => op.writes ⊆ (hostOps6_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_fresh : (hostOps7 : List (HloOp τ sig (Elt F))).Forall fun op => op.fresh = ∅ := by
  simp only [List.Forall]; repeat' constructor

abbrev hostOps7_W : List (Ref sig .tc) := [main_v71, main_v72, main_v73]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_1_fresh : (hostOps7_1 : List (HloOp τ sig (Elt F))).Forall fun op => op.fresh = ∅ := by
  simp only [List.Forall]; repeat' constructor

abbrev hostOps7_1_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v74]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_2_fresh : (hostOps7_2 : List (HloOp τ sig (Elt F))).Forall fun op => op.fresh = ∅ := by
  simp only [List.Forall]; repeat' constructor

abbrev hostOps7_2_W : List (Ref sig .tc) := [main_v75, main_v76]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_3_fresh : (hostOps7_3 : List (HloOp τ sig (Elt F))).Forall fun op => op.fresh = ∅ := by
  simp only [List.Forall]; repeat' constructor

abbrev hostOps7_3_W : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v77]
theorem hostOps7_3_writes : (hostOps7_3 : List (HloOp τ sig (Elt F))).Forall fun op => op.writes ⊆ (hostOps7_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_4_fresh : (hostOps7_4 : List (HloOp τ sig (Elt F))).Forall fun op => op.fresh = ∅ := by
  simp only [List.Forall]; repeat' constructor

abbrev hostOps7_4_W : List (Ref sig .tc) := [main_v78, main_v79, main_v80]
theorem hostOps7_4_writes : (hostOps7_4 : List (HloOp τ sig (Elt F))).Forall fun op => op.writes ⊆ (hostOps7_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_fresh : (hostOps8 : List (HloOp τ sig (Elt F))).Forall fun op => op.fresh = ∅ := by
  simp only [List.Forall]; repeat' constructor

abbrev hostOps8_W : List (Ref sig .tc) := [main_v82, main_v83, main_v84]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_1_fresh : (hostOps8_1 : List (HloOp τ sig (Elt F))).Forall fun op => op.fresh = ∅ := by
  simp only [List.Forall]; repeat' constructor

abbrev hostOps8_1_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v85]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_2_fresh : (hostOps8_2 : List (HloOp τ sig (Elt F))).Forall fun op => op.fresh = ∅ := by
  simp only [List.Forall]; repeat' constructor

abbrev hostOps8_2_W : List (Ref sig .tc) := [main_v86, main_v87]
theorem hostOps8_2_writes : (hostOps8_2 : List (HloOp τ sig (Elt F))).Forall fun op => op.writes ⊆ (hostOps8_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_3_fresh : (hostOps8_3 : List (HloOp τ sig (Elt F))).Forall fun op => op.fresh = ∅ := by
  simp only [List.Forall]; repeat' constructor

abbrev hostOps8_3_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v88]
theorem hostOps8_3_writes : (hostOps8_3 : List (HloOp τ sig (Elt F))).Forall fun op => op.writes ⊆ (hostOps8_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_4_fresh : (hostOps8_4 : List (HloOp τ sig (Elt F))).Forall fun op => op.fresh = ∅ := by
  simp only [List.Forall]; repeat' constructor

abbrev hostOps8_4_W : List (Ref sig .tc) := [main_v89, main_v90, main_v91]
theorem hostOps8_4_writes : (hostOps8_4 : List (HloOp τ sig (Elt F))).Forall fun op => op.writes ⊆ (hostOps8_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_fresh : (hostOps9 : List (HloOp τ sig (Elt F))).Forall fun op => op.fresh = ∅ := by
  simp only [List.Forall]; repeat' constructor

abbrev hostOps9_W : List (Ref sig .tc) := [main_v93, main_v94, main_v95]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_1_fresh : (hostOps9_1 : List (HloOp τ sig (Elt F))).Forall fun op => op.fresh = ∅ := by
  simp only [List.Forall]; repeat' constructor

abbrev hostOps9_1_W : List (Ref sig .tc) := [main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v96]
theorem hostOps9_1_writes : (hostOps9_1 : List (HloOp τ sig (Elt F))).Forall fun op => op.writes ⊆ (hostOps9_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_2_fresh : (hostOps9_2 : List (HloOp τ sig (Elt F))).Forall fun op => op.fresh = ∅ := by
  simp only [List.Forall]; repeat' constructor

abbrev hostOps9_2_W : List (Ref sig .tc) := [main_v97, main_v98]
theorem hostOps9_2_writes : (hostOps9_2 : List (HloOp τ sig (Elt F))).Forall fun op => op.writes ⊆ (hostOps9_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_3_fresh : (hostOps9_3 : List (HloOp τ sig (Elt F))).Forall fun op => op.fresh = ∅ := by
  simp only [List.Forall]; repeat' constructor

abbrev hostOps9_3_W : List (Ref sig .tc) := [main_call18_c, main_call18_v0, main_call18_v1, main_call18_c_0, main_call18_v2, main_call18_v3, main_call18_v4, main_call18_v5, main_call18_c_1, main_call18_c_2, main_call18_v6, main_call18_v7, main_call18_v8, main_call18_v9, main_call18_v10, main_call18_v11, main_call18_c_3, main_call18_v12, main_call18_v13, main_call18_v14, main_call18_cst, main_call18_v15, main_v99]
theorem hostOps9_3_writes : (hostOps9_3 : List (HloOp τ sig (Elt F))).Forall fun op => op.writes ⊆ (hostOps9_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_4_fresh : (hostOps9_4 : List (HloOp τ sig (Elt F))).Forall fun op => op.fresh = ∅ := by
  simp only [List.Forall]; repeat' constructor

abbrev hostOps9_4_W : List (Ref sig .tc) := [main_v100, main_v101, main_v102]
theorem hostOps9_4_writes : (hostOps9_4 : List (HloOp τ sig (Elt F))).Forall fun op => op.writes ⊆ (hostOps9_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_fresh : (hostOps10 : List (HloOp τ sig (Elt F))).Forall fun op => op.fresh = ∅ := by
  simp only [List.Forall]; repeat' constructor

abbrev hostOps10_W : List (Ref sig .tc) := [main_v104, main_v105, main_v106]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_1_fresh : (hostOps10_1 : List (HloOp τ sig (Elt F))).Forall fun op => op.fresh = ∅ := by
  simp only [List.Forall]; repeat' constructor

abbrev hostOps10_1_W : List (Ref sig .tc) := [main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_v14, main_call19_cst, main_call19_v15, main_v107]
theorem hostOps10_1_writes : (hostOps10_1 : List (HloOp τ sig (Elt F))).Forall fun op => op.writes ⊆ (hostOps10_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_2_fresh : (hostOps10_2 : List (HloOp τ sig (Elt F))).Forall fun op => op.fresh = ∅ := by
  simp only [List.Forall]; repeat' constructor

abbrev hostOps10_2_W : List (Ref sig .tc) := [main_v108, main_v109]
theorem hostOps10_2_writes : (hostOps10_2 : List (HloOp τ sig (Elt F))).Forall fun op => op.writes ⊆ (hostOps10_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_3_fresh : (hostOps10_3 : List (HloOp τ sig (Elt F))).Forall fun op => op.fresh = ∅ := by
  simp only [List.Forall]; repeat' constructor

abbrev hostOps10_3_W : List (Ref sig .tc) := [main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v110]
theorem hostOps10_3_writes : (hostOps10_3 : List (HloOp τ sig (Elt F))).Forall fun op => op.writes ⊆ (hostOps10_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_4_fresh : (hostOps10_4 : List (HloOp τ sig (Elt F))).Forall fun op => op.fresh = ∅ := by
  simp only [List.Forall]; repeat' constructor

abbrev hostOps10_4_W : List (Ref sig .tc) := [main_v111, main_v112, main_v113]
theorem hostOps10_4_writes : (hostOps10_4 : List (HloOp τ sig (Elt F))).Forall fun op => op.writes ⊆ (hostOps10_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ ([main_v2] : List (Ref sig .tc))) : V4 m outs c r = V3 m c r := by
  simp only [V4, Function.update_of_ne (StableHlo.devRef_ne_of_ne (List.ne_of_not_mem_cons h) : (Proc.devRef .tc r : DevRef τ sig) ≠ Proc.devRef .tc main_v2)]
theorem V5_of (c : Dev nD) (r : Ref sig .tc) (h : r ∉ hostOps1_W) : V5 m outs c r = V4 m outs c r :=
  StableHlo.after_of_writes_sub hostOps1 _ hostOps1_writes h
theorem V6_of (c : Dev nD) (r : Ref sig .tc) (h : r ∉ hostOps1_1_W) : V6 m outs c r = V5 m outs c r :=
  StableHlo.after_of_writes_sub hostOps1_1 _ hostOps1_1_writes h
theorem V7_of (c : Dev nD) (r : Ref sig .tc) (h : r ∉ hostOps1_2_W) : V7 m outs c r = V6 m outs c r :=
  StableHlo.after_of_writes_sub hostOps1_2 _ hostOps1_2_writes h
theorem V8_of (c : Dev nD) (r : Ref sig .tc) (h : r ∉ hostOps1_3_W) : V8 m outs c r = V7 m outs c r :=
  StableHlo.after_of_writes_sub hostOps1_3 _ hostOps1_3_writes h
theorem V9_of (c : Dev nD) (r : Ref sig .tc) (h : r ∉ hostOps1_4_W) : V9 m outs c r = V8 m outs c r :=
  StableHlo.after_of_writes_sub hostOps1_4 _ hostOps1_4_writes h
theorem V10_of (c : Dev nD) (r : Ref sig .tc) (h : r ∉ ([main_v15] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v15)]
theorem V11_of (c : Dev nD) (r : Ref sig .tc) (h : r ∉ hostOps2_W) : V11 m outs c r = V10 m outs c r :=
  StableHlo.after_of_writes_sub hostOps2 _ hostOps2_writes h
theorem V12_of (c : Dev nD) (r : Ref sig .tc) (h : r ∉ hostOps2_1_W) : V12 m outs c r = V11 m outs c r :=
  StableHlo.after_of_writes_sub hostOps2_1 _ hostOps2_1_writes h
theorem V13_of (c : Dev nD) (r : Ref sig .tc) (h : r ∉ hostOps2_2_W) : V13 m outs c r = V12 m outs c r :=
  StableHlo.after_of_writes_sub hostOps2_2 _ hostOps2_2_writes h
theorem V14_of (c : Dev nD) (r : Ref sig .tc) (h : r ∉ hostOps2_3_W) : V14 m outs c r = V13 m outs c r :=
  StableHlo.after_of_writes_sub hostOps2_3 _ hostOps2_3_writes h
theorem V15_of (c : Dev nD) (r : Ref sig .tc) (h : r ∉ hostOps2_4_W) : V15 m outs c r = V14 m outs c r :=
  StableHlo.after_of_writes_sub hostOps2_4 _ hostOps2_4_writes h
theorem V16_of (c : Dev nD) (r : Ref sig .tc) (h : r ∉ ([main_v26] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v26)]
theorem V17_of (c : Dev nD) (r : Ref sig .tc) (h : r ∉ hostOps3_W) : V17 m outs c r = V16 m outs c r :=
  StableHlo.after_of_writes_sub hostOps3 _ hostOps3_writes h
theorem V18_of (c : Dev nD) (r : Ref sig .tc) (h : r ∉ hostOps3_1_W) : V18 m outs c r = V17 m outs c r :=
  StableHlo.after_of_writes_sub hostOps3_1 _ hostOps3_1_writes h
theorem V19_of (c : Dev nD) (r : Ref sig .tc) (h : r ∉ hostOps3_2_W) : V19 m outs c r = V18 m outs c r :=
  StableHlo.after_of_writes_sub hostOps3_2 _ hostOps3_2_writes h
theorem V20_of (c : Dev nD) (r : Ref sig .tc) (h : r ∉ hostOps3_3_W) : V20 m outs c r = V19 m outs c r :=
  StableHlo.after_of_writes_sub hostOps3_3 _ hostOps3_3_writes h
theorem V21_of (c : Dev nD) (r : Ref sig .tc) (h : r ∉ hostOps3_4_W) : V21 m outs c r = V20 m outs c r :=
  StableHlo.after_of_writes_sub hostOps3_4 _ hostOps3_4_writes h
theorem V22_of (c : Dev nD) (r : Ref sig .tc) (h : r ∉ ([main_v37] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v37)]
theorem V23_of (c : Dev nD) (r : Ref sig .tc) (h : r ∉ hostOps4_W) : V23 m outs c r = V22 m outs c r :=
  StableHlo.after_of_writes_sub hostOps4 _ hostOps4_writes h
theorem V24_of (c : Dev nD) (r : Ref sig .tc) (h : r ∉ hostOps4_1_W) : V24 m outs c r = V23 m outs c r :=
  StableHlo.after_of_writes_sub hostOps4_1 _ hostOps4_1_writes h
theorem V25_of (c : Dev nD) (r : Ref sig .tc) (h : r ∉ hostOps4_2_W) : V25 m outs c r = V24 m outs c r :=
  StableHlo.after_of_writes_sub hostOps4_2 _ hostOps4_2_writes h
theorem V26_of (c : Dev nD) (r : Ref sig .tc) (h : r ∉ hostOps4_3_W) : V26 m outs c r = V25 m outs c r :=
  StableHlo.after_of_writes_sub hostOps4_3 _ hostOps4_3_writes h
theorem V27_of (c : Dev nD) (r : Ref sig .tc) (h : r ∉ hostOps4_4_W) : V27 m outs c r = V26 m outs c r :=
  StableHlo.after_of_writes_sub hostOps4_4 _ hostOps4_4_writes h
theorem V28_of (c : Dev nD) (r : Ref sig .tc) (h : r ∉ ([main_v48] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v48)]
theorem V29_of (c : Dev nD) (r : Ref sig .tc) (h : r ∉ hostOps5_W) : V29 m outs c r = V28 m outs c r :=
  StableHlo.after_of_writes_sub hostOps5 _ hostOps5_writes h
theorem V30_of (c : Dev nD) (r : Ref sig .tc) (h : r ∉ hostOps5_1_W) : V30 m outs c r = V29 m outs c r :=
  StableHlo.after_of_writes_sub hostOps5_1 _ hostOps5_1_writes h
theorem V31_of (c : Dev nD) (r : Ref sig .tc) (h : r ∉ hostOps5_2_W) : V31 m outs c r = V30 m outs c r :=
  StableHlo.after_of_writes_sub hostOps5_2 _ hostOps5_2_writes h
theorem V32_of (c : Dev nD) (r : Ref sig .tc) (h : r ∉ hostOps5_3_W) : V32 m outs c r = V31 m outs c r :=
  StableHlo.after_of_writes_sub hostOps5_3 _ hostOps5_3_writes h
theorem V33_of (c : Dev nD) (r : Ref sig .tc) (h : r ∉ hostOps5_4_W) : V33 m outs c r = V32 m outs c r :=
  StableHlo.after_of_writes_sub hostOps5_4 _ hostOps5_4_writes h
theorem V34_of (c : Dev nD) (r : Ref sig .tc) (h : r ∉ ([main_v59] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v59)]
theorem V35_of (c : Dev nD) (r : Ref sig .tc) (h : r ∉ hostOps6_W) : V35 m outs c r = V34 m outs c r :=
  StableHlo.after_of_writes_sub hostOps6 _ hostOps6_writes h
theorem V36_of (c : Dev nD) (r : Ref sig .tc) (h : r ∉ hostOps6_1_W) : V36 m outs c r = V35 m outs c r :=
  StableHlo.after_of_writes_sub hostOps6_1 _ hostOps6_1_writes h
theorem V37_of (c : Dev nD) (r : Ref sig .tc) (h : r ∉ hostOps6_2_W) : V37 m outs c r = V36 m outs c r :=
  StableHlo.after_of_writes_sub hostOps6_2 _ hostOps6_2_writes h
theorem V38_of (c : Dev nD) (r : Ref sig .tc) (h : r ∉ hostOps6_3_W) : V38 m outs c r = V37 m outs c r :=
  StableHlo.after_of_writes_sub hostOps6_3 _ hostOps6_3_writes h
theorem V39_of (c : Dev nD) (r : Ref sig .tc) (h : r ∉ hostOps6_4_W) : V39 m outs c r = V38 m outs c r :=
  StableHlo.after_of_writes_sub hostOps6_4 _ hostOps6_4_writes h
theorem V40_of (c : Dev nD) (r : Ref sig .tc) (h : r ∉ ([main_v70] : List (Ref sig .tc))) : V40 m outs c r = V39 m outs c r := by
  simp only [V40, Function.update_of_ne (StableHlo.devRef_ne_of_ne (List.ne_of_not_mem_cons h) : (Proc.devRef .tc r : DevRef τ sig) ≠ Proc.devRef .tc main_v70)]
theorem V41_of (c : Dev nD) (r : Ref sig .tc) (h : r ∉ hostOps7_W) : V41 m outs c r = V40 m outs c r :=
  StableHlo.after_of_writes_sub hostOps7 _ hostOps7_writes h
theorem V42_of (c : Dev nD) (r : Ref sig .tc) (h : r ∉ hostOps7_1_W) : V42 m outs c r = V41 m outs c r :=
  StableHlo.after_of_writes_sub hostOps7_1 _ hostOps7_1_writes h
theorem V43_of (c : Dev nD) (r : Ref sig .tc) (h : r ∉ hostOps7_2_W) : V43 m outs c r = V42 m outs c r :=
  StableHlo.after_of_writes_sub hostOps7_2 _ hostOps7_2_writes h
theorem V44_of (c : Dev nD) (r : Ref sig .tc) (h : r ∉ hostOps7_3_W) : V44 m outs c r = V43 m outs c r :=
  StableHlo.after_of_writes_sub hostOps7_3 _ hostOps7_3_writes h
theorem V45_of (c : Dev nD) (r : Ref sig .tc) (h : r ∉ hostOps7_4_W) : V45 m outs c r = V44 m outs c r :=
  StableHlo.after_of_writes_sub hostOps7_4 _ hostOps7_4_writes h
theorem V46_of (c : Dev nD) (r : Ref sig .tc) (h : r ∉ ([main_v81] : List (Ref sig .tc))) : V46 m outs c r = V45 m outs c r := by
  simp only [V46, Function.update_of_ne (StableHlo.devRef_ne_of_ne (List.ne_of_not_mem_cons h) : (Proc.devRef .tc r : DevRef τ sig) ≠ Proc.devRef .tc main_v81)]
theorem V47_of (c : Dev nD) (r : Ref sig .tc) (h : r ∉ hostOps8_W) : V47 m outs c r = V46 m outs c r :=
  StableHlo.after_of_writes_sub hostOps8 _ hostOps8_writes h
theorem V48_of (c : Dev nD) (r : Ref sig .tc) (h : r ∉ hostOps8_1_W) : V48 m outs c r = V47 m outs c r :=
  StableHlo.after_of_writes_sub hostOps8_1 _ hostOps8_1_writes h
theorem V49_of (c : Dev nD) (r : Ref sig .tc) (h : r ∉ hostOps8_2_W) : V49 m outs c r = V48 m outs c r :=
  StableHlo.after_of_writes_sub hostOps8_2 _ hostOps8_2_writes h
theorem V50_of (c : Dev nD) (r : Ref sig .tc) (h : r ∉ hostOps8_3_W) : V50 m outs c r = V49 m outs c r :=
  StableHlo.after_of_writes_sub hostOps8_3 _ hostOps8_3_writes h
theorem V51_of (c : Dev nD) (r : Ref sig .tc) (h : r ∉ hostOps8_4_W) : V51 m outs c r = V50 m outs c r :=
  StableHlo.after_of_writes_sub hostOps8_4 _ hostOps8_4_writes h
theorem V52_of (c : Dev nD) (r : Ref sig .tc) (h : r ∉ ([main_v92] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v92)]
theorem V53_of (c : Dev nD) (r : Ref sig .tc) (h : r ∉ hostOps9_W) : V53 m outs c r = V52 m outs c r :=
  StableHlo.after_of_writes_sub hostOps9 _ hostOps9_writes h
theorem V54_of (c : Dev nD) (r : Ref sig .tc) (h : r ∉ hostOps9_1_W) : V54 m outs c r = V53 m outs c r :=
  StableHlo.after_of_writes_sub hostOps9_1 _ hostOps9_1_writes h
theorem V55_of (c : Dev nD) (r : Ref sig .tc) (h : r ∉ hostOps9_2_W) : V55 m outs c r = V54 m outs c r :=
  StableHlo.after_of_writes_sub hostOps9_2 _ hostOps9_2_writes h
theorem V56_of (c : Dev nD) (r : Ref sig .tc) (h : r ∉ hostOps9_3_W) : V56 m outs c r = V55 m outs c r :=
  StableHlo.after_of_writes_sub hostOps9_3 _ hostOps9_3_writes h
theorem V57_of (c : Dev nD) (r : Ref sig .tc) (h : r ∉ hostOps9_4_W) : V57 m outs c r = V56 m outs c r :=
  StableHlo.after_of_writes_sub hostOps9_4 _ hostOps9_4_writes h
theorem V58_of (c : Dev nD) (r : Ref sig .tc) (h : r ∉ ([main_v103] : List (Ref sig .tc))) : V58 m outs c r = V57 m outs c r := by
  simp only [V58, Function.update_of_ne (StableHlo.devRef_ne_of_ne (List.ne_of_not_mem_cons h) : (Proc.devRef .tc r : DevRef τ sig) ≠ Proc.devRef .tc main_v103)]
theorem V59_of (c : Dev nD) (r : Ref sig .tc) (h : r ∉ hostOps10_W) : V59 m outs c r = V58 m outs c r :=
  StableHlo.after_of_writes_sub hostOps10 _ hostOps10_writes h
theorem V60_of (c : Dev nD) (r : Ref sig .tc) (h : r ∉ hostOps10_1_W) : V60 m outs c r = V59 m outs c r :=
  StableHlo.after_of_writes_sub hostOps10_1 _ hostOps10_1_writes h
theorem V61_of (c : Dev nD) (r : Ref sig .tc) (h : r ∉ hostOps10_2_W) : V61 m outs c r = V60 m outs c r :=
  StableHlo.after_of_writes_sub hostOps10_2 _ hostOps10_2_writes h
theorem V62_of (c : Dev nD) (r : Ref sig .tc) (h : r ∉ hostOps10_3_W) : V62 m outs c r = V61 m outs c r :=
  StableHlo.after_of_writes_sub hostOps10_3 _ hostOps10_3_writes h
theorem V63_of (c : Dev nD) (r : Ref sig .tc) (h : r ∉ hostOps10_4_W) : V63 m outs c r = V62 m outs c r :=
  StableHlo.after_of_writes_sub hostOps10_4 _ hostOps10_4_writes h
theorem V64_of (c : Dev nD) (r : Ref sig .tc) (h : r ∉ ([main_v114] : List (Ref sig .tc))) : V64 m outs c r = V63 m outs c r := by
  simp only [V64, Function.update_of_ne (StableHlo.devRef_ne_of_ne (List.ne_of_not_mem_cons h) : (Proc.devRef .tc r : DevRef τ sig) ≠ Proc.devRef .tc main_v114)]

theorem V64_keep (c : Dev nD) (r : Ref sig .tc)
    (h : ∀ W ∈ ([hostOps0_W, hostOps0_1_W, hostOps0_2_W, [main_v2], hostOps1_W, hostOps1_1_W, hostOps1_2_W, hostOps1_3_W, hostOps1_4_W, [main_v15], hostOps2_W, hostOps2_1_W, hostOps2_2_W, hostOps2_3_W, hostOps2_4_W, [main_v26], hostOps3_W, hostOps3_1_W, hostOps3_2_W, hostOps3_3_W, hostOps3_4_W, [main_v37], hostOps4_W, hostOps4_1_W, hostOps4_2_W, hostOps4_3_W, hostOps4_4_W, [main_v48], hostOps5_W, hostOps5_1_W, hostOps5_2_W, hostOps5_3_W, hostOps5_4_W, [main_v59], hostOps6_W, hostOps6_1_W, hostOps6_2_W, hostOps6_3_W, hostOps6_4_W, [main_v70], hostOps7_W, hostOps7_1_W, hostOps7_2_W, hostOps7_3_W, hostOps7_4_W, [main_v81], hostOps8_W, hostOps8_1_W, hostOps8_2_W, hostOps8_3_W, hostOps8_4_W, [main_v92], hostOps9_W, hostOps9_1_W, hostOps9_2_W, hostOps9_3_W, hostOps9_4_W, [main_v103], hostOps10_W, hostOps10_1_W, hostOps10_2_W, hostOps10_3_W, hostOps10_4_W, [main_v114]] : List (List (Ref sig .tc))), r ∉ W) :
    V64 m outs c r = m ((c : Thread nD τ).loc r) :=
  (V64_of m outs c r (h _ (by decide))).trans <|
  (V63_of m outs c r (h _ (by decide))).trans <|
  (V62_of m outs c r (h _ (by decide))).trans <|
  (V61_of m outs c r (h _ (by decide))).trans <|
  (V60_of m outs c r (h _ (by decide))).trans <|
  (V59_of m outs c r (h _ (by decide))).trans <|
  (V58_of m outs c r (h _ (by decide))).trans <|
  (V57_of m outs c r (h _ (by decide))).trans <|
  (V56_of m outs c r (h _ (by decide))).trans <|
  (V55_of m outs c r (h _ (by decide))).trans <|
  (V54_of m outs c r (h _ (by decide))).trans <|
  (V53_of m outs c r (h _ (by decide))).trans <|
  (V52_of m outs c r (h _ (by decide))).trans <|
  (V51_of m outs c r (h _ (by decide))).trans <|
  (V50_of m outs c r (h _ (by decide))).trans <|
  (V49_of m outs c r (h _ (by decide))).trans <|
  (V48_of m outs c r (h _ (by decide))).trans <|
  (V47_of m outs c r (h _ (by decide))).trans <|
  (V46_of m outs c r (h _ (by decide))).trans <|
  (V45_of m outs c r (h _ (by decide))).trans <|
  (V44_of m outs c r (h _ (by decide))).trans <|
  (V43_of m outs c r (h _ (by decide))).trans <|
  (V42_of m outs c r (h _ (by decide))).trans <|
  (V41_of m outs c r (h _ (by decide))).trans <|
  (V40_of m outs c r (h _ (by decide))).trans <|
  (V39_of m outs c r (h _ (by decide))).trans <|
  (V38_of m outs c r (h _ (by decide))).trans <|
  (V37_of m outs c r (h _ (by decide))).trans <|
  (V36_of m outs c r (h _ (by decide))).trans <|
  (V35_of m outs c r (h _ (by decide))).trans <|
  (V34_of m outs c r (h _ (by decide))).trans <|
  (V33_of m outs c r (h _ (by decide))).trans <|
  (V32_of m outs c r (h _ (by decide))).trans <|
  (V31_of m outs c r (h _ (by decide))).trans <|
  (V30_of m outs c r (h _ (by decide))).trans <|
  (V29_of m outs c r (h _ (by decide))).trans <|
  (V28_of m outs c r (h _ (by decide))).trans <|
  (V27_of m outs c r (h _ (by decide))).trans <|
  (V26_of m outs c r (h _ (by decide))).trans <|
  (V25_of m outs c r (h _ (by decide))).trans <|
  (V24_of m outs c r (h _ (by decide))).trans <|
  (V23_of m outs c r (h _ (by decide))).trans <|
  (V22_of m outs c r (h _ (by decide))).trans <|
  (V21_of m outs c r (h _ (by decide))).trans <|
  (V20_of m outs c r (h _ (by decide))).trans <|
  (V19_of m outs c r (h _ (by decide))).trans <|
  (V18_of m outs c r (h _ (by decide))).trans <|
  (V17_of m outs c r (h _ (by decide))).trans <|
  (V16_of m outs c r (h _ (by decide))).trans <|
  (V15_of m outs c r (h _ (by decide))).trans <|
  (V14_of m outs c r (h _ (by decide))).trans <|
  (V13_of m outs c r (h _ (by decide))).trans <|
  (V12_of m outs c r (h _ (by decide))).trans <|
  (V11_of m outs c r (h _ (by decide))).trans <|
  (V10_of m outs c r (h _ (by decide))).trans <|
  (V9_of m outs c r (h _ (by decide))).trans <|
  (V8_of m outs c r (h _ (by decide))).trans <|
  (V7_of m outs c r (h _ (by decide))).trans <|
  (V6_of m outs c r (h _ (by decide))).trans <|
  (V5_of m outs c r (h _ (by decide))).trans <|
  (V4_of m outs c r (h _ (by decide))).trans <|
  (V3_of m c r (h _ (by decide))).trans <|
  (V2_of m c r (h _ (by decide))).trans <|
  (V1_of m c r (h _ (by decide))).trans rfl
theorem V64_main_arg0 (c : Dev nD) : V64 m outs c main_arg0 = m ((c : Thread nD τ).loc main_arg0) :=
  V64_keep m outs c main_arg0 (by decide)
theorem V64_main_arg1 (c : Dev nD) : V64 m outs c main_arg1 = m ((c : Thread nD τ).loc main_arg1) :=
  V64_keep m outs c main_arg1 (by decide)
theorem V64_main_arg2 (c : Dev nD) : V64 m outs c main_arg2 = m ((c : Thread nD τ).loc main_arg2) :=
  V64_keep m outs c main_arg2 (by decide)
theorem V64_main_arg3 (c : Dev nD) : V64 m outs c main_arg3 = m ((c : Thread nD τ).loc main_arg3) :=
  V64_keep m outs c main_arg3 (by decide)
theorem V64_main_arg4 (c : Dev nD) : V64 m outs c main_arg4 = m ((c : Thread nD τ).loc main_arg4) :=
  V64_keep m outs c main_arg4 (by decide)
theorem V64_main_arg5 (c : Dev nD) : V64 m outs c main_arg5 = m ((c : Thread nD τ).loc main_arg5) :=
  V64_keep m outs c main_arg5 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 12 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V4 m outs) (E 1)

def seg5 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V5 m outs) (E 1)

def seg6 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V6 m outs) (E 1)

def seg7 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V7 m outs) (E 1)

def seg8 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V8 m outs) (E 1)

def seg10 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V10 m outs) (E 2)

def seg11 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (V11 m outs) (E 2)

def seg12 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (V12 m outs) (E 2)

def seg13 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (V13 m outs) (E 2)

def seg14 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (V14 m outs) (E 2)

def seg16 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V16 m outs) (E 3)

def seg17 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V17 m outs) (E 3)

def seg18 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V18 m outs) (E 3)

def seg19 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V19 m outs) (E 3)

def seg20 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V20 m outs) (E 3)

def seg22 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V22 m outs) (E 4)

def seg23 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V23 m outs) (E 4)

def seg24 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V24 m outs) (E 4)

def seg25 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V25 m outs) (E 4)

def seg26 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V26 m outs) (E 4)

def seg28 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V28 m outs) (E 5)

def seg29 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V29 m outs) (E 5)

def seg30 : HostSeg (Ix := Ix) (Name := ℕ) (U := U) (Lvl := Lvl) (pcfgs (F := F)) defs₀ 𝒱₀ L lv :=
  HostSeg.ofOps _ _ _ _ _ (Pipeline.ucRefs τ sig) hostOps5_2
    (fun op h => Pipeline.sub_ucRefs op ((List.forall_iff_forall_mem.mp hostOps5_2_sub) op h))
    (fun op h => (List.forall_iff_forall_mem.mp hostOps5_2_fresh) op h) (V30 m outs) (E 5)

def seg31 : HostSeg (Ix := Ix) (Name := ℕ) (U := U) (Lvl := Lvl) (pcfgs (F := F)) defs₀ 𝒱₀ L lv :=
  HostSeg.ofOps _ _ _ _ _ (Pipeline.ucRefs τ sig) hostOps5_3
    (fun op h => Pipeline.sub_ucRefs op ((List.forall_iff_forall_mem.mp hostOps5_3_sub) op h))
    (fun op h => (List.forall_iff_forall_mem.mp hostOps5_3_fresh) op h) (V31 m outs) (E 5)

def seg32 : HostSeg (Ix := Ix) (Name := ℕ) (U := U) (Lvl := Lvl) (pcfgs (F := F)) defs₀ 𝒱₀ L lv :=
  HostSeg.ofOps _ _ _ _ _ (Pipeline.ucRefs τ sig) hostOps5_4
    (fun op h => Pipeline.sub_ucRefs op ((List.forall_iff_forall_mem.mp hostOps5_4_sub) op h))
    (fun op h => (List.forall_iff_forall_mem.mp hostOps5_4_fresh) op h) (V32 m outs) (E 5)

def seg34 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V34 m outs) (E 6)

def seg35 : HostSeg (Ix := Ix) (Name := ℕ) (U := U) (Lvl := Lvl) (pcfgs (F := F)) defs₀ 𝒱₀ L lv :=
  HostSeg.ofOps _ _ _ _ _ (Pipeline.ucRefs τ sig) hostOps6_1
    (fun op h => Pipeline.sub_ucRefs op ((List.forall_iff_forall_mem.mp hostOps6_1_sub) op h))
    (fun op h => (List.forall_iff_forall_mem.mp hostOps6_1_fresh) op h) (V35 m outs) (E 6)

def seg36 : HostSeg (Ix := Ix) (Name := ℕ) (U := U) (Lvl := Lvl) (pcfgs (F := F)) defs₀ 𝒱₀ L lv :=
  HostSeg.ofOps _ _ _ _ _ (Pipeline.ucRefs τ sig) hostOps6_2
    (fun op h => Pipeline.sub_ucRefs op ((List.forall_iff_forall_mem.mp hostOps6_2_sub) op h))
    (fun op h => (List.forall_iff_forall_mem.mp hostOps6_2_fresh) op h) (V36 m outs) (E 6)

def seg37 : HostSeg (Ix := Ix) (Name := ℕ) (U := U) (Lvl := Lvl) (pcfgs (F := F)) defs₀ 𝒱₀ L lv :=
  HostSeg.ofOps _ _ _ _ _ (Pipeline.ucRefs τ sig) hostOps6_3
    (fun op h => Pipeline.sub_ucRefs op ((List.forall_iff_forall_mem.mp hostOps6_3_sub) op h))
    (fun op h => (List.forall_iff_forall_mem.mp hostOps6_3_fresh) op h) (V37 m outs) (E 6)

def seg38 : HostSeg (Ix := Ix) (Name := ℕ) (U := U) (Lvl := Lvl) (pcfgs (F := F)) defs₀ 𝒱₀ L lv :=
  HostSeg.ofOps _ _ _ _ _ (Pipeline.ucRefs τ sig) hostOps6_4
    (fun op h => Pipeline.sub_ucRefs op ((List.forall_iff_forall_mem.mp hostOps6_4_sub) op h))
    (fun op h => (List.forall_iff_forall_mem.mp hostOps6_4_fresh) op h) (V38 m outs) (E 6)

def seg40 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V40 m outs) (E 7)

def seg41 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V41 m outs) (E 7)

def seg42 : HostSeg (Ix := Ix) (Name := ℕ) (U := U) (Lvl := Lvl) (pcfgs (F := F)) defs₀ 𝒱₀ L lv :=
  HostSeg.ofOps _ _ _ _ _ (Pipeline.ucRefs τ sig) hostOps7_2
    (fun op h => Pipeline.sub_ucRefs op ((List.forall_iff_forall_mem.mp hostOps7_2_sub) op h))
    (fun op h => (List.forall_iff_forall_mem.mp hostOps7_2_fresh) op h) (V42 m outs) (E 7)

def seg43 : HostSeg (Ix := Ix) (Name := ℕ) (U := U) (Lvl := Lvl) (pcfgs (F := F)) defs₀ 𝒱₀ L lv :=
  HostSeg.ofOps _ _ _ _ _ (Pipeline.ucRefs τ sig) hostOps7_3
    (fun op h => Pipeline.sub_ucRefs op ((List.forall_iff_forall_mem.mp hostOps7_3_sub) op h))
    (fun op h => (List.forall_iff_forall_mem.mp hostOps7_3_fresh) op h) (V43 m outs) (E 7)

def seg44 : HostSeg (Ix := Ix) (Name := ℕ) (U := U) (Lvl := Lvl) (pcfgs (F := F)) defs₀ 𝒱₀ L lv :=
  HostSeg.ofOps _ _ _ _ _ (Pipeline.ucRefs τ sig) hostOps7_4
    (fun op h => Pipeline.sub_ucRefs op ((List.forall_iff_forall_mem.mp hostOps7_4_sub) op h))
    (fun op h => (List.forall_iff_forall_mem.mp hostOps7_4_fresh) op h) (V44 m outs) (E 7)

def seg46 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V46 m outs) (E 8)

def seg47 : HostSeg (Ix := Ix) (Name := ℕ) (U := U) (Lvl := Lvl) (pcfgs (F := F)) defs₀ 𝒱₀ L lv :=
  HostSeg.ofOps _ _ _ _ _ (Pipeline.ucRefs τ sig) hostOps8_1
    (fun op h => Pipeline.sub_ucRefs op ((List.forall_iff_forall_mem.mp hostOps8_1_sub) op h))
    (fun op h => (List.forall_iff_forall_mem.mp hostOps8_1_fresh) op h) (V47 m outs) (E 8)

def seg48 : HostSeg (Ix := Ix) (Name := ℕ) (U := U) (Lvl := Lvl) (pcfgs (F := F)) defs₀ 𝒱₀ L lv :=
  HostSeg.ofOps _ _ _ _ _ (Pipeline.ucRefs τ sig) hostOps8_2
    (fun op h => Pipeline.sub_ucRefs op ((List.forall_iff_forall_mem.mp hostOps8_2_sub) op h))
    (fun op h => (List.forall_iff_forall_mem.mp hostOps8_2_fresh) op h) (V48 m outs) (E 8)

def seg49 : HostSeg (Ix := Ix) (Name := ℕ) (U := U) (Lvl := Lvl) (pcfgs (F := F)) defs₀ 𝒱₀ L lv :=
  HostSeg.ofOps _ _ _ _ _ (Pipeline.ucRefs τ sig) hostOps8_3
    (fun op h => Pipeline.sub_ucRefs op ((List.forall_iff_forall_mem.mp hostOps8_3_sub) op h))
    (fun op h => (List.forall_iff_forall_mem.mp hostOps8_3_fresh) op h) (V49 m outs) (E 8)

def seg50 : HostSeg (Ix := Ix) (Name := ℕ) (U := U) (Lvl := Lvl) (pcfgs (F := F)) defs₀ 𝒱₀ L lv :=
  HostSeg.ofOps _ _ _ _ _ (Pipeline.ucRefs τ sig) hostOps8_4
    (fun op h => Pipeline.sub_ucRefs op ((List.forall_iff_forall_mem.mp hostOps8_4_sub) op h))
    (fun op h => (List.forall_iff_forall_mem.mp hostOps8_4_fresh) op h) (V50 m outs) (E 8)

def seg52 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V52 m outs) (E 9)

def seg53 : HostSeg (Ix := Ix) (Name := ℕ) (U := U) (Lvl := Lvl) (pcfgs (F := F)) defs₀ 𝒱₀ L lv :=
  HostSeg.ofOps _ _ _ _ _ (Pipeline.ucRefs τ sig) hostOps9_1
    (fun op h => Pipeline.sub_ucRefs op ((List.forall_iff_forall_mem.mp hostOps9_1_sub) op h))
    (fun op h => (List.forall_iff_forall_mem.mp hostOps9_1_fresh) op h) (V53 m outs) (E 9)

def seg54 : HostSeg (Ix := Ix) (Name := ℕ) (U := U) (Lvl := Lvl) (pcfgs (F := F)) defs₀ 𝒱₀ L lv :=
  HostSeg.ofOps _ _ _ _ _ (Pipeline.ucRefs τ sig) hostOps9_2
    (fun op h => Pipeline.sub_ucRefs op ((List.forall_iff_forall_mem.mp hostOps9_2_sub) op h))
    (fun op h => (List.forall_iff_forall_mem.mp hostOps9_2_fresh) op h) (V54 m outs) (E 9)

def seg55 : HostSeg (Ix := Ix) (Name := ℕ) (U := U) (Lvl := Lvl) (pcfgs (F := F)) defs₀ 𝒱₀ L lv :=
  HostSeg.ofOps _ _ _ _ _ (Pipeline.ucRefs τ sig) hostOps9_3
    (fun op h => Pipeline.sub_ucRefs op ((List.forall_iff_forall_mem.mp hostOps9_3_sub) op h))
    (fun op h => (List.forall_iff_forall_mem.mp hostOps9_3_fresh) op h) (V55 m outs) (E 9)

def seg56 : HostSeg (Ix := Ix) (Name := ℕ) (U := U) (Lvl := Lvl) (pcfgs (F := F)) defs₀ 𝒱₀ L lv :=
  HostSeg.ofOps _ _ _ _ _ (Pipeline.ucRefs τ sig) hostOps9_4
    (fun op h => Pipeline.sub_ucRefs op ((List.forall_iff_forall_mem.mp hostOps9_4_sub) op h))
    (fun op h => (List.forall_iff_forall_mem.mp hostOps9_4_fresh) op h) (V56 m outs) (E 9)

def seg58 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V58 m outs) (E 10)

def seg59 : HostSeg (Ix := Ix) (Name := ℕ) (U := U) (Lvl := Lvl) (pcfgs (F := F)) defs₀ 𝒱₀ L lv :=
  HostSeg.ofOps _ _ _ _ _ (Pipeline.ucRefs τ sig) hostOps10_1
    (fun op h => Pipeline.sub_ucRefs op ((List.forall_iff_forall_mem.mp hostOps10_1_sub) op h))
    (fun op h => (List.forall_iff_forall_mem.mp hostOps10_1_fresh) op h) (V59 m outs) (E 10)

def seg60 : HostSeg (Ix := Ix) (Name := ℕ) (U := U) (Lvl := Lvl) (pcfgs (F := F)) defs₀ 𝒱₀ L lv :=
  HostSeg.ofOps _ _ _ _ _ (Pipeline.ucRefs τ sig) hostOps10_2
    (fun op h => Pipeline.sub_ucRefs op ((List.forall_iff_forall_mem.mp hostOps10_2_sub) op h))
    (fun op h => (List.forall_iff_forall_mem.mp hostOps10_2_fresh) op h) (V60 m outs) (E 10)

def seg61 : HostSeg (Ix := Ix) (Name := ℕ) (U := U) (Lvl := Lvl) (pcfgs (F := F)) defs₀ 𝒱₀ L lv :=
  HostSeg.ofOps _ _ _ _ _ (Pipeline.ucRefs τ sig) hostOps10_3
    (fun op h => Pipeline.sub_ucRefs op ((List.forall_iff_forall_mem.mp hostOps10_3_sub) op h))
    (fun op h => (List.forall_iff_forall_mem.mp hostOps10_3_fresh) op h) (V61 m outs) (E 10)

def seg62 : HostSeg (Ix := Ix) (Name := ℕ) (U := U) (Lvl := Lvl) (pcfgs (F := F)) defs₀ 𝒱₀ L lv :=
  HostSeg.ofOps _ _ _ _ _ (Pipeline.ucRefs τ sig) hostOps10_4
    (fun op h => Pipeline.sub_ucRefs op ((List.forall_iff_forall_mem.mp hostOps10_4_sub) op h))
    (fun op h => (List.forall_iff_forall_mem.mp hostOps10_4_fresh) op h) (V62 m outs) (E 10)

end Segs

section

variable {Ix : Type} [DecidableEq Ix] {U : Type} [URA U] {Lvl : Type} [Preorder Lvl]

abbrev adm : (p : Fin 11) → (pcfgs (F := F) p).Adm := fun p => (cfgs p).toPCfg_adm

abbrev segs (𝒱₀ : Variants) (L : GSem nD τ sig → Finset Ix) (lv : GSem nD τ sig → Ix → Lvl) (E : Fin 12 → Dev nD → sProp (MT nD τ sig Ix (Elt F) ℕ U Lvl)) (ι : Ix)
    (pdats : (p : Fin 11) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (c : Dev nD) :
    List (Seg (pcfgs (F := F)) adm pdats ι defs₀ 𝒱₀ L lv) :=
  [.host (seg0 m 𝒱₀ L lv E), .host (seg1 m 𝒱₀ L lv E), .host (seg2 m 𝒱₀ L lv E), .region R0, .host (seg4 m outs 𝒱₀ L lv E), .host (seg5 m outs 𝒱₀ L lv E), .host (seg6 m outs 𝒱₀ L lv E), .host (seg7 m outs 𝒱₀ L lv E), .host (seg8 m outs 𝒱₀ L lv E), .region R1, .host (seg10 m outs 𝒱₀ L lv E), .host (seg11 m outs 𝒱₀ L lv E), .host (seg12 m outs 𝒱₀ L lv E), .host (seg13 m outs 𝒱₀ L lv E), .host (seg14 m outs 𝒱₀ L lv E), .region R2, .host (seg16 m outs 𝒱₀ L lv E), .host (seg17 m outs 𝒱₀ L lv E), .host (seg18 m outs 𝒱₀ L lv E), .host (seg19 m outs 𝒱₀ L lv E), .host (seg20 m outs 𝒱₀ L lv E), .region R3, .host (seg22 m outs 𝒱₀ L lv E), .host (seg23 m outs 𝒱₀ L lv E), .host (seg24 m outs 𝒱₀ L lv E), .host (seg25 m outs 𝒱₀ L lv E), .host (seg26 m outs 𝒱₀ L lv E), .region R4, .host (seg28 m outs 𝒱₀ L lv E), .host (seg29 m outs 𝒱₀ L lv E), .host (seg30 m outs 𝒱₀ L lv E), .host (seg31 m outs 𝒱₀ L lv E), .host (seg32 m outs 𝒱₀ L lv E), .region R5, .host (seg34 m outs 𝒱₀ L lv E), .host (seg35 m outs 𝒱₀ L lv E), .host (seg36 m outs 𝒱₀ L lv E), .host (seg37 m outs 𝒱₀ L lv E), .host (seg38 m outs 𝒱₀ L lv E), .region R6, .host (seg40 m outs 𝒱₀ L lv E), .host (seg41 m outs 𝒱₀ L lv E), .host (seg42 m outs 𝒱₀ L lv E), .host (seg43 m outs 𝒱₀ L lv E), .host (seg44 m outs 𝒱₀ L lv E), .region R7, .host (seg46 m outs 𝒱₀ L lv E), .host (seg47 m outs 𝒱₀ L lv E), .host (seg48 m outs 𝒱₀ L lv E), .host (seg49 m outs 𝒱₀ L lv E), .host (seg50 m outs 𝒱₀ L lv E), .region R8, .host (seg52 m outs 𝒱₀ L lv E), .host (seg53 m outs 𝒱₀ L lv E), .host (seg54 m outs 𝒱₀ L lv E), .host (seg55 m outs 𝒱₀ L lv E), .host (seg56 m outs 𝒱₀ L lv E), .region R9, .host (seg58 m outs 𝒱₀ L lv E), .host (seg59 m outs 𝒱₀ L lv E), .host (seg60 m outs 𝒱₀ L lv E), .host (seg61 m outs 𝒱₀ L lv E), .host (seg62 m outs 𝒱₀ L lv E), .region R10]

end

set_option backward.isDefEq.respectTransparency.types false in

theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V21 m outs c) ∗ E 3 c) ⊢ R3.pre c)
    (hpost3 : ∀ c : Dev nD, R3.post c ⊢ iprop(StableHlo.held (c : Thread nD τ) (Pipeline.ucRefs τ sig) (V22 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V27 m outs c) ∗ E 4 c) ⊢ R4.pre c)
    (hpost4 : ∀ c : Dev nD, R4.post c ⊢ iprop(StableHlo.held (c : Thread nD τ) (Pipeline.ucRefs τ sig) (V28 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V33 m outs c) ∗ E 5 c) ⊢ R5.pre c)
    (hpost5 : ∀ c : Dev nD, R5.post c ⊢ iprop(StableHlo.held (c : Thread nD τ) (Pipeline.ucRefs τ sig) (V34 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V39 m outs c) ∗ E 6 c) ⊢ R6.pre c)
    (hpost6 : ∀ c : Dev nD, R6.post c ⊢ iprop(StableHlo.held (c : Thread nD τ) (Pipeline.ucRefs τ sig) (V40 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V45 m outs c) ∗ E 7 c) ⊢ R7.pre c)
    (hpost7 : ∀ c : Dev nD, R7.post c ⊢ iprop(StableHlo.held (c : Thread nD τ) (Pipeline.ucRefs τ sig) (V46 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V51 m outs c) ∗ E 8 c) ⊢ R8.pre c)
    (hpost8 : ∀ c : Dev nD, R8.post c ⊢ iprop(StableHlo.held (c : Thread nD τ) (Pipeline.ucRefs τ sig) (V52 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V57 m outs c) ∗ E 9 c) ⊢ R9.pre c)
    (hpost9 : ∀ c : Dev nD, R9.post c ⊢ iprop(StableHlo.held (c : Thread nD τ) (Pipeline.ucRefs τ sig) (V58 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V63 m outs c) ∗ E 10 c) ⊢ R10.pre c)
    (hpost10 : ∀ c : Dev nD, R10.post c ⊢ iprop(StableHlo.held (c : Thread nD τ) (Pipeline.ucRefs τ sig) (V64 m outs c) ∗ E 11 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v114) = V64 m outs c (Proc.devRef .tc main_v114)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8,
          StableHlo.seq hostOps8_1,
          StableHlo.seq hostOps8_2,
          StableHlo.seq hostOps8_3,
          StableHlo.seq hostOps8_4,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10,
          StableHlo.seq hostOps10_1,
          StableHlo.seq hostOps10_2,
          StableHlo.seq hostOps10_3,
          StableHlo.seq hostOps10_4,
          Prog.lift (.customCall (Pipeline.entry 10) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V64 m outs c))
    (hch := fun c => ⟨.rfl, .rfl, .rfl, hpre0 c, hpost0 c, .rfl, .rfl, .rfl, .rfl, hpre1 c, hpost1 c, .rfl, .rfl, .rfl, .rfl, hpre2 c, hpost2 c, .rfl, .rfl, .rfl, .rfl, hpre3 c, hpost3 c, .rfl, .rfl, .rfl, .rfl, hpre4 c, hpost4 c, .rfl, .rfl, .rfl, .rfl, hpre5 c, hpost5 c, .rfl, .rfl, .rfl, .rfl, hpre6 c, hpost6 c, .rfl, .rfl, .rfl, .rfl, hpre7 c, hpost7 c, .rfl, .rfl, .rfl, .rfl, hpre8 c, hpost8 c, .rfl, .rfl, .rfl, .rfl, hpre9 c, hpost9 c, .rfl, .rfl, .rfl, .rfl, hpre10 c, (hpost10 c).trans (sep_mono .rfl (hE11 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v114) = V64 m outs c (Proc.devRef .tc main_v114))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V64 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V64_main_arg0 m outs c),
        (h (Proc.devRef .tc main_arg1) (Finset.mem_filter.mpr ⟨StableHlo.devRef_mem_tcRefs main_arg1, by decide⟩)).trans (V64_main_arg1 m outs c),
        (h (Proc.devRef .tc main_arg2) (Finset.mem_filter.mpr ⟨StableHlo.devRef_mem_tcRefs main_arg2, by decide⟩)).trans (V64_main_arg2 m outs c),
        (h (Proc.devRef .tc main_arg3) (Finset.mem_filter.mpr ⟨StableHlo.devRef_mem_tcRefs main_arg3, by decide⟩)).trans (V64_main_arg3 m outs c),
        (h (Proc.devRef .tc main_arg4) (Finset.mem_filter.mpr ⟨StableHlo.devRef_mem_tcRefs main_arg4, by decide⟩)).trans (V64_main_arg4 m outs c),
        (h (Proc.devRef .tc main_arg5) (Finset.mem_filter.mpr ⟨StableHlo.devRef_mem_tcRefs main_arg5, by decide⟩)).trans (V64_main_arg5 m outs c),
        h (Proc.devRef .tc main_v114) (Finset.mem_filter.mpr ⟨StableHlo.devRef_mem_tcRefs main_v114, by decide⟩)⟩
    · iexact HSI

end Cert.Kernel.GenP

end
-- ==== Proof.KReg0.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x256 := Rect.unit (s := S2048x256) ![0, 0] S2048x256.size inb_S2048x256_S2048x256_0_0
abbrev rW0 : Rect S512x256 := Rect.unit (s := S512x256) ![0, 0] S512x256.size inb_S512x256_S512x256_0_0
abbrev rB0 : Rect S1x512 := Rect.unit (s := S1x512) ![0, 0] S1x512.size inb_S1x512_S1x512_0_0
abbrev rO0 : Rect S2048x512 := Rect.unit (s := S2048x512) ![0, 0] S2048x512.size inb_S2048x512_S2048x512_0_0

/-- The body's result block as a function of the three input blocks. -/
def out0_3 (x : Vec F S2048x256 .f32) (w : Vec F S512x256 .f32) (b : Vec F S1x512 .f32) : Vec F S2048x512 .f32 :=
  View.canon [⟨rO0, k0_pay1 (View.ld x rX0) (View.ld w rW0) (View.ld b rB0)⟩]

/-- After the body at point `t` each input is at its block and the output at `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]

/-- An input is the same before the body as after it. -/
theorem before0 (c : Dev nD) (w : Fin 4) (h : w ≠ 3) (t d) : (dat0 V c).before w t d = (dat0 V c).after w t := by
  fin_cases w <;> first | exact absurd rfl h |
    exact (dat0 V c).before_in_eq_fetched _ rfl (fun _ => rfl) (fun _ _ _ => rfl) (fun _ => rfl) t d

set_option maxHeartbeats 1000000 in
/-- The body reads the three input blocks and stores `out0_3` of them. -/
theorem body_obligation0 (c : Dev nD) : BodyObligation (dat0 (F := F) V c) (defs₀ (F := F)) Variants.none () Set.univ := fun t => by
  rw [bigSep_W0, bigSep_W0]
  simp only [before0 V c 0 (by decide), before0 V c 1 (by decide), before0 V c 2 (by decide)]
  dsimp only [dat0, Dat.owesAt, Dat.bound]
  show _ ⊢ wp _ _ _ (bodyAt0 t) _
  generalize iblk0 V c 0 t = x, iblk0 V c 1 t = w, iblk0 V c 2 t = b
  simp only [bodyAt0, cc0__linear_relu_kernel_eq_skeleton]; unfold cc0__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S2048x512.size (by rfl))

end Cert.Kernel.Hand

end
-- ==== Proof.KReg1.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S1024x1536 := Rect.unit (s := S1024x1536) ![0, 0] S1024x1536.size inb_S1024x1536_S1024x1536_0_0
abbrev rW1 : Rect S512x1536 := Rect.unit (s := S512x1536) ![0, 0] S512x1536.size inb_S512x1536_S512x1536_0_0
abbrev rB1 : Rect S1x512 := Rect.unit (s := S1x512) ![0, 0] S1x512.size inb_S1x512_S1x512_0_0
abbrev rO1 : Rect S1024x512 := Rect.unit (s := S1024x512) ![0, 0] S1024x512.size inb_S1024x512_S1024x512_0_0

/-- The body's result block as a function of the three input blocks. -/
def out1_3 (x : Vec F S1024x1536 .f32) (w : Vec F S512x1536 .f32) (b : Vec F S1x512 .f32) : Vec F S1024x512 .f32 :=
  View.canon [⟨rO1, k1_pay1 (View.ld x rX1) (View.ld w rW1) (View.ld b rB1)⟩]

/-- After the body at point `t` each input is at its block and the output at `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

/-- An input is the same before the body as after it. -/
theorem before1 (c : Dev nD) (w : Fin 4) (h : w ≠ 3) (t d) : (dat1 V c).before w t d = (dat1 V c).after w t := by
  fin_cases w <;> first | exact absurd rfl h |
    exact (dat1 V c).before_in_eq_fetched _ rfl (fun _ => rfl) (fun _ _ _ => rfl) (fun _ => rfl) t d

set_option maxHeartbeats 1000000 in
/-- The body reads the three input blocks and stores `out1_3` of them. -/
theorem body_obligation1 (c : Dev nD) : BodyObligation (dat1 (F := F) V c) (defs₀ (F := F)) Variants.none () Set.univ := fun t => by
  rw [bigSep_W1, bigSep_W1]
  simp only [before1 V c 0 (by decide), before1 V c 1 (by decide), before1 V c 2 (by decide)]
  dsimp only [dat1, Dat.owesAt, Dat.bound]
  show _ ⊢ wp _ _ _ (bodyAt1 t) _
  generalize iblk1 V c 0 t = x, iblk1 V c 1 t = w, iblk1 V c 2 t = b
  simp only [bodyAt1, cc1__linear_relu_kernel_eq_skeleton]; unfold cc1__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg2.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x1536 := Rect.unit (s := S1024x1536) ![0, 0] S1024x1536.size inb_S1024x1536_S1024x1536_0_0
abbrev rW2 : Rect S512x1536 := Rect.unit (s := S512x1536) ![0, 0] S512x1536.size inb_S512x1536_S512x1536_0_0
abbrev rB2 : Rect S1x512 := Rect.unit (s := S1x512) ![0, 0] S1x512.size inb_S1x512_S1x512_0_0
abbrev rO2 : Rect S1024x512 := Rect.unit (s := S1024x512) ![0, 0] S1024x512.size inb_S1024x512_S1024x512_0_0

/-- The body's result block as a function of the three input blocks. -/
def out2_3 (x : Vec F S1024x1536 .f32) (w : Vec F S512x1536 .f32) (b : Vec F S1x512 .f32) : Vec F S1024x512 .f32 :=
  View.canon [⟨rO2, k2_pay1 (View.ld x rX2) (View.ld w rW2) (View.ld b rB2)⟩]

/-- After the body at point `t` each input is at its block and the output at `out2_3` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]

/-- An input is the same before the body as after it. -/
theorem before2 (c : Dev nD) (w : Fin 4) (h : w ≠ 3) (t d) : (dat2 V c).before w t d = (dat2 V c).after w t := by
  fin_cases w <;> first | exact absurd rfl h |
    exact (dat2 V c).before_in_eq_fetched _ rfl (fun _ => rfl) (fun _ _ _ => rfl) (fun _ => rfl) t d

set_option maxHeartbeats 1000000 in
/-- The body reads the three input blocks and stores `out2_3` of them. -/
theorem body_obligation2 (c : Dev nD) : BodyObligation (dat2 (F := F) V c) (defs₀ (F := F)) Variants.none () Set.univ := fun t => by
  rw [bigSep_W2, bigSep_W2]
  simp only [before2 V c 0 (by decide), before2 V c 1 (by decide), before2 V c 2 (by decide)]
  dsimp only [dat2, Dat.owesAt, Dat.bound]
  show _ ⊢ wp _ _ _ (bodyAt2 t) _
  generalize iblk2 V c 0 t = x, iblk2 V c 1 t = w, iblk2 V c 2 t = b
  simp only [bodyAt2, cc2__linear_relu_kernel_eq_skeleton]; unfold cc2__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg3.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S1024x1536 := Rect.unit (s := S1024x1536) ![0, 0] S1024x1536.size inb_S1024x1536_S1024x1536_0_0
abbrev rW3 : Rect S512x1536 := Rect.unit (s := S512x1536) ![0, 0] S512x1536.size inb_S512x1536_S512x1536_0_0
abbrev rB3 : Rect S1x512 := Rect.unit (s := S1x512) ![0, 0] S1x512.size inb_S1x512_S1x512_0_0
abbrev rO3 : Rect S1024x512 := Rect.unit (s := S1024x512) ![0, 0] S1024x512.size inb_S1024x512_S1024x512_0_0

/-- The body's result block as a function of the three input blocks. -/
def out3_3 (x : Vec F S1024x1536 .f32) (w : Vec F S512x1536 .f32) (b : Vec F S1x512 .f32) : Vec F S1024x512 .f32 :=
  View.canon [⟨rO3, k3_pay1 (View.ld x rX3) (View.ld w rW3) (View.ld b rB3)⟩]

/-- After the body at point `t` each input is at its block and the output at `out3_3` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

/-- An input is the same before the body as after it. -/
theorem before3 (c : Dev nD) (w : Fin 4) (h : w ≠ 3) (t d) : (dat3 V c).before w t d = (dat3 V c).after w t := by
  fin_cases w <;> first | exact absurd rfl h |
    exact (dat3 V c).before_in_eq_fetched _ rfl (fun _ => rfl) (fun _ _ _ => rfl) (fun _ => rfl) t d

set_option maxHeartbeats 1000000 in
/-- The body reads the three input blocks and stores `out3_3` of them. -/
theorem body_obligation3 (c : Dev nD) : BodyObligation (dat3 (F := F) V c) (defs₀ (F := F)) Variants.none () Set.univ := fun t => by
  rw [bigSep_W3, bigSep_W3]
  simp only [before3 V c 0 (by decide), before3 V c 1 (by decide), before3 V c 2 (by decide)]
  dsimp only [dat3, Dat.owesAt, Dat.bound]
  show _ ⊢ wp _ _ _ (bodyAt3 t) _
  generalize iblk3 V c 0 t = x, iblk3 V c 1 t = w, iblk3 V c 2 t = b
  simp only [bodyAt3, cc3__linear_relu_kernel_eq_skeleton]; unfold cc3__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg4.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S1024x1536 := Rect.unit (s := S1024x1536) ![0, 0] S1024x1536.size inb_S1024x1536_S1024x1536_0_0
abbrev rW4 : Rect S512x1536 := Rect.unit (s := S512x1536) ![0, 0] S512x1536.size inb_S512x1536_S512x1536_0_0
abbrev rB4 : Rect S1x512 := Rect.unit (s := S1x512) ![0, 0] S1x512.size inb_S1x512_S1x512_0_0
abbrev rO4 : Rect S1024x512 := Rect.unit (s := S1024x512) ![0, 0] S1024x512.size inb_S1024x512_S1024x512_0_0

/-- The body's result block as a function of the three input blocks. -/
def out4_3 (x : Vec F S1024x1536 .f32) (w : Vec F S512x1536 .f32) (b : Vec F S1x512 .f32) : Vec F S1024x512 .f32 :=
  View.canon [⟨rO4, k4_pay1 (View.ld x rX4) (View.ld w rW4) (View.ld b rB4)⟩]

/-- After the body at point `t` each input is at its block and the output at `out4_3` of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) :
    (dat4 V c).after 3 t = out4_3 (iblk4 V c 0 t) (iblk4 V c 1 t) (iblk4 V c 2 t) := by dsimp only [dat4]

/-- An input is the same before the body as after it. -/
theorem before4 (c : Dev nD) (w : Fin 4) (h : w ≠ 3) (t d) : (dat4 V c).before w t d = (dat4 V c).after w t := by
  fin_cases w <;> first | exact absurd rfl h |
    exact (dat4 V c).before_in_eq_fetched _ rfl (fun _ => rfl) (fun _ _ _ => rfl) (fun _ => rfl) t d

set_option maxHeartbeats 1000000 in
/-- The body reads the three input blocks and stores `out4_3` of them. -/
theorem body_obligation4 (c : Dev nD) : BodyObligation (dat4 (F := F) V c) (defs₀ (F := F)) Variants.none () Set.univ := fun t => by
  rw [bigSep_W4, bigSep_W4]
  simp only [before4 V c 0 (by decide), before4 V c 1 (by decide), before4 V c 2 (by decide)]
  dsimp only [dat4, Dat.owesAt, Dat.bound]
  show _ ⊢ wp _ _ _ (bodyAt4 t) _
  generalize iblk4 V c 0 t = x, iblk4 V c 1 t = w, iblk4 V c 2 t = b
  simp only [bodyAt4, cc4__linear_relu_kernel_eq_skeleton]; unfold cc4__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg5.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S1024x1536 := Rect.unit (s := S1024x1536) ![0, 0] S1024x1536.size inb_S1024x1536_S1024x1536_0_0
abbrev rW5 : Rect S512x1536 := Rect.unit (s := S512x1536) ![0, 0] S512x1536.size inb_S512x1536_S512x1536_0_0
abbrev rB5 : Rect S1x512 := Rect.unit (s := S1x512) ![0, 0] S1x512.size inb_S1x512_S1x512_0_0
abbrev rO5 : Rect S1024x512 := Rect.unit (s := S1024x512) ![0, 0] S1024x512.size inb_S1024x512_S1024x512_0_0

/-- The body's result block as a function of the three input blocks. -/
def out5_3 (x : Vec F S1024x1536 .f32) (w : Vec F S512x1536 .f32) (b : Vec F S1x512 .f32) : Vec F S1024x512 .f32 :=
  View.canon [⟨rO5, k5_pay1 (View.ld x rX5) (View.ld w rW5) (View.ld b rB5)⟩]

/-- After the body at point `t` each input is at its block and the output at `out5_3` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) :
    (dat5 V c).after 3 t = out5_3 (iblk5 V c 0 t) (iblk5 V c 1 t) (iblk5 V c 2 t) := by dsimp only [dat5]

/-- An input is the same before the body as after it. -/
theorem before5 (c : Dev nD) (w : Fin 4) (h : w ≠ 3) (t d) : (dat5 V c).before w t d = (dat5 V c).after w t := by
  fin_cases w <;> first | exact absurd rfl h |
    exact (dat5 V c).before_in_eq_fetched _ rfl (fun _ => rfl) (fun _ _ _ => rfl) (fun _ => rfl) t d

set_option maxHeartbeats 1000000 in
/-- The body reads the three input blocks and stores `out5_3` of them. -/
theorem body_obligation5 (c : Dev nD) : BodyObligation (dat5 (F := F) V c) (defs₀ (F := F)) Variants.none () Set.univ := fun t => by
  rw [bigSep_W5, bigSep_W5]
  simp only [before5 V c 0 (by decide), before5 V c 1 (by decide), before5 V c 2 (by decide)]
  dsimp only [dat5, Dat.owesAt, Dat.bound]
  show _ ⊢ wp _ _ _ (bodyAt5 t) _
  generalize iblk5 V c 0 t = x, iblk5 V c 1 t = w, iblk5 V c 2 t = b
  simp only [bodyAt5, cc5__linear_relu_kernel_eq_skeleton]; unfold cc5__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg6.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rX6 : Rect S1024x1536 := Rect.unit (s := S1024x1536) ![0, 0] S1024x1536.size inb_S1024x1536_S1024x1536_0_0
abbrev rW6 : Rect S512x1536 := Rect.unit (s := S512x1536) ![0, 0] S512x1536.size inb_S512x1536_S512x1536_0_0
abbrev rB6 : Rect S1x512 := Rect.unit (s := S1x512) ![0, 0] S1x512.size inb_S1x512_S1x512_0_0
abbrev rO6 : Rect S1024x512 := Rect.unit (s := S1024x512) ![0, 0] S1024x512.size inb_S1024x512_S1024x512_0_0

/-- The body's result block as a function of the three input blocks. -/
def out6_3 (x : Vec F S1024x1536 .f32) (w : Vec F S512x1536 .f32) (b : Vec F S1x512 .f32) : Vec F S1024x512 .f32 :=
  View.canon [⟨rO6, k6_pay1 (View.ld x rX6) (View.ld w rW6) (View.ld b rB6)⟩]

/-- After the body at point `t` each input is at its block and the output at `out6_3` of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) :
    (dat6 V c).after 3 t = out6_3 (iblk6 V c 0 t) (iblk6 V c 1 t) (iblk6 V c 2 t) := by dsimp only [dat6]

/-- An input is the same before the body as after it. -/
theorem before6 (c : Dev nD) (w : Fin 4) (h : w ≠ 3) (t d) : (dat6 V c).before w t d = (dat6 V c).after w t := by
  fin_cases w <;> first | exact absurd rfl h |
    exact (dat6 V c).before_in_eq_fetched _ rfl (fun _ => rfl) (fun _ _ _ => rfl) (fun _ => rfl) t d

set_option maxHeartbeats 1000000 in
/-- The body reads the three input blocks and stores `out6_3` of them. -/
theorem body_obligation6 (c : Dev nD) : BodyObligation (dat6 (F := F) V c) (defs₀ (F := F)) Variants.none () Set.univ := fun t => by
  rw [bigSep_W6, bigSep_W6]
  simp only [before6 V c 0 (by decide), before6 V c 1 (by decide), before6 V c 2 (by decide)]
  dsimp only [dat6, Dat.owesAt, Dat.bound]
  show _ ⊢ wp _ _ _ (bodyAt6 t) _
  generalize iblk6 V c 0 t = x, iblk6 V c 1 t = w, iblk6 V c 2 t = b
  simp only [bodyAt6, cc6__linear_relu_kernel_eq_skeleton]; unfold cc6__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.Kernel.Hand

end
-- ==== Proof.KReg7.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rX7 : Rect S512x1536 := Rect.unit (s := S512x1536) ![0, 0] S512x1536.size inb_S512x1536_S512x1536_0_0
abbrev rW7 : Rect S512x1536 := Rect.unit (s := S512x1536) ![0, 0] S512x1536.size inb_S512x1536_S512x1536_0_0
abbrev rB7 : Rect S1x512 := Rect.unit (s := S1x512) ![0, 0] S1x512.size inb_S1x512_S1x512_0_0
abbrev rO7 : Rect S512x512 := Rect.unit (s := S512x512) ![0, 0] S512x512.size inb_S512x512_S512x512_0_0

/-- The body's result block as a function of the three input blocks. -/
def out7_3 (x : Vec F S512x1536 .f32) (w : Vec F S512x1536 .f32) (b : Vec F S1x512 .f32) : Vec F S512x512 .f32 :=
  View.canon [⟨rO7, k7_pay1 (View.ld x rX7) (View.ld w rW7) (View.ld b rB7)⟩]

/-- After the body at point `t` each input is at its block and the output at `out7_3` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (c : Dev nD) (t : Fin cfg7.N) :
    (dat7 V c).after 3 t = out7_3 (iblk7 V c 0 t) (iblk7 V c 1 t) (iblk7 V c 2 t) := by dsimp only [dat7]

/-- An input is the same before the body as after it. -/
theorem before7 (c : Dev nD) (w : Fin 4) (h : w ≠ 3) (t d) : (dat7 V c).before w t d = (dat7 V c).after w t := by
  fin_cases w <;> first | exact absurd rfl h |
    exact (dat7 V c).before_in_eq_fetched _ rfl (fun _ => rfl) (fun _ _ _ => rfl) (fun _ => rfl) t d

set_option maxHeartbeats 1000000 in
/-- The body reads the three input blocks and stores `out7_3` of them. -/
theorem body_obligation7 (c : Dev nD) : BodyObligation (dat7 (F := F) V c) (defs₀ (F := F)) Variants.none () Set.univ := fun t => by
  rw [bigSep_W7, bigSep_W7]
  simp only [before7 V c 0 (by decide), before7 V c 1 (by decide), before7 V c 2 (by decide)]
  dsimp only [dat7, Dat.owesAt, Dat.bound]
  show _ ⊢ wp _ _ _ (bodyAt7 t) _
  generalize iblk7 V c 0 t = x, iblk7 V c 1 t = w, iblk7 V c 2 t = b
  simp only [bodyAt7, cc7__linear_relu_kernel_eq_skeleton]; unfold cc7__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S512x512.size (by rfl))

end Cert.Kernel.Hand

end
-- ==== Proof.KReg8.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rX8 : Rect S256x1536 := Rect.unit (s := S256x1536) ![0, 0] S256x1536.size inb_S256x1536_S256x1536_0_0
abbrev rW8 : Rect S512x1536 := Rect.unit (s := S512x1536) ![0, 0] S512x1536.size inb_S512x1536_S512x1536_0_0
abbrev rB8 : Rect S1x512 := Rect.unit (s := S1x512) ![0, 0] S1x512.size inb_S1x512_S1x512_0_0
abbrev rO8 : Rect S256x512 := Rect.unit (s := S256x512) ![0, 0] S256x512.size inb_S256x512_S256x512_0_0

/-- The body's result block as a function of the three input blocks. -/
def out8_3 (x : Vec F S256x1536 .f32) (w : Vec F S512x1536 .f32) (b : Vec F S1x512 .f32) : Vec F S256x512 .f32 :=
  View.canon [⟨rO8, k8_pay1 (View.ld x rX8) (View.ld w rW8) (View.ld b rB8)⟩]

/-- After the body at point `t` each input is at its block and the output at `out8_3` of them. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem after8_3 (c : Dev nD) (t : Fin cfg8.N) :
    (dat8 V c).after 3 t = out8_3 (iblk8 V c 0 t) (iblk8 V c 1 t) (iblk8 V c 2 t) := by dsimp only [dat8]

/-- An input is the same before the body as after it. -/
theorem before8 (c : Dev nD) (w : Fin 4) (h : w ≠ 3) (t d) : (dat8 V c).before w t d = (dat8 V c).after w t := by
  fin_cases w <;> first | exact absurd rfl h |
    exact (dat8 V c).before_in_eq_fetched _ rfl (fun _ => rfl) (fun _ _ _ => rfl) (fun _ => rfl) t d

set_option maxHeartbeats 1000000 in
/-- The body reads the three input blocks and stores `out8_3` of them. -/
theorem body_obligation8 (c : Dev nD) : BodyObligation (dat8 (F := F) V c) (defs₀ (F := F)) Variants.none () Set.univ := fun t => by
  rw [bigSep_W8, bigSep_W8]
  simp only [before8 V c 0 (by decide), before8 V c 1 (by decide), before8 V c 2 (by decide)]
  dsimp only [dat8, Dat.owesAt, Dat.bound]
  show _ ⊢ wp _ _ _ (bodyAt8 t) _
  generalize iblk8 V c 0 t = x, iblk8 V c 1 t = w, iblk8 V c 2 t = b
  simp only [bodyAt8, cc8__linear_relu_kernel_eq_skeleton]; unfold cc8__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S256x512.size (by rfl))

end Cert.Kernel.Hand

end
-- ==== Proof.KReg9.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rX9 : Rect S128x1536 := Rect.unit (s := S128x1536) ![0, 0] S128x1536.size inb_S128x1536_S128x1536_0_0
abbrev rW9 : Rect S512x1536 := Rect.unit (s := S512x1536) ![0, 0] S512x1536.size inb_S512x1536_S512x1536_0_0
abbrev rB9 : Rect S1x512 := Rect.unit (s := S1x512) ![0, 0] S1x512.size inb_S1x512_S1x512_0_0
abbrev rO9 : Rect S128x512 := Rect.unit (s := S128x512) ![0, 0] S128x512.size inb_S128x512_S128x512_0_0

/-- The body's result block as a function of the three input blocks. -/
def out9_3 (x : Vec F S128x1536 .f32) (w : Vec F S512x1536 .f32) (b : Vec F S1x512 .f32) : Vec F S128x512 .f32 :=
  View.canon [⟨rO9, k9_pay1 (View.ld x rX9) (View.ld w rW9) (View.ld b rB9)⟩]

/-- After the body at point `t` each input is at its block and the output at `out9_3` of them. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem after9_3 (c : Dev nD) (t : Fin cfg9.N) :
    (dat9 V c).after 3 t = out9_3 (iblk9 V c 0 t) (iblk9 V c 1 t) (iblk9 V c 2 t) := by dsimp only [dat9]

/-- An input is the same before the body as after it. -/
theorem before9 (c : Dev nD) (w : Fin 4) (h : w ≠ 3) (t d) : (dat9 V c).before w t d = (dat9 V c).after w t := by
  fin_cases w <;> first | exact absurd rfl h |
    exact (dat9 V c).before_in_eq_fetched _ rfl (fun _ => rfl) (fun _ _ _ => rfl) (fun _ => rfl) t d

set_option maxHeartbeats 1000000 in
/-- The body reads the three input blocks and stores `out9_3` of them. -/
theorem body_obligation9 (c : Dev nD) : BodyObligation (dat9 (F := F) V c) (defs₀ (F := F)) Variants.none () Set.univ := fun t => by
  rw [bigSep_W9, bigSep_W9]
  simp only [before9 V c 0 (by decide), before9 V c 1 (by decide), before9 V c 2 (by decide)]
  dsimp only [dat9, Dat.owesAt, Dat.bound]
  show _ ⊢ wp _ _ _ (bodyAt9 t) _
  generalize iblk9 V c 0 t = x, iblk9 V c 1 t = w, iblk9 V c 2 t = b
  simp only [bodyAt9, cc9__linear_relu_kernel_eq_skeleton]; unfold cc9__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S128x512.size (by rfl))

end Cert.Kernel.Hand

end
-- ==== Proof.KReg10.lean ====
import proofs.«407834_j69114613728754_1_alg».proof.Proof.Gen.Kernel.Launch
import proofs.«407834_j69114613728754_1_alg».proof.Proof.Gen.Kernel.Skeleton
import proofs.«407834_j69114613728754_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rX10 : Rect S64x1536 := Rect.unit (s := S64x1536) ![0, 0] S64x1536.size inb_S64x1536_S64x1536_0_0
abbrev rW10 : Rect S512x1536 := Rect.unit (s := S512x1536) ![0, 0] S512x1536.size inb_S512x1536_S512x1536_0_0
abbrev rB10 : Rect S1x512 := Rect.unit (s := S1x512) ![0, 0] S1x512.size inb_S1x512_S1x512_0_0
abbrev rO10 : Rect S64x512 := Rect.unit (s := S64x512) ![0, 0] S64x512.size inb_S64x512_S64x512_0_0

/-- The body's result block as a function of the three input blocks. -/
def out10_3 (x : Vec F S64x1536 .f32) (w : Vec F S512x1536 .f32) (b : Vec F S1x512 .f32) : Vec F S64x512 .f32 :=
  View.canon [⟨rO10, k10_pay1 (View.ld x rX10) (View.ld w rW10) (View.ld b rB10)⟩]

/-- After the body at point `t` each input is at its block and the output at `out10_3` of them. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem after10_3 (c : Dev nD) (t : Fin cfg10.N) :
    (dat10 V c).after 3 t = out10_3 (iblk10 V c 0 t) (iblk10 V c 1 t) (iblk10 V c 2 t) := by dsimp only [dat10]

/-- An input is the same before the body as after it. -/
theorem before10 (c : Dev nD) (w : Fin 4) (h : w ≠ 3) (t d) : (dat10 V c).before w t d = (dat10 V c).after w t := by
  fin_cases w <;> first | exact absurd rfl h |
    exact (dat10 V c).before_in_eq_fetched _ rfl (fun _ => rfl) (fun _ _ _ => rfl) (fun _ => rfl) t d

set_option maxHeartbeats 1000000 in
/-- The body reads the three input blocks and stores `out10_3` of them. -/
theorem body_obligation10 (c : Dev nD) : BodyObligation (dat10 (F := F) V c) (defs₀ (F := F)) Variants.none () Set.univ := fun t => by
  rw [bigSep_W10, bigSep_W10]
  simp only [before10 V c 0 (by decide), before10 V c 1 (by decide), before10 V c 2 (by decide)]
  dsimp only [dat10, Dat.owesAt, Dat.bound]
  show _ ⊢ wp _ _ _ (bodyAt10 t) _
  generalize iblk10 V c 0 t = x, iblk10 V c 1 t = w, iblk10 V c 2 t = b
  simp only [bodyAt10, cc10__linear_relu_kernel_eq_skeleton]; unfold cc10__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S64x512.size (by rfl))

end Cert.Kernel.Hand

end
-- ==== Proof.KChain.lean ====
/- The contents of core c's unscoped buffers at every boundary between two items of @main, as one chain from the launch
   memory: after a host stretch the stretch's operations applied, after a kernel region the region's output array replaced by
   what its pipeline leaves there (the fold of the region's write-backs over the entry contents). `outs` reads the regions'
   outputs off that chain, and every boundary valuation of the conditional frame, taken at `outs`, is the chain's. -/
import proofs.«407834_j69114613728754_1_alg».proof.Proof.RegionsKernel
import proofs.«407834_j69114613728754_1_alg».proof.Proof.KReg0
import proofs.«407834_j69114613728754_1_alg».proof.Proof.KReg1
import proofs.«407834_j69114613728754_1_alg».proof.Proof.KReg2
import proofs.«407834_j69114613728754_1_alg».proof.Proof.KReg3
import proofs.«407834_j69114613728754_1_alg».proof.Proof.KReg4
import proofs.«407834_j69114613728754_1_alg».proof.Proof.KReg5
import proofs.«407834_j69114613728754_1_alg».proof.Proof.KReg6
import proofs.«407834_j69114613728754_1_alg».proof.Proof.KReg7
import proofs.«407834_j69114613728754_1_alg».proof.Proof.KReg8
import proofs.«407834_j69114613728754_1_alg».proof.Proof.KReg9
import proofs.«407834_j69114613728754_1_alg».proof.Proof.KReg10

set_option maxRecDepth 16384

noncomputable section

namespace Cert.Kernel.Hand

open Cert.Kernel.Gen Cert.Kernel.GenP
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- At launch. -/
def U0 (c : Dev nD) : Valuation τ sig (Elt F) := V0 m c
/-- After the host stretch `hostOps0`. -/
def U1 (c : Dev nD) : Valuation τ sig (Elt F) := StableHlo.after hostOps0 (U0 m c)
/-- After the host stretch `hostOps0_1`. -/
def U2 (c : Dev nD) : Valuation τ sig (Elt F) := StableHlo.after hostOps0_1 (U1 m c)
/-- After the host stretch `hostOps0_2`. -/
def U3 (c : Dev nD) : Valuation τ sig (Elt F) := StableHlo.after hostOps0_2 (U2 m c)
/-- Region 0's entry contents at the TensorCore's references. -/
abbrev UV3 : (c : Dev nD) → (b : Ref sig .tc) → Buf (Elt F) ((c : Thread nD τ).loc b) := fun c b => U3 m c b
/-- What region 0 leaves in its output array `main_v2`. -/
def X0 (c : Dev nD) : Buf (Elt F) ((c : Thread nD τ).loc main_v2) := (dat0 (UV3 m) c).arrAt 3 cfg0.N
/-- After region 0. -/
def U4 (c : Dev nD) : Valuation τ sig (Elt F) := Function.update (U3 m c) main_v2 (X0 m c)
/-- Region 0's exit contents at the TensorCore's references. -/
abbrev UV4 : (c : Dev nD) → (b : Ref sig .tc) → Buf (Elt F) ((c : Thread nD τ).loc b) := fun c b => U4 m c b
/-- After the host stretch `hostOps1`. -/
def U5 (c : Dev nD) : Valuation τ sig (Elt F) := StableHlo.after hostOps1 (U4 m c)
/-- After the host stretch `hostOps1_1`. -/
def U6 (c : Dev nD) : Valuation τ sig (Elt F) := StableHlo.after hostOps1_1 (U5 m c)
/-- After the host stretch `hostOps1_2`. -/
def U7 (c : Dev nD) : Valuation τ sig (Elt F) := StableHlo.after hostOps1_2 (U6 m c)
/-- After the host stretch `hostOps1_3`. -/
def U8 (c : Dev nD) : Valuation τ sig (Elt F) := StableHlo.after hostOps1_3 (U7 m c)
/-- After the host stretch `hostOps1_4`. -/
def U9 (c : Dev nD) : Valuation τ sig (Elt F) := StableHlo.after hostOps1_4 (U8 m c)
/-- Region 1's entry contents at the TensorCore's references. -/
abbrev UV9 : (c : Dev nD) → (b : Ref sig .tc) → Buf (Elt F) ((c : Thread nD τ).loc b) := fun c b => U9 m c b
/-- What region 1 leaves in its output array `main_v15`. -/
def X1 (c : Dev nD) : Buf (Elt F) ((c : Thread nD τ).loc main_v15) := (dat1 (UV9 m) c).arrAt 3 cfg1.N
/-- After region 1. -/
def U10 (c : Dev nD) : Valuation τ sig (Elt F) := Function.update (U9 m c) main_v15 (X1 m c)
/-- Region 1's exit contents at the TensorCore's references. -/
abbrev UV10 : (c : Dev nD) → (b : Ref sig .tc) → Buf (Elt F) ((c : Thread nD τ).loc b) := fun c b => U10 m c b
/-- After the host stretch `hostOps2`. -/
def U11 (c : Dev nD) : Valuation τ sig (Elt F) := StableHlo.after hostOps2 (U10 m c)
/-- After the host stretch `hostOps2_1`. -/
def U12 (c : Dev nD) : Valuation τ sig (Elt F) := StableHlo.after hostOps2_1 (U11 m c)
/-- After the host stretch `hostOps2_2`. -/
def U13 (c : Dev nD) : Valuation τ sig (Elt F) := StableHlo.after hostOps2_2 (U12 m c)
/-- After the host stretch `hostOps2_3`. -/
def U14 (c : Dev nD) : Valuation τ sig (Elt F) := StableHlo.after hostOps2_3 (U13 m c)
/-- After the host stretch `hostOps2_4`. -/
def U15 (c : Dev nD) : Valuation τ sig (Elt F) := StableHlo.after hostOps2_4 (U14 m c)
/-- Region 2's entry contents at the TensorCore's references. -/
abbrev UV15 : (c : Dev nD) → (b : Ref sig .tc) → Buf (Elt F) ((c : Thread nD τ).loc b) := fun c b => U15 m c b
/-- What region 2 leaves in its output array `main_v26`. -/
def X2 (c : Dev nD) : Buf (Elt F) ((c : Thread nD τ).loc main_v26) := (dat2 (UV15 m) c).arrAt 3 cfg2.N
/-- After region 2. -/
def U16 (c : Dev nD) : Valuation τ sig (Elt F) := Function.update (U15 m c) main_v26 (X2 m c)
/-- Region 2's exit contents at the TensorCore's references. -/
abbrev UV16 : (c : Dev nD) → (b : Ref sig .tc) → Buf (Elt F) ((c : Thread nD τ).loc b) := fun c b => U16 m c b
/-- After the host stretch `hostOps3`. -/
def U17 (c : Dev nD) : Valuation τ sig (Elt F) := StableHlo.after hostOps3 (U16 m c)
/-- After the host stretch `hostOps3_1`. -/
def U18 (c : Dev nD) : Valuation τ sig (Elt F) := StableHlo.after hostOps3_1 (U17 m c)
/-- After the host stretch `hostOps3_2`. -/
def U19 (c : Dev nD) : Valuation τ sig (Elt F) := StableHlo.after hostOps3_2 (U18 m c)
/-- After the host stretch `hostOps3_3`. -/
def U20 (c : Dev nD) : Valuation τ sig (Elt F) := StableHlo.after hostOps3_3 (U19 m c)
/-- After the host stretch `hostOps3_4`. -/
def U21 (c : Dev nD) : Valuation τ sig (Elt F) := StableHlo.after hostOps3_4 (U20 m c)
/-- Region 3's entry contents at the TensorCore's references. -/
abbrev UV21 : (c : Dev nD) → (b : Ref sig .tc) → Buf (Elt F) ((c : Thread nD τ).loc b) := fun c b => U21 m c b
/-- What region 3 leaves in its output array `main_v37`. -/
def X3 (c : Dev nD) : Buf (Elt F) ((c : Thread nD τ).loc main_v37) := (dat3 (UV21 m) c).arrAt 3 cfg3.N
/-- After region 3. -/
def U22 (c : Dev nD) : Valuation τ sig (Elt F) := Function.update (U21 m c) main_v37 (X3 m c)
/-- Region 3's exit contents at the TensorCore's references. -/
abbrev UV22 : (c : Dev nD) → (b : Ref sig .tc) → Buf (Elt F) ((c : Thread nD τ).loc b) := fun c b => U22 m c b
/-- After the host stretch `hostOps4`. -/
def U23 (c : Dev nD) : Valuation τ sig (Elt F) := StableHlo.after hostOps4 (U22 m c)
/-- After the host stretch `hostOps4_1`. -/
def U24 (c : Dev nD) : Valuation τ sig (Elt F) := StableHlo.after hostOps4_1 (U23 m c)
/-- After the host stretch `hostOps4_2`. -/
def U25 (c : Dev nD) : Valuation τ sig (Elt F) := StableHlo.after hostOps4_2 (U24 m c)
/-- After the host stretch `hostOps4_3`. -/
def U26 (c : Dev nD) : Valuation τ sig (Elt F) := StableHlo.after hostOps4_3 (U25 m c)
/-- After the host stretch `hostOps4_4`. -/
def U27 (c : Dev nD) : Valuation τ sig (Elt F) := StableHlo.after hostOps4_4 (U26 m c)
/-- Region 4's entry contents at the TensorCore's references. -/
abbrev UV27 : (c : Dev nD) → (b : Ref sig .tc) → Buf (Elt F) ((c : Thread nD τ).loc b) := fun c b => U27 m c b
/-- What region 4 leaves in its output array `main_v48`. -/
def X4 (c : Dev nD) : Buf (Elt F) ((c : Thread nD τ).loc main_v48) := (dat4 (UV27 m) c).arrAt 3 cfg4.N
/-- After region 4. -/
def U28 (c : Dev nD) : Valuation τ sig (Elt F) := Function.update (U27 m c) main_v48 (X4 m c)
/-- Region 4's exit contents at the TensorCore's references. -/
abbrev UV28 : (c : Dev nD) → (b : Ref sig .tc) → Buf (Elt F) ((c : Thread nD τ).loc b) := fun c b => U28 m c b
/-- After the host stretch `hostOps5`. -/
def U29 (c : Dev nD) : Valuation τ sig (Elt F) := StableHlo.after hostOps5 (U28 m c)
/-- After the host stretch `hostOps5_1`. -/
def U30 (c : Dev nD) : Valuation τ sig (Elt F) := StableHlo.after hostOps5_1 (U29 m c)
/-- After the host stretch `hostOps5_2`. -/
def U31 (c : Dev nD) : Valuation τ sig (Elt F) := StableHlo.after hostOps5_2 (U30 m c)
/-- After the host stretch `hostOps5_3`. -/
def U32 (c : Dev nD) : Valuation τ sig (Elt F) := StableHlo.after hostOps5_3 (U31 m c)
/-- After the host stretch `hostOps5_4`. -/
def U33 (c : Dev nD) : Valuation τ sig (Elt F) := StableHlo.after hostOps5_4 (U32 m c)
/-- Region 5's entry contents at the TensorCore's references. -/
abbrev UV33 : (c : Dev nD) → (b : Ref sig .tc) → Buf (Elt F) ((c : Thread nD τ).loc b) := fun c b => U33 m c b
/-- What region 5 leaves in its output array `main_v59`. -/
def X5 (c : Dev nD) : Buf (Elt F) ((c : Thread nD τ).loc main_v59) := (dat5 (UV33 m) c).arrAt 3 cfg5.N
/-- After region 5. -/
def U34 (c : Dev nD) : Valuation τ sig (Elt F) := Function.update (U33 m c) main_v59 (X5 m c)
/-- Region 5's exit contents at the TensorCore's references. -/
abbrev UV34 : (c : Dev nD) → (b : Ref sig .tc) → Buf (Elt F) ((c : Thread nD τ).loc b) := fun c b => U34 m c b
/-- After the host stretch `hostOps6`. -/
def U35 (c : Dev nD) : Valuation τ sig (Elt F) := StableHlo.after hostOps6 (U34 m c)
/-- After the host stretch `hostOps6_1`. -/
def U36 (c : Dev nD) : Valuation τ sig (Elt F) := StableHlo.after hostOps6_1 (U35 m c)
/-- After the host stretch `hostOps6_2`. -/
def U37 (c : Dev nD) : Valuation τ sig (Elt F) := StableHlo.after hostOps6_2 (U36 m c)
/-- After the host stretch `hostOps6_3`. -/
def U38 (c : Dev nD) : Valuation τ sig (Elt F) := StableHlo.after hostOps6_3 (U37 m c)
/-- After the host stretch `hostOps6_4`. -/
def U39 (c : Dev nD) : Valuation τ sig (Elt F) := StableHlo.after hostOps6_4 (U38 m c)
/-- Region 6's entry contents at the TensorCore's references. -/
abbrev UV39 : (c : Dev nD) → (b : Ref sig .tc) → Buf (Elt F) ((c : Thread nD τ).loc b) := fun c b => U39 m c b
/-- What region 6 leaves in its output array `main_v70`. -/
def X6 (c : Dev nD) : Buf (Elt F) ((c : Thread nD τ).loc main_v70) := (dat6 (UV39 m) c).arrAt 3 cfg6.N
/-- After region 6. -/
def U40 (c : Dev nD) : Valuation τ sig (Elt F) := Function.update (U39 m c) main_v70 (X6 m c)
/-- Region 6's exit contents at the TensorCore's references. -/
abbrev UV40 : (c : Dev nD) → (b : Ref sig .tc) → Buf (Elt F) ((c : Thread nD τ).loc b) := fun c b => U40 m c b
/-- After the host stretch `hostOps7`. -/
def U41 (c : Dev nD) : Valuation τ sig (Elt F) := StableHlo.after hostOps7 (U40 m c)
/-- After the host stretch `hostOps7_1`. -/
def U42 (c : Dev nD) : Valuation τ sig (Elt F) := StableHlo.after hostOps7_1 (U41 m c)
/-- After the host stretch `hostOps7_2`. -/
def U43 (c : Dev nD) : Valuation τ sig (Elt F) := StableHlo.after hostOps7_2 (U42 m c)
/-- After the host stretch `hostOps7_3`. -/
def U44 (c : Dev nD) : Valuation τ sig (Elt F) := StableHlo.after hostOps7_3 (U43 m c)
/-- After the host stretch `hostOps7_4`. -/
def U45 (c : Dev nD) : Valuation τ sig (Elt F) := StableHlo.after hostOps7_4 (U44 m c)
/-- Region 7's entry contents at the TensorCore's references. -/
abbrev UV45 : (c : Dev nD) → (b : Ref sig .tc) → Buf (Elt F) ((c : Thread nD τ).loc b) := fun c b => U45 m c b
/-- What region 7 leaves in its output array `main_v81`. -/
def X7 (c : Dev nD) : Buf (Elt F) ((c : Thread nD τ).loc main_v81) := (dat7 (UV45 m) c).arrAt 3 cfg7.N
/-- After region 7. -/
def U46 (c : Dev nD) : Valuation τ sig (Elt F) := Function.update (U45 m c) main_v81 (X7 m c)
/-- Region 7's exit contents at the TensorCore's references. -/
abbrev UV46 : (c : Dev nD) → (b : Ref sig .tc) → Buf (Elt F) ((c : Thread nD τ).loc b) := fun c b => U46 m c b
/-- After the host stretch `hostOps8`. -/
def U47 (c : Dev nD) : Valuation τ sig (Elt F) := StableHlo.after hostOps8 (U46 m c)
/-- After the host stretch `hostOps8_1`. -/
def U48 (c : Dev nD) : Valuation τ sig (Elt F) := StableHlo.after hostOps8_1 (U47 m c)
/-- After the host stretch `hostOps8_2`. -/
def U49 (c : Dev nD) : Valuation τ sig (Elt F) := StableHlo.after hostOps8_2 (U48 m c)
/-- After the host stretch `hostOps8_3`. -/
def U50 (c : Dev nD) : Valuation τ sig (Elt F) := StableHlo.after hostOps8_3 (U49 m c)
/-- After the host stretch `hostOps8_4`. -/
def U51 (c : Dev nD) : Valuation τ sig (Elt F) := StableHlo.after hostOps8_4 (U50 m c)
/-- Region 8's entry contents at the TensorCore's references. -/
abbrev UV51 : (c : Dev nD) → (b : Ref sig .tc) → Buf (Elt F) ((c : Thread nD τ).loc b) := fun c b => U51 m c b
/-- What region 8 leaves in its output array `main_v92`. -/
def X8 (c : Dev nD) : Buf (Elt F) ((c : Thread nD τ).loc main_v92) := (dat8 (UV51 m) c).arrAt 3 cfg8.N
/-- After region 8. -/
def U52 (c : Dev nD) : Valuation τ sig (Elt F) := Function.update (U51 m c) main_v92 (X8 m c)
/-- Region 8's exit contents at the TensorCore's references. -/
abbrev UV52 : (c : Dev nD) → (b : Ref sig .tc) → Buf (Elt F) ((c : Thread nD τ).loc b) := fun c b => U52 m c b
/-- After the host stretch `hostOps9`. -/
def U53 (c : Dev nD) : Valuation τ sig (Elt F) := StableHlo.after hostOps9 (U52 m c)
/-- After the host stretch `hostOps9_1`. -/
def U54 (c : Dev nD) : Valuation τ sig (Elt F) := StableHlo.after hostOps9_1 (U53 m c)
/-- After the host stretch `hostOps9_2`. -/
def U55 (c : Dev nD) : Valuation τ sig (Elt F) := StableHlo.after hostOps9_2 (U54 m c)
/-- After the host stretch `hostOps9_3`. -/
def U56 (c : Dev nD) : Valuation τ sig (Elt F) := StableHlo.after hostOps9_3 (U55 m c)
/-- After the host stretch `hostOps9_4`. -/
def U57 (c : Dev nD) : Valuation τ sig (Elt F) := StableHlo.after hostOps9_4 (U56 m c)
/-- Region 9's entry contents at the TensorCore's references. -/
abbrev UV57 : (c : Dev nD) → (b : Ref sig .tc) → Buf (Elt F) ((c : Thread nD τ).loc b) := fun c b => U57 m c b
/-- What region 9 leaves in its output array `main_v103`. -/
def X9 (c : Dev nD) : Buf (Elt F) ((c : Thread nD τ).loc main_v103) := (dat9 (UV57 m) c).arrAt 3 cfg9.N
/-- After region 9. -/
def U58 (c : Dev nD) : Valuation τ sig (Elt F) := Function.update (U57 m c) main_v103 (X9 m c)
/-- Region 9's exit contents at the TensorCore's references. -/
abbrev UV58 : (c : Dev nD) → (b : Ref sig .tc) → Buf (Elt F) ((c : Thread nD τ).loc b) := fun c b => U58 m c b
/-- After the host stretch `hostOps10`. -/
def U59 (c : Dev nD) : Valuation τ sig (Elt F) := StableHlo.after hostOps10 (U58 m c)
/-- After the host stretch `hostOps10_1`. -/
def U60 (c : Dev nD) : Valuation τ sig (Elt F) := StableHlo.after hostOps10_1 (U59 m c)
/-- After the host stretch `hostOps10_2`. -/
def U61 (c : Dev nD) : Valuation τ sig (Elt F) := StableHlo.after hostOps10_2 (U60 m c)
/-- After the host stretch `hostOps10_3`. -/
def U62 (c : Dev nD) : Valuation τ sig (Elt F) := StableHlo.after hostOps10_3 (U61 m c)
/-- After the host stretch `hostOps10_4`. -/
def U63 (c : Dev nD) : Valuation τ sig (Elt F) := StableHlo.after hostOps10_4 (U62 m c)
/-- Region 10's entry contents at the TensorCore's references. -/
abbrev UV63 : (c : Dev nD) → (b : Ref sig .tc) → Buf (Elt F) ((c : Thread nD τ).loc b) := fun c b => U63 m c b
/-- What region 10 leaves in its output array `main_v114`. -/
def X10 (c : Dev nD) : Buf (Elt F) ((c : Thread nD τ).loc main_v114) := (dat10 (UV63 m) c).arrAt 3 cfg10.N
/-- After region 10. -/
def U64 (c : Dev nD) : Valuation τ sig (Elt F) := Function.update (U63 m c) main_v114 (X10 m c)
/-- Region 10's exit contents at the TensorCore's references. -/
abbrev UV64 : (c : Dev nD) → (b : Ref sig .tc) → Buf (Elt F) ((c : Thread nD τ).loc b) := fun c b => U64 m c b

/-- What the regions leave, read off the chain. -/
def outs : Outs (F := F) := fun J r c => match J with
  | 4 => U4 m c r
  | 10 => U10 m c r
  | 16 => U16 m c r
  | 22 => U22 m c r
  | 28 => U28 m c r
  | 34 => U34 m c r
  | 40 => U40 m c r
  | 46 => U46 m c r
  | 52 => U52 m c r
  | 58 => U58 m c r
  | 64 => U64 m c r
  | _ => U0 m c r

theorem V0_eq (c : Dev nD) : V0 m c = U0 m c := rfl
theorem V1_eq (c : Dev nD) : V1 m c = U1 m c := by
  show StableHlo.after hostOps0 (V0 m c) = _; rw [V0_eq]; rfl
theorem V2_eq (c : Dev nD) : V2 m c = U2 m c := by
  show StableHlo.after hostOps0_1 (V1 m c) = _; rw [V1_eq]; rfl
theorem V3_eq (c : Dev nD) : V3 m c = U3 m c := by
  show StableHlo.after hostOps0_2 (V2 m c) = _; rw [V2_eq]; rfl
theorem V4_eq (c : Dev nD) : V4 m (outs m) c = U4 m c := by
  show Function.update (V3 m c) main_v2 (U4 m c main_v2) = _
  rw [V3_eq]; unfold U4; simp only [Function.update_self]
theorem V5_eq (c : Dev nD) : V5 m (outs m) c = U5 m c := by
  show StableHlo.after hostOps1 (V4 m (outs m) c) = _; rw [V4_eq]; rfl
theorem V6_eq (c : Dev nD) : V6 m (outs m) c = U6 m c := by
  show StableHlo.after hostOps1_1 (V5 m (outs m) c) = _; rw [V5_eq]; rfl
theorem V7_eq (c : Dev nD) : V7 m (outs m) c = U7 m c := by
  show StableHlo.after hostOps1_2 (V6 m (outs m) c) = _; rw [V6_eq]; rfl
theorem V8_eq (c : Dev nD) : V8 m (outs m) c = U8 m c := by
  show StableHlo.after hostOps1_3 (V7 m (outs m) c) = _; rw [V7_eq]; rfl
theorem V9_eq (c : Dev nD) : V9 m (outs m) c = U9 m c := by
  show StableHlo.after hostOps1_4 (V8 m (outs m) c) = _; rw [V8_eq]; rfl
theorem V10_eq (c : Dev nD) : V10 m (outs m) c = U10 m c := by
  show Function.update (V9 m (outs m) c) main_v15 (U10 m c main_v15) = _
  rw [V9_eq]; unfold U10; simp only [Function.update_self]
theorem V11_eq (c : Dev nD) : V11 m (outs m) c = U11 m c := by
  show StableHlo.after hostOps2 (V10 m (outs m) c) = _; rw [V10_eq]; rfl
theorem V12_eq (c : Dev nD) : V12 m (outs m) c = U12 m c := by
  show StableHlo.after hostOps2_1 (V11 m (outs m) c) = _; rw [V11_eq]; rfl
theorem V13_eq (c : Dev nD) : V13 m (outs m) c = U13 m c := by
  show StableHlo.after hostOps2_2 (V12 m (outs m) c) = _; rw [V12_eq]; rfl
theorem V14_eq (c : Dev nD) : V14 m (outs m) c = U14 m c := by
  show StableHlo.after hostOps2_3 (V13 m (outs m) c) = _; rw [V13_eq]; rfl
theorem V15_eq (c : Dev nD) : V15 m (outs m) c = U15 m c := by
  show StableHlo.after hostOps2_4 (V14 m (outs m) c) = _; rw [V14_eq]; rfl
theorem V16_eq (c : Dev nD) : V16 m (outs m) c = U16 m c := by
  show Function.update (V15 m (outs m) c) main_v26 (U16 m c main_v26) = _
  rw [V15_eq]; unfold U16; simp only [Function.update_self]
theorem V17_eq (c : Dev nD) : V17 m (outs m) c = U17 m c := by
  show StableHlo.after hostOps3 (V16 m (outs m) c) = _; rw [V16_eq]; rfl
theorem V18_eq (c : Dev nD) : V18 m (outs m) c = U18 m c := by
  show StableHlo.after hostOps3_1 (V17 m (outs m) c) = _; rw [V17_eq]; rfl
theorem V19_eq (c : Dev nD) : V19 m (outs m) c = U19 m c := by
  show StableHlo.after hostOps3_2 (V18 m (outs m) c) = _; rw [V18_eq]; rfl
theorem V20_eq (c : Dev nD) : V20 m (outs m) c = U20 m c := by
  show StableHlo.after hostOps3_3 (V19 m (outs m) c) = _; rw [V19_eq]; rfl
theorem V21_eq (c : Dev nD) : V21 m (outs m) c = U21 m c := by
  show StableHlo.after hostOps3_4 (V20 m (outs m) c) = _; rw [V20_eq]; rfl
theorem V22_eq (c : Dev nD) : V22 m (outs m) c = U22 m c := by
  show Function.update (V21 m (outs m) c) main_v37 (U22 m c main_v37) = _
  rw [V21_eq]; unfold U22; simp only [Function.update_self]
theorem V23_eq (c : Dev nD) : V23 m (outs m) c = U23 m c := by
  show StableHlo.after hostOps4 (V22 m (outs m) c) = _; rw [V22_eq]; rfl
theorem V24_eq (c : Dev nD) : V24 m (outs m) c = U24 m c := by
  show StableHlo.after hostOps4_1 (V23 m (outs m) c) = _; rw [V23_eq]; rfl
theorem V25_eq (c : Dev nD) : V25 m (outs m) c = U25 m c := by
  show StableHlo.after hostOps4_2 (V24 m (outs m) c) = _; rw [V24_eq]; rfl
theorem V26_eq (c : Dev nD) : V26 m (outs m) c = U26 m c := by
  show StableHlo.after hostOps4_3 (V25 m (outs m) c) = _; rw [V25_eq]; rfl
theorem V27_eq (c : Dev nD) : V27 m (outs m) c = U27 m c := by
  show StableHlo.after hostOps4_4 (V26 m (outs m) c) = _; rw [V26_eq]; rfl
theorem V28_eq (c : Dev nD) : V28 m (outs m) c = U28 m c := by
  show Function.update (V27 m (outs m) c) main_v48 (U28 m c main_v48) = _
  rw [V27_eq]; unfold U28; simp only [Function.update_self]
theorem V29_eq (c : Dev nD) : V29 m (outs m) c = U29 m c := by
  show StableHlo.after hostOps5 (V28 m (outs m) c) = _; rw [V28_eq]; rfl
theorem V30_eq (c : Dev nD) : V30 m (outs m) c = U30 m c := by
  show StableHlo.after hostOps5_1 (V29 m (outs m) c) = _; rw [V29_eq]; rfl
theorem V31_eq (c : Dev nD) : V31 m (outs m) c = U31 m c := by
  show StableHlo.after hostOps5_2 (V30 m (outs m) c) = _; rw [V30_eq]; rfl
theorem V32_eq (c : Dev nD) : V32 m (outs m) c = U32 m c := by
  show StableHlo.after hostOps5_3 (V31 m (outs m) c) = _; rw [V31_eq]; rfl
theorem V33_eq (c : Dev nD) : V33 m (outs m) c = U33 m c := by
  show StableHlo.after hostOps5_4 (V32 m (outs m) c) = _; rw [V32_eq]; rfl
theorem V34_eq (c : Dev nD) : V34 m (outs m) c = U34 m c := by
  show Function.update (V33 m (outs m) c) main_v59 (U34 m c main_v59) = _
  rw [V33_eq]; unfold U34; simp only [Function.update_self]
theorem V35_eq (c : Dev nD) : V35 m (outs m) c = U35 m c := by
  show StableHlo.after hostOps6 (V34 m (outs m) c) = _; rw [V34_eq]; rfl
theorem V36_eq (c : Dev nD) : V36 m (outs m) c = U36 m c := by
  show StableHlo.after hostOps6_1 (V35 m (outs m) c) = _; rw [V35_eq]; rfl
theorem V37_eq (c : Dev nD) : V37 m (outs m) c = U37 m c := by
  show StableHlo.after hostOps6_2 (V36 m (outs m) c) = _; rw [V36_eq]; rfl
theorem V38_eq (c : Dev nD) : V38 m (outs m) c = U38 m c := by
  show StableHlo.after hostOps6_3 (V37 m (outs m) c) = _; rw [V37_eq]; rfl
theorem V39_eq (c : Dev nD) : V39 m (outs m) c = U39 m c := by
  show StableHlo.after hostOps6_4 (V38 m (outs m) c) = _; rw [V38_eq]; rfl
theorem V40_eq (c : Dev nD) : V40 m (outs m) c = U40 m c := by
  show Function.update (V39 m (outs m) c) main_v70 (U40 m c main_v70) = _
  rw [V39_eq]; unfold U40; simp only [Function.update_self]
theorem V41_eq (c : Dev nD) : V41 m (outs m) c = U41 m c := by
  show StableHlo.after hostOps7 (V40 m (outs m) c) = _; rw [V40_eq]; rfl
theorem V42_eq (c : Dev nD) : V42 m (outs m) c = U42 m c := by
  show StableHlo.after hostOps7_1 (V41 m (outs m) c) = _; rw [V41_eq]; rfl
theorem V43_eq (c : Dev nD) : V43 m (outs m) c = U43 m c := by
  show StableHlo.after hostOps7_2 (V42 m (outs m) c) = _; rw [V42_eq]; rfl
theorem V44_eq (c : Dev nD) : V44 m (outs m) c = U44 m c := by
  show StableHlo.after hostOps7_3 (V43 m (outs m) c) = _; rw [V43_eq]; rfl
theorem V45_eq (c : Dev nD) : V45 m (outs m) c = U45 m c := by
  show StableHlo.after hostOps7_4 (V44 m (outs m) c) = _; rw [V44_eq]; rfl
theorem V46_eq (c : Dev nD) : V46 m (outs m) c = U46 m c := by
  show Function.update (V45 m (outs m) c) main_v81 (U46 m c main_v81) = _
  rw [V45_eq]; unfold U46; simp only [Function.update_self]
theorem V47_eq (c : Dev nD) : V47 m (outs m) c = U47 m c := by
  show StableHlo.after hostOps8 (V46 m (outs m) c) = _; rw [V46_eq]; rfl
theorem V48_eq (c : Dev nD) : V48 m (outs m) c = U48 m c := by
  show StableHlo.after hostOps8_1 (V47 m (outs m) c) = _; rw [V47_eq]; rfl
theorem V49_eq (c : Dev nD) : V49 m (outs m) c = U49 m c := by
  show StableHlo.after hostOps8_2 (V48 m (outs m) c) = _; rw [V48_eq]; rfl
theorem V50_eq (c : Dev nD) : V50 m (outs m) c = U50 m c := by
  show StableHlo.after hostOps8_3 (V49 m (outs m) c) = _; rw [V49_eq]; rfl
theorem V51_eq (c : Dev nD) : V51 m (outs m) c = U51 m c := by
  show StableHlo.after hostOps8_4 (V50 m (outs m) c) = _; rw [V50_eq]; rfl
theorem V52_eq (c : Dev nD) : V52 m (outs m) c = U52 m c := by
  show Function.update (V51 m (outs m) c) main_v92 (U52 m c main_v92) = _
  rw [V51_eq]; unfold U52; simp only [Function.update_self]
theorem V53_eq (c : Dev nD) : V53 m (outs m) c = U53 m c := by
  show StableHlo.after hostOps9 (V52 m (outs m) c) = _; rw [V52_eq]; rfl
theorem V54_eq (c : Dev nD) : V54 m (outs m) c = U54 m c := by
  show StableHlo.after hostOps9_1 (V53 m (outs m) c) = _; rw [V53_eq]; rfl
theorem V55_eq (c : Dev nD) : V55 m (outs m) c = U55 m c := by
  show StableHlo.after hostOps9_2 (V54 m (outs m) c) = _; rw [V54_eq]; rfl
theorem V56_eq (c : Dev nD) : V56 m (outs m) c = U56 m c := by
  show StableHlo.after hostOps9_3 (V55 m (outs m) c) = _; rw [V55_eq]; rfl
theorem V57_eq (c : Dev nD) : V57 m (outs m) c = U57 m c := by
  show StableHlo.after hostOps9_4 (V56 m (outs m) c) = _; rw [V56_eq]; rfl
theorem V58_eq (c : Dev nD) : V58 m (outs m) c = U58 m c := by
  show Function.update (V57 m (outs m) c) main_v103 (U58 m c main_v103) = _
  rw [V57_eq]; unfold U58; simp only [Function.update_self]
theorem V59_eq (c : Dev nD) : V59 m (outs m) c = U59 m c := by
  show StableHlo.after hostOps10 (V58 m (outs m) c) = _; rw [V58_eq]; rfl
theorem V60_eq (c : Dev nD) : V60 m (outs m) c = U60 m c := by
  show StableHlo.after hostOps10_1 (V59 m (outs m) c) = _; rw [V59_eq]; rfl
theorem V61_eq (c : Dev nD) : V61 m (outs m) c = U61 m c := by
  show StableHlo.after hostOps10_2 (V60 m (outs m) c) = _; rw [V60_eq]; rfl
theorem V62_eq (c : Dev nD) : V62 m (outs m) c = U62 m c := by
  show StableHlo.after hostOps10_3 (V61 m (outs m) c) = _; rw [V61_eq]; rfl
theorem V63_eq (c : Dev nD) : V63 m (outs m) c = U63 m c := by
  show StableHlo.after hostOps10_4 (V62 m (outs m) c) = _; rw [V62_eq]; rfl
theorem V64_eq (c : Dev nD) : V64 m (outs m) c = U64 m c := by
  show Function.update (V63 m (outs m) c) main_v114 (U64 m c main_v114) = _
  rw [V63_eq]; unfold U64; simp only [Function.update_self]

end Cert.Kernel.Hand

end
-- ==== Proof.KData.lean ====
import proofs.«407834_j69114613728754_1_alg».proof.Proof.KChain

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- Each region's data at the contents it is entered with. -/
def pdats : (p : Fin 11) → (c : Dev nD) → Dat τ (Elt F) Unit ℕ (UR sig nD τ) ℕ (cfgs p) c
  | ⟨0, _⟩ => fun c => dat0 (UV3 m) c
  | ⟨1, _⟩ => fun c => dat1 (UV9 m) c
  | ⟨2, _⟩ => fun c => dat2 (UV15 m) c
  | ⟨3, _⟩ => fun c => dat3 (UV21 m) c
  | ⟨4, _⟩ => fun c => dat4 (UV27 m) c
  | ⟨5, _⟩ => fun c => dat5 (UV33 m) c
  | ⟨6, _⟩ => fun c => dat6 (UV39 m) c
  | ⟨7, _⟩ => fun c => dat7 (UV45 m) c
  | ⟨8, _⟩ => fun c => dat8 (UV51 m) c
  | ⟨9, _⟩ => fun c => dat9 (UV57 m) c
  | ⟨10, _⟩ => fun c => dat10 (UV63 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.Kernel.Hand

end
-- ==== Proof.KSegOf.lean ====
import proofs.«407834_j69114613728754_1_alg».proof.Proof.KData

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- One construction serves all eleven regions: they differ in the pipeline, its output window and the contents around it. -/
def regOf (p : Fin 11) (lf : Pipeline.LaunchFacts (nD := nD) (τ := τ) cfgs p) (Ub Ua : (c : Dev nD) → Valuation τ sig (Elt F))
    (hbody : ∀ c, BodyObligation (pdats m p c) (defs₀ (F := F)) Variants.none () Set.univ)
    (o : Fin (cfgs p).W) (hin : ∀ w, w ≠ o → ((cfgs p).win w).isOut = false)
    (hq : ∀ c w, (pdats m p c).q w = fullShare) (howed : ∀ c t, (pdats m p c).owed t = 0)
    (hrec : ∀ c x, x ∈ (pdats m p c).recorded 0)
    (hΦ : ∀ c t, (pdats m p c).Φ t = Pipeline.ΦA (cfgs p).spec c)
    (hA : ∀ c w, (pdats m p c).A w = Ub c (Pipeline.arrRef (cfgs p).spec w))
    (hkeep : ∀ c b, b ≠ Pipeline.arrRef (cfgs p).spec o → Ua c b = Ub c b)
    (hout : ∀ c, (pdats m p c).arrAt o (cfgs p).N = Ua c (Pipeline.arrRef (cfgs p).spec o)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Ub c) ∗ R c)
  post c := iprop(StableHlo.held (c : Thread nD τ) (Pipeline.ucRefs τ sig) (Ua c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Ub c b)
  hentry c := by
    rw [Pipeline.ownSems0_none]
    have hsplit := Pipeline.arrays_of_unscopedBufs (p := p) (pcfgs (F := F)) adm (pdats m) lf.win lf.arr_whole c
      ((pdats m p c).share_full (hq c)) (fun b => Ub c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Ub c b) (fun b => Ua c b) ((pdats m p c).arrAt · (cfgs p).N)
      (fun w => by
        by_cases h : w = o
        · subst h; exact hout c
        · exact ((pdats m p c).arrAt_in w (hin w h) _).trans ((hA c w).trans (hkeep c _ fun e => h (lf.win.arr_inj e)).symm))
      (fun b hb => hkeep c b fun e => hb (e ▸ Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.Kernel.Hand

end
-- ==== Proof.KSeg.lean ====
import proofs.«407834_j69114613728754_1_alg».proof.Proof.KSegOf

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : RegionSeg (pcfgs (F := F)) adm (pdats m) () defs₀ 𝒱₀ L lv 0 :=
  regOf m 0 launch0 (U3 m) (U4 m) (fun c => body_obligation0 (UV3 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg1 : RegionSeg (pcfgs (F := F)) adm (pdats m) () defs₀ 𝒱₀ L lv 1 :=
  regOf m 1 launch1 (U9 m) (U10 m) (fun c => body_obligation1 (UV9 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg2 : RegionSeg (pcfgs (F := F)) adm (pdats m) () defs₀ 𝒱₀ L lv 2 :=
  regOf m 2 launch2 (U15 m) (U16 m) (fun c => body_obligation2 (UV15 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg3 : RegionSeg (pcfgs (F := F)) adm (pdats m) () defs₀ 𝒱₀ L lv 3 :=
  regOf m 3 launch3 (U21 m) (U22 m) (fun c => body_obligation3 (UV21 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg4 : RegionSeg (pcfgs (F := F)) adm (pdats m) () defs₀ 𝒱₀ L lv 4 :=
  regOf m 4 launch4 (U27 m) (U28 m) (fun c => body_obligation4 (UV27 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg5 : RegionSeg (pcfgs (F := F)) adm (pdats m) () defs₀ 𝒱₀ L lv 5 :=
  regOf m 5 launch5 (U33 m) (U34 m) (fun c => body_obligation5 (UV33 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg6 : RegionSeg (pcfgs (F := F)) adm (pdats m) () defs₀ 𝒱₀ L lv 6 :=
  regOf m 6 launch6 (U39 m) (U40 m) (fun c => body_obligation6 (UV39 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg7 : RegionSeg (pcfgs (F := F)) adm (pdats m) () defs₀ 𝒱₀ L lv 7 :=
  regOf m 7 launch7 (U45 m) (U46 m) (fun c => body_obligation7 (UV45 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg8 : RegionSeg (pcfgs (F := F)) adm (pdats m) () defs₀ 𝒱₀ L lv 8 :=
  regOf m 8 launch8 (U51 m) (U52 m) (fun c => body_obligation8 (UV51 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg9 : RegionSeg (pcfgs (F := F)) adm (pdats m) () defs₀ 𝒱₀ L lv 9 :=
  regOf m 9 launch9 (U57 m) (U58 m) (fun c => body_obligation9 (UV57 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg10 : RegionSeg (pcfgs (F := F)) adm (pdats m) () defs₀ 𝒱₀ L lv 10 :=
  regOf m 10 launch10 (U63 m) (U64 m) (fun c => body_obligation10 (UV63 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

end Cert.Kernel.Hand

end
-- ==== Proof.KRun.lean ====
import proofs.«407834_j69114613728754_1_alg».proof.Proof.KSeg

set_option maxRecDepth 16384

noncomputable section

namespace Cert.Kernel.Hand

open Cert.Kernel.Gen Cert.Kernel.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

set_option backward.isDefEq.respectTransparency.types false in

/-- The program runs to its end from any launch memory, its six arguments kept and its result at the last region's output. -/
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v114) = X10 m c) := by
  have h := frame_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => by rw [V3_eq]; exact .rfl) (fun c => by rw [V4_eq]; exact .rfl)
    (reg1 m) (fun c => by rw [V9_eq]; exact .rfl) (fun c => by rw [V10_eq]; exact .rfl)
    (reg2 m) (fun c => by rw [V15_eq]; exact .rfl) (fun c => by rw [V16_eq]; exact .rfl)
    (reg3 m) (fun c => by rw [V21_eq]; exact .rfl) (fun c => by rw [V22_eq]; exact .rfl)
    (reg4 m) (fun c => by rw [V27_eq]; exact .rfl) (fun c => by rw [V28_eq]; exact .rfl)
    (reg5 m) (fun c => by rw [V33_eq]; exact .rfl) (fun c => by rw [V34_eq]; exact .rfl)
    (reg6 m) (fun c => by rw [V39_eq]; exact .rfl) (fun c => by rw [V40_eq]; exact .rfl)
    (reg7 m) (fun c => by rw [V45_eq]; exact .rfl) (fun c => by rw [V46_eq]; exact .rfl)
    (reg8 m) (fun c => by rw [V51_eq]; exact .rfl) (fun c => by rw [V52_eq]; exact .rfl)
    (reg9 m) (fun c => by rw [V57_eq]; exact .rfl) (fun c => by rw [V58_eq]; exact .rfl)
    (reg10 m) (fun c => by rw [V63_eq]; exact .rfl) (fun c => by rw [V64_eq]; exact .rfl)
  refine h.mono fun r hr c => ?_
  obtain ⟨h0, h1, h2, h3, h4, h5, h6⟩ := hr c
  refine ⟨h0, h1, h2, h3, h4, h5, h6.trans ?_⟩
  rw [V64_eq]; unfold U64; simp only [Function.update_self]

end Cert.Kernel.Hand

end
-- ==== Proof.RegionsKernelIdeal.lean ====
import proofs.«407834_j69114613728754_1_alg».proof.Proof.Gen.KernelIdeal.Launch
import Idealize.ShloMosaic.Lib.Pipeline.Frame
import Idealize.ShloMosaic.Lib.Pipeline.Regions

set_option maxRecDepth 2988

noncomputable section

namespace Cert.KernelIdeal.GenP

open Cert.KernelIdeal.Gen

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

abbrev Outs : Type := ℕ → (r : Ref sig .tc) → (c : Dev nD) → Buf (Elt F) ((c : Thread nD τ).loc r)

variable (m : (ℓ : Loc nD τ sig) → Buf (Elt F) ℓ) (outs : Outs (F := F))

abbrev V0 (c : Dev nD) : Valuation τ sig (Elt F) := fun b => m (c, b)

abbrev V1 (c : Dev nD) : Valuation τ sig (Elt F) := StableHlo.after hostOps0 (V0 m c)

abbrev V2 (c : Dev nD) : Valuation τ sig (Elt F) := StableHlo.after hostOps0_1 (V1 m c)

abbrev V3 (c : Dev nD) : Valuation τ sig (Elt F) := StableHlo.after hostOps0_2 (V2 m c)

abbrev V4 (c : Dev nD) : Valuation τ sig (Elt F) := Function.update (V3 m c) main_v2 (outs 4 main_v2 c)

abbrev V5 (c : Dev nD) : Valuation τ sig (Elt F) := StableHlo.after hostOps1 (V4 m outs c)

abbrev V6 (c : Dev nD) : Valuation τ sig (Elt F) := StableHlo.after hostOps1_1 (V5 m outs c)

abbrev V7 (c : Dev nD) : Valuation τ sig (Elt F) := StableHlo.after hostOps1_2 (V6 m outs c)

abbrev V8 (c : Dev nD) : Valuation τ sig (Elt F) := StableHlo.after hostOps1_3 (V7 m outs c)

abbrev V9 (c : Dev nD) : Valuation τ sig (Elt F) := StableHlo.after hostOps1_4 (V8 m outs c)

abbrev V10 (c : Dev nD) : Valuation τ sig (Elt F) := Function.update (V9 m outs c) main_v15 (outs 10 main_v15 c)

abbrev V11 (c : Dev nD) : Valuation τ sig (Elt F) := StableHlo.after hostOps2 (V10 m outs c)

abbrev V12 (c : Dev nD) : Valuation τ sig (Elt F) := StableHlo.after hostOps2_1 (V11 m outs c)

abbrev V13 (c : Dev nD) : Valuation τ sig (Elt F) := StableHlo.after hostOps2_2 (V12 m outs c)

abbrev V14 (c : Dev nD) : Valuation τ sig (Elt F) := StableHlo.after hostOps2_3 (V13 m outs c)

abbrev V15 (c : Dev nD) : Valuation τ sig (Elt F) := StableHlo.after hostOps2_4 (V14 m outs c)

abbrev V16 (c : Dev nD) : Valuation τ sig (Elt F) := Function.update (V15 m outs c) main_v26 (outs 16 main_v26 c)

abbrev V17 (c : Dev nD) : Valuation τ sig (Elt F) := StableHlo.after hostOps3 (V16 m outs c)

abbrev V18 (c : Dev nD) : Valuation τ sig (Elt F) := StableHlo.after hostOps3_1 (V17 m outs c)

abbrev V19 (c : Dev nD) : Valuation τ sig (Elt F) := StableHlo.after hostOps3_2 (V18 m outs c)

abbrev V20 (c : Dev nD) : Valuation τ sig (Elt F) := StableHlo.after hostOps3_3 (V19 m outs c)

abbrev V21 (c : Dev nD) : Valuation τ sig (Elt F) := StableHlo.after hostOps3_4 (V20 m outs c)

abbrev V22 (c : Dev nD) : Valuation τ sig (Elt F) := Function.update (V21 m outs c) main_v37 (outs 22 main_v37 c)

abbrev V23 (c : Dev nD) : Valuation τ sig (Elt F) := StableHlo.after hostOps4 (V22 m outs c)

abbrev V24 (c : Dev nD) : Valuation τ sig (Elt F) := StableHlo.after hostOps4_1 (V23 m outs c)

abbrev V25 (c : Dev nD) : Valuation τ sig (Elt F) := StableHlo.after hostOps4_2 (V24 m outs c)

abbrev V26 (c : Dev nD) : Valuation τ sig (Elt F) := StableHlo.after hostOps4_3 (V25 m outs c)

abbrev V27 (c : Dev nD) : Valuation τ sig (Elt F) := StableHlo.after hostOps4_4 (V26 m outs c)

abbrev V28 (c : Dev nD) : Valuation τ sig (Elt F) := Function.update (V27 m outs c) main_v48 (outs 28 main_v48 c)

abbrev V29 (c : Dev nD) : Valuation τ sig (Elt F) := StableHlo.after hostOps5 (V28 m outs c)

abbrev V30 (c : Dev nD) : Valuation τ sig (Elt F) := StableHlo.after hostOps5_1 (V29 m outs c)

abbrev V31 (c : Dev nD) : Valuation τ sig (Elt F) := StableHlo.after hostOps5_2 (V30 m outs c)

abbrev V32 (c : Dev nD) : Valuation τ sig (Elt F) := StableHlo.after hostOps5_3 (V31 m outs c)

abbrev V33 (c : Dev nD) : Valuation τ sig (Elt F) := StableHlo.after hostOps5_4 (V32 m outs c)

abbrev V34 (c : Dev nD) : Valuation τ sig (Elt F) := Function.update (V33 m outs c) main_v59 (outs 34 main_v59 c)

abbrev V35 (c : Dev nD) : Valuation τ sig (Elt F) := StableHlo.after hostOps6 (V34 m outs c)

abbrev V36 (c : Dev nD) : Valuation τ sig (Elt F) := StableHlo.after hostOps6_1 (V35 m outs c)

abbrev V37 (c : Dev nD) : Valuation τ sig (Elt F) := StableHlo.after hostOps6_2 (V36 m outs c)

abbrev V38 (c : Dev nD) : Valuation τ sig (Elt F) := StableHlo.after hostOps6_3 (V37 m outs c)

abbrev V39 (c : Dev nD) : Valuation τ sig (Elt F) := StableHlo.after hostOps6_4 (V38 m outs c)

abbrev V40 (c : Dev nD) : Valuation τ sig (Elt F) := Function.update (V39 m outs c) main_v70 (outs 40 main_v70 c)

abbrev V41 (c : Dev nD) : Valuation τ sig (Elt F) := StableHlo.after hostOps7 (V40 m outs c)

abbrev V42 (c : Dev nD) : Valuation τ sig (Elt F) := StableHlo.after hostOps7_1 (V41 m outs c)

abbrev V43 (c : Dev nD) : Valuation τ sig (Elt F) := StableHlo.after hostOps7_2 (V42 m outs c)

abbrev V44 (c : Dev nD) : Valuation τ sig (Elt F) := StableHlo.after hostOps7_3 (V43 m outs c)

abbrev V45 (c : Dev nD) : Valuation τ sig (Elt F) := StableHlo.after hostOps7_4 (V44 m outs c)

abbrev V46 (c : Dev nD) : Valuation τ sig (Elt F) := Function.update (V45 m outs c) main_v81 (outs 46 main_v81 c)

abbrev V47 (c : Dev nD) : Valuation τ sig (Elt F) := StableHlo.after hostOps8 (V46 m outs c)

abbrev V48 (c : Dev nD) : Valuation τ sig (Elt F) := StableHlo.after hostOps8_1 (V47 m outs c)

abbrev V49 (c : Dev nD) : Valuation τ sig (Elt F) := StableHlo.after hostOps8_2 (V48 m outs c)

abbrev V50 (c : Dev nD) : Valuation τ sig (Elt F) := StableHlo.after hostOps8_3 (V49 m outs c)

abbrev V51 (c : Dev nD) : Valuation τ sig (Elt F) := StableHlo.after hostOps8_4 (V50 m outs c)

abbrev V52 (c : Dev nD) : Valuation τ sig (Elt F) := Function.update (V51 m outs c) main_v92 (outs 52 main_v92 c)

abbrev V53 (c : Dev nD) : Valuation τ sig (Elt F) := StableHlo.after hostOps9 (V52 m outs c)

abbrev V54 (c : Dev nD) : Valuation τ sig (Elt F) := StableHlo.after hostOps9_1 (V53 m outs c)

abbrev V55 (c : Dev nD) : Valuation τ sig (Elt F) := StableHlo.after hostOps9_2 (V54 m outs c)

abbrev V56 (c : Dev nD) : Valuation τ sig (Elt F) := StableHlo.after hostOps9_3 (V55 m outs c)

abbrev V57 (c : Dev nD) : Valuation τ sig (Elt F) := StableHlo.after hostOps9_4 (V56 m outs c)

abbrev V58 (c : Dev nD) : Valuation τ sig (Elt F) := Function.update (V57 m outs c) main_v103 (outs 58 main_v103 c)

abbrev V59 (c : Dev nD) : Valuation τ sig (Elt F) := StableHlo.after hostOps10 (V58 m outs c)

abbrev V60 (c : Dev nD) : Valuation τ sig (Elt F) := StableHlo.after hostOps10_1 (V59 m outs c)

abbrev V61 (c : Dev nD) : Valuation τ sig (Elt F) := StableHlo.after hostOps10_2 (V60 m outs c)

abbrev V62 (c : Dev nD) : Valuation τ sig (Elt F) := StableHlo.after hostOps10_3 (V61 m outs c)

abbrev V63 (c : Dev nD) : Valuation τ sig (Elt F) := StableHlo.after hostOps10_4 (V62 m outs c)

abbrev V64 (c : Dev nD) : Valuation τ sig (Elt F) := Function.update (V63 m outs c) main_v114 (outs 64 main_v114 c)

theorem hostOps0_fresh : (hostOps0 : List (HloOp τ sig (Elt F))).Forall fun op => op.fresh = ∅ := by
  simp only [List.Forall]; repeat' constructor

abbrev hostOps0_W : List (Ref sig .tc) := [main_c]
theorem hostOps0_writes : (hostOps0 : List (HloOp τ sig (Elt F))).Forall fun op => op.writes ⊆ (hostOps0_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_1_fresh : (hostOps0_1 : List (HloOp τ sig (Elt F))).Forall fun op => op.fresh = ∅ := by
  simp only [List.Forall]; repeat' constructor

abbrev hostOps0_1_W : List (Ref sig .tc) := [main_call0_v0, main_v0]
theorem hostOps0_1_writes : (hostOps0_1 : List (HloOp τ sig (Elt F))).Forall fun op => op.writes ⊆ (hostOps0_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps0_2_fresh : (hostOps0_2 : List (HloOp τ sig (Elt F))).Forall fun op => op.fresh = ∅ := by
  simp only [List.Forall]; repeat' constructor

abbrev hostOps0_2_W : List (Ref sig .tc) := [main_v1]
theorem hostOps0_2_writes : (hostOps0_2 : List (HloOp τ sig (Elt F))).Forall fun op => op.writes ⊆ (hostOps0_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_fresh : (hostOps1 : List (HloOp τ sig (Elt F))).Forall fun op => op.fresh = ∅ := by
  simp only [List.Forall]; repeat' constructor

abbrev hostOps1_W : List (Ref sig .tc) := [main_v3, main_v4, main_v5, main_v6, main_v7]
theorem hostOps1_writes : (hostOps1 : List (HloOp τ sig (Elt F))).Forall fun op => op.writes ⊆ (hostOps1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_1_fresh : (hostOps1_1 : List (HloOp τ sig (Elt F))).Forall fun op => op.fresh = ∅ := by
  simp only [List.Forall]; repeat' constructor

abbrev hostOps1_1_W : List (Ref sig .tc) := [main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_v14, main_call1_cst, main_call1_v15, main_v8]
theorem hostOps1_1_writes : (hostOps1_1 : List (HloOp τ sig (Elt F))).Forall fun op => op.writes ⊆ (hostOps1_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_2_fresh : (hostOps1_2 : List (HloOp τ sig (Elt F))).Forall fun op => op.fresh = ∅ := by
  simp only [List.Forall]; repeat' constructor

abbrev hostOps1_2_W : List (Ref sig .tc) := [main_v9, main_v10]
theorem hostOps1_2_writes : (hostOps1_2 : List (HloOp τ sig (Elt F))).Forall fun op => op.writes ⊆ (hostOps1_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_3_fresh : (hostOps1_3 : List (HloOp τ sig (Elt F))).Forall fun op => op.fresh = ∅ := by
  simp only [List.Forall]; repeat' constructor

abbrev hostOps1_3_W : List (Ref sig .tc) := [main_call2_c, main_call2_v0, main_call2_v1, main_call2_c_0, main_call2_v2, main_call2_v3, main_call2_v4, main_call2_v5, main_call2_c_1, main_call2_c_2, main_call2_v6, main_call2_v7, main_call2_v8, main_call2_v9, main_call2_v10, main_call2_v11, main_call2_c_3, main_call2_v12, main_call2_v13, main_call2_v14, main_call2_cst, main_call2_v15, main_v11]
theorem hostOps1_3_writes : (hostOps1_3 : List (HloOp τ sig (Elt F))).Forall fun op => op.writes ⊆ (hostOps1_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps1_4_fresh : (hostOps1_4 : List (HloOp τ sig (Elt F))).Forall fun op => op.fresh = ∅ := by
  simp only [List.Forall]; repeat' constructor

abbrev hostOps1_4_W : List (Ref sig .tc) := [main_v12, main_v13, main_v14]
theorem hostOps1_4_writes : (hostOps1_4 : List (HloOp τ sig (Elt F))).Forall fun op => op.writes ⊆ (hostOps1_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_fresh : (hostOps2 : List (HloOp τ sig (Elt F))).Forall fun op => op.fresh = ∅ := by
  simp only [List.Forall]; repeat' constructor

abbrev hostOps2_W : List (Ref sig .tc) := [main_v16, main_v17, main_v18]
theorem hostOps2_writes : (hostOps2 : List (HloOp τ sig (Elt F))).Forall fun op => op.writes ⊆ (hostOps2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_1_fresh : (hostOps2_1 : List (HloOp τ sig (Elt F))).Forall fun op => op.fresh = ∅ := by
  simp only [List.Forall]; repeat' constructor

abbrev hostOps2_1_W : List (Ref sig .tc) := [main_call3_c, main_call3_v0, main_call3_v1, main_call3_c_0, main_call3_v2, main_call3_v3, main_call3_v4, main_call3_v5, main_call3_c_1, main_call3_c_2, main_call3_v6, main_call3_v7, main_call3_v8, main_call3_v9, main_call3_v10, main_call3_v11, main_call3_c_3, main_call3_v12, main_call3_v13, main_call3_v14, main_call3_cst, main_call3_v15, main_v19]
theorem hostOps2_1_writes : (hostOps2_1 : List (HloOp τ sig (Elt F))).Forall fun op => op.writes ⊆ (hostOps2_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_2_fresh : (hostOps2_2 : List (HloOp τ sig (Elt F))).Forall fun op => op.fresh = ∅ := by
  simp only [List.Forall]; repeat' constructor

abbrev hostOps2_2_W : List (Ref sig .tc) := [main_v20, main_v21]
theorem hostOps2_2_writes : (hostOps2_2 : List (HloOp τ sig (Elt F))).Forall fun op => op.writes ⊆ (hostOps2_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_3_fresh : (hostOps2_3 : List (HloOp τ sig (Elt F))).Forall fun op => op.fresh = ∅ := by
  simp only [List.Forall]; repeat' constructor

abbrev hostOps2_3_W : List (Ref sig .tc) := [main_call4_c, main_call4_v0, main_call4_v1, main_call4_c_0, main_call4_v2, main_call4_v3, main_call4_v4, main_call4_v5, main_call4_c_1, main_call4_c_2, main_call4_v6, main_call4_v7, main_call4_v8, main_call4_v9, main_call4_v10, main_call4_v11, main_call4_c_3, main_call4_v12, main_call4_v13, main_call4_v14, main_call4_cst, main_call4_v15, main_v22]
theorem hostOps2_3_writes : (hostOps2_3 : List (HloOp τ sig (Elt F))).Forall fun op => op.writes ⊆ (hostOps2_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps2_4_fresh : (hostOps2_4 : List (HloOp τ sig (Elt F))).Forall fun op => op.fresh = ∅ := by
  simp only [List.Forall]; repeat' constructor

abbrev hostOps2_4_W : List (Ref sig .tc) := [main_v23, main_v24, main_v25]
theorem hostOps2_4_writes : (hostOps2_4 : List (HloOp τ sig (Elt F))).Forall fun op => op.writes ⊆ (hostOps2_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_fresh : (hostOps3 : List (HloOp τ sig (Elt F))).Forall fun op => op.fresh = ∅ := by
  simp only [List.Forall]; repeat' constructor

abbrev hostOps3_W : List (Ref sig .tc) := [main_v27, main_v28, main_v29]
theorem hostOps3_writes : (hostOps3 : List (HloOp τ sig (Elt F))).Forall fun op => op.writes ⊆ (hostOps3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_1_fresh : (hostOps3_1 : List (HloOp τ sig (Elt F))).Forall fun op => op.fresh = ∅ := by
  simp only [List.Forall]; repeat' constructor

abbrev hostOps3_1_W : List (Ref sig .tc) := [main_call5_c, main_call5_v0, main_call5_v1, main_call5_c_0, main_call5_v2, main_call5_v3, main_call5_v4, main_call5_v5, main_call5_c_1, main_call5_c_2, main_call5_v6, main_call5_v7, main_call5_v8, main_call5_v9, main_call5_v10, main_call5_v11, main_call5_c_3, main_call5_v12, main_call5_v13, main_call5_v14, main_call5_cst, main_call5_v15, main_v30]
theorem hostOps3_1_writes : (hostOps3_1 : List (HloOp τ sig (Elt F))).Forall fun op => op.writes ⊆ (hostOps3_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_2_fresh : (hostOps3_2 : List (HloOp τ sig (Elt F))).Forall fun op => op.fresh = ∅ := by
  simp only [List.Forall]; repeat' constructor

abbrev hostOps3_2_W : List (Ref sig .tc) := [main_v31, main_v32]
theorem hostOps3_2_writes : (hostOps3_2 : List (HloOp τ sig (Elt F))).Forall fun op => op.writes ⊆ (hostOps3_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_3_fresh : (hostOps3_3 : List (HloOp τ sig (Elt F))).Forall fun op => op.fresh = ∅ := by
  simp only [List.Forall]; repeat' constructor

abbrev hostOps3_3_W : List (Ref sig .tc) := [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v33]
theorem hostOps3_3_writes : (hostOps3_3 : List (HloOp τ sig (Elt F))).Forall fun op => op.writes ⊆ (hostOps3_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps3_4_fresh : (hostOps3_4 : List (HloOp τ sig (Elt F))).Forall fun op => op.fresh = ∅ := by
  simp only [List.Forall]; repeat' constructor

abbrev hostOps3_4_W : List (Ref sig .tc) := [main_v34, main_v35, main_v36]
theorem hostOps3_4_writes : (hostOps3_4 : List (HloOp τ sig (Elt F))).Forall fun op => op.writes ⊆ (hostOps3_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_fresh : (hostOps4 : List (HloOp τ sig (Elt F))).Forall fun op => op.fresh = ∅ := by
  simp only [List.Forall]; repeat' constructor

abbrev hostOps4_W : List (Ref sig .tc) := [main_v38, main_v39, main_v40]
theorem hostOps4_writes : (hostOps4 : List (HloOp τ sig (Elt F))).Forall fun op => op.writes ⊆ (hostOps4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_1_fresh : (hostOps4_1 : List (HloOp τ sig (Elt F))).Forall fun op => op.fresh = ∅ := by
  simp only [List.Forall]; repeat' constructor

abbrev hostOps4_1_W : List (Ref sig .tc) := [main_call7_c, main_call7_v0, main_call7_v1, main_call7_c_0, main_call7_v2, main_call7_v3, main_call7_v4, main_call7_v5, main_call7_c_1, main_call7_c_2, main_call7_v6, main_call7_v7, main_call7_v8, main_call7_v9, main_call7_v10, main_call7_v11, main_call7_c_3, main_call7_v12, main_call7_v13, main_call7_v14, main_call7_cst, main_call7_v15, main_v41]
theorem hostOps4_1_writes : (hostOps4_1 : List (HloOp τ sig (Elt F))).Forall fun op => op.writes ⊆ (hostOps4_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_2_fresh : (hostOps4_2 : List (HloOp τ sig (Elt F))).Forall fun op => op.fresh = ∅ := by
  simp only [List.Forall]; repeat' constructor

abbrev hostOps4_2_W : List (Ref sig .tc) := [main_v42, main_v43]
theorem hostOps4_2_writes : (hostOps4_2 : List (HloOp τ sig (Elt F))).Forall fun op => op.writes ⊆ (hostOps4_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_3_fresh : (hostOps4_3 : List (HloOp τ sig (Elt F))).Forall fun op => op.fresh = ∅ := by
  simp only [List.Forall]; repeat' constructor

abbrev hostOps4_3_W : List (Ref sig .tc) := [main_call8_c, main_call8_v0, main_call8_v1, main_call8_c_0, main_call8_v2, main_call8_v3, main_call8_v4, main_call8_v5, main_call8_c_1, main_call8_c_2, main_call8_v6, main_call8_v7, main_call8_v8, main_call8_v9, main_call8_v10, main_call8_v11, main_call8_c_3, main_call8_v12, main_call8_v13, main_call8_v14, main_call8_cst, main_call8_v15, main_v44]
theorem hostOps4_3_writes : (hostOps4_3 : List (HloOp τ sig (Elt F))).Forall fun op => op.writes ⊆ (hostOps4_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps4_4_fresh : (hostOps4_4 : List (HloOp τ sig (Elt F))).Forall fun op => op.fresh = ∅ := by
  simp only [List.Forall]; repeat' constructor

abbrev hostOps4_4_W : List (Ref sig .tc) := [main_v45, main_v46, main_v47]
theorem hostOps4_4_writes : (hostOps4_4 : List (HloOp τ sig (Elt F))).Forall fun op => op.writes ⊆ (hostOps4_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_fresh : (hostOps5 : List (HloOp τ sig (Elt F))).Forall fun op => op.fresh = ∅ := by
  simp only [List.Forall]; repeat' constructor

abbrev hostOps5_W : List (Ref sig .tc) := [main_v49, main_v50, main_v51]
theorem hostOps5_writes : (hostOps5 : List (HloOp τ sig (Elt F))).Forall fun op => op.writes ⊆ (hostOps5_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_1_fresh : (hostOps5_1 : List (HloOp τ sig (Elt F))).Forall fun op => op.fresh = ∅ := by
  simp only [List.Forall]; repeat' constructor

abbrev hostOps5_1_W : List (Ref sig .tc) := [main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v52]
theorem hostOps5_1_writes : (hostOps5_1 : List (HloOp τ sig (Elt F))).Forall fun op => op.writes ⊆ (hostOps5_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_2_fresh : (hostOps5_2 : List (HloOp τ sig (Elt F))).Forall fun op => op.fresh = ∅ := by
  simp only [List.Forall]; repeat' constructor

abbrev hostOps5_2_W : List (Ref sig .tc) := [main_v53, main_v54]
theorem hostOps5_2_writes : (hostOps5_2 : List (HloOp τ sig (Elt F))).Forall fun op => op.writes ⊆ (hostOps5_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_3_fresh : (hostOps5_3 : List (HloOp τ sig (Elt F))).Forall fun op => op.fresh = ∅ := by
  simp only [List.Forall]; repeat' constructor

abbrev hostOps5_3_W : List (Ref sig .tc) := [main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_v14, main_call10_cst, main_call10_v15, main_v55]
theorem hostOps5_3_writes : (hostOps5_3 : List (HloOp τ sig (Elt F))).Forall fun op => op.writes ⊆ (hostOps5_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps5_4_fresh : (hostOps5_4 : List (HloOp τ sig (Elt F))).Forall fun op => op.fresh = ∅ := by
  simp only [List.Forall]; repeat' constructor

abbrev hostOps5_4_W : List (Ref sig .tc) := [main_v56, main_v57, main_v58]
theorem hostOps5_4_writes : (hostOps5_4 : List (HloOp τ sig (Elt F))).Forall fun op => op.writes ⊆ (hostOps5_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_fresh : (hostOps6 : List (HloOp τ sig (Elt F))).Forall fun op => op.fresh = ∅ := by
  simp only [List.Forall]; repeat' constructor

abbrev hostOps6_W : List (Ref sig .tc) := [main_v60, main_v61, main_v62]
theorem hostOps6_writes : (hostOps6 : List (HloOp τ sig (Elt F))).Forall fun op => op.writes ⊆ (hostOps6_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_1_fresh : (hostOps6_1 : List (HloOp τ sig (Elt F))).Forall fun op => op.fresh = ∅ := by
  simp only [List.Forall]; repeat' constructor

abbrev hostOps6_1_W : List (Ref sig .tc) := [main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_v14, main_call11_cst, main_call11_v15, main_v63]
theorem hostOps6_1_writes : (hostOps6_1 : List (HloOp τ sig (Elt F))).Forall fun op => op.writes ⊆ (hostOps6_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_2_fresh : (hostOps6_2 : List (HloOp τ sig (Elt F))).Forall fun op => op.fresh = ∅ := by
  simp only [List.Forall]; repeat' constructor

abbrev hostOps6_2_W : List (Ref sig .tc) := [main_v64, main_v65]
theorem hostOps6_2_writes : (hostOps6_2 : List (HloOp τ sig (Elt F))).Forall fun op => op.writes ⊆ (hostOps6_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_3_fresh : (hostOps6_3 : List (HloOp τ sig (Elt F))).Forall fun op => op.fresh = ∅ := by
  simp only [List.Forall]; repeat' constructor

abbrev hostOps6_3_W : List (Ref sig .tc) := [main_call12_c, main_call12_v0, main_call12_v1, main_call12_c_0, main_call12_v2, main_call12_v3, main_call12_v4, main_call12_v5, main_call12_c_1, main_call12_c_2, main_call12_v6, main_call12_v7, main_call12_v8, main_call12_v9, main_call12_v10, main_call12_v11, main_call12_c_3, main_call12_v12, main_call12_v13, main_call12_v14, main_call12_cst, main_call12_v15, main_v66]
theorem hostOps6_3_writes : (hostOps6_3 : List (HloOp τ sig (Elt F))).Forall fun op => op.writes ⊆ (hostOps6_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps6_4_fresh : (hostOps6_4 : List (HloOp τ sig (Elt F))).Forall fun op => op.fresh = ∅ := by
  simp only [List.Forall]; repeat' constructor

abbrev hostOps6_4_W : List (Ref sig .tc) := [main_v67, main_v68, main_v69]
theorem hostOps6_4_writes : (hostOps6_4 : List (HloOp τ sig (Elt F))).Forall fun op => op.writes ⊆ (hostOps6_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_fresh : (hostOps7 : List (HloOp τ sig (Elt F))).Forall fun op => op.fresh = ∅ := by
  simp only [List.Forall]; repeat' constructor

abbrev hostOps7_W : List (Ref sig .tc) := [main_v71, main_v72, main_v73]
theorem hostOps7_writes : (hostOps7 : List (HloOp τ sig (Elt F))).Forall fun op => op.writes ⊆ (hostOps7_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_1_fresh : (hostOps7_1 : List (HloOp τ sig (Elt F))).Forall fun op => op.fresh = ∅ := by
  simp only [List.Forall]; repeat' constructor

abbrev hostOps7_1_W : List (Ref sig .tc) := [main_call13_c, main_call13_v0, main_call13_v1, main_call13_c_0, main_call13_v2, main_call13_v3, main_call13_v4, main_call13_v5, main_call13_c_1, main_call13_c_2, main_call13_v6, main_call13_v7, main_call13_v8, main_call13_v9, main_call13_v10, main_call13_v11, main_call13_c_3, main_call13_v12, main_call13_v13, main_call13_v14, main_call13_cst, main_call13_v15, main_v74]
theorem hostOps7_1_writes : (hostOps7_1 : List (HloOp τ sig (Elt F))).Forall fun op => op.writes ⊆ (hostOps7_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_2_fresh : (hostOps7_2 : List (HloOp τ sig (Elt F))).Forall fun op => op.fresh = ∅ := by
  simp only [List.Forall]; repeat' constructor

abbrev hostOps7_2_W : List (Ref sig .tc) := [main_v75, main_v76]
theorem hostOps7_2_writes : (hostOps7_2 : List (HloOp τ sig (Elt F))).Forall fun op => op.writes ⊆ (hostOps7_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_3_fresh : (hostOps7_3 : List (HloOp τ sig (Elt F))).Forall fun op => op.fresh = ∅ := by
  simp only [List.Forall]; repeat' constructor

abbrev hostOps7_3_W : List (Ref sig .tc) := [main_call14_c, main_call14_v0, main_call14_v1, main_call14_c_0, main_call14_v2, main_call14_v3, main_call14_v4, main_call14_v5, main_call14_c_1, main_call14_c_2, main_call14_v6, main_call14_v7, main_call14_v8, main_call14_v9, main_call14_v10, main_call14_v11, main_call14_c_3, main_call14_v12, main_call14_v13, main_call14_v14, main_call14_cst, main_call14_v15, main_v77]
theorem hostOps7_3_writes : (hostOps7_3 : List (HloOp τ sig (Elt F))).Forall fun op => op.writes ⊆ (hostOps7_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps7_4_fresh : (hostOps7_4 : List (HloOp τ sig (Elt F))).Forall fun op => op.fresh = ∅ := by
  simp only [List.Forall]; repeat' constructor

abbrev hostOps7_4_W : List (Ref sig .tc) := [main_v78, main_v79, main_v80]
theorem hostOps7_4_writes : (hostOps7_4 : List (HloOp τ sig (Elt F))).Forall fun op => op.writes ⊆ (hostOps7_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_fresh : (hostOps8 : List (HloOp τ sig (Elt F))).Forall fun op => op.fresh = ∅ := by
  simp only [List.Forall]; repeat' constructor

abbrev hostOps8_W : List (Ref sig .tc) := [main_v82, main_v83, main_v84]
theorem hostOps8_writes : (hostOps8 : List (HloOp τ sig (Elt F))).Forall fun op => op.writes ⊆ (hostOps8_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_1_fresh : (hostOps8_1 : List (HloOp τ sig (Elt F))).Forall fun op => op.fresh = ∅ := by
  simp only [List.Forall]; repeat' constructor

abbrev hostOps8_1_W : List (Ref sig .tc) := [main_call15_c, main_call15_v0, main_call15_v1, main_call15_c_0, main_call15_v2, main_call15_v3, main_call15_v4, main_call15_v5, main_call15_c_1, main_call15_c_2, main_call15_v6, main_call15_v7, main_call15_v8, main_call15_v9, main_call15_v10, main_call15_v11, main_call15_c_3, main_call15_v12, main_call15_v13, main_call15_v14, main_call15_cst, main_call15_v15, main_v85]
theorem hostOps8_1_writes : (hostOps8_1 : List (HloOp τ sig (Elt F))).Forall fun op => op.writes ⊆ (hostOps8_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_2_fresh : (hostOps8_2 : List (HloOp τ sig (Elt F))).Forall fun op => op.fresh = ∅ := by
  simp only [List.Forall]; repeat' constructor

abbrev hostOps8_2_W : List (Ref sig .tc) := [main_v86, main_v87]
theorem hostOps8_2_writes : (hostOps8_2 : List (HloOp τ sig (Elt F))).Forall fun op => op.writes ⊆ (hostOps8_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_3_fresh : (hostOps8_3 : List (HloOp τ sig (Elt F))).Forall fun op => op.fresh = ∅ := by
  simp only [List.Forall]; repeat' constructor

abbrev hostOps8_3_W : List (Ref sig .tc) := [main_call16_c, main_call16_v0, main_call16_v1, main_call16_c_0, main_call16_v2, main_call16_v3, main_call16_v4, main_call16_v5, main_call16_c_1, main_call16_c_2, main_call16_v6, main_call16_v7, main_call16_v8, main_call16_v9, main_call16_v10, main_call16_v11, main_call16_c_3, main_call16_v12, main_call16_v13, main_call16_v14, main_call16_cst, main_call16_v15, main_v88]
theorem hostOps8_3_writes : (hostOps8_3 : List (HloOp τ sig (Elt F))).Forall fun op => op.writes ⊆ (hostOps8_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps8_4_fresh : (hostOps8_4 : List (HloOp τ sig (Elt F))).Forall fun op => op.fresh = ∅ := by
  simp only [List.Forall]; repeat' constructor

abbrev hostOps8_4_W : List (Ref sig .tc) := [main_v89, main_v90, main_v91]
theorem hostOps8_4_writes : (hostOps8_4 : List (HloOp τ sig (Elt F))).Forall fun op => op.writes ⊆ (hostOps8_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_fresh : (hostOps9 : List (HloOp τ sig (Elt F))).Forall fun op => op.fresh = ∅ := by
  simp only [List.Forall]; repeat' constructor

abbrev hostOps9_W : List (Ref sig .tc) := [main_v93, main_v94, main_v95]
theorem hostOps9_writes : (hostOps9 : List (HloOp τ sig (Elt F))).Forall fun op => op.writes ⊆ (hostOps9_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_1_fresh : (hostOps9_1 : List (HloOp τ sig (Elt F))).Forall fun op => op.fresh = ∅ := by
  simp only [List.Forall]; repeat' constructor

abbrev hostOps9_1_W : List (Ref sig .tc) := [main_call17_c, main_call17_v0, main_call17_v1, main_call17_c_0, main_call17_v2, main_call17_v3, main_call17_v4, main_call17_v5, main_call17_c_1, main_call17_c_2, main_call17_v6, main_call17_v7, main_call17_v8, main_call17_v9, main_call17_v10, main_call17_v11, main_call17_c_3, main_call17_v12, main_call17_v13, main_call17_v14, main_call17_cst, main_call17_v15, main_v96]
theorem hostOps9_1_writes : (hostOps9_1 : List (HloOp τ sig (Elt F))).Forall fun op => op.writes ⊆ (hostOps9_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_2_fresh : (hostOps9_2 : List (HloOp τ sig (Elt F))).Forall fun op => op.fresh = ∅ := by
  simp only [List.Forall]; repeat' constructor

abbrev hostOps9_2_W : List (Ref sig .tc) := [main_v97, main_v98]
theorem hostOps9_2_writes : (hostOps9_2 : List (HloOp τ sig (Elt F))).Forall fun op => op.writes ⊆ (hostOps9_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_3_fresh : (hostOps9_3 : List (HloOp τ sig (Elt F))).Forall fun op => op.fresh = ∅ := by
  simp only [List.Forall]; repeat' constructor

abbrev hostOps9_3_W : List (Ref sig .tc) := [main_call18_c, main_call18_v0, main_call18_v1, main_call18_c_0, main_call18_v2, main_call18_v3, main_call18_v4, main_call18_v5, main_call18_c_1, main_call18_c_2, main_call18_v6, main_call18_v7, main_call18_v8, main_call18_v9, main_call18_v10, main_call18_v11, main_call18_c_3, main_call18_v12, main_call18_v13, main_call18_v14, main_call18_cst, main_call18_v15, main_v99]
theorem hostOps9_3_writes : (hostOps9_3 : List (HloOp τ sig (Elt F))).Forall fun op => op.writes ⊆ (hostOps9_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps9_4_fresh : (hostOps9_4 : List (HloOp τ sig (Elt F))).Forall fun op => op.fresh = ∅ := by
  simp only [List.Forall]; repeat' constructor

abbrev hostOps9_4_W : List (Ref sig .tc) := [main_v100, main_v101, main_v102]
theorem hostOps9_4_writes : (hostOps9_4 : List (HloOp τ sig (Elt F))).Forall fun op => op.writes ⊆ (hostOps9_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_fresh : (hostOps10 : List (HloOp τ sig (Elt F))).Forall fun op => op.fresh = ∅ := by
  simp only [List.Forall]; repeat' constructor

abbrev hostOps10_W : List (Ref sig .tc) := [main_v104, main_v105, main_v106]
theorem hostOps10_writes : (hostOps10 : List (HloOp τ sig (Elt F))).Forall fun op => op.writes ⊆ (hostOps10_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_1_fresh : (hostOps10_1 : List (HloOp τ sig (Elt F))).Forall fun op => op.fresh = ∅ := by
  simp only [List.Forall]; repeat' constructor

abbrev hostOps10_1_W : List (Ref sig .tc) := [main_call19_c, main_call19_v0, main_call19_v1, main_call19_c_0, main_call19_v2, main_call19_v3, main_call19_v4, main_call19_v5, main_call19_c_1, main_call19_c_2, main_call19_v6, main_call19_v7, main_call19_v8, main_call19_v9, main_call19_v10, main_call19_v11, main_call19_c_3, main_call19_v12, main_call19_v13, main_call19_v14, main_call19_cst, main_call19_v15, main_v107]
theorem hostOps10_1_writes : (hostOps10_1 : List (HloOp τ sig (Elt F))).Forall fun op => op.writes ⊆ (hostOps10_1_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_2_fresh : (hostOps10_2 : List (HloOp τ sig (Elt F))).Forall fun op => op.fresh = ∅ := by
  simp only [List.Forall]; repeat' constructor

abbrev hostOps10_2_W : List (Ref sig .tc) := [main_v108, main_v109]
theorem hostOps10_2_writes : (hostOps10_2 : List (HloOp τ sig (Elt F))).Forall fun op => op.writes ⊆ (hostOps10_2_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_3_fresh : (hostOps10_3 : List (HloOp τ sig (Elt F))).Forall fun op => op.fresh = ∅ := by
  simp only [List.Forall]; repeat' constructor

abbrev hostOps10_3_W : List (Ref sig .tc) := [main_call20_c, main_call20_v0, main_call20_v1, main_call20_c_0, main_call20_v2, main_call20_v3, main_call20_v4, main_call20_v5, main_call20_c_1, main_call20_c_2, main_call20_v6, main_call20_v7, main_call20_v8, main_call20_v9, main_call20_v10, main_call20_v11, main_call20_c_3, main_call20_v12, main_call20_v13, main_call20_v14, main_call20_cst, main_call20_v15, main_v110]
theorem hostOps10_3_writes : (hostOps10_3 : List (HloOp τ sig (Elt F))).Forall fun op => op.writes ⊆ (hostOps10_3_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)
theorem hostOps10_4_fresh : (hostOps10_4 : List (HloOp τ sig (Elt F))).Forall fun op => op.fresh = ∅ := by
  simp only [List.Forall]; repeat' constructor

abbrev hostOps10_4_W : List (Ref sig .tc) := [main_v111, main_v112, main_v113]
theorem hostOps10_4_writes : (hostOps10_4 : List (HloOp τ sig (Elt F))).Forall fun op => op.writes ⊆ (hostOps10_4_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

theorem V1_of (c : Dev nD) (r : Ref sig .tc) (h : r ∉ hostOps0_W) : V1 m c r = V0 m c r :=
  StableHlo.after_of_writes_sub hostOps0 _ hostOps0_writes h
theorem V2_of (c : Dev nD) (r : Ref sig .tc) (h : r ∉ hostOps0_1_W) : V2 m c r = V1 m c r :=
  StableHlo.after_of_writes_sub hostOps0_1 _ hostOps0_1_writes h
theorem V3_of (c : Dev nD) (r : Ref sig .tc) (h : r ∉ hostOps0_2_W) : V3 m c r = V2 m c r :=
  StableHlo.after_of_writes_sub hostOps0_2 _ hostOps0_2_writes h
theorem V4_of (c : Dev nD) (r : Ref sig .tc) (h : r ∉ ([main_v2] : List (Ref sig .tc))) : V4 m outs c r = V3 m c r := by
  simp only [V4, Function.update_of_ne (StableHlo.devRef_ne_of_ne (List.ne_of_not_mem_cons h) : (Proc.devRef .tc r : DevRef τ sig) ≠ Proc.devRef .tc main_v2)]
theorem V5_of (c : Dev nD) (r : Ref sig .tc) (h : r ∉ hostOps1_W) : V5 m outs c r = V4 m outs c r :=
  StableHlo.after_of_writes_sub hostOps1 _ hostOps1_writes h
theorem V6_of (c : Dev nD) (r : Ref sig .tc) (h : r ∉ hostOps1_1_W) : V6 m outs c r = V5 m outs c r :=
  StableHlo.after_of_writes_sub hostOps1_1 _ hostOps1_1_writes h
theorem V7_of (c : Dev nD) (r : Ref sig .tc) (h : r ∉ hostOps1_2_W) : V7 m outs c r = V6 m outs c r :=
  StableHlo.after_of_writes_sub hostOps1_2 _ hostOps1_2_writes h
theorem V8_of (c : Dev nD) (r : Ref sig .tc) (h : r ∉ hostOps1_3_W) : V8 m outs c r = V7 m outs c r :=
  StableHlo.after_of_writes_sub hostOps1_3 _ hostOps1_3_writes h
theorem V9_of (c : Dev nD) (r : Ref sig .tc) (h : r ∉ hostOps1_4_W) : V9 m outs c r = V8 m outs c r :=
  StableHlo.after_of_writes_sub hostOps1_4 _ hostOps1_4_writes h
theorem V10_of (c : Dev nD) (r : Ref sig .tc) (h : r ∉ ([main_v15] : List (Ref sig .tc))) : V10 m outs c r = V9 m outs c r := by
  simp only [V10, Function.update_of_ne (StableHlo.devRef_ne_of_ne (List.ne_of_not_mem_cons h) : (Proc.devRef .tc r : DevRef τ sig) ≠ Proc.devRef .tc main_v15)]
theorem V11_of (c : Dev nD) (r : Ref sig .tc) (h : r ∉ hostOps2_W) : V11 m outs c r = V10 m outs c r :=
  StableHlo.after_of_writes_sub hostOps2 _ hostOps2_writes h
theorem V12_of (c : Dev nD) (r : Ref sig .tc) (h : r ∉ hostOps2_1_W) : V12 m outs c r = V11 m outs c r :=
  StableHlo.after_of_writes_sub hostOps2_1 _ hostOps2_1_writes h
theorem V13_of (c : Dev nD) (r : Ref sig .tc) (h : r ∉ hostOps2_2_W) : V13 m outs c r = V12 m outs c r :=
  StableHlo.after_of_writes_sub hostOps2_2 _ hostOps2_2_writes h
theorem V14_of (c : Dev nD) (r : Ref sig .tc) (h : r ∉ hostOps2_3_W) : V14 m outs c r = V13 m outs c r :=
  StableHlo.after_of_writes_sub hostOps2_3 _ hostOps2_3_writes h
theorem V15_of (c : Dev nD) (r : Ref sig .tc) (h : r ∉ hostOps2_4_W) : V15 m outs c r = V14 m outs c r :=
  StableHlo.after_of_writes_sub hostOps2_4 _ hostOps2_4_writes h
theorem V16_of (c : Dev nD) (r : Ref sig .tc) (h : r ∉ ([main_v26] : List (Ref sig .tc))) : V16 m outs c r = V15 m outs c r := by
  simp only [V16, Function.update_of_ne (StableHlo.devRef_ne_of_ne (List.ne_of_not_mem_cons h) : (Proc.devRef .tc r : DevRef τ sig) ≠ Proc.devRef .tc main_v26)]
theorem V17_of (c : Dev nD) (r : Ref sig .tc) (h : r ∉ hostOps3_W) : V17 m outs c r = V16 m outs c r :=
  StableHlo.after_of_writes_sub hostOps3 _ hostOps3_writes h
theorem V18_of (c : Dev nD) (r : Ref sig .tc) (h : r ∉ hostOps3_1_W) : V18 m outs c r = V17 m outs c r :=
  StableHlo.after_of_writes_sub hostOps3_1 _ hostOps3_1_writes h
theorem V19_of (c : Dev nD) (r : Ref sig .tc) (h : r ∉ hostOps3_2_W) : V19 m outs c r = V18 m outs c r :=
  StableHlo.after_of_writes_sub hostOps3_2 _ hostOps3_2_writes h
theorem V20_of (c : Dev nD) (r : Ref sig .tc) (h : r ∉ hostOps3_3_W) : V20 m outs c r = V19 m outs c r :=
  StableHlo.after_of_writes_sub hostOps3_3 _ hostOps3_3_writes h
theorem V21_of (c : Dev nD) (r : Ref sig .tc) (h : r ∉ hostOps3_4_W) : V21 m outs c r = V20 m outs c r :=
  StableHlo.after_of_writes_sub hostOps3_4 _ hostOps3_4_writes h
theorem V22_of (c : Dev nD) (r : Ref sig .tc) (h : r ∉ ([main_v37] : List (Ref sig .tc))) : V22 m outs c r = V21 m outs c r := by
  simp only [V22, Function.update_of_ne (StableHlo.devRef_ne_of_ne (List.ne_of_not_mem_cons h) : (Proc.devRef .tc r : DevRef τ sig) ≠ Proc.devRef .tc main_v37)]
theorem V23_of (c : Dev nD) (r : Ref sig .tc) (h : r ∉ hostOps4_W) : V23 m outs c r = V22 m outs c r :=
  StableHlo.after_of_writes_sub hostOps4 _ hostOps4_writes h
theorem V24_of (c : Dev nD) (r : Ref sig .tc) (h : r ∉ hostOps4_1_W) : V24 m outs c r = V23 m outs c r :=
  StableHlo.after_of_writes_sub hostOps4_1 _ hostOps4_1_writes h
theorem V25_of (c : Dev nD) (r : Ref sig .tc) (h : r ∉ hostOps4_2_W) : V25 m outs c r = V24 m outs c r :=
  StableHlo.after_of_writes_sub hostOps4_2 _ hostOps4_2_writes h
theorem V26_of (c : Dev nD) (r : Ref sig .tc) (h : r ∉ hostOps4_3_W) : V26 m outs c r = V25 m outs c r :=
  StableHlo.after_of_writes_sub hostOps4_3 _ hostOps4_3_writes h
theorem V27_of (c : Dev nD) (r : Ref sig .tc) (h : r ∉ hostOps4_4_W) : V27 m outs c r = V26 m outs c r :=
  StableHlo.after_of_writes_sub hostOps4_4 _ hostOps4_4_writes h
theorem V28_of (c : Dev nD) (r : Ref sig .tc) (h : r ∉ ([main_v48] : List (Ref sig .tc))) : V28 m outs c r = V27 m outs c r := by
  simp only [V28, Function.update_of_ne (StableHlo.devRef_ne_of_ne (List.ne_of_not_mem_cons h) : (Proc.devRef .tc r : DevRef τ sig) ≠ Proc.devRef .tc main_v48)]
theorem V29_of (c : Dev nD) (r : Ref sig .tc) (h : r ∉ hostOps5_W) : V29 m outs c r = V28 m outs c r :=
  StableHlo.after_of_writes_sub hostOps5 _ hostOps5_writes h
theorem V30_of (c : Dev nD) (r : Ref sig .tc) (h : r ∉ hostOps5_1_W) : V30 m outs c r = V29 m outs c r :=
  StableHlo.after_of_writes_sub hostOps5_1 _ hostOps5_1_writes h
theorem V31_of (c : Dev nD) (r : Ref sig .tc) (h : r ∉ hostOps5_2_W) : V31 m outs c r = V30 m outs c r :=
  StableHlo.after_of_writes_sub hostOps5_2 _ hostOps5_2_writes h
theorem V32_of (c : Dev nD) (r : Ref sig .tc) (h : r ∉ hostOps5_3_W) : V32 m outs c r = V31 m outs c r :=
  StableHlo.after_of_writes_sub hostOps5_3 _ hostOps5_3_writes h
theorem V33_of (c : Dev nD) (r : Ref sig .tc) (h : r ∉ hostOps5_4_W) : V33 m outs c r = V32 m outs c r :=
  StableHlo.after_of_writes_sub hostOps5_4 _ hostOps5_4_writes h
theorem V34_of (c : Dev nD) (r : Ref sig .tc) (h : r ∉ ([main_v59] : List (Ref sig .tc))) : V34 m outs c r = V33 m outs c r := by
  simp only [V34, Function.update_of_ne (StableHlo.devRef_ne_of_ne (List.ne_of_not_mem_cons h) : (Proc.devRef .tc r : DevRef τ sig) ≠ Proc.devRef .tc main_v59)]
theorem V35_of (c : Dev nD) (r : Ref sig .tc) (h : r ∉ hostOps6_W) : V35 m outs c r = V34 m outs c r :=
  StableHlo.after_of_writes_sub hostOps6 _ hostOps6_writes h
theorem V36_of (c : Dev nD) (r : Ref sig .tc) (h : r ∉ hostOps6_1_W) : V36 m outs c r = V35 m outs c r :=
  StableHlo.after_of_writes_sub hostOps6_1 _ hostOps6_1_writes h
theorem V37_of (c : Dev nD) (r : Ref sig .tc) (h : r ∉ hostOps6_2_W) : V37 m outs c r = V36 m outs c r :=
  StableHlo.after_of_writes_sub hostOps6_2 _ hostOps6_2_writes h
theorem V38_of (c : Dev nD) (r : Ref sig .tc) (h : r ∉ hostOps6_3_W) : V38 m outs c r = V37 m outs c r :=
  StableHlo.after_of_writes_sub hostOps6_3 _ hostOps6_3_writes h
theorem V39_of (c : Dev nD) (r : Ref sig .tc) (h : r ∉ hostOps6_4_W) : V39 m outs c r = V38 m outs c r :=
  StableHlo.after_of_writes_sub hostOps6_4 _ hostOps6_4_writes h
theorem V40_of (c : Dev nD) (r : Ref sig .tc) (h : r ∉ ([main_v70] : List (Ref sig .tc))) : V40 m outs c r = V39 m outs c r := by
  simp only [V40, Function.update_of_ne (StableHlo.devRef_ne_of_ne (List.ne_of_not_mem_cons h) : (Proc.devRef .tc r : DevRef τ sig) ≠ Proc.devRef .tc main_v70)]
theorem V41_of (c : Dev nD) (r : Ref sig .tc) (h : r ∉ hostOps7_W) : V41 m outs c r = V40 m outs c r :=
  StableHlo.after_of_writes_sub hostOps7 _ hostOps7_writes h
theorem V42_of (c : Dev nD) (r : Ref sig .tc) (h : r ∉ hostOps7_1_W) : V42 m outs c r = V41 m outs c r :=
  StableHlo.after_of_writes_sub hostOps7_1 _ hostOps7_1_writes h
theorem V43_of (c : Dev nD) (r : Ref sig .tc) (h : r ∉ hostOps7_2_W) : V43 m outs c r = V42 m outs c r :=
  StableHlo.after_of_writes_sub hostOps7_2 _ hostOps7_2_writes h
theorem V44_of (c : Dev nD) (r : Ref sig .tc) (h : r ∉ hostOps7_3_W) : V44 m outs c r = V43 m outs c r :=
  StableHlo.after_of_writes_sub hostOps7_3 _ hostOps7_3_writes h
theorem V45_of (c : Dev nD) (r : Ref sig .tc) (h : r ∉ hostOps7_4_W) : V45 m outs c r = V44 m outs c r :=
  StableHlo.after_of_writes_sub hostOps7_4 _ hostOps7_4_writes h
theorem V46_of (c : Dev nD) (r : Ref sig .tc) (h : r ∉ ([main_v81] : List (Ref sig .tc))) : V46 m outs c r = V45 m outs c r := by
  simp only [V46, Function.update_of_ne (StableHlo.devRef_ne_of_ne (List.ne_of_not_mem_cons h) : (Proc.devRef .tc r : DevRef τ sig) ≠ Proc.devRef .tc main_v81)]
theorem V47_of (c : Dev nD) (r : Ref sig .tc) (h : r ∉ hostOps8_W) : V47 m outs c r = V46 m outs c r :=
  StableHlo.after_of_writes_sub hostOps8 _ hostOps8_writes h
theorem V48_of (c : Dev nD) (r : Ref sig .tc) (h : r ∉ hostOps8_1_W) : V48 m outs c r = V47 m outs c r :=
  StableHlo.after_of_writes_sub hostOps8_1 _ hostOps8_1_writes h
theorem V49_of (c : Dev nD) (r : Ref sig .tc) (h : r ∉ hostOps8_2_W) : V49 m outs c r = V48 m outs c r :=
  StableHlo.after_of_writes_sub hostOps8_2 _ hostOps8_2_writes h
theorem V50_of (c : Dev nD) (r : Ref sig .tc) (h : r ∉ hostOps8_3_W) : V50 m outs c r = V49 m outs c r :=
  StableHlo.after_of_writes_sub hostOps8_3 _ hostOps8_3_writes h
theorem V51_of (c : Dev nD) (r : Ref sig .tc) (h : r ∉ hostOps8_4_W) : V51 m outs c r = V50 m outs c r :=
  StableHlo.after_of_writes_sub hostOps8_4 _ hostOps8_4_writes h
theorem V52_of (c : Dev nD) (r : Ref sig .tc) (h : r ∉ ([main_v92] : List (Ref sig .tc))) : V52 m outs c r = V51 m outs c r := by
  simp only [V52, Function.update_of_ne (StableHlo.devRef_ne_of_ne (List.ne_of_not_mem_cons h) : (Proc.devRef .tc r : DevRef τ sig) ≠ Proc.devRef .tc main_v92)]
theorem V53_of (c : Dev nD) (r : Ref sig .tc) (h : r ∉ hostOps9_W) : V53 m outs c r = V52 m outs c r :=
  StableHlo.after_of_writes_sub hostOps9 _ hostOps9_writes h
theorem V54_of (c : Dev nD) (r : Ref sig .tc) (h : r ∉ hostOps9_1_W) : V54 m outs c r = V53 m outs c r :=
  StableHlo.after_of_writes_sub hostOps9_1 _ hostOps9_1_writes h
theorem V55_of (c : Dev nD) (r : Ref sig .tc) (h : r ∉ hostOps9_2_W) : V55 m outs c r = V54 m outs c r :=
  StableHlo.after_of_writes_sub hostOps9_2 _ hostOps9_2_writes h
theorem V56_of (c : Dev nD) (r : Ref sig .tc) (h : r ∉ hostOps9_3_W) : V56 m outs c r = V55 m outs c r :=
  StableHlo.after_of_writes_sub hostOps9_3 _ hostOps9_3_writes h
theorem V57_of (c : Dev nD) (r : Ref sig .tc) (h : r ∉ hostOps9_4_W) : V57 m outs c r = V56 m outs c r :=
  StableHlo.after_of_writes_sub hostOps9_4 _ hostOps9_4_writes h
theorem V58_of (c : Dev nD) (r : Ref sig .tc) (h : r ∉ ([main_v103] : List (Ref sig .tc))) : V58 m outs c r = V57 m outs c r := by
  simp only [V58, Function.update_of_ne (StableHlo.devRef_ne_of_ne (List.ne_of_not_mem_cons h) : (Proc.devRef .tc r : DevRef τ sig) ≠ Proc.devRef .tc main_v103)]
theorem V59_of (c : Dev nD) (r : Ref sig .tc) (h : r ∉ hostOps10_W) : V59 m outs c r = V58 m outs c r :=
  StableHlo.after_of_writes_sub hostOps10 _ hostOps10_writes h
theorem V60_of (c : Dev nD) (r : Ref sig .tc) (h : r ∉ hostOps10_1_W) : V60 m outs c r = V59 m outs c r :=
  StableHlo.after_of_writes_sub hostOps10_1 _ hostOps10_1_writes h
theorem V61_of (c : Dev nD) (r : Ref sig .tc) (h : r ∉ hostOps10_2_W) : V61 m outs c r = V60 m outs c r :=
  StableHlo.after_of_writes_sub hostOps10_2 _ hostOps10_2_writes h
theorem V62_of (c : Dev nD) (r : Ref sig .tc) (h : r ∉ hostOps10_3_W) : V62 m outs c r = V61 m outs c r :=
  StableHlo.after_of_writes_sub hostOps10_3 _ hostOps10_3_writes h
theorem V63_of (c : Dev nD) (r : Ref sig .tc) (h : r ∉ hostOps10_4_W) : V63 m outs c r = V62 m outs c r :=
  StableHlo.after_of_writes_sub hostOps10_4 _ hostOps10_4_writes h
theorem V64_of (c : Dev nD) (r : Ref sig .tc) (h : r ∉ ([main_v114] : List (Ref sig .tc))) : V64 m outs c r = V63 m outs c r := by
  simp only [V64, Function.update_of_ne (StableHlo.devRef_ne_of_ne (List.ne_of_not_mem_cons h) : (Proc.devRef .tc r : DevRef τ sig) ≠ Proc.devRef .tc main_v114)]

theorem V64_keep (c : Dev nD) (r : Ref sig .tc)
    (h : ∀ W ∈ ([hostOps0_W, hostOps0_1_W, hostOps0_2_W, [main_v2], hostOps1_W, hostOps1_1_W, hostOps1_2_W, hostOps1_3_W, hostOps1_4_W, [main_v15], hostOps2_W, hostOps2_1_W, hostOps2_2_W, hostOps2_3_W, hostOps2_4_W, [main_v26], hostOps3_W, hostOps3_1_W, hostOps3_2_W, hostOps3_3_W, hostOps3_4_W, [main_v37], hostOps4_W, hostOps4_1_W, hostOps4_2_W, hostOps4_3_W, hostOps4_4_W, [main_v48], hostOps5_W, hostOps5_1_W, hostOps5_2_W, hostOps5_3_W, hostOps5_4_W, [main_v59], hostOps6_W, hostOps6_1_W, hostOps6_2_W, hostOps6_3_W, hostOps6_4_W, [main_v70], hostOps7_W, hostOps7_1_W, hostOps7_2_W, hostOps7_3_W, hostOps7_4_W, [main_v81], hostOps8_W, hostOps8_1_W, hostOps8_2_W, hostOps8_3_W, hostOps8_4_W, [main_v92], hostOps9_W, hostOps9_1_W, hostOps9_2_W, hostOps9_3_W, hostOps9_4_W, [main_v103], hostOps10_W, hostOps10_1_W, hostOps10_2_W, hostOps10_3_W, hostOps10_4_W, [main_v114]] : List (List (Ref sig .tc))), r ∉ W) :
    V64 m outs c r = m ((c : Thread nD τ).loc r) :=
  (V64_of m outs c r (h _ (by decide))).trans <|
  (V63_of m outs c r (h _ (by decide))).trans <|
  (V62_of m outs c r (h _ (by decide))).trans <|
  (V61_of m outs c r (h _ (by decide))).trans <|
  (V60_of m outs c r (h _ (by decide))).trans <|
  (V59_of m outs c r (h _ (by decide))).trans <|
  (V58_of m outs c r (h _ (by decide))).trans <|
  (V57_of m outs c r (h _ (by decide))).trans <|
  (V56_of m outs c r (h _ (by decide))).trans <|
  (V55_of m outs c r (h _ (by decide))).trans <|
  (V54_of m outs c r (h _ (by decide))).trans <|
  (V53_of m outs c r (h _ (by decide))).trans <|
  (V52_of m outs c r (h _ (by decide))).trans <|
  (V51_of m outs c r (h _ (by decide))).trans <|
  (V50_of m outs c r (h _ (by decide))).trans <|
  (V49_of m outs c r (h _ (by decide))).trans <|
  (V48_of m outs c r (h _ (by decide))).trans <|
  (V47_of m outs c r (h _ (by decide))).trans <|
  (V46_of m outs c r (h _ (by decide))).trans <|
  (V45_of m outs c r (h _ (by decide))).trans <|
  (V44_of m outs c r (h _ (by decide))).trans <|
  (V43_of m outs c r (h _ (by decide))).trans <|
  (V42_of m outs c r (h _ (by decide))).trans <|
  (V41_of m outs c r (h _ (by decide))).trans <|
  (V40_of m outs c r (h _ (by decide))).trans <|
  (V39_of m outs c r (h _ (by decide))).trans <|
  (V38_of m outs c r (h _ (by decide))).trans <|
  (V37_of m outs c r (h _ (by decide))).trans <|
  (V36_of m outs c r (h _ (by decide))).trans <|
  (V35_of m outs c r (h _ (by decide))).trans <|
  (V34_of m outs c r (h _ (by decide))).trans <|
  (V33_of m outs c r (h _ (by decide))).trans <|
  (V32_of m outs c r (h _ (by decide))).trans <|
  (V31_of m outs c r (h _ (by decide))).trans <|
  (V30_of m outs c r (h _ (by decide))).trans <|
  (V29_of m outs c r (h _ (by decide))).trans <|
  (V28_of m outs c r (h _ (by decide))).trans <|
  (V27_of m outs c r (h _ (by decide))).trans <|
  (V26_of m outs c r (h _ (by decide))).trans <|
  (V25_of m outs c r (h _ (by decide))).trans <|
  (V24_of m outs c r (h _ (by decide))).trans <|
  (V23_of m outs c r (h _ (by decide))).trans <|
  (V22_of m outs c r (h _ (by decide))).trans <|
  (V21_of m outs c r (h _ (by decide))).trans <|
  (V20_of m outs c r (h _ (by decide))).trans <|
  (V19_of m outs c r (h _ (by decide))).trans <|
  (V18_of m outs c r (h _ (by decide))).trans <|
  (V17_of m outs c r (h _ (by decide))).trans <|
  (V16_of m outs c r (h _ (by decide))).trans <|
  (V15_of m outs c r (h _ (by decide))).trans <|
  (V14_of m outs c r (h _ (by decide))).trans <|
  (V13_of m outs c r (h _ (by decide))).trans <|
  (V12_of m outs c r (h _ (by decide))).trans <|
  (V11_of m outs c r (h _ (by decide))).trans <|
  (V10_of m outs c r (h _ (by decide))).trans <|
  (V9_of m outs c r (h _ (by decide))).trans <|
  (V8_of m outs c r (h _ (by decide))).trans <|
  (V7_of m outs c r (h _ (by decide))).trans <|
  (V6_of m outs c r (h _ (by decide))).trans <|
  (V5_of m outs c r (h _ (by decide))).trans <|
  (V4_of m outs c r (h _ (by decide))).trans <|
  (V3_of m c r (h _ (by decide))).trans <|
  (V2_of m c r (h _ (by decide))).trans <|
  (V1_of m c r (h _ (by decide))).trans rfl
theorem V64_main_arg0 (c : Dev nD) : V64 m outs c main_arg0 = m ((c : Thread nD τ).loc main_arg0) :=
  V64_keep m outs c main_arg0 (by decide)
theorem V64_main_arg1 (c : Dev nD) : V64 m outs c main_arg1 = m ((c : Thread nD τ).loc main_arg1) :=
  V64_keep m outs c main_arg1 (by decide)
theorem V64_main_arg2 (c : Dev nD) : V64 m outs c main_arg2 = m ((c : Thread nD τ).loc main_arg2) :=
  V64_keep m outs c main_arg2 (by decide)
theorem V64_main_arg3 (c : Dev nD) : V64 m outs c main_arg3 = m ((c : Thread nD τ).loc main_arg3) :=
  V64_keep m outs c main_arg3 (by decide)
theorem V64_main_arg4 (c : Dev nD) : V64 m outs c main_arg4 = m ((c : Thread nD τ).loc main_arg4) :=
  V64_keep m outs c main_arg4 (by decide)
theorem V64_main_arg5 (c : Dev nD) : V64 m outs c main_arg5 = m ((c : Thread nD τ).loc main_arg5) :=
  V64_keep m outs c main_arg5 (by decide)

section Segs

variable {Ix : Type} [DecidableEq Ix] {U : Type} [URA U] {Lvl : Type} [Preorder Lvl]
variable (𝒱₀ : Variants) (L : GSem nD τ sig → Finset Ix) (lv : GSem nD τ sig → Ix → Lvl)
variable (E : Fin 12 → Dev nD → sProp (MT nD τ sig Ix (Elt F) ℕ U Lvl))

def seg0 : HostSeg (Ix := Ix) (Name := ℕ) (U := U) (Lvl := Lvl) (pcfgs (F := F)) defs₀ 𝒱₀ L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) (E 0)

def seg1 : HostSeg (Ix := Ix) (Name := ℕ) (U := U) (Lvl := Lvl) (pcfgs (F := F)) defs₀ 𝒱₀ L lv :=
  HostSeg.ofOps _ _ _ _ _ (Pipeline.ucRefs τ sig) hostOps0_1
    (fun op h => Pipeline.sub_ucRefs op ((List.forall_iff_forall_mem.mp hostOps0_1_sub) op h))
    (fun op h => (List.forall_iff_forall_mem.mp hostOps0_1_fresh) op h) (V1 m) (E 0)

def seg2 : HostSeg (Ix := Ix) (Name := ℕ) (U := U) (Lvl := Lvl) (pcfgs (F := F)) defs₀ 𝒱₀ L lv :=
  HostSeg.ofOps _ _ _ _ _ (Pipeline.ucRefs τ sig) hostOps0_2
    (fun op h => Pipeline.sub_ucRefs op ((List.forall_iff_forall_mem.mp hostOps0_2_sub) op h))
    (fun op h => (List.forall_iff_forall_mem.mp hostOps0_2_fresh) op h) (V2 m) (E 0)

def seg4 : HostSeg (Ix := Ix) (Name := ℕ) (U := U) (Lvl := Lvl) (pcfgs (F := F)) defs₀ 𝒱₀ L lv :=
  HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (V4 m outs) (E 1)

def seg5 : HostSeg (Ix := Ix) (Name := ℕ) (U := U) (Lvl := Lvl) (pcfgs (F := F)) defs₀ 𝒱₀ L lv :=
  HostSeg.ofOps _ _ _ _ _ (Pipeline.ucRefs τ sig) hostOps1_1
    (fun op h => Pipeline.sub_ucRefs op ((List.forall_iff_forall_mem.mp hostOps1_1_sub) op h))
    (fun op h => (List.forall_iff_forall_mem.mp hostOps1_1_fresh) op h) (V5 m outs) (E 1)

def seg6 : HostSeg (Ix := Ix) (Name := ℕ) (U := U) (Lvl := Lvl) (pcfgs (F := F)) defs₀ 𝒱₀ L lv :=
  HostSeg.ofOps _ _ _ _ _ (Pipeline.ucRefs τ sig) hostOps1_2
    (fun op h => Pipeline.sub_ucRefs op ((List.forall_iff_forall_mem.mp hostOps1_2_sub) op h))
    (fun op h => (List.forall_iff_forall_mem.mp hostOps1_2_fresh) op h) (V6 m outs) (E 1)

def seg7 : HostSeg (Ix := Ix) (Name := ℕ) (U := U) (Lvl := Lvl) (pcfgs (F := F)) defs₀ 𝒱₀ L lv :=
  HostSeg.ofOps _ _ _ _ _ (Pipeline.ucRefs τ sig) hostOps1_3
    (fun op h => Pipeline.sub_ucRefs op ((List.forall_iff_forall_mem.mp hostOps1_3_sub) op h))
    (fun op h => (List.forall_iff_forall_mem.mp hostOps1_3_fresh) op h) (V7 m outs) (E 1)

def seg8 : HostSeg (Ix := Ix) (Name := ℕ) (U := U) (Lvl := Lvl) (pcfgs (F := F)) defs₀ 𝒱₀ L lv :=
  HostSeg.ofOps _ _ _ _ _ (Pipeline.ucRefs τ sig) hostOps1_4
    (fun op h => Pipeline.sub_ucRefs op ((List.forall_iff_forall_mem.mp hostOps1_4_sub) op h))
    (fun op h => (List.forall_iff_forall_mem.mp hostOps1_4_fresh) op h) (V8 m outs) (E 1)

def seg10 : HostSeg (Ix := Ix) (Name := ℕ) (U := U) (Lvl := Lvl) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (V10 m outs) (E 2)

def seg11 : HostSeg (Ix := Ix) (Name := ℕ) (U := U) (Lvl := Lvl) (pcfgs (F := F)) defs₀ 𝒱₀ L lv :=
  HostSeg.ofOps _ _ _ _ _ (Pipeline.ucRefs τ sig) hostOps2_1
    (fun op h => Pipeline.sub_ucRefs op ((List.forall_iff_forall_mem.mp hostOps2_1_sub) op h))
    (fun op h => (List.forall_iff_forall_mem.mp hostOps2_1_fresh) op h) (V11 m outs) (E 2)

def seg12 : HostSeg (Ix := Ix) (Name := ℕ) (U := U) (Lvl := Lvl) (pcfgs (F := F)) defs₀ 𝒱₀ L lv :=
  HostSeg.ofOps _ _ _ _ _ (Pipeline.ucRefs τ sig) hostOps2_2
    (fun op h => Pipeline.sub_ucRefs op ((List.forall_iff_forall_mem.mp hostOps2_2_sub) op h))
    (fun op h => (List.forall_iff_forall_mem.mp hostOps2_2_fresh) op h) (V12 m outs) (E 2)

def seg13 : HostSeg (Ix := Ix) (Name := ℕ) (U := U) (Lvl := Lvl) (pcfgs (F := F)) defs₀ 𝒱₀ L lv :=
  HostSeg.ofOps _ _ _ _ _ (Pipeline.ucRefs τ sig) hostOps2_3
    (fun op h => Pipeline.sub_ucRefs op ((List.forall_iff_forall_mem.mp hostOps2_3_sub) op h))
    (fun op h => (List.forall_iff_forall_mem.mp hostOps2_3_fresh) op h) (V13 m outs) (E 2)

def seg14 : HostSeg (Ix := Ix) (Name := ℕ) (U := U) (Lvl := Lvl) (pcfgs (F := F)) defs₀ 𝒱₀ L lv :=
  HostSeg.ofOps _ _ _ _ _ (Pipeline.ucRefs τ sig) hostOps2_4
    (fun op h => Pipeline.sub_ucRefs op ((List.forall_iff_forall_mem.mp hostOps2_4_sub) op h))
    (fun op h => (List.forall_iff_forall_mem.mp hostOps2_4_fresh) op h) (V14 m outs) (E 2)

def seg16 : HostSeg (Ix := Ix) (Name := ℕ) (U := U) (Lvl := Lvl) (pcfgs (F := F)) defs₀ 𝒱₀ L lv :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (V16 m outs) (E 3)

def seg17 : HostSeg (Ix := Ix) (Name := ℕ) (U := U) (Lvl := Lvl) (pcfgs (F := F)) defs₀ 𝒱₀ L lv :=
  HostSeg.ofOps _ _ _ _ _ (Pipeline.ucRefs τ sig) hostOps3_1
    (fun op h => Pipeline.sub_ucRefs op ((List.forall_iff_forall_mem.mp hostOps3_1_sub) op h))
    (fun op h => (List.forall_iff_forall_mem.mp hostOps3_1_fresh) op h) (V17 m outs) (E 3)

def seg18 : HostSeg (Ix := Ix) (Name := ℕ) (U := U) (Lvl := Lvl) (pcfgs (F := F)) defs₀ 𝒱₀ L lv :=
  HostSeg.ofOps _ _ _ _ _ (Pipeline.ucRefs τ sig) hostOps3_2
    (fun op h => Pipeline.sub_ucRefs op ((List.forall_iff_forall_mem.mp hostOps3_2_sub) op h))
    (fun op h => (List.forall_iff_forall_mem.mp hostOps3_2_fresh) op h) (V18 m outs) (E 3)

def seg19 : HostSeg (Ix := Ix) (Name := ℕ) (U := U) (Lvl := Lvl) (pcfgs (F := F)) defs₀ 𝒱₀ L lv :=
  HostSeg.ofOps _ _ _ _ _ (Pipeline.ucRefs τ sig) hostOps3_3
    (fun op h => Pipeline.sub_ucRefs op ((List.forall_iff_forall_mem.mp hostOps3_3_sub) op h))
    (fun op h => (List.forall_iff_forall_mem.mp hostOps3_3_fresh) op h) (V19 m outs) (E 3)

def seg20 : HostSeg (Ix := Ix) (Name := ℕ) (U := U) (Lvl := Lvl) (pcfgs (F := F)) defs₀ 𝒱₀ L lv :=
  HostSeg.ofOps _ _ _ _ _ (Pipeline.ucRefs τ sig) hostOps3_4
    (fun op h => Pipeline.sub_ucRefs op ((List.forall_iff_forall_mem.mp hostOps3_4_sub) op h))
    (fun op h => (List.forall_iff_forall_mem.mp hostOps3_4_fresh) op h) (V20 m outs) (E 3)

def seg22 : HostSeg (Ix := Ix) (Name := ℕ) (U := U) (Lvl := Lvl) (pcfgs (F := F)) defs₀ 𝒱₀ L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (V22 m outs) (E 4)

def seg23 : HostSeg (Ix := Ix) (Name := ℕ) (U := U) (Lvl := Lvl) (pcfgs (F := F)) defs₀ 𝒱₀ L lv :=
  HostSeg.ofOps _ _ _ _ _ (Pipeline.ucRefs τ sig) hostOps4_1
    (fun op h => Pipeline.sub_ucRefs op ((List.forall_iff_forall_mem.mp hostOps4_1_sub) op h))
    (fun op h => (List.forall_iff_forall_mem.mp hostOps4_1_fresh) op h) (V23 m outs) (E 4)

def seg24 : HostSeg (Ix := Ix) (Name := ℕ) (U := U) (Lvl := Lvl) (pcfgs (F := F)) defs₀ 𝒱₀ L lv :=
  HostSeg.ofOps _ _ _ _ _ (Pipeline.ucRefs τ sig) hostOps4_2
    (fun op h => Pipeline.sub_ucRefs op ((List.forall_iff_forall_mem.mp hostOps4_2_sub) op h))
    (fun op h => (List.forall_iff_forall_mem.mp hostOps4_2_fresh) op h) (V24 m outs) (E 4)

def seg25 : HostSeg (Ix := Ix) (Name := ℕ) (U := U) (Lvl := Lvl) (pcfgs (F := F)) defs₀ 𝒱₀ L lv :=
  HostSeg.ofOps _ _ _ _ _ (Pipeline.ucRefs τ sig) hostOps4_3
    (fun op h => Pipeline.sub_ucRefs op ((List.forall_iff_forall_mem.mp hostOps4_3_sub) op h))
    (fun op h => (List.forall_iff_forall_mem.mp hostOps4_3_fresh) op h) (V25 m outs) (E 4)

def seg26 : HostSeg (Ix := Ix) (Name := ℕ) (U := U) (Lvl := Lvl) (pcfgs (F := F)) defs₀ 𝒱₀ L lv :=
  HostSeg.ofOps _ _ _ _ _ (Pipeline.ucRefs τ sig) hostOps4_4
    (fun op h => Pipeline.sub_ucRefs op ((List.forall_iff_forall_mem.mp hostOps4_4_sub) op h))
    (fun op h => (List.forall_iff_forall_mem.mp hostOps4_4_fresh) op h) (V26 m outs) (E 4)

def seg28 : HostSeg (Ix := Ix) (Name := ℕ) (U := U) (Lvl := Lvl) (pcfgs (F := F)) defs₀ 𝒱₀ L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (V28 m outs) (E 5)

def seg29 : HostSeg (Ix := Ix) (Name := ℕ) (U := U) (Lvl := Lvl) (pcfgs (F := F)) defs₀ 𝒱₀ L lv :=
  HostSeg.ofOps _ _ _ _ _ (Pipeline.ucRefs τ sig) hostOps5_1
    (fun op h => Pipeline.sub_ucRefs op ((List.forall_iff_forall_mem.mp hostOps5_1_sub) op h))
    (fun op h => (List.forall_iff_forall_mem.mp hostOps5_1_fresh) op h) (V29 m outs) (E 5)

def seg30 : HostSeg (Ix := Ix) (Name := ℕ) (U := U) (Lvl := Lvl) (pcfgs (F := F)) defs₀ 𝒱₀ L lv :=
  HostSeg.ofOps _ _ _ _ _ (Pipeline.ucRefs τ sig) hostOps5_2
    (fun op h => Pipeline.sub_ucRefs op ((List.forall_iff_forall_mem.mp hostOps5_2_sub) op h))
    (fun op h => (List.forall_iff_forall_mem.mp hostOps5_2_fresh) op h) (V30 m outs) (E 5)

def seg31 : HostSeg (Ix := Ix) (Name := ℕ) (U := U) (Lvl := Lvl) (pcfgs (F := F)) defs₀ 𝒱₀ L lv :=
  HostSeg.ofOps _ _ _ _ _ (Pipeline.ucRefs τ sig) hostOps5_3
    (fun op h => Pipeline.sub_ucRefs op ((List.forall_iff_forall_mem.mp hostOps5_3_sub) op h))
    (fun op h => (List.forall_iff_forall_mem.mp hostOps5_3_fresh) op h) (V31 m outs) (E 5)

def seg32 : HostSeg (Ix := Ix) (Name := ℕ) (U := U) (Lvl := Lvl) (pcfgs (F := F)) defs₀ 𝒱₀ L lv :=
  HostSeg.ofOps _ _ _ _ _ (Pipeline.ucRefs τ sig) hostOps5_4
    (fun op h => Pipeline.sub_ucRefs op ((List.forall_iff_forall_mem.mp hostOps5_4_sub) op h))
    (fun op h => (List.forall_iff_forall_mem.mp hostOps5_4_fresh) op h) (V32 m outs) (E 5)

def seg34 : HostSeg (Ix := Ix) (Name := ℕ) (U := U) (Lvl := Lvl) (pcfgs (F := F)) defs₀ 𝒱₀ L lv :=
  HostSeg.ofOps _ _ _ _ _ (Pipeline.ucRefs τ sig) hostOps6
    (fun op h => Pipeline.sub_ucRefs op ((List.forall_iff_forall_mem.mp hostOps6_sub) op h))
    (fun op h => (List.forall_iff_forall_mem.mp hostOps6_fresh) op h) (V34 m outs) (E 6)

def seg35 : HostSeg (Ix := Ix) (Name := ℕ) (U := U) (Lvl := Lvl) (pcfgs (F := F)) defs₀ 𝒱₀ L lv :=
  HostSeg.ofOps _ _ _ _ _ (Pipeline.ucRefs τ sig) hostOps6_1
    (fun op h => Pipeline.sub_ucRefs op ((List.forall_iff_forall_mem.mp hostOps6_1_sub) op h))
    (fun op h => (List.forall_iff_forall_mem.mp hostOps6_1_fresh) op h) (V35 m outs) (E 6)

def seg36 : HostSeg (Ix := Ix) (Name := ℕ) (U := U) (Lvl := Lvl) (pcfgs (F := F)) defs₀ 𝒱₀ L lv :=
  HostSeg.ofOps _ _ _ _ _ (Pipeline.ucRefs τ sig) hostOps6_2
    (fun op h => Pipeline.sub_ucRefs op ((List.forall_iff_forall_mem.mp hostOps6_2_sub) op h))
    (fun op h => (List.forall_iff_forall_mem.mp hostOps6_2_fresh) op h) (V36 m outs) (E 6)

def seg37 : HostSeg (Ix := Ix) (Name := ℕ) (U := U) (Lvl := Lvl) (pcfgs (F := F)) defs₀ 𝒱₀ L lv :=
  HostSeg.ofOps _ _ _ _ _ (Pipeline.ucRefs τ sig) hostOps6_3
    (fun op h => Pipeline.sub_ucRefs op ((List.forall_iff_forall_mem.mp hostOps6_3_sub) op h))
    (fun op h => (List.forall_iff_forall_mem.mp hostOps6_3_fresh) op h) (V37 m outs) (E 6)

def seg38 : HostSeg (Ix := Ix) (Name := ℕ) (U := U) (Lvl := Lvl) (pcfgs (F := F)) defs₀ 𝒱₀ L lv :=
  HostSeg.ofOps _ _ _ _ _ (Pipeline.ucRefs τ sig) hostOps6_4
    (fun op h => Pipeline.sub_ucRefs op ((List.forall_iff_forall_mem.mp hostOps6_4_sub) op h))
    (fun op h => (List.forall_iff_forall_mem.mp hostOps6_4_fresh) op h) (V38 m outs) (E 6)

def seg40 : HostSeg (Ix := Ix) (Name := ℕ) (U := U) (Lvl := Lvl) (pcfgs (F := F)) defs₀ 𝒱₀ L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (V40 m outs) (E 7)

def seg41 : HostSeg (Ix := Ix) (Name := ℕ) (U := U) (Lvl := Lvl) (pcfgs (F := F)) defs₀ 𝒱₀ L lv :=
  HostSeg.ofOps _ _ _ _ _ (Pipeline.ucRefs τ sig) hostOps7_1
    (fun op h => Pipeline.sub_ucRefs op ((List.forall_iff_forall_mem.mp hostOps7_1_sub) op h))
    (fun op h => (List.forall_iff_forall_mem.mp hostOps7_1_fresh) op h) (V41 m outs) (E 7)

def seg42 : HostSeg (Ix := Ix) (Name := ℕ) (U := U) (Lvl := Lvl) (pcfgs (F := F)) defs₀ 𝒱₀ L lv :=
  HostSeg.ofOps _ _ _ _ _ (Pipeline.ucRefs τ sig) hostOps7_2
    (fun op h => Pipeline.sub_ucRefs op ((List.forall_iff_forall_mem.mp hostOps7_2_sub) op h))
    (fun op h => (List.forall_iff_forall_mem.mp hostOps7_2_fresh) op h) (V42 m outs) (E 7)

def seg43 : HostSeg (Ix := Ix) (Name := ℕ) (U := U) (Lvl := Lvl) (pcfgs (F := F)) defs₀ 𝒱₀ L lv :=
  HostSeg.ofOps _ _ _ _ _ (Pipeline.ucRefs τ sig) hostOps7_3
    (fun op h => Pipeline.sub_ucRefs op ((List.forall_iff_forall_mem.mp hostOps7_3_sub) op h))
    (fun op h => (List.forall_iff_forall_mem.mp hostOps7_3_fresh) op h) (V43 m outs) (E 7)

def seg44 : HostSeg (Ix := Ix) (Name := ℕ) (U := U) (Lvl := Lvl) (pcfgs (F := F)) defs₀ 𝒱₀ L lv :=
  HostSeg.ofOps _ _ _ _ _ (Pipeline.ucRefs τ sig) hostOps7_4
    (fun op h => Pipeline.sub_ucRefs op ((List.forall_iff_forall_mem.mp hostOps7_4_sub) op h))
    (fun op h => (List.forall_iff_forall_mem.mp hostOps7_4_fresh) op h) (V44 m outs) (E 7)

def seg46 : HostSeg (Ix := Ix) (Name := ℕ) (U := U) (Lvl := Lvl) (pcfgs (F := F)) defs₀ 𝒱₀ L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (V46 m outs) (E 8)

def seg47 : HostSeg (Ix := Ix) (Name := ℕ) (U := U) (Lvl := Lvl) (pcfgs (F := F)) defs₀ 𝒱₀ L lv :=
  HostSeg.ofOps _ _ _ _ _ (Pipeline.ucRefs τ sig) hostOps8_1
    (fun op h => Pipeline.sub_ucRefs op ((List.forall_iff_forall_mem.mp hostOps8_1_sub) op h))
    (fun op h => (List.forall_iff_forall_mem.mp hostOps8_1_fresh) op h) (V47 m outs) (E 8)

def seg48 : HostSeg (Ix := Ix) (Name := ℕ) (U := U) (Lvl := Lvl) (pcfgs (F := F)) defs₀ 𝒱₀ L lv :=
  HostSeg.ofOps _ _ _ _ _ (Pipeline.ucRefs τ sig) hostOps8_2
    (fun op h => Pipeline.sub_ucRefs op ((List.forall_iff_forall_mem.mp hostOps8_2_sub) op h))
    (fun op h => (List.forall_iff_forall_mem.mp hostOps8_2_fresh) op h) (V48 m outs) (E 8)

def seg49 : HostSeg (Ix := Ix) (Name := ℕ) (U := U) (Lvl := Lvl) (pcfgs (F := F)) defs₀ 𝒱₀ L lv :=
  HostSeg.ofOps _ _ _ _ _ (Pipeline.ucRefs τ sig) hostOps8_3
    (fun op h => Pipeline.sub_ucRefs op ((List.forall_iff_forall_mem.mp hostOps8_3_sub) op h))
    (fun op h => (List.forall_iff_forall_mem.mp hostOps8_3_fresh) op h) (V49 m outs) (E 8)

def seg50 : HostSeg (Ix := Ix) (Name := ℕ) (U := U) (Lvl := Lvl) (pcfgs (F := F)) defs₀ 𝒱₀ L lv :=
  HostSeg.ofOps _ _ _ _ _ (Pipeline.ucRefs τ sig) hostOps8_4
    (fun op h => Pipeline.sub_ucRefs op ((List.forall_iff_forall_mem.mp hostOps8_4_sub) op h))
    (fun op h => (List.forall_iff_forall_mem.mp hostOps8_4_fresh) op h) (V50 m outs) (E 8)

def seg52 : HostSeg (Ix := Ix) (Name := ℕ) (U := U) (Lvl := Lvl) (pcfgs (F := F)) defs₀ 𝒱₀ L lv :=
  HostSeg.ofOps _ _ _ _ _ (Pipeline.ucRefs τ sig) hostOps9
    (fun op h => Pipeline.sub_ucRefs op ((List.forall_iff_forall_mem.mp hostOps9_sub) op h))
    (fun op h => (List.forall_iff_forall_mem.mp hostOps9_fresh) op h) (V52 m outs) (E 9)

def seg53 : HostSeg (Ix := Ix) (Name := ℕ) (U := U) (Lvl := Lvl) (pcfgs (F := F)) defs₀ 𝒱₀ L lv :=
  HostSeg.ofOps _ _ _ _ _ (Pipeline.ucRefs τ sig) hostOps9_1
    (fun op h => Pipeline.sub_ucRefs op ((List.forall_iff_forall_mem.mp hostOps9_1_sub) op h))
    (fun op h => (List.forall_iff_forall_mem.mp hostOps9_1_fresh) op h) (V53 m outs) (E 9)

def seg54 : HostSeg (Ix := Ix) (Name := ℕ) (U := U) (Lvl := Lvl) (pcfgs (F := F)) defs₀ 𝒱₀ L lv :=
  HostSeg.ofOps _ _ _ _ _ (Pipeline.ucRefs τ sig) hostOps9_2
    (fun op h => Pipeline.sub_ucRefs op ((List.forall_iff_forall_mem.mp hostOps9_2_sub) op h))
    (fun op h => (List.forall_iff_forall_mem.mp hostOps9_2_fresh) op h) (V54 m outs) (E 9)

def seg55 : HostSeg (Ix := Ix) (Name := ℕ) (U := U) (Lvl := Lvl) (pcfgs (F := F)) defs₀ 𝒱₀ L lv :=
  HostSeg.ofOps _ _ _ _ _ (Pipeline.ucRefs τ sig) hostOps9_3
    (fun op h => Pipeline.sub_ucRefs op ((List.forall_iff_forall_mem.mp hostOps9_3_sub) op h))
    (fun op h => (List.forall_iff_forall_mem.mp hostOps9_3_fresh) op h) (V55 m outs) (E 9)

def seg56 : HostSeg (Ix := Ix) (Name := ℕ) (U := U) (Lvl := Lvl) (pcfgs (F := F)) defs₀ 𝒱₀ L lv :=
  HostSeg.ofOps _ _ _ _ _ (Pipeline.ucRefs τ sig) hostOps9_4
    (fun op h => Pipeline.sub_ucRefs op ((List.forall_iff_forall_mem.mp hostOps9_4_sub) op h))
    (fun op h => (List.forall_iff_forall_mem.mp hostOps9_4_fresh) op h) (V56 m outs) (E 9)

def seg58 : HostSeg (Ix := Ix) (Name := ℕ) (U := U) (Lvl := Lvl) (pcfgs (F := F)) defs₀ 𝒱₀ L lv :=
  HostSeg.ofOps _ _ _ _ _ (Pipeline.ucRefs τ sig) hostOps10
    (fun op h => Pipeline.sub_ucRefs op ((List.forall_iff_forall_mem.mp hostOps10_sub) op h))
    (fun op h => (List.forall_iff_forall_mem.mp hostOps10_fresh) op h) (V58 m outs) (E 10)

def seg59 : HostSeg (Ix := Ix) (Name := ℕ) (U := U) (Lvl := Lvl) (pcfgs (F := F)) defs₀ 𝒱₀ L lv :=
  HostSeg.ofOps _ _ _ _ _ (Pipeline.ucRefs τ sig) hostOps10_1
    (fun op h => Pipeline.sub_ucRefs op ((List.forall_iff_forall_mem.mp hostOps10_1_sub) op h))
    (fun op h => (List.forall_iff_forall_mem.mp hostOps10_1_fresh) op h) (V59 m outs) (E 10)

def seg60 : HostSeg (Ix := Ix) (Name := ℕ) (U := U) (Lvl := Lvl) (pcfgs (F := F)) defs₀ 𝒱₀ L lv :=
  HostSeg.ofOps _ _ _ _ _ (Pipeline.ucRefs τ sig) hostOps10_2
    (fun op h => Pipeline.sub_ucRefs op ((List.forall_iff_forall_mem.mp hostOps10_2_sub) op h))
    (fun op h => (List.forall_iff_forall_mem.mp hostOps10_2_fresh) op h) (V60 m outs) (E 10)

def seg61 : HostSeg (Ix := Ix) (Name := ℕ) (U := U) (Lvl := Lvl) (pcfgs (F := F)) defs₀ 𝒱₀ L lv :=
  HostSeg.ofOps _ _ _ _ _ (Pipeline.ucRefs τ sig) hostOps10_3
    (fun op h => Pipeline.sub_ucRefs op ((List.forall_iff_forall_mem.mp hostOps10_3_sub) op h))
    (fun op h => (List.forall_iff_forall_mem.mp hostOps10_3_fresh) op h) (V61 m outs) (E 10)

def seg62 : HostSeg (Ix := Ix) (Name := ℕ) (U := U) (Lvl := Lvl) (pcfgs (F := F)) defs₀ 𝒱₀ L lv :=
  HostSeg.ofOps _ _ _ _ _ (Pipeline.ucRefs τ sig) hostOps10_4
    (fun op h => Pipeline.sub_ucRefs op ((List.forall_iff_forall_mem.mp hostOps10_4_sub) op h))
    (fun op h => (List.forall_iff_forall_mem.mp hostOps10_4_fresh) op h) (V62 m outs) (E 10)

end Segs

section

variable {Ix : Type} [DecidableEq Ix] {U : Type} [URA U] {Lvl : Type} [Preorder Lvl]

abbrev adm : (p : Fin 11) → (pcfgs (F := F) p).Adm := fun p => (cfgs p).toPCfg_adm

abbrev segs (𝒱₀ : Variants) (L : GSem nD τ sig → Finset Ix) (lv : GSem nD τ sig → Ix → Lvl) (E : Fin 12 → Dev nD → sProp (MT nD τ sig Ix (Elt F) ℕ U Lvl)) (ι : Ix)
    (pdats : (p : Fin 11) → (c : Dev nD) → Dat τ (Elt F) Ix ℕ U Lvl (cfgs p) c) (R0 : RegionSeg (pcfgs (F := F)) adm pdats ι defs₀ 𝒱₀ L lv 0) (R1 : RegionSeg (pcfgs (F := F)) adm pdats ι defs₀ 𝒱₀ L lv 1) (R2 : RegionSeg (pcfgs (F := F)) adm pdats ι defs₀ 𝒱₀ L lv 2) (R3 : RegionSeg (pcfgs (F := F)) adm pdats ι defs₀ 𝒱₀ L lv 3) (R4 : RegionSeg (pcfgs (F := F)) adm pdats ι defs₀ 𝒱₀ L lv 4) (R5 : RegionSeg (pcfgs (F := F)) adm pdats ι defs₀ 𝒱₀ L lv 5) (R6 : RegionSeg (pcfgs (F := F)) adm pdats ι defs₀ 𝒱₀ L lv 6) (R7 : RegionSeg (pcfgs (F := F)) adm pdats ι defs₀ 𝒱₀ L lv 7) (R8 : RegionSeg (pcfgs (F := F)) adm pdats ι defs₀ 𝒱₀ L lv 8) (R9 : RegionSeg (pcfgs (F := F)) adm pdats ι defs₀ 𝒱₀ L lv 9) (R10 : RegionSeg (pcfgs (F := F)) adm pdats ι defs₀ 𝒱₀ L lv 10) (c : Dev nD) :
    List (Seg (pcfgs (F := F)) adm pdats ι defs₀ 𝒱₀ L lv) :=
  [.host (seg0 m 𝒱₀ L lv E), .host (seg1 m 𝒱₀ L lv E), .host (seg2 m 𝒱₀ L lv E), .region R0, .host (seg4 m outs 𝒱₀ L lv E), .host (seg5 m outs 𝒱₀ L lv E), .host (seg6 m outs 𝒱₀ L lv E), .host (seg7 m outs 𝒱₀ L lv E), .host (seg8 m outs 𝒱₀ L lv E), .region R1, .host (seg10 m outs 𝒱₀ L lv E), .host (seg11 m outs 𝒱₀ L lv E), .host (seg12 m outs 𝒱₀ L lv E), .host (seg13 m outs 𝒱₀ L lv E), .host (seg14 m outs 𝒱₀ L lv E), .region R2, .host (seg16 m outs 𝒱₀ L lv E), .host (seg17 m outs 𝒱₀ L lv E), .host (seg18 m outs 𝒱₀ L lv E), .host (seg19 m outs 𝒱₀ L lv E), .host (seg20 m outs 𝒱₀ L lv E), .region R3, .host (seg22 m outs 𝒱₀ L lv E), .host (seg23 m outs 𝒱₀ L lv E), .host (seg24 m outs 𝒱₀ L lv E), .host (seg25 m outs 𝒱₀ L lv E), .host (seg26 m outs 𝒱₀ L lv E), .region R4, .host (seg28 m outs 𝒱₀ L lv E), .host (seg29 m outs 𝒱₀ L lv E), .host (seg30 m outs 𝒱₀ L lv E), .host (seg31 m outs 𝒱₀ L lv E), .host (seg32 m outs 𝒱₀ L lv E), .region R5, .host (seg34 m outs 𝒱₀ L lv E), .host (seg35 m outs 𝒱₀ L lv E), .host (seg36 m outs 𝒱₀ L lv E), .host (seg37 m outs 𝒱₀ L lv E), .host (seg38 m outs 𝒱₀ L lv E), .region R6, .host (seg40 m outs 𝒱₀ L lv E), .host (seg41 m outs 𝒱₀ L lv E), .host (seg42 m outs 𝒱₀ L lv E), .host (seg43 m outs 𝒱₀ L lv E), .host (seg44 m outs 𝒱₀ L lv E), .region R7, .host (seg46 m outs 𝒱₀ L lv E), .host (seg47 m outs 𝒱₀ L lv E), .host (seg48 m outs 𝒱₀ L lv E), .host (seg49 m outs 𝒱₀ L lv E), .host (seg50 m outs 𝒱₀ L lv E), .region R8, .host (seg52 m outs 𝒱₀ L lv E), .host (seg53 m outs 𝒱₀ L lv E), .host (seg54 m outs 𝒱₀ L lv E), .host (seg55 m outs 𝒱₀ L lv E), .host (seg56 m outs 𝒱₀ L lv E), .region R9, .host (seg58 m outs 𝒱₀ L lv E), .host (seg59 m outs 𝒱₀ L lv E), .host (seg60 m outs 𝒱₀ L lv E), .host (seg61 m outs 𝒱₀ L lv E), .host (seg62 m outs 𝒱₀ L lv E), .region R10]

end

set_option backward.isDefEq.respectTransparency.types false in

theorem frame_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 11) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 12 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE11 : ∀ c : Dev nD, E 11 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V3 m c) ∗ E 0 c) ⊢ R0.pre c)
    (hpost0 : ∀ c : Dev nD, R0.post c ⊢ iprop(StableHlo.held (c : Thread nD τ) (Pipeline.ucRefs τ sig) (V4 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V9 m outs c) ∗ E 1 c) ⊢ R1.pre c)
    (hpost1 : ∀ c : Dev nD, R1.post c ⊢ iprop(StableHlo.held (c : Thread nD τ) (Pipeline.ucRefs τ sig) (V10 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V15 m outs c) ∗ E 2 c) ⊢ R2.pre c)
    (hpost2 : ∀ c : Dev nD, R2.post c ⊢ iprop(StableHlo.held (c : Thread nD τ) (Pipeline.ucRefs τ sig) (V16 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V21 m outs c) ∗ E 3 c) ⊢ R3.pre c)
    (hpost3 : ∀ c : Dev nD, R3.post c ⊢ iprop(StableHlo.held (c : Thread nD τ) (Pipeline.ucRefs τ sig) (V22 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V27 m outs c) ∗ E 4 c) ⊢ R4.pre c)
    (hpost4 : ∀ c : Dev nD, R4.post c ⊢ iprop(StableHlo.held (c : Thread nD τ) (Pipeline.ucRefs τ sig) (V28 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V33 m outs c) ∗ E 5 c) ⊢ R5.pre c)
    (hpost5 : ∀ c : Dev nD, R5.post c ⊢ iprop(StableHlo.held (c : Thread nD τ) (Pipeline.ucRefs τ sig) (V34 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V39 m outs c) ∗ E 6 c) ⊢ R6.pre c)
    (hpost6 : ∀ c : Dev nD, R6.post c ⊢ iprop(StableHlo.held (c : Thread nD τ) (Pipeline.ucRefs τ sig) (V40 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V45 m outs c) ∗ E 7 c) ⊢ R7.pre c)
    (hpost7 : ∀ c : Dev nD, R7.post c ⊢ iprop(StableHlo.held (c : Thread nD τ) (Pipeline.ucRefs τ sig) (V46 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V51 m outs c) ∗ E 8 c) ⊢ R8.pre c)
    (hpost8 : ∀ c : Dev nD, R8.post c ⊢ iprop(StableHlo.held (c : Thread nD τ) (Pipeline.ucRefs τ sig) (V52 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V57 m outs c) ∗ E 9 c) ⊢ R9.pre c)
    (hpost9 : ∀ c : Dev nD, R9.post c ⊢ iprop(StableHlo.held (c : Thread nD τ) (Pipeline.ucRefs τ sig) (V58 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V63 m outs c) ∗ E 10 c) ⊢ R10.pre c)
    (hpost10 : ∀ c : Dev nD, R10.post c ⊢ iprop(StableHlo.held (c : Thread nD τ) (Pipeline.ucRefs τ sig) (V64 m outs c) ∗ E 11 c)) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v114) = V64 m outs c (Proc.devRef .tc main_v114)) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10)
    (fun c Q => by
      rewrite [main_chain c, Seg.run_eq_chain,
        show (segs m outs 𝒱₀ L lv E ι pdats R0 R1 R2 R3 R4 R5 R6 R7 R8 R9 R10 c).map Seg.prog = [
          StableHlo.seq hostOps0,
          StableHlo.seq hostOps0_1,
          StableHlo.seq hostOps0_2,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3,
          StableHlo.seq hostOps2_4,
          Prog.lift (.customCall (Pipeline.entry 2) ()),
          StableHlo.seq hostOps3,
          StableHlo.seq hostOps3_1,
          StableHlo.seq hostOps3_2,
          StableHlo.seq hostOps3_3,
          StableHlo.seq hostOps3_4,
          Prog.lift (.customCall (Pipeline.entry 3) ()),
          StableHlo.seq hostOps4,
          StableHlo.seq hostOps4_1,
          StableHlo.seq hostOps4_2,
          StableHlo.seq hostOps4_3,
          StableHlo.seq hostOps4_4,
          Prog.lift (.customCall (Pipeline.entry 4) ()),
          StableHlo.seq hostOps5,
          StableHlo.seq hostOps5_1,
          StableHlo.seq hostOps5_2,
          StableHlo.seq hostOps5_3,
          StableHlo.seq hostOps5_4,
          Prog.lift (.customCall (Pipeline.entry 5) ()),
          StableHlo.seq hostOps6,
          StableHlo.seq hostOps6_1,
          StableHlo.seq hostOps6_2,
          StableHlo.seq hostOps6_3,
          StableHlo.seq hostOps6_4,
          Prog.lift (.customCall (Pipeline.entry 6) ()),
          StableHlo.seq hostOps7,
          StableHlo.seq hostOps7_1,
          StableHlo.seq hostOps7_2,
          StableHlo.seq hostOps7_3,
          StableHlo.seq hostOps7_4,
          Prog.lift (.customCall (Pipeline.entry 7) ()),
          StableHlo.seq hostOps8,
          StableHlo.seq hostOps8_1,
          StableHlo.seq hostOps8_2,
          StableHlo.seq hostOps8_3,
          StableHlo.seq hostOps8_4,
          Prog.lift (.customCall (Pipeline.entry 8) ()),
          StableHlo.seq hostOps9,
          StableHlo.seq hostOps9_1,
          StableHlo.seq hostOps9_2,
          StableHlo.seq hostOps9_3,
          StableHlo.seq hostOps9_4,
          Prog.lift (.customCall (Pipeline.entry 9) ()),
          StableHlo.seq hostOps10,
          StableHlo.seq hostOps10_1,
          StableHlo.seq hostOps10_2,
          StableHlo.seq hostOps10_3,
          StableHlo.seq hostOps10_4,
          Prog.lift (.customCall (Pipeline.entry 10) ()) ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V64 m outs c))
    (hch := fun c => ⟨.rfl, .rfl, .rfl, hpre0 c, hpost0 c, .rfl, .rfl, .rfl, .rfl, hpre1 c, hpost1 c, .rfl, .rfl, .rfl, .rfl, hpre2 c, hpost2 c, .rfl, .rfl, .rfl, .rfl, hpre3 c, hpost3 c, .rfl, .rfl, .rfl, .rfl, hpre4 c, hpost4 c, .rfl, .rfl, .rfl, .rfl, hpre5 c, hpost5 c, .rfl, .rfl, .rfl, .rfl, hpre6 c, hpost6 c, .rfl, .rfl, .rfl, .rfl, hpre7 c, hpost7 c, .rfl, .rfl, .rfl, .rfl, hpre8 c, hpost8 c, .rfl, .rfl, .rfl, .rfl, hpre9 c, hpost9 c, .rfl, .rfl, .rfl, .rfl, hpre10 c, (hpost10 c).trans (sep_mono .rfl (hE11 c))⟩)
    (hinit := ?_) (QY := fun c s => s.mem ((c.tc : Thread nD τ).loc main_arg0) = m ((c.tc : Thread nD τ).loc main_arg0) ∧ s.mem ((c.tc : Thread nD τ).loc main_arg1) = m ((c.tc : Thread nD τ).loc main_arg1) ∧ s.mem ((c.tc : Thread nD τ).loc main_arg2) = m ((c.tc : Thread nD τ).loc main_arg2) ∧ s.mem ((c.tc : Thread nD τ).loc main_arg3) = m ((c.tc : Thread nD τ).loc main_arg3) ∧ s.mem ((c.tc : Thread nD τ).loc main_arg4) = m ((c.tc : Thread nD τ).loc main_arg4) ∧ s.mem ((c.tc : Thread nD τ).loc main_arg5) = m ((c.tc : Thread nD τ).loc main_arg5) ∧ s.mem ((c.tc : Thread nD τ).loc main_v114) = V64 m outs c (Proc.devRef .tc main_v114))
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V64 m outs c) s') $$ [Hh HSI]
    · isplitl [Hh] <;> iassumption
    icases Hr with ⟨%h, HSI⟩
    imodintro
    isplitr
    · ipureintro
      exact ⟨(h (Proc.devRef .tc main_arg0) (Finset.mem_filter.mpr ⟨StableHlo.devRef_mem_tcRefs main_arg0, by decide⟩)).trans (V64_main_arg0 m outs c),
        (h (Proc.devRef .tc main_arg1) (Finset.mem_filter.mpr ⟨StableHlo.devRef_mem_tcRefs main_arg1, by decide⟩)).trans (V64_main_arg1 m outs c),
        (h (Proc.devRef .tc main_arg2) (Finset.mem_filter.mpr ⟨StableHlo.devRef_mem_tcRefs main_arg2, by decide⟩)).trans (V64_main_arg2 m outs c),
        (h (Proc.devRef .tc main_arg3) (Finset.mem_filter.mpr ⟨StableHlo.devRef_mem_tcRefs main_arg3, by decide⟩)).trans (V64_main_arg3 m outs c),
        (h (Proc.devRef .tc main_arg4) (Finset.mem_filter.mpr ⟨StableHlo.devRef_mem_tcRefs main_arg4, by decide⟩)).trans (V64_main_arg4 m outs c),
        (h (Proc.devRef .tc main_arg5) (Finset.mem_filter.mpr ⟨StableHlo.devRef_mem_tcRefs main_arg5, by decide⟩)).trans (V64_main_arg5 m outs c),
        h (Proc.devRef .tc main_v114) (Finset.mem_filter.mpr ⟨StableHlo.devRef_mem_tcRefs main_v114, by decide⟩)⟩
    · iexact HSI

end Cert.KernelIdeal.GenP

end
-- ==== Proof.KIReg0.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rX0 : Rect S2048x256 := Rect.unit (s := S2048x256) ![0, 0] S2048x256.size inb_S2048x256_S2048x256_0_0
abbrev rW0 : Rect S512x256 := Rect.unit (s := S512x256) ![0, 0] S512x256.size inb_S512x256_S512x256_0_0
abbrev rB0 : Rect S1x512 := Rect.unit (s := S1x512) ![0, 0] S1x512.size inb_S1x512_S1x512_0_0
abbrev rO0 : Rect S2048x512 := Rect.unit (s := S2048x512) ![0, 0] S2048x512.size inb_S2048x512_S2048x512_0_0

/-- The body's result block as a function of the three input blocks. -/
def out0_3 (x : Vec F S2048x256 .f32) (w : Vec F S512x256 .f32) (b : Vec F S1x512 .f32) : Vec F S2048x512 .f32 :=
  View.canon [⟨rO0, k0_pay1 (View.ld x rX0) (View.ld w rW0) (View.ld b rB0)⟩]

/-- After the body at point `t` each input is at its block and the output at `out0_3` of them. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem after0_3 (c : Dev nD) (t : Fin cfg0.N) :
    (dat0 V c).after 3 t = out0_3 (iblk0 V c 0 t) (iblk0 V c 1 t) (iblk0 V c 2 t) := by dsimp only [dat0]

/-- An input is the same before the body as after it. -/
theorem before0 (c : Dev nD) (w : Fin 4) (h : w ≠ 3) (t d) : (dat0 V c).before w t d = (dat0 V c).after w t := by
  fin_cases w <;> first | exact absurd rfl h |
    exact (dat0 V c).before_in_eq_fetched _ rfl (fun _ => rfl) (fun _ _ _ => rfl) (fun _ => rfl) t d

set_option maxHeartbeats 1000000 in
/-- The body reads the three input blocks and stores `out0_3` of them. -/
theorem body_obligation0 (c : Dev nD) : BodyObligation (dat0 (F := F) V c) (defs₀ (F := F)) Variants.none () Set.univ := fun t => by
  rw [bigSep_W0, bigSep_W0]
  simp only [before0 V c 0 (by decide), before0 V c 1 (by decide), before0 V c 2 (by decide)]
  dsimp only [dat0, Dat.owesAt, Dat.bound]
  show _ ⊢ wp _ _ _ (bodyAt0 t) _
  generalize iblk0 V c 0 t = x, iblk0 V c 1 t = w, iblk0 V c 2 t = b
  simp only [bodyAt0, cc0__linear_relu_kernel_eq_skeleton]; unfold cc0__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S2048x512.size (by rfl))

end Cert.KernelIdeal.Hand

end
-- ==== Proof.KIReg1.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rX1 : Rect S1024x1536 := Rect.unit (s := S1024x1536) ![0, 0] S1024x1536.size inb_S1024x1536_S1024x1536_0_0
abbrev rW1 : Rect S512x1536 := Rect.unit (s := S512x1536) ![0, 0] S512x1536.size inb_S512x1536_S512x1536_0_0
abbrev rB1 : Rect S1x512 := Rect.unit (s := S1x512) ![0, 0] S1x512.size inb_S1x512_S1x512_0_0
abbrev rO1 : Rect S1024x512 := Rect.unit (s := S1024x512) ![0, 0] S1024x512.size inb_S1024x512_S1024x512_0_0

/-- The body's result block as a function of the three input blocks. -/
def out1_3 (x : Vec F S1024x1536 .f32) (w : Vec F S512x1536 .f32) (b : Vec F S1x512 .f32) : Vec F S1024x512 .f32 :=
  View.canon [⟨rO1, k1_pay1 (View.ld x rX1) (View.ld w rW1) (View.ld b rB1)⟩]

/-- After the body at point `t` each input is at its block and the output at `out1_3` of them. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => out1_3 (iblk1 V c 0 t) (iblk1 V c 1 t) (iblk1 V c 2 t)
  Φ _ := Pipeline.ΦA spec1 c
  q _ := fullShare
  owed _ := 0

theorem after1_3 (c : Dev nD) (t : Fin cfg1.N) :
    (dat1 V c).after 3 t = out1_3 (iblk1 V c 0 t) (iblk1 V c 1 t) (iblk1 V c 2 t) := by dsimp only [dat1]

/-- An input is the same before the body as after it. -/
theorem before1 (c : Dev nD) (w : Fin 4) (h : w ≠ 3) (t d) : (dat1 V c).before w t d = (dat1 V c).after w t := by
  fin_cases w <;> first | exact absurd rfl h |
    exact (dat1 V c).before_in_eq_fetched _ rfl (fun _ => rfl) (fun _ _ _ => rfl) (fun _ => rfl) t d

set_option maxHeartbeats 1000000 in
/-- The body reads the three input blocks and stores `out1_3` of them. -/
theorem body_obligation1 (c : Dev nD) : BodyObligation (dat1 (F := F) V c) (defs₀ (F := F)) Variants.none () Set.univ := fun t => by
  rw [bigSep_W1, bigSep_W1]
  simp only [before1 V c 0 (by decide), before1 V c 1 (by decide), before1 V c 2 (by decide)]
  dsimp only [dat1, Dat.owesAt, Dat.bound]
  show _ ⊢ wp _ _ _ (bodyAt1 t) _
  generalize iblk1 V c 0 t = x, iblk1 V c 1 t = w, iblk1 V c 2 t = b
  simp only [bodyAt1, cc1__linear_relu_kernel_eq_skeleton]; unfold cc1__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg2.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rX2 : Rect S1024x1536 := Rect.unit (s := S1024x1536) ![0, 0] S1024x1536.size inb_S1024x1536_S1024x1536_0_0
abbrev rW2 : Rect S512x1536 := Rect.unit (s := S512x1536) ![0, 0] S512x1536.size inb_S512x1536_S512x1536_0_0
abbrev rB2 : Rect S1x512 := Rect.unit (s := S1x512) ![0, 0] S1x512.size inb_S1x512_S1x512_0_0
abbrev rO2 : Rect S1024x512 := Rect.unit (s := S1024x512) ![0, 0] S1024x512.size inb_S1024x512_S1024x512_0_0

/-- The body's result block as a function of the three input blocks. -/
def out2_3 (x : Vec F S1024x1536 .f32) (w : Vec F S512x1536 .f32) (b : Vec F S1x512 .f32) : Vec F S1024x512 .f32 :=
  View.canon [⟨rO2, k2_pay1 (View.ld x rX2) (View.ld w rW2) (View.ld b rB2)⟩]

/-- After the body at point `t` each input is at its block and the output at `out2_3` of them. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem after2_3 (c : Dev nD) (t : Fin cfg2.N) :
    (dat2 V c).after 3 t = out2_3 (iblk2 V c 0 t) (iblk2 V c 1 t) (iblk2 V c 2 t) := by dsimp only [dat2]

/-- An input is the same before the body as after it. -/
theorem before2 (c : Dev nD) (w : Fin 4) (h : w ≠ 3) (t d) : (dat2 V c).before w t d = (dat2 V c).after w t := by
  fin_cases w <;> first | exact absurd rfl h |
    exact (dat2 V c).before_in_eq_fetched _ rfl (fun _ => rfl) (fun _ _ _ => rfl) (fun _ => rfl) t d

set_option maxHeartbeats 1000000 in
/-- The body reads the three input blocks and stores `out2_3` of them. -/
theorem body_obligation2 (c : Dev nD) : BodyObligation (dat2 (F := F) V c) (defs₀ (F := F)) Variants.none () Set.univ := fun t => by
  rw [bigSep_W2, bigSep_W2]
  simp only [before2 V c 0 (by decide), before2 V c 1 (by decide), before2 V c 2 (by decide)]
  dsimp only [dat2, Dat.owesAt, Dat.bound]
  show _ ⊢ wp _ _ _ (bodyAt2 t) _
  generalize iblk2 V c 0 t = x, iblk2 V c 1 t = w, iblk2 V c 2 t = b
  simp only [bodyAt2, cc2__linear_relu_kernel_eq_skeleton]; unfold cc2__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg3.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rX3 : Rect S1024x1536 := Rect.unit (s := S1024x1536) ![0, 0] S1024x1536.size inb_S1024x1536_S1024x1536_0_0
abbrev rW3 : Rect S512x1536 := Rect.unit (s := S512x1536) ![0, 0] S512x1536.size inb_S512x1536_S512x1536_0_0
abbrev rB3 : Rect S1x512 := Rect.unit (s := S1x512) ![0, 0] S1x512.size inb_S1x512_S1x512_0_0
abbrev rO3 : Rect S1024x512 := Rect.unit (s := S1024x512) ![0, 0] S1024x512.size inb_S1024x512_S1024x512_0_0

/-- The body's result block as a function of the three input blocks. -/
def out3_3 (x : Vec F S1024x1536 .f32) (w : Vec F S512x1536 .f32) (b : Vec F S1x512 .f32) : Vec F S1024x512 .f32 :=
  View.canon [⟨rO3, k3_pay1 (View.ld x rX3) (View.ld w rW3) (View.ld b rB3)⟩]

/-- After the body at point `t` each input is at its block and the output at `out3_3` of them. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => out3_3 (iblk3 V c 0 t) (iblk3 V c 1 t) (iblk3 V c 2 t)
  Φ _ := Pipeline.ΦA spec3 c
  q _ := fullShare
  owed _ := 0

theorem after3_3 (c : Dev nD) (t : Fin cfg3.N) :
    (dat3 V c).after 3 t = out3_3 (iblk3 V c 0 t) (iblk3 V c 1 t) (iblk3 V c 2 t) := by dsimp only [dat3]

/-- An input is the same before the body as after it. -/
theorem before3 (c : Dev nD) (w : Fin 4) (h : w ≠ 3) (t d) : (dat3 V c).before w t d = (dat3 V c).after w t := by
  fin_cases w <;> first | exact absurd rfl h |
    exact (dat3 V c).before_in_eq_fetched _ rfl (fun _ => rfl) (fun _ _ _ => rfl) (fun _ => rfl) t d

set_option maxHeartbeats 1000000 in
/-- The body reads the three input blocks and stores `out3_3` of them. -/
theorem body_obligation3 (c : Dev nD) : BodyObligation (dat3 (F := F) V c) (defs₀ (F := F)) Variants.none () Set.univ := fun t => by
  rw [bigSep_W3, bigSep_W3]
  simp only [before3 V c 0 (by decide), before3 V c 1 (by decide), before3 V c 2 (by decide)]
  dsimp only [dat3, Dat.owesAt, Dat.bound]
  show _ ⊢ wp _ _ _ (bodyAt3 t) _
  generalize iblk3 V c 0 t = x, iblk3 V c 1 t = w, iblk3 V c 2 t = b
  simp only [bodyAt3, cc3__linear_relu_kernel_eq_skeleton]; unfold cc3__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg4.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rX4 : Rect S1024x1536 := Rect.unit (s := S1024x1536) ![0, 0] S1024x1536.size inb_S1024x1536_S1024x1536_0_0
abbrev rW4 : Rect S512x1536 := Rect.unit (s := S512x1536) ![0, 0] S512x1536.size inb_S512x1536_S512x1536_0_0
abbrev rB4 : Rect S1x512 := Rect.unit (s := S1x512) ![0, 0] S1x512.size inb_S1x512_S1x512_0_0
abbrev rO4 : Rect S1024x512 := Rect.unit (s := S1024x512) ![0, 0] S1024x512.size inb_S1024x512_S1024x512_0_0

/-- The body's result block as a function of the three input blocks. -/
def out4_3 (x : Vec F S1024x1536 .f32) (w : Vec F S512x1536 .f32) (b : Vec F S1x512 .f32) : Vec F S1024x512 .f32 :=
  View.canon [⟨rO4, k4_pay1 (View.ld x rX4) (View.ld w rW4) (View.ld b rB4)⟩]

/-- After the body at point `t` each input is at its block and the output at `out4_3` of them. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => out4_3 (iblk4 V c 0 t) (iblk4 V c 1 t) (iblk4 V c 2 t)
  Φ _ := Pipeline.ΦA spec4 c
  q _ := fullShare
  owed _ := 0

theorem after4_3 (c : Dev nD) (t : Fin cfg4.N) :
    (dat4 V c).after 3 t = out4_3 (iblk4 V c 0 t) (iblk4 V c 1 t) (iblk4 V c 2 t) := by dsimp only [dat4]

/-- An input is the same before the body as after it. -/
theorem before4 (c : Dev nD) (w : Fin 4) (h : w ≠ 3) (t d) : (dat4 V c).before w t d = (dat4 V c).after w t := by
  fin_cases w <;> first | exact absurd rfl h |
    exact (dat4 V c).before_in_eq_fetched _ rfl (fun _ => rfl) (fun _ _ _ => rfl) (fun _ => rfl) t d

set_option maxHeartbeats 1000000 in
/-- The body reads the three input blocks and stores `out4_3` of them. -/
theorem body_obligation4 (c : Dev nD) : BodyObligation (dat4 (F := F) V c) (defs₀ (F := F)) Variants.none () Set.univ := fun t => by
  rw [bigSep_W4, bigSep_W4]
  simp only [before4 V c 0 (by decide), before4 V c 1 (by decide), before4 V c 2 (by decide)]
  dsimp only [dat4, Dat.owesAt, Dat.bound]
  show _ ⊢ wp _ _ _ (bodyAt4 t) _
  generalize iblk4 V c 0 t = x, iblk4 V c 1 t = w, iblk4 V c 2 t = b
  simp only [bodyAt4, cc4__linear_relu_kernel_eq_skeleton]; unfold cc4__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg5.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rX5 : Rect S1024x1536 := Rect.unit (s := S1024x1536) ![0, 0] S1024x1536.size inb_S1024x1536_S1024x1536_0_0
abbrev rW5 : Rect S512x1536 := Rect.unit (s := S512x1536) ![0, 0] S512x1536.size inb_S512x1536_S512x1536_0_0
abbrev rB5 : Rect S1x512 := Rect.unit (s := S1x512) ![0, 0] S1x512.size inb_S1x512_S1x512_0_0
abbrev rO5 : Rect S1024x512 := Rect.unit (s := S1024x512) ![0, 0] S1024x512.size inb_S1024x512_S1024x512_0_0

/-- The body's result block as a function of the three input blocks. -/
def out5_3 (x : Vec F S1024x1536 .f32) (w : Vec F S512x1536 .f32) (b : Vec F S1x512 .f32) : Vec F S1024x512 .f32 :=
  View.canon [⟨rO5, k5_pay1 (View.ld x rX5) (View.ld w rW5) (View.ld b rB5)⟩]

/-- After the body at point `t` each input is at its block and the output at `out5_3` of them. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => out5_3 (iblk5 V c 0 t) (iblk5 V c 1 t) (iblk5 V c 2 t)
  Φ _ := Pipeline.ΦA spec5 c
  q _ := fullShare
  owed _ := 0

theorem after5_3 (c : Dev nD) (t : Fin cfg5.N) :
    (dat5 V c).after 3 t = out5_3 (iblk5 V c 0 t) (iblk5 V c 1 t) (iblk5 V c 2 t) := by dsimp only [dat5]

/-- An input is the same before the body as after it. -/
theorem before5 (c : Dev nD) (w : Fin 4) (h : w ≠ 3) (t d) : (dat5 V c).before w t d = (dat5 V c).after w t := by
  fin_cases w <;> first | exact absurd rfl h |
    exact (dat5 V c).before_in_eq_fetched _ rfl (fun _ => rfl) (fun _ _ _ => rfl) (fun _ => rfl) t d

set_option maxHeartbeats 1000000 in
/-- The body reads the three input blocks and stores `out5_3` of them. -/
theorem body_obligation5 (c : Dev nD) : BodyObligation (dat5 (F := F) V c) (defs₀ (F := F)) Variants.none () Set.univ := fun t => by
  rw [bigSep_W5, bigSep_W5]
  simp only [before5 V c 0 (by decide), before5 V c 1 (by decide), before5 V c 2 (by decide)]
  dsimp only [dat5, Dat.owesAt, Dat.bound]
  show _ ⊢ wp _ _ _ (bodyAt5 t) _
  generalize iblk5 V c 0 t = x, iblk5 V c 1 t = w, iblk5 V c 2 t = b
  simp only [bodyAt5, cc5__linear_relu_kernel_eq_skeleton]; unfold cc5__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg6.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rX6 : Rect S1024x1536 := Rect.unit (s := S1024x1536) ![0, 0] S1024x1536.size inb_S1024x1536_S1024x1536_0_0
abbrev rW6 : Rect S512x1536 := Rect.unit (s := S512x1536) ![0, 0] S512x1536.size inb_S512x1536_S512x1536_0_0
abbrev rB6 : Rect S1x512 := Rect.unit (s := S1x512) ![0, 0] S1x512.size inb_S1x512_S1x512_0_0
abbrev rO6 : Rect S1024x512 := Rect.unit (s := S1024x512) ![0, 0] S1024x512.size inb_S1024x512_S1024x512_0_0

/-- The body's result block as a function of the three input blocks. -/
def out6_3 (x : Vec F S1024x1536 .f32) (w : Vec F S512x1536 .f32) (b : Vec F S1x512 .f32) : Vec F S1024x512 .f32 :=
  View.canon [⟨rO6, k6_pay1 (View.ld x rX6) (View.ld w rW6) (View.ld b rB6)⟩]

/-- After the body at point `t` each input is at its block and the output at `out6_3` of them. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem after6_3 (c : Dev nD) (t : Fin cfg6.N) :
    (dat6 V c).after 3 t = out6_3 (iblk6 V c 0 t) (iblk6 V c 1 t) (iblk6 V c 2 t) := by dsimp only [dat6]

/-- An input is the same before the body as after it. -/
theorem before6 (c : Dev nD) (w : Fin 4) (h : w ≠ 3) (t d) : (dat6 V c).before w t d = (dat6 V c).after w t := by
  fin_cases w <;> first | exact absurd rfl h |
    exact (dat6 V c).before_in_eq_fetched _ rfl (fun _ => rfl) (fun _ _ _ => rfl) (fun _ => rfl) t d

set_option maxHeartbeats 1000000 in
/-- The body reads the three input blocks and stores `out6_3` of them. -/
theorem body_obligation6 (c : Dev nD) : BodyObligation (dat6 (F := F) V c) (defs₀ (F := F)) Variants.none () Set.univ := fun t => by
  rw [bigSep_W6, bigSep_W6]
  simp only [before6 V c 0 (by decide), before6 V c 1 (by decide), before6 V c 2 (by decide)]
  dsimp only [dat6, Dat.owesAt, Dat.bound]
  show _ ⊢ wp _ _ _ (bodyAt6 t) _
  generalize iblk6 V c 0 t = x, iblk6 V c 1 t = w, iblk6 V c 2 t = b
  simp only [bodyAt6, cc6__linear_relu_kernel_eq_skeleton]; unfold cc6__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S1024x512.size (by rfl))

end Cert.KernelIdeal.Hand

end
-- ==== Proof.KIReg7.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev rX7 : Rect S512x1536 := Rect.unit (s := S512x1536) ![0, 0] S512x1536.size inb_S512x1536_S512x1536_0_0
abbrev rW7 : Rect S512x1536 := Rect.unit (s := S512x1536) ![0, 0] S512x1536.size inb_S512x1536_S512x1536_0_0
abbrev rB7 : Rect S1x512 := Rect.unit (s := S1x512) ![0, 0] S1x512.size inb_S1x512_S1x512_0_0
abbrev rO7 : Rect S512x512 := Rect.unit (s := S512x512) ![0, 0] S512x512.size inb_S512x512_S512x512_0_0

/-- The body's result block as a function of the three input blocks. -/
def out7_3 (x : Vec F S512x1536 .f32) (w : Vec F S512x1536 .f32) (b : Vec F S1x512 .f32) : Vec F S512x512 .f32 :=
  View.canon [⟨rO7, k7_pay1 (View.ld x rX7) (View.ld w rW7) (View.ld b rB7)⟩]

/-- After the body at point `t` each input is at its block and the output at `out7_3` of them. -/
def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => iblk7 V c 2 t
    | ⟨3, _⟩ => out7_3 (iblk7 V c 0 t) (iblk7 V c 1 t) (iblk7 V c 2 t)
  Φ _ := Pipeline.ΦA spec7 c
  q _ := fullShare
  owed _ := 0

theorem after7_3 (c : Dev nD) (t : Fin cfg7.N) :
    (dat7 V c).after 3 t = out7_3 (iblk7 V c 0 t) (iblk7 V c 1 t) (iblk7 V c 2 t) := by dsimp only [dat7]

/-- An input is the same before the body as after it. -/
theorem before7 (c : Dev nD) (w : Fin 4) (h : w ≠ 3) (t d) : (dat7 V c).before w t d = (dat7 V c).after w t := by
  fin_cases w <;> first | exact absurd rfl h |
    exact (dat7 V c).before_in_eq_fetched _ rfl (fun _ => rfl) (fun _ _ _ => rfl) (fun _ => rfl) t d

set_option maxHeartbeats 1000000 in
/-- The body reads the three input blocks and stores `out7_3` of them. -/
theorem body_obligation7 (c : Dev nD) : BodyObligation (dat7 (F := F) V c) (defs₀ (F := F)) Variants.none () Set.univ := fun t => by
  rw [bigSep_W7, bigSep_W7]
  simp only [before7 V c 0 (by decide), before7 V c 1 (by decide), before7 V c 2 (by decide)]
  dsimp only [dat7, Dat.owesAt, Dat.bound]
  show _ ⊢ wp _ _ _ (bodyAt7 t) _
  generalize iblk7 V c 0 t = x, iblk7 V c 1 t = w, iblk7 V c 2 t = b
  simp only [bodyAt7, cc7__linear_relu_kernel_eq_skeleton]; unfold cc7__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S512x512.size (by rfl))

end Cert.KernelIdeal.Hand

end
-- ==== Proof.KIReg8.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev rX8 : Rect S256x1536 := Rect.unit (s := S256x1536) ![0, 0] S256x1536.size inb_S256x1536_S256x1536_0_0
abbrev rW8 : Rect S512x1536 := Rect.unit (s := S512x1536) ![0, 0] S512x1536.size inb_S512x1536_S512x1536_0_0
abbrev rB8 : Rect S1x512 := Rect.unit (s := S1x512) ![0, 0] S1x512.size inb_S1x512_S1x512_0_0
abbrev rO8 : Rect S256x512 := Rect.unit (s := S256x512) ![0, 0] S256x512.size inb_S256x512_S256x512_0_0

/-- The body's result block as a function of the three input blocks. -/
def out8_3 (x : Vec F S256x1536 .f32) (w : Vec F S512x1536 .f32) (b : Vec F S1x512 .f32) : Vec F S256x512 .f32 :=
  View.canon [⟨rO8, k8_pay1 (View.ld x rX8) (View.ld w rW8) (View.ld b rB8)⟩]

/-- After the body at point `t` each input is at its block and the output at `out8_3` of them. -/
def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => iblk8 V c 2 t
    | ⟨3, _⟩ => out8_3 (iblk8 V c 0 t) (iblk8 V c 1 t) (iblk8 V c 2 t)
  Φ _ := Pipeline.ΦA spec8 c
  q _ := fullShare
  owed _ := 0

theorem after8_3 (c : Dev nD) (t : Fin cfg8.N) :
    (dat8 V c).after 3 t = out8_3 (iblk8 V c 0 t) (iblk8 V c 1 t) (iblk8 V c 2 t) := by dsimp only [dat8]

/-- An input is the same before the body as after it. -/
theorem before8 (c : Dev nD) (w : Fin 4) (h : w ≠ 3) (t d) : (dat8 V c).before w t d = (dat8 V c).after w t := by
  fin_cases w <;> first | exact absurd rfl h |
    exact (dat8 V c).before_in_eq_fetched _ rfl (fun _ => rfl) (fun _ _ _ => rfl) (fun _ => rfl) t d

set_option maxHeartbeats 1000000 in
/-- The body reads the three input blocks and stores `out8_3` of them. -/
theorem body_obligation8 (c : Dev nD) : BodyObligation (dat8 (F := F) V c) (defs₀ (F := F)) Variants.none () Set.univ := fun t => by
  rw [bigSep_W8, bigSep_W8]
  simp only [before8 V c 0 (by decide), before8 V c 1 (by decide), before8 V c 2 (by decide)]
  dsimp only [dat8, Dat.owesAt, Dat.bound]
  show _ ⊢ wp _ _ _ (bodyAt8 t) _
  generalize iblk8 V c 0 t = x, iblk8 V c 1 t = w, iblk8 V c 2 t = b
  simp only [bodyAt8, cc8__linear_relu_kernel_eq_skeleton]; unfold cc8__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S256x512.size (by rfl))

end Cert.KernelIdeal.Hand

end
-- ==== Proof.KIReg9.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev rX9 : Rect S128x1536 := Rect.unit (s := S128x1536) ![0, 0] S128x1536.size inb_S128x1536_S128x1536_0_0
abbrev rW9 : Rect S512x1536 := Rect.unit (s := S512x1536) ![0, 0] S512x1536.size inb_S512x1536_S512x1536_0_0
abbrev rB9 : Rect S1x512 := Rect.unit (s := S1x512) ![0, 0] S1x512.size inb_S1x512_S1x512_0_0
abbrev rO9 : Rect S128x512 := Rect.unit (s := S128x512) ![0, 0] S128x512.size inb_S128x512_S128x512_0_0

/-- The body's result block as a function of the three input blocks. -/
def out9_3 (x : Vec F S128x1536 .f32) (w : Vec F S512x1536 .f32) (b : Vec F S1x512 .f32) : Vec F S128x512 .f32 :=
  View.canon [⟨rO9, k9_pay1 (View.ld x rX9) (View.ld w rW9) (View.ld b rB9)⟩]

/-- After the body at point `t` each input is at its block and the output at `out9_3` of them. -/
def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => iblk9 V c 2 t
    | ⟨3, _⟩ => out9_3 (iblk9 V c 0 t) (iblk9 V c 1 t) (iblk9 V c 2 t)
  Φ _ := Pipeline.ΦA spec9 c
  q _ := fullShare
  owed _ := 0

theorem after9_3 (c : Dev nD) (t : Fin cfg9.N) :
    (dat9 V c).after 3 t = out9_3 (iblk9 V c 0 t) (iblk9 V c 1 t) (iblk9 V c 2 t) := by dsimp only [dat9]

/-- An input is the same before the body as after it. -/
theorem before9 (c : Dev nD) (w : Fin 4) (h : w ≠ 3) (t d) : (dat9 V c).before w t d = (dat9 V c).after w t := by
  fin_cases w <;> first | exact absurd rfl h |
    exact (dat9 V c).before_in_eq_fetched _ rfl (fun _ => rfl) (fun _ _ _ => rfl) (fun _ => rfl) t d

set_option maxHeartbeats 1000000 in
/-- The body reads the three input blocks and stores `out9_3` of them. -/
theorem body_obligation9 (c : Dev nD) : BodyObligation (dat9 (F := F) V c) (defs₀ (F := F)) Variants.none () Set.univ := fun t => by
  rw [bigSep_W9, bigSep_W9]
  simp only [before9 V c 0 (by decide), before9 V c 1 (by decide), before9 V c 2 (by decide)]
  dsimp only [dat9, Dat.owesAt, Dat.bound]
  show _ ⊢ wp _ _ _ (bodyAt9 t) _
  generalize iblk9 V c 0 t = x, iblk9 V c 1 t = w, iblk9 V c 2 t = b
  simp only [bodyAt9, cc9__linear_relu_kernel_eq_skeleton]; unfold cc9__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S128x512.size (by rfl))

end Cert.KernelIdeal.Hand

end
-- ==== Proof.KIReg10.lean ====
import proofs.«407834_j69114613728754_1_alg».proof.Proof.Gen.KernelIdeal.Launch
import proofs.«407834_j69114613728754_1_alg».proof.Proof.Gen.KernelIdeal.Skeleton
import proofs.«407834_j69114613728754_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal.Gen
open Idealize.ShloMosaic Idealize.ShloMosaic.TcCoe
open Idealize.SL Idealize.SL.RA Idealize.SL.BI
open scoped Idealize.SL.BI
open Idealize.SL.BI.BIBase Idealize.SL.ProofMode Idealize.SL.Sem
open Idealize.ShloMosaic.Pipeline (Dat BodyObligation)

variable {F : FTy → Type} [FloatOps F]

variable (V : (c : Dev nD) → (b : Ref sig .tc) → Buf (Elt F) ((c : Thread nD τ).loc b))

/-- Window `w`'s block of its array at point `t`. -/
def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev rX10 : Rect S64x1536 := Rect.unit (s := S64x1536) ![0, 0] S64x1536.size inb_S64x1536_S64x1536_0_0
abbrev rW10 : Rect S512x1536 := Rect.unit (s := S512x1536) ![0, 0] S512x1536.size inb_S512x1536_S512x1536_0_0
abbrev rB10 : Rect S1x512 := Rect.unit (s := S1x512) ![0, 0] S1x512.size inb_S1x512_S1x512_0_0
abbrev rO10 : Rect S64x512 := Rect.unit (s := S64x512) ![0, 0] S64x512.size inb_S64x512_S64x512_0_0

/-- The body's result block as a function of the three input blocks. -/
def out10_3 (x : Vec F S64x1536 .f32) (w : Vec F S512x1536 .f32) (b : Vec F S1x512 .f32) : Vec F S64x512 .f32 :=
  View.canon [⟨rO10, k10_pay1 (View.ld x rX10) (View.ld w rW10) (View.ld b rB10)⟩]

/-- After the body at point `t` each input is at its block and the output at `out10_3` of them. -/
def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => iblk10 V c 2 t
    | ⟨3, _⟩ => out10_3 (iblk10 V c 0 t) (iblk10 V c 1 t) (iblk10 V c 2 t)
  Φ _ := Pipeline.ΦA spec10 c
  q _ := fullShare
  owed _ := 0

theorem after10_3 (c : Dev nD) (t : Fin cfg10.N) :
    (dat10 V c).after 3 t = out10_3 (iblk10 V c 0 t) (iblk10 V c 1 t) (iblk10 V c 2 t) := by dsimp only [dat10]

/-- An input is the same before the body as after it. -/
theorem before10 (c : Dev nD) (w : Fin 4) (h : w ≠ 3) (t d) : (dat10 V c).before w t d = (dat10 V c).after w t := by
  fin_cases w <;> first | exact absurd rfl h |
    exact (dat10 V c).before_in_eq_fetched _ rfl (fun _ => rfl) (fun _ _ _ => rfl) (fun _ => rfl) t d

set_option maxHeartbeats 1000000 in
/-- The body reads the three input blocks and stores `out10_3` of them. -/
theorem body_obligation10 (c : Dev nD) : BodyObligation (dat10 (F := F) V c) (defs₀ (F := F)) Variants.none () Set.univ := fun t => by
  rw [bigSep_W10, bigSep_W10]
  simp only [before10 V c 0 (by decide), before10 V c 1 (by decide), before10 V c 2 (by decide)]
  dsimp only [dat10, Dat.owesAt, Dat.bound]
  show _ ⊢ wp _ _ _ (bodyAt10 t) _
  generalize iblk10 V c 0 t = x, iblk10 V c 1 t = w, iblk10 V c 2 t = b
  simp only [bodyAt10, cc10__linear_relu_kernel_eq_skeleton]; unfold cc10__linear_relu_kernel_skel owns
  iintro ⟨HΦ, Ho, ⟨%_, %f₁, %e₁, H₁⟩, ⟨%_, %f₂, %e₂, H₂⟩, ⟨%_, %f₃, %e₃, H₃⟩, ⟨%_, %f₄, -, H₄⟩⟩
  subst e₁ e₂ e₃
  sl_exec
  sl_step
  iframe HΦ Ho
  isplitl [H₁]; · iexists f₁; iframe; ipureintro; rfl
  isplitl [H₂]; · iexists f₂; iframe; ipureintro; rfl
  isplitl [H₃]; · iexists f₃; iframe; ipureintro; rfl
  iexists _; isplitr; swap; · iexact H₄
  ipureintro; exact View.read_writes_eq_canon _ _ _ (View.cover_of_tiled _ S64x512.size (by rfl))

end Cert.KernelIdeal.Hand

end
-- ==== Proof.KIChain.lean ====
/- The contents of core c's unscoped buffers at every boundary between two items of @main, as one chain from the launch
   memory: after a host stretch the stretch's operations applied, after a kernel region the region's output array replaced by
   what its pipeline leaves there (the fold of the region's write-backs over the entry contents). `outs` reads the regions'
   outputs off that chain, and every boundary valuation of the conditional frame, taken at `outs`, is the chain's. -/
import proofs.«407834_j69114613728754_1_alg».proof.Proof.RegionsKernelIdeal
import proofs.«407834_j69114613728754_1_alg».proof.Proof.KIReg0
import proofs.«407834_j69114613728754_1_alg».proof.Proof.KIReg1
import proofs.«407834_j69114613728754_1_alg».proof.Proof.KIReg2
import proofs.«407834_j69114613728754_1_alg».proof.Proof.KIReg3
import proofs.«407834_j69114613728754_1_alg».proof.Proof.KIReg4
import proofs.«407834_j69114613728754_1_alg».proof.Proof.KIReg5
import proofs.«407834_j69114613728754_1_alg».proof.Proof.KIReg6
import proofs.«407834_j69114613728754_1_alg».proof.Proof.KIReg7
import proofs.«407834_j69114613728754_1_alg».proof.Proof.KIReg8
import proofs.«407834_j69114613728754_1_alg».proof.Proof.KIReg9
import proofs.«407834_j69114613728754_1_alg».proof.Proof.KIReg10

set_option maxRecDepth 16384

noncomputable section

namespace Cert.KernelIdeal.Hand

open Cert.KernelIdeal.Gen Cert.KernelIdeal.GenP
open Idealize.ShloMosaic Idealize.ShloMosaic.TcCoe
open Idealize.SL Idealize.SL.Sem
open Idealize.ShloMosaic.Pipeline (Dat)

variable {F : FTy → Type} [FloatOps F]
variable (m : (ℓ : Loc nD τ sig) → Buf (Elt F) ℓ)

/-- At launch. -/
def U0 (c : Dev nD) : Valuation τ sig (Elt F) := V0 m c
/-- After the host stretch `hostOps0`. -/
def U1 (c : Dev nD) : Valuation τ sig (Elt F) := StableHlo.after hostOps0 (U0 m c)
/-- After the host stretch `hostOps0_1`. -/
def U2 (c : Dev nD) : Valuation τ sig (Elt F) := StableHlo.after hostOps0_1 (U1 m c)
/-- After the host stretch `hostOps0_2`. -/
def U3 (c : Dev nD) : Valuation τ sig (Elt F) := StableHlo.after hostOps0_2 (U2 m c)
/-- Region 0's entry contents at the TensorCore's references. -/
abbrev UV3 : (c : Dev nD) → (b : Ref sig .tc) → Buf (Elt F) ((c : Thread nD τ).loc b) := fun c b => U3 m c b
/-- What region 0 leaves in its output array `main_v2`. -/
def X0 (c : Dev nD) : Buf (Elt F) ((c : Thread nD τ).loc main_v2) := (dat0 (UV3 m) c).arrAt 3 cfg0.N
/-- After region 0. -/
def U4 (c : Dev nD) : Valuation τ sig (Elt F) := Function.update (U3 m c) main_v2 (X0 m c)
/-- Region 0's exit contents at the TensorCore's references. -/
abbrev UV4 : (c : Dev nD) → (b : Ref sig .tc) → Buf (Elt F) ((c : Thread nD τ).loc b) := fun c b => U4 m c b
/-- After the host stretch `hostOps1`. -/
def U5 (c : Dev nD) : Valuation τ sig (Elt F) := StableHlo.after hostOps1 (U4 m c)
/-- After the host stretch `hostOps1_1`. -/
def U6 (c : Dev nD) : Valuation τ sig (Elt F) := StableHlo.after hostOps1_1 (U5 m c)
/-- After the host stretch `hostOps1_2`. -/
def U7 (c : Dev nD) : Valuation τ sig (Elt F) := StableHlo.after hostOps1_2 (U6 m c)
/-- After the host stretch `hostOps1_3`. -/
def U8 (c : Dev nD) : Valuation τ sig (Elt F) := StableHlo.after hostOps1_3 (U7 m c)
/-- After the host stretch `hostOps1_4`. -/
def U9 (c : Dev nD) : Valuation τ sig (Elt F) := StableHlo.after hostOps1_4 (U8 m c)
/-- Region 1's entry contents at the TensorCore's references. -/
abbrev UV9 : (c : Dev nD) → (b : Ref sig .tc) → Buf (Elt F) ((c : Thread nD τ).loc b) := fun c b => U9 m c b
/-- What region 1 leaves in its output array `main_v15`. -/
def X1 (c : Dev nD) : Buf (Elt F) ((c : Thread nD τ).loc main_v15) := (dat1 (UV9 m) c).arrAt 3 cfg1.N
/-- After region 1. -/
def U10 (c : Dev nD) : Valuation τ sig (Elt F) := Function.update (U9 m c) main_v15 (X1 m c)
/-- Region 1's exit contents at the TensorCore's references. -/
abbrev UV10 : (c : Dev nD) → (b : Ref sig .tc) → Buf (Elt F) ((c : Thread nD τ).loc b) := fun c b => U10 m c b
/-- After the host stretch `hostOps2`. -/
def U11 (c : Dev nD) : Valuation τ sig (Elt F) := StableHlo.after hostOps2 (U10 m c)
/-- After the host stretch `hostOps2_1`. -/
def U12 (c : Dev nD) : Valuation τ sig (Elt F) := StableHlo.after hostOps2_1 (U11 m c)
/-- After the host stretch `hostOps2_2`. -/
def U13 (c : Dev nD) : Valuation τ sig (Elt F) := StableHlo.after hostOps2_2 (U12 m c)
/-- After the host stretch `hostOps2_3`. -/
def U14 (c : Dev nD) : Valuation τ sig (Elt F) := StableHlo.after hostOps2_3 (U13 m c)
/-- After the host stretch `hostOps2_4`. -/
def U15 (c : Dev nD) : Valuation τ sig (Elt F) := StableHlo.after hostOps2_4 (U14 m c)
/-- Region 2's entry contents at the TensorCore's references. -/
abbrev UV15 : (c : Dev nD) → (b : Ref sig .tc) → Buf (Elt F) ((c : Thread nD τ).loc b) := fun c b => U15 m c b
/-- What region 2 leaves in its output array `main_v26`. -/
def X2 (c : Dev nD) : Buf (Elt F) ((c : Thread nD τ).loc main_v26) := (dat2 (UV15 m) c).arrAt 3 cfg2.N
/-- After region 2. -/
def U16 (c : Dev nD) : Valuation τ sig (Elt F) := Function.update (U15 m c) main_v26 (X2 m c)
/-- Region 2's exit contents at the TensorCore's references. -/
abbrev UV16 : (c : Dev nD) → (b : Ref sig .tc) → Buf (Elt F) ((c : Thread nD τ).loc b) := fun c b => U16 m c b
/-- After the host stretch `hostOps3`. -/
def U17 (c : Dev nD) : Valuation τ sig (Elt F) := StableHlo.after hostOps3 (U16 m c)
/-- After the host stretch `hostOps3_1`. -/
def U18 (c : Dev nD) : Valuation τ sig (Elt F) := StableHlo.after hostOps3_1 (U17 m c)
/-- After the host stretch `hostOps3_2`. -/
def U19 (c : Dev nD) : Valuation τ sig (Elt F) := StableHlo.after hostOps3_2 (U18 m c)
/-- After the host stretch `hostOps3_3`. -/
def U20 (c : Dev nD) : Valuation τ sig (Elt F) := StableHlo.after hostOps3_3 (U19 m c)
/-- After the host stretch `hostOps3_4`. -/
def U21 (c : Dev nD) : Valuation τ sig (Elt F) := StableHlo.after hostOps3_4 (U20 m c)
/-- Region 3's entry contents at the TensorCore's references. -/
abbrev UV21 : (c : Dev nD) → (b : Ref sig .tc) → Buf (Elt F) ((c : Thread nD τ).loc b) := fun c b => U21 m c b
/-- What region 3 leaves in its output array `main_v37`. -/
def X3 (c : Dev nD) : Buf (Elt F) ((c : Thread nD τ).loc main_v37) := (dat3 (UV21 m) c).arrAt 3 cfg3.N
/-- After region 3. -/
def U22 (c : Dev nD) : Valuation τ sig (Elt F) := Function.update (U21 m c) main_v37 (X3 m c)
/-- Region 3's exit contents at the TensorCore's references. -/
abbrev UV22 : (c : Dev nD) → (b : Ref sig .tc) → Buf (Elt F) ((c : Thread nD τ).loc b) := fun c b => U22 m c b
/-- After the host stretch `hostOps4`. -/
def U23 (c : Dev nD) : Valuation τ sig (Elt F) := StableHlo.after hostOps4 (U22 m c)
/-- After the host stretch `hostOps4_1`. -/
def U24 (c : Dev nD) : Valuation τ sig (Elt F) := StableHlo.after hostOps4_1 (U23 m c)
/-- After the host stretch `hostOps4_2`. -/
def U25 (c : Dev nD) : Valuation τ sig (Elt F) := StableHlo.after hostOps4_2 (U24 m c)
/-- After the host stretch `hostOps4_3`. -/
def U26 (c : Dev nD) : Valuation τ sig (Elt F) := StableHlo.after hostOps4_3 (U25 m c)
/-- After the host stretch `hostOps4_4`. -/
def U27 (c : Dev nD) : Valuation τ sig (Elt F) := StableHlo.after hostOps4_4 (U26 m c)
/-- Region 4's entry contents at the TensorCore's references. -/
abbrev UV27 : (c : Dev nD) → (b : Ref sig .tc) → Buf (Elt F) ((c : Thread nD τ).loc b) := fun c b => U27 m c b
/-- What region 4 leaves in its output array `main_v48`. -/
def X4 (c : Dev nD) : Buf (Elt F) ((c : Thread nD τ).loc main_v48) := (dat4 (UV27 m) c).arrAt 3 cfg4.N
/-- After region 4. -/
def U28 (c : Dev nD) : Valuation τ sig (Elt F) := Function.update (U27 m c) main_v48 (X4 m c)
/-- Region 4's exit contents at the TensorCore's references. -/
abbrev UV28 : (c : Dev nD) → (b : Ref sig .tc) → Buf (Elt F) ((c : Thread nD τ).loc b) := fun c b => U28 m c b
/-- After the host stretch `hostOps5`. -/
def U29 (c : Dev nD) : Valuation τ sig (Elt F) := StableHlo.after hostOps5 (U28 m c)
/-- After the host stretch `hostOps5_1`. -/
def U30 (c : Dev nD) : Valuation τ sig (Elt F) := StableHlo.after hostOps5_1 (U29 m c)
/-- After the host stretch `hostOps5_2`. -/
def U31 (c : Dev nD) : Valuation τ sig (Elt F) := StableHlo.after hostOps5_2 (U30 m c)
/-- After the host stretch `hostOps5_3`. -/
def U32 (c : Dev nD) : Valuation τ sig (Elt F) := StableHlo.after hostOps5_3 (U31 m c)
/-- After the host stretch `hostOps5_4`. -/
def U33 (c : Dev nD) : Valuation τ sig (Elt F) := StableHlo.after hostOps5_4 (U32 m c)
/-- Region 5's entry contents at the TensorCore's references. -/
abbrev UV33 : (c : Dev nD) → (b : Ref sig .tc) → Buf (Elt F) ((c : Thread nD τ).loc b) := fun c b => U33 m c b
/-- What region 5 leaves in its output array `main_v59`. -/
def X5 (c : Dev nD) : Buf (Elt F) ((c : Thread nD τ).loc main_v59) := (dat5 (UV33 m) c).arrAt 3 cfg5.N
/-- After region 5. -/
def U34 (c : Dev nD) : Valuation τ sig (Elt F) := Function.update (U33 m c) main_v59 (X5 m c)
/-- Region 5's exit contents at the TensorCore's references. -/
abbrev UV34 : (c : Dev nD) → (b : Ref sig .tc) → Buf (Elt F) ((c : Thread nD τ).loc b) := fun c b => U34 m c b
/-- After the host stretch `hostOps6`. -/
def U35 (c : Dev nD) : Valuation τ sig (Elt F) := StableHlo.after hostOps6 (U34 m c)
/-- After the host stretch `hostOps6_1`. -/
def U36 (c : Dev nD) : Valuation τ sig (Elt F) := StableHlo.after hostOps6_1 (U35 m c)
/-- After the host stretch `hostOps6_2`. -/
def U37 (c : Dev nD) : Valuation τ sig (Elt F) := StableHlo.after hostOps6_2 (U36 m c)
/-- After the host stretch `hostOps6_3`. -/
def U38 (c : Dev nD) : Valuation τ sig (Elt F) := StableHlo.after hostOps6_3 (U37 m c)
/-- After the host stretch `hostOps6_4`. -/
def U39 (c : Dev nD) : Valuation τ sig (Elt F) := StableHlo.after hostOps6_4 (U38 m c)
/-- Region 6's entry contents at the TensorCore's references. -/
abbrev UV39 : (c : Dev nD) → (b : Ref sig .tc) → Buf (Elt F) ((c : Thread nD τ).loc b) := fun c b => U39 m c b
/-- What region 6 leaves in its output array `main_v70`. -/
def X6 (c : Dev nD) : Buf (Elt F) ((c : Thread nD τ).loc main_v70) := (dat6 (UV39 m) c).arrAt 3 cfg6.N
/-- After region 6. -/
def U40 (c : Dev nD) : Valuation τ sig (Elt F) := Function.update (U39 m c) main_v70 (X6 m c)
/-- Region 6's exit contents at the TensorCore's references. -/
abbrev UV40 : (c : Dev nD) → (b : Ref sig .tc) → Buf (Elt F) ((c : Thread nD τ).loc b) := fun c b => U40 m c b
/-- After the host stretch `hostOps7`. -/
def U41 (c : Dev nD) : Valuation τ sig (Elt F) := StableHlo.after hostOps7 (U40 m c)
/-- After the host stretch `hostOps7_1`. -/
def U42 (c : Dev nD) : Valuation τ sig (Elt F) := StableHlo.after hostOps7_1 (U41 m c)
/-- After the host stretch `hostOps7_2`. -/
def U43 (c : Dev nD) : Valuation τ sig (Elt F) := StableHlo.after hostOps7_2 (U42 m c)
/-- After the host stretch `hostOps7_3`. -/
def U44 (c : Dev nD) : Valuation τ sig (Elt F) := StableHlo.after hostOps7_3 (U43 m c)
/-- After the host stretch `hostOps7_4`. -/
def U45 (c : Dev nD) : Valuation τ sig (Elt F) := StableHlo.after hostOps7_4 (U44 m c)
/-- Region 7's entry contents at the TensorCore's references. -/
abbrev UV45 : (c : Dev nD) → (b : Ref sig .tc) → Buf (Elt F) ((c : Thread nD τ).loc b) := fun c b => U45 m c b
/-- What region 7 leaves in its output array `main_v81`. -/
def X7 (c : Dev nD) : Buf (Elt F) ((c : Thread nD τ).loc main_v81) := (dat7 (UV45 m) c).arrAt 3 cfg7.N
/-- After region 7. -/
def U46 (c : Dev nD) : Valuation τ sig (Elt F) := Function.update (U45 m c) main_v81 (X7 m c)
/-- Region 7's exit contents at the TensorCore's references. -/
abbrev UV46 : (c : Dev nD) → (b : Ref sig .tc) → Buf (Elt F) ((c : Thread nD τ).loc b) := fun c b => U46 m c b
/-- After the host stretch `hostOps8`. -/
def U47 (c : Dev nD) : Valuation τ sig (Elt F) := StableHlo.after hostOps8 (U46 m c)
/-- After the host stretch `hostOps8_1`. -/
def U48 (c : Dev nD) : Valuation τ sig (Elt F) := StableHlo.after hostOps8_1 (U47 m c)
/-- After the host stretch `hostOps8_2`. -/
def U49 (c : Dev nD) : Valuation τ sig (Elt F) := StableHlo.after hostOps8_2 (U48 m c)
/-- After the host stretch `hostOps8_3`. -/
def U50 (c : Dev nD) : Valuation τ sig (Elt F) := StableHlo.after hostOps8_3 (U49 m c)
/-- After the host stretch `hostOps8_4`. -/
def U51 (c : Dev nD) : Valuation τ sig (Elt F) := StableHlo.after hostOps8_4 (U50 m c)
/-- Region 8's entry contents at the TensorCore's references. -/
abbrev UV51 : (c : Dev nD) → (b : Ref sig .tc) → Buf (Elt F) ((c : Thread nD τ).loc b) := fun c b => U51 m c b
/-- What region 8 leaves in its output array `main_v92`. -/
def X8 (c : Dev nD) : Buf (Elt F) ((c : Thread nD τ).loc main_v92) := (dat8 (UV51 m) c).arrAt 3 cfg8.N
/-- After region 8. -/
def U52 (c : Dev nD) : Valuation τ sig (Elt F) := Function.update (U51 m c) main_v92 (X8 m c)
/-- Region 8's exit contents at the TensorCore's references. -/
abbrev UV52 : (c : Dev nD) → (b : Ref sig .tc) → Buf (Elt F) ((c : Thread nD τ).loc b) := fun c b => U52 m c b
/-- After the host stretch `hostOps9`. -/
def U53 (c : Dev nD) : Valuation τ sig (Elt F) := StableHlo.after hostOps9 (U52 m c)
/-- After the host stretch `hostOps9_1`. -/
def U54 (c : Dev nD) : Valuation τ sig (Elt F) := StableHlo.after hostOps9_1 (U53 m c)
/-- After the host stretch `hostOps9_2`. -/
def U55 (c : Dev nD) : Valuation τ sig (Elt F) := StableHlo.after hostOps9_2 (U54 m c)
/-- After the host stretch `hostOps9_3`. -/
def U56 (c : Dev nD) : Valuation τ sig (Elt F) := StableHlo.after hostOps9_3 (U55 m c)
/-- After the host stretch `hostOps9_4`. -/
def U57 (c : Dev nD) : Valuation τ sig (Elt F) := StableHlo.after hostOps9_4 (U56 m c)
/-- Region 9's entry contents at the TensorCore's references. -/
abbrev UV57 : (c : Dev nD) → (b : Ref sig .tc) → Buf (Elt F) ((c : Thread nD τ).loc b) := fun c b => U57 m c b
/-- What region 9 leaves in its output array `main_v103`. -/
def X9 (c : Dev nD) : Buf (Elt F) ((c : Thread nD τ).loc main_v103) := (dat9 (UV57 m) c).arrAt 3 cfg9.N
/-- After region 9. -/
def U58 (c : Dev nD) : Valuation τ sig (Elt F) := Function.update (U57 m c) main_v103 (X9 m c)
/-- Region 9's exit contents at the TensorCore's references. -/
abbrev UV58 : (c : Dev nD) → (b : Ref sig .tc) → Buf (Elt F) ((c : Thread nD τ).loc b) := fun c b => U58 m c b
/-- After the host stretch `hostOps10`. -/
def U59 (c : Dev nD) : Valuation τ sig (Elt F) := StableHlo.after hostOps10 (U58 m c)
/-- After the host stretch `hostOps10_1`. -/
def U60 (c : Dev nD) : Valuation τ sig (Elt F) := StableHlo.after hostOps10_1 (U59 m c)
/-- After the host stretch `hostOps10_2`. -/
def U61 (c : Dev nD) : Valuation τ sig (Elt F) := StableHlo.after hostOps10_2 (U60 m c)
/-- After the host stretch `hostOps10_3`. -/
def U62 (c : Dev nD) : Valuation τ sig (Elt F) := StableHlo.after hostOps10_3 (U61 m c)
/-- After the host stretch `hostOps10_4`. -/
def U63 (c : Dev nD) : Valuation τ sig (Elt F) := StableHlo.after hostOps10_4 (U62 m c)
/-- Region 10's entry contents at the TensorCore's references. -/
abbrev UV63 : (c : Dev nD) → (b : Ref sig .tc) → Buf (Elt F) ((c : Thread nD τ).loc b) := fun c b => U63 m c b
/-- What region 10 leaves in its output array `main_v114`. -/
def X10 (c : Dev nD) : Buf (Elt F) ((c : Thread nD τ).loc main_v114) := (dat10 (UV63 m) c).arrAt 3 cfg10.N
/-- After region 10. -/
def U64 (c : Dev nD) : Valuation τ sig (Elt F) := Function.update (U63 m c) main_v114 (X10 m c)
/-- Region 10's exit contents at the TensorCore's references. -/
abbrev UV64 : (c : Dev nD) → (b : Ref sig .tc) → Buf (Elt F) ((c : Thread nD τ).loc b) := fun c b => U64 m c b

/-- What the regions leave, read off the chain. -/
def outs : Outs (F := F) := fun J r c => match J with
  | 4 => U4 m c r
  | 10 => U10 m c r
  | 16 => U16 m c r
  | 22 => U22 m c r
  | 28 => U28 m c r
  | 34 => U34 m c r
  | 40 => U40 m c r
  | 46 => U46 m c r
  | 52 => U52 m c r
  | 58 => U58 m c r
  | 64 => U64 m c r
  | _ => U0 m c r

theorem V0_eq (c : Dev nD) : V0 m c = U0 m c := rfl
theorem V1_eq (c : Dev nD) : V1 m c = U1 m c := by
  show StableHlo.after hostOps0 (V0 m c) = _; rw [V0_eq]; rfl
theorem V2_eq (c : Dev nD) : V2 m c = U2 m c := by
  show StableHlo.after hostOps0_1 (V1 m c) = _; rw [V1_eq]; rfl
theorem V3_eq (c : Dev nD) : V3 m c = U3 m c := by
  show StableHlo.after hostOps0_2 (V2 m c) = _; rw [V2_eq]; rfl
theorem V4_eq (c : Dev nD) : V4 m (outs m) c = U4 m c := by
  show Function.update (V3 m c) main_v2 (U4 m c main_v2) = _
  rw [V3_eq]; unfold U4; simp only [Function.update_self]
theorem V5_eq (c : Dev nD) : V5 m (outs m) c = U5 m c := by
  show StableHlo.after hostOps1 (V4 m (outs m) c) = _; rw [V4_eq]; rfl
theorem V6_eq (c : Dev nD) : V6 m (outs m) c = U6 m c := by
  show StableHlo.after hostOps1_1 (V5 m (outs m) c) = _; rw [V5_eq]; rfl
theorem V7_eq (c : Dev nD) : V7 m (outs m) c = U7 m c := by
  show StableHlo.after hostOps1_2 (V6 m (outs m) c) = _; rw [V6_eq]; rfl
theorem V8_eq (c : Dev nD) : V8 m (outs m) c = U8 m c := by
  show StableHlo.after hostOps1_3 (V7 m (outs m) c) = _; rw [V7_eq]; rfl
theorem V9_eq (c : Dev nD) : V9 m (outs m) c = U9 m c := by
  show StableHlo.after hostOps1_4 (V8 m (outs m) c) = _; rw [V8_eq]; rfl
theorem V10_eq (c : Dev nD) : V10 m (outs m) c = U10 m c := by
  show Function.update (V9 m (outs m) c) main_v15 (U10 m c main_v15) = _
  rw [V9_eq]; unfold U10; simp only [Function.update_self]
theorem V11_eq (c : Dev nD) : V11 m (outs m) c = U11 m c := by
  show StableHlo.after hostOps2 (V10 m (outs m) c) = _; rw [V10_eq]; rfl
theorem V12_eq (c : Dev nD) : V12 m (outs m) c = U12 m c := by
  show StableHlo.after hostOps2_1 (V11 m (outs m) c) = _; rw [V11_eq]; rfl
theorem V13_eq (c : Dev nD) : V13 m (outs m) c = U13 m c := by
  show StableHlo.after hostOps2_2 (V12 m (outs m) c) = _; rw [V12_eq]; rfl
theorem V14_eq (c : Dev nD) : V14 m (outs m) c = U14 m c := by
  show StableHlo.after hostOps2_3 (V13 m (outs m) c) = _; rw [V13_eq]; rfl
theorem V15_eq (c : Dev nD) : V15 m (outs m) c = U15 m c := by
  show StableHlo.after hostOps2_4 (V14 m (outs m) c) = _; rw [V14_eq]; rfl
theorem V16_eq (c : Dev nD) : V16 m (outs m) c = U16 m c := by
  show Function.update (V15 m (outs m) c) main_v26 (U16 m c main_v26) = _
  rw [V15_eq]; unfold U16; simp only [Function.update_self]
theorem V17_eq (c : Dev nD) : V17 m (outs m) c = U17 m c := by
  show StableHlo.after hostOps3 (V16 m (outs m) c) = _; rw [V16_eq]; rfl
theorem V18_eq (c : Dev nD) : V18 m (outs m) c = U18 m c := by
  show StableHlo.after hostOps3_1 (V17 m (outs m) c) = _; rw [V17_eq]; rfl
theorem V19_eq (c : Dev nD) : V19 m (outs m) c = U19 m c := by
  show StableHlo.after hostOps3_2 (V18 m (outs m) c) = _; rw [V18_eq]; rfl
theorem V20_eq (c : Dev nD) : V20 m (outs m) c = U20 m c := by
  show StableHlo.after hostOps3_3 (V19 m (outs m) c) = _; rw [V19_eq]; rfl
theorem V21_eq (c : Dev nD) : V21 m (outs m) c = U21 m c := by
  show StableHlo.after hostOps3_4 (V20 m (outs m) c) = _; rw [V20_eq]; rfl
theorem V22_eq (c : Dev nD) : V22 m (outs m) c = U22 m c := by
  show Function.update (V21 m (outs m) c) main_v37 (U22 m c main_v37) = _
  rw [V21_eq]; unfold U22; simp only [Function.update_self]
theorem V23_eq (c : Dev nD) : V23 m (outs m) c = U23 m c := by
  show StableHlo.after hostOps4 (V22 m (outs m) c) = _; rw [V22_eq]; rfl
theorem V24_eq (c : Dev nD) : V24 m (outs m) c = U24 m c := by
  show StableHlo.after hostOps4_1 (V23 m (outs m) c) = _; rw [V23_eq]; rfl
theorem V25_eq (c : Dev nD) : V25 m (outs m) c = U25 m c := by
  show StableHlo.after hostOps4_2 (V24 m (outs m) c) = _; rw [V24_eq]; rfl
theorem V26_eq (c : Dev nD) : V26 m (outs m) c = U26 m c := by
  show StableHlo.after hostOps4_3 (V25 m (outs m) c) = _; rw [V25_eq]; rfl
theorem V27_eq (c : Dev nD) : V27 m (outs m) c = U27 m c := by
  show StableHlo.after hostOps4_4 (V26 m (outs m) c) = _; rw [V26_eq]; rfl
theorem V28_eq (c : Dev nD) : V28 m (outs m) c = U28 m c := by
  show Function.update (V27 m (outs m) c) main_v48 (U28 m c main_v48) = _
  rw [V27_eq]; unfold U28; simp only [Function.update_self]
theorem V29_eq (c : Dev nD) : V29 m (outs m) c = U29 m c := by
  show StableHlo.after hostOps5 (V28 m (outs m) c) = _; rw [V28_eq]; rfl
theorem V30_eq (c : Dev nD) : V30 m (outs m) c = U30 m c := by
  show StableHlo.after hostOps5_1 (V29 m (outs m) c) = _; rw [V29_eq]; rfl
theorem V31_eq (c : Dev nD) : V31 m (outs m) c = U31 m c := by
  show StableHlo.after hostOps5_2 (V30 m (outs m) c) = _; rw [V30_eq]; rfl
theorem V32_eq (c : Dev nD) : V32 m (outs m) c = U32 m c := by
  show StableHlo.after hostOps5_3 (V31 m (outs m) c) = _; rw [V31_eq]; rfl
theorem V33_eq (c : Dev nD) : V33 m (outs m) c = U33 m c := by
  show StableHlo.after hostOps5_4 (V32 m (outs m) c) = _; rw [V32_eq]; rfl
theorem V34_eq (c : Dev nD) : V34 m (outs m) c = U34 m c := by
  show Function.update (V33 m (outs m) c) main_v59 (U34 m c main_v59) = _
  rw [V33_eq]; unfold U34; simp only [Function.update_self]
theorem V35_eq (c : Dev nD) : V35 m (outs m) c = U35 m c := by
  show StableHlo.after hostOps6 (V34 m (outs m) c) = _; rw [V34_eq]; rfl
theorem V36_eq (c : Dev nD) : V36 m (outs m) c = U36 m c := by
  show StableHlo.after hostOps6_1 (V35 m (outs m) c) = _; rw [V35_eq]; rfl
theorem V37_eq (c : Dev nD) : V37 m (outs m) c = U37 m c := by
  show StableHlo.after hostOps6_2 (V36 m (outs m) c) = _; rw [V36_eq]; rfl
theorem V38_eq (c : Dev nD) : V38 m (outs m) c = U38 m c := by
  show StableHlo.after hostOps6_3 (V37 m (outs m) c) = _; rw [V37_eq]; rfl
theorem V39_eq (c : Dev nD) : V39 m (outs m) c = U39 m c := by
  show StableHlo.after hostOps6_4 (V38 m (outs m) c) = _; rw [V38_eq]; rfl
theorem V40_eq (c : Dev nD) : V40 m (outs m) c = U40 m c := by
  show Function.update (V39 m (outs m) c) main_v70 (U40 m c main_v70) = _
  rw [V39_eq]; unfold U40; simp only [Function.update_self]
theorem V41_eq (c : Dev nD) : V41 m (outs m) c = U41 m c := by
  show StableHlo.after hostOps7 (V40 m (outs m) c) = _; rw [V40_eq]; rfl
theorem V42_eq (c : Dev nD) : V42 m (outs m) c = U42 m c := by
  show StableHlo.after hostOps7_1 (V41 m (outs m) c) = _; rw [V41_eq]; rfl
theorem V43_eq (c : Dev nD) : V43 m (outs m) c = U43 m c := by
  show StableHlo.after hostOps7_2 (V42 m (outs m) c) = _; rw [V42_eq]; rfl
theorem V44_eq (c : Dev nD) : V44 m (outs m) c = U44 m c := by
  show StableHlo.after hostOps7_3 (V43 m (outs m) c) = _; rw [V43_eq]; rfl
theorem V45_eq (c : Dev nD) : V45 m (outs m) c = U45 m c := by
  show StableHlo.after hostOps7_4 (V44 m (outs m) c) = _; rw [V44_eq]; rfl
theorem V46_eq (c : Dev nD) : V46 m (outs m) c = U46 m c := by
  show Function.update (V45 m (outs m) c) main_v81 (U46 m c main_v81) = _
  rw [V45_eq]; unfold U46; simp only [Function.update_self]
theorem V47_eq (c : Dev nD) : V47 m (outs m) c = U47 m c := by
  show StableHlo.after hostOps8 (V46 m (outs m) c) = _; rw [V46_eq]; rfl
theorem V48_eq (c : Dev nD) : V48 m (outs m) c = U48 m c := by
  show StableHlo.after hostOps8_1 (V47 m (outs m) c) = _; rw [V47_eq]; rfl
theorem V49_eq (c : Dev nD) : V49 m (outs m) c = U49 m c := by
  show StableHlo.after hostOps8_2 (V48 m (outs m) c) = _; rw [V48_eq]; rfl
theorem V50_eq (c : Dev nD) : V50 m (outs m) c = U50 m c := by
  show StableHlo.after hostOps8_3 (V49 m (outs m) c) = _; rw [V49_eq]; rfl
theorem V51_eq (c : Dev nD) : V51 m (outs m) c = U51 m c := by
  show StableHlo.after hostOps8_4 (V50 m (outs m) c) = _; rw [V50_eq]; rfl
theorem V52_eq (c : Dev nD) : V52 m (outs m) c = U52 m c := by
  show Function.update (V51 m (outs m) c) main_v92 (U52 m c main_v92) = _
  rw [V51_eq]; unfold U52; simp only [Function.update_self]
theorem V53_eq (c : Dev nD) : V53 m (outs m) c = U53 m c := by
  show StableHlo.after hostOps9 (V52 m (outs m) c) = _; rw [V52_eq]; rfl
theorem V54_eq (c : Dev nD) : V54 m (outs m) c = U54 m c := by
  show StableHlo.after hostOps9_1 (V53 m (outs m) c) = _; rw [V53_eq]; rfl
theorem V55_eq (c : Dev nD) : V55 m (outs m) c = U55 m c := by
  show StableHlo.after hostOps9_2 (V54 m (outs m) c) = _; rw [V54_eq]; rfl
theorem V56_eq (c : Dev nD) : V56 m (outs m) c = U56 m c := by
  show StableHlo.after hostOps9_3 (V55 m (outs m) c) = _; rw [V55_eq]; rfl
theorem V57_eq (c : Dev nD) : V57 m (outs m) c = U57 m c := by
  show StableHlo.after hostOps9_4 (V56 m (outs m) c) = _; rw [V56_eq]; rfl
theorem V58_eq (c : Dev nD) : V58 m (outs m) c = U58 m c := by
  show Function.update (V57 m (outs m) c) main_v103 (U58 m c main_v103) = _
  rw [V57_eq]; unfold U58; simp only [Function.update_self]
theorem V59_eq (c : Dev nD) : V59 m (outs m) c = U59 m c := by
  show StableHlo.after hostOps10 (V58 m (outs m) c) = _; rw [V58_eq]; rfl
theorem V60_eq (c : Dev nD) : V60 m (outs m) c = U60 m c := by
  show StableHlo.after hostOps10_1 (V59 m (outs m) c) = _; rw [V59_eq]; rfl
theorem V61_eq (c : Dev nD) : V61 m (outs m) c = U61 m c := by
  show StableHlo.after hostOps10_2 (V60 m (outs m) c) = _; rw [V60_eq]; rfl
theorem V62_eq (c : Dev nD) : V62 m (outs m) c = U62 m c := by
  show StableHlo.after hostOps10_3 (V61 m (outs m) c) = _; rw [V61_eq]; rfl
theorem V63_eq (c : Dev nD) : V63 m (outs m) c = U63 m c := by
  show StableHlo.after hostOps10_4 (V62 m (outs m) c) = _; rw [V62_eq]; rfl
theorem V64_eq (c : Dev nD) : V64 m (outs m) c = U64 m c := by
  show Function.update (V63 m (outs m) c) main_v114 (U64 m c main_v114) = _
  rw [V63_eq]; unfold U64; simp only [Function.update_self]

end Cert.KernelIdeal.Hand

end
-- ==== Proof.KIData.lean ====
import proofs.«407834_j69114613728754_1_alg».proof.Proof.KIChain

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)

/-- Each region's data at the contents it is entered with. -/
def pdats : (p : Fin 11) → (c : Dev nD) → Dat τ (Elt F) Unit ℕ (UR sig nD τ) ℕ (cfgs p) c
  | ⟨0, _⟩ => fun c => dat0 (UV3 m) c
  | ⟨1, _⟩ => fun c => dat1 (UV9 m) c
  | ⟨2, _⟩ => fun c => dat2 (UV15 m) c
  | ⟨3, _⟩ => fun c => dat3 (UV21 m) c
  | ⟨4, _⟩ => fun c => dat4 (UV27 m) c
  | ⟨5, _⟩ => fun c => dat5 (UV33 m) c
  | ⟨6, _⟩ => fun c => dat6 (UV39 m) c
  | ⟨7, _⟩ => fun c => dat7 (UV45 m) c
  | ⟨8, _⟩ => fun c => dat8 (UV51 m) c
  | ⟨9, _⟩ => fun c => dat9 (UV57 m) c
  | ⟨10, _⟩ => fun c => dat10 (UV63 m) c

abbrev 𝒱₀ : Variants := Variants.none

abbrev L : GSem nD τ sig → Finset Unit := fun _ => ∅
abbrev lv : GSem nD τ sig → Unit → ℕ := fun _ _ => 0

abbrev R (c : Dev nD) : sProp 𝕄 := iprop((∃ r, prngReg c r) ∗ ∃ W, owes (c : Thread nD τ) (0 : CellTallies nD τ sig Unit) W)

end Cert.KernelIdeal.Hand

end
-- ==== Proof.KISegOf.lean ====
import proofs.«407834_j69114613728754_1_alg».proof.Proof.KIData

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
/-- One construction serves all eleven regions: they differ in the pipeline, its output window and the contents around it. -/
def regOf (p : Fin 11) (lf : Pipeline.LaunchFacts (nD := nD) (τ := τ) cfgs p) (Ub Ua : (c : Dev nD) → Valuation τ sig (Elt F))
    (hbody : ∀ c, BodyObligation (pdats m p c) (defs₀ (F := F)) Variants.none () Set.univ)
    (o : Fin (cfgs p).W) (hin : ∀ w, w ≠ o → ((cfgs p).win w).isOut = false)
    (hq : ∀ c w, (pdats m p c).q w = fullShare) (howed : ∀ c t, (pdats m p c).owed t = 0)
    (hrec : ∀ c x, x ∈ (pdats m p c).recorded 0)
    (hΦ : ∀ c t, (pdats m p c).Φ t = Pipeline.ΦA (cfgs p).spec c)
    (hA : ∀ c w, (pdats m p c).A w = Ub c (Pipeline.arrRef (cfgs p).spec w))
    (hkeep : ∀ c b, b ≠ Pipeline.arrRef (cfgs p).spec o → Ua c b = Ub c b)
    (hout : ∀ c, (pdats m p c).arrAt o (cfgs p).N = Ua c (Pipeline.arrRef (cfgs p).spec o)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Ub c) ∗ R c)
  post c := iprop(StableHlo.held (c : Thread nD τ) (Pipeline.ucRefs τ sig) (Ua c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Ub c b)
  hentry c := by
    rw [Pipeline.ownSems0_none]
    have hsplit := Pipeline.arrays_of_unscopedBufs (p := p) (pcfgs (F := F)) adm (pdats m) lf.win lf.arr_whole c
      ((pdats m p c).share_full (hq c)) (fun b => Ub c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [howed c]
      icases HO with ⟨%W, HO⟩; iexists W; isplitr; · ipureintro; exact fun x _ => Or.inl (hrec c x)
      iexact HO
    isplitl [Hp]; · iexact Hp
    iexact Hrest
  hin c := by
    rw [hΦ c 0]; unfold Pipeline.ΦA
    iintro ⟨Hp, -, Hr⟩
    isplitl [Hr]; · iexact Hr
    iexact Hp
  hout c := by
    rw [Pipeline.ownSems0_none, hΦ c (Fin.last _)]; unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (fun b => Ub c b) (fun b => Ua c b) ((pdats m p c).arrAt · (cfgs p).N)
      (fun w => by
        by_cases h : w = o
        · subst h; exact hout c
        · exact ((pdats m p c).arrAt_in w (hin w h) _).trans ((hA c w).trans (hkeep c _ fun e => h (lf.win.arr_inj e)).symm))
      (fun b hb => hkeep c b fun e => hb (e ▸ Finset.mem_image.mpr ⟨o, Finset.mem_univ _, rfl⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c]
    icases HO with ⟨%W, -, HO⟩; iexists W; iexact HO

end Cert.KernelIdeal.Hand

end
-- ==== Proof.KISeg.lean ====
import proofs.«407834_j69114613728754_1_alg».proof.Proof.KISegOf

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg BodyObligation)

variable {F : FTy → Type} [FloatOps F]

local notation "𝕄" => MT nD τ sig Unit (Elt F) ℕ (UR sig nD τ) ℕ

variable (m : (ℓ : Loc nD τ sig) → Buf (Elt F) ℓ)

set_option backward.isDefEq.respectTransparency.types false in
def reg0 : RegionSeg (pcfgs (F := F)) adm (pdats m) () defs₀ 𝒱₀ L lv 0 :=
  regOf m 0 launch0 (U3 m) (U4 m) (fun c => body_obligation0 (UV3 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg1 : RegionSeg (pcfgs (F := F)) adm (pdats m) () defs₀ 𝒱₀ L lv 1 :=
  regOf m 1 launch1 (U9 m) (U10 m) (fun c => body_obligation1 (UV9 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg2 : RegionSeg (pcfgs (F := F)) adm (pdats m) () defs₀ 𝒱₀ L lv 2 :=
  regOf m 2 launch2 (U15 m) (U16 m) (fun c => body_obligation2 (UV15 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg3 : RegionSeg (pcfgs (F := F)) adm (pdats m) () defs₀ 𝒱₀ L lv 3 :=
  regOf m 3 launch3 (U21 m) (U22 m) (fun c => body_obligation3 (UV21 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg4 : RegionSeg (pcfgs (F := F)) adm (pdats m) () defs₀ 𝒱₀ L lv 4 :=
  regOf m 4 launch4 (U27 m) (U28 m) (fun c => body_obligation4 (UV27 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg5 : RegionSeg (pcfgs (F := F)) adm (pdats m) () defs₀ 𝒱₀ L lv 5 :=
  regOf m 5 launch5 (U33 m) (U34 m) (fun c => body_obligation5 (UV33 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg6 : RegionSeg (pcfgs (F := F)) adm (pdats m) () defs₀ 𝒱₀ L lv 6 :=
  regOf m 6 launch6 (U39 m) (U40 m) (fun c => body_obligation6 (UV39 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg7 : RegionSeg (pcfgs (F := F)) adm (pdats m) () defs₀ 𝒱₀ L lv 7 :=
  regOf m 7 launch7 (U45 m) (U46 m) (fun c => body_obligation7 (UV45 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg8 : RegionSeg (pcfgs (F := F)) adm (pdats m) () defs₀ 𝒱₀ L lv 8 :=
  regOf m 8 launch8 (U51 m) (U52 m) (fun c => body_obligation8 (UV51 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg9 : RegionSeg (pcfgs (F := F)) adm (pdats m) () defs₀ 𝒱₀ L lv 9 :=
  regOf m 9 launch9 (U57 m) (U58 m) (fun c => body_obligation9 (UV57 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

set_option backward.isDefEq.respectTransparency.types false in
def reg10 : RegionSeg (pcfgs (F := F)) adm (pdats m) () defs₀ 𝒱₀ L lv 10 :=
  regOf m 10 launch10 (U63 m) (U64 m) (fun c => body_obligation10 (UV63 m) c) 3 (by decide)
    (fun _ _ => rfl) (fun _ _ => rfl) (fun _ _ => trivial) (fun _ _ => rfl) (fun _ _ => rfl)
    (fun c b h => Function.update_of_ne (StableHlo.devRef_ne_of_ne h) _ _) (fun c => Eq.symm (Function.update_self _ _ _))

end Cert.KernelIdeal.Hand

end
-- ==== Proof.KIRun.lean ====
import proofs.«407834_j69114613728754_1_alg».proof.Proof.KISeg

set_option maxRecDepth 16384

noncomputable section

namespace Cert.KernelIdeal.Hand

open Cert.KernelIdeal.Gen Cert.KernelIdeal.GenP
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ)
variable (ρ : Dev nD → PrngReg)

set_option backward.isDefEq.respectTransparency.types false in

/-- The program runs to its end from any launch memory, its six arguments kept and its result at the last region's output. -/
theorem run : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_v114) = X10 m c) := by
  have h := frame_cond (F := F) m emb₁ () 𝒱₀ L lv (fun _ _ => rfl) ρ (outs m) (pdats m) 0 (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (fun _ c => R c)
    (by
      refine Pipeline.initEach L lv fun c => ?_
      iintro ⟨⟨-, HO, -, Hp, -⟩, -⟩
      imodintro
      isplitl [Hp]; · iexists _; iexact Hp
      iexists ∅; iexact HO)
    (fun c => by
      iintro ⟨-, HO⟩; iexact HO)
    (reg0 m) (fun c => by rw [V3_eq]; exact .rfl) (fun c => by rw [V4_eq]; exact .rfl)
    (reg1 m) (fun c => by rw [V9_eq]; exact .rfl) (fun c => by rw [V10_eq]; exact .rfl)
    (reg2 m) (fun c => by rw [V15_eq]; exact .rfl) (fun c => by rw [V16_eq]; exact .rfl)
    (reg3 m) (fun c => by rw [V21_eq]; exact .rfl) (fun c => by rw [V22_eq]; exact .rfl)
    (reg4 m) (fun c => by rw [V27_eq]; exact .rfl) (fun c => by rw [V28_eq]; exact .rfl)
    (reg5 m) (fun c => by rw [V33_eq]; exact .rfl) (fun c => by rw [V34_eq]; exact .rfl)
    (reg6 m) (fun c => by rw [V39_eq]; exact .rfl) (fun c => by rw [V40_eq]; exact .rfl)
    (reg7 m) (fun c => by rw [V45_eq]; exact .rfl) (fun c => by rw [V46_eq]; exact .rfl)
    (reg8 m) (fun c => by rw [V51_eq]; exact .rfl) (fun c => by rw [V52_eq]; exact .rfl)
    (reg9 m) (fun c => by rw [V57_eq]; exact .rfl) (fun c => by rw [V58_eq]; exact .rfl)
    (reg10 m) (fun c => by rw [V63_eq]; exact .rfl) (fun c => by rw [V64_eq]; exact .rfl)
  refine h.mono fun r hr c => ?_
  obtain ⟨h0, h1, h2, h3, h4, h5, h6⟩ := hr c
  refine ⟨h0, h1, h2, h3, h4, h5, h6.trans ?_⟩
  rw [V64_eq]; unfold U64; simp only [Function.update_self]

end Cert.KernelIdeal.Hand

end
-- ==== Proof.KLevels.lean ====
import proofs.«407834_j69114613728754_1_alg».proof.Proof.Gen.KernelIdeal

/-! The kernel's host-side functions. Around its eleven linear+relu kernels the kernel's program pads the
    contents to 131072 rows, slices the node features u back to 131008 rows, takes the leaves' embedding as
    u's last 65536 rows, and then, for levels j = 9 … 0 (n = 64·2^j rows at row offset o = 64·(2^j − 1) of the
    child table), forms x = [take(emb, left) | take(emb, right) | u[o : o+n]] for the level's kernel.
    Each function below is the composition of the program's own host operations for that step, in the order
    printed. take wraps an index below zero by the table's row count 2n, gathers the wrapped row, and keeps it
    where 0 ≤ wrapped index ≤ 2n − 1, putting the quiet-NaN word elsewhere. -/

noncomputable section

open Idealize.ShloMosaic Idealize.ShloMosaic.TcCoe Idealize.SL.Sem

namespace Cert.KernelIdeal.KValue

open Cert.KernelIdeal Cert.KernelIdeal.Gen

variable {F : FTy → Type} [FloatOps F]

/-- The contents with 64 rows of (the float of the integer) zero appended: 131072 rows. -/
def kPad (contents : FVec F S131008x256 .f32) : FVec F S131072x256 .f32 :=
  pad S131072x256 ![0, 0] ![64, 0] ![0, 0] contents (sitofp .f32 (constantI S_ 32 0#32)) pads_S131008x256_S131072x256_0640_000 h_S_

/-- The first bias as a one-row matrix. -/
def kBiasU (b_u : FVec F S512 .f32) : FVec F S1x512 .f32 :=
  shapeCast S1x512 b_u shapeCasts_S512_S1x512

/-- The second bias as a one-row matrix. -/
def kBiasH (b_h : FVec F S512 .f32) : FVec F S1x512 .f32 :=
  shapeCast S1x512 b_h shapeCasts_S512_S1x512

/-- The node features: the first 131008 rows of the first kernel's output. -/
def kU (out0 : FVec F S131072x512 .f32) : FVec F S131008x512 .f32 :=
  extractStridedSlice S131008x512 ![0, 0] out0 slices_S131072x512_S131008x512_0_0

/-- The leaves' embedding: rows 65472 … 131007 of the node features. -/
def kEmb9 (u : FVec F S131008x512 .f32) : FVec F S65536x512 .f32 :=
  extractStridedSlice S65536x512 ![65472, 0] u slices_S131008x512_S65536x512_65472_0

/-! ## Level 9 -/

/-- Level 9's rows of the child table. -/
def kRows9 (children : IVec S65472x2 32) : IVec S32768x2 32 :=
  extractStridedSlice S32768x2 ![32704, 0] children slices_S65472x2_S32768x2_32704_0

/-- Level 9's left-child column as a vector. -/
def kColL9 (children : IVec S65472x2 32) : IVec S32768 32 :=
  shapeCast S32768 (extractStridedSlice S32768x1 ![0, 0] (kRows9 children) slices_S32768x2_S32768x1_0_0) shapeCasts_S32768x1_S32768

/-- Level 9's right-child column as a vector. -/
def kColR9 (children : IVec S65472x2 32) : IVec S32768 32 :=
  shapeCast S32768 (extractStridedSlice S32768x1 ![0, 1] (kRows9 children) slices_S32768x2_S32768x1_0_1) shapeCasts_S32768x1_S32768

/-- Level 9's take, the gather indices: a negative index wrapped by the table's 65536 rows, as an [n,1] array. -/
def kWrap9 (idx : IVec S32768 32) : IVec S32768x1 32 :=
  broadcastInDim S32768x1 ![0] bcast_S32768_S32768x1_0 (select (cmpi .slt idx (broadcastInDim S32768 ![] bcast_S_S32768 (constantI S_ 32 0#32))) (addi idx (broadcastInDim S32768 ![] bcast_S_S32768 (constantI S_ 32 65536#32))) idx)

/-- Level 9's take, the mask: 0 ≤ wrapped index ≤ 65535, and-reduced over the size-1 axis. -/
def kMask9 (idx : IVec S32768 32) : IVec S32768 1 :=
  Host.reduce IntOp.andi (andi (cmpi .sge (kWrap9 idx) (broadcastInDim S32768x1 ![] bcast_S_S32768x1 (constantI S_ 32 0#32))) (cmpi .sle (kWrap9 idx) (broadcastInDim S32768x1 ![0, 1] bcast_S1x1_S32768x1_0_1 (broadcastInDim S1x1 ![1] bcast_S1_S1x1_1 (constantI S1 32 65535#32))))) (constantI S_ 1 1#1) reducesTo_S32768x1_S32768_d1 h_S_

/-- Level 9's take: the gathered rows where the mask holds, the quiet-NaN word elsewhere. -/
def kTake9 (emb : FVec F S65536x512 .f32) (idx : IVec S32768 32) : FVec F S32768x512 .f32 :=
  select (broadcastInDim S32768x512 ![0] bcast_S32768_S32768x512_0 (kMask9 idx)) (Host.gather gather_S65536x512_S32768x1_S32768x512_1_0_n_n_0_1_1512 emb (kWrap9 idx)) (broadcastInDim S32768x512 ![] bcast_S_S32768x512 (constant S_ .f32 0x7FC00000#32))

/-- Level 9's input rows: left child's embedding, right child's embedding, the node's own features. -/
def kX9 (emb : FVec F S65536x512 .f32) (children : IVec S65472x2 32) (u : FVec F S131008x512 .f32) : FVec F S32768x1536 .f32 :=
  concatenate S32768x1536 1 [⟨S32768x512, kTake9 emb (kColL9 children)⟩, ⟨S32768x512, kTake9 emb (kColR9 children)⟩, ⟨S32768x512, extractStridedSlice S32768x512 ![32704, 0] u slices_S131008x512_S32768x512_32704_0⟩] concatenates_S32768x512_S32768x512_S32768x512_S32768x1536_d1

/-! ## Level 8 -/

/-- Level 8's rows of the child table. -/
def kRows8 (children : IVec S65472x2 32) : IVec S16384x2 32 :=
  extractStridedSlice S16384x2 ![16320, 0] children slices_S65472x2_S16384x2_16320_0

/-- Level 8's left-child column as a vector. -/
def kColL8 (children : IVec S65472x2 32) : IVec S16384 32 :=
  shapeCast S16384 (extractStridedSlice S16384x1 ![0, 0] (kRows8 children) slices_S16384x2_S16384x1_0_0) shapeCasts_S16384x1_S16384

/-- Level 8's right-child column as a vector. -/
def kColR8 (children : IVec S65472x2 32) : IVec S16384 32 :=
  shapeCast S16384 (extractStridedSlice S16384x1 ![0, 1] (kRows8 children) slices_S16384x2_S16384x1_0_1) shapeCasts_S16384x1_S16384

/-- Level 8's take, the gather indices: a negative index wrapped by the table's 32768 rows, as an [n,1] array. -/
def kWrap8 (idx : IVec S16384 32) : IVec S16384x1 32 :=
  broadcastInDim S16384x1 ![0] bcast_S16384_S16384x1_0 (select (cmpi .slt idx (broadcastInDim S16384 ![] bcast_S_S16384 (constantI S_ 32 0#32))) (addi idx (broadcastInDim S16384 ![] bcast_S_S16384 (constantI S_ 32 32768#32))) idx)

/-- Level 8's take, the mask: 0 ≤ wrapped index ≤ 32767, and-reduced over the size-1 axis. -/
def kMask8 (idx : IVec S16384 32) : IVec S16384 1 :=
  Host.reduce IntOp.andi (andi (cmpi .sge (kWrap8 idx) (broadcastInDim S16384x1 ![] bcast_S_S16384x1 (constantI S_ 32 0#32))) (cmpi .sle (kWrap8 idx) (broadcastInDim S16384x1 ![0, 1] bcast_S1x1_S16384x1_0_1 (broadcastInDim S1x1 ![1] bcast_S1_S1x1_1 (constantI S1 32 32767#32))))) (constantI S_ 1 1#1) reducesTo_S16384x1_S16384_d1 h_S_

/-- Level 8's take: the gathered rows where the mask holds, the quiet-NaN word elsewhere. -/
def kTake8 (emb : FVec F S32768x512 .f32) (idx : IVec S16384 32) : FVec F S16384x512 .f32 :=
  select (broadcastInDim S16384x512 ![0] bcast_S16384_S16384x512_0 (kMask8 idx)) (Host.gather gather_S32768x512_S16384x1_S16384x512_1_0_n_n_0_1_1512 emb (kWrap8 idx)) (broadcastInDim S16384x512 ![] bcast_S_S16384x512 (constant S_ .f32 0x7FC00000#32))

/-- Level 8's input rows: left child's embedding, right child's embedding, the node's own features. -/
def kX8 (emb : FVec F S32768x512 .f32) (children : IVec S65472x2 32) (u : FVec F S131008x512 .f32) : FVec F S16384x1536 .f32 :=
  concatenate S16384x1536 1 [⟨S16384x512, kTake8 emb (kColL8 children)⟩, ⟨S16384x512, kTake8 emb (kColR8 children)⟩, ⟨S16384x512, extractStridedSlice S16384x512 ![16320, 0] u slices_S131008x512_S16384x512_16320_0⟩] concatenates_S16384x512_S16384x512_S16384x512_S16384x1536_d1

/-! ## Level 7 -/

/-- Level 7's rows of the child table. -/
def kRows7 (children : IVec S65472x2 32) : IVec S8192x2 32 :=
  extractStridedSlice S8192x2 ![8128, 0] children slices_S65472x2_S8192x2_8128_0

/-- Level 7's left-child column as a vector. -/
def kColL7 (children : IVec S65472x2 32) : IVec S8192 32 :=
  shapeCast S8192 (extractStridedSlice S8192x1 ![0, 0] (kRows7 children) slices_S8192x2_S8192x1_0_0) shapeCasts_S8192x1_S8192

/-- Level 7's right-child column as a vector. -/
def kColR7 (children : IVec S65472x2 32) : IVec S8192 32 :=
  shapeCast S8192 (extractStridedSlice S8192x1 ![0, 1] (kRows7 children) slices_S8192x2_S8192x1_0_1) shapeCasts_S8192x1_S8192

/-- Level 7's take, the gather indices: a negative index wrapped by the table's 16384 rows, as an [n,1] array. -/
def kWrap7 (idx : IVec S8192 32) : IVec S8192x1 32 :=
  broadcastInDim S8192x1 ![0] bcast_S8192_S8192x1_0 (select (cmpi .slt idx (broadcastInDim S8192 ![] bcast_S_S8192 (constantI S_ 32 0#32))) (addi idx (broadcastInDim S8192 ![] bcast_S_S8192 (constantI S_ 32 16384#32))) idx)

/-- Level 7's take, the mask: 0 ≤ wrapped index ≤ 16383, and-reduced over the size-1 axis. -/
def kMask7 (idx : IVec S8192 32) : IVec S8192 1 :=
  Host.reduce IntOp.andi (andi (cmpi .sge (kWrap7 idx) (broadcastInDim S8192x1 ![] bcast_S_S8192x1 (constantI S_ 32 0#32))) (cmpi .sle (kWrap7 idx) (broadcastInDim S8192x1 ![0, 1] bcast_S1x1_S8192x1_0_1 (broadcastInDim S1x1 ![1] bcast_S1_S1x1_1 (constantI S1 32 16383#32))))) (constantI S_ 1 1#1) reducesTo_S8192x1_S8192_d1 h_S_

/-- Level 7's take: the gathered rows where the mask holds, the quiet-NaN word elsewhere. -/
def kTake7 (emb : FVec F S16384x512 .f32) (idx : IVec S8192 32) : FVec F S8192x512 .f32 :=
  select (broadcastInDim S8192x512 ![0] bcast_S8192_S8192x512_0 (kMask7 idx)) (Host.gather gather_S16384x512_S8192x1_S8192x512_1_0_n_n_0_1_1512 emb (kWrap7 idx)) (broadcastInDim S8192x512 ![] bcast_S_S8192x512 (constant S_ .f32 0x7FC00000#32))

/-- Level 7's input rows: left child's embedding, right child's embedding, the node's own features. -/
def kX7 (emb : FVec F S16384x512 .f32) (children : IVec S65472x2 32) (u : FVec F S131008x512 .f32) : FVec F S8192x1536 .f32 :=
  concatenate S8192x1536 1 [⟨S8192x512, kTake7 emb (kColL7 children)⟩, ⟨S8192x512, kTake7 emb (kColR7 children)⟩, ⟨S8192x512, extractStridedSlice S8192x512 ![8128, 0] u slices_S131008x512_S8192x512_8128_0⟩] concatenates_S8192x512_S8192x512_S8192x512_S8192x1536_d1

/-! ## Level 6 -/

/-- Level 6's rows of the child table. -/
def kRows6 (children : IVec S65472x2 32) : IVec S4096x2 32 :=
  extractStridedSlice S4096x2 ![4032, 0] children slices_S65472x2_S4096x2_4032_0

/-- Level 6's left-child column as a vector. -/
def kColL6 (children : IVec S65472x2 32) : IVec S4096 32 :=
  shapeCast S4096 (extractStridedSlice S4096x1 ![0, 0] (kRows6 children) slices_S4096x2_S4096x1_0_0) shapeCasts_S4096x1_S4096

/-- Level 6's right-child column as a vector. -/
def kColR6 (children : IVec S65472x2 32) : IVec S4096 32 :=
  shapeCast S4096 (extractStridedSlice S4096x1 ![0, 1] (kRows6 children) slices_S4096x2_S4096x1_0_1) shapeCasts_S4096x1_S4096

/-- Level 6's take, the gather indices: a negative index wrapped by the table's 8192 rows, as an [n,1] array. -/
def kWrap6 (idx : IVec S4096 32) : IVec S4096x1 32 :=
  broadcastInDim S4096x1 ![0] bcast_S4096_S4096x1_0 (select (cmpi .slt idx (broadcastInDim S4096 ![] bcast_S_S4096 (constantI S_ 32 0#32))) (addi idx (broadcastInDim S4096 ![] bcast_S_S4096 (constantI S_ 32 8192#32))) idx)

/-- Level 6's take, the mask: 0 ≤ wrapped index ≤ 8191, and-reduced over the size-1 axis. -/
def kMask6 (idx : IVec S4096 32) : IVec S4096 1 :=
  Host.reduce IntOp.andi (andi (cmpi .sge (kWrap6 idx) (broadcastInDim S4096x1 ![] bcast_S_S4096x1 (constantI S_ 32 0#32))) (cmpi .sle (kWrap6 idx) (broadcastInDim S4096x1 ![0, 1] bcast_S1x1_S4096x1_0_1 (broadcastInDim S1x1 ![1] bcast_S1_S1x1_1 (constantI S1 32 8191#32))))) (constantI S_ 1 1#1) reducesTo_S4096x1_S4096_d1 h_S_

/-- Level 6's take: the gathered rows where the mask holds, the quiet-NaN word elsewhere. -/
def kTake6 (emb : FVec F S8192x512 .f32) (idx : IVec S4096 32) : FVec F S4096x512 .f32 :=
  select (broadcastInDim S4096x512 ![0] bcast_S4096_S4096x512_0 (kMask6 idx)) (Host.gather gather_S8192x512_S4096x1_S4096x512_1_0_n_n_0_1_1512 emb (kWrap6 idx)) (broadcastInDim S4096x512 ![] bcast_S_S4096x512 (constant S_ .f32 0x7FC00000#32))

/-- Level 6's input rows: left child's embedding, right child's embedding, the node's own features. -/
def kX6 (emb : FVec F S8192x512 .f32) (children : IVec S65472x2 32) (u : FVec F S131008x512 .f32) : FVec F S4096x1536 .f32 :=
  concatenate S4096x1536 1 [⟨S4096x512, kTake6 emb (kColL6 children)⟩, ⟨S4096x512, kTake6 emb (kColR6 children)⟩, ⟨S4096x512, extractStridedSlice S4096x512 ![4032, 0] u slices_S131008x512_S4096x512_4032_0⟩] concatenates_S4096x512_S4096x512_S4096x512_S4096x1536_d1

/-! ## Level 5 -/

/-- Level 5's rows of the child table. -/
def kRows5 (children : IVec S65472x2 32) : IVec S2048x2 32 :=
  extractStridedSlice S2048x2 ![1984, 0] children slices_S65472x2_S2048x2_1984_0

/-- Level 5's left-child column as a vector. -/
def kColL5 (children : IVec S65472x2 32) : IVec S2048 32 :=
  shapeCast S2048 (extractStridedSlice S2048x1 ![0, 0] (kRows5 children) slices_S2048x2_S2048x1_0_0) shapeCasts_S2048x1_S2048

/-- Level 5's right-child column as a vector. -/
def kColR5 (children : IVec S65472x2 32) : IVec S2048 32 :=
  shapeCast S2048 (extractStridedSlice S2048x1 ![0, 1] (kRows5 children) slices_S2048x2_S2048x1_0_1) shapeCasts_S2048x1_S2048

/-- Level 5's take, the gather indices: a negative index wrapped by the table's 4096 rows, as an [n,1] array. -/
def kWrap5 (idx : IVec S2048 32) : IVec S2048x1 32 :=
  broadcastInDim S2048x1 ![0] bcast_S2048_S2048x1_0 (select (cmpi .slt idx (broadcastInDim S2048 ![] bcast_S_S2048 (constantI S_ 32 0#32))) (addi idx (broadcastInDim S2048 ![] bcast_S_S2048 (constantI S_ 32 4096#32))) idx)

/-- Level 5's take, the mask: 0 ≤ wrapped index ≤ 4095, and-reduced over the size-1 axis. -/
def kMask5 (idx : IVec S2048 32) : IVec S2048 1 :=
  Host.reduce IntOp.andi (andi (cmpi .sge (kWrap5 idx) (broadcastInDim S2048x1 ![] bcast_S_S2048x1 (constantI S_ 32 0#32))) (cmpi .sle (kWrap5 idx) (broadcastInDim S2048x1 ![0, 1] bcast_S1x1_S2048x1_0_1 (broadcastInDim S1x1 ![1] bcast_S1_S1x1_1 (constantI S1 32 4095#32))))) (constantI S_ 1 1#1) reducesTo_S2048x1_S2048_d1 h_S_

/-- Level 5's take: the gathered rows where the mask holds, the quiet-NaN word elsewhere. -/
def kTake5 (emb : FVec F S4096x512 .f32) (idx : IVec S2048 32) : FVec F S2048x512 .f32 :=
  select (broadcastInDim S2048x512 ![0] bcast_S2048_S2048x512_0 (kMask5 idx)) (Host.gather gather_S4096x512_S2048x1_S2048x512_1_0_n_n_0_1_1512 emb (kWrap5 idx)) (broadcastInDim S2048x512 ![] bcast_S_S2048x512 (constant S_ .f32 0x7FC00000#32))

/-- Level 5's input rows: left child's embedding, right child's embedding, the node's own features. -/
def kX5 (emb : FVec F S4096x512 .f32) (children : IVec S65472x2 32) (u : FVec F S131008x512 .f32) : FVec F S2048x1536 .f32 :=
  concatenate S2048x1536 1 [⟨S2048x512, kTake5 emb (kColL5 children)⟩, ⟨S2048x512, kTake5 emb (kColR5 children)⟩, ⟨S2048x512, extractStridedSlice S2048x512 ![1984, 0] u slices_S131008x512_S2048x512_1984_0⟩] concatenates_S2048x512_S2048x512_S2048x512_S2048x1536_d1

/-! ## Level 4 -/

/-- Level 4's rows of the child table. -/
def kRows4 (children : IVec S65472x2 32) : IVec S1024x2 32 :=
  extractStridedSlice S1024x2 ![960, 0] children slices_S65472x2_S1024x2_960_0

/-- Level 4's left-child column as a vector. -/
def kColL4 (children : IVec S65472x2 32) : IVec S1024 32 :=
  shapeCast S1024 (extractStridedSlice S1024x1 ![0, 0] (kRows4 children) slices_S1024x2_S1024x1_0_0) shapeCasts_S1024x1_S1024

/-- Level 4's right-child column as a vector. -/
def kColR4 (children : IVec S65472x2 32) : IVec S1024 32 :=
  shapeCast S1024 (extractStridedSlice S1024x1 ![0, 1] (kRows4 children) slices_S1024x2_S1024x1_0_1) shapeCasts_S1024x1_S1024

/-- Level 4's take, the gather indices: a negative index wrapped by the table's 2048 rows, as an [n,1] array. -/
def kWrap4 (idx : IVec S1024 32) : IVec S1024x1 32 :=
  broadcastInDim S1024x1 ![0] bcast_S1024_S1024x1_0 (select (cmpi .slt idx (broadcastInDim S1024 ![] bcast_S_S1024 (constantI S_ 32 0#32))) (addi idx (broadcastInDim S1024 ![] bcast_S_S1024 (constantI S_ 32 2048#32))) idx)

/-- Level 4's take, the mask: 0 ≤ wrapped index ≤ 2047, and-reduced over the size-1 axis. -/
def kMask4 (idx : IVec S1024 32) : IVec S1024 1 :=
  Host.reduce IntOp.andi (andi (cmpi .sge (kWrap4 idx) (broadcastInDim S1024x1 ![] bcast_S_S1024x1 (constantI S_ 32 0#32))) (cmpi .sle (kWrap4 idx) (broadcastInDim S1024x1 ![0, 1] bcast_S1x1_S1024x1_0_1 (broadcastInDim S1x1 ![1] bcast_S1_S1x1_1 (constantI S1 32 2047#32))))) (constantI S_ 1 1#1) reducesTo_S1024x1_S1024_d1 h_S_

/-- Level 4's take: the gathered rows where the mask holds, the quiet-NaN word elsewhere. -/
def kTake4 (emb : FVec F S2048x512 .f32) (idx : IVec S1024 32) : FVec F S1024x512 .f32 :=
  select (broadcastInDim S1024x512 ![0] bcast_S1024_S1024x512_0 (kMask4 idx)) (Host.gather gather_S2048x512_S1024x1_S1024x512_1_0_n_n_0_1_1512 emb (kWrap4 idx)) (broadcastInDim S1024x512 ![] bcast_S_S1024x512 (constant S_ .f32 0x7FC00000#32))

/-- Level 4's input rows: left child's embedding, right child's embedding, the node's own features. -/
def kX4 (emb : FVec F S2048x512 .f32) (children : IVec S65472x2 32) (u : FVec F S131008x512 .f32) : FVec F S1024x1536 .f32 :=
  concatenate S1024x1536 1 [⟨S1024x512, kTake4 emb (kColL4 children)⟩, ⟨S1024x512, kTake4 emb (kColR4 children)⟩, ⟨S1024x512, extractStridedSlice S1024x512 ![960, 0] u slices_S131008x512_S1024x512_960_0⟩] concatenates_S1024x512_S1024x512_S1024x512_S1024x1536_d1

/-! ## Level 3 -/

/-- Level 3's rows of the child table. -/
def kRows3 (children : IVec S65472x2 32) : IVec S512x2 32 :=
  extractStridedSlice S512x2 ![448, 0] children slices_S65472x2_S512x2_448_0

/-- Level 3's left-child column as a vector. -/
def kColL3 (children : IVec S65472x2 32) : IVec S512 32 :=
  shapeCast S512 (extractStridedSlice S512x1 ![0, 0] (kRows3 children) slices_S512x2_S512x1_0_0) shapeCasts_S512x1_S512

/-- Level 3's right-child column as a vector. -/
def kColR3 (children : IVec S65472x2 32) : IVec S512 32 :=
  shapeCast S512 (extractStridedSlice S512x1 ![0, 1] (kRows3 children) slices_S512x2_S512x1_0_1) shapeCasts_S512x1_S512

/-- Level 3's take, the gather indices: a negative index wrapped by the table's 1024 rows, as an [n,1] array. -/
def kWrap3 (idx : IVec S512 32) : IVec S512x1 32 :=
  broadcastInDim S512x1 ![0] bcast_S512_S512x1_0 (select (cmpi .slt idx (broadcastInDim S512 ![] bcast_S_S512 (constantI S_ 32 0#32))) (addi idx (broadcastInDim S512 ![] bcast_S_S512 (constantI S_ 32 1024#32))) idx)

/-- Level 3's take, the mask: 0 ≤ wrapped index ≤ 1023, and-reduced over the size-1 axis. -/
def kMask3 (idx : IVec S512 32) : IVec S512 1 :=
  Host.reduce IntOp.andi (andi (cmpi .sge (kWrap3 idx) (broadcastInDim S512x1 ![] bcast_S_S512x1 (constantI S_ 32 0#32))) (cmpi .sle (kWrap3 idx) (broadcastInDim S512x1 ![0, 1] bcast_S1x1_S512x1_0_1 (broadcastInDim S1x1 ![1] bcast_S1_S1x1_1 (constantI S1 32 1023#32))))) (constantI S_ 1 1#1) reducesTo_S512x1_S512_d1 h_S_

/-- Level 3's take: the gathered rows where the mask holds, the quiet-NaN word elsewhere. -/
def kTake3 (emb : FVec F S1024x512 .f32) (idx : IVec S512 32) : FVec F S512x512 .f32 :=
  select (broadcastInDim S512x512 ![0] bcast_S512_S512x512_0 (kMask3 idx)) (Host.gather gather_S1024x512_S512x1_S512x512_1_0_n_n_0_1_1512 emb (kWrap3 idx)) (broadcastInDim S512x512 ![] bcast_S_S512x512 (constant S_ .f32 0x7FC00000#32))

/-- Level 3's input rows: left child's embedding, right child's embedding, the node's own features. -/
def kX3 (emb : FVec F S1024x512 .f32) (children : IVec S65472x2 32) (u : FVec F S131008x512 .f32) : FVec F S512x1536 .f32 :=
  concatenate S512x1536 1 [⟨S512x512, kTake3 emb (kColL3 children)⟩, ⟨S512x512, kTake3 emb (kColR3 children)⟩, ⟨S512x512, extractStridedSlice S512x512 ![448, 0] u slices_S131008x512_S512x512_448_0⟩] concatenates_S512x512_S512x512_S512x512_S512x1536_d1

/-! ## Level 2 -/

/-- Level 2's rows of the child table. -/
def kRows2 (children : IVec S65472x2 32) : IVec S256x2 32 :=
  extractStridedSlice S256x2 ![192, 0] children slices_S65472x2_S256x2_192_0

/-- Level 2's left-child column as a vector. -/
def kColL2 (children : IVec S65472x2 32) : IVec S256 32 :=
  shapeCast S256 (extractStridedSlice S256x1 ![0, 0] (kRows2 children) slices_S256x2_S256x1_0_0) shapeCasts_S256x1_S256

/-- Level 2's right-child column as a vector. -/
def kColR2 (children : IVec S65472x2 32) : IVec S256 32 :=
  shapeCast S256 (extractStridedSlice S256x1 ![0, 1] (kRows2 children) slices_S256x2_S256x1_0_1) shapeCasts_S256x1_S256

/-- Level 2's take, the gather indices: a negative index wrapped by the table's 512 rows, as an [n,1] array. -/
def kWrap2 (idx : IVec S256 32) : IVec S256x1 32 :=
  broadcastInDim S256x1 ![0] bcast_S256_S256x1_0 (select (cmpi .slt idx (broadcastInDim S256 ![] bcast_S_S256 (constantI S_ 32 0#32))) (addi idx (broadcastInDim S256 ![] bcast_S_S256 (constantI S_ 32 512#32))) idx)

/-- Level 2's take, the mask: 0 ≤ wrapped index ≤ 511, and-reduced over the size-1 axis. -/
def kMask2 (idx : IVec S256 32) : IVec S256 1 :=
  Host.reduce IntOp.andi (andi (cmpi .sge (kWrap2 idx) (broadcastInDim S256x1 ![] bcast_S_S256x1 (constantI S_ 32 0#32))) (cmpi .sle (kWrap2 idx) (broadcastInDim S256x1 ![0, 1] bcast_S1x1_S256x1_0_1 (broadcastInDim S1x1 ![1] bcast_S1_S1x1_1 (constantI S1 32 511#32))))) (constantI S_ 1 1#1) reducesTo_S256x1_S256_d1 h_S_

/-- Level 2's take: the gathered rows where the mask holds, the quiet-NaN word elsewhere. -/
def kTake2 (emb : FVec F S512x512 .f32) (idx : IVec S256 32) : FVec F S256x512 .f32 :=
  select (broadcastInDim S256x512 ![0] bcast_S256_S256x512_0 (kMask2 idx)) (Host.gather gather_S512x512_S256x1_S256x512_1_0_n_n_0_1_1512 emb (kWrap2 idx)) (broadcastInDim S256x512 ![] bcast_S_S256x512 (constant S_ .f32 0x7FC00000#32))

/-- Level 2's input rows: left child's embedding, right child's embedding, the node's own features. -/
def kX2 (emb : FVec F S512x512 .f32) (children : IVec S65472x2 32) (u : FVec F S131008x512 .f32) : FVec F S256x1536 .f32 :=
  concatenate S256x1536 1 [⟨S256x512, kTake2 emb (kColL2 children)⟩, ⟨S256x512, kTake2 emb (kColR2 children)⟩, ⟨S256x512, extractStridedSlice S256x512 ![192, 0] u slices_S131008x512_S256x512_192_0⟩] concatenates_S256x512_S256x512_S256x512_S256x1536_d1

/-! ## Level 1 -/

/-- Level 1's rows of the child table. -/
def kRows1 (children : IVec S65472x2 32) : IVec S128x2 32 :=
  extractStridedSlice S128x2 ![64, 0] children slices_S65472x2_S128x2_64_0

/-- Level 1's left-child column as a vector. -/
def kColL1 (children : IVec S65472x2 32) : IVec S128 32 :=
  shapeCast S128 (extractStridedSlice S128x1 ![0, 0] (kRows1 children) slices_S128x2_S128x1_0_0) shapeCasts_S128x1_S128

/-- Level 1's right-child column as a vector. -/
def kColR1 (children : IVec S65472x2 32) : IVec S128 32 :=
  shapeCast S128 (extractStridedSlice S128x1 ![0, 1] (kRows1 children) slices_S128x2_S128x1_0_1) shapeCasts_S128x1_S128

/-- Level 1's take, the gather indices: a negative index wrapped by the table's 256 rows, as an [n,1] array. -/
def kWrap1 (idx : IVec S128 32) : IVec S128x1 32 :=
  broadcastInDim S128x1 ![0] bcast_S128_S128x1_0 (select (cmpi .slt idx (broadcastInDim S128 ![] bcast_S_S128 (constantI S_ 32 0#32))) (addi idx (broadcastInDim S128 ![] bcast_S_S128 (constantI S_ 32 256#32))) idx)

/-- Level 1's take, the mask: 0 ≤ wrapped index ≤ 255, and-reduced over the size-1 axis. -/
def kMask1 (idx : IVec S128 32) : IVec S128 1 :=
  Host.reduce IntOp.andi (andi (cmpi .sge (kWrap1 idx) (broadcastInDim S128x1 ![] bcast_S_S128x1 (constantI S_ 32 0#32))) (cmpi .sle (kWrap1 idx) (broadcastInDim S128x1 ![0, 1] bcast_S1x1_S128x1_0_1 (broadcastInDim S1x1 ![1] bcast_S1_S1x1_1 (constantI S1 32 255#32))))) (constantI S_ 1 1#1) reducesTo_S128x1_S128_d1 h_S_

/-- Level 1's take: the gathered rows where the mask holds, the quiet-NaN word elsewhere. -/
def kTake1 (emb : FVec F S256x512 .f32) (idx : IVec S128 32) : FVec F S128x512 .f32 :=
  select (broadcastInDim S128x512 ![0] bcast_S128_S128x512_0 (kMask1 idx)) (Host.gather gather_S256x512_S128x1_S128x512_1_0_n_n_0_1_1512 emb (kWrap1 idx)) (broadcastInDim S128x512 ![] bcast_S_S128x512 (constant S_ .f32 0x7FC00000#32))

/-- Level 1's input rows: left child's embedding, right child's embedding, the node's own features. -/
def kX1 (emb : FVec F S256x512 .f32) (children : IVec S65472x2 32) (u : FVec F S131008x512 .f32) : FVec F S128x1536 .f32 :=
  concatenate S128x1536 1 [⟨S128x512, kTake1 emb (kColL1 children)⟩, ⟨S128x512, kTake1 emb (kColR1 children)⟩, ⟨S128x512, extractStridedSlice S128x512 ![64, 0] u slices_S131008x512_S128x512_64_0⟩] concatenates_S128x512_S128x512_S128x512_S128x1536_d1

/-! ## Level 0 -/

/-- Level 0's rows of the child table. -/
def kRows0 (children : IVec S65472x2 32) : IVec S64x2 32 :=
  extractStridedSlice S64x2 ![0, 0] children slices_S65472x2_S64x2_0_0

/-- Level 0's left-child column as a vector. -/
def kColL0 (children : IVec S65472x2 32) : IVec S64 32 :=
  shapeCast S64 (extractStridedSlice S64x1 ![0, 0] (kRows0 children) slices_S64x2_S64x1_0_0) shapeCasts_S64x1_S64

/-- Level 0's right-child column as a vector. -/
def kColR0 (children : IVec S65472x2 32) : IVec S64 32 :=
  shapeCast S64 (extractStridedSlice S64x1 ![0, 1] (kRows0 children) slices_S64x2_S64x1_0_1) shapeCasts_S64x1_S64

/-- Level 0's take, the gather indices: a negative index wrapped by the table's 128 rows, as an [n,1] array. -/
def kWrap0 (idx : IVec S64 32) : IVec S64x1 32 :=
  broadcastInDim S64x1 ![0] bcast_S64_S64x1_0 (select (cmpi .slt idx (broadcastInDim S64 ![] bcast_S_S64 (constantI S_ 32 0#32))) (addi idx (broadcastInDim S64 ![] bcast_S_S64 (constantI S_ 32 128#32))) idx)

/-- Level 0's take, the mask: 0 ≤ wrapped index ≤ 127, and-reduced over the size-1 axis. -/
def kMask0 (idx : IVec S64 32) : IVec S64 1 :=
  Host.reduce IntOp.andi (andi (cmpi .sge (kWrap0 idx) (broadcastInDim S64x1 ![] bcast_S_S64x1 (constantI S_ 32 0#32))) (cmpi .sle (kWrap0 idx) (broadcastInDim S64x1 ![0, 1] bcast_S1x1_S64x1_0_1 (broadcastInDim S1x1 ![1] bcast_S1_S1x1_1 (constantI S1 32 127#32))))) (constantI S_ 1 1#1) reducesTo_S64x1_S64_d1 h_S_

/-- Level 0's take: the gathered rows where the mask holds, the quiet-NaN word elsewhere. -/
def kTake0 (emb : FVec F S128x512 .f32) (idx : IVec S64 32) : FVec F S64x512 .f32 :=
  select (broadcastInDim S64x512 ![0] bcast_S64_S64x512_0 (kMask0 idx)) (Host.gather gather_S128x512_S64x1_S64x512_1_0_n_n_0_1_1512 emb (kWrap0 idx)) (broadcastInDim S64x512 ![] bcast_S_S64x512 (constant S_ .f32 0x7FC00000#32))

/-- Level 0's input rows: left child's embedding, right child's embedding, the node's own features. -/
def kX0 (emb : FVec F S128x512 .f32) (children : IVec S65472x2 32) (u : FVec F S131008x512 .f32) : FVec F S64x1536 .f32 :=
  concatenate S64x1536 1 [⟨S64x512, kTake0 emb (kColL0 children)⟩, ⟨S64x512, kTake0 emb (kColR0 children)⟩, ⟨S64x512, extractStridedSlice S64x512 ![0, 0] u slices_S131008x512_S64x512_0_0⟩] concatenates_S64x512_S64x512_S64x512_S64x1536_d1

end Cert.KernelIdeal.KValue

end
-- ==== Proof.KIRead.lean ====
import proofs.«407834_j69114613728754_1_alg».proof.Proof.KLevels
import proofs.«407834_j69114613728754_1_alg».proof.Proof.Gen.KernelIdeal.Launch
import proofs.«407834_j69114613728754_1_alg».proof.Proof.RegionsKernelIdeal
import Idealize.ShloMosaic.Lib.StableHlo.Run

set_option maxRecDepth 4096

noncomputable section

open Idealize.ShloMosaic Idealize.ShloMosaic.TcCoe Idealize.SL.Sem

namespace Cert.KernelIdeal.Hand

open Cert.KernelIdeal Cert.KernelIdeal.Gen Cert.KernelIdeal.KValue
open Idealize.ShloMosaic.StableHlo (after after_cons after_nil after_of_writes_sub)

variable {F : FTy → Type} [FloatOps F]

/-- An operation over a literal family of three operands reads each operand at its own reference. -/
theorem nary3_result {x a b y : Ref sig .tc}
    (f : ((k : Fin 3) → ((![x, a, b] : Fin 3 → Ref sig .tc) k).ty.Contents (Elt F)) → y.ty.Contents (Elt F)) (hxs hy)
    (V : Valuation τ sig (Elt F)) :
    (StableHlo.nary (τ := τ) ![x, a, b] y f hxs hy).result V (Proc.devRef .tc y)
      = f (Fin.cons (V (Proc.devRef .tc x)) (Fin.cons (V (Proc.devRef .tc a)) (Fin.cons (V (Proc.devRef .tc b)) (fun i => i.elim0)))) := by
  rw [StableHlo.nary_result]; congr 1; funext k; fin_cases k <;> rfl

macro "after_results3" : tactic =>
  `(tactic| (simp only [after_cons, after_nil]
             repeat (first
               | rw [nary3_result]
               | rw [StableHlo.nullary_result] | rw [StableHlo.unary_result]
               | rw [StableHlo.binary_result] | rw [StableHlo.ternary_result]
               | rw [StableHlo.reshape_result]
               | (rw [StableHlo.nullary_result_ne]; rotate_left; decide)
               | (rw [StableHlo.unary_result_ne]; rotate_left; decide)
               | (rw [StableHlo.binary_result_ne]; rotate_left; decide)
               | (rw [StableHlo.ternary_result_ne]; rotate_left; decide)
               | (rw [StableHlo.reshape_result_ne]; rotate_left; decide)
               | (rw [StableHlo.nary_result_ne]; rotate_left; decide))))

variable (W : Valuation τ sig (Elt F))

theorem pad_v0 : (after hostOps0_1 (after hostOps0 W) main_v0 : FVec F S131072x256 .f32) = kPad (W main_arg0) := by
  dsimp only [hostOps0, hostOps0_1]; after_results; rfl

theorem bias_v1 : (after hostOps0_2 W main_v1 : FVec F S1x512 .f32) = kBiasU (W main_arg3) := by
  dsimp only [hostOps0_2]; after_results; rfl

theorem l9_u : (after hostOps1 W main_v3 : FVec F S131008x512 .f32) = kU (W main_v2) := by
  dsimp only [hostOps1]; after_results; rfl

theorem l9_emb : (after hostOps1 W main_v4 : FVec F S65536x512 .f32) = kEmb9 (kU (W main_v2)) := by
  dsimp only [hostOps1]; after_results; rfl

theorem l9_rows : (after hostOps1 W main_v5 : IVec S32768x2 32) = kRows9 (W main_arg1) := by
  dsimp only [hostOps1]; after_results; rfl

theorem l9_colL : (after hostOps1 W main_v7 : IVec S32768 32) = kColL9 (W main_arg1) := by
  dsimp only [hostOps1]; after_results; rfl

set_option maxHeartbeats 4000000 in
theorem l9_takeL : (after hostOps1_1 W main_v8 : FVec F S32768x512 .f32) = kTake9 (W main_v4) (W main_v7) := by
  dsimp only [hostOps1_1]; after_results_simp
  simp only [StableHlo.TRef.ofBuf, StableHlo.TRef.toBuf, cast_eq]
  rfl

theorem l9_colR (ch : IVec S65472x2 32) (h : (W main_v5 : IVec S32768x2 32) = kRows9 ch) :
    (after hostOps1_2 W main_v10 : IVec S32768 32) = kColR9 ch := by
  dsimp only [hostOps1_2]; after_results; rw [h]; rfl

set_option maxHeartbeats 4000000 in
theorem l9_takeR : (after hostOps1_3 W main_v11 : FVec F S32768x512 .f32) = kTake9 (W main_v4) (W main_v10) := by
  dsimp only [hostOps1_3]; after_results_simp
  simp only [StableHlo.TRef.ofBuf, StableHlo.TRef.toBuf, cast_eq]
  rfl

/-- The level's input rows are the two children's embeddings beside the nodes' own features. -/
theorem l9_x (emb : FVec F S65536x512 .f32) (ch : IVec S65472x2 32) (u : FVec F S131008x512 .f32)
    (hL : (W main_v8 : FVec F S32768x512 .f32) = kTake9 emb (kColL9 ch))
    (hR : (W main_v11 : FVec F S32768x512 .f32) = kTake9 emb (kColR9 ch))
    (hu : (W main_v3 : FVec F S131008x512 .f32) = u) :
    (after hostOps1_4 W main_v13 : FVec F S32768x1536 .f32) = kX9 emb ch u := by
  unfold kX9; rw [← hL, ← hR, ← hu]; dsimp only [hostOps1_4]; after_results3; rfl

/-- Each later stretch reads what an earlier one left: a reference a stretch does not write keeps its contents across it. -/
theorem l9_X (emb : FVec F S65536x512 .f32) (u : FVec F S131008x512 .f32)
    (hemb : (after hostOps1 W main_v4 : FVec F S65536x512 .f32) = emb) (hu : (after hostOps1 W main_v3 : FVec F S131008x512 .f32) = u) :
    (after hostOps1_4 (after hostOps1_3 (after hostOps1_2 (after hostOps1_1 (after hostOps1 W)))) main_v13 : FVec F S32768x1536 .f32)
      = kX9 emb (W main_arg1) u := by
  refine l9_x _ emb _ u ?_ ?_ ?_ <;> (try rw [l9_takeR]) <;>
    simp (disch := decide) only [after_of_writes_sub _ _ GenP.hostOps1_1_writes, after_of_writes_sub _ _ GenP.hostOps1_2_writes,
      after_of_writes_sub _ _ GenP.hostOps1_3_writes]
  · rw [l9_takeL, hemb, l9_colL]
  · rw [hemb, l9_colR _ _ ((after_of_writes_sub _ _ GenP.hostOps1_1_writes (by decide)).trans (l9_rows W))]
  · exact hu

theorem l9_B :
    (after hostOps1_4 (after hostOps1_3 (after hostOps1_2 (after hostOps1_1 (after hostOps1 W)))) main_v14 : FVec F S1x512 .f32) = kBiasH (W main_arg5) := by
  dsimp only [hostOps1_4]; after_results
  simp (disch := decide) only [after_of_writes_sub _ _ GenP.hostOps1_writes, after_of_writes_sub _ _ GenP.hostOps1_1_writes,
    after_of_writes_sub _ _ GenP.hostOps1_2_writes, after_of_writes_sub _ _ GenP.hostOps1_3_writes]
  rfl

theorem l8_rows : (after hostOps2 W main_v16 : IVec S16384x2 32) = kRows8 (W main_arg1) := by
  dsimp only [hostOps2]; after_results; rfl

theorem l8_colL : (after hostOps2 W main_v18 : IVec S16384 32) = kColL8 (W main_arg1) := by
  dsimp only [hostOps2]; after_results; rfl

set_option maxHeartbeats 4000000 in
theorem l8_takeL : (after hostOps2_1 W main_v19 : FVec F S16384x512 .f32) = kTake8 (W main_v15) (W main_v18) := by
  dsimp only [hostOps2_1]; after_results_simp
  simp only [StableHlo.TRef.ofBuf, StableHlo.TRef.toBuf, cast_eq]
  rfl

theorem l8_colR (ch : IVec S65472x2 32) (h : (W main_v16 : IVec S16384x2 32) = kRows8 ch) :
    (after hostOps2_2 W main_v21 : IVec S16384 32) = kColR8 ch := by
  dsimp only [hostOps2_2]; after_results; rw [h]; rfl

set_option maxHeartbeats 4000000 in
theorem l8_takeR : (after hostOps2_3 W main_v22 : FVec F S16384x512 .f32) = kTake8 (W main_v15) (W main_v21) := by
  dsimp only [hostOps2_3]; after_results_simp
  simp only [StableHlo.TRef.ofBuf, StableHlo.TRef.toBuf, cast_eq]
  rfl

/-- The level's input rows are the two children's embeddings beside the nodes' own features. -/
theorem l8_x (emb : FVec F S32768x512 .f32) (ch : IVec S65472x2 32) (u : FVec F S131008x512 .f32)
    (hL : (W main_v19 : FVec F S16384x512 .f32) = kTake8 emb (kColL8 ch))
    (hR : (W main_v22 : FVec F S16384x512 .f32) = kTake8 emb (kColR8 ch))
    (hu : (W main_v3 : FVec F S131008x512 .f32) = u) :
    (after hostOps2_4 W main_v24 : FVec F S16384x1536 .f32) = kX8 emb ch u := by
  unfold kX8; rw [← hL, ← hR, ← hu]; dsimp only [hostOps2_4]; after_results3; rfl

/-- Each later stretch reads what an earlier one left: a reference a stretch does not write keeps its contents across it. -/
theorem l8_X (emb : FVec F S32768x512 .f32) (u : FVec F S131008x512 .f32)
    (hemb : (after hostOps2 W main_v15 : FVec F S32768x512 .f32) = emb) (hu : (after hostOps2 W main_v3 : FVec F S131008x512 .f32) = u) :
    (after hostOps2_4 (after hostOps2_3 (after hostOps2_2 (after hostOps2_1 (after hostOps2 W)))) main_v24 : FVec F S16384x1536 .f32)
      = kX8 emb (W main_arg1) u := by
  refine l8_x _ emb _ u ?_ ?_ ?_ <;> (try rw [l8_takeR]) <;>
    simp (disch := decide) only [after_of_writes_sub _ _ GenP.hostOps2_1_writes, after_of_writes_sub _ _ GenP.hostOps2_2_writes,
      after_of_writes_sub _ _ GenP.hostOps2_3_writes]
  · rw [l8_takeL, hemb, l8_colL]
  · rw [hemb, l8_colR _ _ ((after_of_writes_sub _ _ GenP.hostOps2_1_writes (by decide)).trans (l8_rows W))]
  · exact hu

theorem l8_B :
    (after hostOps2_4 (after hostOps2_3 (after hostOps2_2 (after hostOps2_1 (after hostOps2 W)))) main_v25 : FVec F S1x512 .f32) = kBiasH (W main_arg5) := by
  dsimp only [hostOps2_4]; after_results
  simp (disch := decide) only [after_of_writes_sub _ _ GenP.hostOps2_writes, after_of_writes_sub _ _ GenP.hostOps2_1_writes,
    after_of_writes_sub _ _ GenP.hostOps2_2_writes, after_of_writes_sub _ _ GenP.hostOps2_3_writes]
  rfl

theorem l7_rows : (after hostOps3 W main_v27 : IVec S8192x2 32) = kRows7 (W main_arg1) := by
  dsimp only [hostOps3]; after_results; rfl

theorem l7_colL : (after hostOps3 W main_v29 : IVec S8192 32) = kColL7 (W main_arg1) := by
  dsimp only [hostOps3]; after_results; rfl

set_option maxHeartbeats 4000000 in
theorem l7_takeL : (after hostOps3_1 W main_v30 : FVec F S8192x512 .f32) = kTake7 (W main_v26) (W main_v29) := by
  dsimp only [hostOps3_1]; after_results_simp
  simp only [StableHlo.TRef.ofBuf, StableHlo.TRef.toBuf, cast_eq]
  rfl

theorem l7_colR (ch : IVec S65472x2 32) (h : (W main_v27 : IVec S8192x2 32) = kRows7 ch) :
    (after hostOps3_2 W main_v32 : IVec S8192 32) = kColR7 ch := by
  dsimp only [hostOps3_2]; after_results; rw [h]; rfl

set_option maxHeartbeats 4000000 in
theorem l7_takeR : (after hostOps3_3 W main_v33 : FVec F S8192x512 .f32) = kTake7 (W main_v26) (W main_v32) := by
  dsimp only [hostOps3_3]; after_results_simp
  simp only [StableHlo.TRef.ofBuf, StableHlo.TRef.toBuf, cast_eq]
  rfl

/-- The level's input rows are the two children's embeddings beside the nodes' own features. -/
theorem l7_x (emb : FVec F S16384x512 .f32) (ch : IVec S65472x2 32) (u : FVec F S131008x512 .f32)
    (hL : (W main_v30 : FVec F S8192x512 .f32) = kTake7 emb (kColL7 ch))
    (hR : (W main_v33 : FVec F S8192x512 .f32) = kTake7 emb (kColR7 ch))
    (hu : (W main_v3 : FVec F S131008x512 .f32) = u) :
    (after hostOps3_4 W main_v35 : FVec F S8192x1536 .f32) = kX7 emb ch u := by
  unfold kX7; rw [← hL, ← hR, ← hu]; dsimp only [hostOps3_4]; after_results3; rfl

/-- Each later stretch reads what an earlier one left: a reference a stretch does not write keeps its contents across it. -/
theorem l7_X (emb : FVec F S16384x512 .f32) (u : FVec F S131008x512 .f32)
    (hemb : (after hostOps3 W main_v26 : FVec F S16384x512 .f32) = emb) (hu : (after hostOps3 W main_v3 : FVec F S131008x512 .f32) = u) :
    (after hostOps3_4 (after hostOps3_3 (after hostOps3_2 (after hostOps3_1 (after hostOps3 W)))) main_v35 : FVec F S8192x1536 .f32)
      = kX7 emb (W main_arg1) u := by
  refine l7_x _ emb _ u ?_ ?_ ?_ <;> (try rw [l7_takeR]) <;>
    simp (disch := decide) only [after_of_writes_sub _ _ GenP.hostOps3_1_writes, after_of_writes_sub _ _ GenP.hostOps3_2_writes,
      after_of_writes_sub _ _ GenP.hostOps3_3_writes]
  · rw [l7_takeL, hemb, l7_colL]
  · rw [hemb, l7_colR _ _ ((after_of_writes_sub _ _ GenP.hostOps3_1_writes (by decide)).trans (l7_rows W))]
  · exact hu

theorem l7_B :
    (after hostOps3_4 (after hostOps3_3 (after hostOps3_2 (after hostOps3_1 (after hostOps3 W)))) main_v36 : FVec F S1x512 .f32) = kBiasH (W main_arg5) := by
  dsimp only [hostOps3_4]; after_results
  simp (disch := decide) only [after_of_writes_sub _ _ GenP.hostOps3_writes, after_of_writes_sub _ _ GenP.hostOps3_1_writes,
    after_of_writes_sub _ _ GenP.hostOps3_2_writes, after_of_writes_sub _ _ GenP.hostOps3_3_writes]
  rfl

theorem l6_rows : (after hostOps4 W main_v38 : IVec S4096x2 32) = kRows6 (W main_arg1) := by
  dsimp only [hostOps4]; after_results; rfl

theorem l6_colL : (after hostOps4 W main_v40 : IVec S4096 32) = kColL6 (W main_arg1) := by
  dsimp only [hostOps4]; after_results; rfl

set_option maxHeartbeats 4000000 in
theorem l6_takeL : (after hostOps4_1 W main_v41 : FVec F S4096x512 .f32) = kTake6 (W main_v37) (W main_v40) := by
  dsimp only [hostOps4_1]; after_results_simp
  simp only [StableHlo.TRef.ofBuf, StableHlo.TRef.toBuf, cast_eq]
  rfl

theorem l6_colR (ch : IVec S65472x2 32) (h : (W main_v38 : IVec S4096x2 32) = kRows6 ch) :
    (after hostOps4_2 W main_v43 : IVec S4096 32) = kColR6 ch := by
  dsimp only [hostOps4_2]; after_results; rw [h]; rfl

set_option maxHeartbeats 4000000 in
theorem l6_takeR : (after hostOps4_3 W main_v44 : FVec F S4096x512 .f32) = kTake6 (W main_v37) (W main_v43) := by
  dsimp only [hostOps4_3]; after_results_simp
  simp only [StableHlo.TRef.ofBuf, StableHlo.TRef.toBuf, cast_eq]
  rfl

/-- The level's input rows are the two children's embeddings beside the nodes' own features. -/
theorem l6_x (emb : FVec F S8192x512 .f32) (ch : IVec S65472x2 32) (u : FVec F S131008x512 .f32)
    (hL : (W main_v41 : FVec F S4096x512 .f32) = kTake6 emb (kColL6 ch))
    (hR : (W main_v44 : FVec F S4096x512 .f32) = kTake6 emb (kColR6 ch))
    (hu : (W main_v3 : FVec F S131008x512 .f32) = u) :
    (after hostOps4_4 W main_v46 : FVec F S4096x1536 .f32) = kX6 emb ch u := by
  unfold kX6; rw [← hL, ← hR, ← hu]; dsimp only [hostOps4_4]; after_results3; rfl

/-- Each later stretch reads what an earlier one left: a reference a stretch does not write keeps its contents across it. -/
theorem l6_X (emb : FVec F S8192x512 .f32) (u : FVec F S131008x512 .f32)
    (hemb : (after hostOps4 W main_v37 : FVec F S8192x512 .f32) = emb) (hu : (after hostOps4 W main_v3 : FVec F S131008x512 .f32) = u) :
    (after hostOps4_4 (after hostOps4_3 (after hostOps4_2 (after hostOps4_1 (after hostOps4 W)))) main_v46 : FVec F S4096x1536 .f32)
      = kX6 emb (W main_arg1) u := by
  refine l6_x _ emb _ u ?_ ?_ ?_ <;> (try rw [l6_takeR]) <;>
    simp (disch := decide) only [after_of_writes_sub _ _ GenP.hostOps4_1_writes, after_of_writes_sub _ _ GenP.hostOps4_2_writes,
      after_of_writes_sub _ _ GenP.hostOps4_3_writes]
  · rw [l6_takeL, hemb, l6_colL]
  · rw [hemb, l6_colR _ _ ((after_of_writes_sub _ _ GenP.hostOps4_1_writes (by decide)).trans (l6_rows W))]
  · exact hu

theorem l6_B :
    (after hostOps4_4 (after hostOps4_3 (after hostOps4_2 (after hostOps4_1 (after hostOps4 W)))) main_v47 : FVec F S1x512 .f32) = kBiasH (W main_arg5) := by
  dsimp only [hostOps4_4]; after_results
  simp (disch := decide) only [after_of_writes_sub _ _ GenP.hostOps4_writes, after_of_writes_sub _ _ GenP.hostOps4_1_writes,
    after_of_writes_sub _ _ GenP.hostOps4_2_writes, after_of_writes_sub _ _ GenP.hostOps4_3_writes]
  rfl

theorem l5_rows : (after hostOps5 W main_v49 : IVec S2048x2 32) = kRows5 (W main_arg1) := by
  dsimp only [hostOps5]; after_results; rfl

theorem l5_colL : (after hostOps5 W main_v51 : IVec S2048 32) = kColL5 (W main_arg1) := by
  dsimp only [hostOps5]; after_results; rfl

set_option maxHeartbeats 4000000 in
theorem l5_takeL : (after hostOps5_1 W main_v52 : FVec F S2048x512 .f32) = kTake5 (W main_v48) (W main_v51) := by
  dsimp only [hostOps5_1]; after_results_simp
  simp only [StableHlo.TRef.ofBuf, StableHlo.TRef.toBuf, cast_eq]
  rfl

theorem l5_colR (ch : IVec S65472x2 32) (h : (W main_v49 : IVec S2048x2 32) = kRows5 ch) :
    (after hostOps5_2 W main_v54 : IVec S2048 32) = kColR5 ch := by
  dsimp only [hostOps5_2]; after_results; rw [h]; rfl

set_option maxHeartbeats 4000000 in
theorem l5_takeR : (after hostOps5_3 W main_v55 : FVec F S2048x512 .f32) = kTake5 (W main_v48) (W main_v54) := by
  dsimp only [hostOps5_3]; after_results_simp
  simp only [StableHlo.TRef.ofBuf, StableHlo.TRef.toBuf, cast_eq]
  rfl

/-- The level's input rows are the two children's embeddings beside the nodes' own features. -/
theorem l5_x (emb : FVec F S4096x512 .f32) (ch : IVec S65472x2 32) (u : FVec F S131008x512 .f32)
    (hL : (W main_v52 : FVec F S2048x512 .f32) = kTake5 emb (kColL5 ch))
    (hR : (W main_v55 : FVec F S2048x512 .f32) = kTake5 emb (kColR5 ch))
    (hu : (W main_v3 : FVec F S131008x512 .f32) = u) :
    (after hostOps5_4 W main_v57 : FVec F S2048x1536 .f32) = kX5 emb ch u := by
  unfold kX5; rw [← hL, ← hR, ← hu]; dsimp only [hostOps5_4]; after_results3; rfl

/-- Each later stretch reads what an earlier one left: a reference a stretch does not write keeps its contents across it. -/
theorem l5_X (emb : FVec F S4096x512 .f32) (u : FVec F S131008x512 .f32)
    (hemb : (after hostOps5 W main_v48 : FVec F S4096x512 .f32) = emb) (hu : (after hostOps5 W main_v3 : FVec F S131008x512 .f32) = u) :
    (after hostOps5_4 (after hostOps5_3 (after hostOps5_2 (after hostOps5_1 (after hostOps5 W)))) main_v57 : FVec F S2048x1536 .f32)
      = kX5 emb (W main_arg1) u := by
  refine l5_x _ emb _ u ?_ ?_ ?_ <;> (try rw [l5_takeR]) <;>
    simp (disch := decide) only [after_of_writes_sub _ _ GenP.hostOps5_1_writes, after_of_writes_sub _ _ GenP.hostOps5_2_writes,
      after_of_writes_sub _ _ GenP.hostOps5_3_writes]
  · rw [l5_takeL, hemb, l5_colL]
  · rw [hemb, l5_colR _ _ ((after_of_writes_sub _ _ GenP.hostOps5_1_writes (by decide)).trans (l5_rows W))]
  · exact hu

theorem l5_B :
    (after hostOps5_4 (after hostOps5_3 (after hostOps5_2 (after hostOps5_1 (after hostOps5 W)))) main_v58 : FVec F S1x512 .f32) = kBiasH (W main_arg5) := by
  dsimp only [hostOps5_4]; after_results
  simp (disch := decide) only [after_of_writes_sub _ _ GenP.hostOps5_writes, after_of_writes_sub _ _ GenP.hostOps5_1_writes,
    after_of_writes_sub _ _ GenP.hostOps5_2_writes, after_of_writes_sub _ _ GenP.hostOps5_3_writes]
  rfl

theorem l4_rows : (after hostOps6 W main_v60 : IVec S1024x2 32) = kRows4 (W main_arg1) := by
  dsimp only [hostOps6]; after_results; rfl

theorem l4_colL : (after hostOps6 W main_v62 : IVec S1024 32) = kColL4 (W main_arg1) := by
  dsimp only [hostOps6]; after_results; rfl

set_option maxHeartbeats 4000000 in
theorem l4_takeL : (after hostOps6_1 W main_v63 : FVec F S1024x512 .f32) = kTake4 (W main_v59) (W main_v62) := by
  dsimp only [hostOps6_1]; after_results_simp
  simp only [StableHlo.TRef.ofBuf, StableHlo.TRef.toBuf, cast_eq]
  rfl

theorem l4_colR (ch : IVec S65472x2 32) (h : (W main_v60 : IVec S1024x2 32) = kRows4 ch) :
    (after hostOps6_2 W main_v65 : IVec S1024 32) = kColR4 ch := by
  dsimp only [hostOps6_2]; after_results; rw [h]; rfl

set_option maxHeartbeats 4000000 in
theorem l4_takeR : (after hostOps6_3 W main_v66 : FVec F S1024x512 .f32) = kTake4 (W main_v59) (W main_v65) := by
  dsimp only [hostOps6_3]; after_results_simp
  simp only [StableHlo.TRef.ofBuf, StableHlo.TRef.toBuf, cast_eq]
  rfl

/-- The level's input rows are the two children's embeddings beside the nodes' own features. -/
theorem l4_x (emb : FVec F S2048x512 .f32) (ch : IVec S65472x2 32) (u : FVec F S131008x512 .f32)
    (hL : (W main_v63 : FVec F S1024x512 .f32) = kTake4 emb (kColL4 ch))
    (hR : (W main_v66 : FVec F S1024x512 .f32) = kTake4 emb (kColR4 ch))
    (hu : (W main_v3 : FVec F S131008x512 .f32) = u) :
    (after hostOps6_4 W main_v68 : FVec F S1024x1536 .f32) = kX4 emb ch u := by
  unfold kX4; rw [← hL, ← hR, ← hu]; dsimp only [hostOps6_4]; after_results3; rfl

/-- Each later stretch reads what an earlier one left: a reference a stretch does not write keeps its contents across it. -/
theorem l4_X (emb : FVec F S2048x512 .f32) (u : FVec F S131008x512 .f32)
    (hemb : (after hostOps6 W main_v59 : FVec F S2048x512 .f32) = emb) (hu : (after hostOps6 W main_v3 : FVec F S131008x512 .f32) = u) :
    (after hostOps6_4 (after hostOps6_3 (after hostOps6_2 (after hostOps6_1 (after hostOps6 W)))) main_v68 : FVec F S1024x1536 .f32)
      = kX4 emb (W main_arg1) u := by
  refine l4_x _ emb _ u ?_ ?_ ?_ <;> (try rw [l4_takeR]) <;>
    simp (disch := decide) only [after_of_writes_sub _ _ GenP.hostOps6_1_writes, after_of_writes_sub _ _ GenP.hostOps6_2_writes,
      after_of_writes_sub _ _ GenP.hostOps6_3_writes]
  · rw [l4_takeL, hemb, l4_colL]
  · rw [hemb, l4_colR _ _ ((after_of_writes_sub _ _ GenP.hostOps6_1_writes (by decide)).trans (l4_rows W))]
  · exact hu

theorem l4_B :
    (after hostOps6_4 (after hostOps6_3 (after hostOps6_2 (after hostOps6_1 (after hostOps6 W)))) main_v69 : FVec F S1x512 .f32) = kBiasH (W main_arg5) := by
  dsimp only [hostOps6_4]; after_results
  simp (disch := decide) only [after_of_writes_sub _ _ GenP.hostOps6_writes, after_of_writes_sub _ _ GenP.hostOps6_1_writes,
    after_of_writes_sub _ _ GenP.hostOps6_2_writes, after_of_writes_sub _ _ GenP.hostOps6_3_writes]
  rfl

theorem l3_rows : (after hostOps7 W main_v71 : IVec S512x2 32) = kRows3 (W main_arg1) := by
  dsimp only [hostOps7]; after_results; rfl

theorem l3_colL : (after hostOps7 W main_v73 : IVec S512 32) = kColL3 (W main_arg1) := by
  dsimp only [hostOps7]; after_results; rfl

set_option maxHeartbeats 4000000 in
theorem l3_takeL : (after hostOps7_1 W main_v74 : FVec F S512x512 .f32) = kTake3 (W main_v70) (W main_v73) := by
  dsimp only [hostOps7_1]; after_results_simp
  simp only [StableHlo.TRef.ofBuf, StableHlo.TRef.toBuf, cast_eq]
  rfl

theorem l3_colR (ch : IVec S65472x2 32) (h : (W main_v71 : IVec S512x2 32) = kRows3 ch) :
    (after hostOps7_2 W main_v76 : IVec S512 32) = kColR3 ch := by
  dsimp only [hostOps7_2]; after_results; rw [h]; rfl

set_option maxHeartbeats 4000000 in
theorem l3_takeR : (after hostOps7_3 W main_v77 : FVec F S512x512 .f32) = kTake3 (W main_v70) (W main_v76) := by
  dsimp only [hostOps7_3]; after_results_simp
  simp only [StableHlo.TRef.ofBuf, StableHlo.TRef.toBuf, cast_eq]
  rfl

/-- The level's input rows are the two children's embeddings beside the nodes' own features. -/
theorem l3_x (emb : FVec F S1024x512 .f32) (ch : IVec S65472x2 32) (u : FVec F S131008x512 .f32)
    (hL : (W main_v74 : FVec F S512x512 .f32) = kTake3 emb (kColL3 ch))
    (hR : (W main_v77 : FVec F S512x512 .f32) = kTake3 emb (kColR3 ch))
    (hu : (W main_v3 : FVec F S131008x512 .f32) = u) :
    (after hostOps7_4 W main_v79 : FVec F S512x1536 .f32) = kX3 emb ch u := by
  unfold kX3; rw [← hL, ← hR, ← hu]; dsimp only [hostOps7_4]; after_results3; rfl

/-- Each later stretch reads what an earlier one left: a reference a stretch does not write keeps its contents across it. -/
theorem l3_X (emb : FVec F S1024x512 .f32) (u : FVec F S131008x512 .f32)
    (hemb : (after hostOps7 W main_v70 : FVec F S1024x512 .f32) = emb) (hu : (after hostOps7 W main_v3 : FVec F S131008x512 .f32) = u) :
    (after hostOps7_4 (after hostOps7_3 (after hostOps7_2 (after hostOps7_1 (after hostOps7 W)))) main_v79 : FVec F S512x1536 .f32)
      = kX3 emb (W main_arg1) u := by
  refine l3_x _ emb _ u ?_ ?_ ?_ <;> (try rw [l3_takeR]) <;>
    simp (disch := decide) only [after_of_writes_sub _ _ GenP.hostOps7_1_writes, after_of_writes_sub _ _ GenP.hostOps7_2_writes,
      after_of_writes_sub _ _ GenP.hostOps7_3_writes]
  · rw [l3_takeL, hemb, l3_colL]
  · rw [hemb, l3_colR _ _ ((after_of_writes_sub _ _ GenP.hostOps7_1_writes (by decide)).trans (l3_rows W))]
  · exact hu

theorem l3_B :
    (after hostOps7_4 (after hostOps7_3 (after hostOps7_2 (after hostOps7_1 (after hostOps7 W)))) main_v80 : FVec F S1x512 .f32) = kBiasH (W main_arg5) := by
  dsimp only [hostOps7_4]; after_results
  simp (disch := decide) only [after_of_writes_sub _ _ GenP.hostOps7_writes, after_of_writes_sub _ _ GenP.hostOps7_1_writes,
    after_of_writes_sub _ _ GenP.hostOps7_2_writes, after_of_writes_sub _ _ GenP.hostOps7_3_writes]
  rfl

theorem l2_rows : (after hostOps8 W main_v82 : IVec S256x2 32) = kRows2 (W main_arg1) := by
  dsimp only [hostOps8]; after_results; rfl

theorem l2_colL : (after hostOps8 W main_v84 : IVec S256 32) = kColL2 (W main_arg1) := by
  dsimp only [hostOps8]; after_results; rfl

set_option maxHeartbeats 4000000 in
theorem l2_takeL : (after hostOps8_1 W main_v85 : FVec F S256x512 .f32) = kTake2 (W main_v81) (W main_v84) := by
  dsimp only [hostOps8_1]; after_results_simp
  simp only [StableHlo.TRef.ofBuf, StableHlo.TRef.toBuf, cast_eq]
  rfl

theorem l2_colR (ch : IVec S65472x2 32) (h : (W main_v82 : IVec S256x2 32) = kRows2 ch) :
    (after hostOps8_2 W main_v87 : IVec S256 32) = kColR2 ch := by
  dsimp only [hostOps8_2]; after_results; rw [h]; rfl

set_option maxHeartbeats 4000000 in
theorem l2_takeR : (after hostOps8_3 W main_v88 : FVec F S256x512 .f32) = kTake2 (W main_v81) (W main_v87) := by
  dsimp only [hostOps8_3]; after_results_simp
  simp only [StableHlo.TRef.ofBuf, StableHlo.TRef.toBuf, cast_eq]
  rfl

/-- The level's input rows are the two children's embeddings beside the nodes' own features. -/
theorem l2_x (emb : FVec F S512x512 .f32) (ch : IVec S65472x2 32) (u : FVec F S131008x512 .f32)
    (hL : (W main_v85 : FVec F S256x512 .f32) = kTake2 emb (kColL2 ch))
    (hR : (W main_v88 : FVec F S256x512 .f32) = kTake2 emb (kColR2 ch))
    (hu : (W main_v3 : FVec F S131008x512 .f32) = u) :
    (after hostOps8_4 W main_v90 : FVec F S256x1536 .f32) = kX2 emb ch u := by
  unfold kX2; rw [← hL, ← hR, ← hu]; dsimp only [hostOps8_4]; after_results3; rfl

/-- Each later stretch reads what an earlier one left: a reference a stretch does not write keeps its contents across it. -/
theorem l2_X (emb : FVec F S512x512 .f32) (u : FVec F S131008x512 .f32)
    (hemb : (after hostOps8 W main_v81 : FVec F S512x512 .f32) = emb) (hu : (after hostOps8 W main_v3 : FVec F S131008x512 .f32) = u) :
    (after hostOps8_4 (after hostOps8_3 (after hostOps8_2 (after hostOps8_1 (after hostOps8 W)))) main_v90 : FVec F S256x1536 .f32)
      = kX2 emb (W main_arg1) u := by
  refine l2_x _ emb _ u ?_ ?_ ?_ <;> (try rw [l2_takeR]) <;>
    simp (disch := decide) only [after_of_writes_sub _ _ GenP.hostOps8_1_writes, after_of_writes_sub _ _ GenP.hostOps8_2_writes,
      after_of_writes_sub _ _ GenP.hostOps8_3_writes]
  · rw [l2_takeL, hemb, l2_colL]
  · rw [hemb, l2_colR _ _ ((after_of_writes_sub _ _ GenP.hostOps8_1_writes (by decide)).trans (l2_rows W))]
  · exact hu

theorem l2_B :
    (after hostOps8_4 (after hostOps8_3 (after hostOps8_2 (after hostOps8_1 (after hostOps8 W)))) main_v91 : FVec F S1x512 .f32) = kBiasH (W main_arg5) := by
  dsimp only [hostOps8_4]; after_results
  simp (disch := decide) only [after_of_writes_sub _ _ GenP.hostOps8_writes, after_of_writes_sub _ _ GenP.hostOps8_1_writes,
    after_of_writes_sub _ _ GenP.hostOps8_2_writes, after_of_writes_sub _ _ GenP.hostOps8_3_writes]
  rfl

theorem l1_rows : (after hostOps9 W main_v93 : IVec S128x2 32) = kRows1 (W main_arg1) := by
  dsimp only [hostOps9]; after_results; rfl

theorem l1_colL : (after hostOps9 W main_v95 : IVec S128 32) = kColL1 (W main_arg1) := by
  dsimp only [hostOps9]; after_results; rfl

set_option maxHeartbeats 4000000 in
theorem l1_takeL : (after hostOps9_1 W main_v96 : FVec F S128x512 .f32) = kTake1 (W main_v92) (W main_v95) := by
  dsimp only [hostOps9_1]; after_results_simp
  simp only [StableHlo.TRef.ofBuf, StableHlo.TRef.toBuf, cast_eq]
  rfl

theorem l1_colR (ch : IVec S65472x2 32) (h : (W main_v93 : IVec S128x2 32) = kRows1 ch) :
    (after hostOps9_2 W main_v98 : IVec S128 32) = kColR1 ch := by
  dsimp only [hostOps9_2]; after_results; rw [h]; rfl

set_option maxHeartbeats 4000000 in
theorem l1_takeR : (after hostOps9_3 W main_v99 : FVec F S128x512 .f32) = kTake1 (W main_v92) (W main_v98) := by
  dsimp only [hostOps9_3]; after_results_simp
  simp only [StableHlo.TRef.ofBuf, StableHlo.TRef.toBuf, cast_eq]
  rfl

/-- The level's input rows are the two children's embeddings beside the nodes' own features. -/
theorem l1_x (emb : FVec F S256x512 .f32) (ch : IVec S65472x2 32) (u : FVec F S131008x512 .f32)
    (hL : (W main_v96 : FVec F S128x512 .f32) = kTake1 emb (kColL1 ch))
    (hR : (W main_v99 : FVec F S128x512 .f32) = kTake1 emb (kColR1 ch))
    (hu : (W main_v3 : FVec F S131008x512 .f32) = u) :
    (after hostOps9_4 W main_v101 : FVec F S128x1536 .f32) = kX1 emb ch u := by
  unfold kX1; rw [← hL, ← hR, ← hu]; dsimp only [hostOps9_4]; after_results3; rfl

/-- Each later stretch reads what an earlier one left: a reference a stretch does not write keeps its contents across it. -/
theorem l1_X (emb : FVec F S256x512 .f32) (u : FVec F S131008x512 .f32)
    (hemb : (after hostOps9 W main_v92 : FVec F S256x512 .f32) = emb) (hu : (after hostOps9 W main_v3 : FVec F S131008x512 .f32) = u) :
    (after hostOps9_4 (after hostOps9_3 (after hostOps9_2 (after hostOps9_1 (after hostOps9 W)))) main_v101 : FVec F S128x1536 .f32)
      = kX1 emb (W main_arg1) u := by
  refine l1_x _ emb _ u ?_ ?_ ?_ <;> (try rw [l1_takeR]) <;>
    simp (disch := decide) only [after_of_writes_sub _ _ GenP.hostOps9_1_writes, after_of_writes_sub _ _ GenP.hostOps9_2_writes,
      after_of_writes_sub _ _ GenP.hostOps9_3_writes]
  · rw [l1_takeL, hemb, l1_colL]
  · rw [hemb, l1_colR _ _ ((after_of_writes_sub _ _ GenP.hostOps9_1_writes (by decide)).trans (l1_rows W))]
  · exact hu

theorem l1_B :
    (after hostOps9_4 (after hostOps9_3 (after hostOps9_2 (after hostOps9_1 (after hostOps9 W)))) main_v102 : FVec F S1x512 .f32) = kBiasH (W main_arg5) := by
  dsimp only [hostOps9_4]; after_results
  simp (disch := decide) only [after_of_writes_sub _ _ GenP.hostOps9_writes, after_of_writes_sub _ _ GenP.hostOps9_1_writes,
    after_of_writes_sub _ _ GenP.hostOps9_2_writes, after_of_writes_sub _ _ GenP.hostOps9_3_writes]
  rfl

theorem l0_rows : (after hostOps10 W main_v104 : IVec S64x2 32) = kRows0 (W main_arg1) := by
  dsimp only [hostOps10]; after_results; rfl

theorem l0_colL : (after hostOps10 W main_v106 : IVec S64 32) = kColL0 (W main_arg1) := by
  dsimp only [hostOps10]; after_results; rfl

set_option maxHeartbeats 4000000 in
theorem l0_takeL : (after hostOps10_1 W main_v107 : FVec F S64x512 .f32) = kTake0 (W main_v103) (W main_v106) := by
  dsimp only [hostOps10_1]; after_results_simp
  simp only [StableHlo.TRef.ofBuf, StableHlo.TRef.toBuf, cast_eq]
  rfl

theorem l0_colR (ch : IVec S65472x2 32) (h : (W main_v104 : IVec S64x2 32) = kRows0 ch) :
    (after hostOps10_2 W main_v109 : IVec S64 32) = kColR0 ch := by
  dsimp only [hostOps10_2]; after_results; rw [h]; rfl

set_option maxHeartbeats 4000000 in
theorem l0_takeR : (after hostOps10_3 W main_v110 : FVec F S64x512 .f32) = kTake0 (W main_v103) (W main_v109) := by
  dsimp only [hostOps10_3]; after_results_simp
  simp only [StableHlo.TRef.ofBuf, StableHlo.TRef.toBuf, cast_eq]
  rfl

/-- The level's input rows are the two children's embeddings beside the nodes' own features. -/
theorem l0_x (emb : FVec F S128x512 .f32) (ch : IVec S65472x2 32) (u : FVec F S131008x512 .f32)
    (hL : (W main_v107 : FVec F S64x512 .f32) = kTake0 emb (kColL0 ch))
    (hR : (W main_v110 : FVec F S64x512 .f32) = kTake0 emb (kColR0 ch))
    (hu : (W main_v3 : FVec F S131008x512 .f32) = u) :
    (after hostOps10_4 W main_v112 : FVec F S64x1536 .f32) = kX0 emb ch u := by
  unfold kX0; rw [← hL, ← hR, ← hu]; dsimp only [hostOps10_4]; after_results3; rfl

/-- Each later stretch reads what an earlier one left: a reference a stretch does not write keeps its contents across it. -/
theorem l0_X (emb : FVec F S128x512 .f32) (u : FVec F S131008x512 .f32)
    (hemb : (after hostOps10 W main_v103 : FVec F S128x512 .f32) = emb) (hu : (after hostOps10 W main_v3 : FVec F S131008x512 .f32) = u) :
    (after hostOps10_4 (after hostOps10_3 (after hostOps10_2 (after hostOps10_1 (after hostOps10 W)))) main_v112 : FVec F S64x1536 .f32)
      = kX0 emb (W main_arg1) u := by
  refine l0_x _ emb _ u ?_ ?_ ?_ <;> (try rw [l0_takeR]) <;>
    simp (disch := decide) only [after_of_writes_sub _ _ GenP.hostOps10_1_writes, after_of_writes_sub _ _ GenP.hostOps10_2_writes,
      after_of_writes_sub _ _ GenP.hostOps10_3_writes]
  · rw [l0_takeL, hemb, l0_colL]
  · rw [hemb, l0_colR _ _ ((after_of_writes_sub _ _ GenP.hostOps10_1_writes (by decide)).trans (l0_rows W))]
  · exact hu

theorem l0_B :
    (after hostOps10_4 (after hostOps10_3 (after hostOps10_2 (after hostOps10_1 (after hostOps10 W)))) main_v113 : FVec F S1x512 .f32) = kBiasH (W main_arg5) := by
  dsimp only [hostOps10_4]; after_results
  simp (disch := decide) only [after_of_writes_sub _ _ GenP.hostOps10_writes, after_of_writes_sub _ _ GenP.hostOps10_1_writes,
    after_of_writes_sub _ _ GenP.hostOps10_2_writes, after_of_writes_sub _ _ GenP.hostOps10_3_writes]
  rfl

end Cert.KernelIdeal.Hand

end
-- ==== Proof.KIIn.lean ====
import proofs.«407834_j69114613728754_1_alg».proof.Proof.KIChain
import proofs.«407834_j69114613728754_1_alg».proof.Proof.KIRead

noncomputable section

namespace Cert.KernelIdeal.Hand

open Cert.KernelIdeal Cert.KernelIdeal.Gen Cert.KernelIdeal.GenP Cert.KernelIdeal.KValue
open Idealize.ShloMosaic Idealize.ShloMosaic.TcCoe
open Idealize.SL Idealize.SL.Sem
open Idealize.ShloMosaic.StableHlo (after)

variable {F : FTy → Type} [FloatOps F]

/-- References a host stretch does not write keep what they held, -/
theorem keepA {ops : List (HloOp τ sig (Elt F))} {W L : List (Ref sig .tc)} {V V₀ : Valuation τ sig (Elt F)}
    (hW : ops.Forall fun op => op.writes ⊆ (W.map (Proc.devRef (τ := τ) .tc)).toFinset) (hL : ∀ r ∈ L, r ∉ W)
    (h : ∀ r ∈ L, V r = V₀ r) : ∀ r ∈ L, after ops V r = V₀ r :=
  fun r hr => (StableHlo.after_of_writes_sub ops V hW (hL r hr)).trans (h r hr)
/-- and so do references other than a region's output array. -/
theorem keepU {L : List (Ref sig .tc)} {V V₀ : Valuation τ sig (Elt F)} {r' : Ref sig .tc} {y} (hL : ∀ r ∈ L, r ≠ r')
    (h : ∀ r ∈ L, V r = V₀ r) : ∀ r ∈ L, Function.update V r' y r = V₀ r :=
  fun r hr => (Function.update_of_ne (StableHlo.devRef_ne_of_ne (hL r hr)) _ _).trans (h r hr)

variable (m : (ℓ : Loc nD τ sig) → Buf (Elt F) ℓ)

abbrev args : List (Ref sig .tc) := [main_arg1, main_arg2, main_arg3, main_arg4, main_arg5]
abbrev kept : List (Ref sig .tc) := main_v3 :: args

/-- No item writes the program's arguments: up to region 1 they hold their launch contents. -/
theorem args2 (c : Dev nD) : ∀ r ∈ args, U2 m c r = U0 m c r :=
  keepA hostOps0_1_writes (by decide) <| keepA hostOps0_writes (by decide) fun _ _ => rfl
theorem args3 (c : Dev nD) : ∀ r ∈ args, U3 m c r = U0 m c r := keepA hostOps0_2_writes (by decide) (args2 m c)
theorem args4 (c : Dev nD) : ∀ r ∈ args, U4 m c r = U0 m c r := keepU (by decide) (args3 m c)
theorem args9 (c : Dev nD) : ∀ r ∈ args, U9 m c r = U0 m c r :=
  keepA hostOps1_4_writes (by decide) <| keepA hostOps1_3_writes (by decide) <| keepA hostOps1_2_writes (by decide) <|
    keepA hostOps1_1_writes (by decide) <| keepA hostOps1_writes (by decide) (args4 m c)

theorem out0 (c : Dev nD) : U4 m c main_v2 = X0 m c := Function.update_self ..
/-- The node features and the leaves' embedding, sliced from region 0's output; -/
theorem u5 (c : Dev nD) : U5 m c main_v3 = kU (X0 m c) := by unfold U5; rw [l9_u (U4 m c), out0]
theorem emb5 (c : Dev nD) : U5 m c main_v4 = kEmb9 (kU (X0 m c)) := by unfold U5; rw [l9_emb (U4 m c), out0]
/-- no later item writes the node features. -/
theorem u9 (c : Dev nD) : U9 m c main_v3 = kU (X0 m c) :=
  (keepA (L := [main_v3]) hostOps1_4_writes (by decide) (keepA hostOps1_3_writes (by decide) (keepA hostOps1_2_writes (by decide)
    (keepA hostOps1_1_writes (by decide) fun _ _ => rfl))) _ (.head _)).trans (u5 m c)

theorem atW2 (c : Dev nD) : ∀ r ∈ kept, U10 m c r = U9 m c r := keepU (by decide) fun _ _ => rfl
theorem same2 (c : Dev nD) : ∀ r ∈ kept, U15 m c r = U9 m c r :=
  keepA hostOps2_4_writes (by decide) <| keepA hostOps2_3_writes (by decide) <| keepA hostOps2_2_writes (by decide) <|
    keepA hostOps2_1_writes (by decide) <| keepA hostOps2_writes (by decide) (atW2 m c)
theorem atW3 (c : Dev nD) : ∀ r ∈ kept, U16 m c r = U9 m c r := keepU (by decide) (same2 m c)
theorem same3 (c : Dev nD) : ∀ r ∈ kept, U21 m c r = U9 m c r :=
  keepA hostOps3_4_writes (by decide) <| keepA hostOps3_3_writes (by decide) <| keepA hostOps3_2_writes (by decide) <|
    keepA hostOps3_1_writes (by decide) <| keepA hostOps3_writes (by decide) (atW3 m c)
theorem atW4 (c : Dev nD) : ∀ r ∈ kept, U22 m c r = U9 m c r := keepU (by decide) (same3 m c)
theorem same4 (c : Dev nD) : ∀ r ∈ kept, U27 m c r = U9 m c r :=
  keepA hostOps4_4_writes (by decide) <| keepA hostOps4_3_writes (by decide) <| keepA hostOps4_2_writes (by decide) <|
    keepA hostOps4_1_writes (by decide) <| keepA hostOps4_writes (by decide) (atW4 m c)
theorem atW5 (c : Dev nD) : ∀ r ∈ kept, U28 m c r = U9 m c r := keepU (by decide) (same4 m c)
theorem same5 (c : Dev nD) : ∀ r ∈ kept, U33 m c r = U9 m c r :=
  keepA hostOps5_4_writes (by decide) <| keepA hostOps5_3_writes (by decide) <| keepA hostOps5_2_writes (by decide) <|
    keepA hostOps5_1_writes (by decide) <| keepA hostOps5_writes (by decide) (atW5 m c)
theorem atW6 (c : Dev nD) : ∀ r ∈ kept, U34 m c r = U9 m c r := keepU (by decide) (same5 m c)
theorem same6 (c : Dev nD) : ∀ r ∈ kept, U39 m c r = U9 m c r :=
  keepA hostOps6_4_writes (by decide) <| keepA hostOps6_3_writes (by decide) <| keepA hostOps6_2_writes (by decide) <|
    keepA hostOps6_1_writes (by decide) <| keepA hostOps6_writes (by decide) (atW6 m c)
theorem atW7 (c : Dev nD) : ∀ r ∈ kept, U40 m c r = U9 m c r := keepU (by decide) (same6 m c)
theorem same7 (c : Dev nD) : ∀ r ∈ kept, U45 m c r = U9 m c r :=
  keepA hostOps7_4_writes (by decide) <| keepA hostOps7_3_writes (by decide) <| keepA hostOps7_2_writes (by decide) <|
    keepA hostOps7_1_writes (by decide) <| keepA hostOps7_writes (by decide) (atW7 m c)
theorem atW8 (c : Dev nD) : ∀ r ∈ kept, U46 m c r = U9 m c r := keepU (by decide) (same7 m c)
theorem same8 (c : Dev nD) : ∀ r ∈ kept, U51 m c r = U9 m c r :=
  keepA hostOps8_4_writes (by decide) <| keepA hostOps8_3_writes (by decide) <| keepA hostOps8_2_writes (by decide) <|
    keepA hostOps8_1_writes (by decide) <| keepA hostOps8_writes (by decide) (atW8 m c)
theorem atW9 (c : Dev nD) : ∀ r ∈ kept, U52 m c r = U9 m c r := keepU (by decide) (same8 m c)
theorem same9 (c : Dev nD) : ∀ r ∈ kept, U57 m c r = U9 m c r :=
  keepA hostOps9_4_writes (by decide) <| keepA hostOps9_3_writes (by decide) <| keepA hostOps9_2_writes (by decide) <|
    keepA hostOps9_1_writes (by decide) <| keepA hostOps9_writes (by decide) (atW9 m c)
theorem atW10 (c : Dev nD) : ∀ r ∈ kept, U58 m c r = U9 m c r := keepU (by decide) (same9 m c)
theorem same10 (c : Dev nD) : ∀ r ∈ kept, U63 m c r = U9 m c r :=
  keepA hostOps10_4_writes (by decide) <| keepA hostOps10_3_writes (by decide) <| keepA hostOps10_2_writes (by decide) <|
    keepA hostOps10_1_writes (by decide) <| keepA hostOps10_writes (by decide) (atW10 m c)

theorem in0_x (c : Dev nD) : U3 m c main_v0 = kPad (m ((c : Thread nD τ).loc main_arg0)) := by
  rw [show U3 m c main_v0 = U2 m c main_v0 from StableHlo.after_of_writes_sub hostOps0_2 _ hostOps0_2_writes (by decide)]
  unfold U2 U1; rw [pad_v0 (U0 m c)]; rfl
theorem in0_w (c : Dev nD) : U3 m c main_arg2 = m ((c : Thread nD τ).loc main_arg2) := args3 m c _ (by decide)
theorem in0_b (c : Dev nD) : U3 m c main_v1 = kBiasU (m ((c : Thread nD τ).loc main_arg3)) := by
  unfold U3; rw [bias_v1 (U2 m c), args2 m c main_arg3 (by decide)]; rfl

theorem in1_x (c : Dev nD) : U9 m c main_v13 = kX9 (kEmb9 (kU (X0 m c))) (m ((c : Thread nD τ).loc main_arg1)) (kU (X0 m c)) := by
  have hemb := emb5 m c
  have hu := u5 m c
  unfold U9 U8 U7 U6 U5 at *
  rw [l9_X (U4 m c) _ _ hemb hu, args4 m c main_arg1 (by decide)]; rfl
theorem in1_w (c : Dev nD) : U9 m c main_arg4 = m ((c : Thread nD τ).loc main_arg4) := args9 m c _ (by decide)
theorem in1_b (c : Dev nD) : U9 m c main_v14 = kBiasH (m ((c : Thread nD τ).loc main_arg5)) := by
  unfold U9 U8 U7 U6 U5; rw [l9_B (U4 m c), args4 m c main_arg5 (by decide)]; rfl

theorem in2_x (c : Dev nD) : U15 m c main_v24 = kX8 (X1 m c) (m ((c : Thread nD τ).loc main_arg1)) (kU (X0 m c)) := by
  have hemb : U11 m c main_v15 = X1 m c :=
    (StableHlo.after_of_writes_sub hostOps2 _ hostOps2_writes (by decide)).trans (Function.update_self ..)
  have hu : U11 m c main_v3 = kU (X0 m c) := (keepA hostOps2_writes (by decide) (atW2 m c) _ (by decide)).trans (u9 m c)
  unfold U15 U14 U13 U12 U11 at *
  rw [l8_X (U10 m c) _ _ hemb hu, atW2 m c main_arg1 (by decide), args9 m c main_arg1 (by decide)]; rfl
theorem in2_w (c : Dev nD) : U15 m c main_arg4 = m ((c : Thread nD τ).loc main_arg4) :=
  (same2 m c main_arg4 (by decide)).trans (args9 m c _ (by decide))
theorem in2_b (c : Dev nD) : U15 m c main_v25 = kBiasH (m ((c : Thread nD τ).loc main_arg5)) := by
  unfold U15 U14 U13 U12 U11
  rw [l8_B (U10 m c), atW2 m c main_arg5 (by decide), args9 m c main_arg5 (by decide)]; rfl

theorem in3_x (c : Dev nD) : U21 m c main_v35 = kX7 (X2 m c) (m ((c : Thread nD τ).loc main_arg1)) (kU (X0 m c)) := by
  have hemb : U17 m c main_v26 = X2 m c :=
    (StableHlo.after_of_writes_sub hostOps3 _ hostOps3_writes (by decide)).trans (Function.update_self ..)
  have hu : U17 m c main_v3 = kU (X0 m c) := (keepA hostOps3_writes (by decide) (atW3 m c) _ (by decide)).trans (u9 m c)
  unfold U21 U20 U19 U18 U17 at *
  rw [l7_X (U16 m c) _ _ hemb hu, atW3 m c main_arg1 (by decide), args9 m c main_arg1 (by decide)]; rfl
theorem in3_w (c : Dev nD) : U21 m c main_arg4 = m ((c : Thread nD τ).loc main_arg4) :=
  (same3 m c main_arg4 (by decide)).trans (args9 m c _ (by decide))
theorem in3_b (c : Dev nD) : U21 m c main_v36 = kBiasH (m ((c : Thread nD τ).loc main_arg5)) := by
  unfold U21 U20 U19 U18 U17
  rw [l7_B (U16 m c), atW3 m c main_arg5 (by decide), args9 m c main_arg5 (by decide)]; rfl

theorem in4_x (c : Dev nD) : U27 m c main_v46 = kX6 (X3 m c) (m ((c : Thread nD τ).loc main_arg1)) (kU (X0 m c)) := by
  have hemb : U23 m c main_v37 = X3 m c :=
    (StableHlo.after_of_writes_sub hostOps4 _ hostOps4_writes (by decide)).trans (Function.update_self ..)
  have hu : U23 m c main_v3 = kU (X0 m c) := (keepA hostOps4_writes (by decide) (atW4 m c) _ (by decide)).trans (u9 m c)
  unfold U27 U26 U25 U24 U23 at *
  rw [l6_X (U22 m c) _ _ hemb hu, atW4 m c main_arg1 (by decide), args9 m c main_arg1 (by decide)]; rfl
theorem in4_w (c : Dev nD) : U27 m c main_arg4 = m ((c : Thread nD τ).loc main_arg4) :=
  (same4 m c main_arg4 (by decide)).trans (args9 m c _ (by decide))
theorem in4_b (c : Dev nD) : U27 m c main_v47 = kBiasH (m ((c : Thread nD τ).loc main_arg5)) := by
  unfold U27 U26 U25 U24 U23
  rw [l6_B (U22 m c), atW4 m c main_arg5 (by decide), args9 m c main_arg5 (by decide)]; rfl

theorem in5_x (c : Dev nD) : U33 m c main_v57 = kX5 (X4 m c) (m ((c : Thread nD τ).loc main_arg1)) (kU (X0 m c)) := by
  have hemb : U29 m c main_v48 = X4 m c :=
    (StableHlo.after_of_writes_sub hostOps5 _ hostOps5_writes (by decide)).trans (Function.update_self ..)
  have hu : U29 m c main_v3 = kU (X0 m c) := (keepA hostOps5_writes (by decide) (atW5 m c) _ (by decide)).trans (u9 m c)
  unfold U33 U32 U31 U30 U29 at *
  rw [l5_X (U28 m c) _ _ hemb hu, atW5 m c main_arg1 (by decide), args9 m c main_arg1 (by decide)]; rfl
theorem in5_w (c : Dev nD) : U33 m c main_arg4 = m ((c : Thread nD τ).loc main_arg4) :=
  (same5 m c main_arg4 (by decide)).trans (args9 m c _ (by decide))
theorem in5_b (c : Dev nD) : U33 m c main_v58 = kBiasH (m ((c : Thread nD τ).loc main_arg5)) := by
  unfold U33 U32 U31 U30 U29
  rw [l5_B (U28 m c), atW5 m c main_arg5 (by decide), args9 m c main_arg5 (by decide)]; rfl

theorem in6_x (c : Dev nD) : U39 m c main_v68 = kX4 (X5 m c) (m ((c : Thread nD τ).loc main_arg1)) (kU (X0 m c)) := by
  have hemb : U35 m c main_v59 = X5 m c :=
    (StableHlo.after_of_writes_sub hostOps6 _ hostOps6_writes (by decide)).trans (Function.update_self ..)
  have hu : U35 m c main_v3 = kU (X0 m c) := (keepA hostOps6_writes (by decide) (atW6 m c) _ (by decide)).trans (u9 m c)
  unfold U39 U38 U37 U36 U35 at *
  rw [l4_X (U34 m c) _ _ hemb hu, atW6 m c main_arg1 (by decide), args9 m c main_arg1 (by decide)]; rfl
theorem in6_w (c : Dev nD) : U39 m c main_arg4 = m ((c : Thread nD τ).loc main_arg4) :=
  (same6 m c main_arg4 (by decide)).trans (args9 m c _ (by decide))
theorem in6_b (c : Dev nD) : U39 m c main_v69 = kBiasH (m ((c : Thread nD τ).loc main_arg5)) := by
  unfold U39 U38 U37 U36 U35
  rw [l4_B (U34 m c), atW6 m c main_arg5 (by decide), args9 m c main_arg5 (by decide)]; rfl

theorem in7_x (c : Dev nD) : U45 m c main_v79 = kX3 (X6 m c) (m ((c : Thread nD τ).loc main_arg1)) (kU (X0 m c)) := by
  have hemb : U41 m c main_v70 = X6 m c :=
    (StableHlo.after_of_writes_sub hostOps7 _ hostOps7_writes (by decide)).trans (Function.update_self ..)
  have hu : U41 m c main_v3 = kU (X0 m c) := (keepA hostOps7_writes (by decide) (atW7 m c) _ (by decide)).trans (u9 m c)
  unfold U45 U44 U43 U42 U41 at *
  rw [l3_X (U40 m c) _ _ hemb hu, atW7 m c main_arg1 (by decide), args9 m c main_arg1 (by decide)]; rfl
theorem in7_w (c : Dev nD) : U45 m c main_arg4 = m ((c : Thread nD τ).loc main_arg4) :=
  (same7 m c main_arg4 (by decide)).trans (args9 m c _ (by decide))
theorem in7_b (c : Dev nD) : U45 m c main_v80 = kBiasH (m ((c : Thread nD τ).loc main_arg5)) := by
  unfold U45 U44 U43 U42 U41
  rw [l3_B (U40 m c), atW7 m c main_arg5 (by decide), args9 m c main_arg5 (by decide)]; rfl

theorem in8_x (c : Dev nD) : U51 m c main_v90 = kX2 (X7 m c) (m ((c : Thread nD τ).loc main_arg1)) (kU (X0 m c)) := by
  have hemb : U47 m c main_v81 = X7 m c :=
    (StableHlo.after_of_writes_sub hostOps8 _ hostOps8_writes (by decide)).trans (Function.update_self ..)
  have hu : U47 m c main_v3 = kU (X0 m c) := (keepA hostOps8_writes (by decide) (atW8 m c) _ (by decide)).trans (u9 m c)
  unfold U51 U50 U49 U48 U47 at *
  rw [l2_X (U46 m c) _ _ hemb hu, atW8 m c main_arg1 (by decide), args9 m c main_arg1 (by decide)]; rfl
theorem in8_w (c : Dev nD) : U51 m c main_arg4 = m ((c : Thread nD τ).loc main_arg4) :=
  (same8 m c main_arg4 (by decide)).trans (args9 m c _ (by decide))
theorem in8_b (c : Dev nD) : U51 m c main_v91 = kBiasH (m ((c : Thread nD τ).loc main_arg5)) := by
  unfold U51 U50 U49 U48 U47
  rw [l2_B (U46 m c), atW8 m c main_arg5 (by decide), args9 m c main_arg5 (by decide)]; rfl

theorem in9_x (c : Dev nD) : U57 m c main_v101 = kX1 (X8 m c) (m ((c : Thread nD τ).loc main_arg1)) (kU (X0 m c)) := by
  have hemb : U53 m c main_v92 = X8 m c :=
    (StableHlo.after_of_writes_sub hostOps9 _ hostOps9_writes (by decide)).trans (Function.update_self ..)
  have hu : U53 m c main_v3 = kU (X0 m c) := (keepA hostOps9_writes (by decide) (atW9 m c) _ (by decide)).trans (u9 m c)
  unfold U57 U56 U55 U54 U53 at *
  rw [l1_X (U52 m c) _ _ hemb hu, atW9 m c main_arg1 (by decide), args9 m c main_arg1 (by decide)]; rfl
theorem in9_w (c : Dev nD) : U57 m c main_arg4 = m ((c : Thread nD τ).loc main_arg4) :=
  (same9 m c main_arg4 (by decide)).trans (args9 m c _ (by decide))
theorem in9_b (c : Dev nD) : U57 m c main_v102 = kBiasH (m ((c : Thread nD τ).loc main_arg5)) := by
  unfold U57 U56 U55 U54 U53
  rw [l1_B (U52 m c), atW9 m c main_arg5 (by decide), args9 m c main_arg5 (by decide)]; rfl

theorem in10_x (c : Dev nD) : U63 m c main_v112 = kX0 (X9 m c) (m ((c : Thread nD τ).loc main_arg1)) (kU (X0 m c)) := by
  have hemb : U59 m c main_v103 = X9 m c :=
    (StableHlo.after_of_writes_sub hostOps10 _ hostOps10_writes (by decide)).trans (Function.update_self ..)
  have hu : U59 m c main_v3 = kU (X0 m c) := (keepA hostOps10_writes (by decide) (atW10 m c) _ (by decide)).trans (u9 m c)
  unfold U63 U62 U61 U60 U59 at *
  rw [l0_X (U58 m c) _ _ hemb hu, atW10 m c main_arg1 (by decide), args9 m c main_arg1 (by decide)]; rfl
theorem in10_w (c : Dev nD) : U63 m c main_arg4 = m ((c : Thread nD τ).loc main_arg4) :=
  (same10 m c main_arg4 (by decide)).trans (args9 m c _ (by decide))
theorem in10_b (c : Dev nD) : U63 m c main_v113 = kBiasH (m ((c : Thread nD τ).loc main_arg5)) := by
  unfold U63 U62 U61 U60 U59
  rw [l0_B (U58 m c), atW10 m c main_arg5 (by decide), args9 m c main_arg5 (by decide)]; rfl

end Cert.KernelIdeal.Hand

end
-- ==== Proof.KPayIdx.lean ====
import proofs.«407834_j69114613728754_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.KValue

open Cert.KernelIdeal Cert.KernelIdeal.Gen
open Idealize.ShloMosaic Idealize.SL.Sem Idealize.ShloMosaic.ValueIdx
open scoped BigOperators

/-- A matrix product into the zero accumulator is, at row `p`, column `q`, the plain sum over the one contracted coordinate. -/
theorem matmul_ix2 {m n l : ℕ} (d : DotDims ⟨2, ![m, l]⟩ ⟨2, ![l, n]⟩ ⟨2, ![m, n]⟩) (hr : d.contr.rank = 1)
    (hs : d.contr.size ⟨0, by omega⟩ = l) (hl : d.lhsContracting = [(1 : Fin 2)]) (hc : d.rhsContracting = [(0 : Fin 2)])
    (h0 : ∀ i k, (d.lhsIdx i k (0 : Fin 2)).val = (i 0).val) (h1 : ∀ i k, (d.rhsIdx i k (1 : Fin 2)).val = (i 1).val)
    (a : FVec Ideal ⟨2, ![m, l]⟩ .bf16) (c : FVec Ideal ⟨2, ![l, n]⟩ .bf16) (p : Fin m) (q : Fin n) :
    matmul d none a c (constant (F := Ideal) ⟨2, ![m, n]⟩ .f32 0x00000000#32) (ix2 p q) = ∑ k : Fin l, a (ix2 p k) * c (ix2 k q) := by
  simp only [matmul]
  rw [Ideal.matmul_constant_zero_apply, ← Equiv.sum_comp (contrEquiv1 d l hr hs).symm]
  refine Finset.sum_congr rfl fun k _ => ?_
  have hk := contrEquiv1_symm_val d l hr hs k
  rw [Shape.idx_ext₂ (y := ix2 p k) (h0 _ _) ((d.lhsIdx_val_of_single hl _ _).trans hk),
    Shape.idx_ext₂ (y := ix2 k q) ((d.rhsIdx_val_of_single hc _ _).trans hk) (h1 _ _)]

/-- Region 0's body at row `p`, column `q`: a change of float format is the identity at the extended reals, and the maximum against the zero splat is `max · 0`. -/
theorem k0_pay1_apply (x : Vec Ideal S2048x256 .f32) (w : Vec Ideal S512x256 .f32) (b : Vec Ideal S1x512 .f32)
    (p : Fin 2048) (q : Fin 512) :
    k0_pay1 (F := Ideal) x w b (ix2 p q)
      = max ((∑ k : Fin 256, x (ix2 p k) * w (ix2 q k)) + b (ix2 0 q)) 0 := by
  unfold k0_pay1
  simp only [shapeCast_self]
  rw [maximumf_apply, addf_apply, broadcast_apply, broadcastTo_1b_ab_apply,
    matmul_ix2 dot_S2048x256_S256x512_S2048x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 256, transpose S256x512 [1, 0] (truncf (F := Ideal) .bf16 w bitsLt_bf16_f32) transposes_S512x256_p1_0_S256x512 (ix2 k q)
      = w (ix2 q k) := fun k => transpose_ix2_apply _ _ k q
  simp only [hw]
  exact congrArg (max _) Ideal.ofBits_zero_f32

/-- Region 1's body at row `p`, column `q`: a change of float format is the identity at the extended reals, and the maximum against the zero splat is `max · 0`. -/
theorem k1_pay1_apply (x : Vec Ideal S1024x1536 .f32) (w : Vec Ideal S512x1536 .f32) (b : Vec Ideal S1x512 .f32)
    (p : Fin 1024) (q : Fin 512) :
    k1_pay1 (F := Ideal) x w b (ix2 p q)
      = max ((∑ k : Fin 1536, x (ix2 p k) * w (ix2 q k)) + b (ix2 0 q)) 0 := by
  unfold k1_pay1
  simp only [shapeCast_self]
  rw [maximumf_apply, addf_apply, broadcast_apply, broadcastTo_1b_ab_apply,
    matmul_ix2 dot_S1024x1536_S1536x512_S1024x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 1536, transpose S1536x512 [1, 0] (truncf (F := Ideal) .bf16 w bitsLt_bf16_f32) transposes_S512x1536_p1_0_S1536x512 (ix2 k q)
      = w (ix2 q k) := fun k => transpose_ix2_apply _ _ k q
  simp only [hw]
  exact congrArg (max _) Ideal.ofBits_zero_f32

theorem k2_pay1_apply (x : Vec Ideal S1024x1536 .f32) (w : Vec Ideal S512x1536 .f32) (b : Vec Ideal S1x512 .f32)
    (p : Fin 1024) (q : Fin 512) :
    k2_pay1 (F := Ideal) x w b (ix2 p q)
      = max ((∑ k : Fin 1536, x (ix2 p k) * w (ix2 q k)) + b (ix2 0 q)) 0 :=
  k1_pay1_apply x w b p q

theorem k3_pay1_apply (x : Vec Ideal S1024x1536 .f32) (w : Vec Ideal S512x1536 .f32) (b : Vec Ideal S1x512 .f32)
    (p : Fin 1024) (q : Fin 512) :
    k3_pay1 (F := Ideal) x w b (ix2 p q)
      = max ((∑ k : Fin 1536, x (ix2 p k) * w (ix2 q k)) + b (ix2 0 q)) 0 :=
  k1_pay1_apply x w b p q

theorem k4_pay1_apply (x : Vec Ideal S1024x1536 .f32) (w : Vec Ideal S512x1536 .f32) (b : Vec Ideal S1x512 .f32)
    (p : Fin 1024) (q : Fin 512) :
    k4_pay1 (F := Ideal) x w b (ix2 p q)
      = max ((∑ k : Fin 1536, x (ix2 p k) * w (ix2 q k)) + b (ix2 0 q)) 0 :=
  k1_pay1_apply x w b p q

theorem k5_pay1_apply (x : Vec Ideal S1024x1536 .f32) (w : Vec Ideal S512x1536 .f32) (b : Vec Ideal S1x512 .f32)
    (p : Fin 1024) (q : Fin 512) :
    k5_pay1 (F := Ideal) x w b (ix2 p q)
      = max ((∑ k : Fin 1536, x (ix2 p k) * w (ix2 q k)) + b (ix2 0 q)) 0 :=
  k1_pay1_apply x w b p q

theorem k6_pay1_apply (x : Vec Ideal S1024x1536 .f32) (w : Vec Ideal S512x1536 .f32) (b : Vec Ideal S1x512 .f32)
    (p : Fin 1024) (q : Fin 512) :
    k6_pay1 (F := Ideal) x w b (ix2 p q)
      = max ((∑ k : Fin 1536, x (ix2 p k) * w (ix2 q k)) + b (ix2 0 q)) 0 :=
  k1_pay1_apply x w b p q

/-- Region 7's body at row `p`, column `q`: a change of float format is the identity at the extended reals, and the maximum against the zero splat is `max · 0`. -/
theorem k7_pay1_apply (x : Vec Ideal S512x1536 .f32) (w : Vec Ideal S512x1536 .f32) (b : Vec Ideal S1x512 .f32)
    (p : Fin 512) (q : Fin 512) :
    k7_pay1 (F := Ideal) x w b (ix2 p q)
      = max ((∑ k : Fin 1536, x (ix2 p k) * w (ix2 q k)) + b (ix2 0 q)) 0 := by
  unfold k7_pay1
  simp only [shapeCast_self]
  rw [maximumf_apply, addf_apply, broadcast_apply, broadcastTo_1b_ab_apply,
    matmul_ix2 dot_S512x1536_S1536x512_S512x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 1536, transpose S1536x512 [1, 0] (truncf (F := Ideal) .bf16 w bitsLt_bf16_f32) transposes_S512x1536_p1_0_S1536x512 (ix2 k q)
      = w (ix2 q k) := fun k => transpose_ix2_apply _ _ k q
  simp only [hw]
  exact congrArg (max _) Ideal.ofBits_zero_f32

/-- Region 8's body at row `p`, column `q`: a change of float format is the identity at the extended reals, and the maximum against the zero splat is `max · 0`. -/
theorem k8_pay1_apply (x : Vec Ideal S256x1536 .f32) (w : Vec Ideal S512x1536 .f32) (b : Vec Ideal S1x512 .f32)
    (p : Fin 256) (q : Fin 512) :
    k8_pay1 (F := Ideal) x w b (ix2 p q)
      = max ((∑ k : Fin 1536, x (ix2 p k) * w (ix2 q k)) + b (ix2 0 q)) 0 := by
  unfold k8_pay1
  simp only [shapeCast_self]
  rw [maximumf_apply, addf_apply, broadcast_apply, broadcastTo_1b_ab_apply,
    matmul_ix2 dot_S256x1536_S1536x512_S256x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 1536, transpose S1536x512 [1, 0] (truncf (F := Ideal) .bf16 w bitsLt_bf16_f32) transposes_S512x1536_p1_0_S1536x512 (ix2 k q)
      = w (ix2 q k) := fun k => transpose_ix2_apply _ _ k q
  simp only [hw]
  exact congrArg (max _) Ideal.ofBits_zero_f32

/-- Region 9's body at row `p`, column `q`: a change of float format is the identity at the extended reals, and the maximum against the zero splat is `max · 0`. -/
theorem k9_pay1_apply (x : Vec Ideal S128x1536 .f32) (w : Vec Ideal S512x1536 .f32) (b : Vec Ideal S1x512 .f32)
    (p : Fin 128) (q : Fin 512) :
    k9_pay1 (F := Ideal) x w b (ix2 p q)
      = max ((∑ k : Fin 1536, x (ix2 p k) * w (ix2 q k)) + b (ix2 0 q)) 0 := by
  unfold k9_pay1
  simp only [shapeCast_self]
  rw [maximumf_apply, addf_apply, broadcast_apply, broadcastTo_1b_ab_apply,
    matmul_ix2 dot_S128x1536_S1536x512_S128x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 1536, transpose S1536x512 [1, 0] (truncf (F := Ideal) .bf16 w bitsLt_bf16_f32) transposes_S512x1536_p1_0_S1536x512 (ix2 k q)
      = w (ix2 q k) := fun k => transpose_ix2_apply _ _ k q
  simp only [hw]
  exact congrArg (max _) Ideal.ofBits_zero_f32

/-- Region 10's body at row `p`, column `q`: a change of float format is the identity at the extended reals, and the maximum against the zero splat is `max · 0`. -/
theorem k10_pay1_apply (x : Vec Ideal S64x1536 .f32) (w : Vec Ideal S512x1536 .f32) (b : Vec Ideal S1x512 .f32)
    (p : Fin 64) (q : Fin 512) :
    k10_pay1 (F := Ideal) x w b (ix2 p q)
      = max ((∑ k : Fin 1536, x (ix2 p k) * w (ix2 q k)) + b (ix2 0 q)) 0 := by
  unfold k10_pay1
  simp only [shapeCast_self]
  rw [maximumf_apply, addf_apply, broadcast_apply, broadcastTo_1b_ab_apply,
    matmul_ix2 dot_S64x1536_S1536x512_S64x512_1_0_0_1_n_n rfl rfl rfl rfl
      (fun _ _ => by unfold DotDims.lhsIdx; rw [dif_neg (by decide), dif_pos (by decide)]; rfl)
      (fun _ _ => by unfold DotDims.rhsIdx; rw [dif_neg (by decide), dif_pos (by decide)]; rfl)]
  have hw : ∀ k : Fin 1536, transpose S1536x512 [1, 0] (truncf (F := Ideal) .bf16 w bitsLt_bf16_f32) transposes_S512x1536_p1_0_S1536x512 (ix2 k q)
      = w (ix2 q k) := fun k => transpose_ix2_apply _ _ k q
  simp only [hw]
  exact congrArg (max _) Ideal.ofBits_zero_f32

end Cert.KernelIdeal.KValue
-- ==== Proof.KIVal0.lean ====
import proofs.«407834_j69114613728754_1_alg».proof.Proof.KIReg0
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr0 (c : Dev nD) : Vec Ideal S131072x256 .f32 := V c (Pipeline.arrRef spec0 0)
abbrev wArr0 (c : Dev nD) : Vec Ideal S512x256 .f32 := V c (Pipeline.arrRef spec0 1)
abbrev bArr0 (c : Dev nD) : Vec Ideal S1x512 .f32 := V c (Pipeline.arrRef spec0 2)

/-- The affine map of the three arrays followed by the positive part: row `r`, column `h` is `max (∑ k, x[r,k] · w[h,k] + b[0,h]) 0`. -/
def lin0 (c : Dev nD) : Vec Ideal S131072x512 .f32 :=
  fun i => max ((∑ k : Fin 256, xArr0 V c (ix2 (i 0) k) * wArr0 V c (ix2 (i 1) k)) + bArr0 V c (ix2 0 (i 1))) 0

theorem hz0 : (![0, 0] : Fin 2 → Nat) = fun _ => 0 := by decide

/-- The block indices over the grid: the row-blocked windows are at block `(t, 0)`, the weight and the bias at `(0, 0)`. -/
theorem idx_facts0 : ∀ t : Fin grid0.N, win0_0.index t = ![t.val, 0] ∧ win0_1.index t = ![0, 0]
    ∧ win0_2.index t = ![0, 0] ∧ win0_3.index t = ![t.val, 0] :=
  by decide +kernel

/-- What point `t` leaves is block `t` of `lin0`: a block's element sits in its array at block index × block size + its own coordinate. -/
theorem flushed0_eq (c : Dev nD) (t : Fin cfg0.N) :
    (dat0 V c).flushed 3 t = ((cfg0.win 3).blk t).view.read (Elt Ideal) (lin0 V c) := by
  obtain ⟨hx, hw, hb, ho⟩ := idx_facts0 t
  funext j
  obtain ⟨p, q, rfl⟩ : ∃ (p : Fin 2048) (q : Fin 512), j = ix2 p q := ⟨j 0, j 1, eq_ix2 j⟩
  show (dat0 V c).after 3 t (ix2 p q) = _
  have h0 := win0_3.rect_emb_val t (ix2 p q) (0 : Fin 2)
  have h1 := win0_3.rect_emb_val_of_index_zero t (1 : Fin 2) (congrFun ho 1) (ix2 p q)
  rw [after0_3, out0_3, View.canon_unit_zero hz0, View.ld_unit_zero hz0, View.ld_unit_zero hz0, View.ld_unit_zero hz0, KValue.k0_pay1_apply]
  refine congrArg (max · (0 : Elt Ideal .f32)) (congrArg₂ (· + ·) (Finset.sum_congr rfl fun k _ => congrArg₂ (· * ·) ?_ ?_) ?_)
  · exact congrArg (V c _) (Shape.idx_ext₂ ((win0_0.rect_emb_val t _ (0 : Fin 2)).trans (.trans (by rw [hx, ho]; rfl) h0.symm))
      (win0_0.rect_emb_val_of_index_zero t (1 : Fin 2) (congrFun hx 1) _))
  · exact congrArg (V c _) (Shape.idx_ext₂ ((win0_1.rect_emb_val_of_index_zero t (0 : Fin 2) (congrFun hw 0) _).trans h1.symm)
      (win0_1.rect_emb_val_of_index_zero t (1 : Fin 2) (congrFun hw 1) _))
  · exact congrArg (V c _) (Shape.idx_ext₂ (win0_2.rect_emb_val_of_index_zero t (0 : Fin 2) (congrFun hb 0) _)
      ((win0_2.rect_emb_val_of_index_zero t (1 : Fin 2) (congrFun hb 1) _).trans h1.symm))

/-- Row `r` of the output array is in block `r / 2048`, at row `r % 2048` of it. -/
theorem cover0 (i : S131072x512.Idx) :
    ∃ t : Fin cfg0.N, (cfg0.win 3).flush t = true ∧ i ∈ ((cfg0.win 3).blk t).view.set := by
  have ht : (i 0).val / 2048 < cfg0.N := Nat.div_lt_of_lt_mul (idx2_lt0 i)
  obtain ⟨-, -, -, ho⟩ := idx_facts0 ⟨_, ht⟩
  exact ⟨⟨_, ht⟩, flush0_3 _, Finset.mem_map.mpr ⟨ix2 ⟨(i 0).val % 2048, Nat.mod_lt _ (by decide)⟩ (i 1), Finset.mem_univ _,
    Shape.idx_ext₂ ((win0_3.rect_emb_val ⟨_, ht⟩ _ (0 : Fin 2)).trans (by rw [ho]; exact Nat.div_add_mod' _ _))
      (win0_3.rect_emb_val_of_index_zero ⟨_, ht⟩ (1 : Fin 2) (congrFun ho 1) _)⟩⟩

theorem arr0_apply (c : Dev nD) (r : Fin 131072) (h : Fin 512) :
    (dat0 (F := Ideal) V c).arrAt 3 cfg0.N (ix2 r h)
      = max ((∑ k : Fin 256, xArr0 V c (ix2 r k) * wArr0 V c (ix2 h k)) + bArr0 V c (ix2 0 h)) 0 :=
  congrFun ((dat0 V c).arrAt_eq_of_cover 3 (lin0 V c) (fun t _ => flushed0_eq V c t) cover0) (ix2 r h)

end Cert.KernelIdeal.Hand

end
-- ==== Proof.KIVal1.lean ====
import proofs.«407834_j69114613728754_1_alg».proof.Proof.KIReg1
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr1 (c : Dev nD) : Vec Ideal S32768x1536 .f32 := V c (Pipeline.arrRef spec1 0)
abbrev wArr1 (c : Dev nD) : Vec Ideal S512x1536 .f32 := V c (Pipeline.arrRef spec1 1)
abbrev bArr1 (c : Dev nD) : Vec Ideal S1x512 .f32 := V c (Pipeline.arrRef spec1 2)

/-- The affine map of the three arrays followed by the positive part: row `r`, column `h` is `max (∑ k, x[r,k] · w[h,k] + b[0,h]) 0`. -/
def lin1 (c : Dev nD) : Vec Ideal S32768x512 .f32 :=
  fun i => max ((∑ k : Fin 1536, xArr1 V c (ix2 (i 0) k) * wArr1 V c (ix2 (i 1) k)) + bArr1 V c (ix2 0 (i 1))) 0

theorem hz1 : (![0, 0] : Fin 2 → Nat) = fun _ => 0 := by decide

/-- The block indices over the grid: the row-blocked windows are at block `(t, 0)`, the weight and the bias at `(0, 0)`. -/
theorem idx_facts1 : ∀ t : Fin grid1.N, win1_0.index t = ![t.val, 0] ∧ win1_1.index t = ![0, 0]
    ∧ win1_2.index t = ![0, 0] ∧ win1_3.index t = ![t.val, 0] :=
  by decide +kernel

/-- What point `t` leaves is block `t` of `lin1`: a block's element sits in its array at block index × block size + its own coordinate. -/
theorem flushed1_eq (c : Dev nD) (t : Fin cfg1.N) :
    (dat1 V c).flushed 3 t = ((cfg1.win 3).blk t).view.read (Elt Ideal) (lin1 V c) := by
  obtain ⟨hx, hw, hb, ho⟩ := idx_facts1 t
  funext j
  obtain ⟨p, q, rfl⟩ : ∃ (p : Fin 1024) (q : Fin 512), j = ix2 p q := ⟨j 0, j 1, eq_ix2 j⟩
  show (dat1 V c).after 3 t (ix2 p q) = _
  have h0 := win1_3.rect_emb_val t (ix2 p q) (0 : Fin 2)
  have h1 := win1_3.rect_emb_val_of_index_zero t (1 : Fin 2) (congrFun ho 1) (ix2 p q)
  rw [after1_3, out1_3, View.canon_unit_zero hz1, View.ld_unit_zero hz1, View.ld_unit_zero hz1, View.ld_unit_zero hz1, KValue.k1_pay1_apply]
  refine congrArg (max · (0 : Elt Ideal .f32)) (congrArg₂ (· + ·) (Finset.sum_congr rfl fun k _ => congrArg₂ (· * ·) ?_ ?_) ?_)
  · exact congrArg (V c _) (Shape.idx_ext₂ ((win1_0.rect_emb_val t _ (0 : Fin 2)).trans (.trans (by rw [hx, ho]; rfl) h0.symm))
      (win1_0.rect_emb_val_of_index_zero t (1 : Fin 2) (congrFun hx 1) _))
  · exact congrArg (V c _) (Shape.idx_ext₂ ((win1_1.rect_emb_val_of_index_zero t (0 : Fin 2) (congrFun hw 0) _).trans h1.symm)
      (win1_1.rect_emb_val_of_index_zero t (1 : Fin 2) (congrFun hw 1) _))
  · exact congrArg (V c _) (Shape.idx_ext₂ (win1_2.rect_emb_val_of_index_zero t (0 : Fin 2) (congrFun hb 0) _)
      ((win1_2.rect_emb_val_of_index_zero t (1 : Fin 2) (congrFun hb 1) _).trans h1.symm))

/-- Row `r` of the output array is in block `r / 1024`, at row `r % 1024` of it. -/
theorem cover1 (i : S32768x512.Idx) :
    ∃ t : Fin cfg1.N, (cfg1.win 3).flush t = true ∧ i ∈ ((cfg1.win 3).blk t).view.set := by
  have ht : (i 0).val / 1024 < cfg1.N := Nat.div_lt_of_lt_mul (idx2_lt0 i)
  obtain ⟨-, -, -, ho⟩ := idx_facts1 ⟨_, ht⟩
  exact ⟨⟨_, ht⟩, flush1_3 _, Finset.mem_map.mpr ⟨ix2 ⟨(i 0).val % 1024, Nat.mod_lt _ (by decide)⟩ (i 1), Finset.mem_univ _,
    Shape.idx_ext₂ ((win1_3.rect_emb_val ⟨_, ht⟩ _ (0 : Fin 2)).trans (by rw [ho]; exact Nat.div_add_mod' _ _))
      (win1_3.rect_emb_val_of_index_zero ⟨_, ht⟩ (1 : Fin 2) (congrFun ho 1) _)⟩⟩

theorem arr1_apply (c : Dev nD) (r : Fin 32768) (h : Fin 512) :
    (dat1 (F := Ideal) V c).arrAt 3 cfg1.N (ix2 r h)
      = max ((∑ k : Fin 1536, xArr1 V c (ix2 r k) * wArr1 V c (ix2 h k)) + bArr1 V c (ix2 0 h)) 0 :=
  congrFun ((dat1 V c).arrAt_eq_of_cover 3 (lin1 V c) (fun t _ => flushed1_eq V c t) cover1) (ix2 r h)

end Cert.KernelIdeal.Hand

end
-- ==== Proof.KIVal2.lean ====
import proofs.«407834_j69114613728754_1_alg».proof.Proof.KIReg2
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr2 (c : Dev nD) : Vec Ideal S16384x1536 .f32 := V c (Pipeline.arrRef spec2 0)
abbrev wArr2 (c : Dev nD) : Vec Ideal S512x1536 .f32 := V c (Pipeline.arrRef spec2 1)
abbrev bArr2 (c : Dev nD) : Vec Ideal S1x512 .f32 := V c (Pipeline.arrRef spec2 2)

/-- The affine map of the three arrays followed by the positive part: row `r`, column `h` is `max (∑ k, x[r,k] · w[h,k] + b[0,h]) 0`. -/
def lin2 (c : Dev nD) : Vec Ideal S16384x512 .f32 :=
  fun i => max ((∑ k : Fin 1536, xArr2 V c (ix2 (i 0) k) * wArr2 V c (ix2 (i 1) k)) + bArr2 V c (ix2 0 (i 1))) 0

theorem hz2 : (![0, 0] : Fin 2 → Nat) = fun _ => 0 := by decide

/-- The block indices over the grid: the row-blocked windows are at block `(t, 0)`, the weight and the bias at `(0, 0)`. -/
theorem idx_facts2 : ∀ t : Fin grid2.N, win2_0.index t = ![t.val, 0] ∧ win2_1.index t = ![0, 0]
    ∧ win2_2.index t = ![0, 0] ∧ win2_3.index t = ![t.val, 0] :=
  by decide +kernel

/-- What point `t` leaves is block `t` of `lin2`: a block's element sits in its array at block index × block size + its own coordinate. -/
theorem flushed2_eq (c : Dev nD) (t : Fin cfg2.N) :
    (dat2 V c).flushed 3 t = ((cfg2.win 3).blk t).view.read (Elt Ideal) (lin2 V c) := by
  obtain ⟨hx, hw, hb, ho⟩ := idx_facts2 t
  funext j
  obtain ⟨p, q, rfl⟩ : ∃ (p : Fin 1024) (q : Fin 512), j = ix2 p q := ⟨j 0, j 1, eq_ix2 j⟩
  show (dat2 V c).after 3 t (ix2 p q) = _
  have h0 := win2_3.rect_emb_val t (ix2 p q) (0 : Fin 2)
  have h1 := win2_3.rect_emb_val_of_index_zero t (1 : Fin 2) (congrFun ho 1) (ix2 p q)
  rw [after2_3, out2_3, View.canon_unit_zero hz2, View.ld_unit_zero hz2, View.ld_unit_zero hz2, View.ld_unit_zero hz2, KValue.k2_pay1_apply]
  refine congrArg (max · (0 : Elt Ideal .f32)) (congrArg₂ (· + ·) (Finset.sum_congr rfl fun k _ => congrArg₂ (· * ·) ?_ ?_) ?_)
  · exact congrArg (V c _) (Shape.idx_ext₂ ((win2_0.rect_emb_val t _ (0 : Fin 2)).trans (.trans (by rw [hx, ho]; rfl) h0.symm))
      (win2_0.rect_emb_val_of_index_zero t (1 : Fin 2) (congrFun hx 1) _))
  · exact congrArg (V c _) (Shape.idx_ext₂ ((win2_1.rect_emb_val_of_index_zero t (0 : Fin 2) (congrFun hw 0) _).trans h1.symm)
      (win2_1.rect_emb_val_of_index_zero t (1 : Fin 2) (congrFun hw 1) _))
  · exact congrArg (V c _) (Shape.idx_ext₂ (win2_2.rect_emb_val_of_index_zero t (0 : Fin 2) (congrFun hb 0) _)
      ((win2_2.rect_emb_val_of_index_zero t (1 : Fin 2) (congrFun hb 1) _).trans h1.symm))

/-- Row `r` of the output array is in block `r / 1024`, at row `r % 1024` of it. -/
theorem cover2 (i : S16384x512.Idx) :
    ∃ t : Fin cfg2.N, (cfg2.win 3).flush t = true ∧ i ∈ ((cfg2.win 3).blk t).view.set := by
  have ht : (i 0).val / 1024 < cfg2.N := Nat.div_lt_of_lt_mul (idx2_lt0 i)
  obtain ⟨-, -, -, ho⟩ := idx_facts2 ⟨_, ht⟩
  exact ⟨⟨_, ht⟩, flush2_3 _, Finset.mem_map.mpr ⟨ix2 ⟨(i 0).val % 1024, Nat.mod_lt _ (by decide)⟩ (i 1), Finset.mem_univ _,
    Shape.idx_ext₂ ((win2_3.rect_emb_val ⟨_, ht⟩ _ (0 : Fin 2)).trans (by rw [ho]; exact Nat.div_add_mod' _ _))
      (win2_3.rect_emb_val_of_index_zero ⟨_, ht⟩ (1 : Fin 2) (congrFun ho 1) _)⟩⟩

theorem arr2_apply (c : Dev nD) (r : Fin 16384) (h : Fin 512) :
    (dat2 (F := Ideal) V c).arrAt 3 cfg2.N (ix2 r h)
      = max ((∑ k : Fin 1536, xArr2 V c (ix2 r k) * wArr2 V c (ix2 h k)) + bArr2 V c (ix2 0 h)) 0 :=
  congrFun ((dat2 V c).arrAt_eq_of_cover 3 (lin2 V c) (fun t _ => flushed2_eq V c t) cover2) (ix2 r h)

end Cert.KernelIdeal.Hand

end
-- ==== Proof.KIVal3.lean ====
import proofs.«407834_j69114613728754_1_alg».proof.Proof.KIReg3
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr3 (c : Dev nD) : Vec Ideal S8192x1536 .f32 := V c (Pipeline.arrRef spec3 0)
abbrev wArr3 (c : Dev nD) : Vec Ideal S512x1536 .f32 := V c (Pipeline.arrRef spec3 1)
abbrev bArr3 (c : Dev nD) : Vec Ideal S1x512 .f32 := V c (Pipeline.arrRef spec3 2)

/-- The affine map of the three arrays followed by the positive part: row `r`, column `h` is `max (∑ k, x[r,k] · w[h,k] + b[0,h]) 0`. -/
def lin3 (c : Dev nD) : Vec Ideal S8192x512 .f32 :=
  fun i => max ((∑ k : Fin 1536, xArr3 V c (ix2 (i 0) k) * wArr3 V c (ix2 (i 1) k)) + bArr3 V c (ix2 0 (i 1))) 0

theorem hz3 : (![0, 0] : Fin 2 → Nat) = fun _ => 0 := by decide

/-- The block indices over the grid: the row-blocked windows are at block `(t, 0)`, the weight and the bias at `(0, 0)`. -/
theorem idx_facts3 : ∀ t : Fin grid3.N, win3_0.index t = ![t.val, 0] ∧ win3_1.index t = ![0, 0]
    ∧ win3_2.index t = ![0, 0] ∧ win3_3.index t = ![t.val, 0] :=
  by decide +kernel

/-- What point `t` leaves is block `t` of `lin3`: a block's element sits in its array at block index × block size + its own coordinate. -/
theorem flushed3_eq (c : Dev nD) (t : Fin cfg3.N) :
    (dat3 V c).flushed 3 t = ((cfg3.win 3).blk t).view.read (Elt Ideal) (lin3 V c) := by
  obtain ⟨hx, hw, hb, ho⟩ := idx_facts3 t
  funext j
  obtain ⟨p, q, rfl⟩ : ∃ (p : Fin 1024) (q : Fin 512), j = ix2 p q := ⟨j 0, j 1, eq_ix2 j⟩
  show (dat3 V c).after 3 t (ix2 p q) = _
  have h0 := win3_3.rect_emb_val t (ix2 p q) (0 : Fin 2)
  have h1 := win3_3.rect_emb_val_of_index_zero t (1 : Fin 2) (congrFun ho 1) (ix2 p q)
  rw [after3_3, out3_3, View.canon_unit_zero hz3, View.ld_unit_zero hz3, View.ld_unit_zero hz3, View.ld_unit_zero hz3, KValue.k3_pay1_apply]
  refine congrArg (max · (0 : Elt Ideal .f32)) (congrArg₂ (· + ·) (Finset.sum_congr rfl fun k _ => congrArg₂ (· * ·) ?_ ?_) ?_)
  · exact congrArg (V c _) (Shape.idx_ext₂ ((win3_0.rect_emb_val t _ (0 : Fin 2)).trans (.trans (by rw [hx, ho]; rfl) h0.symm))
      (win3_0.rect_emb_val_of_index_zero t (1 : Fin 2) (congrFun hx 1) _))
  · exact congrArg (V c _) (Shape.idx_ext₂ ((win3_1.rect_emb_val_of_index_zero t (0 : Fin 2) (congrFun hw 0) _).trans h1.symm)
      (win3_1.rect_emb_val_of_index_zero t (1 : Fin 2) (congrFun hw 1) _))
  · exact congrArg (V c _) (Shape.idx_ext₂ (win3_2.rect_emb_val_of_index_zero t (0 : Fin 2) (congrFun hb 0) _)
      ((win3_2.rect_emb_val_of_index_zero t (1 : Fin 2) (congrFun hb 1) _).trans h1.symm))

/-- Row `r` of the output array is in block `r / 1024`, at row `r % 1024` of it. -/
theorem cover3 (i : S8192x512.Idx) :
    ∃ t : Fin cfg3.N, (cfg3.win 3).flush t = true ∧ i ∈ ((cfg3.win 3).blk t).view.set := by
  have ht : (i 0).val / 1024 < cfg3.N := Nat.div_lt_of_lt_mul (idx2_lt0 i)
  obtain ⟨-, -, -, ho⟩ := idx_facts3 ⟨_, ht⟩
  exact ⟨⟨_, ht⟩, flush3_3 _, Finset.mem_map.mpr ⟨ix2 ⟨(i 0).val % 1024, Nat.mod_lt _ (by decide)⟩ (i 1), Finset.mem_univ _,
    Shape.idx_ext₂ ((win3_3.rect_emb_val ⟨_, ht⟩ _ (0 : Fin 2)).trans (by rw [ho]; exact Nat.div_add_mod' _ _))
      (win3_3.rect_emb_val_of_index_zero ⟨_, ht⟩ (1 : Fin 2) (congrFun ho 1) _)⟩⟩

theorem arr3_apply (c : Dev nD) (r : Fin 8192) (h : Fin 512) :
    (dat3 (F := Ideal) V c).arrAt 3 cfg3.N (ix2 r h)
      = max ((∑ k : Fin 1536, xArr3 V c (ix2 r k) * wArr3 V c (ix2 h k)) + bArr3 V c (ix2 0 h)) 0 :=
  congrFun ((dat3 V c).arrAt_eq_of_cover 3 (lin3 V c) (fun t _ => flushed3_eq V c t) cover3) (ix2 r h)

end Cert.KernelIdeal.Hand

end
-- ==== Proof.KIVal4.lean ====
import proofs.«407834_j69114613728754_1_alg».proof.Proof.KIReg4
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr4 (c : Dev nD) : Vec Ideal S4096x1536 .f32 := V c (Pipeline.arrRef spec4 0)
abbrev wArr4 (c : Dev nD) : Vec Ideal S512x1536 .f32 := V c (Pipeline.arrRef spec4 1)
abbrev bArr4 (c : Dev nD) : Vec Ideal S1x512 .f32 := V c (Pipeline.arrRef spec4 2)

/-- The affine map of the three arrays followed by the positive part: row `r`, column `h` is `max (∑ k, x[r,k] · w[h,k] + b[0,h]) 0`. -/
def lin4 (c : Dev nD) : Vec Ideal S4096x512 .f32 :=
  fun i => max ((∑ k : Fin 1536, xArr4 V c (ix2 (i 0) k) * wArr4 V c (ix2 (i 1) k)) + bArr4 V c (ix2 0 (i 1))) 0

theorem hz4 : (![0, 0] : Fin 2 → Nat) = fun _ => 0 := by decide

/-- The block indices over the grid: the row-blocked windows are at block `(t, 0)`, the weight and the bias at `(0, 0)`. -/
theorem idx_facts4 : ∀ t : Fin grid4.N, win4_0.index t = ![t.val, 0] ∧ win4_1.index t = ![0, 0]
    ∧ win4_2.index t = ![0, 0] ∧ win4_3.index t = ![t.val, 0] :=
  by decide +kernel

/-- What point `t` leaves is block `t` of `lin4`: a block's element sits in its array at block index × block size + its own coordinate. -/
theorem flushed4_eq (c : Dev nD) (t : Fin cfg4.N) :
    (dat4 V c).flushed 3 t = ((cfg4.win 3).blk t).view.read (Elt Ideal) (lin4 V c) := by
  obtain ⟨hx, hw, hb, ho⟩ := idx_facts4 t
  funext j
  obtain ⟨p, q, rfl⟩ : ∃ (p : Fin 1024) (q : Fin 512), j = ix2 p q := ⟨j 0, j 1, eq_ix2 j⟩
  show (dat4 V c).after 3 t (ix2 p q) = _
  have h0 := win4_3.rect_emb_val t (ix2 p q) (0 : Fin 2)
  have h1 := win4_3.rect_emb_val_of_index_zero t (1 : Fin 2) (congrFun ho 1) (ix2 p q)
  rw [after4_3, out4_3, View.canon_unit_zero hz4, View.ld_unit_zero hz4, View.ld_unit_zero hz4, View.ld_unit_zero hz4, KValue.k4_pay1_apply]
  refine congrArg (max · (0 : Elt Ideal .f32)) (congrArg₂ (· + ·) (Finset.sum_congr rfl fun k _ => congrArg₂ (· * ·) ?_ ?_) ?_)
  · exact congrArg (V c _) (Shape.idx_ext₂ ((win4_0.rect_emb_val t _ (0 : Fin 2)).trans (.trans (by rw [hx, ho]; rfl) h0.symm))
      (win4_0.rect_emb_val_of_index_zero t (1 : Fin 2) (congrFun hx 1) _))
  · exact congrArg (V c _) (Shape.idx_ext₂ ((win4_1.rect_emb_val_of_index_zero t (0 : Fin 2) (congrFun hw 0) _).trans h1.symm)
      (win4_1.rect_emb_val_of_index_zero t (1 : Fin 2) (congrFun hw 1) _))
  · exact congrArg (V c _) (Shape.idx_ext₂ (win4_2.rect_emb_val_of_index_zero t (0 : Fin 2) (congrFun hb 0) _)
      ((win4_2.rect_emb_val_of_index_zero t (1 : Fin 2) (congrFun hb 1) _).trans h1.symm))

/-- Row `r` of the output array is in block `r / 1024`, at row `r % 1024` of it. -/
theorem cover4 (i : S4096x512.Idx) :
    ∃ t : Fin cfg4.N, (cfg4.win 3).flush t = true ∧ i ∈ ((cfg4.win 3).blk t).view.set := by
  have ht : (i 0).val / 1024 < cfg4.N := Nat.div_lt_of_lt_mul (idx2_lt0 i)
  obtain ⟨-, -, -, ho⟩ := idx_facts4 ⟨_, ht⟩
  exact ⟨⟨_, ht⟩, flush4_3 _, Finset.mem_map.mpr ⟨ix2 ⟨(i 0).val % 1024, Nat.mod_lt _ (by decide)⟩ (i 1), Finset.mem_univ _,
    Shape.idx_ext₂ ((win4_3.rect_emb_val ⟨_, ht⟩ _ (0 : Fin 2)).trans (by rw [ho]; exact Nat.div_add_mod' _ _))
      (win4_3.rect_emb_val_of_index_zero ⟨_, ht⟩ (1 : Fin 2) (congrFun ho 1) _)⟩⟩

theorem arr4_apply (c : Dev nD) (r : Fin 4096) (h : Fin 512) :
    (dat4 (F := Ideal) V c).arrAt 3 cfg4.N (ix2 r h)
      = max ((∑ k : Fin 1536, xArr4 V c (ix2 r k) * wArr4 V c (ix2 h k)) + bArr4 V c (ix2 0 h)) 0 :=
  congrFun ((dat4 V c).arrAt_eq_of_cover 3 (lin4 V c) (fun t _ => flushed4_eq V c t) cover4) (ix2 r h)

end Cert.KernelIdeal.Hand

end
-- ==== Proof.KIVal5.lean ====
import proofs.«407834_j69114613728754_1_alg».proof.Proof.KIReg5
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr5 (c : Dev nD) : Vec Ideal S2048x1536 .f32 := V c (Pipeline.arrRef spec5 0)
abbrev wArr5 (c : Dev nD) : Vec Ideal S512x1536 .f32 := V c (Pipeline.arrRef spec5 1)
abbrev bArr5 (c : Dev nD) : Vec Ideal S1x512 .f32 := V c (Pipeline.arrRef spec5 2)

/-- The affine map of the three arrays followed by the positive part: row `r`, column `h` is `max (∑ k, x[r,k] · w[h,k] + b[0,h]) 0`. -/
def lin5 (c : Dev nD) : Vec Ideal S2048x512 .f32 :=
  fun i => max ((∑ k : Fin 1536, xArr5 V c (ix2 (i 0) k) * wArr5 V c (ix2 (i 1) k)) + bArr5 V c (ix2 0 (i 1))) 0

theorem hz5 : (![0, 0] : Fin 2 → Nat) = fun _ => 0 := by decide

/-- The block indices over the grid: the row-blocked windows are at block `(t, 0)`, the weight and the bias at `(0, 0)`. -/
theorem idx_facts5 : ∀ t : Fin grid5.N, win5_0.index t = ![t.val, 0] ∧ win5_1.index t = ![0, 0]
    ∧ win5_2.index t = ![0, 0] ∧ win5_3.index t = ![t.val, 0] :=
  by decide +kernel

/-- What point `t` leaves is block `t` of `lin5`: a block's element sits in its array at block index × block size + its own coordinate. -/
theorem flushed5_eq (c : Dev nD) (t : Fin cfg5.N) :
    (dat5 V c).flushed 3 t = ((cfg5.win 3).blk t).view.read (Elt Ideal) (lin5 V c) := by
  obtain ⟨hx, hw, hb, ho⟩ := idx_facts5 t
  funext j
  obtain ⟨p, q, rfl⟩ : ∃ (p : Fin 1024) (q : Fin 512), j = ix2 p q := ⟨j 0, j 1, eq_ix2 j⟩
  show (dat5 V c).after 3 t (ix2 p q) = _
  have h0 := win5_3.rect_emb_val t (ix2 p q) (0 : Fin 2)
  have h1 := win5_3.rect_emb_val_of_index_zero t (1 : Fin 2) (congrFun ho 1) (ix2 p q)
  rw [after5_3, out5_3, View.canon_unit_zero hz5, View.ld_unit_zero hz5, View.ld_unit_zero hz5, View.ld_unit_zero hz5, KValue.k5_pay1_apply]
  refine congrArg (max · (0 : Elt Ideal .f32)) (congrArg₂ (· + ·) (Finset.sum_congr rfl fun k _ => congrArg₂ (· * ·) ?_ ?_) ?_)
  · exact congrArg (V c _) (Shape.idx_ext₂ ((win5_0.rect_emb_val t _ (0 : Fin 2)).trans (.trans (by rw [hx, ho]; rfl) h0.symm))
      (win5_0.rect_emb_val_of_index_zero t (1 : Fin 2) (congrFun hx 1) _))
  · exact congrArg (V c _) (Shape.idx_ext₂ ((win5_1.rect_emb_val_of_index_zero t (0 : Fin 2) (congrFun hw 0) _).trans h1.symm)
      (win5_1.rect_emb_val_of_index_zero t (1 : Fin 2) (congrFun hw 1) _))
  · exact congrArg (V c _) (Shape.idx_ext₂ (win5_2.rect_emb_val_of_index_zero t (0 : Fin 2) (congrFun hb 0) _)
      ((win5_2.rect_emb_val_of_index_zero t (1 : Fin 2) (congrFun hb 1) _).trans h1.symm))

/-- Row `r` of the output array is in block `r / 1024`, at row `r % 1024` of it. -/
theorem cover5 (i : S2048x512.Idx) :
    ∃ t : Fin cfg5.N, (cfg5.win 3).flush t = true ∧ i ∈ ((cfg5.win 3).blk t).view.set := by
  have ht : (i 0).val / 1024 < cfg5.N := Nat.div_lt_of_lt_mul (idx2_lt0 i)
  obtain ⟨-, -, -, ho⟩ := idx_facts5 ⟨_, ht⟩
  exact ⟨⟨_, ht⟩, flush5_3 _, Finset.mem_map.mpr ⟨ix2 ⟨(i 0).val % 1024, Nat.mod_lt _ (by decide)⟩ (i 1), Finset.mem_univ _,
    Shape.idx_ext₂ ((win5_3.rect_emb_val ⟨_, ht⟩ _ (0 : Fin 2)).trans (by rw [ho]; exact Nat.div_add_mod' _ _))
      (win5_3.rect_emb_val_of_index_zero ⟨_, ht⟩ (1 : Fin 2) (congrFun ho 1) _)⟩⟩

theorem arr5_apply (c : Dev nD) (r : Fin 2048) (h : Fin 512) :
    (dat5 (F := Ideal) V c).arrAt 3 cfg5.N (ix2 r h)
      = max ((∑ k : Fin 1536, xArr5 V c (ix2 r k) * wArr5 V c (ix2 h k)) + bArr5 V c (ix2 0 h)) 0 :=
  congrFun ((dat5 V c).arrAt_eq_of_cover 3 (lin5 V c) (fun t _ => flushed5_eq V c t) cover5) (ix2 r h)

end Cert.KernelIdeal.Hand

end
-- ==== Proof.KIVal6.lean ====
import proofs.«407834_j69114613728754_1_alg».proof.Proof.KIReg6
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr6 (c : Dev nD) : Vec Ideal S1024x1536 .f32 := V c (Pipeline.arrRef spec6 0)
abbrev wArr6 (c : Dev nD) : Vec Ideal S512x1536 .f32 := V c (Pipeline.arrRef spec6 1)
abbrev bArr6 (c : Dev nD) : Vec Ideal S1x512 .f32 := V c (Pipeline.arrRef spec6 2)

/-- The affine map of the three arrays followed by the positive part: row `r`, column `h` is `max (∑ k, x[r,k] · w[h,k] + b[0,h]) 0`. -/
def lin6 (c : Dev nD) : Vec Ideal S1024x512 .f32 :=
  fun i => max ((∑ k : Fin 1536, xArr6 V c (ix2 (i 0) k) * wArr6 V c (ix2 (i 1) k)) + bArr6 V c (ix2 0 (i 1))) 0

theorem hz6 : (![0, 0] : Fin 2 → Nat) = fun _ => 0 := by decide

/-- The block indices over the grid: the row-blocked windows are at block `(t, 0)`, the weight and the bias at `(0, 0)`. -/
theorem idx_facts6 : ∀ t : Fin grid6.N, win6_0.index t = ![t.val, 0] ∧ win6_1.index t = ![0, 0]
    ∧ win6_2.index t = ![0, 0] ∧ win6_3.index t = ![t.val, 0] :=
  by decide +kernel

/-- What point `t` leaves is block `t` of `lin6`: a block's element sits in its array at block index × block size + its own coordinate. -/
theorem flushed6_eq (c : Dev nD) (t : Fin cfg6.N) :
    (dat6 V c).flushed 3 t = ((cfg6.win 3).blk t).view.read (Elt Ideal) (lin6 V c) := by
  obtain ⟨hx, hw, hb, ho⟩ := idx_facts6 t
  funext j
  obtain ⟨p, q, rfl⟩ : ∃ (p : Fin 1024) (q : Fin 512), j = ix2 p q := ⟨j 0, j 1, eq_ix2 j⟩
  show (dat6 V c).after 3 t (ix2 p q) = _
  have h0 := win6_3.rect_emb_val t (ix2 p q) (0 : Fin 2)
  have h1 := win6_3.rect_emb_val_of_index_zero t (1 : Fin 2) (congrFun ho 1) (ix2 p q)
  rw [after6_3, out6_3, View.canon_unit_zero hz6, View.ld_unit_zero hz6, View.ld_unit_zero hz6, View.ld_unit_zero hz6, KValue.k6_pay1_apply]
  refine congrArg (max · (0 : Elt Ideal .f32)) (congrArg₂ (· + ·) (Finset.sum_congr rfl fun k _ => congrArg₂ (· * ·) ?_ ?_) ?_)
  · exact congrArg (V c _) (Shape.idx_ext₂ ((win6_0.rect_emb_val t _ (0 : Fin 2)).trans (.trans (by rw [hx, ho]; rfl) h0.symm))
      (win6_0.rect_emb_val_of_index_zero t (1 : Fin 2) (congrFun hx 1) _))
  · exact congrArg (V c _) (Shape.idx_ext₂ ((win6_1.rect_emb_val_of_index_zero t (0 : Fin 2) (congrFun hw 0) _).trans h1.symm)
      (win6_1.rect_emb_val_of_index_zero t (1 : Fin 2) (congrFun hw 1) _))
  · exact congrArg (V c _) (Shape.idx_ext₂ (win6_2.rect_emb_val_of_index_zero t (0 : Fin 2) (congrFun hb 0) _)
      ((win6_2.rect_emb_val_of_index_zero t (1 : Fin 2) (congrFun hb 1) _).trans h1.symm))

/-- Row `r` of the output array is in block `r / 1024`, at row `r % 1024` of it. -/
theorem cover6 (i : S1024x512.Idx) :
    ∃ t : Fin cfg6.N, (cfg6.win 3).flush t = true ∧ i ∈ ((cfg6.win 3).blk t).view.set := by
  have ht : (i 0).val / 1024 < cfg6.N := Nat.div_lt_of_lt_mul (idx2_lt0 i)
  obtain ⟨-, -, -, ho⟩ := idx_facts6 ⟨_, ht⟩
  exact ⟨⟨_, ht⟩, flush6_3 _, Finset.mem_map.mpr ⟨ix2 ⟨(i 0).val % 1024, Nat.mod_lt _ (by decide)⟩ (i 1), Finset.mem_univ _,
    Shape.idx_ext₂ ((win6_3.rect_emb_val ⟨_, ht⟩ _ (0 : Fin 2)).trans (by rw [ho]; exact Nat.div_add_mod' _ _))
      (win6_3.rect_emb_val_of_index_zero ⟨_, ht⟩ (1 : Fin 2) (congrFun ho 1) _)⟩⟩

theorem arr6_apply (c : Dev nD) (r : Fin 1024) (h : Fin 512) :
    (dat6 (F := Ideal) V c).arrAt 3 cfg6.N (ix2 r h)
      = max ((∑ k : Fin 1536, xArr6 V c (ix2 r k) * wArr6 V c (ix2 h k)) + bArr6 V c (ix2 0 h)) 0 :=
  congrFun ((dat6 V c).arrAt_eq_of_cover 3 (lin6 V c) (fun t _ => flushed6_eq V c t) cover6) (ix2 r h)

end Cert.KernelIdeal.Hand

end
-- ==== Proof.KIVal7.lean ====
import proofs.«407834_j69114613728754_1_alg».proof.Proof.KIReg7
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr7 (c : Dev nD) : Vec Ideal S512x1536 .f32 := V c (Pipeline.arrRef spec7 0)
abbrev wArr7 (c : Dev nD) : Vec Ideal S512x1536 .f32 := V c (Pipeline.arrRef spec7 1)
abbrev bArr7 (c : Dev nD) : Vec Ideal S1x512 .f32 := V c (Pipeline.arrRef spec7 2)

/-- The affine map of the three arrays followed by the positive part: row `r`, column `h` is `max (∑ k, x[r,k] · w[h,k] + b[0,h]) 0`. -/
def lin7 (c : Dev nD) : Vec Ideal S512x512 .f32 :=
  fun i => max ((∑ k : Fin 1536, xArr7 V c (ix2 (i 0) k) * wArr7 V c (ix2 (i 1) k)) + bArr7 V c (ix2 0 (i 1))) 0

theorem hz7 : (![0, 0] : Fin 2 → Nat) = fun _ => 0 := by decide

/-- The block indices over the grid: the row-blocked windows are at block `(t, 0)`, the weight and the bias at `(0, 0)`. -/
theorem idx_facts7 : ∀ t : Fin grid7.N, win7_0.index t = ![t.val, 0] ∧ win7_1.index t = ![0, 0]
    ∧ win7_2.index t = ![0, 0] ∧ win7_3.index t = ![t.val, 0] :=
  by decide +kernel

/-- What point `t` leaves is block `t` of `lin7`: a block's element sits in its array at block index × block size + its own coordinate. -/
theorem flushed7_eq (c : Dev nD) (t : Fin cfg7.N) :
    (dat7 V c).flushed 3 t = ((cfg7.win 3).blk t).view.read (Elt Ideal) (lin7 V c) := by
  obtain ⟨hx, hw, hb, ho⟩ := idx_facts7 t
  funext j
  obtain ⟨p, q, rfl⟩ : ∃ (p : Fin 512) (q : Fin 512), j = ix2 p q := ⟨j 0, j 1, eq_ix2 j⟩
  show (dat7 V c).after 3 t (ix2 p q) = _
  have h0 := win7_3.rect_emb_val t (ix2 p q) (0 : Fin 2)
  have h1 := win7_3.rect_emb_val_of_index_zero t (1 : Fin 2) (congrFun ho 1) (ix2 p q)
  rw [after7_3, out7_3, View.canon_unit_zero hz7, View.ld_unit_zero hz7, View.ld_unit_zero hz7, View.ld_unit_zero hz7, KValue.k7_pay1_apply]
  refine congrArg (max · (0 : Elt Ideal .f32)) (congrArg₂ (· + ·) (Finset.sum_congr rfl fun k _ => congrArg₂ (· * ·) ?_ ?_) ?_)
  · exact congrArg (V c _) (Shape.idx_ext₂ ((win7_0.rect_emb_val t _ (0 : Fin 2)).trans (.trans (by rw [hx, ho]; rfl) h0.symm))
      (win7_0.rect_emb_val_of_index_zero t (1 : Fin 2) (congrFun hx 1) _))
  · exact congrArg (V c _) (Shape.idx_ext₂ ((win7_1.rect_emb_val_of_index_zero t (0 : Fin 2) (congrFun hw 0) _).trans h1.symm)
      (win7_1.rect_emb_val_of_index_zero t (1 : Fin 2) (congrFun hw 1) _))
  · exact congrArg (V c _) (Shape.idx_ext₂ (win7_2.rect_emb_val_of_index_zero t (0 : Fin 2) (congrFun hb 0) _)
      ((win7_2.rect_emb_val_of_index_zero t (1 : Fin 2) (congrFun hb 1) _).trans h1.symm))

/-- Row `r` of the output array is in block `r / 512`, at row `r % 512` of it. -/
theorem cover7 (i : S512x512.Idx) :
    ∃ t : Fin cfg7.N, (cfg7.win 3).flush t = true ∧ i ∈ ((cfg7.win 3).blk t).view.set := by
  have ht : (i 0).val / 512 < cfg7.N := Nat.div_lt_of_lt_mul (idx2_lt0 i)
  obtain ⟨-, -, -, ho⟩ := idx_facts7 ⟨_, ht⟩
  exact ⟨⟨_, ht⟩, flush7_3 _, Finset.mem_map.mpr ⟨ix2 ⟨(i 0).val % 512, Nat.mod_lt _ (by decide)⟩ (i 1), Finset.mem_univ _,
    Shape.idx_ext₂ ((win7_3.rect_emb_val ⟨_, ht⟩ _ (0 : Fin 2)).trans (by rw [ho]; exact Nat.div_add_mod' _ _))
      (win7_3.rect_emb_val_of_index_zero ⟨_, ht⟩ (1 : Fin 2) (congrFun ho 1) _)⟩⟩

theorem arr7_apply (c : Dev nD) (r : Fin 512) (h : Fin 512) :
    (dat7 (F := Ideal) V c).arrAt 3 cfg7.N (ix2 r h)
      = max ((∑ k : Fin 1536, xArr7 V c (ix2 r k) * wArr7 V c (ix2 h k)) + bArr7 V c (ix2 0 h)) 0 :=
  congrFun ((dat7 V c).arrAt_eq_of_cover 3 (lin7 V c) (fun t _ => flushed7_eq V c t) cover7) (ix2 r h)

end Cert.KernelIdeal.Hand

end
-- ==== Proof.KIVal8.lean ====
import proofs.«407834_j69114613728754_1_alg».proof.Proof.KIReg8
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr8 (c : Dev nD) : Vec Ideal S256x1536 .f32 := V c (Pipeline.arrRef spec8 0)
abbrev wArr8 (c : Dev nD) : Vec Ideal S512x1536 .f32 := V c (Pipeline.arrRef spec8 1)
abbrev bArr8 (c : Dev nD) : Vec Ideal S1x512 .f32 := V c (Pipeline.arrRef spec8 2)

/-- The affine map of the three arrays followed by the positive part: row `r`, column `h` is `max (∑ k, x[r,k] · w[h,k] + b[0,h]) 0`. -/
def lin8 (c : Dev nD) : Vec Ideal S256x512 .f32 :=
  fun i => max ((∑ k : Fin 1536, xArr8 V c (ix2 (i 0) k) * wArr8 V c (ix2 (i 1) k)) + bArr8 V c (ix2 0 (i 1))) 0

theorem hz8 : (![0, 0] : Fin 2 → Nat) = fun _ => 0 := by decide

/-- The block indices over the grid: the row-blocked windows are at block `(t, 0)`, the weight and the bias at `(0, 0)`. -/
theorem idx_facts8 : ∀ t : Fin grid8.N, win8_0.index t = ![t.val, 0] ∧ win8_1.index t = ![0, 0]
    ∧ win8_2.index t = ![0, 0] ∧ win8_3.index t = ![t.val, 0] :=
  by decide +kernel

/-- What point `t` leaves is block `t` of `lin8`: a block's element sits in its array at block index × block size + its own coordinate. -/
theorem flushed8_eq (c : Dev nD) (t : Fin cfg8.N) :
    (dat8 V c).flushed 3 t = ((cfg8.win 3).blk t).view.read (Elt Ideal) (lin8 V c) := by
  obtain ⟨hx, hw, hb, ho⟩ := idx_facts8 t
  funext j
  obtain ⟨p, q, rfl⟩ : ∃ (p : Fin 256) (q : Fin 512), j = ix2 p q := ⟨j 0, j 1, eq_ix2 j⟩
  show (dat8 V c).after 3 t (ix2 p q) = _
  have h0 := win8_3.rect_emb_val t (ix2 p q) (0 : Fin 2)
  have h1 := win8_3.rect_emb_val_of_index_zero t (1 : Fin 2) (congrFun ho 1) (ix2 p q)
  rw [after8_3, out8_3, View.canon_unit_zero hz8, View.ld_unit_zero hz8, View.ld_unit_zero hz8, View.ld_unit_zero hz8, KValue.k8_pay1_apply]
  refine congrArg (max · (0 : Elt Ideal .f32)) (congrArg₂ (· + ·) (Finset.sum_congr rfl fun k _ => congrArg₂ (· * ·) ?_ ?_) ?_)
  · exact congrArg (V c _) (Shape.idx_ext₂ ((win8_0.rect_emb_val t _ (0 : Fin 2)).trans (.trans (by rw [hx, ho]; rfl) h0.symm))
      (win8_0.rect_emb_val_of_index_zero t (1 : Fin 2) (congrFun hx 1) _))
  · exact congrArg (V c _) (Shape.idx_ext₂ ((win8_1.rect_emb_val_of_index_zero t (0 : Fin 2) (congrFun hw 0) _).trans h1.symm)
      (win8_1.rect_emb_val_of_index_zero t (1 : Fin 2) (congrFun hw 1) _))
  · exact congrArg (V c _) (Shape.idx_ext₂ (win8_2.rect_emb_val_of_index_zero t (0 : Fin 2) (congrFun hb 0) _)
      ((win8_2.rect_emb_val_of_index_zero t (1 : Fin 2) (congrFun hb 1) _).trans h1.symm))

/-- Row `r` of the output array is in block `r / 256`, at row `r % 256` of it. -/
theorem cover8 (i : S256x512.Idx) :
    ∃ t : Fin cfg8.N, (cfg8.win 3).flush t = true ∧ i ∈ ((cfg8.win 3).blk t).view.set := by
  have ht : (i 0).val / 256 < cfg8.N := Nat.div_lt_of_lt_mul (idx2_lt0 i)
  obtain ⟨-, -, -, ho⟩ := idx_facts8 ⟨_, ht⟩
  exact ⟨⟨_, ht⟩, flush8_3 _, Finset.mem_map.mpr ⟨ix2 ⟨(i 0).val % 256, Nat.mod_lt _ (by decide)⟩ (i 1), Finset.mem_univ _,
    Shape.idx_ext₂ ((win8_3.rect_emb_val ⟨_, ht⟩ _ (0 : Fin 2)).trans (by rw [ho]; exact Nat.div_add_mod' _ _))
      (win8_3.rect_emb_val_of_index_zero ⟨_, ht⟩ (1 : Fin 2) (congrFun ho 1) _)⟩⟩

theorem arr8_apply (c : Dev nD) (r : Fin 256) (h : Fin 512) :
    (dat8 (F := Ideal) V c).arrAt 3 cfg8.N (ix2 r h)
      = max ((∑ k : Fin 1536, xArr8 V c (ix2 r k) * wArr8 V c (ix2 h k)) + bArr8 V c (ix2 0 h)) 0 :=
  congrFun ((dat8 V c).arrAt_eq_of_cover 3 (lin8 V c) (fun t _ => flushed8_eq V c t) cover8) (ix2 r h)

end Cert.KernelIdeal.Hand

end
-- ==== Proof.KIVal9.lean ====
import proofs.«407834_j69114613728754_1_alg».proof.Proof.KIReg9
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr9 (c : Dev nD) : Vec Ideal S128x1536 .f32 := V c (Pipeline.arrRef spec9 0)
abbrev wArr9 (c : Dev nD) : Vec Ideal S512x1536 .f32 := V c (Pipeline.arrRef spec9 1)
abbrev bArr9 (c : Dev nD) : Vec Ideal S1x512 .f32 := V c (Pipeline.arrRef spec9 2)

/-- The affine map of the three arrays followed by the positive part: row `r`, column `h` is `max (∑ k, x[r,k] · w[h,k] + b[0,h]) 0`. -/
def lin9 (c : Dev nD) : Vec Ideal S128x512 .f32 :=
  fun i => max ((∑ k : Fin 1536, xArr9 V c (ix2 (i 0) k) * wArr9 V c (ix2 (i 1) k)) + bArr9 V c (ix2 0 (i 1))) 0

theorem hz9 : (![0, 0] : Fin 2 → Nat) = fun _ => 0 := by decide

/-- The block indices over the grid: the row-blocked windows are at block `(t, 0)`, the weight and the bias at `(0, 0)`. -/
theorem idx_facts9 : ∀ t : Fin grid9.N, win9_0.index t = ![t.val, 0] ∧ win9_1.index t = ![0, 0]
    ∧ win9_2.index t = ![0, 0] ∧ win9_3.index t = ![t.val, 0] :=
  by decide +kernel

/-- What point `t` leaves is block `t` of `lin9`: a block's element sits in its array at block index × block size + its own coordinate. -/
theorem flushed9_eq (c : Dev nD) (t : Fin cfg9.N) :
    (dat9 V c).flushed 3 t = ((cfg9.win 3).blk t).view.read (Elt Ideal) (lin9 V c) := by
  obtain ⟨hx, hw, hb, ho⟩ := idx_facts9 t
  funext j
  obtain ⟨p, q, rfl⟩ : ∃ (p : Fin 128) (q : Fin 512), j = ix2 p q := ⟨j 0, j 1, eq_ix2 j⟩
  show (dat9 V c).after 3 t (ix2 p q) = _
  have h0 := win9_3.rect_emb_val t (ix2 p q) (0 : Fin 2)
  have h1 := win9_3.rect_emb_val_of_index_zero t (1 : Fin 2) (congrFun ho 1) (ix2 p q)
  rw [after9_3, out9_3, View.canon_unit_zero hz9, View.ld_unit_zero hz9, View.ld_unit_zero hz9, View.ld_unit_zero hz9, KValue.k9_pay1_apply]
  refine congrArg (max · (0 : Elt Ideal .f32)) (congrArg₂ (· + ·) (Finset.sum_congr rfl fun k _ => congrArg₂ (· * ·) ?_ ?_) ?_)
  · exact congrArg (V c _) (Shape.idx_ext₂ ((win9_0.rect_emb_val t _ (0 : Fin 2)).trans (.trans (by rw [hx, ho]; rfl) h0.symm))
      (win9_0.rect_emb_val_of_index_zero t (1 : Fin 2) (congrFun hx 1) _))
  · exact congrArg (V c _) (Shape.idx_ext₂ ((win9_1.rect_emb_val_of_index_zero t (0 : Fin 2) (congrFun hw 0) _).trans h1.symm)
      (win9_1.rect_emb_val_of_index_zero t (1 : Fin 2) (congrFun hw 1) _))
  · exact congrArg (V c _) (Shape.idx_ext₂ (win9_2.rect_emb_val_of_index_zero t (0 : Fin 2) (congrFun hb 0) _)
      ((win9_2.rect_emb_val_of_index_zero t (1 : Fin 2) (congrFun hb 1) _).trans h1.symm))

/-- Row `r` of the output array is in block `r / 128`, at row `r % 128` of it. -/
theorem cover9 (i : S128x512.Idx) :
    ∃ t : Fin cfg9.N, (cfg9.win 3).flush t = true ∧ i ∈ ((cfg9.win 3).blk t).view.set := by
  have ht : (i 0).val / 128 < cfg9.N := Nat.div_lt_of_lt_mul (idx2_lt0 i)
  obtain ⟨-, -, -, ho⟩ := idx_facts9 ⟨_, ht⟩
  exact ⟨⟨_, ht⟩, flush9_3 _, Finset.mem_map.mpr ⟨ix2 ⟨(i 0).val % 128, Nat.mod_lt _ (by decide)⟩ (i 1), Finset.mem_univ _,
    Shape.idx_ext₂ ((win9_3.rect_emb_val ⟨_, ht⟩ _ (0 : Fin 2)).trans (by rw [ho]; exact Nat.div_add_mod' _ _))
      (win9_3.rect_emb_val_of_index_zero ⟨_, ht⟩ (1 : Fin 2) (congrFun ho 1) _)⟩⟩

theorem arr9_apply (c : Dev nD) (r : Fin 128) (h : Fin 512) :
    (dat9 (F := Ideal) V c).arrAt 3 cfg9.N (ix2 r h)
      = max ((∑ k : Fin 1536, xArr9 V c (ix2 r k) * wArr9 V c (ix2 h k)) + bArr9 V c (ix2 0 h)) 0 :=
  congrFun ((dat9 V c).arrAt_eq_of_cover 3 (lin9 V c) (fun t _ => flushed9_eq V c t) cover9) (ix2 r h)

end Cert.KernelIdeal.Hand

end
-- ==== Proof.KIVal10.lean ====
import proofs.«407834_j69114613728754_1_alg».proof.Proof.KIReg10
import proofs.«407834_j69114613728754_1_alg».proof.Proof.KPayIdx

noncomputable section

namespace Cert.KernelIdeal.Hand

open Cert.KernelIdeal Cert.KernelIdeal.Gen
open Idealize.ShloMosaic Idealize.ShloMosaic.TcCoe Idealize.SL.Sem Idealize.ShloMosaic.ValueIdx

variable (V : (c : Dev nD) → (b : Ref sig .tc) → Buf (Elt Ideal) ((c : Thread nD τ).loc b))

abbrev xArr10 (c : Dev nD) : Vec Ideal S64x1536 .f32 := V c (Pipeline.arrRef spec10 0)
abbrev wArr10 (c : Dev nD) : Vec Ideal S512x1536 .f32 := V c (Pipeline.arrRef spec10 1)
abbrev bArr10 (c : Dev nD) : Vec Ideal S1x512 .f32 := V c (Pipeline.arrRef spec10 2)

/-- The affine map of the three arrays followed by the positive part: row `r`, column `h` is `max (∑ k, x[r,k] · w[h,k] + b[0,h]) 0`. -/
def lin10 (c : Dev nD) : Vec Ideal S64x512 .f32 :=
  fun i => max ((∑ k : Fin 1536, xArr10 V c (ix2 (i 0) k) * wArr10 V c (ix2 (i 1) k)) + bArr10 V c (ix2 0 (i 1))) 0

theorem hz10 : (![0, 0] : Fin 2 → Nat) = fun _ => 0 := by decide

/-- The block indices over the grid: the row-blocked windows are at block `(t, 0)`, the weight and the bias at `(0, 0)`. -/
theorem idx_facts10 : ∀ t : Fin grid10.N, win10_0.index t = ![t.val, 0] ∧ win10_1.index t = ![0, 0]
    ∧ win10_2.index t = ![0, 0] ∧ win10_3.index t = ![t.val, 0] :=
  by decide +kernel

/-- What point `t` leaves is block `t` of `lin10`: a block's element sits in its array at block index × block size + its own coordinate. -/
theorem flushed10_eq (c : Dev nD) (t : Fin cfg10.N) :
    (dat10 V c).flushed 3 t = ((cfg10.win 3).blk t).view.read (Elt Ideal) (lin10 V c) := by
  obtain ⟨hx, hw, hb, ho⟩ := idx_facts10 t
  funext j
  obtain ⟨p, q, rfl⟩ : ∃ (p : Fin 64) (q : Fin 512), j = ix2 p q := ⟨j 0, j 1, eq_ix2 j⟩
  show (dat10 V c).after 3 t (ix2 p q) = _
  have h0 := win10_3.rect_emb_val t (ix2 p q) (0 : Fin 2)
  have h1 := win10_3.rect_emb_val_of_index_zero t (1 : Fin 2) (congrFun ho 1) (ix2 p q)
  rw [after10_3, out10_3, View.canon_unit_zero hz10, View.ld_unit_zero hz10, View.ld_unit_zero hz10, View.ld_unit_zero hz10, KValue.k10_pay1_apply]
  refine congrArg (max · (0 : Elt Ideal .f32)) (congrArg₂ (· + ·) (Finset.sum_congr rfl fun k _ => congrArg₂ (· * ·) ?_ ?_) ?_)
  · exact congrArg (V c _) (Shape.idx_ext₂ ((win10_0.rect_emb_val t _ (0 : Fin 2)).trans (.trans (by rw [hx, ho]; rfl) h0.symm))
      (win10_0.rect_emb_val_of_index_zero t (1 : Fin 2) (congrFun hx 1) _))
  · exact congrArg (V c _) (Shape.idx_ext₂ ((win10_1.rect_emb_val_of_index_zero t (0 : Fin 2) (congrFun hw 0) _).trans h1.symm)
      (win10_1.rect_emb_val_of_index_zero t (1 : Fin 2) (congrFun hw 1) _))
  · exact congrArg (V c _) (Shape.idx_ext₂ (win10_2.rect_emb_val_of_index_zero t (0 : Fin 2) (congrFun hb 0) _)
      ((win10_2.rect_emb_val_of_index_zero t (1 : Fin 2) (congrFun hb 1) _).trans h1.symm))

/-- Row `r` of the output array is in block `r / 64`, at row `r % 64` of it. -/
theorem cover10 (i : S64x512.Idx) :
    ∃ t : Fin cfg10.N, (cfg10.win 3).flush t = true ∧ i ∈ ((cfg10.win 3).blk t).view.set := by
  have ht : (i 0).val / 64 < cfg10.N := Nat.div_lt_of_lt_mul (idx2_lt0 i)
  obtain ⟨-, -, -, ho⟩ := idx_facts10 ⟨_, ht⟩
  exact ⟨⟨_, ht⟩, flush10_3 _, Finset.mem_map.mpr ⟨ix2 ⟨(i 0).val % 64, Nat.mod_lt _ (by decide)⟩ (i 1), Finset.mem_univ _,
    Shape.idx_ext₂ ((win10_3.rect_emb_val ⟨_, ht⟩ _ (0 : Fin 2)).trans (by rw [ho]; exact Nat.div_add_mod' _ _))
      (win10_3.rect_emb_val_of_index_zero ⟨_, ht⟩ (1 : Fin 2) (congrFun ho 1) _)⟩⟩

theorem arr10_apply (c : Dev nD) (r : Fin 64) (h : Fin 512) :
    (dat10 (F := Ideal) V c).arrAt 3 cfg10.N (ix2 r h)
      = max ((∑ k : Fin 1536, xArr10 V c (ix2 r k) * wArr10 V c (ix2 h k)) + bArr10 V c (ix2 0 h)) 0 :=
  congrFun ((dat10 V c).arrAt_eq_of_cover 3 (lin10 V c) (fun t _ => flushed10_eq V c t) cover10) (ix2 r h)

end Cert.KernelIdeal.Hand

end
-- ==== Proof.RefLevels.lean ====
import proofs.«407834_j69114613728754_1_alg».proof.Proof.Gen.ReferenceIdeal

/-! The reference's level functions. The reference computes the node features
    u = relu (contents · W_uᵀ + b_u) once, takes the leaves' embedding as u's last 65536 rows, and then,
    for levels j = 9 … 0 (n = 64·2^j rows at row offset o = 64·(2^j − 1) of the child table), forms
    x = [emb[left] | emb[right] | u[o : o+n]] and the next embedding relu (x · W_hᵀ + b_h).
    Each function below is the composition of the reference's own operations for that step, in the order
    printed; an index below zero is wrapped by the table's row count before the gather. -/

noncomputable section

open Idealize.ShloMosaic Idealize.ShloMosaic.TcCoe Idealize.SL.Sem

namespace Cert.ReferenceIdeal.RefValue

open Cert.ReferenceIdeal Cert.ReferenceIdeal.Gen

variable {F : FTy → Type} [FloatOps F]

/-- The node features: relu (contents · W_uᵀ + b_u), all 131008 rows. -/
def refU (contents : FVec F S131008x256 .f32) (W_u : FVec F S512x256 .f32) (b_u : FVec F S512 .f32) : FVec F S131008x512 .f32 :=
  maximumf (addf (Host.dotGeneral dot_S131008x256_S256x512_S131008x512_1_0_0_1_n_n none contents (transpose S256x512 [1, 0] W_u transposes_S512x256_S256x512_1_0)) (broadcastInDim S131008x512 ![0, 1] bcast_S1x512_S131008x512_0_1 (broadcastInDim S1x512 ![1] bcast_S512_S1x512_1 b_u))) (broadcastInDim S131008x512 ![] bcast_S_S131008x512 (constant S_ .f32 0x00000000#32))

/-- The leaves' embedding: rows 65472 … 131007 of the node features. -/
def refEmb9 (u : FVec F S131008x512 .f32) : FVec F S65536x512 .f32 :=
  extractStridedSlice S65536x512 ![65472, 0] u slices_S131008x512_S65536x512_65472_0

/-! ## Level 9 -/

/-- Level 9's rows of the child table. -/
def refRows9 (children : IVec S65472x2 32) : IVec S32768x2 32 :=
  extractStridedSlice S32768x2 ![32704, 0] children slices_S65472x2_S32768x2_32704_0

/-- Level 9's left-child column as a vector. -/
def refColL9 (children : IVec S65472x2 32) : IVec S32768 32 :=
  shapeCast S32768 (extractStridedSlice S32768x1 ![0, 0] (refRows9 children) slices_S32768x2_S32768x1_0_0) shapeCasts_S32768x1_S32768

/-- Level 9's right-child column as a vector. -/
def refColR9 (children : IVec S65472x2 32) : IVec S32768 32 :=
  shapeCast S32768 (extractStridedSlice S32768x1 ![0, 1] (refRows9 children) slices_S32768x2_S32768x1_0_1) shapeCasts_S32768x1_S32768

/-- Level 9's left gather indices: a negative index wrapped by the table's 65536 rows, as an [n,1] array. -/
def refIdxL9 (children : IVec S65472x2 32) : IVec S32768x1 32 :=
  broadcastInDim S32768x1 ![0] bcast_S32768_S32768x1_0 (select (cmpi .slt (refColL9 children) (broadcastInDim S32768 ![] bcast_S_S32768 (constantI S_ 32 0#32))) (addi (refColL9 children) (broadcastInDim S32768 ![] bcast_S_S32768 (constantI S_ 32 65536#32))) (refColL9 children))

/-- Level 9's right gather indices. -/
def refIdxR9 (children : IVec S65472x2 32) : IVec S32768x1 32 :=
  broadcastInDim S32768x1 ![0] bcast_S32768_S32768x1_0 (select (cmpi .slt (refColR9 children) (broadcastInDim S32768 ![] bcast_S_S32768 (constantI S_ 32 0#32))) (addi (refColR9 children) (broadcastInDim S32768 ![] bcast_S_S32768 (constantI S_ 32 65536#32))) (refColR9 children))

/-- Level 9's input rows: left child's embedding, right child's embedding, the node's own features. -/
def refX9 (emb : FVec F S65536x512 .f32) (children : IVec S65472x2 32) (u : FVec F S131008x512 .f32) : FVec F S32768x1536 .f32 :=
  concatenate S32768x1536 1 [⟨S32768x512, Host.gather gather_S65536x512_S32768x1_S32768x512_1_0_n_n_0_1_1512 emb (refIdxL9 children)⟩, ⟨S32768x512, Host.gather gather_S65536x512_S32768x1_S32768x512_1_0_n_n_0_1_1512 emb (refIdxR9 children)⟩, ⟨S32768x512, extractStridedSlice S32768x512 ![32704, 0] u slices_S131008x512_S32768x512_32704_0⟩] concatenates_S32768x512_S32768x512_S32768x512_S32768x1536_d1

/-- Level 9's embedding: relu (x · W_hᵀ + b_h). -/
def refLin9 (x : FVec F S32768x1536 .f32) (W_h : FVec F S512x1536 .f32) (b_h : FVec F S512 .f32) : FVec F S32768x512 .f32 :=
  maximumf (addf (Host.dotGeneral dot_S32768x1536_S1536x512_S32768x512_1_0_0_1_n_n none x (transpose S1536x512 [1, 0] W_h transposes_S512x1536_S1536x512_1_0)) (broadcastInDim S32768x512 ![0, 1] bcast_S1x512_S32768x512_0_1 (broadcastInDim S1x512 ![1] bcast_S512_S1x512_1 b_h))) (broadcastInDim S32768x512 ![] bcast_S_S32768x512 (constant S_ .f32 0x00000000#32))

/-! ## Level 8 -/

/-- Level 8's rows of the child table. -/
def refRows8 (children : IVec S65472x2 32) : IVec S16384x2 32 :=
  extractStridedSlice S16384x2 ![16320, 0] children slices_S65472x2_S16384x2_16320_0

/-- Level 8's left-child column as a vector. -/
def refColL8 (children : IVec S65472x2 32) : IVec S16384 32 :=
  shapeCast S16384 (extractStridedSlice S16384x1 ![0, 0] (refRows8 children) slices_S16384x2_S16384x1_0_0) shapeCasts_S16384x1_S16384

/-- Level 8's right-child column as a vector. -/
def refColR8 (children : IVec S65472x2 32) : IVec S16384 32 :=
  shapeCast S16384 (extractStridedSlice S16384x1 ![0, 1] (refRows8 children) slices_S16384x2_S16384x1_0_1) shapeCasts_S16384x1_S16384

/-- Level 8's left gather indices: a negative index wrapped by the table's 32768 rows, as an [n,1] array. -/
def refIdxL8 (children : IVec S65472x2 32) : IVec S16384x1 32 :=
  broadcastInDim S16384x1 ![0] bcast_S16384_S16384x1_0 (select (cmpi .slt (refColL8 children) (broadcastInDim S16384 ![] bcast_S_S16384 (constantI S_ 32 0#32))) (addi (refColL8 children) (broadcastInDim S16384 ![] bcast_S_S16384 (constantI S_ 32 32768#32))) (refColL8 children))

/-- Level 8's right gather indices. -/
def refIdxR8 (children : IVec S65472x2 32) : IVec S16384x1 32 :=
  broadcastInDim S16384x1 ![0] bcast_S16384_S16384x1_0 (select (cmpi .slt (refColR8 children) (broadcastInDim S16384 ![] bcast_S_S16384 (constantI S_ 32 0#32))) (addi (refColR8 children) (broadcastInDim S16384 ![] bcast_S_S16384 (constantI S_ 32 32768#32))) (refColR8 children))

/-- Level 8's input rows: left child's embedding, right child's embedding, the node's own features. -/
def refX8 (emb : FVec F S32768x512 .f32) (children : IVec S65472x2 32) (u : FVec F S131008x512 .f32) : FVec F S16384x1536 .f32 :=
  concatenate S16384x1536 1 [⟨S16384x512, Host.gather gather_S32768x512_S16384x1_S16384x512_1_0_n_n_0_1_1512 emb (refIdxL8 children)⟩, ⟨S16384x512, Host.gather gather_S32768x512_S16384x1_S16384x512_1_0_n_n_0_1_1512 emb (refIdxR8 children)⟩, ⟨S16384x512, extractStridedSlice S16384x512 ![16320, 0] u slices_S131008x512_S16384x512_16320_0⟩] concatenates_S16384x512_S16384x512_S16384x512_S16384x1536_d1

/-- Level 8's embedding: relu (x · W_hᵀ + b_h). -/
def refLin8 (x : FVec F S16384x1536 .f32) (W_h : FVec F S512x1536 .f32) (b_h : FVec F S512 .f32) : FVec F S16384x512 .f32 :=
  maximumf (addf (Host.dotGeneral dot_S16384x1536_S1536x512_S16384x512_1_0_0_1_n_n none x (transpose S1536x512 [1, 0] W_h transposes_S512x1536_S1536x512_1_0)) (broadcastInDim S16384x512 ![0, 1] bcast_S1x512_S16384x512_0_1 (broadcastInDim S1x512 ![1] bcast_S512_S1x512_1 b_h))) (broadcastInDim S16384x512 ![] bcast_S_S16384x512 (constant S_ .f32 0x00000000#32))

/-! ## Level 7 -/

/-- Level 7's rows of the child table. -/
def refRows7 (children : IVec S65472x2 32) : IVec S8192x2 32 :=
  extractStridedSlice S8192x2 ![8128, 0] children slices_S65472x2_S8192x2_8128_0

/-- Level 7's left-child column as a vector. -/
def refColL7 (children : IVec S65472x2 32) : IVec S8192 32 :=
  shapeCast S8192 (extractStridedSlice S8192x1 ![0, 0] (refRows7 children) slices_S8192x2_S8192x1_0_0) shapeCasts_S8192x1_S8192

/-- Level 7's right-child column as a vector. -/
def refColR7 (children : IVec S65472x2 32) : IVec S8192 32 :=
  shapeCast S8192 (extractStridedSlice S8192x1 ![0, 1] (refRows7 children) slices_S8192x2_S8192x1_0_1) shapeCasts_S8192x1_S8192

/-- Level 7's left gather indices: a negative index wrapped by the table's 16384 rows, as an [n,1] array. -/
def refIdxL7 (children : IVec S65472x2 32) : IVec S8192x1 32 :=
  broadcastInDim S8192x1 ![0] bcast_S8192_S8192x1_0 (select (cmpi .slt (refColL7 children) (broadcastInDim S8192 ![] bcast_S_S8192 (constantI S_ 32 0#32))) (addi (refColL7 children) (broadcastInDim S8192 ![] bcast_S_S8192 (constantI S_ 32 16384#32))) (refColL7 children))

/-- Level 7's right gather indices. -/
def refIdxR7 (children : IVec S65472x2 32) : IVec S8192x1 32 :=
  broadcastInDim S8192x1 ![0] bcast_S8192_S8192x1_0 (select (cmpi .slt (refColR7 children) (broadcastInDim S8192 ![] bcast_S_S8192 (constantI S_ 32 0#32))) (addi (refColR7 children) (broadcastInDim S8192 ![] bcast_S_S8192 (constantI S_ 32 16384#32))) (refColR7 children))

/-- Level 7's input rows: left child's embedding, right child's embedding, the node's own features. -/
def refX7 (emb : FVec F S16384x512 .f32) (children : IVec S65472x2 32) (u : FVec F S131008x512 .f32) : FVec F S8192x1536 .f32 :=
  concatenate S8192x1536 1 [⟨S8192x512, Host.gather gather_S16384x512_S8192x1_S8192x512_1_0_n_n_0_1_1512 emb (refIdxL7 children)⟩, ⟨S8192x512, Host.gather gather_S16384x512_S8192x1_S8192x512_1_0_n_n_0_1_1512 emb (refIdxR7 children)⟩, ⟨S8192x512, extractStridedSlice S8192x512 ![8128, 0] u slices_S131008x512_S8192x512_8128_0⟩] concatenates_S8192x512_S8192x512_S8192x512_S8192x1536_d1

/-- Level 7's embedding: relu (x · W_hᵀ + b_h). -/
def refLin7 (x : FVec F S8192x1536 .f32) (W_h : FVec F S512x1536 .f32) (b_h : FVec F S512 .f32) : FVec F S8192x512 .f32 :=
  maximumf (addf (Host.dotGeneral dot_S8192x1536_S1536x512_S8192x512_1_0_0_1_n_n none x (transpose S1536x512 [1, 0] W_h transposes_S512x1536_S1536x512_1_0)) (broadcastInDim S8192x512 ![0, 1] bcast_S1x512_S8192x512_0_1 (broadcastInDim S1x512 ![1] bcast_S512_S1x512_1 b_h))) (broadcastInDim S8192x512 ![] bcast_S_S8192x512 (constant S_ .f32 0x00000000#32))

/-! ## Level 6 -/

/-- Level 6's rows of the child table. -/
def refRows6 (children : IVec S65472x2 32) : IVec S4096x2 32 :=
  extractStridedSlice S4096x2 ![4032, 0] children slices_S65472x2_S4096x2_4032_0

/-- Level 6's left-child column as a vector. -/
def refColL6 (children : IVec S65472x2 32) : IVec S4096 32 :=
  shapeCast S4096 (extractStridedSlice S4096x1 ![0, 0] (refRows6 children) slices_S4096x2_S4096x1_0_0) shapeCasts_S4096x1_S4096

/-- Level 6's right-child column as a vector. -/
def refColR6 (children : IVec S65472x2 32) : IVec S4096 32 :=
  shapeCast S4096 (extractStridedSlice S4096x1 ![0, 1] (refRows6 children) slices_S4096x2_S4096x1_0_1) shapeCasts_S4096x1_S4096

/-- Level 6's left gather indices: a negative index wrapped by the table's 8192 rows, as an [n,1] array. -/
def refIdxL6 (children : IVec S65472x2 32) : IVec S4096x1 32 :=
  broadcastInDim S4096x1 ![0] bcast_S4096_S4096x1_0 (select (cmpi .slt (refColL6 children) (broadcastInDim S4096 ![] bcast_S_S4096 (constantI S_ 32 0#32))) (addi (refColL6 children) (broadcastInDim S4096 ![] bcast_S_S4096 (constantI S_ 32 8192#32))) (refColL6 children))

/-- Level 6's right gather indices. -/
def refIdxR6 (children : IVec S65472x2 32) : IVec S4096x1 32 :=
  broadcastInDim S4096x1 ![0] bcast_S4096_S4096x1_0 (select (cmpi .slt (refColR6 children) (broadcastInDim S4096 ![] bcast_S_S4096 (constantI S_ 32 0#32))) (addi (refColR6 children) (broadcastInDim S4096 ![] bcast_S_S4096 (constantI S_ 32 8192#32))) (refColR6 children))

/-- Level 6's input rows: left child's embedding, right child's embedding, the node's own features. -/
def refX6 (emb : FVec F S8192x512 .f32) (children : IVec S65472x2 32) (u : FVec F S131008x512 .f32) : FVec F S4096x1536 .f32 :=
  concatenate S4096x1536 1 [⟨S4096x512, Host.gather gather_S8192x512_S4096x1_S4096x512_1_0_n_n_0_1_1512 emb (refIdxL6 children)⟩, ⟨S4096x512, Host.gather gather_S8192x512_S4096x1_S4096x512_1_0_n_n_0_1_1512 emb (refIdxR6 children)⟩, ⟨S4096x512, extractStridedSlice S4096x512 ![4032, 0] u slices_S131008x512_S4096x512_4032_0⟩] concatenates_S4096x512_S4096x512_S4096x512_S4096x1536_d1

/-- Level 6's embedding: relu (x · W_hᵀ + b_h). -/
def refLin6 (x : FVec F S4096x1536 .f32) (W_h : FVec F S512x1536 .f32) (b_h : FVec F S512 .f32) : FVec F S4096x512 .f32 :=
  maximumf (addf (Host.dotGeneral dot_S4096x1536_S1536x512_S4096x512_1_0_0_1_n_n none x (transpose S1536x512 [1, 0] W_h transposes_S512x1536_S1536x512_1_0)) (broadcastInDim S4096x512 ![0, 1] bcast_S1x512_S4096x512_0_1 (broadcastInDim S1x512 ![1] bcast_S512_S1x512_1 b_h))) (broadcastInDim S4096x512 ![] bcast_S_S4096x512 (constant S_ .f32 0x00000000#32))

/-! ## Level 5 -/

/-- Level 5's rows of the child table. -/
def refRows5 (children : IVec S65472x2 32) : IVec S2048x2 32 :=
  extractStridedSlice S2048x2 ![1984, 0] children slices_S65472x2_S2048x2_1984_0

/-- Level 5's left-child column as a vector. -/
def refColL5 (children : IVec S65472x2 32) : IVec S2048 32 :=
  shapeCast S2048 (extractStridedSlice S2048x1 ![0, 0] (refRows5 children) slices_S2048x2_S2048x1_0_0) shapeCasts_S2048x1_S2048

/-- Level 5's right-child column as a vector. -/
def refColR5 (children : IVec S65472x2 32) : IVec S2048 32 :=
  shapeCast S2048 (extractStridedSlice S2048x1 ![0, 1] (refRows5 children) slices_S2048x2_S2048x1_0_1) shapeCasts_S2048x1_S2048

/-- Level 5's left gather indices: a negative index wrapped by the table's 4096 rows, as an [n,1] array. -/
def refIdxL5 (children : IVec S65472x2 32) : IVec S2048x1 32 :=
  broadcastInDim S2048x1 ![0] bcast_S2048_S2048x1_0 (select (cmpi .slt (refColL5 children) (broadcastInDim S2048 ![] bcast_S_S2048 (constantI S_ 32 0#32))) (addi (refColL5 children) (broadcastInDim S2048 ![] bcast_S_S2048 (constantI S_ 32 4096#32))) (refColL5 children))

/-- Level 5's right gather indices. -/
def refIdxR5 (children : IVec S65472x2 32) : IVec S2048x1 32 :=
  broadcastInDim S2048x1 ![0] bcast_S2048_S2048x1_0 (select (cmpi .slt (refColR5 children) (broadcastInDim S2048 ![] bcast_S_S2048 (constantI S_ 32 0#32))) (addi (refColR5 children) (broadcastInDim S2048 ![] bcast_S_S2048 (constantI S_ 32 4096#32))) (refColR5 children))

/-- Level 5's input rows: left child's embedding, right child's embedding, the node's own features. -/
def refX5 (emb : FVec F S4096x512 .f32) (children : IVec S65472x2 32) (u : FVec F S131008x512 .f32) : FVec F S2048x1536 .f32 :=
  concatenate S2048x1536 1 [⟨S2048x512, Host.gather gather_S4096x512_S2048x1_S2048x512_1_0_n_n_0_1_1512 emb (refIdxL5 children)⟩, ⟨S2048x512, Host.gather gather_S4096x512_S2048x1_S2048x512_1_0_n_n_0_1_1512 emb (refIdxR5 children)⟩, ⟨S2048x512, extractStridedSlice S2048x512 ![1984, 0] u slices_S131008x512_S2048x512_1984_0⟩] concatenates_S2048x512_S2048x512_S2048x512_S2048x1536_d1

/-- Level 5's embedding: relu (x · W_hᵀ + b_h). -/
def refLin5 (x : FVec F S2048x1536 .f32) (W_h : FVec F S512x1536 .f32) (b_h : FVec F S512 .f32) : FVec F S2048x512 .f32 :=
  maximumf (addf (Host.dotGeneral dot_S2048x1536_S1536x512_S2048x512_1_0_0_1_n_n none x (transpose S1536x512 [1, 0] W_h transposes_S512x1536_S1536x512_1_0)) (broadcastInDim S2048x512 ![0, 1] bcast_S1x512_S2048x512_0_1 (broadcastInDim S1x512 ![1] bcast_S512_S1x512_1 b_h))) (broadcastInDim S2048x512 ![] bcast_S_S2048x512 (constant S_ .f32 0x00000000#32))

/-! ## Level 4 -/

/-- Level 4's rows of the child table. -/
def refRows4 (children : IVec S65472x2 32) : IVec S1024x2 32 :=
  extractStridedSlice S1024x2 ![960, 0] children slices_S65472x2_S1024x2_960_0

/-- Level 4's left-child column as a vector. -/
def refColL4 (children : IVec S65472x2 32) : IVec S1024 32 :=
  shapeCast S1024 (extractStridedSlice S1024x1 ![0, 0] (refRows4 children) slices_S1024x2_S1024x1_0_0) shapeCasts_S1024x1_S1024

/-- Level 4's right-child column as a vector. -/
def refColR4 (children : IVec S65472x2 32) : IVec S1024 32 :=
  shapeCast S1024 (extractStridedSlice S1024x1 ![0, 1] (refRows4 children) slices_S1024x2_S1024x1_0_1) shapeCasts_S1024x1_S1024

/-- Level 4's left gather indices: a negative index wrapped by the table's 2048 rows, as an [n,1] array. -/
def refIdxL4 (children : IVec S65472x2 32) : IVec S1024x1 32 :=
  broadcastInDim S1024x1 ![0] bcast_S1024_S1024x1_0 (select (cmpi .slt (refColL4 children) (broadcastInDim S1024 ![] bcast_S_S1024 (constantI S_ 32 0#32))) (addi (refColL4 children) (broadcastInDim S1024 ![] bcast_S_S1024 (constantI S_ 32 2048#32))) (refColL4 children))

/-- Level 4's right gather indices. -/
def refIdxR4 (children : IVec S65472x2 32) : IVec S1024x1 32 :=
  broadcastInDim S1024x1 ![0] bcast_S1024_S1024x1_0 (select (cmpi .slt (refColR4 children) (broadcastInDim S1024 ![] bcast_S_S1024 (constantI S_ 32 0#32))) (addi (refColR4 children) (broadcastInDim S1024 ![] bcast_S_S1024 (constantI S_ 32 2048#32))) (refColR4 children))

/-- Level 4's input rows: left child's embedding, right child's embedding, the node's own features. -/
def refX4 (emb : FVec F S2048x512 .f32) (children : IVec S65472x2 32) (u : FVec F S131008x512 .f32) : FVec F S1024x1536 .f32 :=
  concatenate S1024x1536 1 [⟨S1024x512, Host.gather gather_S2048x512_S1024x1_S1024x512_1_0_n_n_0_1_1512 emb (refIdxL4 children)⟩, ⟨S1024x512, Host.gather gather_S2048x512_S1024x1_S1024x512_1_0_n_n_0_1_1512 emb (refIdxR4 children)⟩, ⟨S1024x512, extractStridedSlice S1024x512 ![960, 0] u slices_S131008x512_S1024x512_960_0⟩] concatenates_S1024x512_S1024x512_S1024x512_S1024x1536_d1

/-- Level 4's embedding: relu (x · W_hᵀ + b_h). -/
def refLin4 (x : FVec F S1024x1536 .f32) (W_h : FVec F S512x1536 .f32) (b_h : FVec F S512 .f32) : FVec F S1024x512 .f32 :=
  maximumf (addf (Host.dotGeneral dot_S1024x1536_S1536x512_S1024x512_1_0_0_1_n_n none x (transpose S1536x512 [1, 0] W_h transposes_S512x1536_S1536x512_1_0)) (broadcastInDim S1024x512 ![0, 1] bcast_S1x512_S1024x512_0_1 (broadcastInDim S1x512 ![1] bcast_S512_S1x512_1 b_h))) (broadcastInDim S1024x512 ![] bcast_S_S1024x512 (constant S_ .f32 0x00000000#32))

/-! ## Level 3 -/

/-- Level 3's rows of the child table. -/
def refRows3 (children : IVec S65472x2 32) : IVec S512x2 32 :=
  extractStridedSlice S512x2 ![448, 0] children slices_S65472x2_S512x2_448_0

/-- Level 3's left-child column as a vector. -/
def refColL3 (children : IVec S65472x2 32) : IVec S512 32 :=
  shapeCast S512 (extractStridedSlice S512x1 ![0, 0] (refRows3 children) slices_S512x2_S512x1_0_0) shapeCasts_S512x1_S512

/-- Level 3's right-child column as a vector. -/
def refColR3 (children : IVec S65472x2 32) : IVec S512 32 :=
  shapeCast S512 (extractStridedSlice S512x1 ![0, 1] (refRows3 children) slices_S512x2_S512x1_0_1) shapeCasts_S512x1_S512

/-- Level 3's left gather indices: a negative index wrapped by the table's 1024 rows, as an [n,1] array. -/
def refIdxL3 (children : IVec S65472x2 32) : IVec S512x1 32 :=
  broadcastInDim S512x1 ![0] bcast_S512_S512x1_0 (select (cmpi .slt (refColL3 children) (broadcastInDim S512 ![] bcast_S_S512 (constantI S_ 32 0#32))) (addi (refColL3 children) (broadcastInDim S512 ![] bcast_S_S512 (constantI S_ 32 1024#32))) (refColL3 children))

/-- Level 3's right gather indices. -/
def refIdxR3 (children : IVec S65472x2 32) : IVec S512x1 32 :=
  broadcastInDim S512x1 ![0] bcast_S512_S512x1_0 (select (cmpi .slt (refColR3 children) (broadcastInDim S512 ![] bcast_S_S512 (constantI S_ 32 0#32))) (addi (refColR3 children) (broadcastInDim S512 ![] bcast_S_S512 (constantI S_ 32 1024#32))) (refColR3 children))

/-- Level 3's input rows: left child's embedding, right child's embedding, the node's own features. -/
def refX3 (emb : FVec F S1024x512 .f32) (children : IVec S65472x2 32) (u : FVec F S131008x512 .f32) : FVec F S512x1536 .f32 :=
  concatenate S512x1536 1 [⟨S512x512, Host.gather gather_S1024x512_S512x1_S512x512_1_0_n_n_0_1_1512 emb (refIdxL3 children)⟩, ⟨S512x512, Host.gather gather_S1024x512_S512x1_S512x512_1_0_n_n_0_1_1512 emb (refIdxR3 children)⟩, ⟨S512x512, extractStridedSlice S512x512 ![448, 0] u slices_S131008x512_S512x512_448_0⟩] concatenates_S512x512_S512x512_S512x512_S512x1536_d1

/-- Level 3's embedding: relu (x · W_hᵀ + b_h). -/
def refLin3 (x : FVec F S512x1536 .f32) (W_h : FVec F S512x1536 .f32) (b_h : FVec F S512 .f32) : FVec F S512x512 .f32 :=
  maximumf (addf (Host.dotGeneral dot_S512x1536_S1536x512_S512x512_1_0_0_1_n_n none x (transpose S1536x512 [1, 0] W_h transposes_S512x1536_S1536x512_1_0)) (broadcastInDim S512x512 ![0, 1] bcast_S1x512_S512x512_0_1 (broadcastInDim S1x512 ![1] bcast_S512_S1x512_1 b_h))) (broadcastInDim S512x512 ![] bcast_S_S512x512 (constant S_ .f32 0x00000000#32))

/-! ## Level 2 -/

/-- Level 2's rows of the child table. -/
def refRows2 (children : IVec S65472x2 32) : IVec S256x2 32 :=
  extractStridedSlice S256x2 ![192, 0] children slices_S65472x2_S256x2_192_0

/-- Level 2's left-child column as a vector. -/
def refColL2 (children : IVec S65472x2 32) : IVec S256 32 :=
  shapeCast S256 (extractStridedSlice S256x1 ![0, 0] (refRows2 children) slices_S256x2_S256x1_0_0) shapeCasts_S256x1_S256

/-- Level 2's right-child column as a vector. -/
def refColR2 (children : IVec S65472x2 32) : IVec S256 32 :=
  shapeCast S256 (extractStridedSlice S256x1 ![0, 1] (refRows2 children) slices_S256x2_S256x1_0_1) shapeCasts_S256x1_S256

/-- Level 2's left gather indices: a negative index wrapped by the table's 512 rows, as an [n,1] array. -/
def refIdxL2 (children : IVec S65472x2 32) : IVec S256x1 32 :=
  broadcastInDim S256x1 ![0] bcast_S256_S256x1_0 (select (cmpi .slt (refColL2 children) (broadcastInDim S256 ![] bcast_S_S256 (constantI S_ 32 0#32))) (addi (refColL2 children) (broadcastInDim S256 ![] bcast_S_S256 (constantI S_ 32 512#32))) (refColL2 children))

/-- Level 2's right gather indices. -/
def refIdxR2 (children : IVec S65472x2 32) : IVec S256x1 32 :=
  broadcastInDim S256x1 ![0] bcast_S256_S256x1_0 (select (cmpi .slt (refColR2 children) (broadcastInDim S256 ![] bcast_S_S256 (constantI S_ 32 0#32))) (addi (refColR2 children) (broadcastInDim S256 ![] bcast_S_S256 (constantI S_ 32 512#32))) (refColR2 children))

/-- Level 2's input rows: left child's embedding, right child's embedding, the node's own features. -/
def refX2 (emb : FVec F S512x512 .f32) (children : IVec S65472x2 32) (u : FVec F S131008x512 .f32) : FVec F S256x1536 .f32 :=
  concatenate S256x1536 1 [⟨S256x512, Host.gather gather_S512x512_S256x1_S256x512_1_0_n_n_0_1_1512 emb (refIdxL2 children)⟩, ⟨S256x512, Host.gather gather_S512x512_S256x1_S256x512_1_0_n_n_0_1_1512 emb (refIdxR2 children)⟩, ⟨S256x512, extractStridedSlice S256x512 ![192, 0] u slices_S131008x512_S256x512_192_0⟩] concatenates_S256x512_S256x512_S256x512_S256x1536_d1

/-- Level 2's embedding: relu (x · W_hᵀ + b_h). -/
def refLin2 (x : FVec F S256x1536 .f32) (W_h : FVec F S512x1536 .f32) (b_h : FVec F S512 .f32) : FVec F S256x512 .f32 :=
  maximumf (addf (Host.dotGeneral dot_S256x1536_S1536x512_S256x512_1_0_0_1_n_n none x (transpose S1536x512 [1, 0] W_h transposes_S512x1536_S1536x512_1_0)) (broadcastInDim S256x512 ![0, 1] bcast_S1x512_S256x512_0_1 (broadcastInDim S1x512 ![1] bcast_S512_S1x512_1 b_h))) (broadcastInDim S256x512 ![] bcast_S_S256x512 (constant S_ .f32 0x00000000#32))

/-! ## Level 1 -/

/-- Level 1's rows of the child table. -/
def refRows1 (children : IVec S65472x2 32) : IVec S128x2 32 :=
  extractStridedSlice S128x2 ![64, 0] children slices_S65472x2_S128x2_64_0

/-- Level 1's left-child column as a vector. -/
def refColL1 (children : IVec S65472x2 32) : IVec S128 32 :=
  shapeCast S128 (extractStridedSlice S128x1 ![0, 0] (refRows1 children) slices_S128x2_S128x1_0_0) shapeCasts_S128x1_S128

/-- Level 1's right-child column as a vector. -/
def refColR1 (children : IVec S65472x2 32) : IVec S128 32 :=
  shapeCast S128 (extractStridedSlice S128x1 ![0, 1] (refRows1 children) slices_S128x2_S128x1_0_1) shapeCasts_S128x1_S128

/-- Level 1's left gather indices: a negative index wrapped by the table's 256 rows, as an [n,1] array. -/
def refIdxL1 (children : IVec S65472x2 32) : IVec S128x1 32 :=
  broadcastInDim S128x1 ![0] bcast_S128_S128x1_0 (select (cmpi .slt (refColL1 children) (broadcastInDim S128 ![] bcast_S_S128 (constantI S_ 32 0#32))) (addi (refColL1 children) (broadcastInDim S128 ![] bcast_S_S128 (constantI S_ 32 256#32))) (refColL1 children))

/-- Level 1's right gather indices. -/
def refIdxR1 (children : IVec S65472x2 32) : IVec S128x1 32 :=
  broadcastInDim S128x1 ![0] bcast_S128_S128x1_0 (select (cmpi .slt (refColR1 children) (broadcastInDim S128 ![] bcast_S_S128 (constantI S_ 32 0#32))) (addi (refColR1 children) (broadcastInDim S128 ![] bcast_S_S128 (constantI S_ 32 256#32))) (refColR1 children))

/-- Level 1's input rows: left child's embedding, right child's embedding, the node's own features. -/
def refX1 (emb : FVec F S256x512 .f32) (children : IVec S65472x2 32) (u : FVec F S131008x512 .f32) : FVec F S128x1536 .f32 :=
  concatenate S128x1536 1 [⟨S128x512, Host.gather gather_S256x512_S128x1_S128x512_1_0_n_n_0_1_1512 emb (refIdxL1 children)⟩, ⟨S128x512, Host.gather gather_S256x512_S128x1_S128x512_1_0_n_n_0_1_1512 emb (refIdxR1 children)⟩, ⟨S128x512, extractStridedSlice S128x512 ![64, 0] u slices_S131008x512_S128x512_64_0⟩] concatenates_S128x512_S128x512_S128x512_S128x1536_d1

/-- Level 1's embedding: relu (x · W_hᵀ + b_h). -/
def refLin1 (x : FVec F S128x1536 .f32) (W_h : FVec F S512x1536 .f32) (b_h : FVec F S512 .f32) : FVec F S128x512 .f32 :=
  maximumf (addf (Host.dotGeneral dot_S128x1536_S1536x512_S128x512_1_0_0_1_n_n none x (transpose S1536x512 [1, 0] W_h transposes_S512x1536_S1536x512_1_0)) (broadcastInDim S128x512 ![0, 1] bcast_S1x512_S128x512_0_1 (broadcastInDim S1x512 ![1] bcast_S512_S1x512_1 b_h))) (broadcastInDim S128x512 ![] bcast_S_S128x512 (constant S_ .f32 0x00000000#32))

/-! ## Level 0 -/

/-- Level 0's rows of the child table. -/
def refRows0 (children : IVec S65472x2 32) : IVec S64x2 32 :=
  extractStridedSlice S64x2 ![0, 0] children slices_S65472x2_S64x2_0_0

/-- Level 0's left-child column as a vector. -/
def refColL0 (children : IVec S65472x2 32) : IVec S64 32 :=
  shapeCast S64 (extractStridedSlice S64x1 ![0, 0] (refRows0 children) slices_S64x2_S64x1_0_0) shapeCasts_S64x1_S64

/-- Level 0's right-child column as a vector. -/
def refColR0 (children : IVec S65472x2 32) : IVec S64 32 :=
  shapeCast S64 (extractStridedSlice S64x1 ![0, 1] (refRows0 children) slices_S64x2_S64x1_0_1) shapeCasts_S64x1_S64

/-- Level 0's left gather indices: a negative index wrapped by the table's 128 rows, as an [n,1] array. -/
def refIdxL0 (children : IVec S65472x2 32) : IVec S64x1 32 :=
  broadcastInDim S64x1 ![0] bcast_S64_S64x1_0 (select (cmpi .slt (refColL0 children) (broadcastInDim S64 ![] bcast_S_S64 (constantI S_ 32 0#32))) (addi (refColL0 children) (broadcastInDim S64 ![] bcast_S_S64 (constantI S_ 32 128#32))) (refColL0 children))

/-- Level 0's right gather indices. -/
def refIdxR0 (children : IVec S65472x2 32) : IVec S64x1 32 :=
  broadcastInDim S64x1 ![0] bcast_S64_S64x1_0 (select (cmpi .slt (refColR0 children) (broadcastInDim S64 ![] bcast_S_S64 (constantI S_ 32 0#32))) (addi (refColR0 children) (broadcastInDim S64 ![] bcast_S_S64 (constantI S_ 32 128#32))) (refColR0 children))

/-- Level 0's input rows: left child's embedding, right child's embedding, the node's own features. -/
def refX0 (emb : FVec F S128x512 .f32) (children : IVec S65472x2 32) (u : FVec F S131008x512 .f32) : FVec F S64x1536 .f32 :=
  concatenate S64x1536 1 [⟨S64x512, Host.gather gather_S128x512_S64x1_S64x512_1_0_n_n_0_1_1512 emb (refIdxL0 children)⟩, ⟨S64x512, Host.gather gather_S128x512_S64x1_S64x512_1_0_n_n_0_1_1512 emb (refIdxR0 children)⟩, ⟨S64x512, extractStridedSlice S64x512 ![0, 0] u slices_S131008x512_S64x512_0_0⟩] concatenates_S64x512_S64x512_S64x512_S64x1536_d1

/-- Level 0's embedding: relu (x · W_hᵀ + b_h). -/
def refLin0 (x : FVec F S64x1536 .f32) (W_h : FVec F S512x1536 .f32) (b_h : FVec F S512 .f32) : FVec F S64x512 .f32 :=
  maximumf (addf (Host.dotGeneral dot_S64x1536_S1536x512_S64x512_1_0_0_1_n_n none x (transpose S1536x512 [1, 0] W_h transposes_S512x1536_S1536x512_1_0)) (broadcastInDim S64x512 ![0, 1] bcast_S1x512_S64x512_0_1 (broadcastInDim S1x512 ![1] bcast_S512_S1x512_1 b_h))) (broadcastInDim S64x512 ![] bcast_S_S64x512 (constant S_ .f32 0x00000000#32))

end Cert.ReferenceIdeal.RefValue

end
-- ==== Proof.RefChain.lean ====
import proofs.«407834_j69114613728754_1_alg».proof.Proof.RefLevels

noncomputable section

namespace Cert.ReferenceIdeal.RefValue

open Idealize.ShloMosaic Idealize.ShloMosaic.TcCoe Idealize.SL.Sem
open Cert.ReferenceIdeal Cert.ReferenceIdeal.Gen

variable {F : FTy → Type} [FloatOps F]

/-- The reference's embedding of level j as a function of the six arguments, j = 10 … 0. -/
def refE10 (a0 : FVec F S131008x256 .f32) (a1 : IVec S65472x2 32) (a2 : FVec F S512x256 .f32) (a3 : FVec F S512 .f32)
    (a4 : FVec F S512x1536 .f32) (a5 : FVec F S512 .f32) : FVec F S65536x512 .f32 := refEmb9 (refU a0 a2 a3)

def refE9 (a0 : FVec F S131008x256 .f32) (a1 : IVec S65472x2 32) (a2 : FVec F S512x256 .f32) (a3 : FVec F S512 .f32)
    (a4 : FVec F S512x1536 .f32) (a5 : FVec F S512 .f32) : FVec F S32768x512 .f32 := refLin9 (refX9 (refE10 a0 a1 a2 a3 a4 a5) a1 (refU a0 a2 a3)) a4 a5

def refE8 (a0 : FVec F S131008x256 .f32) (a1 : IVec S65472x2 32) (a2 : FVec F S512x256 .f32) (a3 : FVec F S512 .f32)
    (a4 : FVec F S512x1536 .f32) (a5 : FVec F S512 .f32) : FVec F S16384x512 .f32 := refLin8 (refX8 (refE9 a0 a1 a2 a3 a4 a5) a1 (refU a0 a2 a3)) a4 a5

def refE7 (a0 : FVec F S131008x256 .f32) (a1 : IVec S65472x2 32) (a2 : FVec F S512x256 .f32) (a3 : FVec F S512 .f32)
    (a4 : FVec F S512x1536 .f32) (a5 : FVec F S512 .f32) : FVec F S8192x512 .f32 := refLin7 (refX7 (refE8 a0 a1 a2 a3 a4 a5) a1 (refU a0 a2 a3)) a4 a5

def refE6 (a0 : FVec F S131008x256 .f32) (a1 : IVec S65472x2 32) (a2 : FVec F S512x256 .f32) (a3 : FVec F S512 .f32)
    (a4 : FVec F S512x1536 .f32) (a5 : FVec F S512 .f32) : FVec F S4096x512 .f32 := refLin6 (refX6 (refE7 a0 a1 a2 a3 a4 a5) a1 (refU a0 a2 a3)) a4 a5

def refE5 (a0 : FVec F S131008x256 .f32) (a1 : IVec S65472x2 32) (a2 : FVec F S512x256 .f32) (a3 : FVec F S512 .f32)
    (a4 : FVec F S512x1536 .f32) (a5 : FVec F S512 .f32) : FVec F S2048x512 .f32 := refLin5 (refX5 (refE6 a0 a1 a2 a3 a4 a5) a1 (refU a0 a2 a3)) a4 a5

def refE4 (a0 : FVec F S131008x256 .f32) (a1 : IVec S65472x2 32) (a2 : FVec F S512x256 .f32) (a3 : FVec F S512 .f32)
    (a4 : FVec F S512x1536 .f32) (a5 : FVec F S512 .f32) : FVec F S1024x512 .f32 := refLin4 (refX4 (refE5 a0 a1 a2 a3 a4 a5) a1 (refU a0 a2 a3)) a4 a5

def refE3 (a0 : FVec F S131008x256 .f32) (a1 : IVec S65472x2 32) (a2 : FVec F S512x256 .f32) (a3 : FVec F S512 .f32)
    (a4 : FVec F S512x1536 .f32) (a5 : FVec F S512 .f32) : FVec F S512x512 .f32 := refLin3 (refX3 (refE4 a0 a1 a2 a3 a4 a5) a1 (refU a0 a2 a3)) a4 a5

def refE2 (a0 : FVec F S131008x256 .f32) (a1 : IVec S65472x2 32) (a2 : FVec F S512x256 .f32) (a3 : FVec F S512 .f32)
    (a4 : FVec F S512x1536 .f32) (a5 : FVec F S512 .f32) : FVec F S256x512 .f32 := refLin2 (refX2 (refE3 a0 a1 a2 a3 a4 a5) a1 (refU a0 a2 a3)) a4 a5

def refE1 (a0 : FVec F S131008x256 .f32) (a1 : IVec S65472x2 32) (a2 : FVec F S512x256 .f32) (a3 : FVec F S512 .f32)
    (a4 : FVec F S512x1536 .f32) (a5 : FVec F S512 .f32) : FVec F S128x512 .f32 := refLin1 (refX1 (refE2 a0 a1 a2 a3 a4 a5) a1 (refU a0 a2 a3)) a4 a5

def refE0 (a0 : FVec F S131008x256 .f32) (a1 : IVec S65472x2 32) (a2 : FVec F S512x256 .f32) (a3 : FVec F S512 .f32)
    (a4 : FVec F S512x1536 .f32) (a5 : FVec F S512 .f32) : FVec F S64x512 .f32 := refLin0 (refX0 (refE1 a0 a1 a2 a3 a4 a5) a1 (refU a0 a2 a3)) a4 a5

end Cert.ReferenceIdeal.RefValue

end
-- ==== Proof.RefLinIdx.lean ====
import proofs.«407834_j69114613728754_1_alg».proof.Proof.RefLevels
import Idealize.ShloMosaic.PureOps.Ideal.Laws
import Idealize.ShloMosaic.Lib.ValueIdx
import Idealize.ShloMosaic.Lib.Pipeline.Value
import Idealize.ShloMosaic.Lib.StackMember
import Idealize.ShloMosaic.Lib.IdealHost

noncomputable section

open Idealize.ShloMosaic Idealize.ShloMosaic.TcCoe Idealize.SL.Sem Idealize.ShloMosaic.ValueIdx

namespace Cert.ReferenceIdeal.RefValue

open Cert.ReferenceIdeal Cert.ReferenceIdeal.Gen

/-- relu (x · Wᵀ + b) at (r, h): the row's product with the weight's row h, plus the bias at h, or 0 if that is larger. -/
theorem lin_apply {n p q : ℕ} (hq : q ≠ 1) (ht : (⟨2, ![q, p]⟩ : Shape).Transposes [1, 0] ⟨2, ![p, q]⟩)
    (h₁ : (⟨1, ![q]⟩ : Shape).BroadcastsInDim ⟨2, ![1, q]⟩ ![1]) (h₂ : (⟨2, ![1, q]⟩ : Shape).BroadcastsInDim ⟨2, ![n, q]⟩ ![0, 1])
    (h₀ : (⟨0, ![]⟩ : Shape).BroadcastsInDim ⟨2, ![n, q]⟩ ![])
    (x : FVec Ideal ⟨2, ![n, p]⟩ .f32) (W : FVec Ideal ⟨2, ![q, p]⟩ .f32) (b : FVec Ideal ⟨1, ![q]⟩ .f32) (r : Fin n) (h : Fin q) :
    maximumf (addf (Host.dotGeneral (DotDims.plain n p q) none x (transpose ⟨2, ![p, q]⟩ [1, 0] W ht))
        (broadcastInDim ⟨2, ![n, q]⟩ ![0, 1] h₂ (broadcastInDim ⟨2, ![1, q]⟩ ![1] h₁ b)))
      (broadcastInDim ⟨2, ![n, q]⟩ ![] h₀ (constant (F := Ideal) ⟨0, ![]⟩ .f32 0x00000000#32)) (ix2 r h)
      = max ((∑ k : Fin p, x (ix2 r k) * W (ix2 h k)) + b (ix1 h)) 0 := by
  rw [maximumf_apply, addf_apply, StackMember.dotGeneral_plain_apply, broadcastInDim_scalar_apply, constant_apply, Ideal.ofBits_zero_f32,
    broadcastInDim_apply _ h₂ _ (ix2 r h) (ix2 (0 : Fin 1) h) (fun a => match a with
      | ⟨0, _⟩ => by show 0 = if (1 : ℕ) = 1 then 0 else r.val; rw [if_pos rfl]
      | ⟨1, _⟩ => by show h.val = if q = 1 then 0 else h.val; rw [if_neg hq]),
    broadcastInDim_apply _ h₁ b (ix2 (0 : Fin 1) h) (ix1 h) (fun a => match a with
      | ⟨0, _⟩ => by show h.val = if q = 1 then 0 else h.val; rw [if_neg hq])]
  refine congrArg (fun s => max (s + b (ix1 h)) 0) (Finset.sum_congr rfl fun k _ => ?_)
  rw [transpose_apply [1, 0] W ht (ix2 k h) (ix2 h k) (fun a => match a with
    | ⟨0, _⟩ => rfl
    | ⟨1, _⟩ => rfl)]

theorem refLin9_apply (x : FVec Ideal S32768x1536 .f32) (W_h : FVec Ideal S512x1536 .f32) (b_h : FVec Ideal S512 .f32) (r : Fin 32768) (h : Fin 512) :
    refLin9 (F := Ideal) x W_h b_h (ix2 r h) = max ((∑ k : Fin 1536, x (ix2 r k) * W_h (ix2 h k)) + b_h (ix1 h)) 0 :=
  lin_apply (by decide) _ _ _ _ x W_h b_h r h
theorem refLin8_apply (x : FVec Ideal S16384x1536 .f32) (W_h : FVec Ideal S512x1536 .f32) (b_h : FVec Ideal S512 .f32) (r : Fin 16384) (h : Fin 512) :
    refLin8 (F := Ideal) x W_h b_h (ix2 r h) = max ((∑ k : Fin 1536, x (ix2 r k) * W_h (ix2 h k)) + b_h (ix1 h)) 0 :=
  lin_apply (by decide) _ _ _ _ x W_h b_h r h
theorem refLin7_apply (x : FVec Ideal S8192x1536 .f32) (W_h : FVec Ideal S512x1536 .f32) (b_h : FVec Ideal S512 .f32) (r : Fin 8192) (h : Fin 512) :
    refLin7 (F := Ideal) x W_h b_h (ix2 r h) = max ((∑ k : Fin 1536, x (ix2 r k) * W_h (ix2 h k)) + b_h (ix1 h)) 0 :=
  lin_apply (by decide) _ _ _ _ x W_h b_h r h
theorem refLin6_apply (x : FVec Ideal S4096x1536 .f32) (W_h : FVec Ideal S512x1536 .f32) (b_h : FVec Ideal S512 .f32) (r : Fin 4096) (h : Fin 512) :
    refLin6 (F := Ideal) x W_h b_h (ix2 r h) = max ((∑ k : Fin 1536, x (ix2 r k) * W_h (ix2 h k)) + b_h (ix1 h)) 0 :=
  lin_apply (by decide) _ _ _ _ x W_h b_h r h
theorem refLin5_apply (x : FVec Ideal S2048x1536 .f32) (W_h : FVec Ideal S512x1536 .f32) (b_h : FVec Ideal S512 .f32) (r : Fin 2048) (h : Fin 512) :
    refLin5 (F := Ideal) x W_h b_h (ix2 r h) = max ((∑ k : Fin 1536, x (ix2 r k) * W_h (ix2 h k)) + b_h (ix1 h)) 0 :=
  lin_apply (by decide) _ _ _ _ x W_h b_h r h
theorem refLin4_apply (x : FVec Ideal S1024x1536 .f32) (W_h : FVec Ideal S512x1536 .f32) (b_h : FVec Ideal S512 .f32) (r : Fin 1024) (h : Fin 512) :
    refLin4 (F := Ideal) x W_h b_h (ix2 r h) = max ((∑ k : Fin 1536, x (ix2 r k) * W_h (ix2 h k)) + b_h (ix1 h)) 0 :=
  lin_apply (by decide) _ _ _ _ x W_h b_h r h
theorem refLin3_apply (x : FVec Ideal S512x1536 .f32) (W_h : FVec Ideal S512x1536 .f32) (b_h : FVec Ideal S512 .f32) (r : Fin 512) (h : Fin 512) :
    refLin3 (F := Ideal) x W_h b_h (ix2 r h) = max ((∑ k : Fin 1536, x (ix2 r k) * W_h (ix2 h k)) + b_h (ix1 h)) 0 :=
  lin_apply (by decide) _ _ _ _ x W_h b_h r h
theorem refLin2_apply (x : FVec Ideal S256x1536 .f32) (W_h : FVec Ideal S512x1536 .f32) (b_h : FVec Ideal S512 .f32) (r : Fin 256) (h : Fin 512) :
    refLin2 (F := Ideal) x W_h b_h (ix2 r h) = max ((∑ k : Fin 1536, x (ix2 r k) * W_h (ix2 h k)) + b_h (ix1 h)) 0 :=
  lin_apply (by decide) _ _ _ _ x W_h b_h r h
theorem refLin1_apply (x : FVec Ideal S128x1536 .f32) (W_h : FVec Ideal S512x1536 .f32) (b_h : FVec Ideal S512 .f32) (r : Fin 128) (h : Fin 512) :
    refLin1 (F := Ideal) x W_h b_h (ix2 r h) = max ((∑ k : Fin 1536, x (ix2 r k) * W_h (ix2 h k)) + b_h (ix1 h)) 0 :=
  lin_apply (by decide) _ _ _ _ x W_h b_h r h
theorem refLin0_apply (x : FVec Ideal S64x1536 .f32) (W_h : FVec Ideal S512x1536 .f32) (b_h : FVec Ideal S512 .f32) (r : Fin 64) (h : Fin 512) :
    refLin0 (F := Ideal) x W_h b_h (ix2 r h) = max ((∑ k : Fin 1536, x (ix2 r k) * W_h (ix2 h k)) + b_h (ix1 h)) 0 :=
  lin_apply (by decide) _ _ _ _ x W_h b_h r h
theorem refU_apply (contents : FVec Ideal S131008x256 .f32) (W_u : FVec Ideal S512x256 .f32) (b_u : FVec Ideal S512 .f32) (r : Fin 131008) (h : Fin 512) :
    refU (F := Ideal) contents W_u b_u (ix2 r h) = max ((∑ k : Fin 256, contents (ix2 r k) * W_u (ix2 h k)) + b_u (ix1 h)) 0 :=
  lin_apply (by decide) _ _ _ _ contents W_u b_u r h

end Cert.ReferenceIdeal.RefValue

end
-- ==== Proof.UBridge.lean ====
import proofs.«407834_j69114613728754_1_alg».proof.Proof.KLevels
import proofs.«407834_j69114613728754_1_alg».proof.Proof.RefLevels
import proofs.«407834_j69114613728754_1_alg».proof.Proof.RefLinIdx
import Idealize.ShloMosaic.PureOps.Ideal.Laws
import Idealize.ShloMosaic.Lib.ValueIdx
import Idealize.ShloMosaic.Lib.Pipeline.Value
import Idealize.ShloMosaic.Lib.KernelVsHost

noncomputable section

open Idealize.ShloMosaic Idealize.ShloMosaic.TcCoe Idealize.SL.Sem Idealize.ShloMosaic.ValueIdx

namespace Cert.Hand.Bridge

open Cert.KernelIdeal Cert.KernelIdeal.Gen Cert.KernelIdeal.KValue

theorem lt_pad (r : Fin 131008) : r.val < 131072 := by have := r.isLt; omega

theorem kBiasH_apply (b : FVec Ideal S512 .f32) (h : Fin 512) :
    kBiasH (F := Ideal) b (ix2 (0 : Fin 1) h) = b (ix1 h) := by
  unfold kBiasH
  exact shapeCast_apply b shapeCasts_S512_S1x512 (ix2 (0 : Fin 1) h) (ix1 h) (by
    rw [Shape.rowMajor_val_two, Shape.rowMajor_val_one]; show h.val = 0 * 512 + h.val; omega)

theorem kBiasU_apply (b : FVec Ideal S512 .f32) (h : Fin 512) :
    kBiasU (F := Ideal) b (ix2 (0 : Fin 1) h) = b (ix1 h) := by
  unfold kBiasU
  exact shapeCast_apply b shapeCasts_S512_S1x512 (ix2 (0 : Fin 1) h) (ix1 h) (by
    rw [Shape.rowMajor_val_two, Shape.rowMajor_val_one]; show h.val = 0 * 512 + h.val; omega)

theorem kU_apply (out0 : FVec Ideal S131072x512 .f32) (r : Fin 131008) (h : Fin 512) :
    kU (F := Ideal) out0 (ix2 r h) = out0 (ix2 (⟨r.val, lt_pad r⟩ : Fin 131072) h) := by
  unfold kU
  exact extractStridedSlice_apply ![0, 0] out0 slices_S131072x512_S131008x512_0_0 (ix2 r h) (ix2 (⟨r.val, lt_pad r⟩ : Fin 131072) h) (fun a => match a with
    | ⟨0, _⟩ => by show r.val = 0 + r.val; omega
    | ⟨1, _⟩ => by show h.val = 0 + h.val; omega)

theorem kPad_apply (contents : FVec Ideal S131008x256 .f32) (r : Fin 131008) (k : Fin 256) :
    kPad (F := Ideal) contents (ix2 (⟨r.val, lt_pad r⟩ : Fin 131072) k) = contents (ix2 r k) := by
  unfold kPad
  exact pad_apply_of_inside ![0, 0] ![64, 0] ![0, 0] contents _ pads_S131008x256_S131072x256_0640_000 h_S_ (ix2 (⟨r.val, lt_pad r⟩ : Fin 131072) k) (ix2 r k) (fun a => match a with
    | ⟨0, _⟩ => by show r.val = 0 + r.val * (0 + 1); omega
    | ⟨1, _⟩ => by show k.val = 0 + k.val * (0 + 1); omega)

theorem kEmb9_eq (u : FVec Ideal S131008x512 .f32) :
    kEmb9 (F := Ideal) u = Cert.ReferenceIdeal.RefValue.refEmb9 (F := Ideal) u := rfl

/-- Dropping the padding rows of the padded product gives the reference's node features. -/
theorem u_bridge (contents : FVec Ideal S131008x256 .f32) (W_u : FVec Ideal S512x256 .f32) (b_u : FVec Ideal S512 .f32)
    (out0 : FVec Ideal S131072x512 .f32)
    (hout : ∀ (r : Fin 131072) (h : Fin 512), out0 (ix2 r h)
      = max ((∑ k : Fin 256, kPad (F := Ideal) contents (ix2 r k) * W_u (ix2 h k)) + kBiasU (F := Ideal) b_u (ix2 (0 : Fin 1) h)) 0) :
    kU (F := Ideal) out0 = Cert.ReferenceIdeal.RefValue.refU (F := Ideal) contents W_u b_u := by
  funext j
  obtain ⟨r, h, rfl⟩ : ∃ (r : Fin 131008) (h : Fin 512), j = ix2 r h := ⟨j 0, j 1, eq_ix2 j⟩
  rw [kU_apply, hout, kBiasU_apply]
  refine Eq.trans ?_ (Cert.ReferenceIdeal.RefValue.refU_apply contents W_u b_u r h).symm
  refine congrArg (fun s => max (s + b_u (ix1 h)) 0) (Finset.sum_congr rfl fun k _ => ?_)
  rw [kPad_apply]

end Cert.Hand.Bridge
-- ==== Proof.PreRange.lean ====
import proofs.«407834_j69114613728754_1_alg».proof.Pre_finite_inputs
import Idealize.ShloMosaic.Lib.ReduceAll
import Idealize.ShloMosaic.Lib.ValueIdx
import Idealize.ShloMosaic.Lib.IdealHost

noncomputable section

namespace Cert.Hand.PreRange

open Idealize.ShloMosaic Idealize.ShloMosaic.ValueIdx
open Cert.Pre_finite_inputs

instance : Subsingleton S_.Idx := ⟨fun a b => funext fun d => d.elim0⟩

theorem toInt_zero32 : (0#32 : BitVec 32).toInt = 0 := by decide

theorem toInt_lit (B : Nat) (hB : B < 2 ^ 31) : (BitVec.ofNat 32 B).toInt = (B : Int) := by
  rw [BitVec.toInt_ofNat']
  exact Int.bmod_eq_of_le (by omega) (by omega)

/-- The two compare bits at a word say that it lies in [0, B], read signed. -/
theorem bits_iff (x : BitVec 32) (B : Nat) (hB : B < 2 ^ 31) :
    (IntOp.cmpi .sge x 0#32 = 1#1 ∧ IntOp.cmpi .sle x (BitVec.ofNat 32 B) = 1#1) ↔ (0 ≤ x.toInt ∧ x.toInt ≤ (B : Int)) := by
  rw [IntOp.cmpi_sge, IntOp.cmpi_sle, toInt_zero32, toInt_lit B hB]

theorem slt_zero_of_nonneg {x : BitVec 32} (h : 0 ≤ x.toInt) : IntOp.cmpi .slt x 0#32 = 0#1 := by
  apply eq_zero_of_ne_one
  rw [IntOp.cmpi_slt, toInt_zero32]
  omega

/-- A nonnegative index is left as it is by the wrap of negative ones. -/
theorem wrap_of_nonneg {x : BitVec 32} (h : 0 ≤ x.toInt) (size : BitVec 32) :
    Scalar.select (IntOp.cmpi .slt x 0#32) (IntOp.addi x size) x = x := by
  rw [slt_zero_of_nonneg h, select_zero]

theorem mask_of_range {x : BitVec 32} (B : Nat) (hB : B < 2 ^ 31) (h0 : 0 ≤ x.toInt) (h1 : x.toInt ≤ (B : Int)) :
    IntOp.andi (IntOp.cmpi .sge x 0#32) (IntOp.cmpi .sle x (BitVec.ofNat 32 B)) = 1#1 :=
  IntOp.andi_eq_one.2 ((bits_iff x B hB).2 ⟨h0, h1⟩)

/-- One level's conjunct, all (x ≥ 0 ∧ x ≤ B) over the slice x, puts every element of x in [0, B]. -/
theorem level_range {T : Shape} (x : IVec T 32) (B : Nat) (hB : B < 2 ^ 31) (hb : S_.BroadcastsInDim T ![])
    {axes : List (Fin T.rank)} (hr : T.ReducesTo axes S_) (h0 : 0 < S_.numel)
    (e : Host.reduce IntOp.andi
          (andi (cmpi .sge x (broadcastInDim T ![] hb (constantI S_ 32 0#32)))
                (cmpi .sle x (broadcastInDim T ![] hb (constantI S_ 32 (BitVec.ofNat 32 B)))))
          (constantI S_ 1 1#1) hr h0 ix0 = 1#1) (i : T.Idx) :
    0 ≤ (x i).toInt ∧ (x i).toInt ≤ (B : Int) := by
  have hi : IntOp.andi (IntOp.cmpi .sge (x i) (broadcastInDim T ![] hb (constantI S_ 32 0#32) i))
      (IntOp.cmpi .sle (x i) (broadcastInDim T ![] hb (constantI S_ 32 (BitVec.ofNat 32 B)) i)) = 1#1 :=
    Host.reduce_andi_all _ _ hr h0 ix0 e i
  rw [broadcastInDim_scalar_apply, broadcastInDim_scalar_apply] at hi
  exact (bits_iff (x i) B hB).1 (IntOp.andi_eq_one.1 hi)

theorem and0 (p q : IVec S_ 1) : andi p q ix0 = 1#1 ↔ p ix0 = 1#1 ∧ q ix0 = 1#1 := IntOp.andi_eq_one

variable [hF : Cert.Pre_finite_inputs.Facts]

abbrev kids0 (a1 : IVec S65472x2 32) : IVec S64x2 32 :=
  extractStridedSlice S64x2 ![0, 0] a1 Facts.slices_S65472x2_S64x2_0_0
abbrev kids1 (a1 : IVec S65472x2 32) : IVec S128x2 32 :=
  extractStridedSlice S128x2 ![64, 0] a1 Facts.slices_S65472x2_S128x2_64_0
abbrev kids2 (a1 : IVec S65472x2 32) : IVec S256x2 32 :=
  extractStridedSlice S256x2 ![192, 0] a1 Facts.slices_S65472x2_S256x2_192_0
abbrev kids3 (a1 : IVec S65472x2 32) : IVec S512x2 32 :=
  extractStridedSlice S512x2 ![448, 0] a1 Facts.slices_S65472x2_S512x2_448_0
abbrev kids4 (a1 : IVec S65472x2 32) : IVec S1024x2 32 :=
  extractStridedSlice S1024x2 ![960, 0] a1 Facts.slices_S65472x2_S1024x2_960_0
abbrev kids5 (a1 : IVec S65472x2 32) : IVec S2048x2 32 :=
  extractStridedSlice S2048x2 ![1984, 0] a1 Facts.slices_S65472x2_S2048x2_1984_0
abbrev kids6 (a1 : IVec S65472x2 32) : IVec S4096x2 32 :=
  extractStridedSlice S4096x2 ![4032, 0] a1 Facts.slices_S65472x2_S4096x2_4032_0
abbrev kids7 (a1 : IVec S65472x2 32) : IVec S8192x2 32 :=
  extractStridedSlice S8192x2 ![8128, 0] a1 Facts.slices_S65472x2_S8192x2_8128_0
abbrev kids8 (a1 : IVec S65472x2 32) : IVec S16384x2 32 :=
  extractStridedSlice S16384x2 ![16320, 0] a1 Facts.slices_S65472x2_S16384x2_16320_0
abbrev kids9 (a1 : IVec S65472x2 32) : IVec S32768x2 32 :=
  extractStridedSlice S32768x2 ![32704, 0] a1 Facts.slices_S65472x2_S32768x2_32704_0

variable {F : FTy → Type} [FloatOps F]
variable (a0 : FVec F S131008x256 .f32) (a1 : IVec S65472x2 32) (a2 : FVec F S512x256 .f32) (a3 : FVec F S512 .f32)
  (a4 : FVec F S512x1536 .f32) (a5 : FVec F S512 .f32)

/-- The precondition says, of every level, that its child indices lie in [0, 2n − 1]. -/
theorem all_levels (h : Cert.Pre_finite_inputs.fn (F := F) a0 a1 a2 a3 a4 a5 = (fun _ => 1#1)) :
    (∀ i : S64x2.Idx, 0 ≤ (kids0 a1 i).toInt ∧ (kids0 a1 i).toInt ≤ 127) ∧
    (∀ i : S128x2.Idx, 0 ≤ (kids1 a1 i).toInt ∧ (kids1 a1 i).toInt ≤ 255) ∧
    (∀ i : S256x2.Idx, 0 ≤ (kids2 a1 i).toInt ∧ (kids2 a1 i).toInt ≤ 511) ∧
    (∀ i : S512x2.Idx, 0 ≤ (kids3 a1 i).toInt ∧ (kids3 a1 i).toInt ≤ 1023) ∧
    (∀ i : S1024x2.Idx, 0 ≤ (kids4 a1 i).toInt ∧ (kids4 a1 i).toInt ≤ 2047) ∧
    (∀ i : S2048x2.Idx, 0 ≤ (kids5 a1 i).toInt ∧ (kids5 a1 i).toInt ≤ 4095) ∧
    (∀ i : S4096x2.Idx, 0 ≤ (kids6 a1 i).toInt ∧ (kids6 a1 i).toInt ≤ 8191) ∧
    (∀ i : S8192x2.Idx, 0 ≤ (kids7 a1 i).toInt ∧ (kids7 a1 i).toInt ≤ 16383) ∧
    (∀ i : S16384x2.Idx, 0 ≤ (kids8 a1 i).toInt ∧ (kids8 a1 i).toInt ≤ 32767) ∧
    (∀ i : S32768x2.Idx, 0 ≤ (kids9 a1 i).toInt ∧ (kids9 a1 i).toInt ≤ 65535) := by
  have e := congrFun h ix0
  dsimp only [Cert.Pre_finite_inputs.fn, fn_part1, fn_part2, fn_part3, fn_part4, fn_part5, fn_part6] at e
  simp only [and0] at e
  obtain ⟨⟨⟨⟨⟨⟨⟨⟨⟨⟨-, e0⟩, e1⟩, e2⟩, e3⟩, e4⟩, e5⟩, e6⟩, e7⟩, e8⟩, e9⟩ := e
  exact ⟨level_range _ 127 (by decide) _ _ _ e0,
    level_range _ 255 (by decide) _ _ _ e1,
    level_range _ 511 (by decide) _ _ _ e2,
    level_range _ 1023 (by decide) _ _ _ e3,
    level_range _ 2047 (by decide) _ _ _ e4,
    level_range _ 4095 (by decide) _ _ _ e5,
    level_range _ 8191 (by decide) _ _ _ e6,
    level_range _ 16383 (by decide) _ _ _ e7,
    level_range _ 32767 (by decide) _ _ _ e8,
    level_range _ 65535 (by decide) _ _ _ e9⟩

variable (h : Cert.Pre_finite_inputs.fn (F := F) a0 a1 a2 a3 a4 a5 = (fun _ => 1#1))
include h

theorem range_L0 (i : S64x2.Idx) : 0 ≤ (kids0 a1 i).toInt ∧ (kids0 a1 i).toInt ≤ 127 :=
  (all_levels a0 a1 a2 a3 a4 a5 h).1 i
theorem range_L1 (i : S128x2.Idx) : 0 ≤ (kids1 a1 i).toInt ∧ (kids1 a1 i).toInt ≤ 255 :=
  (all_levels a0 a1 a2 a3 a4 a5 h).2.1 i
theorem range_L2 (i : S256x2.Idx) : 0 ≤ (kids2 a1 i).toInt ∧ (kids2 a1 i).toInt ≤ 511 :=
  (all_levels a0 a1 a2 a3 a4 a5 h).2.2.1 i
theorem range_L3 (i : S512x2.Idx) : 0 ≤ (kids3 a1 i).toInt ∧ (kids3 a1 i).toInt ≤ 1023 :=
  (all_levels a0 a1 a2 a3 a4 a5 h).2.2.2.1 i
theorem range_L4 (i : S1024x2.Idx) : 0 ≤ (kids4 a1 i).toInt ∧ (kids4 a1 i).toInt ≤ 2047 :=
  (all_levels a0 a1 a2 a3 a4 a5 h).2.2.2.2.1 i
theorem range_L5 (i : S2048x2.Idx) : 0 ≤ (kids5 a1 i).toInt ∧ (kids5 a1 i).toInt ≤ 4095 :=
  (all_levels a0 a1 a2 a3 a4 a5 h).2.2.2.2.2.1 i
theorem range_L6 (i : S4096x2.Idx) : 0 ≤ (kids6 a1 i).toInt ∧ (kids6 a1 i).toInt ≤ 8191 :=
  (all_levels a0 a1 a2 a3 a4 a5 h).2.2.2.2.2.2.1 i
theorem range_L7 (i : S8192x2.Idx) : 0 ≤ (kids7 a1 i).toInt ∧ (kids7 a1 i).toInt ≤ 16383 :=
  (all_levels a0 a1 a2 a3 a4 a5 h).2.2.2.2.2.2.2.1 i
theorem range_L8 (i : S16384x2.Idx) : 0 ≤ (kids8 a1 i).toInt ∧ (kids8 a1 i).toInt ≤ 32767 :=
  (all_levels a0 a1 a2 a3 a4 a5 h).2.2.2.2.2.2.2.2.1 i
theorem range_L9 (i : S32768x2.Idx) : 0 ≤ (kids9 a1 i).toInt ∧ (kids9 a1 i).toInt ≤ 65535 :=
  (all_levels a0 a1 a2 a3 a4 a5 h).2.2.2.2.2.2.2.2.2 i

end Cert.Hand.PreRange

end
-- ==== Proof.TakeMask.lean ====
import proofs.«407834_j69114613728754_1_alg».proof.Proof.PreRange
import proofs.«407834_j69114613728754_1_alg».proof.Proof.RefLevels
import proofs.«407834_j69114613728754_1_alg».proof.Proof.KLevels

noncomputable section

namespace Cert.Hand.TakeMask

open Idealize.ShloMosaic Idealize.ShloMosaic.ValueIdx
open Cert.Hand.PreRange

theorem foldl_andi_ones {ι : Type} (f : ι → BitVec 1) (hf : ∀ n, f n = 1#1) :
    ∀ l : List ι, l.foldl (fun r n => IntOp.andi r (f n)) 1#1 = 1#1
  | [] => rfl
  | a :: l => by
    rw [List.foldl_cons, hf a, show IntOp.andi 1#1 1#1 = 1#1 from by decide]
    exact foldl_andi_ones f hf l

/-- A reduce by and, from 1, of an array that is all 1, is all 1. -/
theorem reduce_andi_ones {s t u : Shape} {axes : List (Fin s.rank)} (x : IVec s 1) (init : IVec u 1)
    (h : s.ReducesTo axes t) (hu : 0 < u.numel) (hx : ∀ i, x i = 1#1) (hinit : init (Shape.Idx.first hu) = 1#1) (j : t.Idx) :
    Host.reduce IntOp.andi x init h hu j = 1#1 := by
  rw [Host.reduce_eq_foldl, hinit]
  exact foldl_andi_ones x hx _

theorem select_ones {α : Type} {s : Shape} (c : IVec s 1) (a b : s.Idx → α) (hc : ∀ i, c i = 1#1) : select c a b = a := by
  funext i
  rw [select_apply, hc i, select_one]

/-- The wrap of negative indices leaves a vector of nonnegative words as it is. -/
theorem wrap_vec {s : Shape} (idx z sz : IVec s 32) (hz : ∀ p, z p = 0#32) (h : ∀ p, 0 ≤ (idx p).toInt) :
    select (cmpi .slt idx z) (addi idx sz) idx = idx := by
  funext p
  show Scalar.select (IntOp.cmpi .slt (idx p) (z p)) (IntOp.addi (idx p) (sz p)) (idx p) = idx p
  rw [hz p]
  exact wrap_of_nonneg (h p) (sz p)

/-- Every entry of a column cut out of a table and recast as a vector is an entry of the table. -/
theorem col_range {sRows sCol1 sCol : Shape} (rows : IVec sRows 32) (off : Fin sRows.rank → Nat) (hs : sRows.Slices off sCol1)
    (hc : sCol1.ShapeCasts sCol) (B : Int) (hr : ∀ i, 0 ≤ (rows i).toInt ∧ (rows i).toInt ≤ B) (p : sCol.Idx) :
    0 ≤ (shapeCast sCol (extractStridedSlice sCol1 off rows hs) hc p).toInt ∧
      (shapeCast sCol (extractStridedSlice sCol1 off rows hs) hc p).toInt ≤ B :=
  hr _

open Cert.KernelIdeal.KValue Cert.ReferenceIdeal.RefValue

variable [hF : Cert.Pre_finite_inputs.Facts] {F : FTy → Type} [FloatOps F]
variable (a0 : FVec F Cert.Pre_finite_inputs.S131008x256 .f32) (children : IVec Cert.Pre_finite_inputs.S65472x2 32)
  (a2 : FVec F Cert.Pre_finite_inputs.S512x256 .f32) (a3 : FVec F Cert.Pre_finite_inputs.S512 .f32)
  (a4 : FVec F Cert.Pre_finite_inputs.S512x1536 .f32) (a5 : FVec F Cert.Pre_finite_inputs.S512 .f32)
  (h : Cert.Pre_finite_inputs.fn (F := F) a0 children a2 a3 a4 a5 = (fun _ => 1#1))

/-- Over indices in [0, 65535] the wrap changes nothing and the fill-mode mask is all true, so the take is the bare gather. -/
theorem kTake9_eq (emb : FVec F Cert.KernelIdeal.S65536x512 .f32) (idx : IVec Cert.KernelIdeal.S32768 32)
    (hidx : ∀ p, 0 ≤ (idx p).toInt ∧ (idx p).toInt ≤ 65535) :
    kTake9 emb idx = Host.gather Cert.KernelIdeal.gather_S65536x512_S32768x1_S32768x512_1_0_n_n_0_1_1512 emb (kWrap9 idx) := by
  unfold kTake9
  refine select_ones _ _ _ fun i => ?_
  show kMask9 idx _ = 1#1
  unfold kMask9 kWrap9
  rw [wrap_vec idx (broadcastInDim Cert.KernelIdeal.S32768 ![] Cert.KernelIdeal.Gen.bcast_S_S32768 (constantI Cert.KernelIdeal.S_ 32 0#32)) _
    (fun _ => rfl) fun p => (hidx p).1]
  exact reduce_andi_ones _ _ _ _ (fun i => mask_of_range 65535 (by decide) (hidx _).1 (hidx _).2) rfl _

include h in
theorem kX9_eq (emb : FVec F Cert.KernelIdeal.S65536x512 .f32) (u : FVec F Cert.KernelIdeal.S131008x512 .f32) :
    kX9 emb children u = refX9 emb children u := by
  have hr := range_L9 a0 children a2 a3 a4 a5 h
  unfold kX9
  rw [kTake9_eq emb (kColL9 children) (col_range (kRows9 children) _ _ _ 65535 hr),
    kTake9_eq emb (kColR9 children) (col_range (kRows9 children) _ _ _ 65535 hr)]
  rfl

/-- Over indices in [0, 32767] the wrap changes nothing and the fill-mode mask is all true, so the take is the bare gather. -/
theorem kTake8_eq (emb : FVec F Cert.KernelIdeal.S32768x512 .f32) (idx : IVec Cert.KernelIdeal.S16384 32)
    (hidx : ∀ p, 0 ≤ (idx p).toInt ∧ (idx p).toInt ≤ 32767) :
    kTake8 emb idx = Host.gather Cert.KernelIdeal.gather_S32768x512_S16384x1_S16384x512_1_0_n_n_0_1_1512 emb (kWrap8 idx) := by
  unfold kTake8
  refine select_ones _ _ _ fun i => ?_
  show kMask8 idx _ = 1#1
  unfold kMask8 kWrap8
  rw [wrap_vec idx (broadcastInDim Cert.KernelIdeal.S16384 ![] Cert.KernelIdeal.Gen.bcast_S_S16384 (constantI Cert.KernelIdeal.S_ 32 0#32)) _
    (fun _ => rfl) fun p => (hidx p).1]
  exact reduce_andi_ones _ _ _ _ (fun i => mask_of_range 32767 (by decide) (hidx _).1 (hidx _).2) rfl _

include h in
theorem kX8_eq (emb : FVec F Cert.KernelIdeal.S32768x512 .f32) (u : FVec F Cert.KernelIdeal.S131008x512 .f32) :
    kX8 emb children u = refX8 emb children u := by
  have hr := range_L8 a0 children a2 a3 a4 a5 h
  unfold kX8
  rw [kTake8_eq emb (kColL8 children) (col_range (kRows8 children) _ _ _ 32767 hr),
    kTake8_eq emb (kColR8 children) (col_range (kRows8 children) _ _ _ 32767 hr)]
  rfl

/-- Over indices in [0, 16383] the wrap changes nothing and the fill-mode mask is all true, so the take is the bare gather. -/
theorem kTake7_eq (emb : FVec F Cert.KernelIdeal.S16384x512 .f32) (idx : IVec Cert.KernelIdeal.S8192 32)
    (hidx : ∀ p, 0 ≤ (idx p).toInt ∧ (idx p).toInt ≤ 16383) :
    kTake7 emb idx = Host.gather Cert.KernelIdeal.gather_S16384x512_S8192x1_S8192x512_1_0_n_n_0_1_1512 emb (kWrap7 idx) := by
  unfold kTake7
  refine select_ones _ _ _ fun i => ?_
  show kMask7 idx _ = 1#1
  unfold kMask7 kWrap7
  rw [wrap_vec idx (broadcastInDim Cert.KernelIdeal.S8192 ![] Cert.KernelIdeal.Gen.bcast_S_S8192 (constantI Cert.KernelIdeal.S_ 32 0#32)) _
    (fun _ => rfl) fun p => (hidx p).1]
  exact reduce_andi_ones _ _ _ _ (fun i => mask_of_range 16383 (by decide) (hidx _).1 (hidx _).2) rfl _

include h in
theorem kX7_eq (emb : FVec F Cert.KernelIdeal.S16384x512 .f32) (u : FVec F Cert.KernelIdeal.S131008x512 .f32) :
    kX7 emb children u = refX7 emb children u := by
  have hr := range_L7 a0 children a2 a3 a4 a5 h
  unfold kX7
  rw [kTake7_eq emb (kColL7 children) (col_range (kRows7 children) _ _ _ 16383 hr),
    kTake7_eq emb (kColR7 children) (col_range (kRows7 children) _ _ _ 16383 hr)]
  rfl

/-- Over indices in [0, 8191] the wrap changes nothing and the fill-mode mask is all true, so the take is the bare gather. -/
theorem kTake6_eq (emb : FVec F Cert.KernelIdeal.S8192x512 .f32) (idx : IVec Cert.KernelIdeal.S4096 32)
    (hidx : ∀ p, 0 ≤ (idx p).toInt ∧ (idx p).toInt ≤ 8191) :
    kTake6 emb idx = Host.gather Cert.KernelIdeal.gather_S8192x512_S4096x1_S4096x512_1_0_n_n_0_1_1512 emb (kWrap6 idx) := by
  unfold kTake6
  refine select_ones _ _ _ fun i => ?_
  show kMask6 idx _ = 1#1
  unfold kMask6 kWrap6
  rw [wrap_vec idx (broadcastInDim Cert.KernelIdeal.S4096 ![] Cert.KernelIdeal.Gen.bcast_S_S4096 (constantI Cert.KernelIdeal.S_ 32 0#32)) _
    (fun _ => rfl) fun p => (hidx p).1]
  exact reduce_andi_ones _ _ _ _ (fun i => mask_of_range 8191 (by decide) (hidx _).1 (hidx _).2) rfl _

include h in
theorem kX6_eq (emb : FVec F Cert.KernelIdeal.S8192x512 .f32) (u : FVec F Cert.KernelIdeal.S131008x512 .f32) :
    kX6 emb children u = refX6 emb children u := by
  have hr := range_L6 a0 children a2 a3 a4 a5 h
  unfold kX6
  rw [kTake6_eq emb (kColL6 children) (col_range (kRows6 children) _ _ _ 8191 hr),
    kTake6_eq emb (kColR6 children) (col_range (kRows6 children) _ _ _ 8191 hr)]
  rfl

/-- Over indices in [0, 4095] the wrap changes nothing and the fill-mode mask is all true, so the take is the bare gather. -/
theorem kTake5_eq (emb : FVec F Cert.KernelIdeal.S4096x512 .f32) (idx : IVec Cert.KernelIdeal.S2048 32)
    (hidx : ∀ p, 0 ≤ (idx p).toInt ∧ (idx p).toInt ≤ 4095) :
    kTake5 emb idx = Host.gather Cert.KernelIdeal.gather_S4096x512_S2048x1_S2048x512_1_0_n_n_0_1_1512 emb (kWrap5 idx) := by
  unfold kTake5
  refine select_ones _ _ _ fun i => ?_
  show kMask5 idx _ = 1#1
  unfold kMask5 kWrap5
  rw [wrap_vec idx (broadcastInDim Cert.KernelIdeal.S2048 ![] Cert.KernelIdeal.Gen.bcast_S_S2048 (constantI Cert.KernelIdeal.S_ 32 0#32)) _
    (fun _ => rfl) fun p => (hidx p).1]
  exact reduce_andi_ones _ _ _ _ (fun i => mask_of_range 4095 (by decide) (hidx _).1 (hidx _).2) rfl _

include h in
theorem kX5_eq (emb : FVec F Cert.KernelIdeal.S4096x512 .f32) (u : FVec F Cert.KernelIdeal.S131008x512 .f32) :
    kX5 emb children u = refX5 emb children u := by
  have hr := range_L5 a0 children a2 a3 a4 a5 h
  unfold kX5
  rw [kTake5_eq emb (kColL5 children) (col_range (kRows5 children) _ _ _ 4095 hr),
    kTake5_eq emb (kColR5 children) (col_range (kRows5 children) _ _ _ 4095 hr)]
  rfl

/-- Over indices in [0, 2047] the wrap changes nothing and the fill-mode mask is all true, so the take is the bare gather. -/
theorem kTake4_eq (emb : FVec F Cert.KernelIdeal.S2048x512 .f32) (idx : IVec Cert.KernelIdeal.S1024 32)
    (hidx : ∀ p, 0 ≤ (idx p).toInt ∧ (idx p).toInt ≤ 2047) :
    kTake4 emb idx = Host.gather Cert.KernelIdeal.gather_S2048x512_S1024x1_S1024x512_1_0_n_n_0_1_1512 emb (kWrap4 idx) := by
  unfold kTake4
  refine select_ones _ _ _ fun i => ?_
  show kMask4 idx _ = 1#1
  unfold kMask4 kWrap4
  rw [wrap_vec idx (broadcastInDim Cert.KernelIdeal.S1024 ![] Cert.KernelIdeal.Gen.bcast_S_S1024 (constantI Cert.KernelIdeal.S_ 32 0#32)) _
    (fun _ => rfl) fun p => (hidx p).1]
  exact reduce_andi_ones _ _ _ _ (fun i => mask_of_range 2047 (by decide) (hidx _).1 (hidx _).2) rfl _

include h in
theorem kX4_eq (emb : FVec F Cert.KernelIdeal.S2048x512 .f32) (u : FVec F Cert.KernelIdeal.S131008x512 .f32) :
    kX4 emb children u = refX4 emb children u := by
  have hr := range_L4 a0 children a2 a3 a4 a5 h
  unfold kX4
  rw [kTake4_eq emb (kColL4 children) (col_range (kRows4 children) _ _ _ 2047 hr),
    kTake4_eq emb (kColR4 children) (col_range (kRows4 children) _ _ _ 2047 hr)]
  rfl

/-- Over indices in [0, 1023] the wrap changes nothing and the fill-mode mask is all true, so the take is the bare gather. -/
theorem kTake3_eq (emb : FVec F Cert.KernelIdeal.S1024x512 .f32) (idx : IVec Cert.KernelIdeal.S512 32)
    (hidx : ∀ p, 0 ≤ (idx p).toInt ∧ (idx p).toInt ≤ 1023) :
    kTake3 emb idx = Host.gather Cert.KernelIdeal.gather_S1024x512_S512x1_S512x512_1_0_n_n_0_1_1512 emb (kWrap3 idx) := by
  unfold kTake3
  refine select_ones _ _ _ fun i => ?_
  show kMask3 idx _ = 1#1
  unfold kMask3 kWrap3
  rw [wrap_vec idx (broadcastInDim Cert.KernelIdeal.S512 ![] Cert.KernelIdeal.Gen.bcast_S_S512 (constantI Cert.KernelIdeal.S_ 32 0#32)) _
    (fun _ => rfl) fun p => (hidx p).1]
  exact reduce_andi_ones _ _ _ _ (fun i => mask_of_range 1023 (by decide) (hidx _).1 (hidx _).2) rfl _

include h in
theorem kX3_eq (emb : FVec F Cert.KernelIdeal.S1024x512 .f32) (u : FVec F Cert.KernelIdeal.S131008x512 .f32) :
    kX3 emb children u = refX3 emb children u := by
  have hr := range_L3 a0 children a2 a3 a4 a5 h
  unfold kX3
  rw [kTake3_eq emb (kColL3 children) (col_range (kRows3 children) _ _ _ 1023 hr),
    kTake3_eq emb (kColR3 children) (col_range (kRows3 children) _ _ _ 1023 hr)]
  rfl

/-- Over indices in [0, 511] the wrap changes nothing and the fill-mode mask is all true, so the take is the bare gather. -/
theorem kTake2_eq (emb : FVec F Cert.KernelIdeal.S512x512 .f32) (idx : IVec Cert.KernelIdeal.S256 32)
    (hidx : ∀ p, 0 ≤ (idx p).toInt ∧ (idx p).toInt ≤ 511) :
    kTake2 emb idx = Host.gather Cert.KernelIdeal.gather_S512x512_S256x1_S256x512_1_0_n_n_0_1_1512 emb (kWrap2 idx) := by
  unfold kTake2
  refine select_ones _ _ _ fun i => ?_
  show kMask2 idx _ = 1#1
  unfold kMask2 kWrap2
  rw [wrap_vec idx (broadcastInDim Cert.KernelIdeal.S256 ![] Cert.KernelIdeal.Gen.bcast_S_S256 (constantI Cert.KernelIdeal.S_ 32 0#32)) _
    (fun _ => rfl) fun p => (hidx p).1]
  exact reduce_andi_ones _ _ _ _ (fun i => mask_of_range 511 (by decide) (hidx _).1 (hidx _).2) rfl _

include h in
theorem kX2_eq (emb : FVec F Cert.KernelIdeal.S512x512 .f32) (u : FVec F Cert.KernelIdeal.S131008x512 .f32) :
    kX2 emb children u = refX2 emb children u := by
  have hr := range_L2 a0 children a2 a3 a4 a5 h
  unfold kX2
  rw [kTake2_eq emb (kColL2 children) (col_range (kRows2 children) _ _ _ 511 hr),
    kTake2_eq emb (kColR2 children) (col_range (kRows2 children) _ _ _ 511 hr)]
  rfl

/-- Over indices in [0, 255] the wrap changes nothing and the fill-mode mask is all true, so the take is the bare gather. -/
theorem kTake1_eq (emb : FVec F Cert.KernelIdeal.S256x512 .f32) (idx : IVec Cert.KernelIdeal.S128 32)
    (hidx : ∀ p, 0 ≤ (idx p).toInt ∧ (idx p).toInt ≤ 255) :
    kTake1 emb idx = Host.gather Cert.KernelIdeal.gather_S256x512_S128x1_S128x512_1_0_n_n_0_1_1512 emb (kWrap1 idx) := by
  unfold kTake1
  refine select_ones _ _ _ fun i => ?_
  show kMask1 idx _ = 1#1
  unfold kMask1 kWrap1
  rw [wrap_vec idx (broadcastInDim Cert.KernelIdeal.S128 ![] Cert.KernelIdeal.Gen.bcast_S_S128 (constantI Cert.KernelIdeal.S_ 32 0#32)) _
    (fun _ => rfl) fun p => (hidx p).1]
  exact reduce_andi_ones _ _ _ _ (fun i => mask_of_range 255 (by decide) (hidx _).1 (hidx _).2) rfl _

include h in
theorem kX1_eq (emb : FVec F Cert.KernelIdeal.S256x512 .f32) (u : FVec F Cert.KernelIdeal.S131008x512 .f32) :
    kX1 emb children u = refX1 emb children u := by
  have hr := range_L1 a0 children a2 a3 a4 a5 h
  unfold kX1
  rw [kTake1_eq emb (kColL1 children) (col_range (kRows1 children) _ _ _ 255 hr),
    kTake1_eq emb (kColR1 children) (col_range (kRows1 children) _ _ _ 255 hr)]
  rfl

/-- Over indices in [0, 127] the wrap changes nothing and the fill-mode mask is all true, so the take is the bare gather. -/
theorem kTake0_eq (emb : FVec F Cert.KernelIdeal.S128x512 .f32) (idx : IVec Cert.KernelIdeal.S64 32)
    (hidx : ∀ p, 0 ≤ (idx p).toInt ∧ (idx p).toInt ≤ 127) :
    kTake0 emb idx = Host.gather Cert.KernelIdeal.gather_S128x512_S64x1_S64x512_1_0_n_n_0_1_1512 emb (kWrap0 idx) := by
  unfold kTake0
  refine select_ones _ _ _ fun i => ?_
  show kMask0 idx _ = 1#1
  unfold kMask0 kWrap0
  rw [wrap_vec idx (broadcastInDim Cert.KernelIdeal.S64 ![] Cert.KernelIdeal.Gen.bcast_S_S64 (constantI Cert.KernelIdeal.S_ 32 0#32)) _
    (fun _ => rfl) fun p => (hidx p).1]
  exact reduce_andi_ones _ _ _ _ (fun i => mask_of_range 127 (by decide) (hidx _).1 (hidx _).2) rfl _

include h in
theorem kX0_eq (emb : FVec F Cert.KernelIdeal.S128x512 .f32) (u : FVec F Cert.KernelIdeal.S131008x512 .f32) :
    kX0 emb children u = refX0 emb children u := by
  have hr := range_L0 a0 children a2 a3 a4 a5 h
  unfold kX0
  rw [kTake0_eq emb (kColL0 children) (col_range (kRows0 children) _ _ _ 127 hr),
    kTake0_eq emb (kColR0 children) (col_range (kRows0 children) _ _ _ 127 hr)]
  rfl

end Cert.Hand.TakeMask

end
-- ==== Proof.LevelBridge.lean ====
import proofs.«407834_j69114613728754_1_alg».proof.Proof.TakeMask
import proofs.«407834_j69114613728754_1_alg».proof.Proof.RefLinIdx
import proofs.«407834_j69114613728754_1_alg».proof.Proof.UBridge
import Idealize.ShloMosaic.PureOps.Ideal.Laws
import Idealize.ShloMosaic.Lib.ValueIdx

noncomputable section

open Idealize.ShloMosaic Idealize.ShloMosaic.ValueIdx
open scoped BigOperators

namespace Cert.Hand.Bridge

open Cert.KernelIdeal
open Cert.KernelIdeal.KValue Cert.ReferenceIdeal.RefValue

/-- An array that reads at every (r, h) what a dense step reads there, with the bias given as a one-row matrix, is the dense step's. -/
theorem lin_join {n p q : ℕ} {x : FVec Ideal ⟨2, ![n, p]⟩ .f32} {W : FVec Ideal ⟨2, ![q, p]⟩ .f32} {b : FVec Ideal ⟨1, ![q]⟩ .f32}
    {bias : FVec Ideal ⟨2, ![1, q]⟩ .f32} {out ref : FVec Ideal ⟨2, ![n, q]⟩ .f32}
    (href : ∀ r h, ref (ix2 r h) = max ((∑ k : Fin p, x (ix2 r k) * W (ix2 h k)) + b (ix1 h)) 0)
    (hbias : ∀ h, bias (ix2 (0 : Fin 1) h) = b (ix1 h))
    (hout : ∀ r h, out (ix2 r h) = max ((∑ k : Fin p, x (ix2 r k) * W (ix2 h k)) + bias (ix2 (0 : Fin 1) h)) 0) : out = ref := by
  funext i
  obtain ⟨r, h, rfl⟩ : ∃ r h, i = ix2 r h := ⟨i 0, i 1, eq_ix2 i⟩
  rw [hout, hbias, href]

variable [hF : Cert.Pre_finite_inputs.Facts]
  (a0 : FVec Ideal Cert.Pre_finite_inputs.S131008x256 .f32) (children : IVec Cert.Pre_finite_inputs.S65472x2 32)
  (a2 : FVec Ideal Cert.Pre_finite_inputs.S512x256 .f32) (a3 : FVec Ideal Cert.Pre_finite_inputs.S512 .f32)
  (a4 : FVec Ideal Cert.Pre_finite_inputs.S512x1536 .f32) (a5 : FVec Ideal Cert.Pre_finite_inputs.S512 .f32)
  (h : Cert.Pre_finite_inputs.fn (F := Ideal) a0 children a2 a3 a4 a5 = (fun _ => 1#1))
include hF a0 children a2 a3 a4 a5 h

/-- Level 9: under the precondition the kernel's input rows are the reference's, so an array reading as the dense step on them is the level's embedding. -/
theorem level_bridge9 (emb : FVec Ideal S65536x512 .f32) (u : FVec Ideal S131008x512 .f32)
    (W_h : FVec Ideal S512x1536 .f32) (b_h : FVec Ideal S512 .f32) (out : FVec Ideal S32768x512 .f32)
    (hout : ∀ (r : Fin 32768) (q : Fin 512), out (ix2 r q)
      = max ((∑ k : Fin 1536, kX9 (F := Ideal) emb children u (ix2 r k) * W_h (ix2 q k)) + kBiasH (F := Ideal) b_h (ix2 (0 : Fin 1) q)) 0) :
    out = refLin9 (F := Ideal) (refX9 (F := Ideal) emb children u) W_h b_h := by
  rw [← Cert.Hand.TakeMask.kX9_eq a0 children a2 a3 a4 a5 h emb u]
  exact lin_join (refLin9_apply _ W_h b_h) (kBiasH_apply b_h) hout

theorem level_bridge8 (emb : FVec Ideal S32768x512 .f32) (u : FVec Ideal S131008x512 .f32)
    (W_h : FVec Ideal S512x1536 .f32) (b_h : FVec Ideal S512 .f32) (out : FVec Ideal S16384x512 .f32)
    (hout : ∀ (r : Fin 16384) (q : Fin 512), out (ix2 r q)
      = max ((∑ k : Fin 1536, kX8 (F := Ideal) emb children u (ix2 r k) * W_h (ix2 q k)) + kBiasH (F := Ideal) b_h (ix2 (0 : Fin 1) q)) 0) :
    out = refLin8 (F := Ideal) (refX8 (F := Ideal) emb children u) W_h b_h := by
  rw [← Cert.Hand.TakeMask.kX8_eq a0 children a2 a3 a4 a5 h emb u]
  exact lin_join (refLin8_apply _ W_h b_h) (kBiasH_apply b_h) hout

theorem level_bridge7 (emb : FVec Ideal S16384x512 .f32) (u : FVec Ideal S131008x512 .f32)
    (W_h : FVec Ideal S512x1536 .f32) (b_h : FVec Ideal S512 .f32) (out : FVec Ideal S8192x512 .f32)
    (hout : ∀ (r : Fin 8192) (q : Fin 512), out (ix2 r q)
      = max ((∑ k : Fin 1536, kX7 (F := Ideal) emb children u (ix2 r k) * W_h (ix2 q k)) + kBiasH (F := Ideal) b_h (ix2 (0 : Fin 1) q)) 0) :
    out = refLin7 (F := Ideal) (refX7 (F := Ideal) emb children u) W_h b_h := by
  rw [← Cert.Hand.TakeMask.kX7_eq a0 children a2 a3 a4 a5 h emb u]
  exact lin_join (refLin7_apply _ W_h b_h) (kBiasH_apply b_h) hout

theorem level_bridge6 (emb : FVec Ideal S8192x512 .f32) (u : FVec Ideal S131008x512 .f32)
    (W_h : FVec Ideal S512x1536 .f32) (b_h : FVec Ideal S512 .f32) (out : FVec Ideal S4096x512 .f32)
    (hout : ∀ (r : Fin 4096) (q : Fin 512), out (ix2 r q)
      = max ((∑ k : Fin 1536, kX6 (F := Ideal) emb children u (ix2 r k) * W_h (ix2 q k)) + kBiasH (F := Ideal) b_h (ix2 (0 : Fin 1) q)) 0) :
    out = refLin6 (F := Ideal) (refX6 (F := Ideal) emb children u) W_h b_h := by
  rw [← Cert.Hand.TakeMask.kX6_eq a0 children a2 a3 a4 a5 h emb u]
  exact lin_join (refLin6_apply _ W_h b_h) (kBiasH_apply b_h) hout

theorem level_bridge5 (emb : FVec Ideal S4096x512 .f32) (u : FVec Ideal S131008x512 .f32)
    (W_h : FVec Ideal S512x1536 .f32) (b_h : FVec Ideal S512 .f32) (out : FVec Ideal S2048x512 .f32)
    (hout : ∀ (r : Fin 2048) (q : Fin 512), out (ix2 r q)
      = max ((∑ k : Fin 1536, kX5 (F := Ideal) emb children u (ix2 r k) * W_h (ix2 q k)) + kBiasH (F := Ideal) b_h (ix2 (0 : Fin 1) q)) 0) :
    out = refLin5 (F := Ideal) (refX5 (F := Ideal) emb children u) W_h b_h := by
  rw [← Cert.Hand.TakeMask.kX5_eq a0 children a2 a3 a4 a5 h emb u]
  exact lin_join (refLin5_apply _ W_h b_h) (kBiasH_apply b_h) hout

theorem level_bridge4 (emb : FVec Ideal S2048x512 .f32) (u : FVec Ideal S131008x512 .f32)
    (W_h : FVec Ideal S512x1536 .f32) (b_h : FVec Ideal S512 .f32) (out : FVec Ideal S1024x512 .f32)
    (hout : ∀ (r : Fin 1024) (q : Fin 512), out (ix2 r q)
      = max ((∑ k : Fin 1536, kX4 (F := Ideal) emb children u (ix2 r k) * W_h (ix2 q k)) + kBiasH (F := Ideal) b_h (ix2 (0 : Fin 1) q)) 0) :
    out = refLin4 (F := Ideal) (refX4 (F := Ideal) emb children u) W_h b_h := by
  rw [← Cert.Hand.TakeMask.kX4_eq a0 children a2 a3 a4 a5 h emb u]
  exact lin_join (refLin4_apply _ W_h b_h) (kBiasH_apply b_h) hout

theorem level_bridge3 (emb : FVec Ideal S1024x512 .f32) (u : FVec Ideal S131008x512 .f32)
    (W_h : FVec Ideal S512x1536 .f32) (b_h : FVec Ideal S512 .f32) (out : FVec Ideal S512x512 .f32)
    (hout : ∀ (r : Fin 512) (q : Fin 512), out (ix2 r q)
      = max ((∑ k : Fin 1536, kX3 (F := Ideal) emb children u (ix2 r k) * W_h (ix2 q k)) + kBiasH (F := Ideal) b_h (ix2 (0 : Fin 1) q)) 0) :
    out = refLin3 (F := Ideal) (refX3 (F := Ideal) emb children u) W_h b_h := by
  rw [← Cert.Hand.TakeMask.kX3_eq a0 children a2 a3 a4 a5 h emb u]
  exact lin_join (refLin3_apply _ W_h b_h) (kBiasH_apply b_h) hout

theorem level_bridge2 (emb : FVec Ideal S512x512 .f32) (u : FVec Ideal S131008x512 .f32)
    (W_h : FVec Ideal S512x1536 .f32) (b_h : FVec Ideal S512 .f32) (out : FVec Ideal S256x512 .f32)
    (hout : ∀ (r : Fin 256) (q : Fin 512), out (ix2 r q)
      = max ((∑ k : Fin 1536, kX2 (F := Ideal) emb children u (ix2 r k) * W_h (ix2 q k)) + kBiasH (F := Ideal) b_h (ix2 (0 : Fin 1) q)) 0) :
    out = refLin2 (F := Ideal) (refX2 (F := Ideal) emb children u) W_h b_h := by
  rw [← Cert.Hand.TakeMask.kX2_eq a0 children a2 a3 a4 a5 h emb u]
  exact lin_join (refLin2_apply _ W_h b_h) (kBiasH_apply b_h) hout

theorem level_bridge1 (emb : FVec Ideal S256x512 .f32) (u : FVec Ideal S131008x512 .f32)
    (W_h : FVec Ideal S512x1536 .f32) (b_h : FVec Ideal S512 .f32) (out : FVec Ideal S128x512 .f32)
    (hout : ∀ (r : Fin 128) (q : Fin 512), out (ix2 r q)
      = max ((∑ k : Fin 1536, kX1 (F := Ideal) emb children u (ix2 r k) * W_h (ix2 q k)) + kBiasH (F := Ideal) b_h (ix2 (0 : Fin 1) q)) 0) :
    out = refLin1 (F := Ideal) (refX1 (F := Ideal) emb children u) W_h b_h := by
  rw [← Cert.Hand.TakeMask.kX1_eq a0 children a2 a3 a4 a5 h emb u]
  exact lin_join (refLin1_apply _ W_h b_h) (kBiasH_apply b_h) hout

theorem level_bridge0 (emb : FVec Ideal S128x512 .f32) (u : FVec Ideal S131008x512 .f32)
    (W_h : FVec Ideal S512x1536 .f32) (b_h : FVec Ideal S512 .f32) (out : FVec Ideal S64x512 .f32)
    (hout : ∀ (r : Fin 64) (q : Fin 512), out (ix2 r q)
      = max ((∑ k : Fin 1536, kX0 (F := Ideal) emb children u (ix2 r k) * W_h (ix2 q k)) + kBiasH (F := Ideal) b_h (ix2 (0 : Fin 1) q)) 0) :
    out = refLin0 (F := Ideal) (refX0 (F := Ideal) emb children u) W_h b_h := by
  rw [← Cert.Hand.TakeMask.kX0_eq a0 children a2 a3 a4 a5 h emb u]
  exact lin_join (refLin0_apply _ W_h b_h) (kBiasH_apply b_h) hout

end Cert.Hand.Bridge

end
-- ==== Proof.KIValue.lean ====
import proofs.«407834_j69114613728754_1_alg».proof.Proof.KIIn
import proofs.«407834_j69114613728754_1_alg».proof.Proof.KIVal0
import proofs.«407834_j69114613728754_1_alg».proof.Proof.KIVal1
import proofs.«407834_j69114613728754_1_alg».proof.Proof.KIVal2
import proofs.«407834_j69114613728754_1_alg».proof.Proof.KIVal3
import proofs.«407834_j69114613728754_1_alg».proof.Proof.KIVal4
import proofs.«407834_j69114613728754_1_alg».proof.Proof.KIVal5
import proofs.«407834_j69114613728754_1_alg».proof.Proof.KIVal6
import proofs.«407834_j69114613728754_1_alg».proof.Proof.KIVal7
import proofs.«407834_j69114613728754_1_alg».proof.Proof.KIVal8
import proofs.«407834_j69114613728754_1_alg».proof.Proof.KIVal9
import proofs.«407834_j69114613728754_1_alg».proof.Proof.KIVal10
import proofs.«407834_j69114613728754_1_alg».proof.Proof.KLevels
import proofs.«407834_j69114613728754_1_alg».proof.Proof.RefChain
import proofs.«407834_j69114613728754_1_alg».proof.Proof.UBridge
import proofs.«407834_j69114613728754_1_alg».proof.Proof.LevelBridge

noncomputable section

namespace Cert.KernelIdeal.Hand

open Cert.KernelIdeal Cert.KernelIdeal.Gen Cert.KernelIdeal.GenP
open Idealize.ShloMosaic Idealize.ShloMosaic.TcCoe Idealize.ShloMosaic.ValueIdx
open Idealize.SL Idealize.SL.Sem
open Cert.KernelIdeal.KValue Cert.ReferenceIdeal.RefValue Cert.Hand.Bridge
open scoped BigOperators

/-- An array read through its operands reads the same through what they equal. -/
theorem reads {n p q : ℕ} {X : FVec Ideal ⟨2, ![n, q]⟩ .f32} {x x' : FVec Ideal ⟨2, ![n, p]⟩ .f32} {w w' : FVec Ideal ⟨2, ![q, p]⟩ .f32}
    {b b' : FVec Ideal ⟨2, ![1, q]⟩ .f32}
    (e : ∀ r h, X (ix2 r h) = max ((∑ k : Fin p, x (ix2 r k) * w (ix2 h k)) + b (ix2 0 h)) 0) (hx : x = x') (hw : w = w') (hb : b = b') :
    ∀ r h, X (ix2 r h) = max ((∑ k : Fin p, x' (ix2 r k) * w' (ix2 h k)) + b' (ix2 0 h)) 0 := hx ▸ hw ▸ hb ▸ e

variable [hF : Cert.Pre_finite_inputs.Facts]
variable (m : (ℓ : Loc nD τ sig) → Buf (Elt Ideal) ℓ)

abbrev A0 (c : Dev nD) := m ((c : Thread nD τ).loc main_arg0)
abbrev A1 (c : Dev nD) := m ((c : Thread nD τ).loc main_arg1)
abbrev A2 (c : Dev nD) := m ((c : Thread nD τ).loc main_arg2)
abbrev A3 (c : Dev nD) := m ((c : Thread nD τ).loc main_arg3)
abbrev A4 (c : Dev nD) := m ((c : Thread nD τ).loc main_arg4)
abbrev A5 (c : Dev nD) := m ((c : Thread nD τ).loc main_arg5)

variable (c : Dev nD)

/-- Region 0 leaves an array whose rows are the reference's node features. -/
theorem val_u : kU (F := Ideal) (X0 m c) = refU (F := Ideal) (A0 m c) (A2 m c) (A3 m c) :=
  u_bridge _ _ _ _ (reads (arr0_apply (UV3 m) c) (in0_x m c) (in0_w m c) (in0_b m c))

variable (hpre : Cert.Pre_finite_inputs.fn (F := Ideal) (A0 m c) (A1 m c) (A2 m c) (A3 m c) (A4 m c) (A5 m c) = (fun _ => 1#1))
include hpre

/-- Under the precondition region K leaves the reference's embedding of level 10 − K: it reads the embedding of the level below, by induction. -/
theorem val1 : X1 m c = refE9 (F := Ideal) (A0 m c) (A1 m c) (A2 m c) (A3 m c) (A4 m c) (A5 m c) := by
  unfold refE9 refE10
  rw [← val_u m c, ← kEmb9_eq]
  exact level_bridge9 _ _ _ _ _ _ hpre _ _ _ _ _ (reads (arr1_apply (UV9 m) c) (in1_x m c) (in1_w m c) (in1_b m c))

theorem val2 : X2 m c = refE8 (F := Ideal) (A0 m c) (A1 m c) (A2 m c) (A3 m c) (A4 m c) (A5 m c) := by
  unfold refE8
  rw [← val_u m c, ← val1 m c hpre]
  exact level_bridge8 _ _ _ _ _ _ hpre _ _ _ _ _ (reads (arr2_apply (UV15 m) c) (in2_x m c) (in2_w m c) (in2_b m c))

theorem val3 : X3 m c = refE7 (F := Ideal) (A0 m c) (A1 m c) (A2 m c) (A3 m c) (A4 m c) (A5 m c) := by
  unfold refE7
  rw [← val_u m c, ← val2 m c hpre]
  exact level_bridge7 _ _ _ _ _ _ hpre _ _ _ _ _ (reads (arr3_apply (UV21 m) c) (in3_x m c) (in3_w m c) (in3_b m c))

theorem val4 : X4 m c = refE6 (F := Ideal) (A0 m c) (A1 m c) (A2 m c) (A3 m c) (A4 m c) (A5 m c) := by
  unfold refE6
  rw [← val_u m c, ← val3 m c hpre]
  exact level_bridge6 _ _ _ _ _ _ hpre _ _ _ _ _ (reads (arr4_apply (UV27 m) c) (in4_x m c) (in4_w m c) (in4_b m c))

theorem val5 : X5 m c = refE5 (F := Ideal) (A0 m c) (A1 m c) (A2 m c) (A3 m c) (A4 m c) (A5 m c) := by
  unfold refE5
  rw [← val_u m c, ← val4 m c hpre]
  exact level_bridge5 _ _ _ _ _ _ hpre _ _ _ _ _ (reads (arr5_apply (UV33 m) c) (in5_x m c) (in5_w m c) (in5_b m c))

theorem val6 : X6 m c = refE4 (F := Ideal) (A0 m c) (A1 m c) (A2 m c) (A3 m c) (A4 m c) (A5 m c) := by
  unfold refE4
  rw [← val_u m c, ← val5 m c hpre]
  exact level_bridge4 _ _ _ _ _ _ hpre _ _ _ _ _ (reads (arr6_apply (UV39 m) c) (in6_x m c) (in6_w m c) (in6_b m c))

theorem val7 : X7 m c = refE3 (F := Ideal) (A0 m c) (A1 m c) (A2 m c) (A3 m c) (A4 m c) (A5 m c) := by
  unfold refE3
  rw [← val_u m c, ← val6 m c hpre]
  exact level_bridge3 _ _ _ _ _ _ hpre _ _ _ _ _ (reads (arr7_apply (UV45 m) c) (in7_x m c) (in7_w m c) (in7_b m c))

theorem val8 : X8 m c = refE2 (F := Ideal) (A0 m c) (A1 m c) (A2 m c) (A3 m c) (A4 m c) (A5 m c) := by
  unfold refE2
  rw [← val_u m c, ← val7 m c hpre]
  exact level_bridge2 _ _ _ _ _ _ hpre _ _ _ _ _ (reads (arr8_apply (UV51 m) c) (in8_x m c) (in8_w m c) (in8_b m c))

theorem val9 : X9 m c = refE1 (F := Ideal) (A0 m c) (A1 m c) (A2 m c) (A3 m c) (A4 m c) (A5 m c) := by
  unfold refE1
  rw [← val_u m c, ← val8 m c hpre]
  exact level_bridge1 _ _ _ _ _ _ hpre _ _ _ _ _ (reads (arr9_apply (UV57 m) c) (in9_x m c) (in9_w m c) (in9_b m c))

theorem val10 : X10 m c = refE0 (F := Ideal) (A0 m c) (A1 m c) (A2 m c) (A3 m c) (A4 m c) (A5 m c) := by
  unfold refE0
  rw [← val_u m c, ← val9 m c hpre]
  exact level_bridge0 _ _ _ _ _ _ hpre _ _ _ _ _ (reads (arr10_apply (UV63 m) c) (in10_x m c) (in10_w m c) (in10_b m c))

end Cert.KernelIdeal.Hand

end
-- ==== Proof.RefRun.lean ====
import proofs.«407834_j69114613728754_1_alg».proof.Proof.RefChain
import Idealize.ShloMosaic.Lib.StableHlo.Run

noncomputable section

namespace Idealize.ShloMosaic.StableHlo

variable {nD : Nat} {τ : Topo} {sig : RefSig} {Val : EltTy → Type}

/-- The contents after two lines run one after the other. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl
theorem nary3_result' {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

macro "after_results_simp3" : tactic =>
  `(tactic| (simp (disch := decide) only [after_cons, after_nil,
      nullary_result', unary_result', binary_result', ternary_result', quaternary_result', reshape_result', nary3_result', nary4_result', nary_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo
namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The six arguments: no stretch writes them. -/
abbrev args : List (Ref sig .tc) := [main_arg0, main_arg1, main_arg2, main_arg3, main_arg4, main_arg5]

abbrev opsU : List (HloOp τ sig (Elt F)) :=
  [ unary main_arg2 main_v0 ((transpose S256x512 [1, 0] · transposes_S512x256_S256x512_1_0) : (⟨S512x256, .f32⟩ : BufTy).Contents (Elt F) → (⟨S256x512, .f32⟩ : BufTy).Contents (Elt F)),
    binary main_arg0 main_v0 main_v1 ((fun l r => Host.dotGeneral dot_S131008x256_S256x512_S131008x512_1_0_0_1_n_n none l r) : (⟨S131008x256, .f32⟩ : BufTy).Contents (Elt F) → (⟨S256x512, .f32⟩ : BufTy).Contents (Elt F) → (⟨S131008x512, .f32⟩ : BufTy).Contents (Elt F)),
    unary main_arg3 main_v2 (broadcastInDim S1x512 ![1] bcast_S512_S1x512_1 : (⟨S512, .f32⟩ : BufTy).Contents (Elt F) → (⟨S1x512, .f32⟩ : BufTy).Contents (Elt F)),
    unary main_v2 main_v3 (broadcastInDim S131008x512 ![0, 1] bcast_S1x512_S131008x512_0_1 : (⟨S1x512, .f32⟩ : BufTy).Contents (Elt F) → (⟨S131008x512, .f32⟩ : BufTy).Contents (Elt F)),
    binary main_v1 main_v3 main_v4 (addf : (⟨S131008x512, .f32⟩ : BufTy).Contents (Elt F) → (⟨S131008x512, .f32⟩ : BufTy).Contents (Elt F) → (⟨S131008x512, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S131008x512, .f32⟩) main_call0_v0) (broadcastInDim S131008x512 ![] bcast_S_S131008x512),
    TRef.binary (TRef.of (T := ⟨S131008x512, .f32⟩) main_v4) (TRef.of (T := ⟨S131008x512, .f32⟩) main_call0_v0) (TRef.of (T := ⟨S131008x512, .f32⟩) main_v5) maximumf,
    unary main_v5 main_v6 ((extractStridedSlice S65536x512 ![65472, 0] · slices_S131008x512_S65536x512_65472_0) : (⟨S131008x512, .f32⟩ : BufTy).Contents (Elt F) → (⟨S65536x512, .f32⟩ : BufTy).Contents (Elt F)) ]

theorem opsU_sub : (opsU : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub ..⟩

theorem opsU_fresh : ∀ op ∈ (opsU : List (HloOp τ sig (Elt F))), op.fresh = ∅ := by
  intro _ h; (repeat (cases h with | head => rfl | tail _ h => ?_)); exact nomatch h

variable (V : Valuation τ sig (Elt F))

theorem opsU_out :
    after opsU V main_v6 = refEmb9 (refU (V main_arg0) (V main_arg2) (V main_arg3)) := by
  after_results_simp3 <;> rfl
theorem opsU_v5 : after opsU V main_v5 = refU (V main_arg0) (V main_arg2) (V main_arg3) := by
  after_results_simp3 <;> rfl
theorem opsU_keep {r : Ref sig .tc} (hr : r ∈ args) : after opsU V r = V r := by
  (repeat (cases hr with | head => (after_results_simp3 <;> rfl) | tail _ hr => ?_)); exact nomatch hr

/-- The buffers after the first stretch. -/
def WL10 : Valuation τ sig (Elt F) := after opsU V

theorem WL10_out : WL10 V main_v6 = refE10 (V main_arg0) (V main_arg1) (V main_arg2) (V main_arg3) (V main_arg4) (V main_arg5) := by
  unfold WL10 refE10; exact opsU_out V
theorem WL10_v5 : WL10 V main_v5 = refU (V main_arg0) (V main_arg2) (V main_arg3) :=
  opsU_v5 V
theorem WL10_arg {r : Ref sig .tc} (hr : r ∈ args) : WL10 V r = V r :=
  opsU_keep V hr

abbrev opsL9 : List (HloOp τ sig (Elt F)) :=
  [ unary main_arg1 main_v7 ((extractStridedSlice S32768x2 ![32704, 0] · slices_S65472x2_S32768x2_32704_0) : (⟨S65472x2, .i32⟩ : BufTy).Contents (Elt F) → (⟨S32768x2, .i32⟩ : BufTy).Contents (Elt F)),
    unary main_v7 main_v8 ((extractStridedSlice S32768x1 ![0, 0] · slices_S32768x2_S32768x1_0_0) : (⟨S32768x2, .i32⟩ : BufTy).Contents (Elt F) → (⟨S32768x1, .i32⟩ : BufTy).Contents (Elt F)),
    reshape main_v8 main_v9 rfl shapeCasts_S32768x1_S32768,
    nullary main_c (constantI S_ 32 0#32),
    unary main_c main_v10 (broadcastInDim S32768 ![] bcast_S_S32768 : (⟨S_, .i32⟩ : BufTy).Contents (Elt F) → (⟨S32768, .i32⟩ : BufTy).Contents (Elt F)),
    binary main_v9 main_v10 main_v11 (cmpi .slt : (⟨S32768, .i32⟩ : BufTy).Contents (Elt F) → (⟨S32768, .i32⟩ : BufTy).Contents (Elt F) → (⟨S32768, .i1⟩ : BufTy).Contents (Elt F)),
    nullary main_c_0 (constantI S_ 32 65536#32),
    unary main_c_0 main_v12 (broadcastInDim S32768 ![] bcast_S_S32768 : (⟨S_, .i32⟩ : BufTy).Contents (Elt F) → (⟨S32768, .i32⟩ : BufTy).Contents (Elt F)),
    binary main_v9 main_v12 main_v13 (addi : (⟨S32768, .i32⟩ : BufTy).Contents (Elt F) → (⟨S32768, .i32⟩ : BufTy).Contents (Elt F) → (⟨S32768, .i32⟩ : BufTy).Contents (Elt F)),
    ternary main_v11 main_v13 main_v9 main_v14 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v14 main_v15 (broadcastInDim S32768x1 ![0] bcast_S32768_S32768x1_0 : (⟨S32768, .i32⟩ : BufTy).Contents (Elt F) → (⟨S32768x1, .i32⟩ : BufTy).Contents (Elt F)),
    binary main_v6 main_v15 main_v16 ((fun x i => Host.gather gather_S65536x512_S32768x1_S32768x512_1_0_n_n_0_1_1512 x i) : (⟨S65536x512, .f32⟩ : BufTy).Contents (Elt F) → (⟨S32768x1, .i32⟩ : BufTy).Contents (Elt F) → (⟨S32768x512, .f32⟩ : BufTy).Contents (Elt F)),
    unary main_v7 main_v17 ((extractStridedSlice S32768x1 ![0, 1] · slices_S32768x2_S32768x1_0_1) : (⟨S32768x2, .i32⟩ : BufTy).Contents (Elt F) → (⟨S32768x1, .i32⟩ : BufTy).Contents (Elt F)),
    reshape main_v17 main_v18 rfl shapeCasts_S32768x1_S32768,
    nullary main_c_1 (constantI S_ 32 0#32),
    unary main_c_1 main_v19 (broadcastInDim S32768 ![] bcast_S_S32768 : (⟨S_, .i32⟩ : BufTy).Contents (Elt F) → (⟨S32768, .i32⟩ : BufTy).Contents (Elt F)),
    binary main_v18 main_v19 main_v20 (cmpi .slt : (⟨S32768, .i32⟩ : BufTy).Contents (Elt F) → (⟨S32768, .i32⟩ : BufTy).Contents (Elt F) → (⟨S32768, .i1⟩ : BufTy).Contents (Elt F)),
    nullary main_c_2 (constantI S_ 32 65536#32),
    unary main_c_2 main_v21 (broadcastInDim S32768 ![] bcast_S_S32768 : (⟨S_, .i32⟩ : BufTy).Contents (Elt F) → (⟨S32768, .i32⟩ : BufTy).Contents (Elt F)),
    binary main_v18 main_v21 main_v22 (addi : (⟨S32768, .i32⟩ : BufTy).Contents (Elt F) → (⟨S32768, .i32⟩ : BufTy).Contents (Elt F) → (⟨S32768, .i32⟩ : BufTy).Contents (Elt F)),
    ternary main_v20 main_v22 main_v18 main_v23 (select : (⟨S32768, .i1⟩ : BufTy).Contents (Elt F) → (⟨S32768, .i32⟩ : BufTy).Contents (Elt F) → (⟨S32768, .i32⟩ : BufTy).Contents (Elt F) → (⟨S32768, .i32⟩ : BufTy).Contents (Elt F)),
    unary main_v23 main_v24 (broadcastInDim S32768x1 ![0] bcast_S32768_S32768x1_0 : (⟨S32768, .i32⟩ : BufTy).Contents (Elt F) → (⟨S32768x1, .i32⟩ : BufTy).Contents (Elt F)),
    binary main_v6 main_v24 main_v25 ((fun x i => Host.gather gather_S65536x512_S32768x1_S32768x512_1_0_n_n_0_1_1512 x i) : (⟨S65536x512, .f32⟩ : BufTy).Contents (Elt F) → (⟨S32768x1, .i32⟩ : BufTy).Contents (Elt F) → (⟨S32768x512, .f32⟩ : BufTy).Contents (Elt F)),
    unary main_v5 main_v26 ((extractStridedSlice S32768x512 ![32704, 0] · slices_S131008x512_S32768x512_32704_0) : (⟨S131008x512, .f32⟩ : BufTy).Contents (Elt F) → (⟨S32768x512, .f32⟩ : BufTy).Contents (Elt F)),
    nary ![main_v16, main_v25, main_v26] main_v27 (fun u => concatenate S32768x1536 1 [⟨S32768x512, u 0⟩, ⟨S32768x512, u 1⟩, ⟨S32768x512, u 2⟩] concatenates_S32768x512_S32768x512_S32768x512_S32768x1536_d1),
    unary main_arg4 main_v28 ((transpose S1536x512 [1, 0] · transposes_S512x1536_S1536x512_1_0) : (⟨S512x1536, .f32⟩ : BufTy).Contents (Elt F) → (⟨S1536x512, .f32⟩ : BufTy).Contents (Elt F)),
    binary main_v27 main_v28 main_v29 ((fun l r => Host.dotGeneral dot_S32768x1536_S1536x512_S32768x512_1_0_0_1_n_n none l r) : (⟨S32768x1536, .f32⟩ : BufTy).Contents (Elt F) → (⟨S1536x512, .f32⟩ : BufTy).Contents (Elt F) → (⟨S32768x512, .f32⟩ : BufTy).Contents (Elt F)),
    unary main_arg5 main_v30 (broadcastInDim S1x512 ![1] bcast_S512_S1x512_1 : (⟨S512, .f32⟩ : BufTy).Contents (Elt F) → (⟨S1x512, .f32⟩ : BufTy).Contents (Elt F)),
    unary main_v30 main_v31 (broadcastInDim S32768x512 ![0, 1] bcast_S1x512_S32768x512_0_1 : (⟨S1x512, .f32⟩ : BufTy).Contents (Elt F) → (⟨S32768x512, .f32⟩ : BufTy).Contents (Elt F)),
    binary main_v29 main_v31 main_v32 (addf : (⟨S32768x512, .f32⟩ : BufTy).Contents (Elt F) → (⟨S32768x512, .f32⟩ : BufTy).Contents (Elt F) → (⟨S32768x512, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S32768x512, .f32⟩) main_call1_v0) (broadcastInDim S32768x512 ![] bcast_S_S32768x512),
    TRef.binary (TRef.of (T := ⟨S32768x512, .f32⟩) main_v32) (TRef.of (T := ⟨S32768x512, .f32⟩) main_call1_v0) (TRef.of (T := ⟨S32768x512, .f32⟩) main_v33) maximumf ]

theorem opsL9_sub : (opsL9 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL9_fresh : ∀ op ∈ (opsL9 : List (HloOp τ sig (Elt F))), op.fresh = ∅ := by
  intro _ h; (repeat (cases h with | head => rfl | tail _ h => ?_)); exact nomatch h

set_option maxHeartbeats 4000000 in
theorem opsL9_out :
    after opsL9 V main_v33 = refLin9 (refX9 (V main_v6) (V main_arg1) (V main_v5)) (V main_arg4) (V main_arg5) := by
  after_results_simp3 <;> rfl

/-- The level writes neither the node features nor the six arguments. -/
theorem opsL9_keep {r : Ref sig .tc} (hr : r ∈ main_v5 :: args) : after opsL9 V r = V r := by
  (repeat (cases hr with | head => (after_results_simp3 <;> rfl) | tail _ hr => ?_)); exact nomatch hr

/-- The buffers after level 9. -/
def WL9 : Valuation τ sig (Elt F) := after opsL9 (WL10 V)

theorem WL9_arg {r : Ref sig .tc} (hr : r ∈ args) : WL9 V r = V r :=
  (opsL9_keep _ (.tail _ hr)).trans (WL10_arg V hr)
theorem WL9_v5 : WL9 V main_v5 = refU (V main_arg0) (V main_arg2) (V main_arg3) :=
  (opsL9_keep _ (.head _)).trans (WL10_v5 V)
theorem WL9_out : WL9 V main_v33 = refE9 (V main_arg0) (V main_arg1) (V main_arg2) (V main_arg3) (V main_arg4) (V main_arg5) := by
  unfold WL9 refE9
  rw [opsL9_out, WL10_out, WL10_arg V (r := main_arg1) (by decide), WL10_v5, WL10_arg V (r := main_arg4) (by decide),
    WL10_arg V (r := main_arg5) (by decide)]

abbrev opsL8 : List (HloOp τ sig (Elt F)) :=
  [ unary main_arg1 main_v34 ((extractStridedSlice S16384x2 ![16320, 0] · slices_S65472x2_S16384x2_16320_0) : (⟨S65472x2, .i32⟩ : BufTy).Contents (Elt F) → (⟨S16384x2, .i32⟩ : BufTy).Contents (Elt F)),
    unary main_v34 main_v35 ((extractStridedSlice S16384x1 ![0, 0] · slices_S16384x2_S16384x1_0_0) : (⟨S16384x2, .i32⟩ : BufTy).Contents (Elt F) → (⟨S16384x1, .i32⟩ : BufTy).Contents (Elt F)),
    reshape main_v35 main_v36 rfl shapeCasts_S16384x1_S16384,
    nullary main_c_3 (constantI S_ 32 0#32),
    unary main_c_3 main_v37 (broadcastInDim S16384 ![] bcast_S_S16384 : (⟨S_, .i32⟩ : BufTy).Contents (Elt F) → (⟨S16384, .i32⟩ : BufTy).Contents (Elt F)),
    binary main_v36 main_v37 main_v38 (cmpi .slt : (⟨S16384, .i32⟩ : BufTy).Contents (Elt F) → (⟨S16384, .i32⟩ : BufTy).Contents (Elt F) → (⟨S16384, .i1⟩ : BufTy).Contents (Elt F)),
    nullary main_c_4 (constantI S_ 32 32768#32),
    unary main_c_4 main_v39 (broadcastInDim S16384 ![] bcast_S_S16384 : (⟨S_, .i32⟩ : BufTy).Contents (Elt F) → (⟨S16384, .i32⟩ : BufTy).Contents (Elt F)),
    binary main_v36 main_v39 main_v40 (addi : (⟨S16384, .i32⟩ : BufTy).Contents (Elt F) → (⟨S16384, .i32⟩ : BufTy).Contents (Elt F) → (⟨S16384, .i32⟩ : BufTy).Contents (Elt F)),
    ternary main_v38 main_v40 main_v36 main_v41 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v41 main_v42 (broadcastInDim S16384x1 ![0] bcast_S16384_S16384x1_0 : (⟨S16384, .i32⟩ : BufTy).Contents (Elt F) → (⟨S16384x1, .i32⟩ : BufTy).Contents (Elt F)),
    binary main_v33 main_v42 main_v43 ((fun x i => Host.gather gather_S32768x512_S16384x1_S16384x512_1_0_n_n_0_1_1512 x i) : (⟨S32768x512, .f32⟩ : BufTy).Contents (Elt F) → (⟨S16384x1, .i32⟩ : BufTy).Contents (Elt F) → (⟨S16384x512, .f32⟩ : BufTy).Contents (Elt F)),
    unary main_v34 main_v44 ((extractStridedSlice S16384x1 ![0, 1] · slices_S16384x2_S16384x1_0_1) : (⟨S16384x2, .i32⟩ : BufTy).Contents (Elt F) → (⟨S16384x1, .i32⟩ : BufTy).Contents (Elt F)),
    reshape main_v44 main_v45 rfl shapeCasts_S16384x1_S16384,
    nullary main_c_5 (constantI S_ 32 0#32),
    unary main_c_5 main_v46 (broadcastInDim S16384 ![] bcast_S_S16384 : (⟨S_, .i32⟩ : BufTy).Contents (Elt F) → (⟨S16384, .i32⟩ : BufTy).Contents (Elt F)),
    binary main_v45 main_v46 main_v47 (cmpi .slt : (⟨S16384, .i32⟩ : BufTy).Contents (Elt F) → (⟨S16384, .i32⟩ : BufTy).Contents (Elt F) → (⟨S16384, .i1⟩ : BufTy).Contents (Elt F)),
    nullary main_c_6 (constantI S_ 32 32768#32),
    unary main_c_6 main_v48 (broadcastInDim S16384 ![] bcast_S_S16384 : (⟨S_, .i32⟩ : BufTy).Contents (Elt F) → (⟨S16384, .i32⟩ : BufTy).Contents (Elt F)),
    binary main_v45 main_v48 main_v49 (addi : (⟨S16384, .i32⟩ : BufTy).Contents (Elt F) → (⟨S16384, .i32⟩ : BufTy).Contents (Elt F) → (⟨S16384, .i32⟩ : BufTy).Contents (Elt F)),
    ternary main_v47 main_v49 main_v45 main_v50 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    unary main_v50 main_v51 (broadcastInDim S16384x1 ![0] bcast_S16384_S16384x1_0 : (⟨S16384, .i32⟩ : BufTy).Contents (Elt F) → (⟨S16384x1, .i32⟩ : BufTy).Contents (Elt F)),
    binary main_v33 main_v51 main_v52 ((fun x i => Host.gather gather_S32768x512_S16384x1_S16384x512_1_0_n_n_0_1_1512 x i) : (⟨S32768x512, .f32⟩ : BufTy).Contents (Elt F) → (⟨S16384x1, .i32⟩ : BufTy).Contents (Elt F) → (⟨S16384x512, .f32⟩ : BufTy).Contents (Elt F)),
    unary main_v5 main_v53 ((extractStridedSlice S16384x512 ![16320, 0] · slices_S131008x512_S16384x512_16320_0) : (⟨S131008x512, .f32⟩ : BufTy).Contents (Elt F) → (⟨S16384x512, .f32⟩ : BufTy).Contents (Elt F)),
    nary ![main_v43, main_v52, main_v53] main_v54 (fun u => concatenate S16384x1536 1 [⟨S16384x512, u 0⟩, ⟨S16384x512, u 1⟩, ⟨S16384x512, u 2⟩] concatenates_S16384x512_S16384x512_S16384x512_S16384x1536_d1),
    unary main_arg4 main_v55 ((transpose S1536x512 [1, 0] · transposes_S512x1536_S1536x512_1_0) : (⟨S512x1536, .f32⟩ : BufTy).Contents (Elt F) → (⟨S1536x512, .f32⟩ : BufTy).Contents (Elt F)),
    binary main_v54 main_v55 main_v56 ((fun l r => Host.dotGeneral dot_S16384x1536_S1536x512_S16384x512_1_0_0_1_n_n none l r) : (⟨S16384x1536, .f32⟩ : BufTy).Contents (Elt F) → (⟨S1536x512, .f32⟩ : BufTy).Contents (Elt F) → (⟨S16384x512, .f32⟩ : BufTy).Contents (Elt F)),
    unary main_arg5 main_v57 (broadcastInDim S1x512 ![1] bcast_S512_S1x512_1 : (⟨S512, .f32⟩ : BufTy).Contents (Elt F) → (⟨S1x512, .f32⟩ : BufTy).Contents (Elt F)),
    unary main_v57 main_v58 (broadcastInDim S16384x512 ![0, 1] bcast_S1x512_S16384x512_0_1 : (⟨S1x512, .f32⟩ : BufTy).Contents (Elt F) → (⟨S16384x512, .f32⟩ : BufTy).Contents (Elt F)),
    binary main_v56 main_v58 main_v59 (addf : (⟨S16384x512, .f32⟩ : BufTy).Contents (Elt F) → (⟨S16384x512, .f32⟩ : BufTy).Contents (Elt F) → (⟨S16384x512, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16384x512, .f32⟩) main_call2_v0) (broadcastInDim S16384x512 ![] bcast_S_S16384x512),
    TRef.binary (TRef.of (T := ⟨S16384x512, .f32⟩) main_v59) (TRef.of (T := ⟨S16384x512, .f32⟩) main_call2_v0) (TRef.of (T := ⟨S16384x512, .f32⟩) main_v60) maximumf ]

theorem opsL8_sub : (opsL8 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL8_fresh : ∀ op ∈ (opsL8 : List (HloOp τ sig (Elt F))), op.fresh = ∅ := by
  intro _ h; (repeat (cases h with | head => rfl | tail _ h => ?_)); exact nomatch h

set_option maxHeartbeats 4000000 in
theorem opsL8_out :
    after opsL8 V main_v60 = refLin8 (refX8 (V main_v33) (V main_arg1) (V main_v5)) (V main_arg4) (V main_arg5) := by
  after_results_simp3 <;> rfl

/-- The level writes neither the node features nor the six arguments. -/
theorem opsL8_keep {r : Ref sig .tc} (hr : r ∈ main_v5 :: args) : after opsL8 V r = V r := by
  (repeat (cases hr with | head => (after_results_simp3 <;> rfl) | tail _ hr => ?_)); exact nomatch hr

/-- The buffers after level 8. -/
def WL8 : Valuation τ sig (Elt F) := after opsL8 (WL9 V)

theorem WL8_arg {r : Ref sig .tc} (hr : r ∈ args) : WL8 V r = V r :=
  (opsL8_keep _ (.tail _ hr)).trans (WL9_arg V hr)
theorem WL8_v5 : WL8 V main_v5 = refU (V main_arg0) (V main_arg2) (V main_arg3) :=
  (opsL8_keep _ (.head _)).trans (WL9_v5 V)
theorem WL8_out : WL8 V main_v60 = refE8 (V main_arg0) (V main_arg1) (V main_arg2) (V main_arg3) (V main_arg4) (V main_arg5) := by
  unfold WL8 refE8
  rw [opsL8_out, WL9_out, WL9_arg V (r := main_arg1) (by decide), WL9_v5, WL9_arg V (r := main_arg4) (by decide),
    WL9_arg V (r := main_arg5) (by decide)]

abbrev opsL7 : List (HloOp τ sig (Elt F)) :=
  [ unary main_arg1 main_v61 ((extractStridedSlice S8192x2 ![8128, 0] · slices_S65472x2_S8192x2_8128_0) : (⟨S65472x2, .i32⟩ : BufTy).Contents (Elt F) → (⟨S8192x2, .i32⟩ : BufTy).Contents (Elt F)),
    unary main_v61 main_v62 ((extractStridedSlice S8192x1 ![0, 0] · slices_S8192x2_S8192x1_0_0) : (⟨S8192x2, .i32⟩ : BufTy).Contents (Elt F) → (⟨S8192x1, .i32⟩ : BufTy).Contents (Elt F)),
    reshape main_v62 main_v63 rfl shapeCasts_S8192x1_S8192,
    nullary main_c_7 (constantI S_ 32 0#32),
    unary main_c_7 main_v64 (broadcastInDim S8192 ![] bcast_S_S8192 : (⟨S_, .i32⟩ : BufTy).Contents (Elt F) → (⟨S8192, .i32⟩ : BufTy).Contents (Elt F)),
    binary main_v63 main_v64 main_v65 (cmpi .slt : (⟨S8192, .i32⟩ : BufTy).Contents (Elt F) → (⟨S8192, .i32⟩ : BufTy).Contents (Elt F) → (⟨S8192, .i1⟩ : BufTy).Contents (Elt F)),
    nullary main_c_8 (constantI S_ 32 16384#32),
    unary main_c_8 main_v66 (broadcastInDim S8192 ![] bcast_S_S8192 : (⟨S_, .i32⟩ : BufTy).Contents (Elt F) → (⟨S8192, .i32⟩ : BufTy).Contents (Elt F)),
    binary main_v63 main_v66 main_v67 (addi : (⟨S8192, .i32⟩ : BufTy).Contents (Elt F) → (⟨S8192, .i32⟩ : BufTy).Contents (Elt F) → (⟨S8192, .i32⟩ : BufTy).Contents (Elt F)),
    ternary main_v65 main_v67 main_v63 main_v68 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v68 main_v69 (broadcastInDim S8192x1 ![0] bcast_S8192_S8192x1_0 : (⟨S8192, .i32⟩ : BufTy).Contents (Elt F) → (⟨S8192x1, .i32⟩ : BufTy).Contents (Elt F)),
    binary main_v60 main_v69 main_v70 ((fun x i => Host.gather gather_S16384x512_S8192x1_S8192x512_1_0_n_n_0_1_1512 x i) : (⟨S16384x512, .f32⟩ : BufTy).Contents (Elt F) → (⟨S8192x1, .i32⟩ : BufTy).Contents (Elt F) → (⟨S8192x512, .f32⟩ : BufTy).Contents (Elt F)),
    unary main_v61 main_v71 ((extractStridedSlice S8192x1 ![0, 1] · slices_S8192x2_S8192x1_0_1) : (⟨S8192x2, .i32⟩ : BufTy).Contents (Elt F) → (⟨S8192x1, .i32⟩ : BufTy).Contents (Elt F)),
    reshape main_v71 main_v72 rfl shapeCasts_S8192x1_S8192,
    nullary main_c_9 (constantI S_ 32 0#32),
    unary main_c_9 main_v73 (broadcastInDim S8192 ![] bcast_S_S8192 : (⟨S_, .i32⟩ : BufTy).Contents (Elt F) → (⟨S8192, .i32⟩ : BufTy).Contents (Elt F)),
    binary main_v72 main_v73 main_v74 (cmpi .slt : (⟨S8192, .i32⟩ : BufTy).Contents (Elt F) → (⟨S8192, .i32⟩ : BufTy).Contents (Elt F) → (⟨S8192, .i1⟩ : BufTy).Contents (Elt F)),
    nullary main_c_10 (constantI S_ 32 16384#32),
    unary main_c_10 main_v75 (broadcastInDim S8192 ![] bcast_S_S8192 : (⟨S_, .i32⟩ : BufTy).Contents (Elt F) → (⟨S8192, .i32⟩ : BufTy).Contents (Elt F)),
    binary main_v72 main_v75 main_v76 (addi : (⟨S8192, .i32⟩ : BufTy).Contents (Elt F) → (⟨S8192, .i32⟩ : BufTy).Contents (Elt F) → (⟨S8192, .i32⟩ : BufTy).Contents (Elt F)),
    ternary main_v74 main_v76 main_v72 main_v77 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v77 main_v78 (broadcastInDim S8192x1 ![0] bcast_S8192_S8192x1_0 : (⟨S8192, .i32⟩ : BufTy).Contents (Elt F) → (⟨S8192x1, .i32⟩ : BufTy).Contents (Elt F)),
    binary main_v60 main_v78 main_v79 ((fun x i => Host.gather gather_S16384x512_S8192x1_S8192x512_1_0_n_n_0_1_1512 x i) : (⟨S16384x512, .f32⟩ : BufTy).Contents (Elt F) → (⟨S8192x1, .i32⟩ : BufTy).Contents (Elt F) → (⟨S8192x512, .f32⟩ : BufTy).Contents (Elt F)),
    unary main_v5 main_v80 ((extractStridedSlice S8192x512 ![8128, 0] · slices_S131008x512_S8192x512_8128_0) : (⟨S131008x512, .f32⟩ : BufTy).Contents (Elt F) → (⟨S8192x512, .f32⟩ : BufTy).Contents (Elt F)),
    nary ![main_v70, main_v79, main_v80] main_v81 (fun u => concatenate S8192x1536 1 [⟨S8192x512, u 0⟩, ⟨S8192x512, u 1⟩, ⟨S8192x512, u 2⟩] concatenates_S8192x512_S8192x512_S8192x512_S8192x1536_d1),
    unary main_arg4 main_v82 ((transpose S1536x512 [1, 0] · transposes_S512x1536_S1536x512_1_0) : (⟨S512x1536, .f32⟩ : BufTy).Contents (Elt F) → (⟨S1536x512, .f32⟩ : BufTy).Contents (Elt F)),
    binary main_v81 main_v82 main_v83 ((fun l r => Host.dotGeneral dot_S8192x1536_S1536x512_S8192x512_1_0_0_1_n_n none l r) : (⟨S8192x1536, .f32⟩ : BufTy).Contents (Elt F) → (⟨S1536x512, .f32⟩ : BufTy).Contents (Elt F) → (⟨S8192x512, .f32⟩ : BufTy).Contents (Elt F)),
    unary main_arg5 main_v84 (broadcastInDim S1x512 ![1] bcast_S512_S1x512_1 : (⟨S512, .f32⟩ : BufTy).Contents (Elt F) → (⟨S1x512, .f32⟩ : BufTy).Contents (Elt F)),
    unary main_v84 main_v85 (broadcastInDim S8192x512 ![0, 1] bcast_S1x512_S8192x512_0_1 : (⟨S1x512, .f32⟩ : BufTy).Contents (Elt F) → (⟨S8192x512, .f32⟩ : BufTy).Contents (Elt F)),
    binary main_v83 main_v85 main_v86 (addf : (⟨S8192x512, .f32⟩ : BufTy).Contents (Elt F) → (⟨S8192x512, .f32⟩ : BufTy).Contents (Elt F) → (⟨S8192x512, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8192x512, .f32⟩) main_call3_v0) (broadcastInDim S8192x512 ![] bcast_S_S8192x512),
    TRef.binary (TRef.of (T := ⟨S8192x512, .f32⟩) main_v86) (TRef.of (T := ⟨S8192x512, .f32⟩) main_call3_v0) (TRef.of (T := ⟨S8192x512, .f32⟩) main_v87) maximumf ]

theorem opsL7_sub : (opsL7 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL7_fresh : ∀ op ∈ (opsL7 : List (HloOp τ sig (Elt F))), op.fresh = ∅ := by
  intro _ h; (repeat (cases h with | head => rfl | tail _ h => ?_)); exact nomatch h

set_option maxHeartbeats 4000000 in
theorem opsL7_out :
    after opsL7 V main_v87 = refLin7 (refX7 (V main_v60) (V main_arg1) (V main_v5)) (V main_arg4) (V main_arg5) := by
  after_results_simp3 <;> rfl

/-- The level writes neither the node features nor the six arguments. -/
theorem opsL7_keep {r : Ref sig .tc} (hr : r ∈ main_v5 :: args) : after opsL7 V r = V r := by
  (repeat (cases hr with | head => (after_results_simp3 <;> rfl) | tail _ hr => ?_)); exact nomatch hr

/-- The buffers after level 7. -/
def WL7 : Valuation τ sig (Elt F) := after opsL7 (WL8 V)

theorem WL7_arg {r : Ref sig .tc} (hr : r ∈ args) : WL7 V r = V r :=
  (opsL7_keep _ (.tail _ hr)).trans (WL8_arg V hr)
theorem WL7_v5 : WL7 V main_v5 = refU (V main_arg0) (V main_arg2) (V main_arg3) :=
  (opsL7_keep _ (.head _)).trans (WL8_v5 V)
theorem WL7_out : WL7 V main_v87 = refE7 (V main_arg0) (V main_arg1) (V main_arg2) (V main_arg3) (V main_arg4) (V main_arg5) := by
  unfold WL7 refE7
  rw [opsL7_out, WL8_out, WL8_arg V (r := main_arg1) (by decide), WL8_v5, WL8_arg V (r := main_arg4) (by decide),
    WL8_arg V (r := main_arg5) (by decide)]

abbrev opsL6 : List (HloOp τ sig (Elt F)) :=
  [ unary main_arg1 main_v88 ((extractStridedSlice S4096x2 ![4032, 0] · slices_S65472x2_S4096x2_4032_0) : (⟨S65472x2, .i32⟩ : BufTy).Contents (Elt F) → (⟨S4096x2, .i32⟩ : BufTy).Contents (Elt F)),
    unary main_v88 main_v89 ((extractStridedSlice S4096x1 ![0, 0] · slices_S4096x2_S4096x1_0_0) : (⟨S4096x2, .i32⟩ : BufTy).Contents (Elt F) → (⟨S4096x1, .i32⟩ : BufTy).Contents (Elt F)),
    reshape main_v89 main_v90 rfl shapeCasts_S4096x1_S4096,
    nullary main_c_11 (constantI S_ 32 0#32),
    unary main_c_11 main_v91 (broadcastInDim S4096 ![] bcast_S_S4096 : (⟨S_, .i32⟩ : BufTy).Contents (Elt F) → (⟨S4096, .i32⟩ : BufTy).Contents (Elt F)),
    binary main_v90 main_v91 main_v92 (cmpi .slt : (⟨S4096, .i32⟩ : BufTy).Contents (Elt F) → (⟨S4096, .i32⟩ : BufTy).Contents (Elt F) → (⟨S4096, .i1⟩ : BufTy).Contents (Elt F)),
    nullary main_c_12 (constantI S_ 32 8192#32),
    unary main_c_12 main_v93 (broadcastInDim S4096 ![] bcast_S_S4096 : (⟨S_, .i32⟩ : BufTy).Contents (Elt F) → (⟨S4096, .i32⟩ : BufTy).Contents (Elt F)),
    binary main_v90 main_v93 main_v94 (addi : (⟨S4096, .i32⟩ : BufTy).Contents (Elt F) → (⟨S4096, .i32⟩ : BufTy).Contents (Elt F) → (⟨S4096, .i32⟩ : BufTy).Contents (Elt F)),
    ternary main_v92 main_v94 main_v90 main_v95 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v95 main_v96 (broadcastInDim S4096x1 ![0] bcast_S4096_S4096x1_0 : (⟨S4096, .i32⟩ : BufTy).Contents (Elt F) → (⟨S4096x1, .i32⟩ : BufTy).Contents (Elt F)),
    binary main_v87 main_v96 main_v97 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)),
    unary main_v88 main_v98 ((extractStridedSlice S4096x1 ![0, 1] · slices_S4096x2_S4096x1_0_1) : (⟨S4096x2, .i32⟩ : BufTy).Contents (Elt F) → (⟨S4096x1, .i32⟩ : BufTy).Contents (Elt F)),
    reshape main_v98 main_v99 rfl shapeCasts_S4096x1_S4096,
    nullary main_c_13 (constantI S_ 32 0#32),
    unary main_c_13 main_v100 (broadcastInDim S4096 ![] bcast_S_S4096 : (⟨S_, .i32⟩ : BufTy).Contents (Elt F) → (⟨S4096, .i32⟩ : BufTy).Contents (Elt F)),
    binary main_v99 main_v100 main_v101 (cmpi .slt : (⟨S4096, .i32⟩ : BufTy).Contents (Elt F) → (⟨S4096, .i32⟩ : BufTy).Contents (Elt F) → (⟨S4096, .i1⟩ : BufTy).Contents (Elt F)),
    nullary main_c_14 (constantI S_ 32 8192#32),
    unary main_c_14 main_v102 (broadcastInDim S4096 ![] bcast_S_S4096 : (⟨S_, .i32⟩ : BufTy).Contents (Elt F) → (⟨S4096, .i32⟩ : BufTy).Contents (Elt F)),
    binary main_v99 main_v102 main_v103 (addi : (⟨S4096, .i32⟩ : BufTy).Contents (Elt F) → (⟨S4096, .i32⟩ : BufTy).Contents (Elt F) → (⟨S4096, .i32⟩ : BufTy).Contents (Elt F)),
    ternary main_v101 main_v103 main_v99 main_v104 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v104 main_v105 (broadcastInDim S4096x1 ![0] bcast_S4096_S4096x1_0 : (⟨S4096, .i32⟩ : BufTy).Contents (Elt F) → (⟨S4096x1, .i32⟩ : BufTy).Contents (Elt F)),
    binary main_v87 main_v105 main_v106 ((fun x i => Host.gather gather_S8192x512_S4096x1_S4096x512_1_0_n_n_0_1_1512 x i) : (⟨S8192x512, .f32⟩ : BufTy).Contents (Elt F) → (⟨S4096x1, .i32⟩ : BufTy).Contents (Elt F) → (⟨S4096x512, .f32⟩ : BufTy).Contents (Elt F)),
    unary main_v5 main_v107 ((extractStridedSlice S4096x512 ![4032, 0] · slices_S131008x512_S4096x512_4032_0) : (⟨S131008x512, .f32⟩ : BufTy).Contents (Elt F) → (⟨S4096x512, .f32⟩ : BufTy).Contents (Elt F)),
    nary ![main_v97, main_v106, main_v107] main_v108 (fun u => concatenate S4096x1536 1 [⟨S4096x512, u 0⟩, ⟨S4096x512, u 1⟩, ⟨S4096x512, u 2⟩] concatenates_S4096x512_S4096x512_S4096x512_S4096x1536_d1),
    unary main_arg4 main_v109 ((transpose S1536x512 [1, 0] · transposes_S512x1536_S1536x512_1_0) : (⟨S512x1536, .f32⟩ : BufTy).Contents (Elt F) → (⟨S1536x512, .f32⟩ : BufTy).Contents (Elt F)),
    binary main_v108 main_v109 main_v110 ((fun l r => Host.dotGeneral dot_S4096x1536_S1536x512_S4096x512_1_0_0_1_n_n none l r) : (⟨S4096x1536, .f32⟩ : BufTy).Contents (Elt F) → (⟨S1536x512, .f32⟩ : BufTy).Contents (Elt F) → (⟨S4096x512, .f32⟩ : BufTy).Contents (Elt F)),
    unary main_arg5 main_v111 (broadcastInDim S1x512 ![1] bcast_S512_S1x512_1 : (⟨S512, .f32⟩ : BufTy).Contents (Elt F) → (⟨S1x512, .f32⟩ : BufTy).Contents (Elt F)),
    unary main_v111 main_v112 (broadcastInDim S4096x512 ![0, 1] bcast_S1x512_S4096x512_0_1 : (⟨S1x512, .f32⟩ : BufTy).Contents (Elt F) → (⟨S4096x512, .f32⟩ : BufTy).Contents (Elt F)),
    binary main_v110 main_v112 main_v113 (addf : (⟨S4096x512, .f32⟩ : BufTy).Contents (Elt F) → (⟨S4096x512, .f32⟩ : BufTy).Contents (Elt F) → (⟨S4096x512, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S4096x512, .f32⟩) main_call4_v0) (broadcastInDim S4096x512 ![] bcast_S_S4096x512),
    TRef.binary (TRef.of (T := ⟨S4096x512, .f32⟩) main_v113) (TRef.of (T := ⟨S4096x512, .f32⟩) main_call4_v0) (TRef.of (T := ⟨S4096x512, .f32⟩) main_v114) maximumf ]

theorem opsL6_sub : (opsL6 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL6_fresh : ∀ op ∈ (opsL6 : List (HloOp τ sig (Elt F))), op.fresh = ∅ := by
  intro _ h; (repeat (cases h with | head => rfl | tail _ h => ?_)); exact nomatch h

set_option maxHeartbeats 4000000 in
theorem opsL6_out :
    after opsL6 V main_v114 = refLin6 (refX6 (V main_v87) (V main_arg1) (V main_v5)) (V main_arg4) (V main_arg5) := by
  after_results_simp3 <;> rfl

/-- The level writes neither the node features nor the six arguments. -/
theorem opsL6_keep {r : Ref sig .tc} (hr : r ∈ main_v5 :: args) : after opsL6 V r = V r := by
  (repeat (cases hr with | head => (after_results_simp3 <;> rfl) | tail _ hr => ?_)); exact nomatch hr

/-- The buffers after level 6. -/
def WL6 : Valuation τ sig (Elt F) := after opsL6 (WL7 V)

theorem WL6_arg {r : Ref sig .tc} (hr : r ∈ args) : WL6 V r = V r :=
  (opsL6_keep _ (.tail _ hr)).trans (WL7_arg V hr)
theorem WL6_v5 : WL6 V main_v5 = refU (V main_arg0) (V main_arg2) (V main_arg3) :=
  (opsL6_keep _ (.head _)).trans (WL7_v5 V)
theorem WL6_out : WL6 V main_v114 = refE6 (V main_arg0) (V main_arg1) (V main_arg2) (V main_arg3) (V main_arg4) (V main_arg5) := by
  unfold WL6 refE6
  rw [opsL6_out, WL7_out, WL7_arg V (r := main_arg1) (by decide), WL7_v5, WL7_arg V (r := main_arg4) (by decide),
    WL7_arg V (r := main_arg5) (by decide)]

abbrev opsL5 : List (HloOp τ sig (Elt F)) :=
  [ unary main_arg1 main_v115 ((extractStridedSlice S2048x2 ![1984, 0] · slices_S65472x2_S2048x2_1984_0) : (⟨S65472x2, .i32⟩ : BufTy).Contents (Elt F) → (⟨S2048x2, .i32⟩ : BufTy).Contents (Elt F)),
    unary main_v115 main_v116 ((extractStridedSlice S2048x1 ![0, 0] · slices_S2048x2_S2048x1_0_0) : (⟨S2048x2, .i32⟩ : BufTy).Contents (Elt F) → (⟨S2048x1, .i32⟩ : BufTy).Contents (Elt F)),
    reshape main_v116 main_v117 rfl shapeCasts_S2048x1_S2048,
    nullary main_c_15 (constantI S_ 32 0#32),
    unary main_c_15 main_v118 (broadcastInDim S2048 ![] bcast_S_S2048 : (⟨S_, .i32⟩ : BufTy).Contents (Elt F) → (⟨S2048, .i32⟩ : BufTy).Contents (Elt F)),
    binary main_v117 main_v118 main_v119 (cmpi .slt : (⟨S2048, .i32⟩ : BufTy).Contents (Elt F) → (⟨S2048, .i32⟩ : BufTy).Contents (Elt F) → (⟨S2048, .i1⟩ : BufTy).Contents (Elt F)),
    nullary main_c_16 (constantI S_ 32 4096#32),
    unary main_c_16 main_v120 (broadcastInDim S2048 ![] bcast_S_S2048 : (⟨S_, .i32⟩ : BufTy).Contents (Elt F) → (⟨S2048, .i32⟩ : BufTy).Contents (Elt F)),
    binary main_v117 main_v120 main_v121 (addi : (⟨S2048, .i32⟩ : BufTy).Contents (Elt F) → (⟨S2048, .i32⟩ : BufTy).Contents (Elt F) → (⟨S2048, .i32⟩ : BufTy).Contents (Elt F)),
    ternary main_v119 main_v121 main_v117 main_v122 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v122 main_v123 (broadcastInDim S2048x1 ![0] bcast_S2048_S2048x1_0 : (⟨S2048, .i32⟩ : BufTy).Contents (Elt F) → (⟨S2048x1, .i32⟩ : BufTy).Contents (Elt F)),
    binary main_v114 main_v123 main_v124 ((fun x i => Host.gather gather_S4096x512_S2048x1_S2048x512_1_0_n_n_0_1_1512 x i) : (⟨S4096x512, .f32⟩ : BufTy).Contents (Elt F) → (⟨S2048x1, .i32⟩ : BufTy).Contents (Elt F) → (⟨S2048x512, .f32⟩ : BufTy).Contents (Elt F)),
    unary main_v115 main_v125 ((extractStridedSlice S2048x1 ![0, 1] · slices_S2048x2_S2048x1_0_1) : (⟨S2048x2, .i32⟩ : BufTy).Contents (Elt F) → (⟨S2048x1, .i32⟩ : BufTy).Contents (Elt F)),
    reshape main_v125 main_v126 rfl shapeCasts_S2048x1_S2048,
    nullary main_c_17 (constantI S_ 32 0#32),
    unary main_c_17 main_v127 (broadcastInDim S2048 ![] bcast_S_S2048 : (⟨S_, .i32⟩ : BufTy).Contents (Elt F) → (⟨S2048, .i32⟩ : BufTy).Contents (Elt F)),
    binary main_v126 main_v127 main_v128 (cmpi .slt : (⟨S2048, .i32⟩ : BufTy).Contents (Elt F) → (⟨S2048, .i32⟩ : BufTy).Contents (Elt F) → (⟨S2048, .i1⟩ : BufTy).Contents (Elt F)),
    nullary main_c_18 (constantI S_ 32 4096#32),
    unary main_c_18 main_v129 (broadcastInDim S2048 ![] bcast_S_S2048 : (⟨S_, .i32⟩ : BufTy).Contents (Elt F) → (⟨S2048, .i32⟩ : BufTy).Contents (Elt F)),
    binary main_v126 main_v129 main_v130 (addi : (⟨S2048, .i32⟩ : BufTy).Contents (Elt F) → (⟨S2048, .i32⟩ : BufTy).Contents (Elt F) → (⟨S2048, .i32⟩ : BufTy).Contents (Elt F)),
    ternary main_v128 main_v130 main_v126 main_v131 (select : (⟨S2048, .i1⟩ : BufTy).Contents (Elt F) → (⟨S2048, .i32⟩ : BufTy).Contents (Elt F) → (⟨S2048, .i32⟩ : BufTy).Contents (Elt F) → (⟨S2048, .i32⟩ : BufTy).Contents (Elt F)),
    unary main_v131 main_v132 (broadcastInDim S2048x1 ![0] bcast_S2048_S2048x1_0 : (⟨S2048, .i32⟩ : BufTy).Contents (Elt F) → (⟨S2048x1, .i32⟩ : BufTy).Contents (Elt F)),
    binary main_v114 main_v132 main_v133 ((fun x i => Host.gather gather_S4096x512_S2048x1_S2048x512_1_0_n_n_0_1_1512 x i) : (⟨S4096x512, .f32⟩ : BufTy).Contents (Elt F) → (⟨S2048x1, .i32⟩ : BufTy).Contents (Elt F) → (⟨S2048x512, .f32⟩ : BufTy).Contents (Elt F)),
    unary main_v5 main_v134 ((extractStridedSlice S2048x512 ![1984, 0] · slices_S131008x512_S2048x512_1984_0) : (⟨S131008x512, .f32⟩ : BufTy).Contents (Elt F) → (⟨S2048x512, .f32⟩ : BufTy).Contents (Elt F)),
    nary ![main_v124, main_v133, main_v134] main_v135 (fun u => concatenate S2048x1536 1 [⟨S2048x512, u 0⟩, ⟨S2048x512, u 1⟩, ⟨S2048x512, u 2⟩] concatenates_S2048x512_S2048x512_S2048x512_S2048x1536_d1),
    unary main_arg4 main_v136 ((transpose S1536x512 [1, 0] · transposes_S512x1536_S1536x512_1_0) : (⟨S512x1536, .f32⟩ : BufTy).Contents (Elt F) → (⟨S1536x512, .f32⟩ : BufTy).Contents (Elt F)),
    binary main_v135 main_v136 main_v137 ((fun l r => Host.dotGeneral dot_S2048x1536_S1536x512_S2048x512_1_0_0_1_n_n none l r) : (⟨S2048x1536, .f32⟩ : BufTy).Contents (Elt F) → (⟨S1536x512, .f32⟩ : BufTy).Contents (Elt F) → (⟨S2048x512, .f32⟩ : BufTy).Contents (Elt F)),
    unary main_arg5 main_v138 (broadcastInDim S1x512 ![1] bcast_S512_S1x512_1 : (⟨S512, .f32⟩ : BufTy).Contents (Elt F) → (⟨S1x512, .f32⟩ : BufTy).Contents (Elt F)),
    unary main_v138 main_v139 (broadcastInDim S2048x512 ![0, 1] bcast_S1x512_S2048x512_0_1 : (⟨S1x512, .f32⟩ : BufTy).Contents (Elt F) → (⟨S2048x512, .f32⟩ : BufTy).Contents (Elt F)),
    binary main_v137 main_v139 main_v140 (addf : (⟨S2048x512, .f32⟩ : BufTy).Contents (Elt F) → (⟨S2048x512, .f32⟩ : BufTy).Contents (Elt F) → (⟨S2048x512, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S2048x512, .f32⟩) main_call5_v0) (broadcastInDim S2048x512 ![] bcast_S_S2048x512),
    TRef.binary (TRef.of (T := ⟨S2048x512, .f32⟩) main_v140) (TRef.of (T := ⟨S2048x512, .f32⟩) main_call5_v0) (TRef.of (T := ⟨S2048x512, .f32⟩) main_v141) maximumf ]

theorem opsL5_sub : (opsL5 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL5_fresh : ∀ op ∈ (opsL5 : List (HloOp τ sig (Elt F))), op.fresh = ∅ := by
  intro _ h; (repeat (cases h with | head => rfl | tail _ h => ?_)); exact nomatch h

set_option maxHeartbeats 4000000 in
theorem opsL5_out :
    after opsL5 V main_v141 = refLin5 (refX5 (V main_v114) (V main_arg1) (V main_v5)) (V main_arg4) (V main_arg5) := by
  after_results_simp3 <;> rfl

/-- The level writes neither the node features nor the six arguments. -/
theorem opsL5_keep {r : Ref sig .tc} (hr : r ∈ main_v5 :: args) : after opsL5 V r = V r := by
  (repeat (cases hr with | head => (after_results_simp3 <;> rfl) | tail _ hr => ?_)); exact nomatch hr

/-- The buffers after level 5. -/
def WL5 : Valuation τ sig (Elt F) := after opsL5 (WL6 V)

theorem WL5_arg {r : Ref sig .tc} (hr : r ∈ args) : WL5 V r = V r :=
  (opsL5_keep _ (.tail _ hr)).trans (WL6_arg V hr)
theorem WL5_v5 : WL5 V main_v5 = refU (V main_arg0) (V main_arg2) (V main_arg3) :=
  (opsL5_keep _ (.head _)).trans (WL6_v5 V)
theorem WL5_out : WL5 V main_v141 = refE5 (V main_arg0) (V main_arg1) (V main_arg2) (V main_arg3) (V main_arg4) (V main_arg5) := by
  unfold WL5 refE5
  rw [opsL5_out, WL6_out, WL6_arg V (r := main_arg1) (by decide), WL6_v5, WL6_arg V (r := main_arg4) (by decide),
    WL6_arg V (r := main_arg5) (by decide)]

abbrev opsL4 : List (HloOp τ sig (Elt F)) :=
  [ unary main_arg1 main_v142 ((extractStridedSlice S1024x2 ![960, 0] · slices_S65472x2_S1024x2_960_0) : (⟨S65472x2, .i32⟩ : BufTy).Contents (Elt F) → (⟨S1024x2, .i32⟩ : BufTy).Contents (Elt F)),
    unary main_v142 main_v143 ((extractStridedSlice S1024x1 ![0, 0] · slices_S1024x2_S1024x1_0_0) : (⟨S1024x2, .i32⟩ : BufTy).Contents (Elt F) → (⟨S1024x1, .i32⟩ : BufTy).Contents (Elt F)),
    reshape main_v143 main_v144 rfl shapeCasts_S1024x1_S1024,
    nullary main_c_19 (constantI S_ 32 0#32),
    unary main_c_19 main_v145 (broadcastInDim S1024 ![] bcast_S_S1024 : (⟨S_, .i32⟩ : BufTy).Contents (Elt F) → (⟨S1024, .i32⟩ : BufTy).Contents (Elt F)),
    binary main_v144 main_v145 main_v146 (cmpi .slt : (⟨S1024, .i32⟩ : BufTy).Contents (Elt F) → (⟨S1024, .i32⟩ : BufTy).Contents (Elt F) → (⟨S1024, .i1⟩ : BufTy).Contents (Elt F)),
    nullary main_c_20 (constantI S_ 32 2048#32),
    unary main_c_20 main_v147 (broadcastInDim S1024 ![] bcast_S_S1024 : (⟨S_, .i32⟩ : BufTy).Contents (Elt F) → (⟨S1024, .i32⟩ : BufTy).Contents (Elt F)),
    binary main_v144 main_v147 main_v148 (addi : (⟨S1024, .i32⟩ : BufTy).Contents (Elt F) → (⟨S1024, .i32⟩ : BufTy).Contents (Elt F) → (⟨S1024, .i32⟩ : BufTy).Contents (Elt F)),
    ternary main_v146 main_v148 main_v144 main_v149 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v149 main_v150 (broadcastInDim S1024x1 ![0] bcast_S1024_S1024x1_0 : (⟨S1024, .i32⟩ : BufTy).Contents (Elt F) → (⟨S1024x1, .i32⟩ : BufTy).Contents (Elt F)),
    binary main_v141 main_v150 main_v151 ((fun x i => Host.gather gather_S2048x512_S1024x1_S1024x512_1_0_n_n_0_1_1512 x i) : (⟨S2048x512, .f32⟩ : BufTy).Contents (Elt F) → (⟨S1024x1, .i32⟩ : BufTy).Contents (Elt F) → (⟨S1024x512, .f32⟩ : BufTy).Contents (Elt F)),
    unary main_v142 main_v152 ((extractStridedSlice S1024x1 ![0, 1] · slices_S1024x2_S1024x1_0_1) : (⟨S1024x2, .i32⟩ : BufTy).Contents (Elt F) → (⟨S1024x1, .i32⟩ : BufTy).Contents (Elt F)),
    reshape main_v152 main_v153 rfl shapeCasts_S1024x1_S1024,
    nullary main_c_21 (constantI S_ 32 0#32),
    unary main_c_21 main_v154 (broadcastInDim S1024 ![] bcast_S_S1024 : (⟨S_, .i32⟩ : BufTy).Contents (Elt F) → (⟨S1024, .i32⟩ : BufTy).Contents (Elt F)),
    binary main_v153 main_v154 main_v155 (cmpi .slt : (⟨S1024, .i32⟩ : BufTy).Contents (Elt F) → (⟨S1024, .i32⟩ : BufTy).Contents (Elt F) → (⟨S1024, .i1⟩ : BufTy).Contents (Elt F)),
    nullary main_c_22 (constantI S_ 32 2048#32),
    unary main_c_22 main_v156 (broadcastInDim S1024 ![] bcast_S_S1024 : (⟨S_, .i32⟩ : BufTy).Contents (Elt F) → (⟨S1024, .i32⟩ : BufTy).Contents (Elt F)),
    binary main_v153 main_v156 main_v157 (addi : (⟨S1024, .i32⟩ : BufTy).Contents (Elt F) → (⟨S1024, .i32⟩ : BufTy).Contents (Elt F) → (⟨S1024, .i32⟩ : BufTy).Contents (Elt F)),
    ternary main_v155 main_v157 main_v153 main_v158 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    unary main_v158 main_v159 (broadcastInDim S1024x1 ![0] bcast_S1024_S1024x1_0 : (⟨S1024, .i32⟩ : BufTy).Contents (Elt F) → (⟨S1024x1, .i32⟩ : BufTy).Contents (Elt F)),
    binary main_v141 main_v159 main_v160 ((fun x i => Host.gather gather_S2048x512_S1024x1_S1024x512_1_0_n_n_0_1_1512 x i) : (⟨S2048x512, .f32⟩ : BufTy).Contents (Elt F) → (⟨S1024x1, .i32⟩ : BufTy).Contents (Elt F) → (⟨S1024x512, .f32⟩ : BufTy).Contents (Elt F)),
    unary main_v5 main_v161 ((extractStridedSlice S1024x512 ![960, 0] · slices_S131008x512_S1024x512_960_0) : (⟨S131008x512, .f32⟩ : BufTy).Contents (Elt F) → (⟨S1024x512, .f32⟩ : BufTy).Contents (Elt F)),
    nary ![main_v151, main_v160, main_v161] main_v162 (fun u => concatenate S1024x1536 1 [⟨S1024x512, u 0⟩, ⟨S1024x512, u 1⟩, ⟨S1024x512, u 2⟩] concatenates_S1024x512_S1024x512_S1024x512_S1024x1536_d1),
    unary main_arg4 main_v163 ((transpose S1536x512 [1, 0] · transposes_S512x1536_S1536x512_1_0) : (⟨S512x1536, .f32⟩ : BufTy).Contents (Elt F) → (⟨S1536x512, .f32⟩ : BufTy).Contents (Elt F)),
    binary main_v162 main_v163 main_v164 ((fun l r => Host.dotGeneral dot_S1024x1536_S1536x512_S1024x512_1_0_0_1_n_n none l r) : (⟨S1024x1536, .f32⟩ : BufTy).Contents (Elt F) → (⟨S1536x512, .f32⟩ : BufTy).Contents (Elt F) → (⟨S1024x512, .f32⟩ : BufTy).Contents (Elt F)),
    unary main_arg5 main_v165 (broadcastInDim S1x512 ![1] bcast_S512_S1x512_1 : (⟨S512, .f32⟩ : BufTy).Contents (Elt F) → (⟨S1x512, .f32⟩ : BufTy).Contents (Elt F)),
    unary main_v165 main_v166 (broadcastInDim S1024x512 ![0, 1] bcast_S1x512_S1024x512_0_1 : (⟨S1x512, .f32⟩ : BufTy).Contents (Elt F) → (⟨S1024x512, .f32⟩ : BufTy).Contents (Elt F)),
    binary main_v164 main_v166 main_v167 (addf : (⟨S1024x512, .f32⟩ : BufTy).Contents (Elt F) → (⟨S1024x512, .f32⟩ : BufTy).Contents (Elt F) → (⟨S1024x512, .f32⟩ : BufTy).Contents (Elt F)),
    TRef.nullary (TRef.of (T := ⟨S_, .f32⟩) main_call6_cst) (constant S_ .f32 0x00000000#32),
    TRef.unary (TRef.of (T := ⟨S_, .f32⟩) main_call6_cst) (TRef.of (T := ⟨S1024x512, .f32⟩) main_call6_v0) (broadcastInDim S1024x512 ![] bcast_S_S1024x512),
    TRef.binary (TRef.of (T := ⟨S1024x512, .f32⟩) main_v167) (TRef.of (T := ⟨S1024x512, .f32⟩) main_call6_v0) (TRef.of (T := ⟨S1024x512, .f32⟩) main_v168) maximumf ]

theorem opsL4_sub : (opsL4 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL4_fresh : ∀ op ∈ (opsL4 : List (HloOp τ sig (Elt F))), op.fresh = ∅ := by
  intro _ h; (repeat (cases h with | head => rfl | tail _ h => ?_)); exact nomatch h

set_option maxHeartbeats 4000000 in
theorem opsL4_out :
    after opsL4 V main_v168 = refLin4 (refX4 (V main_v141) (V main_arg1) (V main_v5)) (V main_arg4) (V main_arg5) := by
  after_results_simp3 <;> rfl

/-- The level writes neither the node features nor the six arguments. -/
theorem opsL4_keep {r : Ref sig .tc} (hr : r ∈ main_v5 :: args) : after opsL4 V r = V r := by
  (repeat (cases hr with | head => (after_results_simp3 <;> rfl) | tail _ hr => ?_)); exact nomatch hr

/-- The buffers after level 4. -/
def WL4 : Valuation τ sig (Elt F) := after opsL4 (WL5 V)

theorem WL4_arg {r : Ref sig .tc} (hr : r ∈ args) : WL4 V r = V r :=
  (opsL4_keep _ (.tail _ hr)).trans (WL5_arg V hr)
theorem WL4_v5 : WL4 V main_v5 = refU (V main_arg0) (V main_arg2) (V main_arg3) :=
  (opsL4_keep _ (.head _)).trans (WL5_v5 V)
theorem WL4_out : WL4 V main_v168 = refE4 (V main_arg0) (V main_arg1) (V main_arg2) (V main_arg3) (V main_arg4) (V main_arg5) := by
  unfold WL4 refE4
  rw [opsL4_out, WL5_out, WL5_arg V (r := main_arg1) (by decide), WL5_v5, WL5_arg V (r := main_arg4) (by decide),
    WL5_arg V (r := main_arg5) (by decide)]

abbrev opsL3 : List (HloOp τ sig (Elt F)) :=
  [ unary main_arg1 main_v169 ((extractStridedSlice S512x2 ![448, 0] · slices_S65472x2_S512x2_448_0) : (⟨S65472x2, .i32⟩ : BufTy).Contents (Elt F) → (⟨S512x2, .i32⟩ : BufTy).Contents (Elt F)),
    unary main_v169 main_v170 ((extractStridedSlice S512x1 ![0, 0] · slices_S512x2_S512x1_0_0) : (⟨S512x2, .i32⟩ : BufTy).Contents (Elt F) → (⟨S512x1, .i32⟩ : BufTy).Contents (Elt F)),
    reshape main_v170 main_v171 rfl shapeCasts_S512x1_S512,
    nullary main_c_23 (constantI S_ 32 0#32),
    unary main_c_23 main_v172 (broadcastInDim S512 ![] bcast_S_S512 : (⟨S_, .i32⟩ : BufTy).Contents (Elt F) → (⟨S512, .i32⟩ : BufTy).Contents (Elt F)),
    binary main_v171 main_v172 main_v173 (cmpi .slt : (⟨S512, .i32⟩ : BufTy).Contents (Elt F) → (⟨S512, .i32⟩ : BufTy).Contents (Elt F) → (⟨S512, .i1⟩ : BufTy).Contents (Elt F)),
    nullary main_c_24 (constantI S_ 32 1024#32),
    unary main_c_24 main_v174 (broadcastInDim S512 ![] bcast_S_S512 : (⟨S_, .i32⟩ : BufTy).Contents (Elt F) → (⟨S512, .i32⟩ : BufTy).Contents (Elt F)),
    binary main_v171 main_v174 main_v175 (addi : (⟨S512, .i32⟩ : BufTy).Contents (Elt F) → (⟨S512, .i32⟩ : BufTy).Contents (Elt F) → (⟨S512, .i32⟩ : BufTy).Contents (Elt F)),
    ternary main_v173 main_v175 main_v171 main_v176 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v176 main_v177 (broadcastInDim S512x1 ![0] bcast_S512_S512x1_0 : (⟨S512, .i32⟩ : BufTy).Contents (Elt F) → (⟨S512x1, .i32⟩ : BufTy).Contents (Elt F)),
    binary main_v168 main_v177 main_v178 ((fun x i => Host.gather gather_S1024x512_S512x1_S512x512_1_0_n_n_0_1_1512 x i) : (⟨S1024x512, .f32⟩ : BufTy).Contents (Elt F) → (⟨S512x1, .i32⟩ : BufTy).Contents (Elt F) → (⟨S512x512, .f32⟩ : BufTy).Contents (Elt F)),
    unary main_v169 main_v179 ((extractStridedSlice S512x1 ![0, 1] · slices_S512x2_S512x1_0_1) : (⟨S512x2, .i32⟩ : BufTy).Contents (Elt F) → (⟨S512x1, .i32⟩ : BufTy).Contents (Elt F)),
    reshape main_v179 main_v180 rfl shapeCasts_S512x1_S512,
    nullary main_c_25 (constantI S_ 32 0#32),
    unary main_c_25 main_v181 (broadcastInDim S512 ![] bcast_S_S512 : (⟨S_, .i32⟩ : BufTy).Contents (Elt F) → (⟨S512, .i32⟩ : BufTy).Contents (Elt F)),
    binary main_v180 main_v181 main_v182 (cmpi .slt : (⟨S512, .i32⟩ : BufTy).Contents (Elt F) → (⟨S512, .i32⟩ : BufTy).Contents (Elt F) → (⟨S512, .i1⟩ : BufTy).Contents (Elt F)),
    nullary main_c_26 (constantI S_ 32 1024#32),
    unary main_c_26 main_v183 (broadcastInDim S512 ![] bcast_S_S512 : (⟨S_, .i32⟩ : BufTy).Contents (Elt F) → (⟨S512, .i32⟩ : BufTy).Contents (Elt F)),
    binary main_v180 main_v183 main_v184 (addi : (⟨S512, .i32⟩ : BufTy).Contents (Elt F) → (⟨S512, .i32⟩ : BufTy).Contents (Elt F) → (⟨S512, .i32⟩ : BufTy).Contents (Elt F)),
    ternary main_v182 main_v184 main_v180 main_v185 (select : (⟨S512, .i1⟩ : BufTy).Contents (Elt F) → (⟨S512, .i32⟩ : BufTy).Contents (Elt F) → (⟨S512, .i32⟩ : BufTy).Contents (Elt F) → (⟨S512, .i32⟩ : BufTy).Contents (Elt F)),
    unary main_v185 main_v186 (broadcastInDim S512x1 ![0] bcast_S512_S512x1_0 : (⟨S512, .i32⟩ : BufTy).Contents (Elt F) → (⟨S512x1, .i32⟩ : BufTy).Contents (Elt F)),
    binary main_v168 main_v186 main_v187 ((fun x i => Host.gather gather_S1024x512_S512x1_S512x512_1_0_n_n_0_1_1512 x i) : (⟨S1024x512, .f32⟩ : BufTy).Contents (Elt F) → (⟨S512x1, .i32⟩ : BufTy).Contents (Elt F) → (⟨S512x512, .f32⟩ : BufTy).Contents (Elt F)),
    unary main_v5 main_v188 ((extractStridedSlice S512x512 ![448, 0] · slices_S131008x512_S512x512_448_0) : (⟨S131008x512, .f32⟩ : BufTy).Contents (Elt F) → (⟨S512x512, .f32⟩ : BufTy).Contents (Elt F)),
    nary ![main_v178, main_v187, main_v188] main_v189 (fun u => concatenate S512x1536 1 [⟨S512x512, u 0⟩, ⟨S512x512, u 1⟩, ⟨S512x512, u 2⟩] concatenates_S512x512_S512x512_S512x512_S512x1536_d1),
    unary main_arg4 main_v190 ((transpose S1536x512 [1, 0] · transposes_S512x1536_S1536x512_1_0) : (⟨S512x1536, .f32⟩ : BufTy).Contents (Elt F) → (⟨S1536x512, .f32⟩ : BufTy).Contents (Elt F)),
    binary main_v189 main_v190 main_v191 ((fun l r => Host.dotGeneral dot_S512x1536_S1536x512_S512x512_1_0_0_1_n_n none l r) : (⟨S512x1536, .f32⟩ : BufTy).Contents (Elt F) → (⟨S1536x512, .f32⟩ : BufTy).Contents (Elt F) → (⟨S512x512, .f32⟩ : BufTy).Contents (Elt F)),
    unary main_arg5 main_v192 (broadcastInDim S1x512 ![1] bcast_S512_S1x512_1 : (⟨S512, .f32⟩ : BufTy).Contents (Elt F) → (⟨S1x512, .f32⟩ : BufTy).Contents (Elt F)),
    unary main_v192 main_v193 (broadcastInDim S512x512 ![0, 1] bcast_S1x512_S512x512_0_1 : (⟨S1x512, .f32⟩ : BufTy).Contents (Elt F) → (⟨S512x512, .f32⟩ : BufTy).Contents (Elt F)),
    binary main_v191 main_v193 main_v194 (addf : (⟨S512x512, .f32⟩ : BufTy).Contents (Elt F) → (⟨S512x512, .f32⟩ : BufTy).Contents (Elt F) → (⟨S512x512, .f32⟩ : BufTy).Contents (Elt F)),
    TRef.nullary (TRef.of (T := ⟨S_, .f32⟩) main_call7_cst) (constant S_ .f32 0x00000000#32),
    TRef.unary (TRef.of (T := ⟨S_, .f32⟩) main_call7_cst) (TRef.of (T := ⟨S512x512, .f32⟩) main_call7_v0) (broadcastInDim S512x512 ![] bcast_S_S512x512),
    TRef.binary (TRef.of (T := ⟨S512x512, .f32⟩) main_v194) (TRef.of (T := ⟨S512x512, .f32⟩) main_call7_v0) (TRef.of (T := ⟨S512x512, .f32⟩) main_v195) maximumf ]

theorem opsL3_sub : (opsL3 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL3_fresh : ∀ op ∈ (opsL3 : List (HloOp τ sig (Elt F))), op.fresh = ∅ := by
  intro _ h; (repeat (cases h with | head => rfl | tail _ h => ?_)); exact nomatch h

set_option maxHeartbeats 4000000 in
theorem opsL3_out :
    after opsL3 V main_v195 = refLin3 (refX3 (V main_v168) (V main_arg1) (V main_v5)) (V main_arg4) (V main_arg5) := by
  after_results_simp3 <;> rfl

/-- The level writes neither the node features nor the six arguments. -/
theorem opsL3_keep {r : Ref sig .tc} (hr : r ∈ main_v5 :: args) : after opsL3 V r = V r := by
  (repeat (cases hr with | head => (after_results_simp3 <;> rfl) | tail _ hr => ?_)); exact nomatch hr

/-- The buffers after level 3. -/
def WL3 : Valuation τ sig (Elt F) := after opsL3 (WL4 V)

theorem WL3_arg {r : Ref sig .tc} (hr : r ∈ args) : WL3 V r = V r :=
  (opsL3_keep _ (.tail _ hr)).trans (WL4_arg V hr)
theorem WL3_v5 : WL3 V main_v5 = refU (V main_arg0) (V main_arg2) (V main_arg3) :=
  (opsL3_keep _ (.head _)).trans (WL4_v5 V)
theorem WL3_out : WL3 V main_v195 = refE3 (V main_arg0) (V main_arg1) (V main_arg2) (V main_arg3) (V main_arg4) (V main_arg5) := by
  unfold WL3 refE3
  rw [opsL3_out, WL4_out, WL4_arg V (r := main_arg1) (by decide), WL4_v5, WL4_arg V (r := main_arg4) (by decide),
    WL4_arg V (r := main_arg5) (by decide)]

abbrev opsL2 : List (HloOp τ sig (Elt F)) :=
  [ unary main_arg1 main_v196 ((extractStridedSlice S256x2 ![192, 0] · slices_S65472x2_S256x2_192_0) : (⟨S65472x2, .i32⟩ : BufTy).Contents (Elt F) → (⟨S256x2, .i32⟩ : BufTy).Contents (Elt F)),
    unary main_v196 main_v197 ((extractStridedSlice S256x1 ![0, 0] · slices_S256x2_S256x1_0_0) : (⟨S256x2, .i32⟩ : BufTy).Contents (Elt F) → (⟨S256x1, .i32⟩ : BufTy).Contents (Elt F)),
    reshape main_v197 main_v198 rfl shapeCasts_S256x1_S256,
    nullary main_c_27 (constantI S_ 32 0#32),
    unary main_c_27 main_v199 (broadcastInDim S256 ![] bcast_S_S256 : (⟨S_, .i32⟩ : BufTy).Contents (Elt F) → (⟨S256, .i32⟩ : BufTy).Contents (Elt F)),
    binary main_v198 main_v199 main_v200 (cmpi .slt : (⟨S256, .i32⟩ : BufTy).Contents (Elt F) → (⟨S256, .i32⟩ : BufTy).Contents (Elt F) → (⟨S256, .i1⟩ : BufTy).Contents (Elt F)),
    nullary main_c_28 (constantI S_ 32 512#32),
    unary main_c_28 main_v201 (broadcastInDim S256 ![] bcast_S_S256 : (⟨S_, .i32⟩ : BufTy).Contents (Elt F) → (⟨S256, .i32⟩ : BufTy).Contents (Elt F)),
    binary main_v198 main_v201 main_v202 (addi : (⟨S256, .i32⟩ : BufTy).Contents (Elt F) → (⟨S256, .i32⟩ : BufTy).Contents (Elt F) → (⟨S256, .i32⟩ : BufTy).Contents (Elt F)),
    ternary main_v200 main_v202 main_v198 main_v203 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v203 main_v204 (broadcastInDim S256x1 ![0] bcast_S256_S256x1_0 : (⟨S256, .i32⟩ : BufTy).Contents (Elt F) → (⟨S256x1, .i32⟩ : BufTy).Contents (Elt F)),
    binary main_v195 main_v204 main_v205 ((fun x i => Host.gather gather_S512x512_S256x1_S256x512_1_0_n_n_0_1_1512 x i) : (⟨S512x512, .f32⟩ : BufTy).Contents (Elt F) → (⟨S256x1, .i32⟩ : BufTy).Contents (Elt F) → (⟨S256x512, .f32⟩ : BufTy).Contents (Elt F)),
    unary main_v196 main_v206 ((extractStridedSlice S256x1 ![0, 1] · slices_S256x2_S256x1_0_1) : (⟨S256x2, .i32⟩ : BufTy).Contents (Elt F) → (⟨S256x1, .i32⟩ : BufTy).Contents (Elt F)),
    reshape main_v206 main_v207 rfl shapeCasts_S256x1_S256,
    nullary main_c_29 (constantI S_ 32 0#32),
    unary main_c_29 main_v208 (broadcastInDim S256 ![] bcast_S_S256 : (⟨S_, .i32⟩ : BufTy).Contents (Elt F) → (⟨S256, .i32⟩ : BufTy).Contents (Elt F)),
    binary main_v207 main_v208 main_v209 (cmpi .slt : (⟨S256, .i32⟩ : BufTy).Contents (Elt F) → (⟨S256, .i32⟩ : BufTy).Contents (Elt F) → (⟨S256, .i1⟩ : BufTy).Contents (Elt F)),
    nullary main_c_30 (constantI S_ 32 512#32),
    unary main_c_30 main_v210 (broadcastInDim S256 ![] bcast_S_S256 : (⟨S_, .i32⟩ : BufTy).Contents (Elt F) → (⟨S256, .i32⟩ : BufTy).Contents (Elt F)),
    binary main_v207 main_v210 main_v211 (addi : (⟨S256, .i32⟩ : BufTy).Contents (Elt F) → (⟨S256, .i32⟩ : BufTy).Contents (Elt F) → (⟨S256, .i32⟩ : BufTy).Contents (Elt F)),
    ternary main_v209 main_v211 main_v207 main_v212 (select : (⟨S256, .i1⟩ : BufTy).Contents (Elt F) → (⟨S256, .i32⟩ : BufTy).Contents (Elt F) → (⟨S256, .i32⟩ : BufTy).Contents (Elt F) → (⟨S256, .i32⟩ : BufTy).Contents (Elt F)),
    unary main_v212 main_v213 (broadcastInDim S256x1 ![0] bcast_S256_S256x1_0 : (⟨S256, .i32⟩ : BufTy).Contents (Elt F) → (⟨S256x1, .i32⟩ : BufTy).Contents (Elt F)),
    binary main_v195 main_v213 main_v214 ((fun x i => Host.gather gather_S512x512_S256x1_S256x512_1_0_n_n_0_1_1512 x i) : (⟨S512x512, .f32⟩ : BufTy).Contents (Elt F) → (⟨S256x1, .i32⟩ : BufTy).Contents (Elt F) → (⟨S256x512, .f32⟩ : BufTy).Contents (Elt F)),
    unary main_v5 main_v215 ((extractStridedSlice S256x512 ![192, 0] · slices_S131008x512_S256x512_192_0) : (⟨S131008x512, .f32⟩ : BufTy).Contents (Elt F) → (⟨S256x512, .f32⟩ : BufTy).Contents (Elt F)),
    nary ![main_v205, main_v214, main_v215] main_v216 (fun u => concatenate S256x1536 1 [⟨S256x512, u 0⟩, ⟨S256x512, u 1⟩, ⟨S256x512, u 2⟩] concatenates_S256x512_S256x512_S256x512_S256x1536_d1),
    unary main_arg4 main_v217 ((transpose S1536x512 [1, 0] · transposes_S512x1536_S1536x512_1_0) : (⟨S512x1536, .f32⟩ : BufTy).Contents (Elt F) → (⟨S1536x512, .f32⟩ : BufTy).Contents (Elt F)),
    binary main_v216 main_v217 main_v218 ((fun l r => Host.dotGeneral dot_S256x1536_S1536x512_S256x512_1_0_0_1_n_n none l r) : (⟨S256x1536, .f32⟩ : BufTy).Contents (Elt F) → (⟨S1536x512, .f32⟩ : BufTy).Contents (Elt F) → (⟨S256x512, .f32⟩ : BufTy).Contents (Elt F)),
    unary main_arg5 main_v219 (broadcastInDim S1x512 ![1] bcast_S512_S1x512_1 : (⟨S512, .f32⟩ : BufTy).Contents (Elt F) → (⟨S1x512, .f32⟩ : BufTy).Contents (Elt F)),
    unary main_v219 main_v220 (broadcastInDim S256x512 ![0, 1] bcast_S1x512_S256x512_0_1 : (⟨S1x512, .f32⟩ : BufTy).Contents (Elt F) → (⟨S256x512, .f32⟩ : BufTy).Contents (Elt F)),
    binary main_v218 main_v220 main_v221 (addf : (⟨S256x512, .f32⟩ : BufTy).Contents (Elt F) → (⟨S256x512, .f32⟩ : BufTy).Contents (Elt F) → (⟨S256x512, .f32⟩ : BufTy).Contents (Elt F)),
    TRef.nullary (TRef.of (T := ⟨S_, .f32⟩) main_call8_cst) (constant S_ .f32 0x00000000#32),
    TRef.unary (TRef.of (T := ⟨S_, .f32⟩) main_call8_cst) (TRef.of (T := ⟨S256x512, .f32⟩) main_call8_v0) (broadcastInDim S256x512 ![] bcast_S_S256x512),
    TRef.binary (TRef.of (T := ⟨S256x512, .f32⟩) main_v221) (TRef.of (T := ⟨S256x512, .f32⟩) main_call8_v0) (TRef.of (T := ⟨S256x512, .f32⟩) main_v222) maximumf ]

theorem opsL2_sub : (opsL2 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL2_fresh : ∀ op ∈ (opsL2 : List (HloOp τ sig (Elt F))), op.fresh = ∅ := by
  intro _ h; (repeat (cases h with | head => rfl | tail _ h => ?_)); exact nomatch h

set_option maxHeartbeats 4000000 in
theorem opsL2_out :
    after opsL2 V main_v222 = refLin2 (refX2 (V main_v195) (V main_arg1) (V main_v5)) (V main_arg4) (V main_arg5) := by
  after_results_simp3 <;> rfl

/-- The level writes neither the node features nor the six arguments. -/
theorem opsL2_keep {r : Ref sig .tc} (hr : r ∈ main_v5 :: args) : after opsL2 V r = V r := by
  (repeat (cases hr with | head => (after_results_simp3 <;> rfl) | tail _ hr => ?_)); exact nomatch hr

/-- The buffers after level 2. -/
def WL2 : Valuation τ sig (Elt F) := after opsL2 (WL3 V)

theorem WL2_arg {r : Ref sig .tc} (hr : r ∈ args) : WL2 V r = V r :=
  (opsL2_keep _ (.tail _ hr)).trans (WL3_arg V hr)
theorem WL2_v5 : WL2 V main_v5 = refU (V main_arg0) (V main_arg2) (V main_arg3) :=
  (opsL2_keep _ (.head _)).trans (WL3_v5 V)
theorem WL2_out : WL2 V main_v222 = refE2 (V main_arg0) (V main_arg1) (V main_arg2) (V main_arg3) (V main_arg4) (V main_arg5) := by
  unfold WL2 refE2
  rw [opsL2_out, WL3_out, WL3_arg V (r := main_arg1) (by decide), WL3_v5, WL3_arg V (r := main_arg4) (by decide),
    WL3_arg V (r := main_arg5) (by decide)]

abbrev opsL1 : List (HloOp τ sig (Elt F)) :=
  [ unary main_arg1 main_v223 ((extractStridedSlice S128x2 ![64, 0] · slices_S65472x2_S128x2_64_0) : (⟨S65472x2, .i32⟩ : BufTy).Contents (Elt F) → (⟨S128x2, .i32⟩ : BufTy).Contents (Elt F)),
    unary main_v223 main_v224 ((extractStridedSlice S128x1 ![0, 0] · slices_S128x2_S128x1_0_0) : (⟨S128x2, .i32⟩ : BufTy).Contents (Elt F) → (⟨S128x1, .i32⟩ : BufTy).Contents (Elt F)),
    reshape main_v224 main_v225 rfl shapeCasts_S128x1_S128,
    nullary main_c_31 (constantI S_ 32 0#32),
    unary main_c_31 main_v226 (broadcastInDim S128 ![] bcast_S_S128 : (⟨S_, .i32⟩ : BufTy).Contents (Elt F) → (⟨S128, .i32⟩ : BufTy).Contents (Elt F)),
    binary main_v225 main_v226 main_v227 (cmpi .slt : (⟨S128, .i32⟩ : BufTy).Contents (Elt F) → (⟨S128, .i32⟩ : BufTy).Contents (Elt F) → (⟨S128, .i1⟩ : BufTy).Contents (Elt F)),
    nullary main_c_32 (constantI S_ 32 256#32),
    unary main_c_32 main_v228 (broadcastInDim S128 ![] bcast_S_S128 : (⟨S_, .i32⟩ : BufTy).Contents (Elt F) → (⟨S128, .i32⟩ : BufTy).Contents (Elt F)),
    binary main_v225 main_v228 main_v229 (addi : (⟨S128, .i32⟩ : BufTy).Contents (Elt F) → (⟨S128, .i32⟩ : BufTy).Contents (Elt F) → (⟨S128, .i32⟩ : BufTy).Contents (Elt F)),
    ternary main_v227 main_v229 main_v225 main_v230 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v230 main_v231 (broadcastInDim S128x1 ![0] bcast_S128_S128x1_0 : (⟨S128, .i32⟩ : BufTy).Contents (Elt F) → (⟨S128x1, .i32⟩ : BufTy).Contents (Elt F)),
    binary main_v222 main_v231 main_v232 ((fun x i => Host.gather gather_S256x512_S128x1_S128x512_1_0_n_n_0_1_1512 x i) : (⟨S256x512, .f32⟩ : BufTy).Contents (Elt F) → (⟨S128x1, .i32⟩ : BufTy).Contents (Elt F) → (⟨S128x512, .f32⟩ : BufTy).Contents (Elt F)),
    unary main_v223 main_v233 ((extractStridedSlice S128x1 ![0, 1] · slices_S128x2_S128x1_0_1) : (⟨S128x2, .i32⟩ : BufTy).Contents (Elt F) → (⟨S128x1, .i32⟩ : BufTy).Contents (Elt F)),
    reshape main_v233 main_v234 rfl shapeCasts_S128x1_S128,
    nullary main_c_33 (constantI S_ 32 0#32),
    unary main_c_33 main_v235 (broadcastInDim S128 ![] bcast_S_S128 : (⟨S_, .i32⟩ : BufTy).Contents (Elt F) → (⟨S128, .i32⟩ : BufTy).Contents (Elt F)),
    binary main_v234 main_v235 main_v236 (cmpi .slt : (⟨S128, .i32⟩ : BufTy).Contents (Elt F) → (⟨S128, .i32⟩ : BufTy).Contents (Elt F) → (⟨S128, .i1⟩ : BufTy).Contents (Elt F)),
    nullary main_c_34 (constantI S_ 32 256#32),
    unary main_c_34 main_v237 (broadcastInDim S128 ![] bcast_S_S128 : (⟨S_, .i32⟩ : BufTy).Contents (Elt F) → (⟨S128, .i32⟩ : BufTy).Contents (Elt F)),
    binary main_v234 main_v237 main_v238 (addi : (⟨S128, .i32⟩ : BufTy).Contents (Elt F) → (⟨S128, .i32⟩ : BufTy).Contents (Elt F) → (⟨S128, .i32⟩ : BufTy).Contents (Elt F)),
    ternary main_v236 main_v238 main_v234 main_v239 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    unary main_v239 main_v240 (broadcastInDim S128x1 ![0] bcast_S128_S128x1_0 : (⟨S128, .i32⟩ : BufTy).Contents (Elt F) → (⟨S128x1, .i32⟩ : BufTy).Contents (Elt F)),
    binary main_v222 main_v240 main_v241 ((fun x i => Host.gather gather_S256x512_S128x1_S128x512_1_0_n_n_0_1_1512 x i) : (⟨S256x512, .f32⟩ : BufTy).Contents (Elt F) → (⟨S128x1, .i32⟩ : BufTy).Contents (Elt F) → (⟨S128x512, .f32⟩ : BufTy).Contents (Elt F)),
    unary main_v5 main_v242 ((extractStridedSlice S128x512 ![64, 0] · slices_S131008x512_S128x512_64_0) : (⟨S131008x512, .f32⟩ : BufTy).Contents (Elt F) → (⟨S128x512, .f32⟩ : BufTy).Contents (Elt F)),
    nary ![main_v232, main_v241, main_v242] main_v243 (fun u => concatenate S128x1536 1 [⟨S128x512, u 0⟩, ⟨S128x512, u 1⟩, ⟨S128x512, u 2⟩] concatenates_S128x512_S128x512_S128x512_S128x1536_d1),
    unary main_arg4 main_v244 ((transpose S1536x512 [1, 0] · transposes_S512x1536_S1536x512_1_0) : (⟨S512x1536, .f32⟩ : BufTy).Contents (Elt F) → (⟨S1536x512, .f32⟩ : BufTy).Contents (Elt F)),
    binary main_v243 main_v244 main_v245 ((fun l r => Host.dotGeneral dot_S128x1536_S1536x512_S128x512_1_0_0_1_n_n none l r) : (⟨S128x1536, .f32⟩ : BufTy).Contents (Elt F) → (⟨S1536x512, .f32⟩ : BufTy).Contents (Elt F) → (⟨S128x512, .f32⟩ : BufTy).Contents (Elt F)),
    unary main_arg5 main_v246 (broadcastInDim S1x512 ![1] bcast_S512_S1x512_1 : (⟨S512, .f32⟩ : BufTy).Contents (Elt F) → (⟨S1x512, .f32⟩ : BufTy).Contents (Elt F)),
    unary main_v246 main_v247 (broadcastInDim S128x512 ![0, 1] bcast_S1x512_S128x512_0_1 : (⟨S1x512, .f32⟩ : BufTy).Contents (Elt F) → (⟨S128x512, .f32⟩ : BufTy).Contents (Elt F)),
    binary main_v245 main_v247 main_v248 (addf : (⟨S128x512, .f32⟩ : BufTy).Contents (Elt F) → (⟨S128x512, .f32⟩ : BufTy).Contents (Elt F) → (⟨S128x512, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S128x512, .f32⟩) main_call9_v0) (broadcastInDim S128x512 ![] bcast_S_S128x512),
    TRef.binary (TRef.of (T := ⟨S128x512, .f32⟩) main_v248) (TRef.of (T := ⟨S128x512, .f32⟩) main_call9_v0) (TRef.of (T := ⟨S128x512, .f32⟩) main_v249) maximumf ]

theorem opsL1_sub : (opsL1 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL1_fresh : ∀ op ∈ (opsL1 : List (HloOp τ sig (Elt F))), op.fresh = ∅ := by
  intro _ h; (repeat (cases h with | head => rfl | tail _ h => ?_)); exact nomatch h

set_option maxHeartbeats 4000000 in
theorem opsL1_out :
    after opsL1 V main_v249 = refLin1 (refX1 (V main_v222) (V main_arg1) (V main_v5)) (V main_arg4) (V main_arg5) := by
  after_results_simp3 <;> rfl

/-- The level writes neither the node features nor the six arguments. -/
theorem opsL1_keep {r : Ref sig .tc} (hr : r ∈ main_v5 :: args) : after opsL1 V r = V r := by
  (repeat (cases hr with | head => (after_results_simp3 <;> rfl) | tail _ hr => ?_)); exact nomatch hr

/-- The buffers after level 1. -/
def WL1 : Valuation τ sig (Elt F) := after opsL1 (WL2 V)

theorem WL1_arg {r : Ref sig .tc} (hr : r ∈ args) : WL1 V r = V r :=
  (opsL1_keep _ (.tail _ hr)).trans (WL2_arg V hr)
theorem WL1_v5 : WL1 V main_v5 = refU (V main_arg0) (V main_arg2) (V main_arg3) :=
  (opsL1_keep _ (.head _)).trans (WL2_v5 V)
theorem WL1_out : WL1 V main_v249 = refE1 (V main_arg0) (V main_arg1) (V main_arg2) (V main_arg3) (V main_arg4) (V main_arg5) := by
  unfold WL1 refE1
  rw [opsL1_out, WL2_out, WL2_arg V (r := main_arg1) (by decide), WL2_v5, WL2_arg V (r := main_arg4) (by decide),
    WL2_arg V (r := main_arg5) (by decide)]

abbrev opsL0 : List (HloOp τ sig (Elt F)) :=
  [ unary main_arg1 main_v250 ((extractStridedSlice S64x2 ![0, 0] · slices_S65472x2_S64x2_0_0) : (⟨S65472x2, .i32⟩ : BufTy).Contents (Elt F) → (⟨S64x2, .i32⟩ : BufTy).Contents (Elt F)),
    unary main_v250 main_v251 ((extractStridedSlice S64x1 ![0, 0] · slices_S64x2_S64x1_0_0) : (⟨S64x2, .i32⟩ : BufTy).Contents (Elt F) → (⟨S64x1, .i32⟩ : BufTy).Contents (Elt F)),
    reshape main_v251 main_v252 rfl shapeCasts_S64x1_S64,
    nullary main_c_35 (constantI S_ 32 0#32),
    unary main_c_35 main_v253 (broadcastInDim S64 ![] bcast_S_S64 : (⟨S_, .i32⟩ : BufTy).Contents (Elt F) → (⟨S64, .i32⟩ : BufTy).Contents (Elt F)),
    binary main_v252 main_v253 main_v254 (cmpi .slt : (⟨S64, .i32⟩ : BufTy).Contents (Elt F) → (⟨S64, .i32⟩ : BufTy).Contents (Elt F) → (⟨S64, .i1⟩ : BufTy).Contents (Elt F)),
    nullary main_c_36 (constantI S_ 32 128#32),
    unary main_c_36 main_v255 (broadcastInDim S64 ![] bcast_S_S64 : (⟨S_, .i32⟩ : BufTy).Contents (Elt F) → (⟨S64, .i32⟩ : BufTy).Contents (Elt F)),
    binary main_v252 main_v255 main_v256 (addi : (⟨S64, .i32⟩ : BufTy).Contents (Elt F) → (⟨S64, .i32⟩ : BufTy).Contents (Elt F) → (⟨S64, .i32⟩ : BufTy).Contents (Elt F)),
    ternary main_v254 main_v256 main_v252 main_v257 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v257 main_v258 (broadcastInDim S64x1 ![0] bcast_S64_S64x1_0 : (⟨S64, .i32⟩ : BufTy).Contents (Elt F) → (⟨S64x1, .i32⟩ : BufTy).Contents (Elt F)),
    binary main_v249 main_v258 main_v259 ((fun x i => Host.gather gather_S128x512_S64x1_S64x512_1_0_n_n_0_1_1512 x i) : (⟨S128x512, .f32⟩ : BufTy).Contents (Elt F) → (⟨S64x1, .i32⟩ : BufTy).Contents (Elt F) → (⟨S64x512, .f32⟩ : BufTy).Contents (Elt F)),
    unary main_v250 main_v260 ((extractStridedSlice S64x1 ![0, 1] · slices_S64x2_S64x1_0_1) : (⟨S64x2, .i32⟩ : BufTy).Contents (Elt F) → (⟨S64x1, .i32⟩ : BufTy).Contents (Elt F)),
    reshape main_v260 main_v261 rfl shapeCasts_S64x1_S64,
    nullary main_c_37 (constantI S_ 32 0#32),
    unary main_c_37 main_v262 (broadcastInDim S64 ![] bcast_S_S64 : (⟨S_, .i32⟩ : BufTy).Contents (Elt F) → (⟨S64, .i32⟩ : BufTy).Contents (Elt F)),
    binary main_v261 main_v262 main_v263 (cmpi .slt : (⟨S64, .i32⟩ : BufTy).Contents (Elt F) → (⟨S64, .i32⟩ : BufTy).Contents (Elt F) → (⟨S64, .i1⟩ : BufTy).Contents (Elt F)),
    nullary main_c_38 (constantI S_ 32 128#32),
    unary main_c_38 main_v264 (broadcastInDim S64 ![] bcast_S_S64 : (⟨S_, .i32⟩ : BufTy).Contents (Elt F) → (⟨S64, .i32⟩ : BufTy).Contents (Elt F)),
    binary main_v261 main_v264 main_v265 (addi : (⟨S64, .i32⟩ : BufTy).Contents (Elt F) → (⟨S64, .i32⟩ : BufTy).Contents (Elt F) → (⟨S64, .i32⟩ : BufTy).Contents (Elt F)),
    ternary main_v263 main_v265 main_v261 main_v266 (select : (⟨S64, .i1⟩ : BufTy).Contents (Elt F) → (⟨S64, .i32⟩ : BufTy).Contents (Elt F) → (⟨S64, .i32⟩ : BufTy).Contents (Elt F) → (⟨S64, .i32⟩ : BufTy).Contents (Elt F)),
    unary main_v266 main_v267 (broadcastInDim S64x1 ![0] bcast_S64_S64x1_0 : (⟨S64, .i32⟩ : BufTy).Contents (Elt F) → (⟨S64x1, .i32⟩ : BufTy).Contents (Elt F)),
    binary main_v249 main_v267 main_v268 ((fun x i => Host.gather gather_S128x512_S64x1_S64x512_1_0_n_n_0_1_1512 x i) : (⟨S128x512, .f32⟩ : BufTy).Contents (Elt F) → (⟨S64x1, .i32⟩ : BufTy).Contents (Elt F) → (⟨S64x512, .f32⟩ : BufTy).Contents (Elt F)),
    unary main_v5 main_v269 ((extractStridedSlice S64x512 ![0, 0] · slices_S131008x512_S64x512_0_0) : (⟨S131008x512, .f32⟩ : BufTy).Contents (Elt F) → (⟨S64x512, .f32⟩ : BufTy).Contents (Elt F)),
    nary ![main_v259, main_v268, main_v269] main_v270 (fun u => concatenate S64x1536 1 [⟨S64x512, u 0⟩, ⟨S64x512, u 1⟩, ⟨S64x512, u 2⟩] concatenates_S64x512_S64x512_S64x512_S64x1536_d1),
    unary main_arg4 main_v271 ((transpose S1536x512 [1, 0] · transposes_S512x1536_S1536x512_1_0) : (⟨S512x1536, .f32⟩ : BufTy).Contents (Elt F) → (⟨S1536x512, .f32⟩ : BufTy).Contents (Elt F)),
    binary main_v270 main_v271 main_v272 ((fun l r => Host.dotGeneral dot_S64x1536_S1536x512_S64x512_1_0_0_1_n_n none l r) : (⟨S64x1536, .f32⟩ : BufTy).Contents (Elt F) → (⟨S1536x512, .f32⟩ : BufTy).Contents (Elt F) → (⟨S64x512, .f32⟩ : BufTy).Contents (Elt F)),
    unary main_arg5 main_v273 (broadcastInDim S1x512 ![1] bcast_S512_S1x512_1 : (⟨S512, .f32⟩ : BufTy).Contents (Elt F) → (⟨S1x512, .f32⟩ : BufTy).Contents (Elt F)),
    unary main_v273 main_v274 (broadcastInDim S64x512 ![0, 1] bcast_S1x512_S64x512_0_1 : (⟨S1x512, .f32⟩ : BufTy).Contents (Elt F) → (⟨S64x512, .f32⟩ : BufTy).Contents (Elt F)),
    binary main_v272 main_v274 main_v275 (addf : (⟨S64x512, .f32⟩ : BufTy).Contents (Elt F) → (⟨S64x512, .f32⟩ : BufTy).Contents (Elt F) → (⟨S64x512, .f32⟩ : BufTy).Contents (Elt F)),
    TRef.nullary (TRef.of (T := ⟨S_, .f32⟩) main_call10_cst) (constant S_ .f32 0x00000000#32),
    TRef.unary (TRef.of (T := ⟨S_, .f32⟩) main_call10_cst) (TRef.of (T := ⟨S64x512, .f32⟩) main_call10_v0) (broadcastInDim S64x512 ![] bcast_S_S64x512),
    TRef.binary (TRef.of (T := ⟨S64x512, .f32⟩) main_v275) (TRef.of (T := ⟨S64x512, .f32⟩) main_call10_v0) (TRef.of (T := ⟨S64x512, .f32⟩) main_v276) maximumf ]

theorem opsL0_sub : (opsL0 : List (HloOp τ sig (Elt F))).Forall fun op => op.bufs ⊆ tcRefs τ sig :=
  ⟨unary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., nary_bufs_sub .., unary_bufs_sub .., binary_bufs_sub .., unary_bufs_sub .., unary_bufs_sub .., binary_bufs_sub .., nullary_bufs_sub .., unary_bufs_sub .., binary_bufs_sub ..⟩

theorem opsL0_fresh : ∀ op ∈ (opsL0 : List (HloOp τ sig (Elt F))), op.fresh = ∅ := by
  intro _ h; (repeat (cases h with | head => rfl | tail _ h => ?_)); exact nomatch h

set_option maxHeartbeats 4000000 in
theorem opsL0_out :
    after opsL0 V main_v276 = refLin0 (refX0 (V main_v249) (V main_arg1) (V main_v5)) (V main_arg4) (V main_arg5) := by
  after_results_simp3 <;> rfl

/-- The level writes neither the node features nor the six arguments. -/
theorem opsL0_keep {r : Ref sig .tc} (hr : r ∈ main_v5 :: args) : after opsL0 V r = V r := by
  (repeat (cases hr with | head => (after_results_simp3 <;> rfl) | tail _ hr => ?_)); exact nomatch hr

/-- The buffers after level 0. -/
def WL0 : Valuation τ sig (Elt F) := after opsL0 (WL1 V)

theorem WL0_arg {r : Ref sig .tc} (hr : r ∈ args) : WL0 V r = V r :=
  (opsL0_keep _ (.tail _ hr)).trans (WL1_arg V hr)
theorem WL0_v5 : WL0 V main_v5 = refU (V main_arg0) (V main_arg2) (V main_arg3) :=
  (opsL0_keep _ (.head _)).trans (WL1_v5 V)
theorem WL0_out : WL0 V main_v276 = refE0 (V main_arg0) (V main_arg1) (V main_arg2) (V main_arg3) (V main_arg4) (V main_arg5) := by
  unfold WL0 refE0
  rw [opsL0_out, WL1_out, WL1_arg V (r := main_arg1) (by decide), WL1_v5, WL1_arg V (r := main_arg4) (by decide),
    WL1_arg V (r := main_arg5) (by decide)]

abbrev ops : List (HloOp τ sig (Elt F)) :=
  opsU ++ (opsL9 ++ (opsL8 ++ (opsL7 ++ (opsL6 ++ (opsL5 ++ (opsL4 ++ (opsL3 ++ (opsL2 ++ (opsL1 ++ opsL0)))))))))

theorem after_ops (V : Valuation τ sig (Elt F)) : after ops V = WL0 V := by
  simp only [ops, after_append]
  rfl

theorem ops_sub : (ops : List (HloOp τ sig (Elt F))).Forall fun op => op.bufs ⊆ tcRefs τ sig := by
  simp only [ops, List.forall_append]
  exact ⟨opsU_sub, opsL9_sub, opsL8_sub, opsL7_sub, opsL6_sub, opsL5_sub, opsL4_sub, opsL3_sub, opsL2_sub, opsL1_sub, opsL0_sub⟩

theorem ops_fresh : ∀ op ∈ (ops : List (HloOp τ sig (Elt F))), op.fresh = ∅ := by
  simp only [ops, List.forall_mem_append]
  exact ⟨opsU_fresh, opsL9_fresh, opsL8_fresh, opsL7_fresh, opsL6_fresh, opsL5_fresh, opsL4_fresh, opsL3_fresh, opsL2_fresh, opsL1_fresh, opsL0_fresh⟩

set_option maxRecDepth 8192 in
set_option maxHeartbeats 4000000 in
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main ends with the result buffer at `refE0` of the six arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v276) = refE0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v276).trans ((congrFun (after_ops _) _).trans (WL0_out _)),
      (h c main_arg0).trans ((congrFun (after_ops _) _).trans (WL0_arg _ (by decide))),
      (h c main_arg1).trans ((congrFun (after_ops _) _).trans (WL0_arg _ (by decide))),
      (h c main_arg2).trans ((congrFun (after_ops _) _).trans (WL0_arg _ (by decide))),
      (h c main_arg3).trans ((congrFun (after_ops _) _).trans (WL0_arg _ (by decide))),
      (h c main_arg4).trans ((congrFun (after_ops _) _).trans (WL0_arg _ (by decide))),
      (h c main_arg5).trans ((congrFun (after_ops _) _).trans (WL0_arg _ (by decide)))⟩)
    (run_seq scopedRefs_eq scopedSems_eq defs main (fun _ => ops) main_eq (fun _ => ops_sub) m ρ (fun _ => ops_fresh))

end Cert.ReferenceIdeal.RefValue

end
-- ==== Proof.RefSide.lean ====
import proofs.«407834_j69114613728754_1_alg».proof.Defs
import proofs.«407834_j69114613728754_1_alg».proof.Proof.Gen.ReferenceIdeal
import proofs.«407834_j69114613728754_1_alg».proof.Proof.Gen.Pre_finite_inputs
import proofs.«407834_j69114613728754_1_alg».proof.Proof.RefRun

noncomputable section

namespace Cert.ReferenceIdeal.RefValue

open Idealize.ShloMosaic Idealize.ShloMosaic.TcCoe Idealize.SL.Sem

theorem frame_ri : Cert.frame_ReferenceIdeal := fun m ρ _ =>
  (θ_run Cert.ReferenceIdeal.defs _ _).mono (fun _ h c => (h c).2) (Cert.ReferenceIdeal.RefValue.run (F := Ideal) m ρ)

/-- The reference ends with its result at the level-0 embedding of its arguments, the arguments kept. -/
theorem ref_run (m' : (ℓ : Loc Cert.ReferenceIdeal.nD Cert.ReferenceIdeal.τ Cert.ReferenceIdeal.sig) → Buf (Elt Ideal) ℓ) (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
      r.2.mem ((c.tc : Thread Cert.ReferenceIdeal.nD Cert.ReferenceIdeal.τ).loc Cert.ReferenceIdeal.main_v276) = refE0 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
      ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)) :=
  Cert.ReferenceIdeal.RefValue.run (F := Ideal) m' g'

end Cert.ReferenceIdeal.RefValue

end
-- ==== Proof.lean ====
/- A complete binary tree is embedded bottom-up: u = relu (contents · W_uᵀ + b_u) on every node, the leaves' embedding is u's
   last 65536 rows, and level j = 9 … 0 maps [emb[left] | emb[right] | u's rows of the level] to relu (· W_hᵀ + b_h).
   Kernel and reference compute these same eleven affine maps with positive part; they differ in tiling and in how a child row is read. -/
import proofs.«407834_j69114613728754_1_alg».proof.Defs
import proofs.«407834_j69114613728754_1_alg».proof.Proof.Gen.Kernel
import proofs.«407834_j69114613728754_1_alg».proof.Proof.Gen.KernelIdeal
import proofs.«407834_j69114613728754_1_alg».proof.Proof.Gen.ReferenceIdeal
import proofs.«407834_j69114613728754_1_alg».proof.Proof.Gen.Pre_finite_inputs
import proofs.«407834_j69114613728754_1_alg».proof.Proof.KRun
import proofs.«407834_j69114613728754_1_alg».proof.Proof.KIRun
import proofs.«407834_j69114613728754_1_alg».proof.Proof.KIValue
import proofs.«407834_j69114613728754_1_alg».proof.Proof.RefSide

noncomputable section

open Idealize.ShloMosaic Idealize.ShloMosaic.TcCoe Idealize.SL.Sem

namespace Cert.Proof

/-- The run's facts about the six arguments are the frame. -/
theorem frame_k : Cert.frame_Kernel := fun m ρ _ =>
  (θ_run Cert.Kernel.defs _ _).mono (fun _ h c => ⟨(h c).1, (h c).2.1, (h c).2.2.1, (h c).2.2.2.1, (h c).2.2.2.2.1, (h c).2.2.2.2.2.1⟩)
    (Cert.Kernel.Hand.run (F := Bits) m ρ)

theorem frame_ki : Cert.frame_KernelIdeal := fun m ρ _ =>
  (θ_run Cert.KernelIdeal.defs _ _).mono (fun _ h c => ⟨(h c).1, (h c).2.1, (h c).2.2.1, (h c).2.2.2.1, (h c).2.2.2.2.1, (h c).2.2.2.2.2.1⟩)
    (Cert.KernelIdeal.Hand.run (F := Ideal) m ρ)

/-- No operation was rewritten. -/
theorem preserves : Cert.preserves_Kernel_KernelIdeal := trivial

/-- Both runs end at the level-0 embedding of the same arguments. -/
theorem algebraic : Cert.algebraic_KernelIdeal_ReferenceIdeal := by
  intro m ρ m' ρ' hpre hagree
  refine ⟨fun c => Cert.KernelIdeal.Hand.X10 m c, ?_, ?_⟩
  · exact (θ_run Cert.KernelIdeal.defs _ _).mono
      (fun _ h c => ⟨(h c).2.2.2.2.2.2, (h c).1, (h c).2.1, (h c).2.2.1, (h c).2.2.2.1, (h c).2.2.2.2.1, (h c).2.2.2.2.2.1⟩)
      (Cert.KernelIdeal.Hand.run (F := Ideal) m ρ)
  · refine (θ_run Cert.ReferenceIdeal.defs _ _).mono (fun _ h c => ⟨(h c).1.trans ?_, (h c).2⟩)
      (Cert.ReferenceIdeal.RefValue.ref_run m' ρ')
    obtain ⟨h0, h1, h2, h3, h4, h5⟩ := hagree c
    rw [h0, h1, h2, h3, h4, h5]
    exact (Cert.KernelIdeal.Hand.val10 m c (hpre c)).symm

theorem claim : Cert.Claim := ⟨Cert.Kernel.Gen.facts, Cert.KernelIdeal.Gen.facts, Cert.ReferenceIdeal.Gen.facts, Cert.Pre_finite_inputs.Gen.facts,
  frame_k, frame_ki, Cert.ReferenceIdeal.RefValue.frame_ri, preserves, algebraic⟩

end Cert.Proof

end
